-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v255)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v255) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S2x128 : Shape := ⟨2, ![2, 128]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S256x128 .f32) (main_arg14 : FVec F S128 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S2x128x128 .f32) (main_arg10 : FVec F S2x128 .f32) (main_arg11 : FVec F S2x128 .f32) (main_arg12 : FVec F S2x128 .f32) (main_arg13 : FVec F S256x128 .f32) (main_arg14 : FVec F S128 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg13 main_arg14 main_v48 main_v49 main_v50

def fn_part1 {F : FTy → Type} [FloatOps F] (main_arg6 : FVec F S2x128 .f32) (main_arg7 : FVec F S2x128 .f32) (main_arg8 : FVec F S2x128 .f32) (main_arg9 : FVec F S2x128x128 .f32) (main_arg10 : FVec F S2x128 .f32) (main_arg11 : FVec F S2x128 .f32) (main_arg12 : FVec F S2x128 .f32) (main_arg13 : FVec F S256x128 .f32) (main_arg14 : FVec F S128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : FVec F S800000 .f32) (main_arg3 : IVec S2x800000 32) (main_arg4 : FVec F S800000 .f32) (main_arg5 : FVec F S2x128x128 .f32) (main_arg6 : FVec F S2x128 .f32) (main_arg7 : FVec F S2x128 .f32) (main_arg8 : FVec F S2x128 .f32) (main_arg9 : FVec F S2x128x128 .f32) (main_arg10 : FVec F S2x128 .f32) (main_arg11 : FVec F S2x128 .f32) (main_arg12 : FVec F S2x128 .f32) (main_arg13 : FVec F S256x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S2x128 : Shape := ⟨2, ![2, 128]⟩
abbrev S256x128 : Shape := ⟨2, ![256, 128]⟩
abbrev S128 : Shape := ⟨1, ![128]⟩
abbrev S1x800000 : Shape := ⟨2, ![1, 800000]⟩
abbrev S1x128x128 : Shape := ⟨3, ![1, 128, 128]⟩
abbrev S128x128 : Shape := ⟨2, ![128, 128]⟩
abbrev S2000x128 : Shape := ⟨2, ![2000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 335
  | .vmem => 85
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S2x800000, .i32⟩
  | 4 => ⟨S800000, .f32⟩
  | 5 => ⟨S2x128x128, .f32⟩
  | 6 => ⟨S2x128, .f32⟩
  | 7 => ⟨S2x128, .f32⟩
  | 8 => ⟨S2x128, .f32⟩
  | 9 => ⟨S2x128x128, .f32⟩
  | 10 => ⟨S2x128, .f32⟩
  | 11 => ⟨S2x128, .f32⟩
  | 12 => ⟨S2x128, .f32⟩
  | 13 => ⟨S256x128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S1x800000, .i32⟩
  | 20 => ⟨S800000, .i32⟩
  | 21 => ⟨S1x800000, .i32⟩
  | 22 => ⟨S800000, .i32⟩
  | 23 => ⟨S1x128x128, .f32⟩
  | 24 => ⟨S128x128, .f32⟩
  | 25 => ⟨S50000x128, .f32⟩
  | 26 => ⟨S50000, .i32⟩
  | 27 => ⟨S850000, .i32⟩
  | 28 => ⟨S850000, .i32⟩
  | 29 => ⟨S_, .f32⟩
  | 30 => ⟨S50000, .f32⟩
  | 31 => ⟨S850000, .f32⟩
  | 32 => ⟨S_, .f32⟩
  | 33 => ⟨S50000, .f32⟩
  | 34 => ⟨S850000x1, .i32⟩
  | 35 => ⟨S50000, .f32⟩
  | 36 => ⟨S_, .f32⟩
  | 37 => ⟨S50000, .f32⟩
  | 38 => ⟨S50000, .i1⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x1, .f32⟩
  | 74 => ⟨S850000x128, .f32⟩
  | 75 => ⟨S850000x128, .f32⟩
  | 76 => ⟨S_, .f32⟩
  | 77 => ⟨S50000x128, .f32⟩
  | 78 => ⟨S850000x1, .i32⟩
  | 79 => ⟨S50000x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S1x128, .f32⟩
  | 99 => ⟨S50000x128, .f32⟩
  | 100 => ⟨S1x128x128, .f32⟩
  | 101 => ⟨S128x128, .f32⟩
  | 102 => ⟨S50000x128, .f32⟩
  | 103 => ⟨S50000, .i32⟩
  | 104 => ⟨S850000, .i32⟩
  | 105 => ⟨S850000, .i32⟩
  | 106 => ⟨S_, .f32⟩
  | 107 => ⟨S50000, .f32⟩
  | 108 => ⟨S850000, .f32⟩
  | 109 => ⟨S_, .f32⟩
  | 110 => ⟨S50000, .f32⟩
  | 111 => ⟨S850000x1, .i32⟩
  | 112 => ⟨S50000, .f32⟩
  | 113 => ⟨S_, .f32⟩
  | 114 => ⟨S50000, .f32⟩
  | 115 => ⟨S50000, .i1⟩
  | 116 => ⟨S50000, .f32⟩
  | 117 => ⟨S_, .f32⟩
  | 118 => ⟨S_, .f32⟩
  | 119 => ⟨S50000, .f32⟩
  | 120 => ⟨S50000, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000, .f32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000, .f32⟩
  | 12 => ⟨S850000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x128, .f32⟩
  | 22 => ⟨S850000x1, .f32⟩
  | 23 => ⟨S850000x128, .f32⟩
  | 24 => ⟨S850000x128, .f32⟩
  | 25 => ⟨S_, .f32⟩
  | 26 => ⟨S50000x128, .f32⟩
  | 27 => ⟨S850000x1, .i32⟩
  | 28 => ⟨S50000x128, .f32⟩
  | 29 => ⟨S1x128, .f32⟩
  | 30 => ⟨S128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S1x128, .f32⟩
  | 37 => ⟨S1x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S50000x128, .f32⟩
  | 49 => ⟨S1x128x128, .f32⟩
  | 50 => ⟨S128x128, .f32⟩
  | 51 => ⟨S50000x128, .f32⟩
  | 52 => ⟨S50000, .i32⟩
  | 53 => ⟨S850000, .i32⟩
  | 54 => ⟨S850000, .i32⟩
  | 55 => ⟨S_, .f32⟩
  | 56 => ⟨S50000, .f32⟩
  | 57 => ⟨S850000, .f32⟩
  | 58 => ⟨S_, .f32⟩
  | 59 => ⟨S50000, .f32⟩
  | 60 => ⟨S850000x1, .i32⟩
  | 61 => ⟨S50000, .f32⟩
  | 62 => ⟨S_, .f32⟩
  | 63 => ⟨S50000, .f32⟩
  | 64 => ⟨S50000, .i1⟩
  | 65 => ⟨S50000, .f32⟩
  | 66 => ⟨S_, .f32⟩
  | 67 => ⟨S_, .f32⟩
  | 68 => ⟨S50000, .f32⟩
  | 69 => ⟨S50000, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000, .f32⟩
  | 79 => ⟨S850000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x128, .f32⟩
  | 99 => ⟨S850000x1, .f32⟩
  | 100 => ⟨S850000x128, .f32⟩
  | 101 => ⟨S850000x128, .f32⟩
  | 102 => ⟨S_, .f32⟩
  | 103 => ⟨S50000x128, .f32⟩
  | 104 => ⟨S850000x1, .i32⟩
  | 105 => ⟨S50000x128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S50000x128, .f32⟩
  | 126 => ⟨S1x128x128, .f32⟩
  | 127 => ⟨S128x128, .f32⟩
  | _ => ⟨S50000x128, .f32⟩

abbrev hbmTy0_2 (i : Nat) : BufTy := match i % 128 with
  | 0 => ⟨S50000x128, .f32⟩
  | 1 => ⟨S50000, .i32⟩
  | 2 => ⟨S850000, .i32⟩
  | 3 => ⟨S850000, .i32⟩
  | 4 => ⟨S_, .f32⟩
  | 5 => ⟨S50000, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000, .f32⟩
  | 28 => ⟨S850000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x128, .f32⟩
  | 48 => ⟨S850000x1, .f32⟩
  | 49 => ⟨S850000x128, .f32⟩
  | 50 => ⟨S850000x128, .f32⟩
  | 51 => ⟨S_, .f32⟩
  | 52 => ⟨S50000x128, .f32⟩
  | 53 => ⟨S850000x1, .i32⟩
  | 54 => ⟨S50000x128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S50000x128, .f32⟩
  | 75 => ⟨S128x128, .f32⟩
  | 76 => ⟨S128x128, .f32⟩
  | 77 => ⟨S1x128, .f32⟩
  | 78 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S128x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S2000x128, .f32⟩
  | .local _ .vmem, ⟨68, _⟩ => ⟨S2000x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S128x128, .f32⟩
  | .local _ .vmem, ⟨81, _⟩ => ⟨S128x128, .f32⟩
  | .local _ .vmem, ⟨82, _⟩ => ⟨S1x128, .f32⟩
  | .local _ .vmem, ⟨83, _⟩ => ⟨S2000x128, .f32⟩
  | .local _ .vmem, ⟨84, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61_0 : Ref sig .tc := ⟨.hbm, 89, rfl⟩
abbrev main_v61_1 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_13 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_14 : Ref sig .tc := ⟨.hbm, 117, rfl⟩
abbrev main_call1_v0 : Ref sig .tc := ⟨.hbm, 118, rfl⟩
abbrev main_call1_v1 : Ref sig .tc := ⟨.hbm, 119, rfl⟩
abbrev main_v83 : Ref sig .tc := ⟨.hbm, 120, rfl⟩
abbrev main_c_15 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_17 : Ref sig .tc := ⟨.hbm, 131, rfl⟩
abbrev main_v92 : Ref sig .tc := ⟨.hbm, 132, rfl⟩
abbrev main_v93 : Ref sig .tc := ⟨.hbm, 133, rfl⟩
abbrev main_c_18 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_19 : Ref sig .tc := ⟨.hbm, 141, rfl⟩
abbrev main_v100 : Ref sig .tc := ⟨.hbm, 142, rfl⟩
abbrev main_v101 : Ref sig .tc := ⟨.hbm, 143, rfl⟩
abbrev main_c_20 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122_0 : Ref sig .tc := ⟨.hbm, 166, rfl⟩
abbrev main_v122_1 : Ref sig .tc := ⟨.hbm, 167, rfl⟩
abbrev main_cst_22 : Ref sig .tc := ⟨.hbm, 168, rfl⟩
abbrev main_v123 : Ref sig .tc := ⟨.hbm, 169, rfl⟩
abbrev main_v124 : Ref sig .tc := ⟨.hbm, 170, rfl⟩
abbrev main_cst_23 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_24 : Ref sig .tc := ⟨.hbm, 183, rfl⟩
abbrev main_v136 : Ref sig .tc := ⟨.hbm, 184, rfl⟩
abbrev main_v137 : Ref sig .tc := ⟨.hbm, 185, rfl⟩
abbrev main_cst_25 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_26 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_27 : Ref sig .tc := ⟨.hbm, 194, rfl⟩
abbrev main_call2_v0 : Ref sig .tc := ⟨.hbm, 195, rfl⟩
abbrev main_call2_v1 : Ref sig .tc := ⟨.hbm, 196, rfl⟩
abbrev main_v144 : Ref sig .tc := ⟨.hbm, 197, rfl⟩
abbrev main_c_28 : Ref sig .tc := ⟨.hbm, 198, rfl⟩
abbrev main_v145 : Ref sig .tc := ⟨.hbm, 199, rfl⟩
abbrev main_v146 : Ref sig .tc := ⟨.hbm, 200, rfl⟩
abbrev main_c_29 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_30 : Ref sig .tc := ⟨.hbm, 208, rfl⟩
abbrev main_v153 : Ref sig .tc := ⟨.hbm, 209, rfl⟩
abbrev main_v154 : Ref sig .tc := ⟨.hbm, 210, rfl⟩
abbrev main_c_31 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_c_32 : Ref sig .tc := ⟨.hbm, 218, rfl⟩
abbrev main_v161 : Ref sig .tc := ⟨.hbm, 219, rfl⟩
abbrev main_v162 : Ref sig .tc := ⟨.hbm, 220, rfl⟩
abbrev main_c_33 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_34 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183_0 : Ref sig .tc := ⟨.hbm, 243, rfl⟩
abbrev main_v183_1 : Ref sig .tc := ⟨.hbm, 244, rfl⟩
abbrev main_cst_35 : Ref sig .tc := ⟨.hbm, 245, rfl⟩
abbrev main_v184 : Ref sig .tc := ⟨.hbm, 246, rfl⟩
abbrev main_v185 : Ref sig .tc := ⟨.hbm, 247, rfl⟩
abbrev main_cst_36 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_37 : Ref sig .tc := ⟨.hbm, 260, rfl⟩
abbrev main_v197 : Ref sig .tc := ⟨.hbm, 261, rfl⟩
abbrev main_v198 : Ref sig .tc := ⟨.hbm, 262, rfl⟩
abbrev main_cst_38 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_cst_39 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_cst_40 : Ref sig .tc := ⟨.hbm, 271, rfl⟩
abbrev main_call3_v0 : Ref sig .tc := ⟨.hbm, 272, rfl⟩
abbrev main_call3_v1 : Ref sig .tc := ⟨.hbm, 273, rfl⟩
abbrev main_v205 : Ref sig .tc := ⟨.hbm, 274, rfl⟩
abbrev main_c_41 : Ref sig .tc := ⟨.hbm, 275, rfl⟩
abbrev main_v206 : Ref sig .tc := ⟨.hbm, 276, rfl⟩
abbrev main_v207 : Ref sig .tc := ⟨.hbm, 277, rfl⟩
abbrev main_c_42 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_c_43 : Ref sig .tc := ⟨.hbm, 285, rfl⟩
abbrev main_v214 : Ref sig .tc := ⟨.hbm, 286, rfl⟩
abbrev main_v215 : Ref sig .tc := ⟨.hbm, 287, rfl⟩
abbrev main_c_44 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_c_45 : Ref sig .tc := ⟨.hbm, 295, rfl⟩
abbrev main_v222 : Ref sig .tc := ⟨.hbm, 296, rfl⟩
abbrev main_v223 : Ref sig .tc := ⟨.hbm, 297, rfl⟩
abbrev main_c_46 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_cst_47 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244_0 : Ref sig .tc := ⟨.hbm, 320, rfl⟩
abbrev main_v244_1 : Ref sig .tc := ⟨.hbm, 321, rfl⟩
abbrev main_cst_48 : Ref sig .tc := ⟨.hbm, 322, rfl⟩
abbrev main_v245 : Ref sig .tc := ⟨.hbm, 323, rfl⟩
abbrev main_v246 : Ref sig .tc := ⟨.hbm, 324, rfl⟩
abbrev main_cst_49 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg2_0 : Ref sig .tc := ⟨.vmem, 65, rfl⟩
abbrev cc10_stg3_0 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg3_0 : Ref sig .tc := ⟨.vmem, 71, rfl⟩
abbrev cc11_stg4_0 : Ref sig .tc := ⟨.vmem, 72, rfl⟩
abbrev cc11_stg5_0 : Ref sig .tc := ⟨.vmem, 73, rfl⟩
abbrev cc11_stg6_0 : Ref sig .tc := ⟨.vmem, 74, rfl⟩
abbrev cc11_stg6_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg1_1 : Ref sig .tc := ⟨.vmem, 79, rfl⟩
abbrev cc12_stg2_0 : Ref sig .tc := ⟨.vmem, 80, rfl⟩
abbrev cc12_stg3_0 : Ref sig .tc := ⟨.vmem, 81, rfl⟩
abbrev cc12_stg4_0 : Ref sig .tc := ⟨.vmem, 82, rfl⟩
abbrev cc12_stg5_0 : Ref sig .tc := ⟨.vmem, 83, rfl⟩
abbrev cc12_stg5_1 : Ref sig .tc := ⟨.vmem, 84, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem2_0 : DmaSem sig := 65
abbrev cc10_sem3_0 : DmaSem sig := 66
abbrev cc11_sem0_0 : DmaSem sig := 67
abbrev cc11_sem0_1 : DmaSem sig := 68
abbrev cc11_sem1_0 : DmaSem sig := 69
abbrev cc11_sem2_0 : DmaSem sig := 70
abbrev cc11_sem3_0 : DmaSem sig := 71
abbrev cc11_sem4_0 : DmaSem sig := 72
abbrev cc11_sem5_0 : DmaSem sig := 73
abbrev cc11_sem6_0 : DmaSem sig := 74
abbrev cc11_sem6_1 : DmaSem sig := 75
abbrev cc12_sem0_0 : DmaSem sig := 76
abbrev cc12_sem0_1 : DmaSem sig := 77
abbrev cc12_sem1_0 : DmaSem sig := 78
abbrev cc12_sem1_1 : DmaSem sig := 79
abbrev cc12_sem2_0 : DmaSem sig := 80
abbrev cc12_sem3_0 : DmaSem sig := 81
abbrev cc12_sem4_0 : DmaSem sig := 82
abbrev cc12_sem5_0 : DmaSem sig := 83
abbrev cc12_sem5_1 : DmaSem sig := 84

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k1_cond2 (i : grid1.Coords) : BitVec 1 :=
  let arg0 : BitVec 32 := BitVec.ofNat 32 (i 0).val
  let c0_i32_5 : BitVec 32 := 0#32
  let v14 : BitVec 1 := Scalar.cmpi .ne arg0 c0_i32_5
  let v15 : BitVec 32 := Scalar.extui v14
  let c0_i32_6 : BitVec 32 := 0#32
  let v16 : BitVec 1 := Scalar.cmpi .ne v15 c0_i32_6
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond1 (i : grid4.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k4_cond2 (i : grid4.Coords) : BitVec 1 :=
  let arg0 : BitVec 32 := BitVec.ofNat 32 (i 0).val
  let c0_i32_5 : BitVec 32 := 0#32
  let v14 : BitVec 1 := Scalar.cmpi .ne arg0 c0_i32_5
  let v15 : BitVec 32 := Scalar.extui v14
  let c0_i32_6 : BitVec 32 := 0#32
  let v16 : BitVec 1 := Scalar.cmpi .ne v15 c0_i32_6
  v16

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def k7_cond1 (i : grid7.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k7_cond2 (i : grid7.Coords) : BitVec 1 :=
  let arg0 : BitVec 32 := BitVec.ofNat 32 (i 0).val
  let c0_i32_5 : BitVec 32 := 0#32
  let v14 : BitVec 1 := Scalar.cmpi .ne arg0 c0_i32_5
  let v15 : BitVec 32 := Scalar.extui v14
  let c0_i32_6 : BitVec 32 := 0#32
  let v16 : BitVec 1 := Scalar.cmpi .ne v15 c0_i32_6
  v16

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def k10_cond1 (i : grid10.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k10_cond2 (i : grid10.Coords) : BitVec 1 :=
  let arg0 : BitVec 32 := BitVec.ofNat 32 (i 0).val
  let c0_i32_5 : BitVec 32 := 0#32
  let v14 : BitVec 1 := Scalar.cmpi .ne arg0 c0_i32_5
  let v15 : BitVec 32 := Scalar.extui v14
  let c0_i32_6 : BitVec 32 := 0#32
  let v16 : BitVec 1 := Scalar.cmpi .ne v15 c0_i32_6
  v16

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S2000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x128x128_S1x128x128_0_0_0 : S2x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  slices_S256x128_S128x128_0_0 : S256x128.Slices ![0, 0] S128x128
  slices_S256x128_S128x128_128_0 : S256x128.Slices ![128, 0] S128x128
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S50000x128.size a
  hwx8_6 : ∀ i : grid8.Coords, EltTy.bits .f32 = 32 ∨ (Rect.block (s := S50000x128) S2000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S50000x128.size a
  hwx9_2 : ∀ i : grid9.Coords, EltTy.bits .f32 = 32 ∨ (Rect.block (s := S50000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S2000x128.size a ≤ S50000x128.size a
  hwx11_6 : ∀ i : grid11.Coords, EltTy.bits .f32 = 32 ∨ (Rect.block (s := S50000x128) S2000x128.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x128.size a ≤ S50000x128.size a
  hwx12_1 : ∀ i : grid12.Coords, EltTy.bits .f32 = 32 ∨ (Rect.block (s := S50000x128) S2000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x128.size a ≤ S128x128.size a
  hwx12_3 : ∀ i : grid12.Coords, EltTy.bits .f32 = 32 ∨ (Rect.block (s := S128x128) S128x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x128.size a ≤ S50000x128.size a
  hwx12_5 : ∀ i : grid12.Coords, EltTy.bits .f32 = 32 ∨ (Rect.block (s := S50000x128) S2000x128.size (cc12_transform_5 i) (hinb12_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond1 i == 1#1) && !(k1_cond2 i == 1#1) | 3 => fun i => !(k1_cond1 i == 1#1) && !(k1_cond2 i == 1#1) | ⟨_ + 4, h⟩ => absurd h (Nat.not_lt.2 (Nat.le_add_left _ _))

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v68) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v112) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v119) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v122_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v122_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond1 i == 1#1) && !(k4_cond2 i == 1#1) | 3 => fun i => !(k4_cond1 i == 1#1) && !(k4_cond2 i == 1#1) | ⟨_ + 4, h⟩ => absurd h (Nat.not_lt.2 (Nat.le_add_left _ _))

abbrev win5_0 : Pipeline.Window sig grid5 :=
  Pipeline.Window.ofSpec (Memref.whole main_v112) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v124) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v128) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v120) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v121) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v129) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_arg0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v131) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v132) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v173) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v180) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v183_0) S1x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v183_1) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond1 i == 1#1) && !(k7_cond2 i == 1#1) | 3 => fun i => !(k7_cond1 i == 1#1) && !(k7_cond2 i == 1#1) | ⟨_ + 4, h⟩ => absurd h (Nat.not_lt.2 (Nat.le_add_left _ _))

abbrev win8_0 : Pipeline.Window sig grid8 :=
  Pipeline.Window.ofSpec (Memref.whole main_v173) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v180) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v185) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v189) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v181) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v182) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v190) S2000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v190) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v192) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v193) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v234) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v241) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v244_0) S1x128.size cc10_transform_2 reads10_2 true true 1 stage10_2 sem10_2
    hrank10 hreads10_2 hinb10_2 nbuf10_2 (Memref.isWhole_whole _) hwx10_2 hstage10_2

abbrev win10_3 : Pipeline.Window sig grid10 :=
  Pipeline.Window.ofSpec (Memref.whole main_v244_1) S1x128.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun i => !(k10_cond1 i == 1#1) && !(k10_cond2 i == 1#1) | 3 => fun i => !(k10_cond1 i == 1#1) && !(k10_cond2 i == 1#1) | ⟨_ + 4, h⟩ => absurd h (Nat.not_lt.2 (Nat.le_add_left _ _))

abbrev win11_0 : Pipeline.Window sig grid11 :=
  Pipeline.Window.ofSpec (Memref.whole main_v234) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v241) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v246) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v250) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v242) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v243) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v251) S2000x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v129) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v251) S2000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v252) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v253) S128x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v254) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v255) S2000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S2x128 : Shape := ⟨2, ![2, 128]⟩
abbrev S256x128 : Shape := ⟨2, ![256, 128]⟩
abbrev S128 : Shape := ⟨1, ![128]⟩
abbrev S1x800000 : Shape := ⟨2, ![1, 800000]⟩
abbrev S1x128x128 : Shape := ⟨3, ![1, 128, 128]⟩
abbrev S128x128 : Shape := ⟨2, ![128, 128]⟩
abbrev S1x128 : Shape := ⟨2, ![1, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x256 : Shape := ⟨2, ![50000, 256]⟩

abbrev nBuf : Space → Nat
  | .hbm => 494
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S2x800000, .i32⟩
  | 4 => ⟨S800000, .f32⟩
  | 5 => ⟨S2x128x128, .f32⟩
  | 6 => ⟨S2x128, .f32⟩
  | 7 => ⟨S2x128, .f32⟩
  | 8 => ⟨S2x128, .f32⟩
  | 9 => ⟨S2x128x128, .f32⟩
  | 10 => ⟨S2x128, .f32⟩
  | 11 => ⟨S2x128, .f32⟩
  | 12 => ⟨S2x128, .f32⟩
  | 13 => ⟨S256x128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S1x800000, .i32⟩
  | 20 => ⟨S800000, .i32⟩
  | 21 => ⟨S1x800000, .i32⟩
  | 22 => ⟨S800000, .i32⟩
  | 23 => ⟨S1x128x128, .f32⟩
  | 24 => ⟨S128x128, .f32⟩
  | 25 => ⟨S1x128, .f32⟩
  | 26 => ⟨S128, .f32⟩
  | 27 => ⟨S50000x128, .f32⟩
  | 28 => ⟨S50000, .i32⟩
  | 29 => ⟨S850000, .i32⟩
  | 30 => ⟨S850000, .i32⟩
  | 31 => ⟨S_, .f32⟩
  | 32 => ⟨S50000, .f32⟩
  | 33 => ⟨S850000, .f32⟩
  | 34 => ⟨S_, .f32⟩
  | 35 => ⟨S50000, .f32⟩
  | 36 => ⟨S850000x1, .i32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000, .f32⟩
  | 65 => ⟨S850000, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x128, .f32⟩
  | 75 => ⟨S850000x1, .f32⟩
  | 76 => ⟨S850000x128, .f32⟩
  | 77 => ⟨S850000x128, .f32⟩
  | 78 => ⟨S_, .f32⟩
  | 79 => ⟨S50000x128, .f32⟩
  | 80 => ⟨S850000x1, .i32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S1x128x128, .f32⟩
  | 9 => ⟨S128x128, .f32⟩
  | 10 => ⟨S1x128, .f32⟩
  | 11 => ⟨S128, .f32⟩
  | 12 => ⟨S50000x128, .f32⟩
  | 13 => ⟨S50000, .i32⟩
  | 14 => ⟨S850000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S1x128x128, .f32⟩
  | 122 => ⟨S128x128, .f32⟩
  | 123 => ⟨S1x128, .f32⟩
  | 124 => ⟨S128, .f32⟩
  | 125 => ⟨S50000x128, .f32⟩
  | 126 => ⟨S50000, .i32⟩
  | 127 => ⟨S850000, .i32⟩
  | _ => ⟨S50000x128, .f32⟩

abbrev hbmTy0_2 (i : Nat) : BufTy := match i % 128 with
  | 0 => ⟨S850000, .i32⟩
  | 1 => ⟨S_, .f32⟩
  | 2 => ⟨S50000, .f32⟩
  | 3 => ⟨S850000, .f32⟩
  | 4 => ⟨S_, .f32⟩
  | 5 => ⟨S50000, .f32⟩
  | 6 => ⟨S850000x1, .i32⟩
  | 7 => ⟨S50000, .f32⟩
  | 8 => ⟨S_, .f32⟩
  | 9 => ⟨S50000, .f32⟩
  | 10 => ⟨S50000, .i1⟩
  | 11 => ⟨S50000, .f32⟩
  | 12 => ⟨S_, .f32⟩
  | 13 => ⟨S_, .f32⟩
  | 14 => ⟨S50000, .f32⟩
  | 15 => ⟨S50000, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000, .f32⟩
  | 25 => ⟨S850000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x128, .f32⟩
  | 45 => ⟨S850000x1, .f32⟩
  | 46 => ⟨S850000x128, .f32⟩
  | 47 => ⟨S850000x128, .f32⟩
  | 48 => ⟨S_, .f32⟩
  | 49 => ⟨S50000x128, .f32⟩
  | 50 => ⟨S850000x1, .i32⟩
  | 51 => ⟨S50000x128, .f32⟩
  | 52 => ⟨S1x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S128, .f32⟩
  | 61 => ⟨S_, .f32⟩
  | 62 => ⟨S128, .f32⟩
  | 63 => ⟨S128, .f32⟩
  | 64 => ⟨S_, .i32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S_, .f32⟩
  | 76 => ⟨S_, .f32⟩
  | 77 => ⟨S_, .f32⟩
  | 78 => ⟨S128, .f32⟩
  | 79 => ⟨S128, .f32⟩
  | 80 => ⟨S128, .f32⟩
  | 81 => ⟨S_, .f32⟩
  | 82 => ⟨S_, .i1⟩
  | 83 => ⟨S_, .f32⟩
  | 84 => ⟨S_, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S1x128x128, .f32⟩
  | 107 => ⟨S128x128, .f32⟩
  | 108 => ⟨S1x128, .f32⟩
  | 109 => ⟨S128, .f32⟩
  | 110 => ⟨S50000x128, .f32⟩
  | 111 => ⟨S50000, .i32⟩
  | 112 => ⟨S850000, .i32⟩
  | 113 => ⟨S850000, .i32⟩
  | 114 => ⟨S_, .f32⟩
  | 115 => ⟨S50000, .f32⟩
  | 116 => ⟨S850000, .f32⟩
  | 117 => ⟨S_, .f32⟩
  | 118 => ⟨S50000, .f32⟩
  | 119 => ⟨S850000x1, .i32⟩
  | 120 => ⟨S50000, .f32⟩
  | 121 => ⟨S_, .f32⟩
  | 122 => ⟨S50000, .f32⟩
  | 123 => ⟨S50000, .i1⟩
  | 124 => ⟨S50000, .f32⟩
  | 125 => ⟨S_, .f32⟩
  | 126 => ⟨S_, .f32⟩
  | 127 => ⟨S50000, .f32⟩
  | _ => ⟨S50000x128, .f32⟩

abbrev hbmTy0_3 (i : Nat) : BufTy := match i % 128 with
  | 0 => ⟨S50000, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000, .f32⟩
  | 10 => ⟨S850000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000, .f32⟩
  | 20 => ⟨S850000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x128, .f32⟩
  | 30 => ⟨S850000x1, .f32⟩
  | 31 => ⟨S850000x128, .f32⟩
  | 32 => ⟨S850000x128, .f32⟩
  | 33 => ⟨S_, .f32⟩
  | 34 => ⟨S50000x128, .f32⟩
  | 35 => ⟨S850000x1, .i32⟩
  | 36 => ⟨S50000x128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S50000x128, .f32⟩
  | 57 => ⟨S50000x128, .f32⟩
  | 58 => ⟨S50000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x256, .f32⟩
  | 92 => ⟨S50000x128, .f32⟩
  | 93 => ⟨S1x128, .f32⟩
  | 94 => ⟨S50000x128, .f32⟩
  | 95 => ⟨S50000x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v24 : Ref sig .tc := ⟨.hbm, 45, rfl⟩
abbrev main_c : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_6 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_9 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_cst_1 : Ref sig .tc := ⟨.hbm, 105, rfl⟩
abbrev main_call1_v8 : Ref sig .tc := ⟨.hbm, 106, rfl⟩
abbrev main_call1_cst_2 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_cst_3 : Ref sig .tc := ⟨.hbm, 111, rfl⟩
abbrev main_call1_v12 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_12 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_call2_cst : Ref sig .tc := ⟨.hbm, 133, rfl⟩
abbrev main_call2_v0 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_13 : Ref sig .tc := ⟨.hbm, 144, rfl⟩
abbrev main_v89 : Ref sig .tc := ⟨.hbm, 145, rfl⟩
abbrev main_v90 : Ref sig .tc := ⟨.hbm, 146, rfl⟩
abbrev main_cst_14 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_15 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_16 : Ref sig .tc := ⟨.hbm, 155, rfl⟩
abbrev main_call3_v0 : Ref sig .tc := ⟨.hbm, 156, rfl⟩
abbrev main_call3_v1 : Ref sig .tc := ⟨.hbm, 157, rfl⟩
abbrev main_v97 : Ref sig .tc := ⟨.hbm, 158, rfl⟩
abbrev main_c_17 : Ref sig .tc := ⟨.hbm, 159, rfl⟩
abbrev main_v98 : Ref sig .tc := ⟨.hbm, 160, rfl⟩
abbrev main_v99 : Ref sig .tc := ⟨.hbm, 161, rfl⟩
abbrev main_c_18 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_c_19 : Ref sig .tc := ⟨.hbm, 169, rfl⟩
abbrev main_v106 : Ref sig .tc := ⟨.hbm, 170, rfl⟩
abbrev main_v107 : Ref sig .tc := ⟨.hbm, 171, rfl⟩
abbrev main_c_20 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_c_21 : Ref sig .tc := ⟨.hbm, 179, rfl⟩
abbrev main_v114 : Ref sig .tc := ⟨.hbm, 180, rfl⟩
abbrev main_v115 : Ref sig .tc := ⟨.hbm, 181, rfl⟩
abbrev main_c_22 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_cst_23 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_24 : Ref sig .tc := ⟨.hbm, 202, rfl⟩
abbrev main_v134 : Ref sig .tc := ⟨.hbm, 203, rfl⟩
abbrev main_cst_25 : Ref sig .tc := ⟨.hbm, 204, rfl⟩
abbrev main_v135 : Ref sig .tc := ⟨.hbm, 205, rfl⟩
abbrev main_v136 : Ref sig .tc := ⟨.hbm, 206, rfl⟩
abbrev main_c_26 : Ref sig .tc := ⟨.hbm, 207, rfl⟩
abbrev main_call4_cst : Ref sig .tc := ⟨.hbm, 208, rfl⟩
abbrev main_call4_v0 : Ref sig .tc := ⟨.hbm, 209, rfl⟩
abbrev main_call4_v1 : Ref sig .tc := ⟨.hbm, 210, rfl⟩
abbrev main_call4_cst_0 : Ref sig .tc := ⟨.hbm, 211, rfl⟩
abbrev main_call4_v2 : Ref sig .tc := ⟨.hbm, 212, rfl⟩
abbrev main_call4_v3 : Ref sig .tc := ⟨.hbm, 213, rfl⟩
abbrev main_call4_v4 : Ref sig .tc := ⟨.hbm, 214, rfl⟩
abbrev main_call4_v5 : Ref sig .tc := ⟨.hbm, 215, rfl⟩
abbrev main_call4_v6 : Ref sig .tc := ⟨.hbm, 216, rfl⟩
abbrev main_call4_v7 : Ref sig .tc := ⟨.hbm, 217, rfl⟩
abbrev main_call4_cst_1 : Ref sig .tc := ⟨.hbm, 218, rfl⟩
abbrev main_call4_v8 : Ref sig .tc := ⟨.hbm, 219, rfl⟩
abbrev main_call4_cst_2 : Ref sig .tc := ⟨.hbm, 220, rfl⟩
abbrev main_call4_v9 : Ref sig .tc := ⟨.hbm, 221, rfl⟩
abbrev main_call4_v10 : Ref sig .tc := ⟨.hbm, 222, rfl⟩
abbrev main_call4_v11 : Ref sig .tc := ⟨.hbm, 223, rfl⟩
abbrev main_call4_cst_3 : Ref sig .tc := ⟨.hbm, 224, rfl⟩
abbrev main_call4_v12 : Ref sig .tc := ⟨.hbm, 225, rfl⟩
abbrev main_call4_cst_4 : Ref sig .tc := ⟨.hbm, 226, rfl⟩
abbrev main_call4_call0_v0 : Ref sig .tc := ⟨.hbm, 227, rfl⟩
abbrev main_call4_call0_v1 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_cst_27 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_call5_cst : Ref sig .tc := ⟨.hbm, 246, rfl⟩
abbrev main_call5_v0 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_cst_28 : Ref sig .tc := ⟨.hbm, 257, rfl⟩
abbrev main_v162 : Ref sig .tc := ⟨.hbm, 258, rfl⟩
abbrev main_v163 : Ref sig .tc := ⟨.hbm, 259, rfl⟩
abbrev main_cst_29 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_cst_30 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_cst_31 : Ref sig .tc := ⟨.hbm, 268, rfl⟩
abbrev main_call6_v0 : Ref sig .tc := ⟨.hbm, 269, rfl⟩
abbrev main_call6_v1 : Ref sig .tc := ⟨.hbm, 270, rfl⟩
abbrev main_v170 : Ref sig .tc := ⟨.hbm, 271, rfl⟩
abbrev main_c_32 : Ref sig .tc := ⟨.hbm, 272, rfl⟩
abbrev main_v171 : Ref sig .tc := ⟨.hbm, 273, rfl⟩
abbrev main_v172 : Ref sig .tc := ⟨.hbm, 274, rfl⟩
abbrev main_c_33 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_c_34 : Ref sig .tc := ⟨.hbm, 282, rfl⟩
abbrev main_v179 : Ref sig .tc := ⟨.hbm, 283, rfl⟩
abbrev main_v180 : Ref sig .tc := ⟨.hbm, 284, rfl⟩
abbrev main_c_35 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_c_36 : Ref sig .tc := ⟨.hbm, 292, rfl⟩
abbrev main_v187 : Ref sig .tc := ⟨.hbm, 293, rfl⟩
abbrev main_v188 : Ref sig .tc := ⟨.hbm, 294, rfl⟩
abbrev main_c_37 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_cst_38 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_cst_39 : Ref sig .tc := ⟨.hbm, 315, rfl⟩
abbrev main_v207 : Ref sig .tc := ⟨.hbm, 316, rfl⟩
abbrev main_cst_40 : Ref sig .tc := ⟨.hbm, 317, rfl⟩
abbrev main_v208 : Ref sig .tc := ⟨.hbm, 318, rfl⟩
abbrev main_v209 : Ref sig .tc := ⟨.hbm, 319, rfl⟩
abbrev main_c_41 : Ref sig .tc := ⟨.hbm, 320, rfl⟩
abbrev main_call7_cst : Ref sig .tc := ⟨.hbm, 321, rfl⟩
abbrev main_call7_v0 : Ref sig .tc := ⟨.hbm, 322, rfl⟩
abbrev main_call7_v1 : Ref sig .tc := ⟨.hbm, 323, rfl⟩
abbrev main_call7_cst_0 : Ref sig .tc := ⟨.hbm, 324, rfl⟩
abbrev main_call7_v2 : Ref sig .tc := ⟨.hbm, 325, rfl⟩
abbrev main_call7_v3 : Ref sig .tc := ⟨.hbm, 326, rfl⟩
abbrev main_call7_v4 : Ref sig .tc := ⟨.hbm, 327, rfl⟩
abbrev main_call7_v5 : Ref sig .tc := ⟨.hbm, 328, rfl⟩
abbrev main_call7_v6 : Ref sig .tc := ⟨.hbm, 329, rfl⟩
abbrev main_call7_v7 : Ref sig .tc := ⟨.hbm, 330, rfl⟩
abbrev main_call7_cst_1 : Ref sig .tc := ⟨.hbm, 331, rfl⟩
abbrev main_call7_v8 : Ref sig .tc := ⟨.hbm, 332, rfl⟩
abbrev main_call7_cst_2 : Ref sig .tc := ⟨.hbm, 333, rfl⟩
abbrev main_call7_v9 : Ref sig .tc := ⟨.hbm, 334, rfl⟩
abbrev main_call7_v10 : Ref sig .tc := ⟨.hbm, 335, rfl⟩
abbrev main_call7_v11 : Ref sig .tc := ⟨.hbm, 336, rfl⟩
abbrev main_call7_cst_3 : Ref sig .tc := ⟨.hbm, 337, rfl⟩
abbrev main_call7_v12 : Ref sig .tc := ⟨.hbm, 338, rfl⟩
abbrev main_call7_cst_4 : Ref sig .tc := ⟨.hbm, 339, rfl⟩
abbrev main_call7_call0_v0 : Ref sig .tc := ⟨.hbm, 340, rfl⟩
abbrev main_call7_call0_v1 : Ref sig .tc := ⟨.hbm, 341, rfl⟩
abbrev main_v210 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_42 : Ref sig .tc := ⟨.hbm, 346, rfl⟩
abbrev main_v214 : Ref sig .tc := ⟨.hbm, 347, rfl⟩
abbrev main_v215 : Ref sig .tc := ⟨.hbm, 348, rfl⟩
abbrev main_v216 : Ref sig .tc := ⟨.hbm, 349, rfl⟩
abbrev main_v217 : Ref sig .tc := ⟨.hbm, 350, rfl⟩
abbrev main_v218 : Ref sig .tc := ⟨.hbm, 351, rfl⟩
abbrev main_v219 : Ref sig .tc := ⟨.hbm, 352, rfl⟩
abbrev main_v220 : Ref sig .tc := ⟨.hbm, 353, rfl⟩
abbrev main_v221 : Ref sig .tc := ⟨.hbm, 354, rfl⟩
abbrev main_v222 : Ref sig .tc := ⟨.hbm, 355, rfl⟩
abbrev main_v223 : Ref sig .tc := ⟨.hbm, 356, rfl⟩
abbrev main_v224 : Ref sig .tc := ⟨.hbm, 357, rfl⟩
abbrev main_v225 : Ref sig .tc := ⟨.hbm, 358, rfl⟩
abbrev main_call8_cst : Ref sig .tc := ⟨.hbm, 359, rfl⟩
abbrev main_call8_v0 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_cst_43 : Ref sig .tc := ⟨.hbm, 370, rfl⟩
abbrev main_v235 : Ref sig .tc := ⟨.hbm, 371, rfl⟩
abbrev main_v236 : Ref sig .tc := ⟨.hbm, 372, rfl⟩
abbrev main_cst_44 : Ref sig .tc := ⟨.hbm, 373, rfl⟩
abbrev main_v237 : Ref sig .tc := ⟨.hbm, 374, rfl⟩
abbrev main_v238 : Ref sig .tc := ⟨.hbm, 375, rfl⟩
abbrev main_v239 : Ref sig .tc := ⟨.hbm, 376, rfl⟩
abbrev main_cst_45 : Ref sig .tc := ⟨.hbm, 377, rfl⟩
abbrev main_v240 : Ref sig .tc := ⟨.hbm, 378, rfl⟩
abbrev main_v241 : Ref sig .tc := ⟨.hbm, 379, rfl⟩
abbrev main_v242 : Ref sig .tc := ⟨.hbm, 380, rfl⟩
abbrev main_cst_46 : Ref sig .tc := ⟨.hbm, 381, rfl⟩
abbrev main_call9_v0 : Ref sig .tc := ⟨.hbm, 382, rfl⟩
abbrev main_call9_v1 : Ref sig .tc := ⟨.hbm, 383, rfl⟩
abbrev main_v243 : Ref sig .tc := ⟨.hbm, 384, rfl⟩
abbrev main_c_47 : Ref sig .tc := ⟨.hbm, 385, rfl⟩
abbrev main_v244 : Ref sig .tc := ⟨.hbm, 386, rfl⟩
abbrev main_v245 : Ref sig .tc := ⟨.hbm, 387, rfl⟩
abbrev main_c_48 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_v251 : Ref sig .tc := ⟨.hbm, 394, rfl⟩
abbrev main_c_49 : Ref sig .tc := ⟨.hbm, 395, rfl⟩
abbrev main_v252 : Ref sig .tc := ⟨.hbm, 396, rfl⟩
abbrev main_v253 : Ref sig .tc := ⟨.hbm, 397, rfl⟩
abbrev main_c_50 : Ref sig .tc := ⟨.hbm, 398, rfl⟩
abbrev main_v254 : Ref sig .tc := ⟨.hbm, 399, rfl⟩
abbrev main_v255 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_v259 : Ref sig .tc := ⟨.hbm, 404, rfl⟩
abbrev main_c_51 : Ref sig .tc := ⟨.hbm, 405, rfl⟩
abbrev main_v260 : Ref sig .tc := ⟨.hbm, 406, rfl⟩
abbrev main_v261 : Ref sig .tc := ⟨.hbm, 407, rfl⟩
abbrev main_c_52 : Ref sig .tc := ⟨.hbm, 408, rfl⟩
abbrev main_v262 : Ref sig .tc := ⟨.hbm, 409, rfl⟩
abbrev main_v263 : Ref sig .tc := ⟨.hbm, 410, rfl⟩
abbrev main_v264 : Ref sig .tc := ⟨.hbm, 411, rfl⟩
abbrev main_v265 : Ref sig .tc := ⟨.hbm, 412, rfl⟩
abbrev main_v266 : Ref sig .tc := ⟨.hbm, 413, rfl⟩
abbrev main_v267 : Ref sig .tc := ⟨.hbm, 414, rfl⟩
abbrev main_v268 : Ref sig .tc := ⟨.hbm, 415, rfl⟩
abbrev main_v269 : Ref sig .tc := ⟨.hbm, 416, rfl⟩
abbrev main_cst_53 : Ref sig .tc := ⟨.hbm, 417, rfl⟩
abbrev main_v270 : Ref sig .tc := ⟨.hbm, 418, rfl⟩
abbrev main_v271 : Ref sig .tc := ⟨.hbm, 419, rfl⟩
abbrev main_v272 : Ref sig .tc := ⟨.hbm, 420, rfl⟩
abbrev main_v273 : Ref sig .tc := ⟨.hbm, 421, rfl⟩
abbrev main_v274 : Ref sig .tc := ⟨.hbm, 422, rfl⟩
abbrev main_v275 : Ref sig .tc := ⟨.hbm, 423, rfl⟩
abbrev main_v276 : Ref sig .tc := ⟨.hbm, 424, rfl⟩
abbrev main_v277 : Ref sig .tc := ⟨.hbm, 425, rfl⟩
abbrev main_v278 : Ref sig .tc := ⟨.hbm, 426, rfl⟩
abbrev main_v279 : Ref sig .tc := ⟨.hbm, 427, rfl⟩
abbrev main_cst_54 : Ref sig .tc := ⟨.hbm, 428, rfl⟩
abbrev main_v280 : Ref sig .tc := ⟨.hbm, 429, rfl⟩
abbrev main_cst_55 : Ref sig .tc := ⟨.hbm, 430, rfl⟩
abbrev main_v281 : Ref sig .tc := ⟨.hbm, 431, rfl⟩
abbrev main_v282 : Ref sig .tc := ⟨.hbm, 432, rfl⟩
abbrev main_c_56 : Ref sig .tc := ⟨.hbm, 433, rfl⟩
abbrev main_call10_cst : Ref sig .tc := ⟨.hbm, 434, rfl⟩
abbrev main_call10_v0 : Ref sig .tc := ⟨.hbm, 435, rfl⟩
abbrev main_call10_v1 : Ref sig .tc := ⟨.hbm, 436, rfl⟩
abbrev main_call10_cst_0 : Ref sig .tc := ⟨.hbm, 437, rfl⟩
abbrev main_call10_v2 : Ref sig .tc := ⟨.hbm, 438, rfl⟩
abbrev main_call10_v3 : Ref sig .tc := ⟨.hbm, 439, rfl⟩
abbrev main_call10_v4 : Ref sig .tc := ⟨.hbm, 440, rfl⟩
abbrev main_call10_v5 : Ref sig .tc := ⟨.hbm, 441, rfl⟩
abbrev main_call10_v6 : Ref sig .tc := ⟨.hbm, 442, rfl⟩
abbrev main_call10_v7 : Ref sig .tc := ⟨.hbm, 443, rfl⟩
abbrev main_call10_cst_1 : Ref sig .tc := ⟨.hbm, 444, rfl⟩
abbrev main_call10_v8 : Ref sig .tc := ⟨.hbm, 445, rfl⟩
abbrev main_call10_cst_2 : Ref sig .tc := ⟨.hbm, 446, rfl⟩
abbrev main_call10_v9 : Ref sig .tc := ⟨.hbm, 447, rfl⟩
abbrev main_call10_v10 : Ref sig .tc := ⟨.hbm, 448, rfl⟩
abbrev main_call10_v11 : Ref sig .tc := ⟨.hbm, 449, rfl⟩
abbrev main_call10_cst_3 : Ref sig .tc := ⟨.hbm, 450, rfl⟩
abbrev main_call10_v12 : Ref sig .tc := ⟨.hbm, 451, rfl⟩
abbrev main_call10_cst_4 : Ref sig .tc := ⟨.hbm, 452, rfl⟩
abbrev main_call10_call0_v0 : Ref sig .tc := ⟨.hbm, 453, rfl⟩
abbrev main_call10_call0_v1 : Ref sig .tc := ⟨.hbm, 454, rfl⟩
abbrev main_v283 : Ref sig .tc := ⟨.hbm, 455, rfl⟩
abbrev main_v284 : Ref sig .tc := ⟨.hbm, 456, rfl⟩
abbrev main_v285 : Ref sig .tc := ⟨.hbm, 457, rfl⟩
abbrev main_v286 : Ref sig .tc := ⟨.hbm, 458, rfl⟩
abbrev main_cst_57 : Ref sig .tc := ⟨.hbm, 459, rfl⟩
abbrev main_v287 : Ref sig .tc := ⟨.hbm, 460, rfl⟩
abbrev main_v288 : Ref sig .tc := ⟨.hbm, 461, rfl⟩
abbrev main_v289 : Ref sig .tc := ⟨.hbm, 462, rfl⟩
abbrev main_v290 : Ref sig .tc := ⟨.hbm, 463, rfl⟩
abbrev main_v291 : Ref sig .tc := ⟨.hbm, 464, rfl⟩
abbrev main_v292 : Ref sig .tc := ⟨.hbm, 465, rfl⟩
abbrev main_v293 : Ref sig .tc := ⟨.hbm, 466, rfl⟩
abbrev main_v294 : Ref sig .tc := ⟨.hbm, 467, rfl⟩
abbrev main_v295 : Ref sig .tc := ⟨.hbm, 468, rfl⟩
abbrev main_v296 : Ref sig .tc := ⟨.hbm, 469, rfl⟩
abbrev main_v297 : Ref sig .tc := ⟨.hbm, 470, rfl⟩
abbrev main_v298 : Ref sig .tc := ⟨.hbm, 471, rfl⟩
abbrev main_call11_cst : Ref sig .tc := ⟨.hbm, 472, rfl⟩
abbrev main_call11_v0 : Ref sig .tc := ⟨.hbm, 473, rfl⟩
abbrev main_v299 : Ref sig .tc := ⟨.hbm, 474, rfl⟩
abbrev main_v300 : Ref sig .tc := ⟨.hbm, 475, rfl⟩
abbrev main_v301 : Ref sig .tc := ⟨.hbm, 476, rfl⟩
abbrev main_v302 : Ref sig .tc := ⟨.hbm, 477, rfl⟩
abbrev main_v303 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_cst_58 : Ref sig .tc := ⟨.hbm, 482, rfl⟩
abbrev main_v307 : Ref sig .tc := ⟨.hbm, 483, rfl⟩
abbrev main_v308 : Ref sig .tc := ⟨.hbm, 484, rfl⟩
abbrev main_cst_59 : Ref sig .tc := ⟨.hbm, 485, rfl⟩
abbrev main_v309 : Ref sig .tc := ⟨.hbm, 486, rfl⟩
abbrev main_v310 : Ref sig .tc := ⟨.hbm, 487, rfl⟩
abbrev main_v311 : Ref sig .tc := ⟨.hbm, 488, rfl⟩
abbrev main_cst_60 : Ref sig .tc := ⟨.hbm, 489, rfl⟩
abbrev main_v312 : Ref sig .tc := ⟨.hbm, 490, rfl⟩
abbrev main_v313 : Ref sig .tc := ⟨.hbm, 491, rfl⟩
abbrev main_v314 : Ref sig .tc := ⟨.hbm, 492, rfl⟩
abbrev main_v315 : Ref sig .tc := ⟨.hbm, 493, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  concatenates_S50000x128_S50000x128_S50000x256_d1 : Shape.Concatenates [S50000x128, S50000x128] S50000x256 1
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Kernel.RegA0.lean ====
import proofs.«169164_j46703474376898_1_alg».proof.Proof.Gen.Kernel.Launch
import proofs.«169164_j46703474376898_1_alg».proof.Proof.Gen.Kernel.Skeleton
import proofs.«169164_j46703474376898_1_alg».proof.Proof.Gen.Kernel.Points
import Idealize.ShloMosaic.Lib.Pipeline.FrameBody
import Idealize.ShloMosaic.Lib.Ring
import Idealize.ShloMosaic.Lib.Tactic

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Body

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

def out0_2 (x0 : Vec F S2000x128 .f32) (x1 : Vec F S128x128 .f32) : Vec F S2000x128 .f32 :=
  View.canon [⟨r0_0, k0_pay1 (View.ld x0 r0_0) (View.ld x1 r0_1)⟩]

-- The one store covers the whole output block, so the block read back is the canonical contents of that store: a function of the input blocks alone.
theorem sound_kernel0 (c : Dev nD) {E : Set ℕ} {i : grid0.Coords} {arg1 arg3 : Memref sig .tc .vmem S2000x128 .f32} {arg2 : Memref sig .tc .vmem S128x128 .f32} {harg1 : arg1.IsWhole} {harg2 : arg2.IsWhole} {harg3 : arg3.IsWhole}
    (x0 : Vec F S2000x128 .f32) (x1 : Vec F S128x128 .f32) {K : PUnit → sProp 𝕄} :
    iprop(owns c arg1 fullShare x0 ∗ owns c arg2 fullShare x1 ∗ (∃ d, owns c arg3 fullShare d)
        ∗ (iprop(owns c arg1 fullShare x0 ∗ owns c arg2 fullShare x1 ∗ owns c arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x128.size (by rfl))

end Body

section Point

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

variable (t : Fin cfg0.N)

theorem after0_2 : (dat0 V c).after 2 t = out0_2 (iblk0 V c 0 t) (iblk0 V c 1 t) := by dsimp only [dat0]

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d

theorem bodyAt0_eq : bodyAt0 (F := F) t = cc0__matmul_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) := rfl

-- At each grid point every input holds its block of its array, so the body's triple applies there.
theorem body_obligation0 : BodyObligation (dat0 (F := F) V c) (defs₀ (F := F)) Variants.none () Set.univ := fun t => by
  rw [bigSep_W0, bigSep_W0]
  simp only [before0_0, before0_1]
  change _ ⊢ wp _ _ _ (bodyAt0 t) _
  rw [bodyAt0_eq]
  dsimp only [dat0, Dat.owesAt, Dat.bound]
  iintro ⟨HΦ, Ho, ⟨%d0, H0⟩, ⟨%d1, H1⟩, ⟨%d2, H2⟩⟩
  iapply sound_kernel0 c (iblk0 V c 0 t) (iblk0 V c 1 t)
  iframe H0 H1
  isplitl [H2]; · iexists _; iexact H2
  iintro H
  iframe

end Point

end Cert.Kernel.Reg
-- ==== Proof.Kernel.RegS1.lean ====
import proofs.«169164_j46703474376898_1_alg».proof.Proof.Gen.Kernel.Launch
import proofs.«169164_j46703474376898_1_alg».proof.Proof.Gen.Kernel.Skeleton
import proofs.«169164_j46703474376898_1_alg».proof.Proof.Gen.Kernel.Points
import Idealize.ShloMosaic.Lib.Pipeline.FrameBody
import Idealize.ShloMosaic.Lib.Ring
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

abbrev cond1_0 (i : grid1.Coords) : Prop := k1_cond1 i = 1#1
theorem hcond1_0 : ∀ t : Fin grid1.N, cond1_0 (grid1.coords t) ↔ t.val % 25 = 0 := by decide +kernel

abbrev cond1_1 (i : grid1.Coords) : Prop := k1_cond2 i = 1#1
theorem hcond1_1 : ∀ t : Fin grid1.N, cond1_1 (grid1.coords t) ↔ ¬t.val % 25 = 0 := by decide +kernel

abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view

variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole)

-- a run of the body from the inputs at x0, x1 and the outputs at P3, P4: the pieces each output ends with, and the triple
abbrev kernelRun1_T (x0 : Vec F S2000x128 .f32) (x1 : Vec F S1x128 .f32) (P3 P4 : sProp 𝕄) :=
  Σ' (L2 : List (View.Piece (Elt F) S1x128 .f32)), { L3 : List (View.Piece (Elt F) S1x128 .f32) //
    ∀ (E : Set ℕ) (K : PUnit → sProp 𝕄),
      iprop(owns (c : Thread nD τ) arg1 fullShare x0 ∗ owns (c : Thread nD τ) arg2 fullShare x1 ∗ P3 ∗ P4
          ∗ (iprop(owns (c : Thread nD τ) arg1 fullShare x0 ∗ owns (c : Thread nD τ) arg2 fullShare x1
              ∗ (∃ f, arg3.view.loc (c : Thread nD τ) ↦[arg3.view.set]{fullShare} arg3.view.writes (Elt F) f L2)
              ∗ (∃ f, arg4.view.loc (c : Thread nD τ) ↦[arg4.view.set]{fullShare} arg4.view.writes (Elt F) f L3)) -∗ K ⟨⟩))
        ⊢ wp frame (wpE (defs₀ (F := F)) Variants.none c none) E (cc1__stats_kernel i arg1 harg1 arg2 harg2 arg3 harg3 arg4 harg4) K }

section A
variable (hc0 : cond1_0 i) (hc1 : ¬cond1_1 i) (x0 : Vec F S2000x128 .f32) (x1 : Vec F S1x128 .f32)

def kernelRun1_A : kernelRun1_T c i arg1 harg1 arg2 harg2 arg3 harg3 arg4 harg4 x0 x1
    iprop(∃ d, owns (c : Thread nD τ) arg3 fullShare d) iprop(∃ d, owns (c : Thread nD τ) arg4 fullShare d) := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover1_A_2 (y : S1x128.Idx) : ∃ pc ∈ (kernelRun1_A c i arg1 harg1 arg2 harg2 arg3 harg3 arg4 harg4 hc0 hc1 x0 x1).1, y ∈ pc.1.set :=
  View.cover_of_tiledL _ S1x128.size (by sl_kernel_rfl) y
def out1_A_2 : Vec F S1x128 .f32 :=
  VO1_2.read (Elt F) (VO1_2.writes (Elt F) VO1_2.junk (kernelRun1_A c i arg1 harg1 arg2 harg2 arg3 harg3 arg4 harg4 hc0 hc1 x0 x1).1)
theorem cover1_A_3 (y : S1x128.Idx) : ∃ pc ∈ (kernelRun1_A c i arg1 harg1 arg2 harg2 arg3 harg3 arg4 harg4 hc0 hc1 x0 x1).2.1, y ∈ pc.1.set :=
  View.cover_of_tiledL _ S1x128.size (by sl_kernel_rfl) y
def out1_A_3 : Vec F S1x128 .f32 :=
  VO1_3.read (Elt F) (VO1_3.writes (Elt F) VO1_3.junk (kernelRun1_A c i arg1 harg1 arg2 harg2 arg3 harg3 arg4 harg4 hc0 hc1 x0 x1).2.1)

end A

section B
variable (hc0 : ¬cond1_0 i) (hc1 : cond1_1 i) (x0 : Vec F S2000x128 .f32) (x1 xo2 xo3 : Vec F S1x128 .f32)

def kernelRun1_B : kernelRun1_T c i arg1 harg1 arg2 harg2 arg3 harg3 arg4 harg4 x0 x1
    (owns (c : Thread nD τ) arg3 fullShare xo2) (owns (c : Thread nD τ) arg4 fullShare xo3) := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover1_B_2 (y : S1x128.Idx) : ∃ pc ∈ (kernelRun1_B c i arg1 harg1 arg2 harg2 arg3 harg3 arg4 harg4 hc0 hc1 x0 x1 xo2 xo3).1, y ∈ pc.1.set :=
  View.cover_of_tiledL _ S1x128.size (by sl_kernel_rfl) y
def out1_B_2 : Vec F S1x128 .f32 :=
  VO1_2.read (Elt F) (VO1_2.writes (Elt F) VO1_2.junk (kernelRun1_B c i arg1 harg1 arg2 harg2 arg3 harg3 arg4 harg4 hc0 hc1 x0 x1 xo2 xo3).1)
theorem cover1_B_3 (y : S1x128.Idx) : ∃ pc ∈ (kernelRun1_B c i arg1 harg1 arg2 harg2 arg3 harg3 arg4 harg4 hc0 hc1 x0 x1 xo2 xo3).2.1, y ∈ pc.1.set :=
  View.cover_of_tiledL _ S1x128.size (by sl_kernel_rfl) y
def out1_B_3 : Vec F S1x128 .f32 :=
  VO1_3.read (Elt F) (VO1_3.writes (Elt F) VO1_3.junk (kernelRun1_B c i arg1 harg1 arg2 harg2 arg3 harg3 arg4 harg4 hc0 hc1 x0 x1 xo2 xo3).2.1)

end B

end Body

section Point

-- the two conditions are complementary in the coordinate, so at no point do both fail
theorem live1_2 : ∀ i : grid1.Coords, cfg1.idle 2 i = false := fun i =>
  (by decide +kernel : ∀ n : Fin (grid1.bound 0),
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)
theorem live1_3 : ∀ i : grid1.Coords, cfg1.idle 3 i = false := live1_2

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- what case A leaves in the two outputs at point t, and case B over what they held before
abbrev out1_A (c : Dev nD) (t : Fin cfg1.N) (h0 : t.val % 25 = 0) : Vec F S1x128 .f32 × Vec F S1x128 .f32 :=
  (out1_A_2 c (grid1.coords t) (ms1_0 t) (hs1_0 t) (ms1_1 t) (hs1_1 t) (ms1_2 t) (hs1_2 t) (ms1_3 t) (hs1_3 t) ((hcond1_0 t).mpr h0) (fun h => (hcond1_1 t).mp h h0) (iblk1 V c 0 t) (iblk1 V c 1 t),
   out1_A_3 c (grid1.coords t) (ms1_0 t) (hs1_0 t) (ms1_1 t) (hs1_1 t) (ms1_2 t) (hs1_2 t) (ms1_3 t) (hs1_3 t) ((hcond1_0 t).mpr h0) (fun h => (hcond1_1 t).mp h h0) (iblk1 V c 0 t) (iblk1 V c 1 t))
abbrev out1_B (c : Dev nD) (t : Fin cfg1.N) (h0 : ¬t.val % 25 = 0) (p : Vec F S1x128 .f32 × Vec F S1x128 .f32) : Vec F S1x128 .f32 × Vec F S1x128 .f32 :=
  (out1_B_2 c (grid1.coords t) (ms1_0 t) (hs1_0 t) (ms1_1 t) (hs1_1 t) (ms1_2 t) (hs1_2 t) (ms1_3 t) (hs1_3 t) (fun h => h0 ((hcond1_0 t).mp h)) ((hcond1_1 t).mpr h0) (iblk1 V c 0 t) (iblk1 V c 1 t) p.1 p.2,
   out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h0) (iblk1 V c 0 t) (iblk1 V c 1 t) p.1 p.2)

-- the accumulation: the outputs after position n are the selected case's, case B over what position n - 1 left
def outsAt1 (c : Dev nD) : (n : ℕ) → n < cfg1.N → Vec F S1x128 .f32 × Vec F S1x128 .f32
  | 0, hn => out1_A V c ⟨0, hn⟩ (Nat.zero_mod _)
  | n + 1, hn =>
    if h0 : (n + 1) % 25 = 0 then out1_A V c ⟨n + 1, hn⟩ h0
    else out1_B V c ⟨n + 1, hn⟩ h0 (outsAt1 c n (Nat.lt_of_succ_lt hn))

theorem outsAt1_A (c : Dev nD) (t : Fin cfg1.N) (h0 : t.val % 25 = 0) : outsAt1 V c t.val t.isLt = out1_A V c t h0 := by
  obtain ⟨n, hn⟩ := t
  cases n with
  | zero => exact rfl
  | succ n => exact (dif_pos h0).trans rfl

theorem outsAt1_B (c : Dev nD) (t : Fin cfg1.N) (h0 : ¬t.val % 25 = 0) :
    outsAt1 V c t.val t.isLt = out1_B V c t h0 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := rfl
theorem after1_2 (c : Dev nD) (t : Fin cfg1.N) : (dat1 V c).after 2 t = (outsAt1 V c t.val t.isLt).1 := rfl
theorem after1_3 (c : Dev nD) (t : Fin cfg1.N) : (dat1 V c).after 3 t = (outsAt1 V c t.val t.isLt).2 := rfl

theorem before1_in {c : Dev nD} (dat : Dat τ (Elt F) Unit ℕ (UR sig nD τ) ℕ cfg1 c) (hA : ∀ w, dat.A w = V c (Pipeline.arrRef spec1 w))
    (h0 : ∀ t, dat.after 0 t = iblk1 V c 0 t) (h1 : ∀ t, dat.after 1 t = iblk1 V c 1 t) (t : Fin cfg1.N) :
    (∀ d, dat.before 0 t d = iblk1 V c 0 t) ∧ ∀ d, dat.before 1 t d = iblk1 V c 1 t := by
  constructor <;> intro d <;>
  exact (dat.before_in_eq_fetched _ rfl (fun _ => rfl) (fun _ _ _ => rfl) (fun t => by (first | rw [h0] | rw [h1]); unfold Dat.blockOf iblk1; rw [hA]; try rfl) t d).trans
    (by unfold Dat.fetched Dat.blockOf iblk1; rw [hA]; try rfl)

theorem before1_B (c : Dev nD) (t : Fin cfg1.N) (h0 : ¬t.val % 25 = 0) :
    (∀ d, (dat1 V c).before 2 t d = (outsAt1 V c (t.val - 1) (Nat.lt_of_le_of_lt (Nat.sub_le _ _) t.isLt)).1) ∧ ∀ d, (dat1 V c).before 3 t d = (outsAt1 V c (t.val - 1) (Nat.lt_of_le_of_lt (Nat.sub_le _ _) t.isLt)).2 := by
  have hN : t.val < 25 := lt_of_lt_of_eq t.isLt (show cfg1.N = 25 from N_1)
  constructor <;> intro d
  · rw [Dat.before_out_kept _ 2 rfl t (by omega) (Bool.eq_false_iff.mpr fun h => by have := (flush1_2 _).mp h; dsimp only at this; omega)
      live1_2 (fun _ _ => rfl)]
    dsimp only [dat1]
  · rw [Dat.before_out_kept _ 3 rfl t (by omega) (Bool.eq_false_iff.mpr fun h => by have := (flush1_3 _).mp h; dsimp only at this; omega)
      live1_3 (fun _ _ => rfl)]
    dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ (dat1 V c).leavesExact 2 t
    ∗ (dat1 V c).leavesExact 3 t)

-- the inputs hold their blocks, the closed forms select the case, in case B each output holds what the point before left; so the case's run applies
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨hb0, hb1⟩ := before1_in V (dat1 V c) (fun _ => rfl) (fun _ => rfl) (fun _ => rfl) t
  simp only [hb0, hb1]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl]
  rw [show (dat1 V c).leavesExact 2 t = owns (c : Thread nD τ) (ms1_2 t) fullShare ((dat1 V c).after 2 t) from by
      unfold Dat.leavesExact; rw [live1_2], after1_2]
  rw [show (dat1 V c).leavesExact 3 t = owns (c : Thread nD τ) (ms1_3 t) fullShare ((dat1 V c).after 3 t) from by
      unfold Dat.leavesExact; rw [live1_3], after1_3]
  by_cases h0 : t.val % 25 = 0
  · rw [outsAt1_A V c t h0]
    dsimp only [out1_A, out1_A_2, out1_A_3]
    iintro ⟨HΦ, Ho, ⟨%d0, H0⟩, ⟨%d1, H1⟩, ⟨%d2, H2⟩, ⟨%d3, H3⟩⟩
    iapply ((kernelRun1_A c (grid1.coords t) _ (hs1_0 t) _ (hs1_1 t) _ (hs1_2 t) _ (hs1_3 t) ((hcond1_0 t).mpr h0) (fun h => (hcond1_1 t).mp h h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · rw [outsAt1_B V c t h0]
    simp only [(before1_B V c t h0).1, (before1_B V c t h0).2]
    dsimp only [out1_B, out1_B_2, out1_B_3]
    iintro ⟨HΦ, Ho, ⟨%d0, H0⟩, ⟨%d1, H1⟩, ⟨%d2, H2⟩, ⟨%d3, H3⟩⟩
    iapply ((kernelRun1_B c (grid1.coords t) _ (hs1_0 t) _ (hs1_1 t) _ (hs1_2 t) _ (hs1_3 t) (fun h => h0 ((hcond1_0 t).mp h)) ((hcond1_1 t).mpr h0) (iblk1 V c 0 t) (iblk1 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _)
    unfold owns; iexists _; isplitr
    swap; · iexact H3
    ipureintro; exact View.read_writes_of_cover _ _ _ _ _ (cover1_B_3 c _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Point

end Cert.Kernel.Reg

end
-- ==== Proof.Kernel.RegN2.lean ====
import proofs.«169164_j46703474376898_1_alg».proof.Proof.Gen.Kernel.Launch
import proofs.«169164_j46703474376898_1_alg».proof.Proof.Gen.Kernel.Skeleton
import proofs.«169164_j46703474376898_1_alg».proof.Proof.Gen.Kernel.Points
import Idealize.ShloMosaic.Lib.Pipeline.FrameBody
import Idealize.ShloMosaic.Lib.Ring
import Idealize.ShloMosaic.Lib.Tactic

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Body

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

def out2_6 (x0 : Vec F S2000x128 .f32) (x1 x2 x3 x4 x5 : Vec F S1x128 .f32) : Vec F S2000x128 .f32 :=
  View.canon [⟨r2_0, k2_pay1 (View.ld x0 r2_0) (View.ld x1 r2_1) (View.ld x3 r2_1) (View.ld x2 r2_1) (View.ld x4 r2_1) (View.ld x5 r2_1)⟩]

-- The one store covers the whole output block, so the block read back is the canonical contents of that store: a function of the input blocks alone.
theorem sound_kernel2 (c : Dev nD) {E : Set ℕ} {i : grid2.Coords} {arg1 arg7 : Memref sig .tc .vmem S2000x128 .f32} {arg2 arg3 arg4 arg5 arg6 : Memref sig .tc .vmem S1x128 .f32} {harg1 : arg1.IsWhole} {harg2 : arg2.IsWhole} {harg3 : arg3.IsWhole} {harg4 : arg4.IsWhole} {harg5 : arg5.IsWhole} {harg6 : arg6.IsWhole} {harg7 : arg7.IsWhole}
    (x0 : Vec F S2000x128 .f32) (x1 x2 x3 x4 x5 : Vec F S1x128 .f32) {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out2_6 x0 x1 x2 x3 x4 x5)) -∗ K ⟨⟩))
      ⊢ wp frame (wpE (defs₀ (F := F)) Variants.none c none) E (cc2__norm_relu_kernel i arg1 harg1 arg2 harg2 arg3 harg3 arg4 harg4 arg5 harg5 arg6 harg6 arg7 harg7) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x128.size (by rfl))

end Body

section Point

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (w : Fin cfg2.W) : (dat2 V c).A w = V c (Pipeline.arrRef spec2 w) := rfl

variable (t : Fin cfg2.N)

theorem after2_6 : (dat2 V c).after 6 t = out2_6 (iblk2 V c 0 t) (iblk2 V c 1 t) (iblk2 V c 2 t) (iblk2 V c 3 t) (iblk2 V c 4 t) (iblk2 V c 5 t) := by dsimp only [dat2]

theorem before2_0 (d) : (dat2 V c).before 0 t d = iblk2 V c 0 t :=
  (dat2 V c).before_in_eq_fetched 0 rfl (fun _ => rfl) (fun _ _ _ => rfl) (fun _ => rfl) t d
theorem before2_1 (d) : (dat2 V c).before 1 t d = iblk2 V c 1 t :=
  (dat2 V c).before_in_eq_fetched 1 rfl (fun _ => rfl) (fun _ _ _ => rfl) (fun _ => rfl) t d
theorem before2_2 (d) : (dat2 V c).before 2 t d = iblk2 V c 2 t :=
  (dat2 V c).before_in_eq_fetched 2 rfl (fun _ => rfl) (fun _ _ _ => rfl) (fun _ => rfl) t d
theorem before2_3 (d) : (dat2 V c).before 3 t d = iblk2 V c 3 t :=
  (dat2 V c).before_in_eq_fetched 3 rfl (fun _ => rfl) (fun _ _ _ => rfl) (fun _ => rfl) t d
theorem before2_4 (d) : (dat2 V c).before 4 t d = iblk2 V c 4 t :=
  (dat2 V c).before_in_eq_fetched 4 rfl (fun _ => rfl) (fun _ _ _ => rfl) (fun _ => rfl) t d
theorem before2_5 (d) : (dat2 V c).before 5 t d = iblk2 V c 5 t :=
  (dat2 V c).before_in_eq_fetched 5 rfl (fun _ => rfl) (fun _ _ _ => rfl) (fun _ => rfl) t d

theorem bodyAt2_eq : bodyAt2 (F := F) t = cc2__norm_relu_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) := rfl

-- At each grid point every input holds its block of its array, so the body's triple applies there.
theorem body_obligation2 : BodyObligation (dat2 (F := F) V c) (defs₀ (F := F)) Variants.none () Set.univ := fun t => by
  rw [bigSep_W2, bigSep_W2]
  simp only [before2_0, before2_1, before2_2, before2_3, before2_4, before2_5]
  change _ ⊢ wp _ _ _ (bodyAt2 t) _
  rw [bodyAt2_eq]
  dsimp only [dat2, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk2 V c 0 t) (iblk2 V c 1 t) (iblk2 V c 2 t) (iblk2 V c 3 t) (iblk2 V c 4 t) (iblk2 V c 5 t)
  iframe H0 H1 H2 H3 H4 H5
  isplitl [H6]; · iexists _; iexact H6
  iintro H
  iframe

end Point

end Cert.Kernel.Reg
-- ==== Proof.Kernel.RegA3.lean ====
import proofs.«169164_j46703474376898_1_alg».proof.Proof.Gen.Kernel.Launch
import proofs.«169164_j46703474376898_1_alg».proof.Proof.Gen.Kernel.Skeleton
import proofs.«169164_j46703474376898_1_alg».proof.Proof.Gen.Kernel.Points
import Idealize.ShloMosaic.Lib.Pipeline.FrameBody
import Idealize.ShloMosaic.Lib.Ring
import Idealize.ShloMosaic.Lib.Tactic

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Body

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0

def out3_2 (x0 : Vec F S2000x128 .f32) (x1 : Vec F S128x128 .f32) : Vec F S2000x128 .f32 :=
  View.canon [⟨r3_0, k3_pay1 (View.ld x0 r3_0) (View.ld x1 r3_1)⟩]

-- The one store covers the whole output block, so the block read back is the canonical contents of that store: a function of the input blocks alone.
theorem sound_kernel3 (c : Dev nD) {E : Set ℕ} {i : grid3.Coords} {arg1 arg3 : Memref sig .tc .vmem S2000x128 .f32} {arg2 : Memref sig .tc .vmem S128x128 .f32} {harg1 : arg1.IsWhole} {harg2 : arg2.IsWhole} {harg3 : arg3.IsWhole}
    (x0 : Vec F S2000x128 .f32) (x1 : Vec F S128x128 .f32) {K : PUnit → sProp 𝕄} :
    iprop(owns c arg1 fullShare x0 ∗ owns c arg2 fullShare x1 ∗ (∃ d, owns c arg3 fullShare d)
        ∗ (iprop(owns c arg1 fullShare x0 ∗ owns c arg2 fullShare x1 ∗ owns c arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x128.size (by rfl))

end Body

section Point

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (w : Fin cfg3.W) : (dat3 V c).A w = V c (Pipeline.arrRef spec3 w) := rfl

variable (t : Fin cfg3.N)

theorem after3_2 : (dat3 V c).after 2 t = out3_2 (iblk3 V c 0 t) (iblk3 V c 1 t) := by dsimp only [dat3]

theorem before3_0 (d) : (dat3 V c).before 0 t d = iblk3 V c 0 t :=
  (dat3 V c).before_in_eq_fetched 0 rfl (fun _ => rfl) (fun _ _ _ => rfl) (fun _ => rfl) t d
theorem before3_1 (d) : (dat3 V c).before 1 t d = iblk3 V c 1 t :=
  (dat3 V c).before_in_eq_fetched 1 rfl (fun _ => rfl) (fun _ _ _ => rfl) (fun _ => rfl) t d

theorem bodyAt3_eq : bodyAt3 (F := F) t = cc3__matmul_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) := rfl

-- At each grid point every input holds its block of its array, so the body's triple applies there.
theorem body_obligation3 : BodyObligation (dat3 (F := F) V c) (defs₀ (F := F)) Variants.none () Set.univ := fun t => by
  rw [bigSep_W3, bigSep_W3]
  simp only [before3_0, before3_1]
  change _ ⊢ wp _ _ _ (bodyAt3 t) _
  rw [bodyAt3_eq]
  dsimp only [dat3, Dat.owesAt, Dat.bound]
  iintro ⟨HΦ, Ho, ⟨%d0, H0⟩, ⟨%d1, H1⟩, ⟨%d2, H2⟩⟩
  iapply sound_kernel3 c (iblk3 V c 0 t) (iblk3 V c 1 t)
  iframe H0 H1
  isplitl [H2]; · iexists _; iexact H2
  iintro H
  iframe

end Point

end Cert.Kernel.Reg
-- ==== Proof.Kernel.RegS4.lean ====
import proofs.«169164_j46703474376898_1_alg».proof.Proof.Kernel.RegS1

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Point

-- the two conditions are complementary in the coordinate, so at no point do both fail
theorem live4_2 : ∀ i : grid4.Coords, cfg4.idle 2 i = false := fun i =>
  (by decide +kernel : ∀ n : Fin (grid4.bound 0),
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)
theorem live4_3 : ∀ i : grid4.Coords, cfg4.idle 3 i = false := live4_2

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- what case A leaves in the two outputs at point t, and case B over what they held before
abbrev out4_A (c : Dev nD) (t : Fin cfg4.N) (h0 : t.val % 25 = 0) : Vec F S1x128 .f32 × Vec F S1x128 .f32 :=
  (out1_A_2 c (grid4.coords t) (ms4_0 t) (hs4_0 t) (ms4_1 t) (hs4_1 t) (ms4_2 t) (hs4_2 t) (ms4_3 t) (hs4_3 t) ((hcond1_0 t).mpr h0) (fun h => (hcond1_1 t).mp h h0) (iblk4 V c 0 t) (iblk4 V c 1 t),
   out1_A_3 c (grid4.coords t) (ms4_0 t) (hs4_0 t) (ms4_1 t) (hs4_1 t) (ms4_2 t) (hs4_2 t) (ms4_3 t) (hs4_3 t) ((hcond1_0 t).mpr h0) (fun h => (hcond1_1 t).mp h h0) (iblk4 V c 0 t) (iblk4 V c 1 t))
abbrev out4_B (c : Dev nD) (t : Fin cfg4.N) (h0 : ¬t.val % 25 = 0) (p : Vec F S1x128 .f32 × Vec F S1x128 .f32) : Vec F S1x128 .f32 × Vec F S1x128 .f32 :=
  (out1_B_2 c (grid4.coords t) (ms4_0 t) (hs4_0 t) (ms4_1 t) (hs4_1 t) (ms4_2 t) (hs4_2 t) (ms4_3 t) (hs4_3 t) (fun h => h0 ((hcond1_0 t).mp h)) ((hcond1_1 t).mpr h0) (iblk4 V c 0 t) (iblk4 V c 1 t) p.1 p.2,
   out1_B_3 c (grid4.coords t) (ms4_0 t) (hs4_0 t) (ms4_1 t) (hs4_1 t) (ms4_2 t) (hs4_2 t) (ms4_3 t) (hs4_3 t) (fun h => h0 ((hcond1_0 t).mp h)) ((hcond1_1 t).mpr h0) (iblk4 V c 0 t) (iblk4 V c 1 t) p.1 p.2)

-- the accumulation: the outputs after position n are the selected case's, case B over what position n - 1 left
def outsAt4 (c : Dev nD) : (n : ℕ) → n < cfg4.N → Vec F S1x128 .f32 × Vec F S1x128 .f32
  | 0, hn => out4_A V c ⟨0, hn⟩ (Nat.zero_mod _)
  | n + 1, hn =>
    if h0 : (n + 1) % 25 = 0 then out4_A V c ⟨n + 1, hn⟩ h0
    else out4_B V c ⟨n + 1, hn⟩ h0 (outsAt4 c n (Nat.lt_of_succ_lt hn))

theorem outsAt4_A (c : Dev nD) (t : Fin cfg4.N) (h0 : t.val % 25 = 0) : outsAt4 V c t.val t.isLt = out4_A V c t h0 := by
  obtain ⟨n, hn⟩ := t
  cases n with
  | zero => exact rfl
  | succ n => exact (dif_pos h0).trans rfl

theorem outsAt4_B (c : Dev nD) (t : Fin cfg4.N) (h0 : ¬t.val % 25 = 0) :
    outsAt4 V c t.val t.isLt = out4_B V c t h0 (outsAt4 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := rfl
theorem after4_2 (c : Dev nD) (t : Fin cfg4.N) : (dat4 V c).after 2 t = (outsAt4 V c t.val t.isLt).1 := rfl
theorem after4_3 (c : Dev nD) (t : Fin cfg4.N) : (dat4 V c).after 3 t = (outsAt4 V c t.val t.isLt).2 := rfl

theorem before4_in {c : Dev nD} (dat : Dat τ (Elt F) Unit ℕ (UR sig nD τ) ℕ cfg4 c) (hA : ∀ w, dat.A w = V c (Pipeline.arrRef spec4 w))
    (h0 : ∀ t, dat.after 0 t = iblk4 V c 0 t) (h1 : ∀ t, dat.after 1 t = iblk4 V c 1 t) (t : Fin cfg4.N) :
    (∀ d, dat.before 0 t d = iblk4 V c 0 t) ∧ ∀ d, dat.before 1 t d = iblk4 V c 1 t := by
  constructor <;> intro d <;>
  exact (dat.before_in_eq_fetched _ rfl (fun _ => rfl) (fun _ _ _ => rfl) (fun t => by (first | rw [h0] | rw [h1]); unfold Dat.blockOf iblk4; rw [hA]; try rfl) t d).trans
    (by unfold Dat.fetched Dat.blockOf iblk4; rw [hA]; try rfl)

theorem before4_B (c : Dev nD) (t : Fin cfg4.N) (h0 : ¬t.val % 25 = 0) :
    (∀ d, (dat4 V c).before 2 t d = (outsAt4 V c (t.val - 1) (Nat.lt_of_le_of_lt (Nat.sub_le _ _) t.isLt)).1) ∧ ∀ d, (dat4 V c).before 3 t d = (outsAt4 V c (t.val - 1) (Nat.lt_of_le_of_lt (Nat.sub_le _ _) t.isLt)).2 := by
  have hN : t.val < 25 := lt_of_lt_of_eq t.isLt (show cfg4.N = 25 from N_4)
  constructor <;> intro d
  · rw [Dat.before_out_kept _ 2 rfl t (by omega) (Bool.eq_false_iff.mpr fun h => by have := (flush4_2 _).mp h; dsimp only at this; omega)
      live4_2 (fun _ _ => rfl)]
    dsimp only [dat4]
  · rw [Dat.before_out_kept _ 3 rfl t (by omega) (Bool.eq_false_iff.mpr fun h => by have := (flush4_3 _).mp h; dsimp only at this; omega)
      live4_3 (fun _ _ => rfl)]
    dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ (dat4 V c).leavesExact 2 t
    ∗ (dat4 V c).leavesExact 3 t)

-- the inputs hold their blocks, the closed forms select the case, in case B each output holds what the point before left; so the case's run applies
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  obtain ⟨hb0, hb1⟩ := before4_in V (dat4 V c) (fun _ => rfl) (fun _ => rfl) (fun _ => rfl) t
  simp only [hb0, hb1]
  rw [show (dat4 V c).Φ t.succ = (dat4 V c).Φ t.castSucc from rfl,
    show (dat4 V c).owesAt () t.succ = (dat4 V c).owesAt () t.castSucc from rfl,
    show (dat4 V c).after 0 t = iblk4 V c 0 t from rfl, show (dat4 V c).after 1 t = iblk4 V c 1 t from rfl]
  rw [show (dat4 V c).leavesExact 2 t = owns (c : Thread nD τ) (ms4_2 t) fullShare ((dat4 V c).after 2 t) from by
      unfold Dat.leavesExact; rw [live4_2], after4_2]
  rw [show (dat4 V c).leavesExact 3 t = owns (c : Thread nD τ) (ms4_3 t) fullShare ((dat4 V c).after 3 t) from by
      unfold Dat.leavesExact; rw [live4_3], after4_3]
  by_cases h0 : t.val % 25 = 0
  · rw [outsAt4_A V c t h0]
    dsimp only [out4_A, out1_A_2, out1_A_3]
    iintro ⟨HΦ, Ho, ⟨%d0, H0⟩, ⟨%d1, H1⟩, ⟨%d2, H2⟩, ⟨%d3, H3⟩⟩
    iapply ((kernelRun1_A c (grid4.coords t) _ (hs4_0 t) _ (hs4_1 t) _ (hs4_2 t) _ (hs4_3 t) ((hcond1_0 t).mpr h0) (fun h => (hcond1_1 t).mp h h0) (iblk4 V c 0 t) (iblk4 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · rw [outsAt4_B V c t h0]
    simp only [(before4_B V c t h0).1, (before4_B V c t h0).2]
    dsimp only [out4_B, out1_B_2, out1_B_3]
    iintro ⟨HΦ, Ho, ⟨%d0, H0⟩, ⟨%d1, H1⟩, ⟨%d2, H2⟩, ⟨%d3, H3⟩⟩
    iapply ((kernelRun1_B c (grid4.coords t) _ (hs4_0 t) _ (hs4_1 t) _ (hs4_2 t) _ (hs4_3 t) (fun h => h0 ((hcond1_0 t).mp h)) ((hcond1_1 t).mpr h0) (iblk4 V c 0 t) (iblk4 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _)
    unfold owns; iexists _; isplitr
    swap; · iexact H3
    ipureintro; exact View.read_writes_of_cover _ _ _ _ _ (cover1_B_3 c _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Point

end Cert.Kernel.Reg

end
-- ==== Proof.Kernel.RegN5.lean ====
import proofs.«169164_j46703474376898_1_alg».proof.Proof.Kernel.RegN2

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out2_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (w : Fin cfg5.W) : (dat5 V c).A w = V c (Pipeline.arrRef spec5 w) := rfl

variable (t : Fin cfg5.N)

theorem after5_6 : (dat5 V c).after 6 t = out2_6 (iblk5 V c 0 t) (iblk5 V c 1 t) (iblk5 V c 2 t) (iblk5 V c 3 t) (iblk5 V c 4 t) (iblk5 V c 5 t) := by dsimp only [dat5]

theorem before5_0 (d) : (dat5 V c).before 0 t d = iblk5 V c 0 t :=
  (dat5 V c).before_in_eq_fetched 0 rfl (fun _ => rfl) (fun _ _ _ => rfl) (fun _ => rfl) t d
theorem before5_1 (d) : (dat5 V c).before 1 t d = iblk5 V c 1 t :=
  (dat5 V c).before_in_eq_fetched 1 rfl (fun _ => rfl) (fun _ _ _ => rfl) (fun _ => rfl) t d
theorem before5_2 (d) : (dat5 V c).before 2 t d = iblk5 V c 2 t :=
  (dat5 V c).before_in_eq_fetched 2 rfl (fun _ => rfl) (fun _ _ _ => rfl) (fun _ => rfl) t d
theorem before5_3 (d) : (dat5 V c).before 3 t d = iblk5 V c 3 t :=
  (dat5 V c).before_in_eq_fetched 3 rfl (fun _ => rfl) (fun _ _ _ => rfl) (fun _ => rfl) t d
theorem before5_4 (d) : (dat5 V c).before 4 t d = iblk5 V c 4 t :=
  (dat5 V c).before_in_eq_fetched 4 rfl (fun _ => rfl) (fun _ _ _ => rfl) (fun _ => rfl) t d
theorem before5_5 (d) : (dat5 V c).before 5 t d = iblk5 V c 5 t :=
  (dat5 V c).before_in_eq_fetched 5 rfl (fun _ => rfl) (fun _ _ _ => rfl) (fun _ => rfl) t d

theorem bodyAt5_eq : bodyAt5 (F := F) t = cc2__norm_relu_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) := rfl

-- At each grid point every input holds its block of its array, so the body's triple applies there.
theorem body_obligation5 : BodyObligation (dat5 (F := F) V c) (defs₀ (F := F)) Variants.none () Set.univ := fun t => by
  rw [bigSep_W5, bigSep_W5]
  simp only [before5_0, before5_1, before5_2, before5_3, before5_4, before5_5]
  change _ ⊢ wp _ _ _ (bodyAt5 t) _
  rw [bodyAt5_eq]
  dsimp only [dat5, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk5 V c 0 t) (iblk5 V c 1 t) (iblk5 V c 2 t) (iblk5 V c 3 t) (iblk5 V c 4 t) (iblk5 V c 5 t)
  iframe H0 H1 H2 H3 H4 H5
  isplitl [H6]; · iexists _; iexact H6
  iintro H
  iframe

end Point

end Cert.Kernel.Reg
-- ==== Proof.Kernel.RegA6.lean ====
import proofs.«169164_j46703474376898_1_alg».proof.Proof.Kernel.RegA0

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out0_2 (iblk6 V c 0 t) (iblk6 V c 1 t)
  Φ _ := Pipeline.ΦA spec6 c
  q _ := fullShare
  owed _ := 0

theorem A_eq6 (w : Fin cfg6.W) : (dat6 V c).A w = V c (Pipeline.arrRef spec6 w) := rfl

variable (t : Fin cfg6.N)

theorem after6_2 : (dat6 V c).after 2 t = out0_2 (iblk6 V c 0 t) (iblk6 V c 1 t) := by dsimp only [dat6]

theorem before6_0 (d) : (dat6 V c).before 0 t d = iblk6 V c 0 t :=
  (dat6 V c).before_in_eq_fetched 0 rfl (fun _ => rfl) (fun _ _ _ => rfl) (fun _ => rfl) t d
theorem before6_1 (d) : (dat6 V c).before 1 t d = iblk6 V c 1 t :=
  (dat6 V c).before_in_eq_fetched 1 rfl (fun _ => rfl) (fun _ _ _ => rfl) (fun _ => rfl) t d

theorem bodyAt6_eq : bodyAt6 (F := F) t = cc0__matmul_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) := rfl

-- At each grid point every input holds its block of its array, so the body's triple applies there.
theorem body_obligation6 : BodyObligation (dat6 (F := F) V c) (defs₀ (F := F)) Variants.none () Set.univ := fun t => by
  rw [bigSep_W6, bigSep_W6]
  simp only [before6_0, before6_1]
  change _ ⊢ wp _ _ _ (bodyAt6 t) _
  rw [bodyAt6_eq]
  dsimp only [dat6, Dat.owesAt, Dat.bound]
  iintro ⟨HΦ, Ho, ⟨%d0, H0⟩, ⟨%d1, H1⟩, ⟨%d2, H2⟩⟩
  iapply sound_kernel0 c (iblk6 V c 0 t) (iblk6 V c 1 t)
  iframe H0 H1
  isplitl [H2]; · iexists _; iexact H2
  iintro H
  iframe

end Point

end Cert.Kernel.Reg
-- ==== Proof.Kernel.RegS7.lean ====
import proofs.«169164_j46703474376898_1_alg».proof.Proof.Kernel.RegS1

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Point

-- the two conditions are complementary in the coordinate, so at no point do both fail
theorem live7_2 : ∀ i : grid7.Coords, cfg7.idle 2 i = false := fun i =>
  (by decide +kernel : ∀ n : Fin (grid7.bound 0),
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)
theorem live7_3 : ∀ i : grid7.Coords, cfg7.idle 3 i = false := live7_2

abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

-- what case A leaves in the two outputs at point t, and case B over what they held before
abbrev out7_A (c : Dev nD) (t : Fin cfg7.N) (h0 : t.val % 25 = 0) : Vec F S1x128 .f32 × Vec F S1x128 .f32 :=
  (out1_A_2 c (grid7.coords t) (ms7_0 t) (hs7_0 t) (ms7_1 t) (hs7_1 t) (ms7_2 t) (hs7_2 t) (ms7_3 t) (hs7_3 t) ((hcond1_0 t).mpr h0) (fun h => (hcond1_1 t).mp h h0) (iblk7 V c 0 t) (iblk7 V c 1 t),
   out1_A_3 c (grid7.coords t) (ms7_0 t) (hs7_0 t) (ms7_1 t) (hs7_1 t) (ms7_2 t) (hs7_2 t) (ms7_3 t) (hs7_3 t) ((hcond1_0 t).mpr h0) (fun h => (hcond1_1 t).mp h h0) (iblk7 V c 0 t) (iblk7 V c 1 t))
abbrev out7_B (c : Dev nD) (t : Fin cfg7.N) (h0 : ¬t.val % 25 = 0) (p : Vec F S1x128 .f32 × Vec F S1x128 .f32) : Vec F S1x128 .f32 × Vec F S1x128 .f32 :=
  (out1_B_2 c (grid7.coords t) (ms7_0 t) (hs7_0 t) (ms7_1 t) (hs7_1 t) (ms7_2 t) (hs7_2 t) (ms7_3 t) (hs7_3 t) (fun h => h0 ((hcond1_0 t).mp h)) ((hcond1_1 t).mpr h0) (iblk7 V c 0 t) (iblk7 V c 1 t) p.1 p.2,
   out1_B_3 c (grid7.coords t) (ms7_0 t) (hs7_0 t) (ms7_1 t) (hs7_1 t) (ms7_2 t) (hs7_2 t) (ms7_3 t) (hs7_3 t) (fun h => h0 ((hcond1_0 t).mp h)) ((hcond1_1 t).mpr h0) (iblk7 V c 0 t) (iblk7 V c 1 t) p.1 p.2)

-- the accumulation: the outputs after position n are the selected case's, case B over what position n - 1 left
def outsAt7 (c : Dev nD) : (n : ℕ) → n < cfg7.N → Vec F S1x128 .f32 × Vec F S1x128 .f32
  | 0, hn => out7_A V c ⟨0, hn⟩ (Nat.zero_mod _)
  | n + 1, hn =>
    if h0 : (n + 1) % 25 = 0 then out7_A V c ⟨n + 1, hn⟩ h0
    else out7_B V c ⟨n + 1, hn⟩ h0 (outsAt7 c n (Nat.lt_of_succ_lt hn))

theorem outsAt7_A (c : Dev nD) (t : Fin cfg7.N) (h0 : t.val % 25 = 0) : outsAt7 V c t.val t.isLt = out7_A V c t h0 := by
  obtain ⟨n, hn⟩ := t
  cases n with
  | zero => exact rfl
  | succ n => exact (dif_pos h0).trans rfl

theorem outsAt7_B (c : Dev nD) (t : Fin cfg7.N) (h0 : ¬t.val % 25 = 0) :
    outsAt7 V c t.val t.isLt = out7_B V c t h0 (outsAt7 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2
  Φ _ := Pipeline.ΦA spec7 c
  q _ := fullShare
  owed _ := 0

theorem A_eq7 (c : Dev nD) (w : Fin cfg7.W) : (dat7 V c).A w = V c (Pipeline.arrRef spec7 w) := rfl
theorem after7_2 (c : Dev nD) (t : Fin cfg7.N) : (dat7 V c).after 2 t = (outsAt7 V c t.val t.isLt).1 := rfl
theorem after7_3 (c : Dev nD) (t : Fin cfg7.N) : (dat7 V c).after 3 t = (outsAt7 V c t.val t.isLt).2 := rfl

theorem before7_in {c : Dev nD} (dat : Dat τ (Elt F) Unit ℕ (UR sig nD τ) ℕ cfg7 c) (hA : ∀ w, dat.A w = V c (Pipeline.arrRef spec7 w))
    (h0 : ∀ t, dat.after 0 t = iblk7 V c 0 t) (h1 : ∀ t, dat.after 1 t = iblk7 V c 1 t) (t : Fin cfg7.N) :
    (∀ d, dat.before 0 t d = iblk7 V c 0 t) ∧ ∀ d, dat.before 1 t d = iblk7 V c 1 t := by
  constructor <;> intro d <;>
  exact (dat.before_in_eq_fetched _ rfl (fun _ => rfl) (fun _ _ _ => rfl) (fun t => by (first | rw [h0] | rw [h1]); unfold Dat.blockOf iblk7; rw [hA]; try rfl) t d).trans
    (by unfold Dat.fetched Dat.blockOf iblk7; rw [hA]; try rfl)

theorem before7_B (c : Dev nD) (t : Fin cfg7.N) (h0 : ¬t.val % 25 = 0) :
    (∀ d, (dat7 V c).before 2 t d = (outsAt7 V c (t.val - 1) (Nat.lt_of_le_of_lt (Nat.sub_le _ _) t.isLt)).1) ∧ ∀ d, (dat7 V c).before 3 t d = (outsAt7 V c (t.val - 1) (Nat.lt_of_le_of_lt (Nat.sub_le _ _) t.isLt)).2 := by
  have hN : t.val < 25 := lt_of_lt_of_eq t.isLt (show cfg7.N = 25 from N_7)
  constructor <;> intro d
  · rw [Dat.before_out_kept _ 2 rfl t (by omega) (Bool.eq_false_iff.mpr fun h => by have := (flush7_2 _).mp h; dsimp only at this; omega)
      live7_2 (fun _ _ => rfl)]
    dsimp only [dat7]
  · rw [Dat.before_out_kept _ 3 rfl t (by omega) (Bool.eq_false_iff.mpr fun h => by have := (flush7_3 _).mp h; dsimp only at this; omega)
      live7_3 (fun _ _ => rfl)]
    dsimp only [dat7]

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ (dat7 V c).leavesExact 2 t
    ∗ (dat7 V c).leavesExact 3 t)

-- the inputs hold their blocks, the closed forms select the case, in case B each output holds what the point before left; so the case's run applies
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  obtain ⟨hb0, hb1⟩ := before7_in V (dat7 V c) (fun _ => rfl) (fun _ => rfl) (fun _ => rfl) t
  simp only [hb0, hb1]
  rw [show (dat7 V c).Φ t.succ = (dat7 V c).Φ t.castSucc from rfl,
    show (dat7 V c).owesAt () t.succ = (dat7 V c).owesAt () t.castSucc from rfl,
    show (dat7 V c).after 0 t = iblk7 V c 0 t from rfl, show (dat7 V c).after 1 t = iblk7 V c 1 t from rfl]
  rw [show (dat7 V c).leavesExact 2 t = owns (c : Thread nD τ) (ms7_2 t) fullShare ((dat7 V c).after 2 t) from by
      unfold Dat.leavesExact; rw [live7_2], after7_2]
  rw [show (dat7 V c).leavesExact 3 t = owns (c : Thread nD τ) (ms7_3 t) fullShare ((dat7 V c).after 3 t) from by
      unfold Dat.leavesExact; rw [live7_3], after7_3]
  by_cases h0 : t.val % 25 = 0
  · rw [outsAt7_A V c t h0]
    dsimp only [out7_A, out1_A_2, out1_A_3]
    iintro ⟨HΦ, Ho, ⟨%d0, H0⟩, ⟨%d1, H1⟩, ⟨%d2, H2⟩, ⟨%d3, H3⟩⟩
    iapply ((kernelRun1_A c (grid7.coords t) _ (hs7_0 t) _ (hs7_1 t) _ (hs7_2 t) _ (hs7_3 t) ((hcond1_0 t).mpr h0) (fun h => (hcond1_1 t).mp h h0) (iblk7 V c 0 t) (iblk7 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · rw [outsAt7_B V c t h0]
    simp only [(before7_B V c t h0).1, (before7_B V c t h0).2]
    dsimp only [out7_B, out1_B_2, out1_B_3]
    iintro ⟨HΦ, Ho, ⟨%d0, H0⟩, ⟨%d1, H1⟩, ⟨%d2, H2⟩, ⟨%d3, H3⟩⟩
    iapply ((kernelRun1_B c (grid7.coords t) _ (hs7_0 t) _ (hs7_1 t) _ (hs7_2 t) _ (hs7_3 t) (fun h => h0 ((hcond1_0 t).mp h)) ((hcond1_1 t).mpr h0) (iblk7 V c 0 t) (iblk7 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _)
    unfold owns; iexists _; isplitr
    swap; · iexact H3
    ipureintro; exact View.read_writes_of_cover _ _ _ _ _ (cover1_B_3 c _ _ _ _ _ _ _ _ _ _ _ _ _ _ _)

theorem body_obligation7 (c : Dev nD) : BodyObligation (dat7 (F := F) V c) (defs₀ (F := F)) Variants.none () Set.univ := fun t => by
  rw [bigSep_W7, bigSep_W7]
  exact sound_body7 V c t

end Point

end Cert.Kernel.Reg

end
-- ==== Proof.Kernel.RegN8.lean ====
import proofs.«169164_j46703474376898_1_alg».proof.Proof.Kernel.RegN2

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk8 (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out2_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (w : Fin cfg8.W) : (dat8 V c).A w = V c (Pipeline.arrRef spec8 w) := rfl

variable (t : Fin cfg8.N)

theorem after8_6 : (dat8 V c).after 6 t = out2_6 (iblk8 V c 0 t) (iblk8 V c 1 t) (iblk8 V c 2 t) (iblk8 V c 3 t) (iblk8 V c 4 t) (iblk8 V c 5 t) := by dsimp only [dat8]

theorem before8_0 (d) : (dat8 V c).before 0 t d = iblk8 V c 0 t :=
  (dat8 V c).before_in_eq_fetched 0 rfl (fun _ => rfl) (fun _ _ _ => rfl) (fun _ => rfl) t d
theorem before8_1 (d) : (dat8 V c).before 1 t d = iblk8 V c 1 t :=
  (dat8 V c).before_in_eq_fetched 1 rfl (fun _ => rfl) (fun _ _ _ => rfl) (fun _ => rfl) t d
theorem before8_2 (d) : (dat8 V c).before 2 t d = iblk8 V c 2 t :=
  (dat8 V c).before_in_eq_fetched 2 rfl (fun _ => rfl) (fun _ _ _ => rfl) (fun _ => rfl) t d
theorem before8_3 (d) : (dat8 V c).before 3 t d = iblk8 V c 3 t :=
  (dat8 V c).before_in_eq_fetched 3 rfl (fun _ => rfl) (fun _ _ _ => rfl) (fun _ => rfl) t d
theorem before8_4 (d) : (dat8 V c).before 4 t d = iblk8 V c 4 t :=
  (dat8 V c).before_in_eq_fetched 4 rfl (fun _ => rfl) (fun _ _ _ => rfl) (fun _ => rfl) t d
theorem before8_5 (d) : (dat8 V c).before 5 t d = iblk8 V c 5 t :=
  (dat8 V c).before_in_eq_fetched 5 rfl (fun _ => rfl) (fun _ _ _ => rfl) (fun _ => rfl) t d

theorem bodyAt8_eq : bodyAt8 (F := F) t = cc2__norm_relu_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) := rfl

-- At each grid point every input holds its block of its array, so the body's triple applies there.
theorem body_obligation8 : BodyObligation (dat8 (F := F) V c) (defs₀ (F := F)) Variants.none () Set.univ := fun t => by
  rw [bigSep_W8, bigSep_W8]
  simp only [before8_0, before8_1, before8_2, before8_3, before8_4, before8_5]
  change _ ⊢ wp _ _ _ (bodyAt8 t) _
  rw [bodyAt8_eq]
  dsimp only [dat8, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk8 V c 0 t) (iblk8 V c 1 t) (iblk8 V c 2 t) (iblk8 V c 3 t) (iblk8 V c 4 t) (iblk8 V c 5 t)
  iframe H0 H1 H2 H3 H4 H5
  isplitl [H6]; · iexists _; iexact H6
  iintro H
  iframe

end Point

end Cert.Kernel.Reg
-- ==== Proof.Kernel.RegA9.lean ====
import proofs.«169164_j46703474376898_1_alg».proof.Proof.Kernel.RegA3

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk9 (w : Fin cfg9.W) (t : Fin cfg9.N) : ((cfg9.win w).xblock (cfg9.grid.coords t)).Idx → Elt F (cfg9.win w).elt :=
  ((cfg9.win w).blk t).view.read (Elt F) (V c (Pipeline.arrRef spec9 w))

def dat9 : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out3_2 (iblk9 V c 0 t) (iblk9 V c 1 t)
  Φ _ := Pipeline.ΦA spec9 c
  q _ := fullShare
  owed _ := 0

theorem A_eq9 (w : Fin cfg9.W) : (dat9 V c).A w = V c (Pipeline.arrRef spec9 w) := rfl

variable (t : Fin cfg9.N)

theorem after9_2 : (dat9 V c).after 2 t = out3_2 (iblk9 V c 0 t) (iblk9 V c 1 t) := by dsimp only [dat9]

theorem before9_0 (d) : (dat9 V c).before 0 t d = iblk9 V c 0 t :=
  (dat9 V c).before_in_eq_fetched 0 rfl (fun _ => rfl) (fun _ _ _ => rfl) (fun _ => rfl) t d
theorem before9_1 (d) : (dat9 V c).before 1 t d = iblk9 V c 1 t :=
  (dat9 V c).before_in_eq_fetched 1 rfl (fun _ => rfl) (fun _ _ _ => rfl) (fun _ => rfl) t d

theorem bodyAt9_eq : bodyAt9 (F := F) t = cc3__matmul_kernel (grid9.coords t) (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) := rfl

-- At each grid point every input holds its block of its array, so the body's triple applies there.
theorem body_obligation9 : BodyObligation (dat9 (F := F) V c) (defs₀ (F := F)) Variants.none () Set.univ := fun t => by
  rw [bigSep_W9, bigSep_W9]
  simp only [before9_0, before9_1]
  change _ ⊢ wp _ _ _ (bodyAt9 t) _
  rw [bodyAt9_eq]
  dsimp only [dat9, Dat.owesAt, Dat.bound]
  iintro ⟨HΦ, Ho, ⟨%d0, H0⟩, ⟨%d1, H1⟩, ⟨%d2, H2⟩⟩
  iapply sound_kernel3 c (iblk9 V c 0 t) (iblk9 V c 1 t)
  iframe H0 H1
  isplitl [H2]; · iexists _; iexact H2
  iintro H
  iframe

end Point

end Cert.Kernel.Reg
-- ==== Proof.Kernel.RegS10.lean ====
import proofs.«169164_j46703474376898_1_alg».proof.Proof.Kernel.RegS1

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Point

-- the two conditions are complementary in the coordinate, so at no point do both fail
theorem live10_2 : ∀ i : grid10.Coords, cfg10.idle 2 i = false := fun i =>
  (by decide +kernel : ∀ n : Fin (grid10.bound 0),
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)
theorem live10_3 : ∀ i : grid10.Coords, cfg10.idle 3 i = false := live10_2

abbrev ms10_0 (t : Fin cfg10.N) : Memref sig .tc .vmem S2000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x128 .f32 := win10_3.stage (cfg10.slots t 3)
abbrev hs10_3 (t : Fin cfg10.N) : (ms10_3 t).IsWhole := hstage10_3 ((cfg10.slots t 3).cast nbuf10_3)

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

-- what case A leaves in the two outputs at point t, and case B over what they held before
abbrev out10_A (c : Dev nD) (t : Fin cfg10.N) (h0 : t.val % 25 = 0) : Vec F S1x128 .f32 × Vec F S1x128 .f32 :=
  (out1_A_2 c (grid10.coords t) (ms10_0 t) (hs10_0 t) (ms10_1 t) (hs10_1 t) (ms10_2 t) (hs10_2 t) (ms10_3 t) (hs10_3 t) ((hcond1_0 t).mpr h0) (fun h => (hcond1_1 t).mp h h0) (iblk10 V c 0 t) (iblk10 V c 1 t),
   out1_A_3 c (grid10.coords t) (ms10_0 t) (hs10_0 t) (ms10_1 t) (hs10_1 t) (ms10_2 t) (hs10_2 t) (ms10_3 t) (hs10_3 t) ((hcond1_0 t).mpr h0) (fun h => (hcond1_1 t).mp h h0) (iblk10 V c 0 t) (iblk10 V c 1 t))
abbrev out10_B (c : Dev nD) (t : Fin cfg10.N) (h0 : ¬t.val % 25 = 0) (p : Vec F S1x128 .f32 × Vec F S1x128 .f32) : Vec F S1x128 .f32 × Vec F S1x128 .f32 :=
  (out1_B_2 c (grid10.coords t) (ms10_0 t) (hs10_0 t) (ms10_1 t) (hs10_1 t) (ms10_2 t) (hs10_2 t) (ms10_3 t) (hs10_3 t) (fun h => h0 ((hcond1_0 t).mp h)) ((hcond1_1 t).mpr h0) (iblk10 V c 0 t) (iblk10 V c 1 t) p.1 p.2,
   out1_B_3 c (grid10.coords t) (ms10_0 t) (hs10_0 t) (ms10_1 t) (hs10_1 t) (ms10_2 t) (hs10_2 t) (ms10_3 t) (hs10_3 t) (fun h => h0 ((hcond1_0 t).mp h)) ((hcond1_1 t).mpr h0) (iblk10 V c 0 t) (iblk10 V c 1 t) p.1 p.2)

-- the accumulation: the outputs after position n are the selected case's, case B over what position n - 1 left
def outsAt10 (c : Dev nD) : (n : ℕ) → n < cfg10.N → Vec F S1x128 .f32 × Vec F S1x128 .f32
  | 0, hn => out10_A V c ⟨0, hn⟩ (Nat.zero_mod _)
  | n + 1, hn =>
    if h0 : (n + 1) % 25 = 0 then out10_A V c ⟨n + 1, hn⟩ h0
    else out10_B V c ⟨n + 1, hn⟩ h0 (outsAt10 c n (Nat.lt_of_succ_lt hn))

theorem outsAt10_A (c : Dev nD) (t : Fin cfg10.N) (h0 : t.val % 25 = 0) : outsAt10 V c t.val t.isLt = out10_A V c t h0 := by
  obtain ⟨n, hn⟩ := t
  cases n with
  | zero => exact rfl
  | succ n => exact (dif_pos h0).trans rfl

theorem outsAt10_B (c : Dev nD) (t : Fin cfg10.N) (h0 : ¬t.val % 25 = 0) :
    outsAt10 V c t.val t.isLt = out10_B V c t h0 (outsAt10 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
    | ⟨3, _⟩ => (outsAt10 V c t.val t.isLt).2
  Φ _ := Pipeline.ΦA spec10 c
  q _ := fullShare
  owed _ := 0

theorem A_eq10 (c : Dev nD) (w : Fin cfg10.W) : (dat10 V c).A w = V c (Pipeline.arrRef spec10 w) := rfl
theorem after10_2 (c : Dev nD) (t : Fin cfg10.N) : (dat10 V c).after 2 t = (outsAt10 V c t.val t.isLt).1 := rfl
theorem after10_3 (c : Dev nD) (t : Fin cfg10.N) : (dat10 V c).after 3 t = (outsAt10 V c t.val t.isLt).2 := rfl

theorem before10_in {c : Dev nD} (dat : Dat τ (Elt F) Unit ℕ (UR sig nD τ) ℕ cfg10 c) (hA : ∀ w, dat.A w = V c (Pipeline.arrRef spec10 w))
    (h0 : ∀ t, dat.after 0 t = iblk10 V c 0 t) (h1 : ∀ t, dat.after 1 t = iblk10 V c 1 t) (t : Fin cfg10.N) :
    (∀ d, dat.before 0 t d = iblk10 V c 0 t) ∧ ∀ d, dat.before 1 t d = iblk10 V c 1 t := by
  constructor <;> intro d <;>
  exact (dat.before_in_eq_fetched _ rfl (fun _ => rfl) (fun _ _ _ => rfl) (fun t => by (first | rw [h0] | rw [h1]); unfold Dat.blockOf iblk10; rw [hA]; try rfl) t d).trans
    (by unfold Dat.fetched Dat.blockOf iblk10; rw [hA]; try rfl)

theorem before10_B (c : Dev nD) (t : Fin cfg10.N) (h0 : ¬t.val % 25 = 0) :
    (∀ d, (dat10 V c).before 2 t d = (outsAt10 V c (t.val - 1) (Nat.lt_of_le_of_lt (Nat.sub_le _ _) t.isLt)).1) ∧ ∀ d, (dat10 V c).before 3 t d = (outsAt10 V c (t.val - 1) (Nat.lt_of_le_of_lt (Nat.sub_le _ _) t.isLt)).2 := by
  have hN : t.val < 25 := lt_of_lt_of_eq t.isLt (show cfg10.N = 25 from N_10)
  constructor <;> intro d
  · rw [Dat.before_out_kept _ 2 rfl t (by omega) (Bool.eq_false_iff.mpr fun h => by have := (flush10_2 _).mp h; dsimp only at this; omega)
      live10_2 (fun _ _ => rfl)]
    dsimp only [dat10]
  · rw [Dat.before_out_kept _ 3 rfl t (by omega) (Bool.eq_false_iff.mpr fun h => by have := (flush10_3 _).mp h; dsimp only at this; omega)
      live10_3 (fun _ _ => rfl)]
    dsimp only [dat10]

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ (dat10 V c).leavesExact 2 t
    ∗ (dat10 V c).leavesExact 3 t)

-- the inputs hold their blocks, the closed forms select the case, in case B each output holds what the point before left; so the case's run applies
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  obtain ⟨hb0, hb1⟩ := before10_in V (dat10 V c) (fun _ => rfl) (fun _ => rfl) (fun _ => rfl) t
  simp only [hb0, hb1]
  rw [show (dat10 V c).Φ t.succ = (dat10 V c).Φ t.castSucc from rfl,
    show (dat10 V c).owesAt () t.succ = (dat10 V c).owesAt () t.castSucc from rfl,
    show (dat10 V c).after 0 t = iblk10 V c 0 t from rfl, show (dat10 V c).after 1 t = iblk10 V c 1 t from rfl]
  rw [show (dat10 V c).leavesExact 2 t = owns (c : Thread nD τ) (ms10_2 t) fullShare ((dat10 V c).after 2 t) from by
      unfold Dat.leavesExact; rw [live10_2], after10_2]
  rw [show (dat10 V c).leavesExact 3 t = owns (c : Thread nD τ) (ms10_3 t) fullShare ((dat10 V c).after 3 t) from by
      unfold Dat.leavesExact; rw [live10_3], after10_3]
  by_cases h0 : t.val % 25 = 0
  · rw [outsAt10_A V c t h0]
    dsimp only [out10_A, out1_A_2, out1_A_3]
    iintro ⟨HΦ, Ho, ⟨%d0, H0⟩, ⟨%d1, H1⟩, ⟨%d2, H2⟩, ⟨%d3, H3⟩⟩
    iapply ((kernelRun1_A c (grid10.coords t) _ (hs10_0 t) _ (hs10_1 t) _ (hs10_2 t) _ (hs10_3 t) ((hcond1_0 t).mpr h0) (fun h => (hcond1_1 t).mp h h0) (iblk10 V c 0 t) (iblk10 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · rw [outsAt10_B V c t h0]
    simp only [(before10_B V c t h0).1, (before10_B V c t h0).2]
    dsimp only [out10_B, out1_B_2, out1_B_3]
    iintro ⟨HΦ, Ho, ⟨%d0, H0⟩, ⟨%d1, H1⟩, ⟨%d2, H2⟩, ⟨%d3, H3⟩⟩
    iapply ((kernelRun1_B c (grid10.coords t) _ (hs10_0 t) _ (hs10_1 t) _ (hs10_2 t) _ (hs10_3 t) (fun h => h0 ((hcond1_0 t).mp h)) ((hcond1_1 t).mpr h0) (iblk10 V c 0 t) (iblk10 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _)
    unfold owns; iexists _; isplitr
    swap; · iexact H3
    ipureintro; exact View.read_writes_of_cover _ _ _ _ _ (cover1_B_3 c _ _ _ _ _ _ _ _ _ _ _ _ _ _ _)

theorem body_obligation10 (c : Dev nD) : BodyObligation (dat10 (F := F) V c) (defs₀ (F := F)) Variants.none () Set.univ := fun t => by
  rw [bigSep_W10, bigSep_W10]
  exact sound_body10 V c t

end Point

end Cert.Kernel.Reg

end
-- ==== Proof.Kernel.RegN11.lean ====
import proofs.«169164_j46703474376898_1_alg».proof.Proof.Kernel.RegN2

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk11 (w : Fin cfg11.W) (t : Fin cfg11.N) : ((cfg11.win w).xblock (cfg11.grid.coords t)).Idx → Elt F (cfg11.win w).elt :=
  ((cfg11.win w).blk t).view.read (Elt F) (V c (Pipeline.arrRef spec11 w))

def dat11 : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out2_6 (iblk11 V c 0 t) (iblk11 V c 1 t) (iblk11 V c 2 t) (iblk11 V c 3 t) (iblk11 V c 4 t) (iblk11 V c 5 t)
  Φ _ := Pipeline.ΦA spec11 c
  q _ := fullShare
  owed _ := 0

theorem A_eq11 (w : Fin cfg11.W) : (dat11 V c).A w = V c (Pipeline.arrRef spec11 w) := rfl

variable (t : Fin cfg11.N)

theorem after11_6 : (dat11 V c).after 6 t = out2_6 (iblk11 V c 0 t) (iblk11 V c 1 t) (iblk11 V c 2 t) (iblk11 V c 3 t) (iblk11 V c 4 t) (iblk11 V c 5 t) := by dsimp only [dat11]

theorem before11_0 (d) : (dat11 V c).before 0 t d = iblk11 V c 0 t :=
  (dat11 V c).before_in_eq_fetched 0 rfl (fun _ => rfl) (fun _ _ _ => rfl) (fun _ => rfl) t d
theorem before11_1 (d) : (dat11 V c).before 1 t d = iblk11 V c 1 t :=
  (dat11 V c).before_in_eq_fetched 1 rfl (fun _ => rfl) (fun _ _ _ => rfl) (fun _ => rfl) t d
theorem before11_2 (d) : (dat11 V c).before 2 t d = iblk11 V c 2 t :=
  (dat11 V c).before_in_eq_fetched 2 rfl (fun _ => rfl) (fun _ _ _ => rfl) (fun _ => rfl) t d
theorem before11_3 (d) : (dat11 V c).before 3 t d = iblk11 V c 3 t :=
  (dat11 V c).before_in_eq_fetched 3 rfl (fun _ => rfl) (fun _ _ _ => rfl) (fun _ => rfl) t d
theorem before11_4 (d) : (dat11 V c).before 4 t d = iblk11 V c 4 t :=
  (dat11 V c).before_in_eq_fetched 4 rfl (fun _ => rfl) (fun _ _ _ => rfl) (fun _ => rfl) t d
theorem before11_5 (d) : (dat11 V c).before 5 t d = iblk11 V c 5 t :=
  (dat11 V c).before_in_eq_fetched 5 rfl (fun _ => rfl) (fun _ _ _ => rfl) (fun _ => rfl) t d

theorem bodyAt11_eq : bodyAt11 (F := F) t = cc2__norm_relu_kernel (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) := rfl

-- At each grid point every input holds its block of its array, so the body's triple applies there.
theorem body_obligation11 : BodyObligation (dat11 (F := F) V c) (defs₀ (F := F)) Variants.none () Set.univ := fun t => by
  rw [bigSep_W11, bigSep_W11]
  simp only [before11_0, before11_1, before11_2, before11_3, before11_4, before11_5]
  change _ ⊢ wp _ _ _ (bodyAt11 t) _
  rw [bodyAt11_eq]
  dsimp only [dat11, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk11 V c 0 t) (iblk11 V c 1 t) (iblk11 V c 2 t) (iblk11 V c 3 t) (iblk11 V c 4 t) (iblk11 V c 5 t)
  iframe H0 H1 H2 H3 H4 H5
  isplitl [H6]; · iexists _; iexact H6
  iintro H
  iframe

end Point

end Cert.Kernel.Reg
-- ==== Proof.Kernel.RegG12.lean ====
import proofs.«169164_j46703474376898_1_alg».proof.Proof.Gen.Kernel.Launch
import proofs.«169164_j46703474376898_1_alg».proof.Proof.Gen.Kernel.Skeleton
import proofs.«169164_j46703474376898_1_alg».proof.Proof.Gen.Kernel.Points
import Idealize.ShloMosaic.Lib.Pipeline.FrameBody
import Idealize.ShloMosaic.Lib.Ring
import Idealize.ShloMosaic.Lib.Tactic

noncomputable section

namespace Cert.Kernel.Reg

open Cert.Kernel.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk12 (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S2000x128 := Rect.unit (s := S2000x128) ![0, 0] S2000x128.size inb_S2000x128_S2000x128_0_0
abbrev r12_1 : Rect S128x128 := Rect.unit (s := S128x128) ![0, 0] S128x128.size inb_S128x128_S128x128_0_0
abbrev r12_2 : Rect S1x128 := Rect.unit (s := S1x128) ![0, 0] S1x128.size inb_S1x128_S1x128_0_0

def out12_5 (x0 x1 : Vec F S2000x128 .f32) (x2 x3 : Vec F S128x128 .f32) (x4 : Vec F S1x128 .f32) : Vec F S2000x128 .f32 :=
  View.canon [⟨r12_0, k12_pay1 (View.ld x0 r12_0) (View.ld x1 r12_0) (View.ld x2 r12_1) (View.ld x3 r12_1) (View.ld x4 r12_2)⟩]

-- The one store covers the whole output block, so the block read back is the canonical contents of that store: a function of the input blocks alone.
theorem sound_kernel12 {E : Set ℕ} {i : grid12.Coords} {arg1 arg2 arg6 : Memref sig .tc .vmem S2000x128 .f32} {arg3 arg4 : Memref sig .tc .vmem S128x128 .f32} {arg5 : Memref sig .tc .vmem S1x128 .f32} {harg1 : arg1.IsWhole} {harg2 : arg2.IsWhole} {harg3 : arg3.IsWhole} {harg4 : arg4.IsWhole} {harg5 : arg5.IsWhole} {harg6 : arg6.IsWhole}
    (x0 x1 : Vec F S2000x128 .f32) (x2 x3 : Vec F S128x128 .f32) (x4 : Vec F S1x128 .f32) {K : PUnit → sProp 𝕄} :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out12_5 x0 x1 x2 x3 x4)) -∗ K ⟨⟩))
      ⊢ wp frame (wpE (defs₀ (F := F)) Variants.none c none) E (cc12__gate_kernel i arg1 harg1 arg2 harg2 arg3 harg3 arg4 harg4 arg5 harg5 arg6 harg6) K := by
  simp only [cc12__gate_kernel_eq_skeleton]; unfold cc12__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S2000x128.size (by rfl))

def dat12 : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (w : Fin cfg12.W) : (dat12 V c).A w = V c (Pipeline.arrRef spec12 w) := rfl

variable (t : Fin cfg12.N)

theorem after12_5 : (dat12 V c).after 5 t = out12_5 (iblk12 V c 0 t) (iblk12 V c 1 t) (iblk12 V c 2 t) (iblk12 V c 3 t) (iblk12 V c 4 t) := by dsimp only [dat12]

theorem before12_0 (d) : (dat12 V c).before 0 t d = iblk12 V c 0 t :=
  (dat12 V c).before_in_eq_fetched 0 rfl (fun _ => rfl) (fun _ _ _ => rfl) (fun _ => rfl) t d
theorem before12_1 (d) : (dat12 V c).before 1 t d = iblk12 V c 1 t :=
  (dat12 V c).before_in_eq_fetched 1 rfl (fun _ => rfl) (fun _ _ _ => rfl) (fun _ => rfl) t d
theorem before12_2 (d) : (dat12 V c).before 2 t d = iblk12 V c 2 t :=
  (dat12 V c).before_in_eq_fetched 2 rfl (fun _ => rfl) (fun _ _ _ => rfl) (fun _ => rfl) t d
theorem before12_3 (d) : (dat12 V c).before 3 t d = iblk12 V c 3 t :=
  (dat12 V c).before_in_eq_fetched 3 rfl (fun _ => rfl) (fun _ _ _ => rfl) (fun _ => rfl) t d
theorem before12_4 (d) : (dat12 V c).before 4 t d = iblk12 V c 4 t :=
  (dat12 V c).before_in_eq_fetched 4 rfl (fun _ => rfl) (fun _ _ _ => rfl) (fun _ => rfl) t d

-- At each grid point every input holds its block of its array, so the body's triple applies there.
theorem body_obligation12 : BodyObligation (dat12 (F := F) V c) (defs₀ (F := F)) Variants.none () Set.univ := fun t => by
  rw [bigSep_W12, bigSep_W12]
  simp only [before12_0, before12_1, before12_2, before12_3, before12_4]
  change _ ⊢ wp _ _ _ (bodyAt12 t) _
  dsimp only [dat12, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply sound_kernel12 c (iblk12 V c 0 t) (iblk12 V c 1 t) (iblk12 V c 2 t) (iblk12 V c 3 t) (iblk12 V c 4 t)
  iframe H0 H1 H2 H3 H4
  isplitl [H5]; · iexists _; iexact H5
  iintro H
  iframe

end Cert.Kernel.Reg
-- ==== Proof.LibRegionSeg.lean ====
import Idealize.ShloMosaic.Lib.Pipeline.FrameBody
import Idealize.ShloMosaic.Lib.Pipeline.RegionsLoop
import Idealize.ShloMosaic.Lib.Pipeline.FrameSuffix

noncomputable section

namespace Idealize.ShloMosaic.Pipeline

open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U]
variable {Λ₀ : SL.Sem.Labels} {P : Type} [Fintype P]

local notation "𝕄" => MT nD τ sig Unit Val ℕ U ℕ

/-- The array a window ends with, read off either description of it. -/
theorem arrAt_last {cfg : Cfg sig Λ₀} {c : Dev nD} (dat : Dat τ Val Unit ℕ U ℕ cfg c)
    (hinj : Function.Injective (arrRef cfg.spec)) (V V' : Valuation τ sig Val)
    (hA : ∀ w, dat.A w = V (arrRef cfg.spec w)) (w : Fin cfg.W)
    (h : V' (arrRef cfg.spec w) = withArrays cfg.spec c V (dat.arrAt · cfg.N) (arrRef cfg.spec w)
      ∨ (cfg.win w).isOut = false ∧ V' (arrRef cfg.spec w) = V (arrRef cfg.spec w)) :
    dat.arrAt w cfg.N = V' (arrRef cfg.spec w) :=
  h.elim (fun h => (h.trans (withArrays_arr cfg.spec hinj c V _ w)).symm)
    fun h => ((dat.arrAt_in w h.1 _).trans (hA w)).trans h.2.symm

variable (cfgs : P → Cfg sig Λ₀) (pdats : (p : P) → (c : Dev nD) → Dat τ Val Unit ℕ U ℕ (cfgs p) c)
  (defs₀ : Defs nD τ sig Val Λ₀) (𝒱₀ : Variants) (L : GSem nD τ sig → Finset Unit) (lv : GSem nD τ sig → Unit → ℕ)

abbrev idle (c : Dev nD) : sProp 𝕄 := iprop((∃ r, prngReg c r) ∗ ∃ W, owes (c : Thread nD τ) (0 : CellTallies nD τ sig Unit) W)

/-- One region's step of a several-region run, from facts about that region alone; `V'` differs from `V` at the region's arrays only. -/
def RegionSeg.ofHeld (p : P) (kit : LaunchFacts (nD := nD) (τ := τ) cfgs p) (V V' : Dev nD → Valuation τ sig Val)
    (hbody : ∀ c, BodyObligation (pdats p c) defs₀ 𝒱₀ () Set.univ)
    (hq : ∀ c w, (pdats p c).q w = fullShare) (howed : ∀ c t, (pdats p c).owed t = 0)
    (hrec : ∀ c, (pdats p c).recorded 0 = Set.univ) (hΦ : ∀ c t, (pdats p c).Φ t = ΦA (cfgs p).spec c)
    (hA : ∀ c w, (pdats p c).A w = V c (arrRef (cfgs p).spec w))
    (hF : ∀ c w, (pdats p c).arrAt w (cfgs p).N = V' c (arrRef (cfgs p).spec w))
    (O : List (Ref sig .tc)) (hO : ∀ r ∈ O, r ∈ Finset.univ.image (arrRef (cfgs p).spec))
    (hof : ∀ c (r : Ref sig .tc), r ∉ O → V' c r = V c r) :
    RegionSeg (fun q => (cfgs q).toPCfg (Val := Val)) (fun q => (cfgs q).toPCfg_adm) pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero _ _ _ _ L lv p howed
  pre c := iprop(StableHlo.held (c : Thread nD τ) (ucRefs τ sig) (V c) ∗ idle c)
  post c := iprop(StableHlo.held (c : Thread nD τ) (ucRefs τ sig) (V' c) ∗ idle c)
  X c := iprop(∃ r, prngReg c r)
  Y c := iprop(∃ r, prngReg c r)
  Z c := unscopedRest (Ix := Unit) (Name := ℕ) (U := U) (Lvl := ℕ) (cfgs p).spec c fun b => V c b
  hentry c := by
    rw [ownSems0_none]
    have hsplit := arrays_of_unscopedBufs (p := p) (fun q => (cfgs q).toPCfg (Val := Val)) (fun q => (cfgs q).toPCfg_adm) pdats
      kit.win kit.arr_whole c ((pdats p c).share_full (hq c)) (fun b => V c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin Dat.bound
      rw [howed c 0, hrec c]
      icases HO with ⟨%W, HO⟩; iexists W; isplitr; · ipureintro; exact fun _ _ => Or.inl trivial
      iexact HO
    isplitl [Hp]; · iexact Hp
    iexact Hrest
  hin c := by
    rw [hΦ c 0]; unfold ΦA
    iintro ⟨Hp, -, Hr⟩
    isplitl [Hr]; · iexact Hr
    iexact Hp
  hout c := by
    rw [ownSems0_none, hΦ c (Fin.last _)]; unfold ΦA
    iintro ⟨Hr, Hp⟩
    isplitl [Hp]; · iexact Hp
    isplitr; · iempintro
    iexact Hr
  hexit c := by
    have hjoin := unscopedBufs_of_arrays (p := p) (fun q => (cfgs q).toPCfg (Val := Val)) (fun q => (cfgs q).toPCfg_adm)
      (Ix := Unit) (Name := ℕ) (U := U) (Lvl := ℕ) kit.win kit.arr_whole c pdats ((pdats p c).share_full (hq c))
      (fun b => V c b) (fun b => V' c b) ((pdats p c).arrAt · (cfgs p).N) (hF c) fun b hb => hof c b fun h => hb (hO b h)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed c (Fin.last _)]
    icases HO with ⟨%W, -, HO⟩; iexists W; iexact HO

end Idealize.ShloMosaic.Pipeline

end
-- ==== Proof.Kernel.SegsBase.lean ====
import proofs.«169164_j46703474376898_1_alg».proof.Proof.Kernel.Regions
import proofs.«169164_j46703474376898_1_alg».proof.Proof.Kernel.RegA0
import proofs.«169164_j46703474376898_1_alg».proof.Proof.Kernel.RegS1
import proofs.«169164_j46703474376898_1_alg».proof.Proof.Kernel.RegN2
import proofs.«169164_j46703474376898_1_alg».proof.Proof.Kernel.RegA3
import proofs.«169164_j46703474376898_1_alg».proof.Proof.Kernel.RegS4
import proofs.«169164_j46703474376898_1_alg».proof.Proof.Kernel.RegN5
import proofs.«169164_j46703474376898_1_alg».proof.Proof.Kernel.RegA6
import proofs.«169164_j46703474376898_1_alg».proof.Proof.Kernel.RegS7
import proofs.«169164_j46703474376898_1_alg».proof.Proof.Kernel.RegN8
import proofs.«169164_j46703474376898_1_alg».proof.Proof.Kernel.RegA9
import proofs.«169164_j46703474376898_1_alg».proof.Proof.Kernel.RegS10
import proofs.«169164_j46703474376898_1_alg».proof.Proof.Kernel.RegN11
import proofs.«169164_j46703474376898_1_alg».proof.Proof.Kernel.RegG12
import proofs.«169164_j46703474376898_1_alg».proof.Proof.LibRegionSeg
import Idealize.ShloMosaic.Lib.Ring
import Idealize.ShloMosaic.Lib.Tactic

noncomputable section

namespace Cert.Kernel.Run

open Cert.Kernel Cert.Kernel.Gen Cert.Kernel.Reg
open Idealize.ShloMosaic Idealize.ShloMosaic.TcCoe Idealize.ShloMosaic.Rounds
open Idealize.SL Idealize.SL.BI Idealize.SL.BI.BIBase
open scoped Idealize.SL.BI
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

def o0 : Outs (F := F) := fun _ r c => m ((c : Thread nD τ).loc r)
def o1 : Outs (F := F) := fun J r c => match J with
  | 2 => rd (fun c => Pipeline.withArrays spec0 c ((V1 m) c) fun w => (dat0 (rd (V1 m)) c).arrAt w cfg0.N) c r
  | _ => o0 m J r c
def o2 : Outs (F := F) := fun J r c => match J with
  | 6 => rd (fun c => Pipeline.withArrays spec1 c ((V5 m (o1 m)) c) fun w => (dat1 (rd (V5 m (o1 m))) c).arrAt w cfg1.N) c r
  | _ => o1 m J r c
def o3 : Outs (F := F) := fun J r c => match J with
  | 8 => rd (fun c => Pipeline.withArrays spec2 c ((V7 m (o2 m)) c) fun w => (dat2 (rd (V7 m (o2 m))) c).arrAt w cfg2.N) c r
  | _ => o2 m J r c
def o4 : Outs (F := F) := fun J r c => match J with
  | 10 => rd (fun c => Pipeline.withArrays spec3 c ((V9 m (o3 m)) c) fun w => (dat3 (rd (V9 m (o3 m))) c).arrAt w cfg3.N) c r
  | _ => o3 m J r c
def o5 : Outs (F := F) := fun J r c => match J with
  | 14 => rd (fun c => Pipeline.withArrays spec4 c ((V13 m (o4 m)) c) fun w => (dat4 (rd (V13 m (o4 m))) c).arrAt w cfg4.N) c r
  | _ => o4 m J r c
def o6 : Outs (F := F) := fun J r c => match J with
  | 16 => rd (fun c => Pipeline.withArrays spec5 c ((V15 m (o5 m)) c) fun w => (dat5 (rd (V15 m (o5 m))) c).arrAt w cfg5.N) c r
  | _ => o5 m J r c
def o7 : Outs (F := F) := fun J r c => match J with
  | 18 => rd (fun c => Pipeline.withArrays spec6 c ((V17 m (o6 m)) c) fun w => (dat6 (rd (V17 m (o6 m))) c).arrAt w cfg6.N) c r
  | _ => o6 m J r c
def o8 : Outs (F := F) := fun J r c => match J with
  | 22 => rd (fun c => Pipeline.withArrays spec7 c ((V21 m (o7 m)) c) fun w => (dat7 (rd (V21 m (o7 m))) c).arrAt w cfg7.N) c r
  | _ => o7 m J r c
def o9 : Outs (F := F) := fun J r c => match J with
  | 24 => rd (fun c => Pipeline.withArrays spec8 c ((V23 m (o8 m)) c) fun w => (dat8 (rd (V23 m (o8 m))) c).arrAt w cfg8.N) c r
  | _ => o8 m J r c
def o10 : Outs (F := F) := fun J r c => match J with
  | 26 => rd (fun c => Pipeline.withArrays spec9 c ((V25 m (o9 m)) c) fun w => (dat9 (rd (V25 m (o9 m))) c).arrAt w cfg9.N) c r
  | _ => o9 m J r c
def o11 : Outs (F := F) := fun J r c => match J with
  | 30 => rd (fun c => Pipeline.withArrays spec10 c ((V29 m (o10 m)) c) fun w => (dat10 (rd (V29 m (o10 m))) c).arrAt w cfg10.N) c r
  | _ => o10 m J r c
def o12 : Outs (F := F) := fun J r c => match J with
  | 32 => rd (fun c => Pipeline.withArrays spec11 c ((V31 m (o11 m)) c) fun w => (dat11 (rd (V31 m (o11 m))) c).arrAt w cfg11.N) c r
  | _ => o11 m J r c
def o13 : Outs (F := F) := fun J r c => match J with
  | 34 => rd (fun c => Pipeline.withArrays spec12 c ((V33 m (o12 m)) c) fun w => (dat12 (rd (V33 m (o12 m))) c).arrAt w cfg12.N) c r
  | _ => o12 m J r c

abbrev outs : Outs (F := F) := o13 m

def pdats : (p : Fin 13) → (c : Dev nD) → Dat τ (Elt F) Unit ℕ (UR sig nD τ) ℕ (cfgs p) c
  | ⟨0, _⟩ => fun c => dat0 (rd (V1 m)) c
  | ⟨1, _⟩ => fun c => dat1 (rd (V5 m (o1 m))) c
  | ⟨2, _⟩ => fun c => dat2 (rd (V7 m (o2 m))) c
  | ⟨3, _⟩ => fun c => dat3 (rd (V9 m (o3 m))) c
  | ⟨4, _⟩ => fun c => dat4 (rd (V13 m (o4 m))) c
  | ⟨5, _⟩ => fun c => dat5 (rd (V15 m (o5 m))) c
  | ⟨6, _⟩ => fun c => dat6 (rd (V17 m (o6 m))) c
  | ⟨7, _⟩ => fun c => dat7 (rd (V21 m (o7 m))) c
  | ⟨8, _⟩ => fun c => dat8 (rd (V23 m (o8 m))) c
  | ⟨9, _⟩ => fun c => dat9 (rd (V25 m (o9 m))) c
  | ⟨10, _⟩ => fun c => dat10 (rd (V29 m (o10 m))) c
  | ⟨11, _⟩ => fun c => dat11 (rd (V31 m (o11 m))) c
  | ⟨12, _⟩ => fun c => dat12 (rd (V33 m (o12 m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.Kernel.Run

end
-- ==== Proof.Kernel.Seg0.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry0 (c : Dev nD) : V1 m c = (V1 m) c := rfl

theorem hF0 (c : Dev nD) (w : Fin cfg0.W) : (dat0 (rd (V1 m)) c).arrAt w cfg0.N = rd (V2 m (outs m)) c (Pipeline.arrRef spec0 w) :=
  Pipeline.arrAt_last _ launch0.win.arr_inj (V1 m c) _ (A_eq0 _ c) w <| match w with
  | ⟨0, _⟩ | ⟨1, _⟩ => .inr ⟨rfl, V2_of m (outs m) c _ (by decide +revert)⟩
  | ⟨2, _⟩ => .inl (Function.update_self _ _ _)

theorem outval0_2 (c : Dev nD) : rd (V2 m (outs m)) c main_v10 = (dat0 (rd (V1 m)) c).arrAt 2 cfg0.N := (hF0 m c 2).symm

def reg0 : Pipeline.RegionSeg (pcfgs (F := F)) adm (pdats m) () defs₀ 𝒱₀ L lv 0 :=
  .ofHeld cfgs (pdats m) defs₀ 𝒱₀ L lv 0 launch0 (V1 m) (V2 m (outs m)) (body_obligation0 _) (fun _ _ => rfl) (fun _ _ => rfl)
    (fun _ => rfl) (fun _ _ => rfl) (fun _ _ => rfl) (hF0 m) [main_v10] (by decide) (V2_of m (outs m))

end Cert.Kernel.Run

end
-- ==== Proof.Kernel.Seg1.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry1 (c : Dev nD) : V5 m (outs m) c = (V5 m (o1 m)) c := rfl

theorem hF1 (c : Dev nD) (w : Fin cfg1.W) : (dat1 (rd (V5 m (o1 m))) c).arrAt w cfg1.N = rd (V6 m (outs m)) c (Pipeline.arrRef spec1 w) :=
  Pipeline.arrAt_last _ launch1.win.arr_inj (V5 m (o1 m) c) _ (A_eq1 _ c) w <| match w with
  | ⟨0, _⟩ | ⟨1, _⟩ => .inr ⟨rfl, V6_of m (outs m) c _ (by decide +revert)⟩
  | ⟨2, _⟩ => .inl ((Function.update_of_ne (StableHlo.devRef_ne_of_ne (by decide +revert)) _ _).trans (Function.update_self _ _ _))
  | ⟨3, _⟩ => .inl (Function.update_self _ _ _)

theorem outval1_2 (c : Dev nD) : rd (V6 m (outs m)) c main_v61_0 = (dat1 (rd (V5 m (o1 m))) c).arrAt 2 cfg1.N := (hF1 m c 2).symm

theorem outval1_3 (c : Dev nD) : rd (V6 m (outs m)) c main_v61_1 = (dat1 (rd (V5 m (o1 m))) c).arrAt 3 cfg1.N := (hF1 m c 3).symm

def reg1 : Pipeline.RegionSeg (pcfgs (F := F)) adm (pdats m) () defs₀ 𝒱₀ L lv 1 :=
  .ofHeld cfgs (pdats m) defs₀ 𝒱₀ L lv 1 launch1 (V5 m (o1 m)) (V6 m (outs m)) (body_obligation1 _) (fun _ _ => rfl) (fun _ _ => rfl)
    (fun _ => rfl) (fun _ _ => rfl) (fun _ _ => rfl) (hF1 m) [main_v61_0, main_v61_1] (by decide) (V6_of m (outs m))

end Cert.Kernel.Run

end
-- ==== Proof.Kernel.Seg2.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry2 (c : Dev nD) : V7 m (outs m) c = (V7 m (o2 m)) c := rfl

theorem hF2 (c : Dev nD) (w : Fin cfg2.W) : (dat2 (rd (V7 m (o2 m))) c).arrAt w cfg2.N = rd (V8 m (outs m)) c (Pipeline.arrRef spec2 w) :=
  Pipeline.arrAt_last _ launch2.win.arr_inj (V7 m (o2 m) c) _ (A_eq2 _ c) w <| match w with
  | ⟨0, _⟩ | ⟨1, _⟩ | ⟨2, _⟩ | ⟨3, _⟩ | ⟨4, _⟩ | ⟨5, _⟩ => .inr ⟨rfl, V8_of m (outs m) c _ (by decide +revert)⟩
  | ⟨6, _⟩ => .inl (Function.update_self _ _ _)

theorem outval2_6 (c : Dev nD) : rd (V8 m (outs m)) c main_v68 = (dat2 (rd (V7 m (o2 m))) c).arrAt 6 cfg2.N := (hF2 m c 6).symm

def reg2 : Pipeline.RegionSeg (pcfgs (F := F)) adm (pdats m) () defs₀ 𝒱₀ L lv 2 :=
  .ofHeld cfgs (pdats m) defs₀ 𝒱₀ L lv 2 launch2 (V7 m (o2 m)) (V8 m (outs m)) (body_obligation2 _) (fun _ _ => rfl) (fun _ _ => rfl)
    (fun _ => rfl) (fun _ _ => rfl) (fun _ _ => rfl) (hF2 m) [main_v68] (by decide) (V8_of m (outs m))

end Cert.Kernel.Run

end
-- ==== Proof.Kernel.Seg3.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry3 (c : Dev nD) : V9 m (outs m) c = (V9 m (o3 m)) c := rfl

theorem hF3 (c : Dev nD) (w : Fin cfg3.W) : (dat3 (rd (V9 m (o3 m))) c).arrAt w cfg3.N = rd (V10 m (outs m)) c (Pipeline.arrRef spec3 w) :=
  Pipeline.arrAt_last _ launch3.win.arr_inj (V9 m (o3 m) c) _ (A_eq3 _ c) w <| match w with
  | ⟨0, _⟩ | ⟨1, _⟩ => .inr ⟨rfl, V10_of m (outs m) c _ (by decide +revert)⟩
  | ⟨2, _⟩ => .inl (Function.update_self _ _ _)

theorem outval3_2 (c : Dev nD) : rd (V10 m (outs m)) c main_v71 = (dat3 (rd (V9 m (o3 m))) c).arrAt 2 cfg3.N := (hF3 m c 2).symm

def reg3 : Pipeline.RegionSeg (pcfgs (F := F)) adm (pdats m) () defs₀ 𝒱₀ L lv 3 :=
  .ofHeld cfgs (pdats m) defs₀ 𝒱₀ L lv 3 launch3 (V9 m (o3 m)) (V10 m (outs m)) (body_obligation3 _) (fun _ _ => rfl) (fun _ _ => rfl)
    (fun _ => rfl) (fun _ _ => rfl) (fun _ _ => rfl) (hF3 m) [main_v71] (by decide) (V10_of m (outs m))

end Cert.Kernel.Run

end
-- ==== Proof.Kernel.Seg4.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry4 (c : Dev nD) : V13 m (outs m) c = (V13 m (o4 m)) c := rfl

theorem hF4 (c : Dev nD) (w : Fin cfg4.W) : (dat4 (rd (V13 m (o4 m))) c).arrAt w cfg4.N = rd (V14 m (outs m)) c (Pipeline.arrRef spec4 w) :=
  Pipeline.arrAt_last _ launch4.win.arr_inj (V13 m (o4 m) c) _ (A_eq4 _ c) w <| match w with
  | ⟨0, _⟩ | ⟨1, _⟩ => .inr ⟨rfl, V14_of m (outs m) c _ (by decide +revert)⟩
  | ⟨2, _⟩ => .inl ((Function.update_of_ne (StableHlo.devRef_ne_of_ne (by decide +revert)) _ _).trans (Function.update_self _ _ _))
  | ⟨3, _⟩ => .inl (Function.update_self _ _ _)

theorem outval4_2 (c : Dev nD) : rd (V14 m (outs m)) c main_v122_0 = (dat4 (rd (V13 m (o4 m))) c).arrAt 2 cfg4.N := (hF4 m c 2).symm

theorem outval4_3 (c : Dev nD) : rd (V14 m (outs m)) c main_v122_1 = (dat4 (rd (V13 m (o4 m))) c).arrAt 3 cfg4.N := (hF4 m c 3).symm

def reg4 : Pipeline.RegionSeg (pcfgs (F := F)) adm (pdats m) () defs₀ 𝒱₀ L lv 4 :=
  .ofHeld cfgs (pdats m) defs₀ 𝒱₀ L lv 4 launch4 (V13 m (o4 m)) (V14 m (outs m)) (body_obligation4 _) (fun _ _ => rfl) (fun _ _ => rfl)
    (fun _ => rfl) (fun _ _ => rfl) (fun _ _ => rfl) (hF4 m) [main_v122_0, main_v122_1] (by decide) (V14_of m (outs m))

end Cert.Kernel.Run

end
-- ==== Proof.Kernel.Seg5.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry5 (c : Dev nD) : V15 m (outs m) c = (V15 m (o5 m)) c := rfl

theorem hF5 (c : Dev nD) (w : Fin cfg5.W) : (dat5 (rd (V15 m (o5 m))) c).arrAt w cfg5.N = rd (V16 m (outs m)) c (Pipeline.arrRef spec5 w) :=
  Pipeline.arrAt_last _ launch5.win.arr_inj (V15 m (o5 m) c) _ (A_eq5 _ c) w <| match w with
  | ⟨0, _⟩ | ⟨1, _⟩ | ⟨2, _⟩ | ⟨3, _⟩ | ⟨4, _⟩ | ⟨5, _⟩ => .inr ⟨rfl, V16_of m (outs m) c _ (by decide +revert)⟩
  | ⟨6, _⟩ => .inl (Function.update_self _ _ _)

theorem outval5_6 (c : Dev nD) : rd (V16 m (outs m)) c main_v129 = (dat5 (rd (V15 m (o5 m))) c).arrAt 6 cfg5.N := (hF5 m c 6).symm

def reg5 : Pipeline.RegionSeg (pcfgs (F := F)) adm (pdats m) () defs₀ 𝒱₀ L lv 5 :=
  .ofHeld cfgs (pdats m) defs₀ 𝒱₀ L lv 5 launch5 (V15 m (o5 m)) (V16 m (outs m)) (body_obligation5 _) (fun _ _ => rfl) (fun _ _ => rfl)
    (fun _ => rfl) (fun _ _ => rfl) (fun _ _ => rfl) (hF5 m) [main_v129] (by decide) (V16_of m (outs m))

end Cert.Kernel.Run

end
-- ==== Proof.Kernel.Seg6.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry6 (c : Dev nD) : V17 m (outs m) c = (V17 m (o6 m)) c := rfl

theorem hF6 (c : Dev nD) (w : Fin cfg6.W) : (dat6 (rd (V17 m (o6 m))) c).arrAt w cfg6.N = rd (V18 m (outs m)) c (Pipeline.arrRef spec6 w) :=
  Pipeline.arrAt_last _ launch6.win.arr_inj (V17 m (o6 m) c) _ (A_eq6 _ c) w <| match w with
  | ⟨0, _⟩ | ⟨1, _⟩ => .inr ⟨rfl, V18_of m (outs m) c _ (by decide +revert)⟩
  | ⟨2, _⟩ => .inl (Function.update_self _ _ _)

theorem outval6_2 (c : Dev nD) : rd (V18 m (outs m)) c main_v132 = (dat6 (rd (V17 m (o6 m))) c).arrAt 2 cfg6.N := (hF6 m c 2).symm

def reg6 : Pipeline.RegionSeg (pcfgs (F := F)) adm (pdats m) () defs₀ 𝒱₀ L lv 6 :=
  .ofHeld cfgs (pdats m) defs₀ 𝒱₀ L lv 6 launch6 (V17 m (o6 m)) (V18 m (outs m)) (body_obligation6 _) (fun _ _ => rfl) (fun _ _ => rfl)
    (fun _ => rfl) (fun _ _ => rfl) (fun _ _ => rfl) (hF6 m) [main_v132] (by decide) (V18_of m (outs m))

end Cert.Kernel.Run

end
-- ==== Proof.Kernel.Seg7.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry7 (c : Dev nD) : V21 m (outs m) c = (V21 m (o7 m)) c := rfl

theorem hF7 (c : Dev nD) (w : Fin cfg7.W) : (dat7 (rd (V21 m (o7 m))) c).arrAt w cfg7.N = rd (V22 m (outs m)) c (Pipeline.arrRef spec7 w) :=
  Pipeline.arrAt_last _ launch7.win.arr_inj (V21 m (o7 m) c) _ (A_eq7 _ c) w <| match w with
  | ⟨0, _⟩ | ⟨1, _⟩ => .inr ⟨rfl, V22_of m (outs m) c _ (by decide +revert)⟩
  | ⟨2, _⟩ => .inl ((Function.update_of_ne (StableHlo.devRef_ne_of_ne (by decide +revert)) _ _).trans (Function.update_self _ _ _))
  | ⟨3, _⟩ => .inl (Function.update_self _ _ _)

theorem outval7_2 (c : Dev nD) : rd (V22 m (outs m)) c main_v183_0 = (dat7 (rd (V21 m (o7 m))) c).arrAt 2 cfg7.N := (hF7 m c 2).symm

theorem outval7_3 (c : Dev nD) : rd (V22 m (outs m)) c main_v183_1 = (dat7 (rd (V21 m (o7 m))) c).arrAt 3 cfg7.N := (hF7 m c 3).symm

def reg7 : Pipeline.RegionSeg (pcfgs (F := F)) adm (pdats m) () defs₀ 𝒱₀ L lv 7 :=
  .ofHeld cfgs (pdats m) defs₀ 𝒱₀ L lv 7 launch7 (V21 m (o7 m)) (V22 m (outs m)) (body_obligation7 _) (fun _ _ => rfl) (fun _ _ => rfl)
    (fun _ => rfl) (fun _ _ => rfl) (fun _ _ => rfl) (hF7 m) [main_v183_0, main_v183_1] (by decide) (V22_of m (outs m))

end Cert.Kernel.Run

end
-- ==== Proof.Kernel.Seg8.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry8 (c : Dev nD) : V23 m (outs m) c = (V23 m (o8 m)) c := rfl

theorem hF8 (c : Dev nD) (w : Fin cfg8.W) : (dat8 (rd (V23 m (o8 m))) c).arrAt w cfg8.N = rd (V24 m (outs m)) c (Pipeline.arrRef spec8 w) :=
  Pipeline.arrAt_last _ launch8.win.arr_inj (V23 m (o8 m) c) _ (A_eq8 _ c) w <| match w with
  | ⟨0, _⟩ | ⟨1, _⟩ | ⟨2, _⟩ | ⟨3, _⟩ | ⟨4, _⟩ | ⟨5, _⟩ => .inr ⟨rfl, V24_of m (outs m) c _ (by decide +revert)⟩
  | ⟨6, _⟩ => .inl (Function.update_self _ _ _)

theorem outval8_6 (c : Dev nD) : rd (V24 m (outs m)) c main_v190 = (dat8 (rd (V23 m (o8 m))) c).arrAt 6 cfg8.N := (hF8 m c 6).symm

def reg8 : Pipeline.RegionSeg (pcfgs (F := F)) adm (pdats m) () defs₀ 𝒱₀ L lv 8 :=
  .ofHeld cfgs (pdats m) defs₀ 𝒱₀ L lv 8 launch8 (V23 m (o8 m)) (V24 m (outs m)) (body_obligation8 _) (fun _ _ => rfl) (fun _ _ => rfl)
    (fun _ => rfl) (fun _ _ => rfl) (fun _ _ => rfl) (hF8 m) [main_v190] (by decide) (V24_of m (outs m))

end Cert.Kernel.Run

end
-- ==== Proof.Kernel.Seg9.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry9 (c : Dev nD) : V25 m (outs m) c = (V25 m (o9 m)) c := rfl

theorem hF9 (c : Dev nD) (w : Fin cfg9.W) : (dat9 (rd (V25 m (o9 m))) c).arrAt w cfg9.N = rd (V26 m (outs m)) c (Pipeline.arrRef spec9 w) :=
  Pipeline.arrAt_last _ launch9.win.arr_inj (V25 m (o9 m) c) _ (A_eq9 _ c) w <| match w with
  | ⟨0, _⟩ | ⟨1, _⟩ => .inr ⟨rfl, V26_of m (outs m) c _ (by decide +revert)⟩
  | ⟨2, _⟩ => .inl (Function.update_self _ _ _)

theorem outval9_2 (c : Dev nD) : rd (V26 m (outs m)) c main_v193 = (dat9 (rd (V25 m (o9 m))) c).arrAt 2 cfg9.N := (hF9 m c 2).symm

def reg9 : Pipeline.RegionSeg (pcfgs (F := F)) adm (pdats m) () defs₀ 𝒱₀ L lv 9 :=
  .ofHeld cfgs (pdats m) defs₀ 𝒱₀ L lv 9 launch9 (V25 m (o9 m)) (V26 m (outs m)) (body_obligation9 _) (fun _ _ => rfl) (fun _ _ => rfl)
    (fun _ => rfl) (fun _ _ => rfl) (fun _ _ => rfl) (hF9 m) [main_v193] (by decide) (V26_of m (outs m))

end Cert.Kernel.Run

end
-- ==== Proof.Kernel.Seg10.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry10 (c : Dev nD) : V29 m (outs m) c = (V29 m (o10 m)) c := rfl

theorem hF10 (c : Dev nD) (w : Fin cfg10.W) : (dat10 (rd (V29 m (o10 m))) c).arrAt w cfg10.N = rd (V30 m (outs m)) c (Pipeline.arrRef spec10 w) :=
  Pipeline.arrAt_last _ launch10.win.arr_inj (V29 m (o10 m) c) _ (A_eq10 _ c) w <| match w with
  | ⟨0, _⟩ | ⟨1, _⟩ => .inr ⟨rfl, V30_of m (outs m) c _ (by decide +revert)⟩
  | ⟨2, _⟩ => .inl ((Function.update_of_ne (StableHlo.devRef_ne_of_ne (by decide +revert)) _ _).trans (Function.update_self _ _ _))
  | ⟨3, _⟩ => .inl (Function.update_self _ _ _)

theorem outval10_2 (c : Dev nD) : rd (V30 m (outs m)) c main_v244_0 = (dat10 (rd (V29 m (o10 m))) c).arrAt 2 cfg10.N := (hF10 m c 2).symm

theorem outval10_3 (c : Dev nD) : rd (V30 m (outs m)) c main_v244_1 = (dat10 (rd (V29 m (o10 m))) c).arrAt 3 cfg10.N := (hF10 m c 3).symm

def reg10 : Pipeline.RegionSeg (pcfgs (F := F)) adm (pdats m) () defs₀ 𝒱₀ L lv 10 :=
  .ofHeld cfgs (pdats m) defs₀ 𝒱₀ L lv 10 launch10 (V29 m (o10 m)) (V30 m (outs m)) (body_obligation10 _) (fun _ _ => rfl) (fun _ _ => rfl)
    (fun _ => rfl) (fun _ _ => rfl) (fun _ _ => rfl) (hF10 m) [main_v244_0, main_v244_1] (by decide) (V30_of m (outs m))

end Cert.Kernel.Run

end
-- ==== Proof.Kernel.Seg11.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry11 (c : Dev nD) : V31 m (outs m) c = (V31 m (o11 m)) c := rfl

theorem hF11 (c : Dev nD) (w : Fin cfg11.W) : (dat11 (rd (V31 m (o11 m))) c).arrAt w cfg11.N = rd (V32 m (outs m)) c (Pipeline.arrRef spec11 w) :=
  Pipeline.arrAt_last _ launch11.win.arr_inj (V31 m (o11 m) c) _ (A_eq11 _ c) w <| match w with
  | ⟨0, _⟩ | ⟨1, _⟩ | ⟨2, _⟩ | ⟨3, _⟩ | ⟨4, _⟩ | ⟨5, _⟩ => .inr ⟨rfl, V32_of m (outs m) c _ (by decide +revert)⟩
  | ⟨6, _⟩ => .inl (Function.update_self _ _ _)

theorem outval11_6 (c : Dev nD) : rd (V32 m (outs m)) c main_v251 = (dat11 (rd (V31 m (o11 m))) c).arrAt 6 cfg11.N := (hF11 m c 6).symm

def reg11 : Pipeline.RegionSeg (pcfgs (F := F)) adm (pdats m) () defs₀ 𝒱₀ L lv 11 :=
  .ofHeld cfgs (pdats m) defs₀ 𝒱₀ L lv 11 launch11 (V31 m (o11 m)) (V32 m (outs m)) (body_obligation11 _) (fun _ _ => rfl) (fun _ _ => rfl)
    (fun _ => rfl) (fun _ _ => rfl) (fun _ _ => rfl) (hF11 m) [main_v251] (by decide) (V32_of m (outs m))

end Cert.Kernel.Run

end
-- ==== Proof.Kernel.Seg12.lean ====
import proofs.«169164_j46703474376898_1_alg».proof.Proof.Kernel.SegsBase

noncomputable section

namespace Cert.Kernel.Run

open Cert.Kernel Cert.Kernel.Gen Cert.Kernel.Reg
open Idealize.ShloMosaic Idealize.ShloMosaic.TcCoe

variable {F : FTy → Type} [FloatOps F] (m : (ℓ : Loc nD τ sig) → Buf (Elt F) ℓ)

theorem entry12 (c : Dev nD) : V33 m (outs m) c = (V33 m (o12 m)) c := rfl

theorem hF12 (c : Dev nD) (w : Fin cfg12.W) : (dat12 (rd (V33 m (o12 m))) c).arrAt w cfg12.N = rd (V34 m (outs m)) c (Pipeline.arrRef spec12 w) :=
  Pipeline.arrAt_last _ launch12.win.arr_inj (V33 m (o12 m) c) _ (A_eq12 _ c) w <| match w with
  | ⟨0, _⟩ | ⟨1, _⟩ | ⟨2, _⟩ | ⟨3, _⟩ | ⟨4, _⟩ => .inr ⟨rfl, V34_of m (outs m) c _ (by decide +revert)⟩
  | ⟨5, _⟩ => .inl (Function.update_self _ _ _)

theorem outval12_5 (c : Dev nD) : rd (V34 m (outs m)) c main_v255 = (dat12 (rd (V33 m (o12 m))) c).arrAt 5 cfg12.N := (hF12 m c 5).symm

def reg12 : Pipeline.RegionSeg (pcfgs (F := F)) adm (pdats m) () defs₀ 𝒱₀ L lv 12 :=
  .ofHeld cfgs (pdats m) defs₀ 𝒱₀ L lv 12 launch12 (V33 m (o12 m)) (V34 m (outs m)) (body_obligation12 _) (fun _ _ => rfl) (fun _ _ => rfl)
    (fun _ => rfl) (fun _ _ => rfl) (fun _ _ => rfl) (hF12 m) [main_v255] (by decide) (V34_of m (outs m))

end Cert.Kernel.Run

end
-- ==== Proof.Kernel.Segs.lean ====
import proofs.«169164_j46703474376898_1_alg».proof.Proof.Kernel.Seg0
import proofs.«169164_j46703474376898_1_alg».proof.Proof.Kernel.Seg1
import proofs.«169164_j46703474376898_1_alg».proof.Proof.Kernel.Seg2
import proofs.«169164_j46703474376898_1_alg».proof.Proof.Kernel.Seg3
import proofs.«169164_j46703474376898_1_alg».proof.Proof.Kernel.Seg4
import proofs.«169164_j46703474376898_1_alg».proof.Proof.Kernel.Seg5
import proofs.«169164_j46703474376898_1_alg».proof.Proof.Kernel.Seg6
import proofs.«169164_j46703474376898_1_alg».proof.Proof.Kernel.Seg7
import proofs.«169164_j46703474376898_1_alg».proof.Proof.Kernel.Seg8
import proofs.«169164_j46703474376898_1_alg».proof.Proof.Kernel.Seg9
import proofs.«169164_j46703474376898_1_alg».proof.Proof.Kernel.Seg10
import proofs.«169164_j46703474376898_1_alg».proof.Proof.Kernel.Seg11
import proofs.«169164_j46703474376898_1_alg».proof.Proof.Kernel.Seg12
-- ==== Proof.Kernel.Frame.lean ====
import proofs.«169164_j46703474376898_1_alg».proof.Proof.Kernel.Segs

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE13 (c : Dev nD) : R (F := F) c ⊢ (iprop(∃ W, owes (c : Thread nD τ) (0 : CellTallies nD τ sig Unit) W) : sProp 𝕄) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond m (EP := emb₁) () 𝒱₀ L lv (fun _ _ => rfl) ρ (outs m) (pdats m) 0 (fun _ => BI.emp)
    (initOf (Pipeline.cells cfgs cellOf_inj) (Pipeline.launchToks cfgs cellOf_inj)) hu₀ (fun _ c => R c) (hE0 ρ) hE13
    (reg0 m) (fun c => .rfl) (fun c => .rfl)
    (reg1 m) (fun c => by rw [entry1 m c]; exact .rfl) (fun c => .rfl)
    (reg2 m) (fun c => by rw [entry2 m c]; exact .rfl) (fun c => .rfl)
    (reg3 m) (fun c => by rw [entry3 m c]; exact .rfl) (fun c => .rfl)
    (reg4 m) (fun c => by rw [entry4 m c]; exact .rfl) (fun c => .rfl)
    (reg5 m) (fun c => by rw [entry5 m c]; exact .rfl) (fun c => .rfl)
    (reg6 m) (fun c => by rw [entry6 m c]; exact .rfl) (fun c => .rfl)
    (reg7 m) (fun c => by rw [entry7 m c]; exact .rfl) (fun c => .rfl)
    (reg8 m) (fun c => by rw [entry8 m c]; exact .rfl) (fun c => .rfl)
    (reg9 m) (fun c => by rw [entry9 m c]; exact .rfl) (fun c => .rfl)
    (reg10 m) (fun c => by rw [entry10 m c]; exact .rfl) (fun c => .rfl)
    (reg11 m) (fun c => by rw [entry11 m c]; exact .rfl) (fun c => .rfl)
    (reg12 m) (fun c => by rw [entry12 m c]; exact .rfl) (fun c => .rfl)

end Cert.Kernel.Run

end
-- ==== Proof.KernelIdeal.RegA0.lean ====
import proofs.«169164_j46703474376898_1_alg».proof.Proof.Gen.KernelIdeal.Launch
import proofs.«169164_j46703474376898_1_alg».proof.Proof.Gen.KernelIdeal.Skeleton
import proofs.«169164_j46703474376898_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Body

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

def out0_2 (x0 : Vec F S2000x128 .f32) (x1 : Vec F S128x128 .f32) : Vec F S2000x128 .f32 :=
  View.canon [⟨r0_0, k0_pay1 (View.ld x0 r0_0) (View.ld x1 r0_1)⟩]

-- The one store covers the whole output block, so the block read back is the canonical contents of that store: a function of the input blocks alone.
theorem sound_kernel0 (c : Dev nD) {E : Set ℕ} {i : grid0.Coords} {arg1 arg3 : Memref sig .tc .vmem S2000x128 .f32} {arg2 : Memref sig .tc .vmem S128x128 .f32} {harg1 : arg1.IsWhole} {harg2 : arg2.IsWhole} {harg3 : arg3.IsWhole}
    (x0 : Vec F S2000x128 .f32) (x1 : Vec F S128x128 .f32) {K : PUnit → sProp 𝕄} :
    iprop(owns c arg1 fullShare x0 ∗ owns c arg2 fullShare x1 ∗ (∃ d, owns c arg3 fullShare d)
        ∗ (iprop(owns c arg1 fullShare x0 ∗ owns c arg2 fullShare x1 ∗ owns c arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x128.size (by rfl))

end Body

section Point

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

variable (t : Fin cfg0.N)

theorem after0_2 : (dat0 V c).after 2 t = out0_2 (iblk0 V c 0 t) (iblk0 V c 1 t) := by dsimp only [dat0]

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d

theorem bodyAt0_eq : bodyAt0 (F := F) t = cc0__matmul_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) := rfl

-- At each grid point every input holds its block of its array, so the body's triple applies there.
theorem body_obligation0 : BodyObligation (dat0 (F := F) V c) (defs₀ (F := F)) Variants.none () Set.univ := fun t => by
  rw [bigSep_W0, bigSep_W0]
  simp only [before0_0, before0_1]
  change _ ⊢ wp _ _ _ (bodyAt0 t) _
  rw [bodyAt0_eq]
  dsimp only [dat0, Dat.owesAt, Dat.bound]
  iintro ⟨HΦ, Ho, ⟨%d0, H0⟩, ⟨%d1, H1⟩, ⟨%d2, H2⟩⟩
  iapply sound_kernel0 c (iblk0 V c 0 t) (iblk0 V c 1 t)
  iframe H0 H1
  isplitl [H2]; · iexists _; iexact H2
  iintro H
  iframe

end Point

end Cert.KernelIdeal.Reg
-- ==== Proof.KernelIdeal.RegS1.lean ====
import proofs.«169164_j46703474376898_1_alg».proof.Proof.Gen.KernelIdeal.Launch
import proofs.«169164_j46703474376898_1_alg».proof.Proof.Gen.KernelIdeal.Skeleton
import proofs.«169164_j46703474376898_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

abbrev cond1_0 (i : grid1.Coords) : Prop := k1_cond1 i = 1#1
theorem hcond1_0 : ∀ t : Fin grid1.N, cond1_0 (grid1.coords t) ↔ t.val % 25 = 0 := by decide +kernel

abbrev cond1_1 (i : grid1.Coords) : Prop := k1_cond2 i = 1#1
theorem hcond1_1 : ∀ t : Fin grid1.N, cond1_1 (grid1.coords t) ↔ ¬t.val % 25 = 0 := by decide +kernel

abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view

variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole)

-- a run of the body from the inputs at x0, x1 and the outputs at P3, P4: the pieces each output ends with, and the triple
abbrev kernelRun1_T (x0 : Vec F S2000x128 .f32) (x1 : Vec F S1x128 .f32) (P3 P4 : sProp 𝕄) :=
  Σ' (L2 : List (View.Piece (Elt F) S1x128 .f32)), { L3 : List (View.Piece (Elt F) S1x128 .f32) //
    ∀ (E : Set ℕ) (K : PUnit → sProp 𝕄),
      iprop(owns (c : Thread nD τ) arg1 fullShare x0 ∗ owns (c : Thread nD τ) arg2 fullShare x1 ∗ P3 ∗ P4
          ∗ (iprop(owns (c : Thread nD τ) arg1 fullShare x0 ∗ owns (c : Thread nD τ) arg2 fullShare x1
              ∗ (∃ f, arg3.view.loc (c : Thread nD τ) ↦[arg3.view.set]{fullShare} arg3.view.writes (Elt F) f L2)
              ∗ (∃ f, arg4.view.loc (c : Thread nD τ) ↦[arg4.view.set]{fullShare} arg4.view.writes (Elt F) f L3)) -∗ K ⟨⟩))
        ⊢ wp frame (wpE (defs₀ (F := F)) Variants.none c none) E (cc1__stats_kernel i arg1 harg1 arg2 harg2 arg3 harg3 arg4 harg4) K }

section A
variable (hc0 : cond1_0 i) (hc1 : ¬cond1_1 i) (x0 : Vec F S2000x128 .f32) (x1 : Vec F S1x128 .f32)

def kernelRun1_A : kernelRun1_T c i arg1 harg1 arg2 harg2 arg3 harg3 arg4 harg4 x0 x1
    iprop(∃ d, owns (c : Thread nD τ) arg3 fullShare d) iprop(∃ d, owns (c : Thread nD τ) arg4 fullShare d) := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover1_A_2 (y : S1x128.Idx) : ∃ pc ∈ (kernelRun1_A c i arg1 harg1 arg2 harg2 arg3 harg3 arg4 harg4 hc0 hc1 x0 x1).1, y ∈ pc.1.set :=
  View.cover_of_tiledL _ S1x128.size (by sl_kernel_rfl) y
def out1_A_2 : Vec F S1x128 .f32 :=
  VO1_2.read (Elt F) (VO1_2.writes (Elt F) VO1_2.junk (kernelRun1_A c i arg1 harg1 arg2 harg2 arg3 harg3 arg4 harg4 hc0 hc1 x0 x1).1)
theorem cover1_A_3 (y : S1x128.Idx) : ∃ pc ∈ (kernelRun1_A c i arg1 harg1 arg2 harg2 arg3 harg3 arg4 harg4 hc0 hc1 x0 x1).2.1, y ∈ pc.1.set :=
  View.cover_of_tiledL _ S1x128.size (by sl_kernel_rfl) y
def out1_A_3 : Vec F S1x128 .f32 :=
  VO1_3.read (Elt F) (VO1_3.writes (Elt F) VO1_3.junk (kernelRun1_A c i arg1 harg1 arg2 harg2 arg3 harg3 arg4 harg4 hc0 hc1 x0 x1).2.1)

end A

section B
variable (hc0 : ¬cond1_0 i) (hc1 : cond1_1 i) (x0 : Vec F S2000x128 .f32) (x1 xo2 xo3 : Vec F S1x128 .f32)

def kernelRun1_B : kernelRun1_T c i arg1 harg1 arg2 harg2 arg3 harg3 arg4 harg4 x0 x1
    (owns (c : Thread nD τ) arg3 fullShare xo2) (owns (c : Thread nD τ) arg4 fullShare xo3) := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

theorem cover1_B_2 (y : S1x128.Idx) : ∃ pc ∈ (kernelRun1_B c i arg1 harg1 arg2 harg2 arg3 harg3 arg4 harg4 hc0 hc1 x0 x1 xo2 xo3).1, y ∈ pc.1.set :=
  View.cover_of_tiledL _ S1x128.size (by sl_kernel_rfl) y
def out1_B_2 : Vec F S1x128 .f32 :=
  VO1_2.read (Elt F) (VO1_2.writes (Elt F) VO1_2.junk (kernelRun1_B c i arg1 harg1 arg2 harg2 arg3 harg3 arg4 harg4 hc0 hc1 x0 x1 xo2 xo3).1)
theorem cover1_B_3 (y : S1x128.Idx) : ∃ pc ∈ (kernelRun1_B c i arg1 harg1 arg2 harg2 arg3 harg3 arg4 harg4 hc0 hc1 x0 x1 xo2 xo3).2.1, y ∈ pc.1.set :=
  View.cover_of_tiledL _ S1x128.size (by sl_kernel_rfl) y
def out1_B_3 : Vec F S1x128 .f32 :=
  VO1_3.read (Elt F) (VO1_3.writes (Elt F) VO1_3.junk (kernelRun1_B c i arg1 harg1 arg2 harg2 arg3 harg3 arg4 harg4 hc0 hc1 x0 x1 xo2 xo3).2.1)

end B

end Body

section Point

-- the two conditions are complementary in the coordinate, so at no point do both fail
theorem live1_2 : ∀ i : grid1.Coords, cfg1.idle 2 i = false := fun i =>
  (by decide +kernel : ∀ n : Fin (grid1.bound 0),
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)
theorem live1_3 : ∀ i : grid1.Coords, cfg1.idle 3 i = false := live1_2

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- what case A leaves in the two outputs at point t, and case B over what they held before
abbrev out1_A (c : Dev nD) (t : Fin cfg1.N) (h0 : t.val % 25 = 0) : Vec F S1x128 .f32 × Vec F S1x128 .f32 :=
  (out1_A_2 c (grid1.coords t) (ms1_0 t) (hs1_0 t) (ms1_1 t) (hs1_1 t) (ms1_2 t) (hs1_2 t) (ms1_3 t) (hs1_3 t) ((hcond1_0 t).mpr h0) (fun h => (hcond1_1 t).mp h h0) (iblk1 V c 0 t) (iblk1 V c 1 t),
   out1_A_3 c (grid1.coords t) (ms1_0 t) (hs1_0 t) (ms1_1 t) (hs1_1 t) (ms1_2 t) (hs1_2 t) (ms1_3 t) (hs1_3 t) ((hcond1_0 t).mpr h0) (fun h => (hcond1_1 t).mp h h0) (iblk1 V c 0 t) (iblk1 V c 1 t))
abbrev out1_B (c : Dev nD) (t : Fin cfg1.N) (h0 : ¬t.val % 25 = 0) (p : Vec F S1x128 .f32 × Vec F S1x128 .f32) : Vec F S1x128 .f32 × Vec F S1x128 .f32 :=
  (out1_B_2 c (grid1.coords t) (ms1_0 t) (hs1_0 t) (ms1_1 t) (hs1_1 t) (ms1_2 t) (hs1_2 t) (ms1_3 t) (hs1_3 t) (fun h => h0 ((hcond1_0 t).mp h)) ((hcond1_1 t).mpr h0) (iblk1 V c 0 t) (iblk1 V c 1 t) p.1 p.2,
   out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h0) (iblk1 V c 0 t) (iblk1 V c 1 t) p.1 p.2)

-- the accumulation: the outputs after position n are the selected case's, case B over what position n - 1 left
def outsAt1 (c : Dev nD) : (n : ℕ) → n < cfg1.N → Vec F S1x128 .f32 × Vec F S1x128 .f32
  | 0, hn => out1_A V c ⟨0, hn⟩ (Nat.zero_mod _)
  | n + 1, hn =>
    if h0 : (n + 1) % 25 = 0 then out1_A V c ⟨n + 1, hn⟩ h0
    else out1_B V c ⟨n + 1, hn⟩ h0 (outsAt1 c n (Nat.lt_of_succ_lt hn))

theorem outsAt1_A (c : Dev nD) (t : Fin cfg1.N) (h0 : t.val % 25 = 0) : outsAt1 V c t.val t.isLt = out1_A V c t h0 := by
  obtain ⟨n, hn⟩ := t
  cases n with
  | zero => exact rfl
  | succ n => exact (dif_pos h0).trans rfl

theorem outsAt1_B (c : Dev nD) (t : Fin cfg1.N) (h0 : ¬t.val % 25 = 0) :
    outsAt1 V c t.val t.isLt = out1_B V c t h0 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := rfl
theorem after1_2 (c : Dev nD) (t : Fin cfg1.N) : (dat1 V c).after 2 t = (outsAt1 V c t.val t.isLt).1 := rfl
theorem after1_3 (c : Dev nD) (t : Fin cfg1.N) : (dat1 V c).after 3 t = (outsAt1 V c t.val t.isLt).2 := rfl

theorem before1_in {c : Dev nD} (dat : Dat τ (Elt F) Unit ℕ (UR sig nD τ) ℕ cfg1 c) (hA : ∀ w, dat.A w = V c (Pipeline.arrRef spec1 w))
    (h0 : ∀ t, dat.after 0 t = iblk1 V c 0 t) (h1 : ∀ t, dat.after 1 t = iblk1 V c 1 t) (t : Fin cfg1.N) :
    (∀ d, dat.before 0 t d = iblk1 V c 0 t) ∧ ∀ d, dat.before 1 t d = iblk1 V c 1 t := by
  constructor <;> intro d <;>
  exact (dat.before_in_eq_fetched _ rfl (fun _ => rfl) (fun _ _ _ => rfl) (fun t => by (first | rw [h0] | rw [h1]); unfold Dat.blockOf iblk1; rw [hA]; try rfl) t d).trans
    (by unfold Dat.fetched Dat.blockOf iblk1; rw [hA]; try rfl)

theorem before1_B (c : Dev nD) (t : Fin cfg1.N) (h0 : ¬t.val % 25 = 0) :
    (∀ d, (dat1 V c).before 2 t d = (outsAt1 V c (t.val - 1) (Nat.lt_of_le_of_lt (Nat.sub_le _ _) t.isLt)).1) ∧ ∀ d, (dat1 V c).before 3 t d = (outsAt1 V c (t.val - 1) (Nat.lt_of_le_of_lt (Nat.sub_le _ _) t.isLt)).2 := by
  have hN : t.val < 25 := lt_of_lt_of_eq t.isLt (show cfg1.N = 25 from N_1)
  constructor <;> intro d
  · rw [Dat.before_out_kept _ 2 rfl t (by omega) (Bool.eq_false_iff.mpr fun h => by have := (flush1_2 _).mp h; dsimp only at this; omega)
      live1_2 (fun _ _ => rfl)]
    dsimp only [dat1]
  · rw [Dat.before_out_kept _ 3 rfl t (by omega) (Bool.eq_false_iff.mpr fun h => by have := (flush1_3 _).mp h; dsimp only at this; omega)
      live1_3 (fun _ _ => rfl)]
    dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ (dat1 V c).leavesExact 2 t
    ∗ (dat1 V c).leavesExact 3 t)

-- the inputs hold their blocks, the closed forms select the case, in case B each output holds what the point before left; so the case's run applies
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨hb0, hb1⟩ := before1_in V (dat1 V c) (fun _ => rfl) (fun _ => rfl) (fun _ => rfl) t
  simp only [hb0, hb1]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl]
  rw [show (dat1 V c).leavesExact 2 t = owns (c : Thread nD τ) (ms1_2 t) fullShare ((dat1 V c).after 2 t) from by
      unfold Dat.leavesExact; rw [live1_2], after1_2]
  rw [show (dat1 V c).leavesExact 3 t = owns (c : Thread nD τ) (ms1_3 t) fullShare ((dat1 V c).after 3 t) from by
      unfold Dat.leavesExact; rw [live1_3], after1_3]
  by_cases h0 : t.val % 25 = 0
  · rw [outsAt1_A V c t h0]
    dsimp only [out1_A, out1_A_2, out1_A_3]
    iintro ⟨HΦ, Ho, ⟨%d0, H0⟩, ⟨%d1, H1⟩, ⟨%d2, H2⟩, ⟨%d3, H3⟩⟩
    iapply ((kernelRun1_A c (grid1.coords t) _ (hs1_0 t) _ (hs1_1 t) _ (hs1_2 t) _ (hs1_3 t) ((hcond1_0 t).mpr h0) (fun h => (hcond1_1 t).mp h h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · rw [outsAt1_B V c t h0]
    simp only [(before1_B V c t h0).1, (before1_B V c t h0).2]
    dsimp only [out1_B, out1_B_2, out1_B_3]
    iintro ⟨HΦ, Ho, ⟨%d0, H0⟩, ⟨%d1, H1⟩, ⟨%d2, H2⟩, ⟨%d3, H3⟩⟩
    iapply ((kernelRun1_B c (grid1.coords t) _ (hs1_0 t) _ (hs1_1 t) _ (hs1_2 t) _ (hs1_3 t) (fun h => h0 ((hcond1_0 t).mp h)) ((hcond1_1 t).mpr h0) (iblk1 V c 0 t) (iblk1 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _)
    unfold owns; iexists _; isplitr
    swap; · iexact H3
    ipureintro; exact View.read_writes_of_cover _ _ _ _ _ (cover1_B_3 c _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Point

end Cert.KernelIdeal.Reg

end
-- ==== Proof.KernelIdeal.RegN2.lean ====
import proofs.«169164_j46703474376898_1_alg».proof.Proof.Gen.KernelIdeal.Launch
import proofs.«169164_j46703474376898_1_alg».proof.Proof.Gen.KernelIdeal.Skeleton
import proofs.«169164_j46703474376898_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Body

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

def out2_6 (x0 : Vec F S2000x128 .f32) (x1 x2 x3 x4 x5 : Vec F S1x128 .f32) : Vec F S2000x128 .f32 :=
  View.canon [⟨r2_0, k2_pay1 (View.ld x0 r2_0) (View.ld x1 r2_1) (View.ld x3 r2_1) (View.ld x2 r2_1) (View.ld x4 r2_1) (View.ld x5 r2_1)⟩]

-- The one store covers the whole output block, so the block read back is the canonical contents of that store: a function of the input blocks alone.
theorem sound_kernel2 (c : Dev nD) {E : Set ℕ} {i : grid2.Coords} {arg1 arg7 : Memref sig .tc .vmem S2000x128 .f32} {arg2 arg3 arg4 arg5 arg6 : Memref sig .tc .vmem S1x128 .f32} {harg1 : arg1.IsWhole} {harg2 : arg2.IsWhole} {harg3 : arg3.IsWhole} {harg4 : arg4.IsWhole} {harg5 : arg5.IsWhole} {harg6 : arg6.IsWhole} {harg7 : arg7.IsWhole}
    (x0 : Vec F S2000x128 .f32) (x1 x2 x3 x4 x5 : Vec F S1x128 .f32) {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out2_6 x0 x1 x2 x3 x4 x5)) -∗ K ⟨⟩))
      ⊢ wp frame (wpE (defs₀ (F := F)) Variants.none c none) E (cc2__norm_relu_kernel i arg1 harg1 arg2 harg2 arg3 harg3 arg4 harg4 arg5 harg5 arg6 harg6 arg7 harg7) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x128.size (by rfl))

end Body

section Point

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (w : Fin cfg2.W) : (dat2 V c).A w = V c (Pipeline.arrRef spec2 w) := rfl

variable (t : Fin cfg2.N)

theorem after2_6 : (dat2 V c).after 6 t = out2_6 (iblk2 V c 0 t) (iblk2 V c 1 t) (iblk2 V c 2 t) (iblk2 V c 3 t) (iblk2 V c 4 t) (iblk2 V c 5 t) := by dsimp only [dat2]

theorem before2_0 (d) : (dat2 V c).before 0 t d = iblk2 V c 0 t :=
  (dat2 V c).before_in_eq_fetched 0 rfl (fun _ => rfl) (fun _ _ _ => rfl) (fun _ => rfl) t d
theorem before2_1 (d) : (dat2 V c).before 1 t d = iblk2 V c 1 t :=
  (dat2 V c).before_in_eq_fetched 1 rfl (fun _ => rfl) (fun _ _ _ => rfl) (fun _ => rfl) t d
theorem before2_2 (d) : (dat2 V c).before 2 t d = iblk2 V c 2 t :=
  (dat2 V c).before_in_eq_fetched 2 rfl (fun _ => rfl) (fun _ _ _ => rfl) (fun _ => rfl) t d
theorem before2_3 (d) : (dat2 V c).before 3 t d = iblk2 V c 3 t :=
  (dat2 V c).before_in_eq_fetched 3 rfl (fun _ => rfl) (fun _ _ _ => rfl) (fun _ => rfl) t d
theorem before2_4 (d) : (dat2 V c).before 4 t d = iblk2 V c 4 t :=
  (dat2 V c).before_in_eq_fetched 4 rfl (fun _ => rfl) (fun _ _ _ => rfl) (fun _ => rfl) t d
theorem before2_5 (d) : (dat2 V c).before 5 t d = iblk2 V c 5 t :=
  (dat2 V c).before_in_eq_fetched 5 rfl (fun _ => rfl) (fun _ _ _ => rfl) (fun _ => rfl) t d

theorem bodyAt2_eq : bodyAt2 (F := F) t = cc2__norm_relu_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) := rfl

-- At each grid point every input holds its block of its array, so the body's triple applies there.
theorem body_obligation2 : BodyObligation (dat2 (F := F) V c) (defs₀ (F := F)) Variants.none () Set.univ := fun t => by
  rw [bigSep_W2, bigSep_W2]
  simp only [before2_0, before2_1, before2_2, before2_3, before2_4, before2_5]
  change _ ⊢ wp _ _ _ (bodyAt2 t) _
  rw [bodyAt2_eq]
  dsimp only [dat2, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk2 V c 0 t) (iblk2 V c 1 t) (iblk2 V c 2 t) (iblk2 V c 3 t) (iblk2 V c 4 t) (iblk2 V c 5 t)
  iframe H0 H1 H2 H3 H4 H5
  isplitl [H6]; · iexists _; iexact H6
  iintro H
  iframe

end Point

end Cert.KernelIdeal.Reg
-- ==== Proof.KernelIdeal.RegA3.lean ====
import proofs.«169164_j46703474376898_1_alg».proof.Proof.Gen.KernelIdeal.Launch
import proofs.«169164_j46703474376898_1_alg».proof.Proof.Gen.KernelIdeal.Skeleton
import proofs.«169164_j46703474376898_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Body

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0

def out3_2 (x0 : Vec F S2000x128 .f32) (x1 : Vec F S128x128 .f32) : Vec F S2000x128 .f32 :=
  View.canon [⟨r3_0, k3_pay1 (View.ld x0 r3_0) (View.ld x1 r3_1)⟩]

-- The one store covers the whole output block, so the block read back is the canonical contents of that store: a function of the input blocks alone.
theorem sound_kernel3 (c : Dev nD) {E : Set ℕ} {i : grid3.Coords} {arg1 arg3 : Memref sig .tc .vmem S2000x128 .f32} {arg2 : Memref sig .tc .vmem S128x128 .f32} {harg1 : arg1.IsWhole} {harg2 : arg2.IsWhole} {harg3 : arg3.IsWhole}
    (x0 : Vec F S2000x128 .f32) (x1 : Vec F S128x128 .f32) {K : PUnit → sProp 𝕄} :
    iprop(owns c arg1 fullShare x0 ∗ owns c arg2 fullShare x1 ∗ (∃ d, owns c arg3 fullShare d)
        ∗ (iprop(owns c arg1 fullShare x0 ∗ owns c arg2 fullShare x1 ∗ owns c arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x128.size (by rfl))

end Body

section Point

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (w : Fin cfg3.W) : (dat3 V c).A w = V c (Pipeline.arrRef spec3 w) := rfl

variable (t : Fin cfg3.N)

theorem after3_2 : (dat3 V c).after 2 t = out3_2 (iblk3 V c 0 t) (iblk3 V c 1 t) := by dsimp only [dat3]

theorem before3_0 (d) : (dat3 V c).before 0 t d = iblk3 V c 0 t :=
  (dat3 V c).before_in_eq_fetched 0 rfl (fun _ => rfl) (fun _ _ _ => rfl) (fun _ => rfl) t d
theorem before3_1 (d) : (dat3 V c).before 1 t d = iblk3 V c 1 t :=
  (dat3 V c).before_in_eq_fetched 1 rfl (fun _ => rfl) (fun _ _ _ => rfl) (fun _ => rfl) t d

theorem bodyAt3_eq : bodyAt3 (F := F) t = cc3__matmul_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) := rfl

-- At each grid point every input holds its block of its array, so the body's triple applies there.
theorem body_obligation3 : BodyObligation (dat3 (F := F) V c) (defs₀ (F := F)) Variants.none () Set.univ := fun t => by
  rw [bigSep_W3, bigSep_W3]
  simp only [before3_0, before3_1]
  change _ ⊢ wp _ _ _ (bodyAt3 t) _
  rw [bodyAt3_eq]
  dsimp only [dat3, Dat.owesAt, Dat.bound]
  iintro ⟨HΦ, Ho, ⟨%d0, H0⟩, ⟨%d1, H1⟩, ⟨%d2, H2⟩⟩
  iapply sound_kernel3 c (iblk3 V c 0 t) (iblk3 V c 1 t)
  iframe H0 H1
  isplitl [H2]; · iexists _; iexact H2
  iintro H
  iframe

end Point

end Cert.KernelIdeal.Reg
-- ==== Proof.KernelIdeal.RegS4.lean ====
import proofs.«169164_j46703474376898_1_alg».proof.Proof.KernelIdeal.RegS1

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Point

-- the two conditions are complementary in the coordinate, so at no point do both fail
theorem live4_2 : ∀ i : grid4.Coords, cfg4.idle 2 i = false := fun i =>
  (by decide +kernel : ∀ n : Fin (grid4.bound 0),
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)
theorem live4_3 : ∀ i : grid4.Coords, cfg4.idle 3 i = false := live4_2

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- what case A leaves in the two outputs at point t, and case B over what they held before
abbrev out4_A (c : Dev nD) (t : Fin cfg4.N) (h0 : t.val % 25 = 0) : Vec F S1x128 .f32 × Vec F S1x128 .f32 :=
  (out1_A_2 c (grid4.coords t) (ms4_0 t) (hs4_0 t) (ms4_1 t) (hs4_1 t) (ms4_2 t) (hs4_2 t) (ms4_3 t) (hs4_3 t) ((hcond1_0 t).mpr h0) (fun h => (hcond1_1 t).mp h h0) (iblk4 V c 0 t) (iblk4 V c 1 t),
   out1_A_3 c (grid4.coords t) (ms4_0 t) (hs4_0 t) (ms4_1 t) (hs4_1 t) (ms4_2 t) (hs4_2 t) (ms4_3 t) (hs4_3 t) ((hcond1_0 t).mpr h0) (fun h => (hcond1_1 t).mp h h0) (iblk4 V c 0 t) (iblk4 V c 1 t))
abbrev out4_B (c : Dev nD) (t : Fin cfg4.N) (h0 : ¬t.val % 25 = 0) (p : Vec F S1x128 .f32 × Vec F S1x128 .f32) : Vec F S1x128 .f32 × Vec F S1x128 .f32 :=
  (out1_B_2 c (grid4.coords t) (ms4_0 t) (hs4_0 t) (ms4_1 t) (hs4_1 t) (ms4_2 t) (hs4_2 t) (ms4_3 t) (hs4_3 t) (fun h => h0 ((hcond1_0 t).mp h)) ((hcond1_1 t).mpr h0) (iblk4 V c 0 t) (iblk4 V c 1 t) p.1 p.2,
   out1_B_3 c (grid4.coords t) (ms4_0 t) (hs4_0 t) (ms4_1 t) (hs4_1 t) (ms4_2 t) (hs4_2 t) (ms4_3 t) (hs4_3 t) (fun h => h0 ((hcond1_0 t).mp h)) ((hcond1_1 t).mpr h0) (iblk4 V c 0 t) (iblk4 V c 1 t) p.1 p.2)

-- the accumulation: the outputs after position n are the selected case's, case B over what position n - 1 left
def outsAt4 (c : Dev nD) : (n : ℕ) → n < cfg4.N → Vec F S1x128 .f32 × Vec F S1x128 .f32
  | 0, hn => out4_A V c ⟨0, hn⟩ (Nat.zero_mod _)
  | n + 1, hn =>
    if h0 : (n + 1) % 25 = 0 then out4_A V c ⟨n + 1, hn⟩ h0
    else out4_B V c ⟨n + 1, hn⟩ h0 (outsAt4 c n (Nat.lt_of_succ_lt hn))

theorem outsAt4_A (c : Dev nD) (t : Fin cfg4.N) (h0 : t.val % 25 = 0) : outsAt4 V c t.val t.isLt = out4_A V c t h0 := by
  obtain ⟨n, hn⟩ := t
  cases n with
  | zero => exact rfl
  | succ n => exact (dif_pos h0).trans rfl

theorem outsAt4_B (c : Dev nD) (t : Fin cfg4.N) (h0 : ¬t.val % 25 = 0) :
    outsAt4 V c t.val t.isLt = out4_B V c t h0 (outsAt4 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := rfl
theorem after4_2 (c : Dev nD) (t : Fin cfg4.N) : (dat4 V c).after 2 t = (outsAt4 V c t.val t.isLt).1 := rfl
theorem after4_3 (c : Dev nD) (t : Fin cfg4.N) : (dat4 V c).after 3 t = (outsAt4 V c t.val t.isLt).2 := rfl

theorem before4_in {c : Dev nD} (dat : Dat τ (Elt F) Unit ℕ (UR sig nD τ) ℕ cfg4 c) (hA : ∀ w, dat.A w = V c (Pipeline.arrRef spec4 w))
    (h0 : ∀ t, dat.after 0 t = iblk4 V c 0 t) (h1 : ∀ t, dat.after 1 t = iblk4 V c 1 t) (t : Fin cfg4.N) :
    (∀ d, dat.before 0 t d = iblk4 V c 0 t) ∧ ∀ d, dat.before 1 t d = iblk4 V c 1 t := by
  constructor <;> intro d <;>
  exact (dat.before_in_eq_fetched _ rfl (fun _ => rfl) (fun _ _ _ => rfl) (fun t => by (first | rw [h0] | rw [h1]); unfold Dat.blockOf iblk4; rw [hA]; try rfl) t d).trans
    (by unfold Dat.fetched Dat.blockOf iblk4; rw [hA]; try rfl)

theorem before4_B (c : Dev nD) (t : Fin cfg4.N) (h0 : ¬t.val % 25 = 0) :
    (∀ d, (dat4 V c).before 2 t d = (outsAt4 V c (t.val - 1) (Nat.lt_of_le_of_lt (Nat.sub_le _ _) t.isLt)).1) ∧ ∀ d, (dat4 V c).before 3 t d = (outsAt4 V c (t.val - 1) (Nat.lt_of_le_of_lt (Nat.sub_le _ _) t.isLt)).2 := by
  have hN : t.val < 25 := lt_of_lt_of_eq t.isLt (show cfg4.N = 25 from N_4)
  constructor <;> intro d
  · rw [Dat.before_out_kept _ 2 rfl t (by omega) (Bool.eq_false_iff.mpr fun h => by have := (flush4_2 _).mp h; dsimp only at this; omega)
      live4_2 (fun _ _ => rfl)]
    dsimp only [dat4]
  · rw [Dat.before_out_kept _ 3 rfl t (by omega) (Bool.eq_false_iff.mpr fun h => by have := (flush4_3 _).mp h; dsimp only at this; omega)
      live4_3 (fun _ _ => rfl)]
    dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ (dat4 V c).leavesExact 2 t
    ∗ (dat4 V c).leavesExact 3 t)

-- the inputs hold their blocks, the closed forms select the case, in case B each output holds what the point before left; so the case's run applies
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  obtain ⟨hb0, hb1⟩ := before4_in V (dat4 V c) (fun _ => rfl) (fun _ => rfl) (fun _ => rfl) t
  simp only [hb0, hb1]
  rw [show (dat4 V c).Φ t.succ = (dat4 V c).Φ t.castSucc from rfl,
    show (dat4 V c).owesAt () t.succ = (dat4 V c).owesAt () t.castSucc from rfl,
    show (dat4 V c).after 0 t = iblk4 V c 0 t from rfl, show (dat4 V c).after 1 t = iblk4 V c 1 t from rfl]
  rw [show (dat4 V c).leavesExact 2 t = owns (c : Thread nD τ) (ms4_2 t) fullShare ((dat4 V c).after 2 t) from by
      unfold Dat.leavesExact; rw [live4_2], after4_2]
  rw [show (dat4 V c).leavesExact 3 t = owns (c : Thread nD τ) (ms4_3 t) fullShare ((dat4 V c).after 3 t) from by
      unfold Dat.leavesExact; rw [live4_3], after4_3]
  by_cases h0 : t.val % 25 = 0
  · rw [outsAt4_A V c t h0]
    dsimp only [out4_A, out1_A_2, out1_A_3]
    iintro ⟨HΦ, Ho, ⟨%d0, H0⟩, ⟨%d1, H1⟩, ⟨%d2, H2⟩, ⟨%d3, H3⟩⟩
    iapply ((kernelRun1_A c (grid4.coords t) _ (hs4_0 t) _ (hs4_1 t) _ (hs4_2 t) _ (hs4_3 t) ((hcond1_0 t).mpr h0) (fun h => (hcond1_1 t).mp h h0) (iblk4 V c 0 t) (iblk4 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · rw [outsAt4_B V c t h0]
    simp only [(before4_B V c t h0).1, (before4_B V c t h0).2]
    dsimp only [out4_B, out1_B_2, out1_B_3]
    iintro ⟨HΦ, Ho, ⟨%d0, H0⟩, ⟨%d1, H1⟩, ⟨%d2, H2⟩, ⟨%d3, H3⟩⟩
    iapply ((kernelRun1_B c (grid4.coords t) _ (hs4_0 t) _ (hs4_1 t) _ (hs4_2 t) _ (hs4_3 t) (fun h => h0 ((hcond1_0 t).mp h)) ((hcond1_1 t).mpr h0) (iblk4 V c 0 t) (iblk4 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _)
    unfold owns; iexists _; isplitr
    swap; · iexact H3
    ipureintro; exact View.read_writes_of_cover _ _ _ _ _ (cover1_B_3 c _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Point

end Cert.KernelIdeal.Reg

end
-- ==== Proof.KernelIdeal.RegN5.lean ====
import proofs.«169164_j46703474376898_1_alg».proof.Proof.KernelIdeal.RegN2

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out2_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (w : Fin cfg5.W) : (dat5 V c).A w = V c (Pipeline.arrRef spec5 w) := rfl

variable (t : Fin cfg5.N)

theorem after5_6 : (dat5 V c).after 6 t = out2_6 (iblk5 V c 0 t) (iblk5 V c 1 t) (iblk5 V c 2 t) (iblk5 V c 3 t) (iblk5 V c 4 t) (iblk5 V c 5 t) := by dsimp only [dat5]

theorem before5_0 (d) : (dat5 V c).before 0 t d = iblk5 V c 0 t :=
  (dat5 V c).before_in_eq_fetched 0 rfl (fun _ => rfl) (fun _ _ _ => rfl) (fun _ => rfl) t d
theorem before5_1 (d) : (dat5 V c).before 1 t d = iblk5 V c 1 t :=
  (dat5 V c).before_in_eq_fetched 1 rfl (fun _ => rfl) (fun _ _ _ => rfl) (fun _ => rfl) t d
theorem before5_2 (d) : (dat5 V c).before 2 t d = iblk5 V c 2 t :=
  (dat5 V c).before_in_eq_fetched 2 rfl (fun _ => rfl) (fun _ _ _ => rfl) (fun _ => rfl) t d
theorem before5_3 (d) : (dat5 V c).before 3 t d = iblk5 V c 3 t :=
  (dat5 V c).before_in_eq_fetched 3 rfl (fun _ => rfl) (fun _ _ _ => rfl) (fun _ => rfl) t d
theorem before5_4 (d) : (dat5 V c).before 4 t d = iblk5 V c 4 t :=
  (dat5 V c).before_in_eq_fetched 4 rfl (fun _ => rfl) (fun _ _ _ => rfl) (fun _ => rfl) t d
theorem before5_5 (d) : (dat5 V c).before 5 t d = iblk5 V c 5 t :=
  (dat5 V c).before_in_eq_fetched 5 rfl (fun _ => rfl) (fun _ _ _ => rfl) (fun _ => rfl) t d

theorem bodyAt5_eq : bodyAt5 (F := F) t = cc2__norm_relu_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) := rfl

-- At each grid point every input holds its block of its array, so the body's triple applies there.
theorem body_obligation5 : BodyObligation (dat5 (F := F) V c) (defs₀ (F := F)) Variants.none () Set.univ := fun t => by
  rw [bigSep_W5, bigSep_W5]
  simp only [before5_0, before5_1, before5_2, before5_3, before5_4, before5_5]
  change _ ⊢ wp _ _ _ (bodyAt5 t) _
  rw [bodyAt5_eq]
  dsimp only [dat5, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk5 V c 0 t) (iblk5 V c 1 t) (iblk5 V c 2 t) (iblk5 V c 3 t) (iblk5 V c 4 t) (iblk5 V c 5 t)
  iframe H0 H1 H2 H3 H4 H5
  isplitl [H6]; · iexists _; iexact H6
  iintro H
  iframe

end Point

end Cert.KernelIdeal.Reg
-- ==== Proof.KernelIdeal.RegA6.lean ====
import proofs.«169164_j46703474376898_1_alg».proof.Proof.KernelIdeal.RegA0

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out0_2 (iblk6 V c 0 t) (iblk6 V c 1 t)
  Φ _ := Pipeline.ΦA spec6 c
  q _ := fullShare
  owed _ := 0

theorem A_eq6 (w : Fin cfg6.W) : (dat6 V c).A w = V c (Pipeline.arrRef spec6 w) := rfl

variable (t : Fin cfg6.N)

theorem after6_2 : (dat6 V c).after 2 t = out0_2 (iblk6 V c 0 t) (iblk6 V c 1 t) := by dsimp only [dat6]

theorem before6_0 (d) : (dat6 V c).before 0 t d = iblk6 V c 0 t :=
  (dat6 V c).before_in_eq_fetched 0 rfl (fun _ => rfl) (fun _ _ _ => rfl) (fun _ => rfl) t d
theorem before6_1 (d) : (dat6 V c).before 1 t d = iblk6 V c 1 t :=
  (dat6 V c).before_in_eq_fetched 1 rfl (fun _ => rfl) (fun _ _ _ => rfl) (fun _ => rfl) t d

theorem bodyAt6_eq : bodyAt6 (F := F) t = cc0__matmul_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) := rfl

-- At each grid point every input holds its block of its array, so the body's triple applies there.
theorem body_obligation6 : BodyObligation (dat6 (F := F) V c) (defs₀ (F := F)) Variants.none () Set.univ := fun t => by
  rw [bigSep_W6, bigSep_W6]
  simp only [before6_0, before6_1]
  change _ ⊢ wp _ _ _ (bodyAt6 t) _
  rw [bodyAt6_eq]
  dsimp only [dat6, Dat.owesAt, Dat.bound]
  iintro ⟨HΦ, Ho, ⟨%d0, H0⟩, ⟨%d1, H1⟩, ⟨%d2, H2⟩⟩
  iapply sound_kernel0 c (iblk6 V c 0 t) (iblk6 V c 1 t)
  iframe H0 H1
  isplitl [H2]; · iexists _; iexact H2
  iintro H
  iframe

end Point

end Cert.KernelIdeal.Reg
-- ==== Proof.KernelIdeal.RegS7.lean ====
import proofs.«169164_j46703474376898_1_alg».proof.Proof.KernelIdeal.RegS1

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Point

-- the two conditions are complementary in the coordinate, so at no point do both fail
theorem live7_2 : ∀ i : grid7.Coords, cfg7.idle 2 i = false := fun i =>
  (by decide +kernel : ∀ n : Fin (grid7.bound 0),
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)
theorem live7_3 : ∀ i : grid7.Coords, cfg7.idle 3 i = false := live7_2

abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

-- what case A leaves in the two outputs at point t, and case B over what they held before
abbrev out7_A (c : Dev nD) (t : Fin cfg7.N) (h0 : t.val % 25 = 0) : Vec F S1x128 .f32 × Vec F S1x128 .f32 :=
  (out1_A_2 c (grid7.coords t) (ms7_0 t) (hs7_0 t) (ms7_1 t) (hs7_1 t) (ms7_2 t) (hs7_2 t) (ms7_3 t) (hs7_3 t) ((hcond1_0 t).mpr h0) (fun h => (hcond1_1 t).mp h h0) (iblk7 V c 0 t) (iblk7 V c 1 t),
   out1_A_3 c (grid7.coords t) (ms7_0 t) (hs7_0 t) (ms7_1 t) (hs7_1 t) (ms7_2 t) (hs7_2 t) (ms7_3 t) (hs7_3 t) ((hcond1_0 t).mpr h0) (fun h => (hcond1_1 t).mp h h0) (iblk7 V c 0 t) (iblk7 V c 1 t))
abbrev out7_B (c : Dev nD) (t : Fin cfg7.N) (h0 : ¬t.val % 25 = 0) (p : Vec F S1x128 .f32 × Vec F S1x128 .f32) : Vec F S1x128 .f32 × Vec F S1x128 .f32 :=
  (out1_B_2 c (grid7.coords t) (ms7_0 t) (hs7_0 t) (ms7_1 t) (hs7_1 t) (ms7_2 t) (hs7_2 t) (ms7_3 t) (hs7_3 t) (fun h => h0 ((hcond1_0 t).mp h)) ((hcond1_1 t).mpr h0) (iblk7 V c 0 t) (iblk7 V c 1 t) p.1 p.2,
   out1_B_3 c (grid7.coords t) (ms7_0 t) (hs7_0 t) (ms7_1 t) (hs7_1 t) (ms7_2 t) (hs7_2 t) (ms7_3 t) (hs7_3 t) (fun h => h0 ((hcond1_0 t).mp h)) ((hcond1_1 t).mpr h0) (iblk7 V c 0 t) (iblk7 V c 1 t) p.1 p.2)

-- the accumulation: the outputs after position n are the selected case's, case B over what position n - 1 left
def outsAt7 (c : Dev nD) : (n : ℕ) → n < cfg7.N → Vec F S1x128 .f32 × Vec F S1x128 .f32
  | 0, hn => out7_A V c ⟨0, hn⟩ (Nat.zero_mod _)
  | n + 1, hn =>
    if h0 : (n + 1) % 25 = 0 then out7_A V c ⟨n + 1, hn⟩ h0
    else out7_B V c ⟨n + 1, hn⟩ h0 (outsAt7 c n (Nat.lt_of_succ_lt hn))

theorem outsAt7_A (c : Dev nD) (t : Fin cfg7.N) (h0 : t.val % 25 = 0) : outsAt7 V c t.val t.isLt = out7_A V c t h0 := by
  obtain ⟨n, hn⟩ := t
  cases n with
  | zero => exact rfl
  | succ n => exact (dif_pos h0).trans rfl

theorem outsAt7_B (c : Dev nD) (t : Fin cfg7.N) (h0 : ¬t.val % 25 = 0) :
    outsAt7 V c t.val t.isLt = out7_B V c t h0 (outsAt7 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2
  Φ _ := Pipeline.ΦA spec7 c
  q _ := fullShare
  owed _ := 0

theorem A_eq7 (c : Dev nD) (w : Fin cfg7.W) : (dat7 V c).A w = V c (Pipeline.arrRef spec7 w) := rfl
theorem after7_2 (c : Dev nD) (t : Fin cfg7.N) : (dat7 V c).after 2 t = (outsAt7 V c t.val t.isLt).1 := rfl
theorem after7_3 (c : Dev nD) (t : Fin cfg7.N) : (dat7 V c).after 3 t = (outsAt7 V c t.val t.isLt).2 := rfl

theorem before7_in {c : Dev nD} (dat : Dat τ (Elt F) Unit ℕ (UR sig nD τ) ℕ cfg7 c) (hA : ∀ w, dat.A w = V c (Pipeline.arrRef spec7 w))
    (h0 : ∀ t, dat.after 0 t = iblk7 V c 0 t) (h1 : ∀ t, dat.after 1 t = iblk7 V c 1 t) (t : Fin cfg7.N) :
    (∀ d, dat.before 0 t d = iblk7 V c 0 t) ∧ ∀ d, dat.before 1 t d = iblk7 V c 1 t := by
  constructor <;> intro d <;>
  exact (dat.before_in_eq_fetched _ rfl (fun _ => rfl) (fun _ _ _ => rfl) (fun t => by (first | rw [h0] | rw [h1]); unfold Dat.blockOf iblk7; rw [hA]; try rfl) t d).trans
    (by unfold Dat.fetched Dat.blockOf iblk7; rw [hA]; try rfl)

theorem before7_B (c : Dev nD) (t : Fin cfg7.N) (h0 : ¬t.val % 25 = 0) :
    (∀ d, (dat7 V c).before 2 t d = (outsAt7 V c (t.val - 1) (Nat.lt_of_le_of_lt (Nat.sub_le _ _) t.isLt)).1) ∧ ∀ d, (dat7 V c).before 3 t d = (outsAt7 V c (t.val - 1) (Nat.lt_of_le_of_lt (Nat.sub_le _ _) t.isLt)).2 := by
  have hN : t.val < 25 := lt_of_lt_of_eq t.isLt (show cfg7.N = 25 from N_7)
  constructor <;> intro d
  · rw [Dat.before_out_kept _ 2 rfl t (by omega) (Bool.eq_false_iff.mpr fun h => by have := (flush7_2 _).mp h; dsimp only at this; omega)
      live7_2 (fun _ _ => rfl)]
    dsimp only [dat7]
  · rw [Dat.before_out_kept _ 3 rfl t (by omega) (Bool.eq_false_iff.mpr fun h => by have := (flush7_3 _).mp h; dsimp only at this; omega)
      live7_3 (fun _ _ => rfl)]
    dsimp only [dat7]

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ (dat7 V c).leavesExact 2 t
    ∗ (dat7 V c).leavesExact 3 t)

-- the inputs hold their blocks, the closed forms select the case, in case B each output holds what the point before left; so the case's run applies
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  obtain ⟨hb0, hb1⟩ := before7_in V (dat7 V c) (fun _ => rfl) (fun _ => rfl) (fun _ => rfl) t
  simp only [hb0, hb1]
  rw [show (dat7 V c).Φ t.succ = (dat7 V c).Φ t.castSucc from rfl,
    show (dat7 V c).owesAt () t.succ = (dat7 V c).owesAt () t.castSucc from rfl,
    show (dat7 V c).after 0 t = iblk7 V c 0 t from rfl, show (dat7 V c).after 1 t = iblk7 V c 1 t from rfl]
  rw [show (dat7 V c).leavesExact 2 t = owns (c : Thread nD τ) (ms7_2 t) fullShare ((dat7 V c).after 2 t) from by
      unfold Dat.leavesExact; rw [live7_2], after7_2]
  rw [show (dat7 V c).leavesExact 3 t = owns (c : Thread nD τ) (ms7_3 t) fullShare ((dat7 V c).after 3 t) from by
      unfold Dat.leavesExact; rw [live7_3], after7_3]
  by_cases h0 : t.val % 25 = 0
  · rw [outsAt7_A V c t h0]
    dsimp only [out7_A, out1_A_2, out1_A_3]
    iintro ⟨HΦ, Ho, ⟨%d0, H0⟩, ⟨%d1, H1⟩, ⟨%d2, H2⟩, ⟨%d3, H3⟩⟩
    iapply ((kernelRun1_A c (grid7.coords t) _ (hs7_0 t) _ (hs7_1 t) _ (hs7_2 t) _ (hs7_3 t) ((hcond1_0 t).mpr h0) (fun h => (hcond1_1 t).mp h h0) (iblk7 V c 0 t) (iblk7 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · rw [outsAt7_B V c t h0]
    simp only [(before7_B V c t h0).1, (before7_B V c t h0).2]
    dsimp only [out7_B, out1_B_2, out1_B_3]
    iintro ⟨HΦ, Ho, ⟨%d0, H0⟩, ⟨%d1, H1⟩, ⟨%d2, H2⟩, ⟨%d3, H3⟩⟩
    iapply ((kernelRun1_B c (grid7.coords t) _ (hs7_0 t) _ (hs7_1 t) _ (hs7_2 t) _ (hs7_3 t) (fun h => h0 ((hcond1_0 t).mp h)) ((hcond1_1 t).mpr h0) (iblk7 V c 0 t) (iblk7 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _)
    unfold owns; iexists _; isplitr
    swap; · iexact H3
    ipureintro; exact View.read_writes_of_cover _ _ _ _ _ (cover1_B_3 c _ _ _ _ _ _ _ _ _ _ _ _ _ _ _)

theorem body_obligation7 (c : Dev nD) : BodyObligation (dat7 (F := F) V c) (defs₀ (F := F)) Variants.none () Set.univ := fun t => by
  rw [bigSep_W7, bigSep_W7]
  exact sound_body7 V c t

end Point

end Cert.KernelIdeal.Reg

end
-- ==== Proof.KernelIdeal.RegN8.lean ====
import proofs.«169164_j46703474376898_1_alg».proof.Proof.KernelIdeal.RegN2

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk8 (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out2_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (w : Fin cfg8.W) : (dat8 V c).A w = V c (Pipeline.arrRef spec8 w) := rfl

variable (t : Fin cfg8.N)

theorem after8_6 : (dat8 V c).after 6 t = out2_6 (iblk8 V c 0 t) (iblk8 V c 1 t) (iblk8 V c 2 t) (iblk8 V c 3 t) (iblk8 V c 4 t) (iblk8 V c 5 t) := by dsimp only [dat8]

theorem before8_0 (d) : (dat8 V c).before 0 t d = iblk8 V c 0 t :=
  (dat8 V c).before_in_eq_fetched 0 rfl (fun _ => rfl) (fun _ _ _ => rfl) (fun _ => rfl) t d
theorem before8_1 (d) : (dat8 V c).before 1 t d = iblk8 V c 1 t :=
  (dat8 V c).before_in_eq_fetched 1 rfl (fun _ => rfl) (fun _ _ _ => rfl) (fun _ => rfl) t d
theorem before8_2 (d) : (dat8 V c).before 2 t d = iblk8 V c 2 t :=
  (dat8 V c).before_in_eq_fetched 2 rfl (fun _ => rfl) (fun _ _ _ => rfl) (fun _ => rfl) t d
theorem before8_3 (d) : (dat8 V c).before 3 t d = iblk8 V c 3 t :=
  (dat8 V c).before_in_eq_fetched 3 rfl (fun _ => rfl) (fun _ _ _ => rfl) (fun _ => rfl) t d
theorem before8_4 (d) : (dat8 V c).before 4 t d = iblk8 V c 4 t :=
  (dat8 V c).before_in_eq_fetched 4 rfl (fun _ => rfl) (fun _ _ _ => rfl) (fun _ => rfl) t d
theorem before8_5 (d) : (dat8 V c).before 5 t d = iblk8 V c 5 t :=
  (dat8 V c).before_in_eq_fetched 5 rfl (fun _ => rfl) (fun _ _ _ => rfl) (fun _ => rfl) t d

theorem bodyAt8_eq : bodyAt8 (F := F) t = cc2__norm_relu_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) := rfl

-- At each grid point every input holds its block of its array, so the body's triple applies there.
theorem body_obligation8 : BodyObligation (dat8 (F := F) V c) (defs₀ (F := F)) Variants.none () Set.univ := fun t => by
  rw [bigSep_W8, bigSep_W8]
  simp only [before8_0, before8_1, before8_2, before8_3, before8_4, before8_5]
  change _ ⊢ wp _ _ _ (bodyAt8 t) _
  rw [bodyAt8_eq]
  dsimp only [dat8, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk8 V c 0 t) (iblk8 V c 1 t) (iblk8 V c 2 t) (iblk8 V c 3 t) (iblk8 V c 4 t) (iblk8 V c 5 t)
  iframe H0 H1 H2 H3 H4 H5
  isplitl [H6]; · iexists _; iexact H6
  iintro H
  iframe

end Point

end Cert.KernelIdeal.Reg
-- ==== Proof.KernelIdeal.RegA9.lean ====
import proofs.«169164_j46703474376898_1_alg».proof.Proof.KernelIdeal.RegA3

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk9 (w : Fin cfg9.W) (t : Fin cfg9.N) : ((cfg9.win w).xblock (cfg9.grid.coords t)).Idx → Elt F (cfg9.win w).elt :=
  ((cfg9.win w).blk t).view.read (Elt F) (V c (Pipeline.arrRef spec9 w))

def dat9 : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out3_2 (iblk9 V c 0 t) (iblk9 V c 1 t)
  Φ _ := Pipeline.ΦA spec9 c
  q _ := fullShare
  owed _ := 0

theorem A_eq9 (w : Fin cfg9.W) : (dat9 V c).A w = V c (Pipeline.arrRef spec9 w) := rfl

variable (t : Fin cfg9.N)

theorem after9_2 : (dat9 V c).after 2 t = out3_2 (iblk9 V c 0 t) (iblk9 V c 1 t) := by dsimp only [dat9]

theorem before9_0 (d) : (dat9 V c).before 0 t d = iblk9 V c 0 t :=
  (dat9 V c).before_in_eq_fetched 0 rfl (fun _ => rfl) (fun _ _ _ => rfl) (fun _ => rfl) t d
theorem before9_1 (d) : (dat9 V c).before 1 t d = iblk9 V c 1 t :=
  (dat9 V c).before_in_eq_fetched 1 rfl (fun _ => rfl) (fun _ _ _ => rfl) (fun _ => rfl) t d

theorem bodyAt9_eq : bodyAt9 (F := F) t = cc3__matmul_kernel (grid9.coords t) (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) := rfl

-- At each grid point every input holds its block of its array, so the body's triple applies there.
theorem body_obligation9 : BodyObligation (dat9 (F := F) V c) (defs₀ (F := F)) Variants.none () Set.univ := fun t => by
  rw [bigSep_W9, bigSep_W9]
  simp only [before9_0, before9_1]
  change _ ⊢ wp _ _ _ (bodyAt9 t) _
  rw [bodyAt9_eq]
  dsimp only [dat9, Dat.owesAt, Dat.bound]
  iintro ⟨HΦ, Ho, ⟨%d0, H0⟩, ⟨%d1, H1⟩, ⟨%d2, H2⟩⟩
  iapply sound_kernel3 c (iblk9 V c 0 t) (iblk9 V c 1 t)
  iframe H0 H1
  isplitl [H2]; · iexists _; iexact H2
  iintro H
  iframe

end Point

end Cert.KernelIdeal.Reg
-- ==== Proof.KernelIdeal.RegS10.lean ====
import proofs.«169164_j46703474376898_1_alg».proof.Proof.KernelIdeal.RegS1

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Point

-- the two conditions are complementary in the coordinate, so at no point do both fail
theorem live10_2 : ∀ i : grid10.Coords, cfg10.idle 2 i = false := fun i =>
  (by decide +kernel : ∀ n : Fin (grid10.bound 0),
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)
theorem live10_3 : ∀ i : grid10.Coords, cfg10.idle 3 i = false := live10_2

abbrev ms10_0 (t : Fin cfg10.N) : Memref sig .tc .vmem S2000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x128 .f32 := win10_3.stage (cfg10.slots t 3)
abbrev hs10_3 (t : Fin cfg10.N) : (ms10_3 t).IsWhole := hstage10_3 ((cfg10.slots t 3).cast nbuf10_3)

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

-- what case A leaves in the two outputs at point t, and case B over what they held before
abbrev out10_A (c : Dev nD) (t : Fin cfg10.N) (h0 : t.val % 25 = 0) : Vec F S1x128 .f32 × Vec F S1x128 .f32 :=
  (out1_A_2 c (grid10.coords t) (ms10_0 t) (hs10_0 t) (ms10_1 t) (hs10_1 t) (ms10_2 t) (hs10_2 t) (ms10_3 t) (hs10_3 t) ((hcond1_0 t).mpr h0) (fun h => (hcond1_1 t).mp h h0) (iblk10 V c 0 t) (iblk10 V c 1 t),
   out1_A_3 c (grid10.coords t) (ms10_0 t) (hs10_0 t) (ms10_1 t) (hs10_1 t) (ms10_2 t) (hs10_2 t) (ms10_3 t) (hs10_3 t) ((hcond1_0 t).mpr h0) (fun h => (hcond1_1 t).mp h h0) (iblk10 V c 0 t) (iblk10 V c 1 t))
abbrev out10_B (c : Dev nD) (t : Fin cfg10.N) (h0 : ¬t.val % 25 = 0) (p : Vec F S1x128 .f32 × Vec F S1x128 .f32) : Vec F S1x128 .f32 × Vec F S1x128 .f32 :=
  (out1_B_2 c (grid10.coords t) (ms10_0 t) (hs10_0 t) (ms10_1 t) (hs10_1 t) (ms10_2 t) (hs10_2 t) (ms10_3 t) (hs10_3 t) (fun h => h0 ((hcond1_0 t).mp h)) ((hcond1_1 t).mpr h0) (iblk10 V c 0 t) (iblk10 V c 1 t) p.1 p.2,
   out1_B_3 c (grid10.coords t) (ms10_0 t) (hs10_0 t) (ms10_1 t) (hs10_1 t) (ms10_2 t) (hs10_2 t) (ms10_3 t) (hs10_3 t) (fun h => h0 ((hcond1_0 t).mp h)) ((hcond1_1 t).mpr h0) (iblk10 V c 0 t) (iblk10 V c 1 t) p.1 p.2)

-- the accumulation: the outputs after position n are the selected case's, case B over what position n - 1 left
def outsAt10 (c : Dev nD) : (n : ℕ) → n < cfg10.N → Vec F S1x128 .f32 × Vec F S1x128 .f32
  | 0, hn => out10_A V c ⟨0, hn⟩ (Nat.zero_mod _)
  | n + 1, hn =>
    if h0 : (n + 1) % 25 = 0 then out10_A V c ⟨n + 1, hn⟩ h0
    else out10_B V c ⟨n + 1, hn⟩ h0 (outsAt10 c n (Nat.lt_of_succ_lt hn))

theorem outsAt10_A (c : Dev nD) (t : Fin cfg10.N) (h0 : t.val % 25 = 0) : outsAt10 V c t.val t.isLt = out10_A V c t h0 := by
  obtain ⟨n, hn⟩ := t
  cases n with
  | zero => exact rfl
  | succ n => exact (dif_pos h0).trans rfl

theorem outsAt10_B (c : Dev nD) (t : Fin cfg10.N) (h0 : ¬t.val % 25 = 0) :
    outsAt10 V c t.val t.isLt = out10_B V c t h0 (outsAt10 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
    | ⟨3, _⟩ => (outsAt10 V c t.val t.isLt).2
  Φ _ := Pipeline.ΦA spec10 c
  q _ := fullShare
  owed _ := 0

theorem A_eq10 (c : Dev nD) (w : Fin cfg10.W) : (dat10 V c).A w = V c (Pipeline.arrRef spec10 w) := rfl
theorem after10_2 (c : Dev nD) (t : Fin cfg10.N) : (dat10 V c).after 2 t = (outsAt10 V c t.val t.isLt).1 := rfl
theorem after10_3 (c : Dev nD) (t : Fin cfg10.N) : (dat10 V c).after 3 t = (outsAt10 V c t.val t.isLt).2 := rfl

theorem before10_in {c : Dev nD} (dat : Dat τ (Elt F) Unit ℕ (UR sig nD τ) ℕ cfg10 c) (hA : ∀ w, dat.A w = V c (Pipeline.arrRef spec10 w))
    (h0 : ∀ t, dat.after 0 t = iblk10 V c 0 t) (h1 : ∀ t, dat.after 1 t = iblk10 V c 1 t) (t : Fin cfg10.N) :
    (∀ d, dat.before 0 t d = iblk10 V c 0 t) ∧ ∀ d, dat.before 1 t d = iblk10 V c 1 t := by
  constructor <;> intro d <;>
  exact (dat.before_in_eq_fetched _ rfl (fun _ => rfl) (fun _ _ _ => rfl) (fun t => by (first | rw [h0] | rw [h1]); unfold Dat.blockOf iblk10; rw [hA]; try rfl) t d).trans
    (by unfold Dat.fetched Dat.blockOf iblk10; rw [hA]; try rfl)

theorem before10_B (c : Dev nD) (t : Fin cfg10.N) (h0 : ¬t.val % 25 = 0) :
    (∀ d, (dat10 V c).before 2 t d = (outsAt10 V c (t.val - 1) (Nat.lt_of_le_of_lt (Nat.sub_le _ _) t.isLt)).1) ∧ ∀ d, (dat10 V c).before 3 t d = (outsAt10 V c (t.val - 1) (Nat.lt_of_le_of_lt (Nat.sub_le _ _) t.isLt)).2 := by
  have hN : t.val < 25 := lt_of_lt_of_eq t.isLt (show cfg10.N = 25 from N_10)
  constructor <;> intro d
  · rw [Dat.before_out_kept _ 2 rfl t (by omega) (Bool.eq_false_iff.mpr fun h => by have := (flush10_2 _).mp h; dsimp only at this; omega)
      live10_2 (fun _ _ => rfl)]
    dsimp only [dat10]
  · rw [Dat.before_out_kept _ 3 rfl t (by omega) (Bool.eq_false_iff.mpr fun h => by have := (flush10_3 _).mp h; dsimp only at this; omega)
      live10_3 (fun _ _ => rfl)]
    dsimp only [dat10]

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ (dat10 V c).leavesExact 2 t
    ∗ (dat10 V c).leavesExact 3 t)

-- the inputs hold their blocks, the closed forms select the case, in case B each output holds what the point before left; so the case's run applies
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  obtain ⟨hb0, hb1⟩ := before10_in V (dat10 V c) (fun _ => rfl) (fun _ => rfl) (fun _ => rfl) t
  simp only [hb0, hb1]
  rw [show (dat10 V c).Φ t.succ = (dat10 V c).Φ t.castSucc from rfl,
    show (dat10 V c).owesAt () t.succ = (dat10 V c).owesAt () t.castSucc from rfl,
    show (dat10 V c).after 0 t = iblk10 V c 0 t from rfl, show (dat10 V c).after 1 t = iblk10 V c 1 t from rfl]
  rw [show (dat10 V c).leavesExact 2 t = owns (c : Thread nD τ) (ms10_2 t) fullShare ((dat10 V c).after 2 t) from by
      unfold Dat.leavesExact; rw [live10_2], after10_2]
  rw [show (dat10 V c).leavesExact 3 t = owns (c : Thread nD τ) (ms10_3 t) fullShare ((dat10 V c).after 3 t) from by
      unfold Dat.leavesExact; rw [live10_3], after10_3]
  by_cases h0 : t.val % 25 = 0
  · rw [outsAt10_A V c t h0]
    dsimp only [out10_A, out1_A_2, out1_A_3]
    iintro ⟨HΦ, Ho, ⟨%d0, H0⟩, ⟨%d1, H1⟩, ⟨%d2, H2⟩, ⟨%d3, H3⟩⟩
    iapply ((kernelRun1_A c (grid10.coords t) _ (hs10_0 t) _ (hs10_1 t) _ (hs10_2 t) _ (hs10_3 t) ((hcond1_0 t).mpr h0) (fun h => (hcond1_1 t).mp h h0) (iblk10 V c 0 t) (iblk10 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _)
    unfold owns; iexists _; isplitr
    swap; · iexact H3
    ipureintro; exact View.read_writes_of_cover _ _ _ _ _ (cover1_A_3 c _ _ _ _ _ _ _ _ _ _ _ _ _)
  · rw [outsAt10_B V c t h0]
    simp only [(before10_B V c t h0).1, (before10_B V c t h0).2]
    dsimp only [out10_B, out1_B_2, out1_B_3]
    iintro ⟨HΦ, Ho, ⟨%d0, H0⟩, ⟨%d1, H1⟩, ⟨%d2, H2⟩, ⟨%d3, H3⟩⟩
    iapply ((kernelRun1_B c (grid10.coords t) _ (hs10_0 t) _ (hs10_1 t) _ (hs10_2 t) _ (hs10_3 t) (fun h => h0 ((hcond1_0 t).mp h)) ((hcond1_1 t).mpr h0) (iblk10 V c 0 t) (iblk10 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _)
    unfold owns; iexists _; isplitr
    swap; · iexact H3
    ipureintro; exact View.read_writes_of_cover _ _ _ _ _ (cover1_B_3 c _ _ _ _ _ _ _ _ _ _ _ _ _ _ _)

theorem body_obligation10 (c : Dev nD) : BodyObligation (dat10 (F := F) V c) (defs₀ (F := F)) Variants.none () Set.univ := fun t => by
  rw [bigSep_W10, bigSep_W10]
  exact sound_body10 V c t

end Point

end Cert.KernelIdeal.Reg

end
-- ==== Proof.KernelIdeal.RegN11.lean ====
import proofs.«169164_j46703474376898_1_alg».proof.Proof.KernelIdeal.RegN2

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b)) (c : Dev nD)

def iblk11 (w : Fin cfg11.W) (t : Fin cfg11.N) : ((cfg11.win w).xblock (cfg11.grid.coords t)).Idx → Elt F (cfg11.win w).elt :=
  ((cfg11.win w).blk t).view.read (Elt F) (V c (Pipeline.arrRef spec11 w))

def dat11 : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out2_6 (iblk11 V c 0 t) (iblk11 V c 1 t) (iblk11 V c 2 t) (iblk11 V c 3 t) (iblk11 V c 4 t) (iblk11 V c 5 t)
  Φ _ := Pipeline.ΦA spec11 c
  q _ := fullShare
  owed _ := 0

theorem A_eq11 (w : Fin cfg11.W) : (dat11 V c).A w = V c (Pipeline.arrRef spec11 w) := rfl

variable (t : Fin cfg11.N)

theorem after11_6 : (dat11 V c).after 6 t = out2_6 (iblk11 V c 0 t) (iblk11 V c 1 t) (iblk11 V c 2 t) (iblk11 V c 3 t) (iblk11 V c 4 t) (iblk11 V c 5 t) := by dsimp only [dat11]

theorem before11_0 (d) : (dat11 V c).before 0 t d = iblk11 V c 0 t :=
  (dat11 V c).before_in_eq_fetched 0 rfl (fun _ => rfl) (fun _ _ _ => rfl) (fun _ => rfl) t d
theorem before11_1 (d) : (dat11 V c).before 1 t d = iblk11 V c 1 t :=
  (dat11 V c).before_in_eq_fetched 1 rfl (fun _ => rfl) (fun _ _ _ => rfl) (fun _ => rfl) t d
theorem before11_2 (d) : (dat11 V c).before 2 t d = iblk11 V c 2 t :=
  (dat11 V c).before_in_eq_fetched 2 rfl (fun _ => rfl) (fun _ _ _ => rfl) (fun _ => rfl) t d
theorem before11_3 (d) : (dat11 V c).before 3 t d = iblk11 V c 3 t :=
  (dat11 V c).before_in_eq_fetched 3 rfl (fun _ => rfl) (fun _ _ _ => rfl) (fun _ => rfl) t d
theorem before11_4 (d) : (dat11 V c).before 4 t d = iblk11 V c 4 t :=
  (dat11 V c).before_in_eq_fetched 4 rfl (fun _ => rfl) (fun _ _ _ => rfl) (fun _ => rfl) t d
theorem before11_5 (d) : (dat11 V c).before 5 t d = iblk11 V c 5 t :=
  (dat11 V c).before_in_eq_fetched 5 rfl (fun _ => rfl) (fun _ _ _ => rfl) (fun _ => rfl) t d

theorem bodyAt11_eq : bodyAt11 (F := F) t = cc2__norm_relu_kernel (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) := rfl

-- At each grid point every input holds its block of its array, so the body's triple applies there.
theorem body_obligation11 : BodyObligation (dat11 (F := F) V c) (defs₀ (F := F)) Variants.none () Set.univ := fun t => by
  rw [bigSep_W11, bigSep_W11]
  simp only [before11_0, before11_1, before11_2, before11_3, before11_4, before11_5]
  change _ ⊢ wp _ _ _ (bodyAt11 t) _
  rw [bodyAt11_eq]
  dsimp only [dat11, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk11 V c 0 t) (iblk11 V c 1 t) (iblk11 V c 2 t) (iblk11 V c 3 t) (iblk11 V c 4 t) (iblk11 V c 5 t)
  iframe H0 H1 H2 H3 H4 H5
  isplitl [H6]; · iexists _; iexact H6
  iintro H
  iframe

end Point

end Cert.KernelIdeal.Reg
-- ==== Proof.KernelIdeal.RegG12.lean ====
import proofs.«169164_j46703474376898_1_alg».proof.Proof.Gen.KernelIdeal.Launch
import proofs.«169164_j46703474376898_1_alg».proof.Proof.Gen.KernelIdeal.Skeleton
import proofs.«169164_j46703474376898_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Reg

open Cert.KernelIdeal.Gen Idealize.ShloMosaic Idealize.ShloMosaic.TcCoe Idealize.ShloMosaic.Tactic
open Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk12 (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S2000x128 := Rect.unit (s := S2000x128) ![0, 0] S2000x128.size inb_S2000x128_S2000x128_0_0
abbrev r12_1 : Rect S128x128 := Rect.unit (s := S128x128) ![0, 0] S128x128.size inb_S128x128_S128x128_0_0
abbrev r12_2 : Rect S1x128 := Rect.unit (s := S1x128) ![0, 0] S1x128.size inb_S1x128_S1x128_0_0

def out12_5 (x0 x1 : Vec F S2000x128 .f32) (x2 x3 : Vec F S128x128 .f32) (x4 : Vec F S1x128 .f32) : Vec F S2000x128 .f32 :=
  View.canon [⟨r12_0, k12_pay1 (View.ld x0 r12_0) (View.ld x1 r12_0) (View.ld x2 r12_1) (View.ld x3 r12_1) (View.ld x4 r12_2)⟩]

-- The one store covers the whole output block, so the block read back is the canonical contents of that store: a function of the input blocks alone.
theorem sound_kernel12 {E : Set ℕ} {i : grid12.Coords} {arg1 arg2 arg6 : Memref sig .tc .vmem S2000x128 .f32} {arg3 arg4 : Memref sig .tc .vmem S128x128 .f32} {arg5 : Memref sig .tc .vmem S1x128 .f32} {harg1 : arg1.IsWhole} {harg2 : arg2.IsWhole} {harg3 : arg3.IsWhole} {harg4 : arg4.IsWhole} {harg5 : arg5.IsWhole} {harg6 : arg6.IsWhole}
    (x0 x1 : Vec F S2000x128 .f32) (x2 x3 : Vec F S128x128 .f32) (x4 : Vec F S1x128 .f32) {K : PUnit → sProp 𝕄} :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out12_5 x0 x1 x2 x3 x4)) -∗ K ⟨⟩))
      ⊢ wp frame (wpE (defs₀ (F := F)) Variants.none c none) E (cc12__gate_kernel i arg1 harg1 arg2 harg2 arg3 harg3 arg4 harg4 arg5 harg5 arg6 harg6) K := by
  simp only [cc12__gate_kernel_eq_skeleton]; unfold cc12__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S2000x128.size (by rfl))

def dat12 : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (w : Fin cfg12.W) : (dat12 V c).A w = V c (Pipeline.arrRef spec12 w) := rfl

variable (t : Fin cfg12.N)

theorem after12_5 : (dat12 V c).after 5 t = out12_5 (iblk12 V c 0 t) (iblk12 V c 1 t) (iblk12 V c 2 t) (iblk12 V c 3 t) (iblk12 V c 4 t) := by dsimp only [dat12]

theorem before12_0 (d) : (dat12 V c).before 0 t d = iblk12 V c 0 t :=
  (dat12 V c).before_in_eq_fetched 0 rfl (fun _ => rfl) (fun _ _ _ => rfl) (fun _ => rfl) t d
theorem before12_1 (d) : (dat12 V c).before 1 t d = iblk12 V c 1 t :=
  (dat12 V c).before_in_eq_fetched 1 rfl (fun _ => rfl) (fun _ _ _ => rfl) (fun _ => rfl) t d
theorem before12_2 (d) : (dat12 V c).before 2 t d = iblk12 V c 2 t :=
  (dat12 V c).before_in_eq_fetched 2 rfl (fun _ => rfl) (fun _ _ _ => rfl) (fun _ => rfl) t d
theorem before12_3 (d) : (dat12 V c).before 3 t d = iblk12 V c 3 t :=
  (dat12 V c).before_in_eq_fetched 3 rfl (fun _ => rfl) (fun _ _ _ => rfl) (fun _ => rfl) t d
theorem before12_4 (d) : (dat12 V c).before 4 t d = iblk12 V c 4 t :=
  (dat12 V c).before_in_eq_fetched 4 rfl (fun _ => rfl) (fun _ _ _ => rfl) (fun _ => rfl) t d

-- At each grid point every input holds its block of its array, so the body's triple applies there.
theorem body_obligation12 : BodyObligation (dat12 (F := F) V c) (defs₀ (F := F)) Variants.none () Set.univ := fun t => by
  rw [bigSep_W12, bigSep_W12]
  simp only [before12_0, before12_1, before12_2, before12_3, before12_4]
  change _ ⊢ wp _ _ _ (bodyAt12 t) _
  dsimp only [dat12, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply sound_kernel12 c (iblk12 V c 0 t) (iblk12 V c 1 t) (iblk12 V c 2 t) (iblk12 V c 3 t) (iblk12 V c 4 t)
  iframe H0 H1 H2 H3 H4
  isplitl [H5]; · iexists _; iexact H5
  iintro H
  iframe

end Cert.KernelIdeal.Reg
-- ==== Proof.KernelIdeal.SegsBase.lean ====
import proofs.«169164_j46703474376898_1_alg».proof.Proof.KernelIdeal.Regions
import proofs.«169164_j46703474376898_1_alg».proof.Proof.KernelIdeal.RegA0
import proofs.«169164_j46703474376898_1_alg».proof.Proof.KernelIdeal.RegS1
import proofs.«169164_j46703474376898_1_alg».proof.Proof.KernelIdeal.RegN2
import proofs.«169164_j46703474376898_1_alg».proof.Proof.KernelIdeal.RegA3
import proofs.«169164_j46703474376898_1_alg».proof.Proof.KernelIdeal.RegS4
import proofs.«169164_j46703474376898_1_alg».proof.Proof.KernelIdeal.RegN5
import proofs.«169164_j46703474376898_1_alg».proof.Proof.KernelIdeal.RegA6
import proofs.«169164_j46703474376898_1_alg».proof.Proof.KernelIdeal.RegS7
import proofs.«169164_j46703474376898_1_alg».proof.Proof.KernelIdeal.RegN8
import proofs.«169164_j46703474376898_1_alg».proof.Proof.KernelIdeal.RegA9
import proofs.«169164_j46703474376898_1_alg».proof.Proof.KernelIdeal.RegS10
import proofs.«169164_j46703474376898_1_alg».proof.Proof.KernelIdeal.RegN11
import proofs.«169164_j46703474376898_1_alg».proof.Proof.KernelIdeal.RegG12
import proofs.«169164_j46703474376898_1_alg».proof.Proof.LibRegionSeg
import Idealize.ShloMosaic.Lib.Ring
import Idealize.ShloMosaic.Lib.Tactic

noncomputable section

namespace Cert.KernelIdeal.Run

open Cert.KernelIdeal Cert.KernelIdeal.Gen Cert.KernelIdeal.Reg
open Idealize.ShloMosaic Idealize.ShloMosaic.TcCoe Idealize.ShloMosaic.Rounds
open Idealize.SL Idealize.SL.BI Idealize.SL.BI.BIBase
open scoped Idealize.SL.BI
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

def o0 : Outs (F := F) := fun _ r c => m ((c : Thread nD τ).loc r)
def o1 : Outs (F := F) := fun J r c => match J with
  | 2 => rd (fun c => Pipeline.withArrays spec0 c ((V1 m) c) fun w => (dat0 (rd (V1 m)) c).arrAt w cfg0.N) c r
  | _ => o0 m J r c
def o2 : Outs (F := F) := fun J r c => match J with
  | 6 => rd (fun c => Pipeline.withArrays spec1 c ((V5 m (o1 m)) c) fun w => (dat1 (rd (V5 m (o1 m))) c).arrAt w cfg1.N) c r
  | _ => o1 m J r c
def o3 : Outs (F := F) := fun J r c => match J with
  | 8 => rd (fun c => Pipeline.withArrays spec2 c ((V7 m (o2 m)) c) fun w => (dat2 (rd (V7 m (o2 m))) c).arrAt w cfg2.N) c r
  | _ => o2 m J r c
def o4 : Outs (F := F) := fun J r c => match J with
  | 10 => rd (fun c => Pipeline.withArrays spec3 c ((V9 m (o3 m)) c) fun w => (dat3 (rd (V9 m (o3 m))) c).arrAt w cfg3.N) c r
  | _ => o3 m J r c
def o5 : Outs (F := F) := fun J r c => match J with
  | 14 => rd (fun c => Pipeline.withArrays spec4 c ((V13 m (o4 m)) c) fun w => (dat4 (rd (V13 m (o4 m))) c).arrAt w cfg4.N) c r
  | _ => o4 m J r c
def o6 : Outs (F := F) := fun J r c => match J with
  | 16 => rd (fun c => Pipeline.withArrays spec5 c ((V15 m (o5 m)) c) fun w => (dat5 (rd (V15 m (o5 m))) c).arrAt w cfg5.N) c r
  | _ => o5 m J r c
def o7 : Outs (F := F) := fun J r c => match J with
  | 18 => rd (fun c => Pipeline.withArrays spec6 c ((V17 m (o6 m)) c) fun w => (dat6 (rd (V17 m (o6 m))) c).arrAt w cfg6.N) c r
  | _ => o6 m J r c
def o8 : Outs (F := F) := fun J r c => match J with
  | 22 => rd (fun c => Pipeline.withArrays spec7 c ((V21 m (o7 m)) c) fun w => (dat7 (rd (V21 m (o7 m))) c).arrAt w cfg7.N) c r
  | _ => o7 m J r c
def o9 : Outs (F := F) := fun J r c => match J with
  | 24 => rd (fun c => Pipeline.withArrays spec8 c ((V23 m (o8 m)) c) fun w => (dat8 (rd (V23 m (o8 m))) c).arrAt w cfg8.N) c r
  | _ => o8 m J r c
def o10 : Outs (F := F) := fun J r c => match J with
  | 26 => rd (fun c => Pipeline.withArrays spec9 c ((V25 m (o9 m)) c) fun w => (dat9 (rd (V25 m (o9 m))) c).arrAt w cfg9.N) c r
  | _ => o9 m J r c
def o11 : Outs (F := F) := fun J r c => match J with
  | 30 => rd (fun c => Pipeline.withArrays spec10 c ((V29 m (o10 m)) c) fun w => (dat10 (rd (V29 m (o10 m))) c).arrAt w cfg10.N) c r
  | _ => o10 m J r c
def o12 : Outs (F := F) := fun J r c => match J with
  | 32 => rd (fun c => Pipeline.withArrays spec11 c ((V31 m (o11 m)) c) fun w => (dat11 (rd (V31 m (o11 m))) c).arrAt w cfg11.N) c r
  | _ => o11 m J r c
def o13 : Outs (F := F) := fun J r c => match J with
  | 34 => rd (fun c => Pipeline.withArrays spec12 c ((V33 m (o12 m)) c) fun w => (dat12 (rd (V33 m (o12 m))) c).arrAt w cfg12.N) c r
  | _ => o12 m J r c

abbrev outs : Outs (F := F) := o13 m

def pdats : (p : Fin 13) → (c : Dev nD) → Dat τ (Elt F) Unit ℕ (UR sig nD τ) ℕ (cfgs p) c
  | ⟨0, _⟩ => fun c => dat0 (rd (V1 m)) c
  | ⟨1, _⟩ => fun c => dat1 (rd (V5 m (o1 m))) c
  | ⟨2, _⟩ => fun c => dat2 (rd (V7 m (o2 m))) c
  | ⟨3, _⟩ => fun c => dat3 (rd (V9 m (o3 m))) c
  | ⟨4, _⟩ => fun c => dat4 (rd (V13 m (o4 m))) c
  | ⟨5, _⟩ => fun c => dat5 (rd (V15 m (o5 m))) c
  | ⟨6, _⟩ => fun c => dat6 (rd (V17 m (o6 m))) c
  | ⟨7, _⟩ => fun c => dat7 (rd (V21 m (o7 m))) c
  | ⟨8, _⟩ => fun c => dat8 (rd (V23 m (o8 m))) c
  | ⟨9, _⟩ => fun c => dat9 (rd (V25 m (o9 m))) c
  | ⟨10, _⟩ => fun c => dat10 (rd (V29 m (o10 m))) c
  | ⟨11, _⟩ => fun c => dat11 (rd (V31 m (o11 m))) c
  | ⟨12, _⟩ => fun c => dat12 (rd (V33 m (o12 m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.KernelIdeal.Run

end
-- ==== Proof.KernelIdeal.Seg0.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry0 (c : Dev nD) : V1 m c = (V1 m) c := rfl

theorem hF0 (c : Dev nD) (w : Fin cfg0.W) : (dat0 (rd (V1 m)) c).arrAt w cfg0.N = rd (V2 m (outs m)) c (Pipeline.arrRef spec0 w) :=
  Pipeline.arrAt_last _ launch0.win.arr_inj (V1 m c) _ (A_eq0 _ c) w <| match w with
  | ⟨0, _⟩ | ⟨1, _⟩ => .inr ⟨rfl, V2_of m (outs m) c _ (by decide +revert)⟩
  | ⟨2, _⟩ => .inl (Function.update_self _ _ _)

theorem outval0_2 (c : Dev nD) : rd (V2 m (outs m)) c main_v10 = (dat0 (rd (V1 m)) c).arrAt 2 cfg0.N := (hF0 m c 2).symm

def reg0 : Pipeline.RegionSeg (pcfgs (F := F)) adm (pdats m) () defs₀ 𝒱₀ L lv 0 :=
  .ofHeld cfgs (pdats m) defs₀ 𝒱₀ L lv 0 launch0 (V1 m) (V2 m (outs m)) (body_obligation0 _) (fun _ _ => rfl) (fun _ _ => rfl)
    (fun _ => rfl) (fun _ _ => rfl) (fun _ _ => rfl) (hF0 m) [main_v10] (by decide) (V2_of m (outs m))

end Cert.KernelIdeal.Run

end
-- ==== Proof.KernelIdeal.Seg1.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry1 (c : Dev nD) : V5 m (outs m) c = (V5 m (o1 m)) c := rfl

theorem hF1 (c : Dev nD) (w : Fin cfg1.W) : (dat1 (rd (V5 m (o1 m))) c).arrAt w cfg1.N = rd (V6 m (outs m)) c (Pipeline.arrRef spec1 w) :=
  Pipeline.arrAt_last _ launch1.win.arr_inj (V5 m (o1 m) c) _ (A_eq1 _ c) w <| match w with
  | ⟨0, _⟩ | ⟨1, _⟩ => .inr ⟨rfl, V6_of m (outs m) c _ (by decide +revert)⟩
  | ⟨2, _⟩ => .inl ((Function.update_of_ne (StableHlo.devRef_ne_of_ne (by decide +revert)) _ _).trans (Function.update_self _ _ _))
  | ⟨3, _⟩ => .inl (Function.update_self _ _ _)

theorem outval1_2 (c : Dev nD) : rd (V6 m (outs m)) c main_v61_0 = (dat1 (rd (V5 m (o1 m))) c).arrAt 2 cfg1.N := (hF1 m c 2).symm

theorem outval1_3 (c : Dev nD) : rd (V6 m (outs m)) c main_v61_1 = (dat1 (rd (V5 m (o1 m))) c).arrAt 3 cfg1.N := (hF1 m c 3).symm

def reg1 : Pipeline.RegionSeg (pcfgs (F := F)) adm (pdats m) () defs₀ 𝒱₀ L lv 1 :=
  .ofHeld cfgs (pdats m) defs₀ 𝒱₀ L lv 1 launch1 (V5 m (o1 m)) (V6 m (outs m)) (body_obligation1 _) (fun _ _ => rfl) (fun _ _ => rfl)
    (fun _ => rfl) (fun _ _ => rfl) (fun _ _ => rfl) (hF1 m) [main_v61_0, main_v61_1] (by decide) (V6_of m (outs m))

end Cert.KernelIdeal.Run

end
-- ==== Proof.KernelIdeal.Seg2.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry2 (c : Dev nD) : V7 m (outs m) c = (V7 m (o2 m)) c := rfl

theorem hF2 (c : Dev nD) (w : Fin cfg2.W) : (dat2 (rd (V7 m (o2 m))) c).arrAt w cfg2.N = rd (V8 m (outs m)) c (Pipeline.arrRef spec2 w) :=
  Pipeline.arrAt_last _ launch2.win.arr_inj (V7 m (o2 m) c) _ (A_eq2 _ c) w <| match w with
  | ⟨0, _⟩ | ⟨1, _⟩ | ⟨2, _⟩ | ⟨3, _⟩ | ⟨4, _⟩ | ⟨5, _⟩ => .inr ⟨rfl, V8_of m (outs m) c _ (by decide +revert)⟩
  | ⟨6, _⟩ => .inl (Function.update_self _ _ _)

theorem outval2_6 (c : Dev nD) : rd (V8 m (outs m)) c main_v68 = (dat2 (rd (V7 m (o2 m))) c).arrAt 6 cfg2.N := (hF2 m c 6).symm

def reg2 : Pipeline.RegionSeg (pcfgs (F := F)) adm (pdats m) () defs₀ 𝒱₀ L lv 2 :=
  .ofHeld cfgs (pdats m) defs₀ 𝒱₀ L lv 2 launch2 (V7 m (o2 m)) (V8 m (outs m)) (body_obligation2 _) (fun _ _ => rfl) (fun _ _ => rfl)
    (fun _ => rfl) (fun _ _ => rfl) (fun _ _ => rfl) (hF2 m) [main_v68] (by decide) (V8_of m (outs m))

end Cert.KernelIdeal.Run

end
-- ==== Proof.KernelIdeal.Seg3.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry3 (c : Dev nD) : V9 m (outs m) c = (V9 m (o3 m)) c := rfl

theorem hF3 (c : Dev nD) (w : Fin cfg3.W) : (dat3 (rd (V9 m (o3 m))) c).arrAt w cfg3.N = rd (V10 m (outs m)) c (Pipeline.arrRef spec3 w) :=
  Pipeline.arrAt_last _ launch3.win.arr_inj (V9 m (o3 m) c) _ (A_eq3 _ c) w <| match w with
  | ⟨0, _⟩ | ⟨1, _⟩ => .inr ⟨rfl, V10_of m (outs m) c _ (by decide +revert)⟩
  | ⟨2, _⟩ => .inl (Function.update_self _ _ _)

theorem outval3_2 (c : Dev nD) : rd (V10 m (outs m)) c main_v71 = (dat3 (rd (V9 m (o3 m))) c).arrAt 2 cfg3.N := (hF3 m c 2).symm

def reg3 : Pipeline.RegionSeg (pcfgs (F := F)) adm (pdats m) () defs₀ 𝒱₀ L lv 3 :=
  .ofHeld cfgs (pdats m) defs₀ 𝒱₀ L lv 3 launch3 (V9 m (o3 m)) (V10 m (outs m)) (body_obligation3 _) (fun _ _ => rfl) (fun _ _ => rfl)
    (fun _ => rfl) (fun _ _ => rfl) (fun _ _ => rfl) (hF3 m) [main_v71] (by decide) (V10_of m (outs m))

end Cert.KernelIdeal.Run

end
-- ==== Proof.KernelIdeal.Seg4.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry4 (c : Dev nD) : V13 m (outs m) c = (V13 m (o4 m)) c := rfl

theorem hF4 (c : Dev nD) (w : Fin cfg4.W) : (dat4 (rd (V13 m (o4 m))) c).arrAt w cfg4.N = rd (V14 m (outs m)) c (Pipeline.arrRef spec4 w) :=
  Pipeline.arrAt_last _ launch4.win.arr_inj (V13 m (o4 m) c) _ (A_eq4 _ c) w <| match w with
  | ⟨0, _⟩ | ⟨1, _⟩ => .inr ⟨rfl, V14_of m (outs m) c _ (by decide +revert)⟩
  | ⟨2, _⟩ => .inl ((Function.update_of_ne (StableHlo.devRef_ne_of_ne (by decide +revert)) _ _).trans (Function.update_self _ _ _))
  | ⟨3, _⟩ => .inl (Function.update_self _ _ _)

theorem outval4_2 (c : Dev nD) : rd (V14 m (outs m)) c main_v122_0 = (dat4 (rd (V13 m (o4 m))) c).arrAt 2 cfg4.N := (hF4 m c 2).symm

theorem outval4_3 (c : Dev nD) : rd (V14 m (outs m)) c main_v122_1 = (dat4 (rd (V13 m (o4 m))) c).arrAt 3 cfg4.N := (hF4 m c 3).symm

def reg4 : Pipeline.RegionSeg (pcfgs (F := F)) adm (pdats m) () defs₀ 𝒱₀ L lv 4 :=
  .ofHeld cfgs (pdats m) defs₀ 𝒱₀ L lv 4 launch4 (V13 m (o4 m)) (V14 m (outs m)) (body_obligation4 _) (fun _ _ => rfl) (fun _ _ => rfl)
    (fun _ => rfl) (fun _ _ => rfl) (fun _ _ => rfl) (hF4 m) [main_v122_0, main_v122_1] (by decide) (V14_of m (outs m))

end Cert.KernelIdeal.Run

end
-- ==== Proof.KernelIdeal.Seg5.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry5 (c : Dev nD) : V15 m (outs m) c = (V15 m (o5 m)) c := rfl

theorem hF5 (c : Dev nD) (w : Fin cfg5.W) : (dat5 (rd (V15 m (o5 m))) c).arrAt w cfg5.N = rd (V16 m (outs m)) c (Pipeline.arrRef spec5 w) :=
  Pipeline.arrAt_last _ launch5.win.arr_inj (V15 m (o5 m) c) _ (A_eq5 _ c) w <| match w with
  | ⟨0, _⟩ | ⟨1, _⟩ | ⟨2, _⟩ | ⟨3, _⟩ | ⟨4, _⟩ | ⟨5, _⟩ => .inr ⟨rfl, V16_of m (outs m) c _ (by decide +revert)⟩
  | ⟨6, _⟩ => .inl (Function.update_self _ _ _)

theorem outval5_6 (c : Dev nD) : rd (V16 m (outs m)) c main_v129 = (dat5 (rd (V15 m (o5 m))) c).arrAt 6 cfg5.N := (hF5 m c 6).symm

def reg5 : Pipeline.RegionSeg (pcfgs (F := F)) adm (pdats m) () defs₀ 𝒱₀ L lv 5 :=
  .ofHeld cfgs (pdats m) defs₀ 𝒱₀ L lv 5 launch5 (V15 m (o5 m)) (V16 m (outs m)) (body_obligation5 _) (fun _ _ => rfl) (fun _ _ => rfl)
    (fun _ => rfl) (fun _ _ => rfl) (fun _ _ => rfl) (hF5 m) [main_v129] (by decide) (V16_of m (outs m))

end Cert.KernelIdeal.Run

end
-- ==== Proof.KernelIdeal.Seg6.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry6 (c : Dev nD) : V17 m (outs m) c = (V17 m (o6 m)) c := rfl

theorem hF6 (c : Dev nD) (w : Fin cfg6.W) : (dat6 (rd (V17 m (o6 m))) c).arrAt w cfg6.N = rd (V18 m (outs m)) c (Pipeline.arrRef spec6 w) :=
  Pipeline.arrAt_last _ launch6.win.arr_inj (V17 m (o6 m) c) _ (A_eq6 _ c) w <| match w with
  | ⟨0, _⟩ | ⟨1, _⟩ => .inr ⟨rfl, V18_of m (outs m) c _ (by decide +revert)⟩
  | ⟨2, _⟩ => .inl (Function.update_self _ _ _)

theorem outval6_2 (c : Dev nD) : rd (V18 m (outs m)) c main_v132 = (dat6 (rd (V17 m (o6 m))) c).arrAt 2 cfg6.N := (hF6 m c 2).symm

def reg6 : Pipeline.RegionSeg (pcfgs (F := F)) adm (pdats m) () defs₀ 𝒱₀ L lv 6 :=
  .ofHeld cfgs (pdats m) defs₀ 𝒱₀ L lv 6 launch6 (V17 m (o6 m)) (V18 m (outs m)) (body_obligation6 _) (fun _ _ => rfl) (fun _ _ => rfl)
    (fun _ => rfl) (fun _ _ => rfl) (fun _ _ => rfl) (hF6 m) [main_v132] (by decide) (V18_of m (outs m))

end Cert.KernelIdeal.Run

end
-- ==== Proof.KernelIdeal.Seg7.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry7 (c : Dev nD) : V21 m (outs m) c = (V21 m (o7 m)) c := rfl

theorem hF7 (c : Dev nD) (w : Fin cfg7.W) : (dat7 (rd (V21 m (o7 m))) c).arrAt w cfg7.N = rd (V22 m (outs m)) c (Pipeline.arrRef spec7 w) :=
  Pipeline.arrAt_last _ launch7.win.arr_inj (V21 m (o7 m) c) _ (A_eq7 _ c) w <| match w with
  | ⟨0, _⟩ | ⟨1, _⟩ => .inr ⟨rfl, V22_of m (outs m) c _ (by decide +revert)⟩
  | ⟨2, _⟩ => .inl ((Function.update_of_ne (StableHlo.devRef_ne_of_ne (by decide +revert)) _ _).trans (Function.update_self _ _ _))
  | ⟨3, _⟩ => .inl (Function.update_self _ _ _)

theorem outval7_2 (c : Dev nD) : rd (V22 m (outs m)) c main_v183_0 = (dat7 (rd (V21 m (o7 m))) c).arrAt 2 cfg7.N := (hF7 m c 2).symm

theorem outval7_3 (c : Dev nD) : rd (V22 m (outs m)) c main_v183_1 = (dat7 (rd (V21 m (o7 m))) c).arrAt 3 cfg7.N := (hF7 m c 3).symm

def reg7 : Pipeline.RegionSeg (pcfgs (F := F)) adm (pdats m) () defs₀ 𝒱₀ L lv 7 :=
  .ofHeld cfgs (pdats m) defs₀ 𝒱₀ L lv 7 launch7 (V21 m (o7 m)) (V22 m (outs m)) (body_obligation7 _) (fun _ _ => rfl) (fun _ _ => rfl)
    (fun _ => rfl) (fun _ _ => rfl) (fun _ _ => rfl) (hF7 m) [main_v183_0, main_v183_1] (by decide) (V22_of m (outs m))

end Cert.KernelIdeal.Run

end
-- ==== Proof.KernelIdeal.Seg8.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry8 (c : Dev nD) : V23 m (outs m) c = (V23 m (o8 m)) c := rfl

theorem hF8 (c : Dev nD) (w : Fin cfg8.W) : (dat8 (rd (V23 m (o8 m))) c).arrAt w cfg8.N = rd (V24 m (outs m)) c (Pipeline.arrRef spec8 w) :=
  Pipeline.arrAt_last _ launch8.win.arr_inj (V23 m (o8 m) c) _ (A_eq8 _ c) w <| match w with
  | ⟨0, _⟩ | ⟨1, _⟩ | ⟨2, _⟩ | ⟨3, _⟩ | ⟨4, _⟩ | ⟨5, _⟩ => .inr ⟨rfl, V24_of m (outs m) c _ (by decide +revert)⟩
  | ⟨6, _⟩ => .inl (Function.update_self _ _ _)

theorem outval8_6 (c : Dev nD) : rd (V24 m (outs m)) c main_v190 = (dat8 (rd (V23 m (o8 m))) c).arrAt 6 cfg8.N := (hF8 m c 6).symm

def reg8 : Pipeline.RegionSeg (pcfgs (F := F)) adm (pdats m) () defs₀ 𝒱₀ L lv 8 :=
  .ofHeld cfgs (pdats m) defs₀ 𝒱₀ L lv 8 launch8 (V23 m (o8 m)) (V24 m (outs m)) (body_obligation8 _) (fun _ _ => rfl) (fun _ _ => rfl)
    (fun _ => rfl) (fun _ _ => rfl) (fun _ _ => rfl) (hF8 m) [main_v190] (by decide) (V24_of m (outs m))

end Cert.KernelIdeal.Run

end
-- ==== Proof.KernelIdeal.Seg9.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry9 (c : Dev nD) : V25 m (outs m) c = (V25 m (o9 m)) c := rfl

theorem hF9 (c : Dev nD) (w : Fin cfg9.W) : (dat9 (rd (V25 m (o9 m))) c).arrAt w cfg9.N = rd (V26 m (outs m)) c (Pipeline.arrRef spec9 w) :=
  Pipeline.arrAt_last _ launch9.win.arr_inj (V25 m (o9 m) c) _ (A_eq9 _ c) w <| match w with
  | ⟨0, _⟩ | ⟨1, _⟩ => .inr ⟨rfl, V26_of m (outs m) c _ (by decide +revert)⟩
  | ⟨2, _⟩ => .inl (Function.update_self _ _ _)

theorem outval9_2 (c : Dev nD) : rd (V26 m (outs m)) c main_v193 = (dat9 (rd (V25 m (o9 m))) c).arrAt 2 cfg9.N := (hF9 m c 2).symm

def reg9 : Pipeline.RegionSeg (pcfgs (F := F)) adm (pdats m) () defs₀ 𝒱₀ L lv 9 :=
  .ofHeld cfgs (pdats m) defs₀ 𝒱₀ L lv 9 launch9 (V25 m (o9 m)) (V26 m (outs m)) (body_obligation9 _) (fun _ _ => rfl) (fun _ _ => rfl)
    (fun _ => rfl) (fun _ _ => rfl) (fun _ _ => rfl) (hF9 m) [main_v193] (by decide) (V26_of m (outs m))

end Cert.KernelIdeal.Run

end
-- ==== Proof.KernelIdeal.Seg10.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry10 (c : Dev nD) : V29 m (outs m) c = (V29 m (o10 m)) c := rfl

theorem hF10 (c : Dev nD) (w : Fin cfg10.W) : (dat10 (rd (V29 m (o10 m))) c).arrAt w cfg10.N = rd (V30 m (outs m)) c (Pipeline.arrRef spec10 w) :=
  Pipeline.arrAt_last _ launch10.win.arr_inj (V29 m (o10 m) c) _ (A_eq10 _ c) w <| match w with
  | ⟨0, _⟩ | ⟨1, _⟩ => .inr ⟨rfl, V30_of m (outs m) c _ (by decide +revert)⟩
  | ⟨2, _⟩ => .inl ((Function.update_of_ne (StableHlo.devRef_ne_of_ne (by decide +revert)) _ _).trans (Function.update_self _ _ _))
  | ⟨3, _⟩ => .inl (Function.update_self _ _ _)

theorem outval10_2 (c : Dev nD) : rd (V30 m (outs m)) c main_v244_0 = (dat10 (rd (V29 m (o10 m))) c).arrAt 2 cfg10.N := (hF10 m c 2).symm

theorem outval10_3 (c : Dev nD) : rd (V30 m (outs m)) c main_v244_1 = (dat10 (rd (V29 m (o10 m))) c).arrAt 3 cfg10.N := (hF10 m c 3).symm

def reg10 : Pipeline.RegionSeg (pcfgs (F := F)) adm (pdats m) () defs₀ 𝒱₀ L lv 10 :=
  .ofHeld cfgs (pdats m) defs₀ 𝒱₀ L lv 10 launch10 (V29 m (o10 m)) (V30 m (outs m)) (body_obligation10 _) (fun _ _ => rfl) (fun _ _ => rfl)
    (fun _ => rfl) (fun _ _ => rfl) (fun _ _ => rfl) (hF10 m) [main_v244_0, main_v244_1] (by decide) (V30_of m (outs m))

end Cert.KernelIdeal.Run

end
-- ==== Proof.KernelIdeal.Seg11.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry11 (c : Dev nD) : V31 m (outs m) c = (V31 m (o11 m)) c := rfl

theorem hF11 (c : Dev nD) (w : Fin cfg11.W) : (dat11 (rd (V31 m (o11 m))) c).arrAt w cfg11.N = rd (V32 m (outs m)) c (Pipeline.arrRef spec11 w) :=
  Pipeline.arrAt_last _ launch11.win.arr_inj (V31 m (o11 m) c) _ (A_eq11 _ c) w <| match w with
  | ⟨0, _⟩ | ⟨1, _⟩ | ⟨2, _⟩ | ⟨3, _⟩ | ⟨4, _⟩ | ⟨5, _⟩ => .inr ⟨rfl, V32_of m (outs m) c _ (by decide +revert)⟩
  | ⟨6, _⟩ => .inl (Function.update_self _ _ _)

theorem outval11_6 (c : Dev nD) : rd (V32 m (outs m)) c main_v251 = (dat11 (rd (V31 m (o11 m))) c).arrAt 6 cfg11.N := (hF11 m c 6).symm

def reg11 : Pipeline.RegionSeg (pcfgs (F := F)) adm (pdats m) () defs₀ 𝒱₀ L lv 11 :=
  .ofHeld cfgs (pdats m) defs₀ 𝒱₀ L lv 11 launch11 (V31 m (o11 m)) (V32 m (outs m)) (body_obligation11 _) (fun _ _ => rfl) (fun _ _ => rfl)
    (fun _ => rfl) (fun _ _ => rfl) (fun _ _ => rfl) (hF11 m) [main_v251] (by decide) (V32_of m (outs m))

end Cert.KernelIdeal.Run

end
-- ==== Proof.KernelIdeal.Seg12.lean ====
import proofs.«169164_j46703474376898_1_alg».proof.Proof.KernelIdeal.SegsBase

noncomputable section

namespace Cert.KernelIdeal.Run

open Cert.KernelIdeal Cert.KernelIdeal.Gen Cert.KernelIdeal.Reg
open Idealize.ShloMosaic Idealize.ShloMosaic.TcCoe

variable {F : FTy → Type} [FloatOps F] (m : (ℓ : Loc nD τ sig) → Buf (Elt F) ℓ)

theorem entry12 (c : Dev nD) : V33 m (outs m) c = (V33 m (o12 m)) c := rfl

theorem hF12 (c : Dev nD) (w : Fin cfg12.W) : (dat12 (rd (V33 m (o12 m))) c).arrAt w cfg12.N = rd (V34 m (outs m)) c (Pipeline.arrRef spec12 w) :=
  Pipeline.arrAt_last _ launch12.win.arr_inj (V33 m (o12 m) c) _ (A_eq12 _ c) w <| match w with
  | ⟨0, _⟩ | ⟨1, _⟩ | ⟨2, _⟩ | ⟨3, _⟩ | ⟨4, _⟩ => .inr ⟨rfl, V34_of m (outs m) c _ (by decide +revert)⟩
  | ⟨5, _⟩ => .inl (Function.update_self _ _ _)

theorem outval12_5 (c : Dev nD) : rd (V34 m (outs m)) c main_v255 = (dat12 (rd (V33 m (o12 m))) c).arrAt 5 cfg12.N := (hF12 m c 5).symm

def reg12 : Pipeline.RegionSeg (pcfgs (F := F)) adm (pdats m) () defs₀ 𝒱₀ L lv 12 :=
  .ofHeld cfgs (pdats m) defs₀ 𝒱₀ L lv 12 launch12 (V33 m (o12 m)) (V34 m (outs m)) (body_obligation12 _) (fun _ _ => rfl) (fun _ _ => rfl)
    (fun _ => rfl) (fun _ _ => rfl) (fun _ _ => rfl) (hF12 m) [main_v255] (by decide) (V34_of m (outs m))

end Cert.KernelIdeal.Run

end
-- ==== Proof.KernelIdeal.Segs.lean ====
import proofs.«169164_j46703474376898_1_alg».proof.Proof.KernelIdeal.Seg0
import proofs.«169164_j46703474376898_1_alg».proof.Proof.KernelIdeal.Seg1
import proofs.«169164_j46703474376898_1_alg».proof.Proof.KernelIdeal.Seg2
import proofs.«169164_j46703474376898_1_alg».proof.Proof.KernelIdeal.Seg3
import proofs.«169164_j46703474376898_1_alg».proof.Proof.KernelIdeal.Seg4
import proofs.«169164_j46703474376898_1_alg».proof.Proof.KernelIdeal.Seg5
import proofs.«169164_j46703474376898_1_alg».proof.Proof.KernelIdeal.Seg6
import proofs.«169164_j46703474376898_1_alg».proof.Proof.KernelIdeal.Seg7
import proofs.«169164_j46703474376898_1_alg».proof.Proof.KernelIdeal.Seg8
import proofs.«169164_j46703474376898_1_alg».proof.Proof.KernelIdeal.Seg9
import proofs.«169164_j46703474376898_1_alg».proof.Proof.KernelIdeal.Seg10
import proofs.«169164_j46703474376898_1_alg».proof.Proof.KernelIdeal.Seg11
import proofs.«169164_j46703474376898_1_alg».proof.Proof.KernelIdeal.Seg12
-- ==== Proof.KernelIdeal.RunCond.lean ====
import proofs.«169164_j46703474376898_1_alg».proof.Proof.KernelIdeal.Regions

set_option maxRecDepth 2192

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V21 m outs c) ∗ E 7 c) ⊢ R7.pre c)
    (hpost7 : ∀ c : Dev nD, R7.post c ⊢ iprop(StableHlo.held (c : Thread nD τ) (Pipeline.ucRefs τ sig) (V22 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V25 m outs c) ∗ E 9 c) ⊢ R9.pre c)
    (hpost9 : ∀ c : Dev nD, R9.post c ⊢ iprop(StableHlo.held (c : Thread nD τ) (Pipeline.ucRefs τ sig) (V26 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V29 m outs c) ∗ E 10 c) ⊢ R10.pre c)
    (hpost10 : ∀ c : Dev nD, R10.post c ⊢ iprop(StableHlo.held (c : Thread nD τ) (Pipeline.ucRefs τ sig) (V30 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V31 m outs c) ∗ E 11 c) ⊢ R11.pre c)
    (hpost11 : ∀ c : Dev nD, R11.post c ⊢ iprop(StableHlo.held (c : Thread nD τ) (Pipeline.ucRefs τ sig) (V32 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V33 m outs c) ∗ E 12 c) ⊢ R12.pre c)
    (hpost12 : ∀ c : Dev nD, R12.post c ⊢ iprop(StableHlo.held (c : Thread nD τ) (Pipeline.ucRefs τ sig) (V34 m outs c) ∗ E 13 c)) :
    θ_run defs (onTc (τ := τ) (main (F := F))) ⟨m, fun _ => 0, ρ⟩ (fun r => ∀ c : Dev nD,
      r.2.mem ((c.tc : Thread nD τ).loc main_v255) = V34 m outs c main_v255
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          StableHlo.seq hostOps10_2,
          Prog.lift (.customCall (Pipeline.entry 10) ()),
          StableHlo.seq hostOps11,
          Prog.lift (.customCall (Pipeline.entry 11) ()),
          StableHlo.seq hostOps12,
          Prog.lift (.customCall (Pipeline.entry 12) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V34 m outs c))
    (hch := fun c => ⟨.rfl, hpre0 c, hpost0 c, .rfl, .rfl, hpre1 c, hpost1 c, hpre2 c, hpost2 c, hpre3 c, hpost3 c, .rfl, .rfl, hpre4 c, hpost4 c, hpre5 c, hpost5 c, hpre6 c, hpost6 c, .rfl, .rfl, hpre7 c, hpost7 c, hpre8 c, hpost8 c, hpre9 c, hpost9 c, .rfl, .rfl, hpre10 c, hpost10 c, hpre11 c, hpost11 c, hpre12 c, (hpost12 c).trans (sep_mono .rfl (hE13 c))⟩)
    (hinit := ?_) (QY := fun c s => s.mem ((c.tc : Thread nD τ).loc main_v255) = V34 m outs c main_v255 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V34 m outs c) s') $$ [Hh HSI]
    · isplitl [Hh] <;> iassumption
    icases Hr with ⟨%h, HSI⟩
    imodintro
    isplitr
    · ipureintro
      exact ⟨h (Proc.devRef .tc main_v255) (Finset.mem_filter.mpr ⟨StableHlo.devRef_mem_tcRefs main_v255, by decide⟩),
        (h (Proc.devRef .tc main_arg0) (Finset.mem_filter.mpr ⟨StableHlo.devRef_mem_tcRefs main_arg0, by decide⟩)).trans (V34_main_arg0 m outs c),
        (h (Proc.devRef .tc main_arg1) (Finset.mem_filter.mpr ⟨StableHlo.devRef_mem_tcRefs main_arg1, by decide⟩)).trans (V34_main_arg1 m outs c),
        (h (Proc.devRef .tc main_arg2) (Finset.mem_filter.mpr ⟨StableHlo.devRef_mem_tcRefs main_arg2, by decide⟩)).trans (V34_main_arg2 m outs c),
        (h (Proc.devRef .tc main_arg3) (Finset.mem_filter.mpr ⟨StableHlo.devRef_mem_tcRefs main_arg3, by decide⟩)).trans (V34_main_arg3 m outs c),
        (h (Proc.devRef .tc main_arg4) (Finset.mem_filter.mpr ⟨StableHlo.devRef_mem_tcRefs main_arg4, by decide⟩)).trans (V34_main_arg4 m outs c),
        (h (Proc.devRef .tc main_arg5) (Finset.mem_filter.mpr ⟨StableHlo.devRef_mem_tcRefs main_arg5, by decide⟩)).trans (V34_main_arg5 m outs c),
        (h (Proc.devRef .tc main_arg6) (Finset.mem_filter.mpr ⟨StableHlo.devRef_mem_tcRefs main_arg6, by decide⟩)).trans (V34_main_arg6 m outs c),
        (h (Proc.devRef .tc main_arg7) (Finset.mem_filter.mpr ⟨StableHlo.devRef_mem_tcRefs main_arg7, by decide⟩)).trans (V34_main_arg7 m outs c),
        (h (Proc.devRef .tc main_arg8) (Finset.mem_filter.mpr ⟨StableHlo.devRef_mem_tcRefs main_arg8, by decide⟩)).trans (V34_main_arg8 m outs c),
        (h (Proc.devRef .tc main_arg9) (Finset.mem_filter.mpr ⟨StableHlo.devRef_mem_tcRefs main_arg9, by decide⟩)).trans (V34_main_arg9 m outs c),
        (h (Proc.devRef .tc main_arg10) (Finset.mem_filter.mpr ⟨StableHlo.devRef_mem_tcRefs main_arg10, by decide⟩)).trans (V34_main_arg10 m outs c),
        (h (Proc.devRef .tc main_arg11) (Finset.mem_filter.mpr ⟨StableHlo.devRef_mem_tcRefs main_arg11, by decide⟩)).trans (V34_main_arg11 m outs c),
        (h (Proc.devRef .tc main_arg12) (Finset.mem_filter.mpr ⟨StableHlo.devRef_mem_tcRefs main_arg12, by decide⟩)).trans (V34_main_arg12 m outs c),
        (h (Proc.devRef .tc main_arg13) (Finset.mem_filter.mpr ⟨StableHlo.devRef_mem_tcRefs main_arg13, by decide⟩)).trans (V34_main_arg13 m outs c),
        (h (Proc.devRef .tc main_arg14) (Finset.mem_filter.mpr ⟨StableHlo.devRef_mem_tcRefs main_arg14, by decide⟩)).trans (V34_main_arg14 m outs c)⟩
    · iexact HSI

end Cert.KernelIdeal.Run

end
-- ==== Proof.KernelIdeal.Frame.lean ====
import proofs.«169164_j46703474376898_1_alg».proof.Proof.KernelIdeal.Segs
import proofs.«169164_j46703474376898_1_alg».proof.Proof.KernelIdeal.RunCond

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE13 (c : Dev nD) : R (F := F) c ⊢ (iprop(∃ W, owes (c : Thread nD τ) (0 : CellTallies nD τ sig Unit) W) : sProp 𝕄) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond m (EP := emb₁) () 𝒱₀ L lv (fun _ _ => rfl) ρ (outs m) (pdats m) 0 (fun _ => BI.emp)
    (initOf (Pipeline.cells cfgs cellOf_inj) (Pipeline.launchToks cfgs cellOf_inj)) hu₀ (fun _ c => R c) (hE0 ρ) hE13
    (reg0 m) (fun c => .rfl) (fun c => .rfl)
    (reg1 m) (fun c => by rw [entry1 m c]; exact .rfl) (fun c => .rfl)
    (reg2 m) (fun c => by rw [entry2 m c]; exact .rfl) (fun c => .rfl)
    (reg3 m) (fun c => by rw [entry3 m c]; exact .rfl) (fun c => .rfl)
    (reg4 m) (fun c => by rw [entry4 m c]; exact .rfl) (fun c => .rfl)
    (reg5 m) (fun c => by rw [entry5 m c]; exact .rfl) (fun c => .rfl)
    (reg6 m) (fun c => by rw [entry6 m c]; exact .rfl) (fun c => .rfl)
    (reg7 m) (fun c => by rw [entry7 m c]; exact .rfl) (fun c => .rfl)
    (reg8 m) (fun c => by rw [entry8 m c]; exact .rfl) (fun c => .rfl)
    (reg9 m) (fun c => by rw [entry9 m c]; exact .rfl) (fun c => .rfl)
    (reg10 m) (fun c => by rw [entry10 m c]; exact .rfl) (fun c => .rfl)
    (reg11 m) (fun c => by rw [entry11 m c]; exact .rfl) (fun c => .rfl)
    (reg12 m) (fun c => by rw [entry12 m c]; exact .rfl) (fun c => .rfl)

theorem valued : θ_run defs (onTc (τ := τ) (main (F := F))) ⟨m, fun _ => 0, ρ⟩ (fun r => ∀ c : Dev nD,
      r.2.mem ((c.tc : Thread nD τ).loc main_v255) = V34 m (outs m) c main_v255
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond m (EP := emb₁) () 𝒱₀ L lv (fun _ _ => rfl) ρ (outs m) (pdats m) 0 (fun _ => BI.emp)
    (initOf (Pipeline.cells cfgs cellOf_inj) (Pipeline.launchToks cfgs cellOf_inj)) hu₀ (fun _ c => R c) (hE0 ρ) hE13
    (reg0 m) (fun c => .rfl) (fun c => .rfl)
    (reg1 m) (fun c => by rw [entry1 m c]; exact .rfl) (fun c => .rfl)
    (reg2 m) (fun c => by rw [entry2 m c]; exact .rfl) (fun c => .rfl)
    (reg3 m) (fun c => by rw [entry3 m c]; exact .rfl) (fun c => .rfl)
    (reg4 m) (fun c => by rw [entry4 m c]; exact .rfl) (fun c => .rfl)
    (reg5 m) (fun c => by rw [entry5 m c]; exact .rfl) (fun c => .rfl)
    (reg6 m) (fun c => by rw [entry6 m c]; exact .rfl) (fun c => .rfl)
    (reg7 m) (fun c => by rw [entry7 m c]; exact .rfl) (fun c => .rfl)
    (reg8 m) (fun c => by rw [entry8 m c]; exact .rfl) (fun c => .rfl)
    (reg9 m) (fun c => by rw [entry9 m c]; exact .rfl) (fun c => .rfl)
    (reg10 m) (fun c => by rw [entry10 m c]; exact .rfl) (fun c => .rfl)
    (reg11 m) (fun c => by rw [entry11 m c]; exact .rfl) (fun c => .rfl)
    (reg12 m) (fun c => by rw [entry12 m c]; exact .rfl) (fun c => .rfl)

end Cert.KernelIdeal.Run

end
-- ==== Proof.KernelIdeal.ValAMat.lean ====
import proofs.«169164_j46703474376898_1_alg».proof.Proof.Gen.KernelIdeal.Skeleton
import Idealize.ShloMosaic.PureOps.Ideal.Laws
import Idealize.ShloMosaic.Lib.ValueLayout

noncomputable section

namespace Cert.KernelIdeal.Reg

open Cert.KernelIdeal Cert.KernelIdeal.Gen
open Idealize.ShloMosaic Idealize.ShloMosaic.ValueIdx
open scoped BigOperators

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

-- The contraction has one axis: its index set is re-indexed by that coordinate.
theorem matmul_zero_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  exact congrArg₂ (fun x y => a x * b y)
    (Shape.idx_ext₂ (lhs_mm_0 _ _) ((dot_S2000x128_S128x128_S2000x128_1_0_0_1_n_n.lhsIdx_val_of_single rfl _ _).trans hk))
    (Shape.idx_ext₂ ((dot_S2000x128_S128x128_S2000x128_1_0_0_1_n_n.rhsIdx_val_of_single rfl _ _).trans hk) (rhs_mm_1 _ _))

def rowProd (h : S50000x128.Idx → EReal) (W : S128x128.Idx → EReal) : S50000x128.Idx → EReal :=
  fun i => ∑ k : Fin 128, h (ix2 (i 0) k) * W (ix2 k (i 1))

theorem rowProd_apply (h : S50000x128.Idx → EReal) (W : S128x128.Idx → EReal) (r : Fin 50000) (q : Fin 128) :
    rowProd h W (ix2 r q) = ∑ k : Fin 128, h (ix2 r k) * W (ix2 k q) := rfl

theorem hz2 : (![0, 0] : Fin 2 → Nat) = fun _ => 0 := funext fun a => by fin_cases a <;> rfl

-- Every index of a shape lies in the rectangle at zero offsets whose sizes are the shape's.
theorem mem_unit_whole {S : Shape} {off size : Fin S.rank → Nat} {inb} (h : ∀ a, off a = 0 ∧ size a = S.size a) (i : S.Idx) :
    i ∈ (Rect.unit off size inb).set :=
  Rect.mem_set_unit.mpr fun a => by rw [(h a).1, (h a).2, Nat.zero_add]; exact ⟨Nat.zero_le _, (i a).isLt⟩

section Stats
variable (x : Vec Ideal S2000x128 .f32) (b s : Vec Ideal S1x128 .f32) (q : Fin 128)

-- The column sums, over a block's 2000 rows, of g (x + bias).
abbrev colSum (g : EReal → EReal) : EReal := ∑ r : Fin 2000, g (x (ix2 r q) + b (ix2 0 q))

theorem biased_at (r : Fin 2000) : k1_pay1 x b (ix2 r q) = x (ix2 r q) + b (ix2 0 q) := by
  simp only [k1_pay1, shapeCast_self, addf_apply, broadcastTo_1b_ab_apply]

theorem colsum_at (v : FVec Ideal S2000x128 .f32) :
    shapeCast S1x128 (multiReduction .add [0] S128 v 0x00000000#32 reduces_S2000x128_S128 (.inl rfl) rfl) shapeCasts_S128_S1x128 (ix2 0 q)
      = ∑ r : Fin 2000, v (ix2 r q) := by
  refine (shapeCast_addUnit_apply ![128] _ shapeCasts_S128_S1x128 (ix2 0 q)).trans ?_
  rw [show (fun a : Fin 1 => (ix2 (0 : Fin 1) q) a.succ) = ix1 q from funext fun a => by match a with | ⟨0, _⟩ => rfl]
  refine (Ideal.multiReduction_add_single v 0x00000000#32 reduces_S2000x128_S128 (.inl rfl) rfl (ix1 q)).trans ?_
  refine Finset.sum_congr rfl fun r _ => congrArg v ?_
  funext a; match a with | ⟨0, _⟩ => rfl | ⟨1, _⟩ => rfl

-- The four statistics payloads are one function of their blocks; stated at the first.
theorem statsBlock_at : k1_pay2 x b (ix2 0 q) = colSum x b q (fun z => z) ∧ k1_pay3 x b (ix2 0 q) = colSum x b q (fun z => z * z) :=
  ⟨(colsum_at q _).trans (Finset.sum_congr rfl fun r _ => biased_at x b q r),
   (colsum_at q _).trans (Finset.sum_congr rfl fun r _ => congrArg₂ (· * ·) (biased_at x b q r) (biased_at x b q r))⟩

theorem statsAcc_at : k1_pay4 x b s (ix2 0 q) = s (ix2 0 q) + colSum x b q (fun z => z) ∧ k1_pay5 x b s (ix2 0 q) = s (ix2 0 q) + colSum x b q (fun z => z * z) :=
  ⟨congrArg₂ (· + ·) (congrFun (shapeCast_self s _) _) (statsBlock_at x b q).1,
   congrArg₂ (· + ·) (congrFun (shapeCast_self s _) _) (statsBlock_at x b q).2⟩

end Stats

-- The normalised, scaled, shifted, rectified array of six arrays, in the body's own association.
def normRelu (a : Vec Ideal S50000x128 .f32) (b mean var g be : Vec Ideal S1x128 .f32) : Vec Ideal S50000x128 .f32 := fun i =>
  max ((((a i + b (ix2 0 (i 1))) - mean (ix2 0 (i 1))) * Ideal.rsqrt (var (ix2 0 (i 1)) + Ideal.ofBits .f32 0x3727C5AC#32)) * g (ix2 0 (i 1)) + be (ix2 0 (i 1)))
    (Ideal.ofBits .f32 0x00000000#32)

theorem rsqrt_apply {s : Shape} (x : FVec Ideal s .f32) (i : s.Idx) : rsqrt x i = Ideal.rsqrt (x i) := rfl

theorem scalarWord (w : BitVec 32) : Scalar.ofBits (F := Ideal) .f32 w = Ideal.ofBits .f32 w := rfl

-- The four normalising payloads are one function of their blocks; stated at the first.
theorem normPay_apply (x0 : Vec Ideal S2000x128 .f32) (xb xv xm xg xe : Vec Ideal S1x128 .f32) (p : Fin 2000) (q : Fin 128) :
    k2_pay1 x0 xb xv xm xg xe (ix2 p q)
      = max ((((x0 (ix2 p q) + xb (ix2 0 q)) - xm (ix2 0 q)) * Ideal.rsqrt (xv (ix2 0 q) + Ideal.ofBits .f32 0x3727C5AC#32)) * xg (ix2 0 q) + xe (ix2 0 q))
          (Ideal.ofBits .f32 0x00000000#32) := by
  simp only [k2_pay1, shapeCast_self, maximumf_apply, addf_apply, mulf_apply, subf_apply, broadcast_apply, broadcastTo_1b_ab_apply,
    rsqrt_apply, scalarWord]

end Cert.KernelIdeal.Reg
-- ==== Proof.KernelIdeal.ValA0.lean ====
import proofs.«169164_j46703474376898_1_alg».proof.Proof.KernelIdeal.RegA0
import proofs.«169164_j46703474376898_1_alg».proof.Proof.KernelIdeal.ValAMat
import Idealize.ShloMosaic.Lib.Pipeline.Value

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

section Body

theorem pay0_apply (x0 : Vec Ideal S2000x128 .f32) (x1 : Vec Ideal S128x128 .f32) (p : Fin 2000) (q : Fin 128) :
    out0_2 x0 x1 (ix2 p q) = ∑ k : Fin 128, x0 (ix2 p k) * x1 (ix2 k q) := by
  unfold out0_2
  rw [View.canon_unit_zero hz2]
  simp only [View.ld_unit_zero (S := S2000x128) hz2, View.ld_unit_zero (S := S128x128) hz2]
  unfold k0_pay1
  refine (matmul_zero_apply _ _ p q).trans (Finset.sum_congr rfl fun k _ => ?_)
  simp only [truncf_apply, shapeCast_self]

end Body

section Point
variable (V : (c : Dev nD) → (b : Ref sig .tc) → Buf (Elt Ideal) ((c : Thread nD τ).loc b)) (c : Dev nD)

abbrev act0 : S50000x128.Idx → EReal := V c (Pipeline.arrRef spec0 0)
abbrev wgt0 : S128x128.Idx → EReal := V c (Pipeline.arrRef spec0 1)

theorem idx0_facts : ∀ t : Fin cfg0.N, win0_0.index t (0 : Fin 2) = t.val ∧ win0_0.index t (1 : Fin 2) = 0
    ∧ win0_2.index t (0 : Fin 2) = t.val ∧ win0_2.index t (1 : Fin 2) = 0 ∧ ∀ a : Fin 2, win0_1.index t a = 0 :=
  (by decide +kernel : ∀ t : Fin grid0.N, _)

-- A block's element sits in its array, on each axis, at block index times block size plus its own coordinate.
theorem iblk0_0_apply (t : Fin cfg0.N) (x : S2000x128.Idx) (i : S50000x128.Idx)
    (h0 : (i 0).val = 2000 * t.val + (x 0).val) (h1 : (i 1).val = (x 1).val) :
    (iblk0 V c 0 t : Vec Ideal S2000x128 .f32) x = act0 V c i := by
  obtain ⟨e0, e1, -⟩ := idx0_facts t
  show act0 V c (((cfg0.win 0).blk t).view.emb x) = _
  refine congrArg _ (Shape.idx_ext₂ ?_ ?_)
  · show win0_0.index t (0 : Fin 2) * 2000 + 1 * (x 0).val = (i 0).val; omega
  · show win0_0.index t (1 : Fin 2) * 128 + 1 * (x 1).val = (i 1).val; omega

theorem iblk0_1_apply (t : Fin cfg0.N) : (iblk0 V c 1 t : Vec Ideal S128x128 .f32) = wgt0 V c :=
  funext fun x => congrArg (wgt0 V c) (funext fun a => Fin.ext (win0_1.rect_emb_val_of_index_zero t a ((idx0_facts t).2.2.2.2 a) x))

-- Block t of the result is block t of the row-by-row product of the two arrays.
theorem flushed0_eq (t : Fin cfg0.N) :
    (dat0 V c).flushed 2 t = ((cfg0.win 2).blk t).view.read (Elt Ideal) (rowProd (act0 V c) (wgt0 V c)) := by
  show (cfg0.win 2).cut (grid0.coords t) ((dat0 V c).after 2 t) = _
  rw [after0_2]
  obtain ⟨-, -, e4, e5, -⟩ := idx0_facts t
  funext j
  obtain ⟨p, q, rfl⟩ : ∃ (p : Fin 2000) (q : Fin 128), j = ix2 p q := ⟨j 0, j 1, eq_ix2 j⟩
  refine (pay0_apply _ _ p q).trans ?_
  show _ = rowProd (act0 V c) (wgt0 V c) (((cfg0.win 2).blk t).view.emb (ix2 p q))
  rw [iblk0_1_apply]
  have hE0 : ((((cfg0.win 2).blk t).view.emb (ix2 p q) : S50000x128.Idx) 0).val = 2000 * t.val + p.val := by
    show win0_2.index t (0 : Fin 2) * 2000 + 1 * p.val = _; omega
  have hE1 : ((((cfg0.win 2).blk t).view.emb (ix2 p q) : S50000x128.Idx) 1).val = q.val := by
    show win0_2.index t (1 : Fin 2) * 128 + 1 * q.val = _; omega
  unfold rowProd
  exact Finset.sum_congr rfl fun k _ => congrArg₂ (· * ·) (iblk0_0_apply V c t (ix2 p k) _ hE0 rfl) (congrArg (wgt0 V c) (Shape.idx_ext₂ rfl hE1.symm))

-- Row r lies in the block of point r / 2000.
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, e4, e5, -⟩ := idx0_facts t
  refine ⟨t, flush0_2 t, ?_⟩
  show i ∈ ((View.whole (Pipeline.arrRef spec0 2)).slice (win0_2.rect t)).set
  rw [View.set_slice_whole, Rect.mem_set_unit]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

theorem final0 : (dat0 V c).arrAt 2 cfg0.N = rowProd (act0 V c) (wgt0 V c) :=
  (dat0 V c).arrAt_eq_of_cover 2 _ (fun t _ => flushed0_eq V c t) cover0

end Point

end Cert.KernelIdeal.Reg
-- ==== Proof.LibReal.lean ====
import Idealize.ShloMosaic.PureOps.Ideal
import Mathlib.Data.EReal.Inv
import Mathlib.Algebra.BigOperators.Group.Finset.Basic

noncomputable section

open scoped BigOperators

namespace Cert.LibReal

open Idealize.ShloMosaic

def IsReal (x : EReal) : Prop := ∃ r : ℝ, x = (r : EReal)

def AllReal {ι : Sort*} (v : ι → EReal) : Prop := ∀ i, IsReal (v i)

theorem isReal_coe (r : ℝ) : IsReal (r : EReal) := ⟨r, rfl⟩

theorem isReal_zero : IsReal 0 := ⟨0, rfl⟩

theorem isReal_one : IsReal 1 := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_iff {x : EReal} : IsReal x ↔ x ≠ ⊤ ∧ x ≠ ⊥ := by
  constructor
  · exact fun h => ⟨h.ne_top, h.ne_bot⟩
  · rintro ⟨ht, hb⟩
    exact ⟨x.toReal, (EReal.coe_toReal ht hb).symm⟩

theorem IsReal.coe_toReal {x : EReal} (h : IsReal x) : ((x.toReal : ℝ) : EReal) = x :=
  EReal.coe_toReal h.ne_top h.ne_bot

theorem allReal_coe {ι : Sort*} (r : ι → ℝ) : AllReal (fun i => (r i : EReal)) := fun i => isReal_coe (r i)

theorem AllReal.eq_coe {ι : Sort*} {v : ι → EReal} (h : AllReal v) : v = fun i => (((v i).toReal : ℝ) : EReal) :=
  funext fun i => ((h i).coe_toReal).symm

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.nonneg_add_pos {x y : EReal} (hx : IsReal x) (hy : IsReal y) (h0 : 0 ≤ x) (h1 : 0 < y) :
    0 < x + y := by
  obtain ⟨a, rfl⟩ := hx; obtain ⟨b, rfl⟩ := hy
  rw [← EReal.coe_add]
  exact EReal.coe_pos.mpr (_root_.add_pos_of_nonneg_of_pos (EReal.coe_nonneg.mp h0) (EReal.coe_pos.mp h1))

theorem coe_finset_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem finset_sum_eq_coe {ι : Type*} (s : Finset ι) (f : ι → EReal) (h : ∀ i ∈ s, IsReal (f i)) :
    ∑ i ∈ s, f i = ((∑ i ∈ s, (f i).toReal : ℝ) : EReal) := by
  rw [← coe_finset_sum]
  exact Finset.sum_congr rfl fun i hi => ((h i hi).coe_toReal).symm

theorem AllReal.isReal_sum {ι : Type*} [Fintype ι] {f : ι → EReal} (h : AllReal f) : IsReal (∑ i, f i) :=
  isReal_finset_sum _ f fun i _ => h i

theorem div_coe_coe (x : ℝ) {y : ℝ} (hy : y ≠ 0) : Ideal.div (x : EReal) (y : EReal) = ((x / y : ℝ) : EReal) := by
  rw [Ideal.div_coe hy, ← EReal.coe_mul, mul_one_div]

theorem IsReal.div_coe {x : EReal} (hx : IsReal x) {y : ℝ} (hy : y ≠ 0) : IsReal (Ideal.div x (y : EReal)) := by
  obtain ⟨a, rfl⟩ := hx
  exact ⟨a / y, div_coe_coe a hy⟩

theorem IsReal.div {x y : EReal} (hx : IsReal x) (hy : IsReal y) (hy0 : y ≠ 0) : IsReal (Ideal.div x y) := by
  obtain ⟨b, rfl⟩ := hy
  exact hx.div_coe (EReal.coe_ne_zero.mp hy0)

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_coe {r : ℝ} (hr : 0 < r) : IsReal (Ideal.rsqrt (r : EReal)) :=
  ⟨(Real.sqrt r)⁻¹, rsqrt_coe_pos hr⟩

theorem IsReal.rsqrt {x : EReal} (hx : IsReal x) (hpos : 0 < x) : IsReal (Ideal.rsqrt x) := by
  obtain ⟨r, rfl⟩ := hx
  exact isReal_rsqrt_coe (EReal.coe_pos.mp hpos)

theorem rsqrt_coe_pos_pos {r : ℝ} (hr : 0 < r) : (0 : EReal) < Ideal.rsqrt (r : EReal) := by
  rw [rsqrt_coe_pos hr]
  exact EReal.coe_pos.mpr (inv_pos.mpr (Real.sqrt_pos.mpr hr))

theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem max_coe_zero (a : ℝ) : max (a : EReal) 0 = ((max a 0 : ℝ) : EReal) := by
  rw [← EReal.coe_zero, max_coe_coe]

theorem max_zero_coe (a : ℝ) : max 0 (a : EReal) = ((max 0 a : ℝ) : EReal) := by
  rw [← EReal.coe_zero, max_coe_coe]

theorem isReal_max {x y : EReal} (hx : IsReal x) (hy : IsReal y) : IsReal (max x y) := by
  obtain ⟨a, rfl⟩ := hx; obtain ⟨b, rfl⟩ := hy
  exact ⟨_, max_coe_coe a b⟩

theorem isReal_max_zero {x : EReal} (hx : IsReal x) : IsReal (max x 0) := isReal_max hx isReal_zero

theorem isReal_zero_max {x : EReal} (hx : IsReal x) : IsReal (max 0 x) := isReal_max isReal_zero hx

theorem max_zero_nonneg (x : EReal) : 0 ≤ max x 0 := le_max_right x 0

theorem IsReal.exp {x : EReal} (hx : IsReal x) : IsReal (Ideal.exp x) := by
  obtain ⟨r, rfl⟩ := hx
  exact ⟨Real.exp r, Ideal.exp_coe r⟩

theorem exp_coe_pos (r : ℝ) : (0 : EReal) < Ideal.exp (r : EReal) := by
  rw [Ideal.exp_coe]; exact EReal.coe_pos.mpr (Real.exp_pos r)

theorem IsReal.logistic {x : EReal} (hx : IsReal x) : IsReal (Ideal.logistic x) := by
  obtain ⟨r, rfl⟩ := hx
  exact ⟨(1 + Real.exp (-r))⁻¹, Ideal.logistic_coe r⟩

theorem logistic_coe_mem (r : ℝ) : (0 : EReal) < Ideal.logistic (r : EReal) ∧ Ideal.logistic (r : EReal) < 1 := by
  have hpos : (0 : ℝ) < Real.exp (-r) := Real.exp_pos _
  rw [Ideal.logistic_coe]
  refine ⟨EReal.coe_pos.mpr (inv_pos.mpr (by linarith)), ?_⟩
  rw [← EReal.coe_one, EReal.coe_lt_coe_iff]
  exact inv_lt_one_of_one_lt₀ (by linarith)

theorem isReal_ite {c : Prop} [Decidable c] {x y : EReal} (hx : IsReal x) (hy : IsReal y) :
    IsReal (if c then x else y) := by
  split
  · exact hx
  · exact hy

theorem isReal_dite {c : Prop} [Decidable c] {x y : EReal} (hx : c → IsReal x) (hy : ¬c → IsReal y) :
    IsReal (if c then x else y) := by
  split
  · exact hx ‹_›
  · exact hy ‹_›

theorem isReal_cond {c : Bool} {x y : EReal} (hx : IsReal x) (hy : IsReal y) : IsReal (bif c then x else y) := by
  cases c
  · exact hy
  · exact hx

end Cert.LibReal

end
-- ==== Proof.LibBatchNorm.lean ====
import proofs.«169164_j46703474376898_1_alg».proof.Proof.LibReal
import Mathlib.Algebra.BigOperators.Fin
import Mathlib.Data.Fintype.BigOperators
import Mathlib.Logic.Equiv.Fin.Basic
import Mathlib.Tactic.Ring
import Mathlib.Tactic.FieldSimp
import Mathlib.Tactic.Linarith

noncomputable section

open scoped BigOperators

namespace Cert.LibBatchNorm

open Idealize.ShloMosaic Cert.LibReal

theorem var_two_forms_real {ι : Type*} (s : Finset ι) (x : ι → ℝ) (c : ℝ) (hc : c = (s.card : ℝ)) (hpos : 0 < c) :
    (∑ i ∈ s, (x i - (∑ j ∈ s, x j) / c) ^ 2) / c = (∑ i ∈ s, x i ^ 2) / c - ((∑ i ∈ s, x i) / c) ^ 2 := by
  have hc0 : c ≠ 0 := hpos.ne'
  have h1 : ∑ i ∈ s, (x i - (∑ j ∈ s, x j) / c) ^ 2
      = (∑ i ∈ s, x i ^ 2) - 2 * ((∑ j ∈ s, x j) / c) * (∑ i ∈ s, x i) + c * ((∑ j ∈ s, x j) / c) ^ 2 := by
    have h2 : ∀ i, (x i - (∑ j ∈ s, x j) / c) ^ 2
        = x i ^ 2 - 2 * ((∑ j ∈ s, x j) / c) * x i + ((∑ j ∈ s, x j) / c) ^ 2 := fun i => by ring
    simp only [h2]
    rw [Finset.sum_add_distrib, Finset.sum_sub_distrib, ← Finset.mul_sum, Finset.sum_const, nsmul_eq_mul, hc]
  rw [h1]
  field_simp
  ring

theorem var_two_forms_real_mul {ι : Type*} (s : Finset ι) (x : ι → ℝ) (c : ℝ) (hc : c = (s.card : ℝ)) (hpos : 0 < c) :
    (∑ i ∈ s, (x i - (∑ j ∈ s, x j) / c) * (x i - (∑ j ∈ s, x j) / c)) / c
      = (∑ i ∈ s, x i * x i) / c - (∑ i ∈ s, x i) / c * ((∑ i ∈ s, x i) / c) := by
  have h := var_two_forms_real s x c hc hpos
  simp only [sq] at h
  exact h

theorem var_centered_nonneg_real {ι : Type*} (s : Finset ι) (x : ι → ℝ) (m c : ℝ) (hpos : 0 < c) :
    0 ≤ (∑ i ∈ s, (x i - m) * (x i - m)) / c :=
  div_nonneg (Finset.sum_nonneg fun i _ => mul_self_nonneg _) hpos.le

theorem var_two_forms_real_univ {ι : Type*} [Fintype ι] (x : ι → ℝ) (c : ℝ) (hc : c = (Fintype.card ι : ℝ))
    (hpos : 0 < c) :
    (∑ i, (x i - (∑ j, x j) / c) ^ 2) / c = (∑ i, x i ^ 2) / c - ((∑ i, x i) / c) ^ 2 :=
  var_two_forms_real Finset.univ x c (by rw [hc, Finset.card_univ]) hpos

theorem mean_coe {ι : Type*} (s : Finset ι) (r : ι → ℝ) {c : ℝ} (hc0 : c ≠ 0) :
    Ideal.div (∑ i ∈ s, (r i : EReal)) (c : EReal) = (((∑ i ∈ s, r i) / c : ℝ) : EReal) := by
  rw [coe_finset_sum, div_coe_coe _ hc0]

theorem var_centered_coe {ι : Type*} (s : Finset ι) (r : ι → ℝ) {c : ℝ} (hc0 : c ≠ 0) :
    Ideal.div (∑ i ∈ s, ((r i : EReal) - Ideal.div (∑ j ∈ s, (r j : EReal)) (c : EReal))
        * ((r i : EReal) - Ideal.div (∑ j ∈ s, (r j : EReal)) (c : EReal))) (c : EReal)
      = (((∑ i ∈ s, (r i - (∑ j ∈ s, r j) / c) * (r i - (∑ j ∈ s, r j) / c)) / c : ℝ) : EReal) := by
  rw [mean_coe s r hc0]
  simp only [← EReal.coe_sub, ← EReal.coe_mul]
  rw [coe_finset_sum, div_coe_coe _ hc0]

theorem var_moment_coe {ι : Type*} (s : Finset ι) (r : ι → ℝ) {c : ℝ} (hc0 : c ≠ 0) :
    Ideal.div (∑ i ∈ s, (r i : EReal) * (r i : EReal)) (c : EReal)
        - Ideal.div (∑ i ∈ s, (r i : EReal)) (c : EReal) * Ideal.div (∑ i ∈ s, (r i : EReal)) (c : EReal)
      = (((∑ i ∈ s, r i * r i) / c - (∑ i ∈ s, r i) / c * ((∑ i ∈ s, r i) / c) : ℝ) : EReal) := by
  rw [mean_coe s r hc0]
  simp only [← EReal.coe_mul]
  rw [coe_finset_sum, div_coe_coe _ hc0, ← EReal.coe_sub]

theorem var_exists_real {ι : Type*} (s : Finset ι) (x : ι → EReal) (hx : AllReal x) (c : ℝ)
    (hc : c = (s.card : ℝ)) (hpos : 0 < c) :
    ∃ v : ℝ, 0 ≤ v
      ∧ Ideal.div (∑ i ∈ s, (x i - Ideal.div (∑ j ∈ s, x j) (c : EReal))
            * (x i - Ideal.div (∑ j ∈ s, x j) (c : EReal))) (c : EReal) = (v : EReal)
      ∧ Ideal.div (∑ i ∈ s, x i * x i) (c : EReal)
            - Ideal.div (∑ i ∈ s, x i) (c : EReal) * Ideal.div (∑ i ∈ s, x i) (c : EReal) = (v : EReal) := by
  choose r hr using hx
  obtain rfl : x = fun i => (r i : EReal) := funext hr
  have hc0 : c ≠ 0 := hpos.ne'
  refine ⟨(∑ i ∈ s, (r i - (∑ j ∈ s, r j) / c) * (r i - (∑ j ∈ s, r j) / c)) / c,
    var_centered_nonneg_real s r _ c hpos, var_centered_coe s r hc0, ?_⟩
  rw [var_moment_coe s r hc0, var_two_forms_real_mul s r c hc hpos]

theorem var_two_forms {ι : Type*} (s : Finset ι) (x : ι → EReal) (hx : AllReal x) (c : ℝ)
    (hc : c = (s.card : ℝ)) (hpos : 0 < c) :
    Ideal.div (∑ i ∈ s, (x i - Ideal.div (∑ j ∈ s, x j) (c : EReal))
        * (x i - Ideal.div (∑ j ∈ s, x j) (c : EReal))) (c : EReal)
      = Ideal.div (∑ i ∈ s, x i * x i) (c : EReal)
        - Ideal.div (∑ i ∈ s, x i) (c : EReal) * Ideal.div (∑ i ∈ s, x i) (c : EReal) := by
  obtain ⟨v, _, h1, h2⟩ := var_exists_real s x hx c hc hpos
  rw [h1, h2]

theorem isReal_var_centered {ι : Type*} (s : Finset ι) (x : ι → EReal) (hx : AllReal x) (c : ℝ)
    (hc : c = (s.card : ℝ)) (hpos : 0 < c) :
    IsReal (Ideal.div (∑ i ∈ s, (x i - Ideal.div (∑ j ∈ s, x j) (c : EReal))
        * (x i - Ideal.div (∑ j ∈ s, x j) (c : EReal))) (c : EReal)) := by
  obtain ⟨v, _, h1, _⟩ := var_exists_real s x hx c hc hpos
  exact ⟨v, h1⟩

theorem var_centered_nonneg {ι : Type*} (s : Finset ι) (x : ι → EReal) (hx : AllReal x) (c : ℝ)
    (hc : c = (s.card : ℝ)) (hpos : 0 < c) :
    0 ≤ Ideal.div (∑ i ∈ s, (x i - Ideal.div (∑ j ∈ s, x j) (c : EReal))
        * (x i - Ideal.div (∑ j ∈ s, x j) (c : EReal))) (c : EReal) := by
  obtain ⟨v, hv, h1, _⟩ := var_exists_real s x hx c hc hpos
  rw [h1]
  exact EReal.coe_nonneg.mpr hv

theorem isReal_var_moment {ι : Type*} (s : Finset ι) (x : ι → EReal) (hx : AllReal x) (c : ℝ)
    (hc : c = (s.card : ℝ)) (hpos : 0 < c) :
    IsReal (Ideal.div (∑ i ∈ s, x i * x i) (c : EReal)
        - Ideal.div (∑ i ∈ s, x i) (c : EReal) * Ideal.div (∑ i ∈ s, x i) (c : EReal)) := by
  obtain ⟨v, _, _, h2⟩ := var_exists_real s x hx c hc hpos
  exact ⟨v, h2⟩

theorem var_moment_nonneg {ι : Type*} (s : Finset ι) (x : ι → EReal) (hx : AllReal x) (c : ℝ)
    (hc : c = (s.card : ℝ)) (hpos : 0 < c) :
    0 ≤ Ideal.div (∑ i ∈ s, x i * x i) (c : EReal)
        - Ideal.div (∑ i ∈ s, x i) (c : EReal) * Ideal.div (∑ i ∈ s, x i) (c : EReal) := by
  obtain ⟨v, hv, _, h2⟩ := var_exists_real s x hx c hc hpos
  rw [h2]
  exact EReal.coe_nonneg.mpr hv

theorem isReal_mean {ι : Type*} (s : Finset ι) (x : ι → EReal) (hx : AllReal x) {c : ℝ} (hc0 : c ≠ 0) :
    IsReal (Ideal.div (∑ i ∈ s, x i) (c : EReal)) :=
  (isReal_finset_sum s x fun i _ => hx i).div_coe hc0

theorem var_two_forms_univ {ι : Type*} [Fintype ι] (x : ι → EReal) (hx : AllReal x) (n : ℕ)
    (hn : Fintype.card ι = n) (hpos : 0 < n) :
    Ideal.div (∑ i, (x i - Ideal.div (∑ j, x j) ((n : ℝ) : EReal))
          * (x i - Ideal.div (∑ j, x j) ((n : ℝ) : EReal))) ((n : ℝ) : EReal)
        = Ideal.div (∑ i, x i * x i) ((n : ℝ) : EReal)
          - Ideal.div (∑ i, x i) ((n : ℝ) : EReal) * Ideal.div (∑ i, x i) ((n : ℝ) : EReal)
      ∧ IsReal (Ideal.div (∑ i, (x i - Ideal.div (∑ j, x j) ((n : ℝ) : EReal))
          * (x i - Ideal.div (∑ j, x j) ((n : ℝ) : EReal))) ((n : ℝ) : EReal))
      ∧ 0 ≤ Ideal.div (∑ i, (x i - Ideal.div (∑ j, x j) ((n : ℝ) : EReal))
          * (x i - Ideal.div (∑ j, x j) ((n : ℝ) : EReal))) ((n : ℝ) : EReal) := by
  have hc : (n : ℝ) = ((Finset.univ : Finset ι).card : ℝ) := by rw [Finset.card_univ, hn]
  have hp : (0 : ℝ) < (n : ℝ) := Nat.cast_pos.mpr hpos
  exact ⟨var_two_forms Finset.univ x hx n hc hp, isReal_var_centered Finset.univ x hx n hc hp,
    var_centered_nonneg Finset.univ x hx n hc hp⟩

theorem blockIdx_lt {a b t r : ℕ} (ht : t < a) (hr : r < b) : t * b + r < a * b :=
  calc t * b + r < t * b + b := Nat.add_lt_add_left hr _
    _ = (t + 1) * b := (Nat.succ_mul t b).symm
    _ ≤ a * b := Nat.mul_le_mul_right b ht

theorem sum_range_mul {M : Type*} [AddCommMonoid M] (f : ℕ → M) (a b : ℕ) :
    ∑ i ∈ Finset.range (a * b), f i = ∑ t ∈ Finset.range a, ∑ r ∈ Finset.range b, f (t * b + r) := by
  induction a with
  | zero => simp
  | succ a ih => rw [Nat.succ_mul, Finset.sum_range_add, ih, Finset.sum_range_succ]

theorem sum_fin_mul {M : Type*} [AddCommMonoid M] {a b : ℕ} (f : Fin (a * b) → M) :
    ∑ i, f i = ∑ t : Fin a, ∑ r : Fin b, f ⟨t.val * b + r.val, blockIdx_lt t.isLt r.isLt⟩ := by
  rw [← Equiv.sum_comp finProdFinEquiv f, Fintype.sum_prod_type]
  refine Finset.sum_congr rfl fun t _ => Finset.sum_congr rfl fun r _ => ?_
  congr 1
  apply Fin.ext
  simp only [finProdFinEquiv_apply_val]
  rw [Nat.mul_comm, Nat.add_comm]

theorem sum_prod {M : Type*} [AddCommMonoid M] {ι κ : Type*} [Fintype ι] [Fintype κ] (f : ι × κ → M) :
    ∑ p, f p = ∑ i, ∑ k, f (i, k) :=
  Fintype.sum_prod_type f

theorem foldl_add_eq_sum {M : Type*} [AddCommMonoid M] (s : ℕ → M) (z : M) (a : ℕ) :
    (List.range a).foldl (fun acc t => acc + s t) z = z + ∑ t ∈ Finset.range a, s t := by
  induction a with
  | zero => simp
  | succ a ih =>
    rw [List.range_succ, List.foldl_append, ih, Finset.sum_range_succ, List.foldl_cons, List.foldl_nil, add_assoc]

theorem foldl_add_zero_eq_sum {M : Type*} [AddCommMonoid M] (s : ℕ → M) (a : ℕ) :
    (List.range a).foldl (fun acc t => acc + s t) 0 = ∑ t ∈ Finset.range a, s t := by
  rw [foldl_add_eq_sum, zero_add]

theorem sum_range_mul_eq_foldl {M : Type*} [AddCommMonoid M] (f : ℕ → M) (a b : ℕ) :
    ∑ i ∈ Finset.range (a * b), f i
      = (List.range a).foldl (fun acc t => acc + ∑ r ∈ Finset.range b, f (t * b + r)) 0 := by
  rw [foldl_add_zero_eq_sum, sum_range_mul]

theorem acc_from_eq_sum {M : Type*} [AddCommMonoid M] (s acc : ℕ → M) (z : M) (a : ℕ) (h0 : acc 0 = z)
    (hs : ∀ t, t < a → acc (t + 1) = acc t + s t) (n : ℕ) (hn : n ≤ a) :
    acc n = z + ∑ t ∈ Finset.range n, s t := by
  induction n with
  | zero => simp [h0]
  | succ n ih => rw [hs n hn, ih (Nat.le_of_succ_le hn), Finset.sum_range_succ, add_assoc]

theorem acc_eq_sum {M : Type*} [AddCommMonoid M] (s acc : ℕ → M) (a : ℕ) (h0 : acc 0 = s 0)
    (hs : ∀ t, t + 1 < a → acc (t + 1) = acc t + s (t + 1)) (n : ℕ) (hn : n < a) :
    acc n = ∑ t ∈ Finset.range (n + 1), s t := by
  induction n with
  | zero => simp [h0]
  | succ n ih => rw [hs n hn, ih (Nat.lt_of_succ_lt hn), Finset.sum_range_succ _ (n + 1)]

theorem acc_last_eq_sum {M : Type*} [AddCommMonoid M] (s acc : ℕ → M) (a : ℕ) (ha : 0 < a) (h0 : acc 0 = s 0)
    (hs : ∀ t, t + 1 < a → acc (t + 1) = acc t + s (t + 1)) :
    acc (a - 1) = ∑ t ∈ Finset.range a, s t := by
  rw [acc_eq_sum s acc a h0 hs (a - 1) (Nat.sub_lt ha Nat.one_pos), Nat.sub_add_cancel ha]

theorem acc_last_eq_sum_range_mul {M : Type*} [AddCommMonoid M] (f : ℕ → M) (acc : ℕ → M) (a b : ℕ) (ha : 0 < a)
    (h0 : acc 0 = ∑ r ∈ Finset.range b, f (0 * b + r))
    (hs : ∀ t, t + 1 < a → acc (t + 1) = acc t + ∑ r ∈ Finset.range b, f ((t + 1) * b + r)) :
    acc (a - 1) = ∑ i ∈ Finset.range (a * b), f i := by
  rw [sum_range_mul]
  exact acc_last_eq_sum (fun t => ∑ r ∈ Finset.range b, f (t * b + r)) acc a ha h0 hs

theorem sum_fin_eq_blocks {M : Type*} [AddCommMonoid M] {n a b : ℕ} (h : n = a * b) (f : Fin n → M) :
    ∑ i, f i = ∑ t : Fin a, ∑ r : Fin b, f ⟨t.val * b + r.val, h ▸ blockIdx_lt t.isLt r.isLt⟩ := by
  subst h
  exact sum_fin_mul f

theorem acc_fin_last_eq_sum {M : Type*} [AddCommMonoid M] {a : ℕ} (s acc : Fin a → M) (ha : 0 < a)
    (h0 : acc ⟨0, ha⟩ = s ⟨0, ha⟩)
    (hs : ∀ (t : ℕ) (h : t + 1 < a), acc ⟨t + 1, h⟩ = acc ⟨t, Nat.lt_of_succ_lt h⟩ + s ⟨t + 1, h⟩) :
    acc ⟨a - 1, Nat.sub_lt ha Nat.one_pos⟩ = ∑ t, s t := by
  have key : ∀ (n : ℕ) (hn : n < a),
      acc ⟨n, hn⟩ = ∑ t ∈ Finset.range (n + 1), if h : t < a then s ⟨t, h⟩ else 0 := by
    intro n
    induction n with
    | zero => intro hn; simp [h0, ha]
    | succ n ih =>
      intro hn
      rw [hs n hn, ih (Nat.lt_of_succ_lt hn), Finset.sum_range_succ _ (n + 1), dif_pos hn]
  rw [key (a - 1) (Nat.sub_lt ha Nat.one_pos), Nat.sub_add_cancel ha, Finset.sum_fin_eq_sum_range]

end Cert.LibBatchNorm

end
-- ==== Proof.KernelIdeal.ValS1.lean ====
import proofs.«169164_j46703474376898_1_alg».proof.Proof.KernelIdeal.RegS1
import proofs.«169164_j46703474376898_1_alg».proof.Proof.KernelIdeal.ValAMat
import proofs.«169164_j46703474376898_1_alg».proof.Proof.LibBatchNorm
import Idealize.ShloMosaic.Lib.Pipeline.Value
import Idealize.ShloMosaic.Lib.Tactic

noncomputable section

open scoped BigOperators

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Body
variable {F : FTy → Type} [FloatOps F] {c : Dev nD} {i : grid1.Coords}
  {a1 : Memref sig .tc .vmem S2000x128 .f32} {h1 : a1.IsWhole} {a2 : Memref sig .tc .vmem S1x128 .f32} {h2 : a2.IsWhole}
  {a3 : Memref sig .tc .vmem S1x128 .f32} {h3 : a3.IsWhole} {a4 : Memref sig .tc .vmem S1x128 .f32} {h4 : a4.IsWhole}
  {x : Vec F S2000x128 .f32} {b s s' : Vec F S1x128 .f32}

theorem statsOut_A_eq {hc0 : cond1_0 i} {hc1 : ¬cond1_1 i} :
    out1_A_2 c i a1 h1 a2 h2 a3 h3 a4 h4 hc0 hc1 x b = k1_pay2 x b ∧ out1_A_3 c i a1 h1 a2 h2 a3 h3 a4 h4 hc0 hc1 x b = k1_pay3 x b := by
  constructor
  on_goal 1 => unfold out1_A_2; rw [View.read_writes_eq_canon _ _ _ (cover1_A_2 c i a1 h1 a2 h2 a3 h3 a4 h4 hc0 hc1 x b)]
  on_goal 2 => unfold out1_A_3; rw [View.read_writes_eq_canon _ _ _ (cover1_A_3 c i a1 h1 a2 h2 a3 h3 a4 h4 hc0 hc1 x b)]
  all_goals
    unfold kernelRun1_A
    dsimp only
    sl_unfold_words
    rw [View.canon_unit_zero hz2]
    simp only [View.readAt_eq_ld, h1.read_unread, h2.read_unread, View.ld_unit_zero (S := S2000x128) hz2, View.ld_unit_zero (S := S1x128) hz2]

theorem statsOut_B_eq {hc0 : ¬cond1_0 i} {hc1 : cond1_1 i} :
    out1_B_2 c i a1 h1 a2 h2 a3 h3 a4 h4 hc0 hc1 x b s s' = k1_pay4 x b s ∧ out1_B_3 c i a1 h1 a2 h2 a3 h3 a4 h4 hc0 hc1 x b s s' = k1_pay5 x b s' := by
  constructor
  on_goal 1 => unfold out1_B_2; rw [View.read_writes_eq_canon _ _ _ (cover1_B_2 c i a1 h1 a2 h2 a3 h3 a4 h4 hc0 hc1 x b s s')]
  on_goal 2 => unfold out1_B_3; rw [View.read_writes_eq_canon _ _ _ (cover1_B_3 c i a1 h1 a2 h2 a3 h3 a4 h4 hc0 hc1 x b s s')]
  all_goals
    unfold kernelRun1_B
    dsimp only
    sl_unfold_words
    rw [View.canon_unit_zero hz2]
    simp only [View.readAt_eq_ld, h1.read_unread, h2.read_unread, h3.read_unread, h4.read_unread, View.ld_unit_zero (S := S2000x128) hz2, View.ld_unit_zero (S := S1x128) hz2]

end Body

section Point
variable (V : (c : Dev nD) → (b : Ref sig .tc) → Buf (Elt Ideal) ((c : Thread nD τ).loc b)) (c : Dev nD) (q : Fin 128)

abbrev xarr_r1 : Vec Ideal S50000x128 .f32 := V c (Pipeline.arrRef spec1 0)
abbrev brow_r1 : Vec Ideal S1x128 .f32 := V c (Pipeline.arrRef spec1 1)
abbrev xblk_r1 (t : Fin cfg1.N) : Vec Ideal S2000x128 .f32 := iblk1 V c 0 t
abbrev bblk_r1 (t : Fin cfg1.N) : Vec Ideal S1x128 .f32 := iblk1 V c 1 t

theorem pos_r1 : 0 < cfg1.N := by rw [show cfg1.N = 25 from N_1]; decide
abbrev tLast_r1 : Fin cfg1.N := ⟨cfg1.N - 1, Nat.sub_lt pos_r1 Nat.one_pos⟩

theorem idx_facts_r1 : ∀ t : Fin cfg1.N, win1_0.index t (0 : Fin 2) = t.val ∧ win1_0.index t (1 : Fin 2) = 0 ∧ ∀ a : Fin 2, win1_1.index t a = 0 :=
  (by decide +kernel : ∀ t : Fin grid1.N, _)

theorem blockRow_lt_r1 (t : Fin cfg1.N) (r : Fin 2000) : t.val * 2000 + r.val < 50000 := by
  have := lt_of_lt_of_eq t.isLt (show cfg1.N = 25 from N_1); have := r.isLt; omega

-- A block's element sits in its array at block index times block size plus its own coordinate.
theorem xblk_at_r1 (t : Fin cfg1.N) (r : Fin 2000) :
    xblk_r1 V c t (ix2 r q) = xarr_r1 V c (ix2 ⟨t.val * 2000 + r.val, blockRow_lt_r1 t r⟩ q) := by
  obtain ⟨e0, e1, -⟩ := idx_facts_r1 t
  show xarr_r1 V c (((cfg1.win 0).blk t).view.emb (ix2 r q)) = _
  refine congrArg _ (Shape.idx_ext₂ ?_ ?_)
  · show win1_0.index t (0 : Fin 2) * 2000 + 1 * r.val = t.val * 2000 + r.val; omega
  · show win1_0.index t (1 : Fin 2) * 128 + 1 * q.val = q.val; omega

theorem bblk_at_r1 (t : Fin cfg1.N) : bblk_r1 V c t (ix2 0 q) = brow_r1 V c (ix2 0 q) :=
  congrArg (brow_r1 V c) (funext fun a => Fin.ext (win1_1.rect_emb_val_of_index_zero t a ((idx_facts_r1 t).2.2 a) (ix2 0 q)))

theorem first_r1 (t : Fin cfg1.N) (h0 : t.val % 25 = 0) :
    (outsAt1 V c t.val t.isLt).1 (ix2 0 q) = colSum (xblk_r1 V c t) (bblk_r1 V c t) q (fun z => z)
    ∧ (outsAt1 V c t.val t.isLt).2 (ix2 0 q) = colSum (xblk_r1 V c t) (bblk_r1 V c t) q (fun z => z * z) := by
  rw [outsAt1_A V c t h0]; dsimp only
  exact ⟨(congrFun statsOut_A_eq.1 _).trans (statsBlock_at _ _ q).1, (congrFun statsOut_A_eq.2 _).trans (statsBlock_at _ _ q).2⟩

theorem next_r1 (t : Fin cfg1.N) (h0 : ¬t.val % 25 = 0) :
    (outsAt1 V c t.val t.isLt).1 (ix2 0 q)
      = (outsAt1 V c (t.val - 1) (Nat.lt_of_le_of_lt (Nat.sub_le _ _) t.isLt)).1 (ix2 0 q) + colSum (xblk_r1 V c t) (bblk_r1 V c t) q (fun z => z)
    ∧ (outsAt1 V c t.val t.isLt).2 (ix2 0 q)
      = (outsAt1 V c (t.val - 1) (Nat.lt_of_le_of_lt (Nat.sub_le _ _) t.isLt)).2 (ix2 0 q) + colSum (xblk_r1 V c t) (bblk_r1 V c t) q (fun z => z * z) := by
  rw [outsAt1_B V c t h0]; dsimp only
  exact ⟨(congrFun statsOut_B_eq.1 _).trans (statsAcc_at _ _ _ q).1, (congrFun statsOut_B_eq.2 _).trans (statsAcc_at _ _ _ q).2⟩

theorem step_r1 (t : Nat) (h : t + 1 < cfg1.N) : ¬(t + 1) % 25 = 0 := by
  have := lt_of_lt_of_eq h (show cfg1.N = 25 from N_1); omega

-- A row that starts at the first block's column sums and gains each later block's ends at the sum over all 50000 rows: 25 blocks of 2000.
theorem last_r1 (g : EReal → EReal) (o : Fin cfg1.N → EReal)
    (h0 : o ⟨0, pos_r1⟩ = colSum (xblk_r1 V c ⟨0, pos_r1⟩) (bblk_r1 V c ⟨0, pos_r1⟩) q g)
    (hs : ∀ (t : Nat) (h : t + 1 < cfg1.N), o ⟨t + 1, h⟩ = o ⟨t, Nat.lt_of_succ_lt h⟩ + colSum (xblk_r1 V c ⟨t + 1, h⟩) (bblk_r1 V c ⟨t + 1, h⟩) q g) :
    o tLast_r1 = ∑ i : Fin 50000, g (xarr_r1 V c (ix2 i q) + brow_r1 V c (ix2 0 q)) := by
  refine (Cert.LibBatchNorm.acc_fin_last_eq_sum (a := cfg1.N) (fun t => colSum (xblk_r1 V c t) (bblk_r1 V c t) q g) o pos_r1 h0 hs).trans ?_
  rw [Cert.LibBatchNorm.sum_fin_eq_blocks (show 50000 = cfg1.N * 2000 from by rw [show cfg1.N = 25 from N_1]) (fun i : Fin 50000 => g (xarr_r1 V c (ix2 i q) + brow_r1 V c (ix2 0 q)))]
  refine Finset.sum_congr rfl fun t _ => Finset.sum_congr rfl fun r _ => ?_
  rw [xblk_at_r1, bblk_at_r1]

-- An array that is one block, left once at the last point, ends as that point's contents.
theorem final_row_r1 (w : Fin cfg1.W) (R : Buf (Elt Ideal) ((cfg1.win w).arr.view.loc (c.tc : Thread nD τ)))
    (hfl : ∀ t : Fin cfg1.N, (cfg1.win w).flush t = true ↔ t.val % 25 = 24)
    (hR : (dat1 V c).flushed w tLast_r1 = ((cfg1.win w).blk tLast_r1).view.read (Elt Ideal) R)
    (hm : ∀ i, i ∈ ((cfg1.win w).blk tLast_r1).view.set) : (dat1 V c).arrAt w cfg1.N = R := by
  have hN : cfg1.N = 25 := N_1
  refine (dat1 V c).arrAt_eq_of_cover w R (fun t hf => ?_) fun i => ⟨tLast_r1, (hfl _).mpr (by show (cfg1.N - 1) % 25 = 24; rw [hN]), hm i⟩
  obtain rfl : t = tLast_r1 := Fin.ext (by have := (hfl t).mp hf; have := t.isLt; show t.val = cfg1.N - 1; omega)
  exact hR

abbrev sumsRow_r1 : Buf (Elt Ideal) ((c : Thread nD τ).loc (Pipeline.arrRef spec1 2)) := (outsAt1 V c tLast_r1.val tLast_r1.isLt).1

theorem final_2_row_r1 : (dat1 V c).arrAt 2 cfg1.N = sumsRow_r1 V c :=
  final_row_r1 V c 2 _ flush1_2 (by
    show (cfg1.win 2).cut (grid1.coords tLast_r1) ((dat1 V c).after 2 tLast_r1) = _
    rw [after1_2]
    have hz' : (fun a => win1_2.index tLast_r1 a * (Pipeline.arrRef spec1 2).ty.shape.size a) = fun _ => 0 := funext fun a => by fin_cases a <;> decide +kernel
    exact (Memref.read_access_unit_zero (Elt Ideal) (Pipeline.arrRef spec1 2) hz' (fun a => by rw [congrFun hz' a]; simp) (sumsRow_r1 V c)).symm) fun i => by
      show i ∈ ((View.whole (Pipeline.arrRef spec1 2)).slice (win1_2.rect tLast_r1)).set
      rw [View.set_slice_whole]
      exact mem_unit_whole (S := S1x128) (by decide +kernel) i

abbrev sqsRow_r1 : Buf (Elt Ideal) ((c : Thread nD τ).loc (Pipeline.arrRef spec1 3)) := (outsAt1 V c tLast_r1.val tLast_r1.isLt).2

theorem final_3_row_r1 : (dat1 V c).arrAt 3 cfg1.N = sqsRow_r1 V c :=
  final_row_r1 V c 3 _ flush1_3 (by
    show (cfg1.win 3).cut (grid1.coords tLast_r1) ((dat1 V c).after 3 tLast_r1) = _
    rw [after1_3]
    have hz' : (fun a => win1_3.index tLast_r1 a * (Pipeline.arrRef spec1 3).ty.shape.size a) = fun _ => 0 := funext fun a => by fin_cases a <;> decide +kernel
    exact (Memref.read_access_unit_zero (Elt Ideal) (Pipeline.arrRef spec1 3) hz' (fun a => by rw [congrFun hz' a]; simp) (sqsRow_r1 V c)).symm) fun i => by
      show i ∈ ((View.whole (Pipeline.arrRef spec1 3)).slice (win1_3.rect tLast_r1)).set
      rw [View.set_slice_whole]
      exact mem_unit_whole (S := S1x128) (by decide +kernel) i

theorem final1_sum :
    (dat1 (F := Ideal) V c).arrAt 2 cfg1.N (ix2 0 q) = ∑ i : Fin 50000, (xarr_r1 V c (ix2 i q) + brow_r1 V c (ix2 0 q)) :=
  (congrFun (final_2_row_r1 V c) (ix2 0 q)).trans
    (last_r1 V c q (fun z => z) (fun t => (outsAt1 V c t.val t.isLt).1 (ix2 0 q)) (first_r1 V c q ⟨0, pos_r1⟩ (Nat.zero_mod _)).1
      fun t h => (next_r1 V c q ⟨t + 1, h⟩ (step_r1 t h)).1)

theorem final1_sq :
    (dat1 (F := Ideal) V c).arrAt 3 cfg1.N (ix2 0 q) = ∑ i : Fin 50000, (xarr_r1 V c (ix2 i q) + brow_r1 V c (ix2 0 q)) * (xarr_r1 V c (ix2 i q) + brow_r1 V c (ix2 0 q)) :=
  (congrFun (final_3_row_r1 V c) (ix2 0 q)).trans
    (last_r1 V c q (fun z => z * z) (fun t => (outsAt1 V c t.val t.isLt).2 (ix2 0 q)) (first_r1 V c q ⟨0, pos_r1⟩ (Nat.zero_mod _)).2
      fun t h => (next_r1 V c q ⟨t + 1, h⟩ (step_r1 t h)).2)

end Point

end Cert.KernelIdeal.Reg

end
-- ==== Proof.KernelIdeal.ValN2.lean ====
import proofs.«169164_j46703474376898_1_alg».proof.Proof.KernelIdeal.RegN2
import proofs.«169164_j46703474376898_1_alg».proof.Proof.KernelIdeal.ValAMat
import Idealize.ShloMosaic.Lib.Pipeline.Value

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx

section Body

theorem pay2_apply (x0 : Vec Ideal S2000x128 .f32) (xb xm xv xg xe : Vec Ideal S1x128 .f32) (p : Fin 2000) (q : Fin 128) :
    out2_6 x0 xb xm xv xg xe (ix2 p q)
      = max ((((x0 (ix2 p q) + xb (ix2 0 q)) - xm (ix2 0 q)) * Ideal.rsqrt (xv (ix2 0 q) + Ideal.ofBits .f32 0x3727C5AC#32)) * xg (ix2 0 q) + xe (ix2 0 q))
          (Ideal.ofBits .f32 0x00000000#32) := by
  unfold out2_6
  rw [View.canon_unit_zero hz2]
  simp only [View.ld_unit_zero (S := S2000x128) hz2, View.ld_unit_zero (S := S1x128) hz2]
  exact normPay_apply _ _ _ _ _ _ p q

end Body

section Point
variable (V : (c : Dev nD) → (b : Ref sig .tc) → Buf (Elt Ideal) ((c : Thread nD τ).loc b)) (c : Dev nD)

abbrev rows2 : Vec Ideal S50000x128 .f32 := V c (Pipeline.arrRef spec2 0)
abbrev bias2 : Vec Ideal S1x128 .f32 := V c (Pipeline.arrRef spec2 1)
abbrev mean2 : Vec Ideal S1x128 .f32 := V c (Pipeline.arrRef spec2 2)
abbrev var2 : Vec Ideal S1x128 .f32 := V c (Pipeline.arrRef spec2 3)
abbrev gamma2 : Vec Ideal S1x128 .f32 := V c (Pipeline.arrRef spec2 4)
abbrev beta2 : Vec Ideal S1x128 .f32 := V c (Pipeline.arrRef spec2 5)

theorem blockIndex2 : ∀ t : Fin cfg2.N,
    win2_0.index t (0 : Fin 2) = t.val ∧ win2_0.index t (1 : Fin 2) = 0
    ∧ win2_6.index t (0 : Fin 2) = t.val ∧ win2_6.index t (1 : Fin 2) = 0 :=
  (by decide +kernel : ∀ t : Fin grid2.N, _)

theorem zeroOffsets2 : ∀ (t : Fin cfg2.N) (a : Fin 2),
    win2_1.index t a = 0 ∧ win2_2.index t a = 0 ∧ win2_3.index t a = 0 ∧ win2_4.index t a = 0 ∧ win2_5.index t a = 0 :=
  (by decide +kernel : ∀ (t : Fin grid2.N) (a : Fin 2), _)

-- A block's element sits in its array, on each axis, at block index times block size plus its own coordinate.
theorem rowsBlock2 (t : Fin cfg2.N) (p : Fin 2000) (q : Fin 128) (hb : t.val * 2000 + p.val < 50000) :
    iblk2 V c 0 t (ix2 p q) = rows2 V c (ix2 (⟨t.val * 2000 + p.val, hb⟩ : Fin 50000) q) := by
  obtain ⟨e00, e01, -, -⟩ := blockIndex2 t
  show rows2 V c (((cfg2.win 0).blk t).view.emb (ix2 p q)) = _
  refine congrArg _ (Shape.idx_ext₂ ?_ ?_)
  · show win2_0.index t (0 : Fin 2) * 2000 + 1 * p.val = t.val * 2000 + p.val; omega
  · show win2_0.index t (1 : Fin 2) * 128 + 1 * q.val = q.val; omega

theorem outIndex2 (t : Fin cfg2.N) (p : Fin 2000) (q : Fin 128) (hb : t.val * 2000 + p.val < 50000) :
    ((cfg2.win 6).blk t).view.emb (ix2 p q) = (ix2 (⟨t.val * 2000 + p.val, hb⟩ : Fin 50000) q : S50000x128.Idx) := by
  obtain ⟨-, -, e60, e61⟩ := blockIndex2 t
  refine Shape.idx_ext₂ ?_ ?_
  · show win2_6.index t (0 : Fin 2) * 2000 + 1 * p.val = t.val * 2000 + p.val; omega
  · show win2_6.index t (1 : Fin 2) * 128 + 1 * q.val = q.val; omega

theorem biasBlock2 (t : Fin cfg2.N) (q : Fin 128) : iblk2 V c 1 t (ix2 (0 : Fin 1) q) = bias2 V c (ix2 0 q) :=
  congrArg (bias2 V c) (funext fun a => Fin.ext (win2_1.rect_emb_val_of_index_zero t a (zeroOffsets2 t a).1 (ix2 0 q)))

theorem meanBlock2 (t : Fin cfg2.N) (q : Fin 128) : iblk2 V c 2 t (ix2 (0 : Fin 1) q) = mean2 V c (ix2 0 q) :=
  congrArg (mean2 V c) (funext fun a => Fin.ext (win2_2.rect_emb_val_of_index_zero t a (zeroOffsets2 t a).2.1 (ix2 0 q)))

theorem varBlock2 (t : Fin cfg2.N) (q : Fin 128) : iblk2 V c 3 t (ix2 (0 : Fin 1) q) = var2 V c (ix2 0 q) :=
  congrArg (var2 V c) (funext fun a => Fin.ext (win2_3.rect_emb_val_of_index_zero t a (zeroOffsets2 t a).2.2.1 (ix2 0 q)))

theorem gammaBlock2 (t : Fin cfg2.N) (q : Fin 128) : iblk2 V c 4 t (ix2 (0 : Fin 1) q) = gamma2 V c (ix2 0 q) :=
  congrArg (gamma2 V c) (funext fun a => Fin.ext (win2_4.rect_emb_val_of_index_zero t a (zeroOffsets2 t a).2.2.2.1 (ix2 0 q)))

theorem betaBlock2 (t : Fin cfg2.N) (q : Fin 128) : iblk2 V c 5 t (ix2 (0 : Fin 1) q) = beta2 V c (ix2 0 q) :=
  congrArg (beta2 V c) (funext fun a => Fin.ext (win2_5.rect_emb_val_of_index_zero t a (zeroOffsets2 t a).2.2.2.2 (ix2 0 q)))

-- Block t of the result is block t of one function of the six arrays.
theorem flushed2_eq (t : Fin cfg2.N) :
    (dat2 (F := Ideal) V c).flushed 6 t = ((cfg2.win 6).blk t).view.read (Elt Ideal) (normRelu (rows2 V c) (bias2 V c) (mean2 V c) (var2 V c) (gamma2 V c) (beta2 V c)) := by
  show (cfg2.win 6).cut (grid2.coords t) ((dat2 (F := Ideal) V c).after 6 t) = _
  rw [after2_6]
  have ht : t.val < 25 := t.isLt
  refine funext fun (j : S2000x128.Idx) => ?_
  obtain ⟨p, q, rfl⟩ : ∃ (p : Fin 2000) (q : Fin 128), j = ix2 p q := ⟨j 0, j 1, eq_ix2 j⟩
  have hb : t.val * 2000 + p.val < 50000 := by have hp : p.val < 2000 := p.isLt; omega
  refine (pay2_apply _ _ _ _ _ _ p q).trans ?_
  show _ = normRelu (rows2 V c) (bias2 V c) (mean2 V c) (var2 V c) (gamma2 V c) (beta2 V c) (((cfg2.win 6).blk t).view.emb (ix2 p q))
  rw [rowsBlock2 V c t p q hb, biasBlock2, meanBlock2, varBlock2, gammaBlock2, betaBlock2, outIndex2 t p q hb]
  rfl

-- Row r lies in the block of point r / 2000.
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 2000 := ⟨⟨(i 0).val / 2000, by show (i 0).val / 2000 < 25; omega⟩, rfl⟩
  obtain ⟨-, -, e60, e61⟩ := blockIndex2 t
  refine ⟨t, flush2_6 t, ?_⟩
  show i ∈ ((View.whole (Pipeline.arrRef spec2 6)).slice (win2_6.rect t)).set
  rw [View.set_slice_whole, Rect.mem_set_unit]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

theorem final2 : (dat2 (F := Ideal) V c).arrAt 6 cfg2.N = normRelu (rows2 V c) (bias2 V c) (mean2 V c) (var2 V c) (gamma2 V c) (beta2 V c) :=
  (dat2 (F := Ideal) V c).arrAt_eq_of_cover 6 _ (fun t _ => flushed2_eq V c t) cover2

theorem final2_apply (r : Fin 50000) (q : Fin 128) :
    (dat2 (F := Ideal) V c).arrAt 6 cfg2.N (ix2 r q)
      = max ((((rows2 V c (ix2 r q) + bias2 V c (ix2 0 q)) - mean2 V c (ix2 0 q)) * Ideal.rsqrt (var2 V c (ix2 0 q) + Ideal.ofBits .f32 0x3727C5AC#32)) * gamma2 V c (ix2 0 q) + beta2 V c (ix2 0 q))
          (Ideal.ofBits .f32 0x00000000#32) :=
  congrFun (final2 V c) (ix2 r q)

end Point

end Cert.KernelIdeal.Reg
-- ==== Proof.KernelIdeal.HostReads.lean ====
import proofs.«169164_j46703474376898_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Idealize.ShloMosaic Idealize.ShloMosaic.ValueIdx Cert.KernelIdeal.Gen

section Layout

variable {α : Type}

theorem edgeRow0_apply (x : S2x800000.Idx → α) (e : Fin 800000) :
    shapeCast S800000 (extractStridedSlice S1x800000 ![0, 0] x slices_S2x800000_S1x800000_0_0) shapeCasts_S1x800000_S800000 (ix1 e)
      = x (ix2 (0 : Fin 2) e) :=
  (shapeCast_1a_a_apply _ _ e).trans
    (extractStridedSlice_apply _ _ _ _ _ fun a => match a with
      | ⟨0, _⟩ => rfl
      | ⟨1, _⟩ => by show e.val = 0 + e.val; omega)

theorem edgeRow1_apply (x : S2x800000.Idx → α) (e : Fin 800000) :
    shapeCast S800000 (extractStridedSlice S1x800000 ![1, 0] x slices_S2x800000_S1x800000_1_0) shapeCasts_S1x800000_S800000 (ix1 e)
      = x (ix2 (1 : Fin 2) e) :=
  (shapeCast_1a_a_apply _ _ e).trans
    (extractStridedSlice_apply _ _ _ _ _ fun a => match a with
      | ⟨0, _⟩ => rfl
      | ⟨1, _⟩ => by show e.val = 0 + e.val; omega)

theorem mat0_apply (x : S2x128x128.Idx → α) (k q : Fin 128) :
    shapeCast S128x128 (extractStridedSlice S1x128x128 ![0, 0, 0] x slices_S2x128x128_S1x128x128_0_0_0) shapeCasts_S1x128x128_S128x128 (ix2 k q)
      = x (ix3 (0 : Fin 2) k q) :=
  (shapeCast_1ab_ab_apply _ _ k q).trans
    (extractStridedSlice_apply _ _ _ _ _ fun a => match a with
      | ⟨0, _⟩ => rfl
      | ⟨1, _⟩ => by show k.val = 0 + k.val; omega
      | ⟨2, _⟩ => by show q.val = 0 + q.val; omega)

theorem mat1_apply (x : S2x128x128.Idx → α) (k q : Fin 128) :
    shapeCast S128x128 (extractStridedSlice S1x128x128 ![1, 0, 0] x slices_S2x128x128_S1x128x128_1_0_0) shapeCasts_S1x128x128_S128x128 (ix2 k q)
      = x (ix3 (1 : Fin 2) k q) :=
  (shapeCast_1ab_ab_apply _ _ k q).trans
    (extractStridedSlice_apply _ _ _ _ _ fun a => match a with
      | ⟨0, _⟩ => rfl
      | ⟨1, _⟩ => by show k.val = 0 + k.val; omega
      | ⟨2, _⟩ => by show q.val = 0 + q.val; omega)

theorem upper_apply (x : S256x128.Idx → α) (k q : Fin 128) :
    extractStridedSlice S128x128 ![0, 0] x slices_S256x128_S128x128_0_0 (ix2 k q)
      = x (ix2 (⟨k.val, by have := k.isLt; omega⟩ : Fin 256) q) :=
  extractStridedSlice_apply _ _ _ _ _ fun a => match a with
    | ⟨0, _⟩ => by show k.val = 0 + k.val; omega
    | ⟨1, _⟩ => by show q.val = 0 + q.val; omega

theorem lower_apply (x : S256x128.Idx → α) (k q : Fin 128) :
    extractStridedSlice S128x128 ![128, 0] x slices_S256x128_S128x128_128_0 (ix2 k q)
      = x (ix2 (⟨128 + k.val, by have := k.isLt; omega⟩ : Fin 256) q) :=
  extractStridedSlice_apply _ _ _ _ _ fun a => match a with
    | ⟨0, _⟩ => rfl
    | ⟨1, _⟩ => by show q.val = 0 + q.val; omega

theorem asRow_apply (x : S128.Idx → α) (u : Fin 1) (q : Fin 128) :
    shapeCast S1x128 x shapeCasts_S128_S1x128 (ix2 u q) = x (ix1 q) :=
  shapeCast_a_1a_apply x _ u q

end Layout

section Terms

variable {F : FTy → Type} [FloatOps F] (V : Valuation τ sig (Elt F))

abbrev countRow : (⟨S1x128, .f32⟩ : BufTy).Contents (Elt F) :=
  broadcastInDim S1x128 ![] bcast_S_S1x128 (constant (F := F) S_ .f32 0x47435000#32)

theorem h0_v1 : StableHlo.after (hostOps0 (F := F)) V (Proc.devRef .tc main_v1) =
    shapeCast S800000 (extractStridedSlice S1x800000 ![0, 0] (V (Proc.devRef .tc main_arg1) : (⟨S2x800000, .i32⟩ : BufTy).Contents (Elt F)) slices_S2x800000_S1x800000_0_0) shapeCasts_S1x800000_S800000 := by
  after_results <;> rfl

theorem h0_v3 : StableHlo.after (hostOps0 (F := F)) V (Proc.devRef .tc main_v3) =
    shapeCast S800000 (extractStridedSlice S1x800000 ![1, 0] (V (Proc.devRef .tc main_arg1) : (⟨S2x800000, .i32⟩ : BufTy).Contents (Elt F)) slices_S2x800000_S1x800000_1_0) shapeCasts_S1x800000_S800000 := by
  after_results <;> rfl

theorem h0_v5 : StableHlo.after (hostOps0 (F := F)) V (Proc.devRef .tc main_v5) =
    shapeCast S800000 (extractStridedSlice S1x800000 ![0, 0] (V (Proc.devRef .tc main_arg3) : (⟨S2x800000, .i32⟩ : BufTy).Contents (Elt F)) slices_S2x800000_S1x800000_0_0) shapeCasts_S1x800000_S800000 := by
  after_results <;> rfl

theorem h0_v7 : StableHlo.after (hostOps0 (F := F)) V (Proc.devRef .tc main_v7) =
    shapeCast S800000 (extractStridedSlice S1x800000 ![1, 0] (V (Proc.devRef .tc main_arg3) : (⟨S2x800000, .i32⟩ : BufTy).Contents (Elt F)) slices_S2x800000_S1x800000_1_0) shapeCasts_S1x800000_S800000 := by
  after_results <;> rfl

theorem h0_v9 : StableHlo.after (hostOps0 (F := F)) V (Proc.devRef .tc main_v9) =
    shapeCast S128x128 (extractStridedSlice S1x128x128 ![0, 0, 0] (V (Proc.devRef .tc main_arg5) : (⟨S2x128x128, .f32⟩ : BufTy).Contents (Elt F)) slices_S2x128x128_S1x128x128_0_0_0) shapeCasts_S1x128x128_S128x128 := by
  after_results <;> rfl

theorem h2_v63 : StableHlo.after (hostOps2 (F := F)) V (Proc.devRef .tc main_v63) =
    Host.divf (V (Proc.devRef .tc main_v61_0) : (⟨S1x128, .f32⟩ : BufTy).Contents (Elt F)) (countRow (F := F)) := by
  after_results <;> rfl

theorem h2_v67 : StableHlo.after (hostOps2 (F := F)) V (Proc.devRef .tc main_v67) =
    subf (Host.divf (V (Proc.devRef .tc main_v61_1) : (⟨S1x128, .f32⟩ : BufTy).Contents (Elt F)) (countRow (F := F)))
      (mulf (Host.divf (V (Proc.devRef .tc main_v61_0) : (⟨S1x128, .f32⟩ : BufTy).Contents (Elt F)) (countRow (F := F)))
        (Host.divf (V (Proc.devRef .tc main_v61_0) : (⟨S1x128, .f32⟩ : BufTy).Contents (Elt F)) (countRow (F := F)))) := by
  after_results <;> rfl

theorem h5_v124 : StableHlo.after (hostOps5 (F := F)) V (Proc.devRef .tc main_v124) =
    Host.divf (V (Proc.devRef .tc main_v122_0) : (⟨S1x128, .f32⟩ : BufTy).Contents (Elt F)) (countRow (F := F)) := by
  after_results <;> rfl

theorem h5_v128 : StableHlo.after (hostOps5 (F := F)) V (Proc.devRef .tc main_v128) =
    subf (Host.divf (V (Proc.devRef .tc main_v122_1) : (⟨S1x128, .f32⟩ : BufTy).Contents (Elt F)) (countRow (F := F)))
      (mulf (Host.divf (V (Proc.devRef .tc main_v122_0) : (⟨S1x128, .f32⟩ : BufTy).Contents (Elt F)) (countRow (F := F)))
        (Host.divf (V (Proc.devRef .tc main_v122_0) : (⟨S1x128, .f32⟩ : BufTy).Contents (Elt F)) (countRow (F := F)))) := by
  after_results <;> rfl

theorem h8_v185 : StableHlo.after (hostOps8 (F := F)) V (Proc.devRef .tc main_v185) =
    Host.divf (V (Proc.devRef .tc main_v183_0) : (⟨S1x128, .f32⟩ : BufTy).Contents (Elt F)) (countRow (F := F)) := by
  after_results <;> rfl

theorem h8_v189 : StableHlo.after (hostOps8 (F := F)) V (Proc.devRef .tc main_v189) =
    subf (Host.divf (V (Proc.devRef .tc main_v183_1) : (⟨S1x128, .f32⟩ : BufTy).Contents (Elt F)) (countRow (F := F)))
      (mulf (Host.divf (V (Proc.devRef .tc main_v183_0) : (⟨S1x128, .f32⟩ : BufTy).Contents (Elt F)) (countRow (F := F)))
        (Host.divf (V (Proc.devRef .tc main_v183_0) : (⟨S1x128, .f32⟩ : BufTy).Contents (Elt F)) (countRow (F := F)))) := by
  after_results <;> rfl

theorem h11_v246 : StableHlo.after (hostOps11 (F := F)) V (Proc.devRef .tc main_v246) =
    Host.divf (V (Proc.devRef .tc main_v244_0) : (⟨S1x128, .f32⟩ : BufTy).Contents (Elt F)) (countRow (F := F)) := by
  after_results <;> rfl

theorem h11_v250 : StableHlo.after (hostOps11 (F := F)) V (Proc.devRef .tc main_v250) =
    subf (Host.divf (V (Proc.devRef .tc main_v244_1) : (⟨S1x128, .f32⟩ : BufTy).Contents (Elt F)) (countRow (F := F)))
      (mulf (Host.divf (V (Proc.devRef .tc main_v244_0) : (⟨S1x128, .f32⟩ : BufTy).Contents (Elt F)) (countRow (F := F)))
        (Host.divf (V (Proc.devRef .tc main_v244_0) : (⟨S1x128, .f32⟩ : BufTy).Contents (Elt F)) (countRow (F := F)))) := by
  after_results <;> rfl

theorem h3_v70 : StableHlo.after (hostOps3 (F := F)) V (Proc.devRef .tc main_v70) =
    shapeCast S128x128 (extractStridedSlice S1x128x128 ![1, 0, 0] (V (Proc.devRef .tc main_arg5) : (⟨S2x128x128, .f32⟩ : BufTy).Contents (Elt F)) slices_S2x128x128_S1x128x128_1_0_0) shapeCasts_S1x128x128_S128x128 := by
  after_results <;> rfl

theorem h6_v131 : StableHlo.after (hostOps6 (F := F)) V (Proc.devRef .tc main_v131) =
    shapeCast S128x128 (extractStridedSlice S1x128x128 ![0, 0, 0] (V (Proc.devRef .tc main_arg9) : (⟨S2x128x128, .f32⟩ : BufTy).Contents (Elt F)) slices_S2x128x128_S1x128x128_0_0_0) shapeCasts_S1x128x128_S128x128 := by
  after_results <;> rfl

theorem h9_v192 : StableHlo.after (hostOps9 (F := F)) V (Proc.devRef .tc main_v192) =
    shapeCast S128x128 (extractStridedSlice S1x128x128 ![1, 0, 0] (V (Proc.devRef .tc main_arg9) : (⟨S2x128x128, .f32⟩ : BufTy).Contents (Elt F)) slices_S2x128x128_S1x128x128_1_0_0) shapeCasts_S1x128x128_S128x128 := by
  after_results <;> rfl

theorem h12_v252 : StableHlo.after (hostOps12 (F := F)) V (Proc.devRef .tc main_v252) =
    extractStridedSlice S128x128 ![0, 0] (V (Proc.devRef .tc main_arg13) : (⟨S256x128, .f32⟩ : BufTy).Contents (Elt F)) slices_S256x128_S128x128_0_0 := by
  after_results <;> rfl

theorem h12_v253 : StableHlo.after (hostOps12 (F := F)) V (Proc.devRef .tc main_v253) =
    extractStridedSlice S128x128 ![128, 0] (V (Proc.devRef .tc main_arg13) : (⟨S256x128, .f32⟩ : BufTy).Contents (Elt F)) slices_S256x128_S128x128_128_0 := by
  after_results <;> rfl

theorem h12_v254 : StableHlo.after (hostOps12 (F := F)) V (Proc.devRef .tc main_v254) =
    shapeCast S1x128 (V (Proc.devRef .tc main_arg14) : (⟨S128, .f32⟩ : BufTy).Contents (Elt F)) shapeCasts_S128_S1x128 := by
  after_results <;> rfl

theorem h0_v1_apply (e : Fin 800000) :
    (StableHlo.after (hostOps0 (F := F)) V (Proc.devRef .tc main_v1) : (⟨S800000, .i32⟩ : BufTy).Contents (Elt F)) (ix1 e)
      = (V (Proc.devRef .tc main_arg1) : (⟨S2x800000, .i32⟩ : BufTy).Contents (Elt F)) (ix2 (0 : Fin 2) e) := by
  rw [h0_v1]; exact edgeRow0_apply _ e

theorem h0_v3_apply (e : Fin 800000) :
    (StableHlo.after (hostOps0 (F := F)) V (Proc.devRef .tc main_v3) : (⟨S800000, .i32⟩ : BufTy).Contents (Elt F)) (ix1 e)
      = (V (Proc.devRef .tc main_arg1) : (⟨S2x800000, .i32⟩ : BufTy).Contents (Elt F)) (ix2 (1 : Fin 2) e) := by
  rw [h0_v3]; exact edgeRow1_apply _ e

theorem h0_v5_apply (e : Fin 800000) :
    (StableHlo.after (hostOps0 (F := F)) V (Proc.devRef .tc main_v5) : (⟨S800000, .i32⟩ : BufTy).Contents (Elt F)) (ix1 e)
      = (V (Proc.devRef .tc main_arg3) : (⟨S2x800000, .i32⟩ : BufTy).Contents (Elt F)) (ix2 (0 : Fin 2) e) := by
  rw [h0_v5]; exact edgeRow0_apply _ e

theorem h0_v7_apply (e : Fin 800000) :
    (StableHlo.after (hostOps0 (F := F)) V (Proc.devRef .tc main_v7) : (⟨S800000, .i32⟩ : BufTy).Contents (Elt F)) (ix1 e)
      = (V (Proc.devRef .tc main_arg3) : (⟨S2x800000, .i32⟩ : BufTy).Contents (Elt F)) (ix2 (1 : Fin 2) e) := by
  rw [h0_v7]; exact edgeRow1_apply _ e

theorem h0_v9_apply (k q : Fin 128) :
    (StableHlo.after (hostOps0 (F := F)) V (Proc.devRef .tc main_v9) : (⟨S128x128, .f32⟩ : BufTy).Contents (Elt F)) (ix2 k q)
      = (V (Proc.devRef .tc main_arg5) : (⟨S2x128x128, .f32⟩ : BufTy).Contents (Elt F)) (ix3 (0 : Fin 2) k q) := by
  rw [h0_v9]; exact mat0_apply _ k q

theorem h3_v70_apply (k q : Fin 128) :
    (StableHlo.after (hostOps3 (F := F)) V (Proc.devRef .tc main_v70) : (⟨S128x128, .f32⟩ : BufTy).Contents (Elt F)) (ix2 k q)
      = (V (Proc.devRef .tc main_arg5) : (⟨S2x128x128, .f32⟩ : BufTy).Contents (Elt F)) (ix3 (1 : Fin 2) k q) := by
  rw [h3_v70]; exact mat1_apply _ k q

theorem h6_v131_apply (k q : Fin 128) :
    (StableHlo.after (hostOps6 (F := F)) V (Proc.devRef .tc main_v131) : (⟨S128x128, .f32⟩ : BufTy).Contents (Elt F)) (ix2 k q)
      = (V (Proc.devRef .tc main_arg9) : (⟨S2x128x128, .f32⟩ : BufTy).Contents (Elt F)) (ix3 (0 : Fin 2) k q) := by
  rw [h6_v131]; exact mat0_apply _ k q

theorem h9_v192_apply (k q : Fin 128) :
    (StableHlo.after (hostOps9 (F := F)) V (Proc.devRef .tc main_v192) : (⟨S128x128, .f32⟩ : BufTy).Contents (Elt F)) (ix2 k q)
      = (V (Proc.devRef .tc main_arg9) : (⟨S2x128x128, .f32⟩ : BufTy).Contents (Elt F)) (ix3 (1 : Fin 2) k q) := by
  rw [h9_v192]; exact mat1_apply _ k q

theorem h12_v252_apply (k q : Fin 128) :
    (StableHlo.after (hostOps12 (F := F)) V (Proc.devRef .tc main_v252) : (⟨S128x128, .f32⟩ : BufTy).Contents (Elt F)) (ix2 k q)
      = (V (Proc.devRef .tc main_arg13) : (⟨S256x128, .f32⟩ : BufTy).Contents (Elt F)) (ix2 (⟨k.val, by have := k.isLt; omega⟩ : Fin 256) q) := by
  rw [h12_v252]; exact upper_apply _ k q

theorem h12_v253_apply (k q : Fin 128) :
    (StableHlo.after (hostOps12 (F := F)) V (Proc.devRef .tc main_v253) : (⟨S128x128, .f32⟩ : BufTy).Contents (Elt F)) (ix2 k q)
      = (V (Proc.devRef .tc main_arg13) : (⟨S256x128, .f32⟩ : BufTy).Contents (Elt F)) (ix2 (⟨128 + k.val, by have := k.isLt; omega⟩ : Fin 256) q) := by
  rw [h12_v253]; exact lower_apply _ k q

theorem h12_v254_apply (u : Fin 1) (q : Fin 128) :
    (StableHlo.after (hostOps12 (F := F)) V (Proc.devRef .tc main_v254) : (⟨S1x128, .f32⟩ : BufTy).Contents (Elt F)) (ix2 u q)
      = (V (Proc.devRef .tc main_arg14) : (⟨S128, .f32⟩ : BufTy).Contents (Elt F)) (ix1 q) := by
  rw [h12_v254]; exact asRow_apply _ u q

end Terms

section AtIdeal

variable (V : Valuation τ sig (Elt Ideal))

theorem h2_v63_apply (j : S1x128.Idx) :
    (StableHlo.after (hostOps2 (F := Ideal)) V (Proc.devRef .tc main_v63) : (⟨S1x128, .f32⟩ : BufTy).Contents (Elt Ideal)) j
      = Ideal.div ((V (Proc.devRef .tc main_v61_0) : (⟨S1x128, .f32⟩ : BufTy).Contents (Elt Ideal)) j) (Ideal.ofBits .f32 0x47435000#32) := by
  rw [h2_v63]; rfl

theorem h2_v67_apply (j : S1x128.Idx) :
    (StableHlo.after (hostOps2 (F := Ideal)) V (Proc.devRef .tc main_v67) : (⟨S1x128, .f32⟩ : BufTy).Contents (Elt Ideal)) j
      = Ideal.div ((V (Proc.devRef .tc main_v61_1) : (⟨S1x128, .f32⟩ : BufTy).Contents (Elt Ideal)) j) (Ideal.ofBits .f32 0x47435000#32)
        - Ideal.div ((V (Proc.devRef .tc main_v61_0) : (⟨S1x128, .f32⟩ : BufTy).Contents (Elt Ideal)) j) (Ideal.ofBits .f32 0x47435000#32)
          * Ideal.div ((V (Proc.devRef .tc main_v61_0) : (⟨S1x128, .f32⟩ : BufTy).Contents (Elt Ideal)) j) (Ideal.ofBits .f32 0x47435000#32) := by
  rw [h2_v67]; rfl

theorem h5_v124_apply (j : S1x128.Idx) :
    (StableHlo.after (hostOps5 (F := Ideal)) V (Proc.devRef .tc main_v124) : (⟨S1x128, .f32⟩ : BufTy).Contents (Elt Ideal)) j
      = Ideal.div ((V (Proc.devRef .tc main_v122_0) : (⟨S1x128, .f32⟩ : BufTy).Contents (Elt Ideal)) j) (Ideal.ofBits .f32 0x47435000#32) := by
  rw [h5_v124]; rfl

theorem h5_v128_apply (j : S1x128.Idx) :
    (StableHlo.after (hostOps5 (F := Ideal)) V (Proc.devRef .tc main_v128) : (⟨S1x128, .f32⟩ : BufTy).Contents (Elt Ideal)) j
      = Ideal.div ((V (Proc.devRef .tc main_v122_1) : (⟨S1x128, .f32⟩ : BufTy).Contents (Elt Ideal)) j) (Ideal.ofBits .f32 0x47435000#32)
        - Ideal.div ((V (Proc.devRef .tc main_v122_0) : (⟨S1x128, .f32⟩ : BufTy).Contents (Elt Ideal)) j) (Ideal.ofBits .f32 0x47435000#32)
          * Ideal.div ((V (Proc.devRef .tc main_v122_0) : (⟨S1x128, .f32⟩ : BufTy).Contents (Elt Ideal)) j) (Ideal.ofBits .f32 0x47435000#32) := by
  rw [h5_v128]; rfl

theorem h8_v185_apply (j : S1x128.Idx) :
    (StableHlo.after (hostOps8 (F := Ideal)) V (Proc.devRef .tc main_v185) : (⟨S1x128, .f32⟩ : BufTy).Contents (Elt Ideal)) j
      = Ideal.div ((V (Proc.devRef .tc main_v183_0) : (⟨S1x128, .f32⟩ : BufTy).Contents (Elt Ideal)) j) (Ideal.ofBits .f32 0x47435000#32) := by
  rw [h8_v185]; rfl

theorem h8_v189_apply (j : S1x128.Idx) :
    (StableHlo.after (hostOps8 (F := Ideal)) V (Proc.devRef .tc main_v189) : (⟨S1x128, .f32⟩ : BufTy).Contents (Elt Ideal)) j
      = Ideal.div ((V (Proc.devRef .tc main_v183_1) : (⟨S1x128, .f32⟩ : BufTy).Contents (Elt Ideal)) j) (Ideal.ofBits .f32 0x47435000#32)
        - Ideal.div ((V (Proc.devRef .tc main_v183_0) : (⟨S1x128, .f32⟩ : BufTy).Contents (Elt Ideal)) j) (Ideal.ofBits .f32 0x47435000#32)
          * Ideal.div ((V (Proc.devRef .tc main_v183_0) : (⟨S1x128, .f32⟩ : BufTy).Contents (Elt Ideal)) j) (Ideal.ofBits .f32 0x47435000#32) := by
  rw [h8_v189]; rfl

theorem h11_v246_apply (j : S1x128.Idx) :
    (StableHlo.after (hostOps11 (F := Ideal)) V (Proc.devRef .tc main_v246) : (⟨S1x128, .f32⟩ : BufTy).Contents (Elt Ideal)) j
      = Ideal.div ((V (Proc.devRef .tc main_v244_0) : (⟨S1x128, .f32⟩ : BufTy).Contents (Elt Ideal)) j) (Ideal.ofBits .f32 0x47435000#32) := by
  rw [h11_v246]; rfl

theorem h11_v250_apply (j : S1x128.Idx) :
    (StableHlo.after (hostOps11 (F := Ideal)) V (Proc.devRef .tc main_v250) : (⟨S1x128, .f32⟩ : BufTy).Contents (Elt Ideal)) j
      = Ideal.div ((V (Proc.devRef .tc main_v244_1) : (⟨S1x128, .f32⟩ : BufTy).Contents (Elt Ideal)) j) (Ideal.ofBits .f32 0x47435000#32)
        - Ideal.div ((V (Proc.devRef .tc main_v244_0) : (⟨S1x128, .f32⟩ : BufTy).Contents (Elt Ideal)) j) (Ideal.ofBits .f32 0x47435000#32)
          * Ideal.div ((V (Proc.devRef .tc main_v244_0) : (⟨S1x128, .f32⟩ : BufTy).Contents (Elt Ideal)) j) (Ideal.ofBits .f32 0x47435000#32) := by
  rw [h11_v250]; rfl

end AtIdeal

end Cert.KernelIdeal.Host
-- ==== Proof.KernelIdeal.GcnReads.lean ====
import proofs.«169164_j46703474376898_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

def gcnK (hw : FVec F S50000x128 .f32) (src dst : IVec S800000 32) (ew : FVec F S800000 .f32) :
    FVec F S50000x128 .f32 :=

  let nodes : IVec S50000 32 := iotaInDim S50000 32 0

  let src2 : IVec S850000 32 := concatenate S850000 0 [⟨S800000, src⟩, ⟨S50000, nodes⟩] concatenates_S800000_S50000_S850000_d0
  let dst2 : IVec S850000 32 := concatenate S850000 0 [⟨S800000, dst⟩, ⟨S50000, nodes⟩] concatenates_S800000_S50000_S850000_d0
  let ew2 : FVec F S850000 .f32 :=
    concatenate S850000 0 [⟨S800000, ew⟩, ⟨S50000, broadcastInDim S50000 ![] bcast_S_S50000 (constant S_ .f32 0x3F800000#32)⟩]
      concatenates_S800000_S50000_S850000_d0

  let deg : FVec F S50000 .f32 :=
    Host.scatterAdd scatter_S50000_S850000x1_S850000_n_0_0_1
      (broadcastInDim S50000 ![] bcast_S_S50000 (constant S_ .f32 0x00000000#32))
      (broadcastInDim S850000x1 ![0] bcast_S850000_S850000x1_0 dst2) ew2

  let dinv : FVec F S50000 .f32 :=
    select (cmpf .ogt deg (broadcastInDim S50000 ![] bcast_S_S50000 (constant S_ .f32 0x00000000#32))) (Host.rsqrt deg)
      (broadcastInDim S50000 ![] bcast_S_S50000 (id (constant S_ .f32 0x00000000#32)))

  let wrap (ix : IVec S850000 32) : IVec S850000 32 :=
    select (cmpi .slt ix (broadcastInDim S850000 ![] bcast_S_S850000 (constantI S_ 32 0#32)))
      (addi ix (broadcastInDim S850000 ![] bcast_S_S850000 (constantI S_ 32 50000#32))) ix

  let norm : FVec F S850000 .f32 :=
    mulf
      (mulf (Host.gather gather_S50000_S850000x1_S850000_n_0_n_n_0_1_1 dinv (broadcastInDim S850000x1 ![0] bcast_S850000_S850000x1_0 (wrap src2))) ew2)
      (Host.gather gather_S50000_S850000x1_S850000_n_0_n_n_0_1_1 dinv (broadcastInDim S850000x1 ![0] bcast_S850000_S850000x1_0 (wrap dst2)))

  let msg : FVec F S850000x128 .f32 :=
    mulf
      (Host.gather gather_S50000x128_S850000x1_S850000x128_1_0_n_n_0_1_1128 hw (broadcastInDim S850000x1 ![0] bcast_S850000_S850000x1_0 (wrap src2)))
      (broadcastInDim S850000x128 ![0, 1] bcast_S850000x1_S850000x128_0_1 (broadcastInDim S850000x1 ![0] bcast_S850000_S850000x1_0 norm))

  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst2) msg

def paramRow0 {α : Type} (p : S2x128.Idx → α) : S1x128.Idx → α :=
  shapeCast S1x128 (shapeCast S128 (extractStridedSlice S1x128 ![0, 0] p slices_S2x128_S1x128_0_0) shapeCasts_S1x128_S128) shapeCasts_S128_S1x128

def paramRow1 {α : Type} (p : S2x128.Idx → α) : S1x128.Idx → α :=
  shapeCast S1x128 (shapeCast S128 (extractStridedSlice S1x128 ![1, 0] p slices_S2x128_S1x128_1_0) shapeCasts_S1x128_S128) shapeCasts_S128_S1x128

theorem paramRow0_apply {α : Type} (p : S2x128.Idx → α) (u : Fin 1) (q : Fin 128) :
    paramRow0 p (ix2 u q) = p (ix2 (0 : Fin 2) q) :=
  (shapeCast_a_1a_apply _ _ u q).trans ((shapeCast_1a_a_apply _ _ q).trans
    (extractStridedSlice_apply _ _ _ _ _ fun a => match a with
      | ⟨0, _⟩ => rfl
      | ⟨1, _⟩ => by show q.val = 0 + q.val; omega))

theorem paramRow1_apply {α : Type} (p : S2x128.Idx → α) (u : Fin 1) (q : Fin 128) :
    paramRow1 p (ix2 u q) = p (ix2 (1 : Fin 2) q) :=
  (shapeCast_a_1a_apply _ _ u q).trans ((shapeCast_1a_a_apply _ _ q).trans
    (extractStridedSlice_apply _ _ _ _ _ fun a => match a with
      | ⟨0, _⟩ => rfl
      | ⟨1, _⟩ => by show q.val = 0 + q.val; omega))

set_option maxRecDepth 8192 in
set_option maxHeartbeats 4000000 in

theorem h1_v51 (V : Valuation τ sig (Elt F)) :
    StableHlo.after (hostOps1_2 (F := F)) (StableHlo.after (hostOps1_1 (F := F)) (StableHlo.after (hostOps1 (F := F)) V)) (Proc.devRef .tc main_v51)
      = gcnK (V (Proc.devRef .tc main_v10) : (⟨S50000x128, .f32⟩ : BufTy).Contents (Elt F)) (V (Proc.devRef .tc main_v1) : (⟨S800000, .i32⟩ : BufTy).Contents (Elt F))
          (V (Proc.devRef .tc main_v3) : (⟨S800000, .i32⟩ : BufTy).Contents (Elt F)) (V (Proc.devRef .tc main_arg2) : (⟨S800000, .f32⟩ : BufTy).Contents (Elt F)) := by
  unfold gcnK
  after_results_simp
  (try simp only [TRef.ofBuf, TRef.toBuf, cast_eq])
  repeat (first
    | rw [nullary_result] | rw [unary_result] | rw [binary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

set_option maxRecDepth 8192 in
set_option maxHeartbeats 4000000 in

theorem h1_v58 (V : Valuation τ sig (Elt F)) :
    StableHlo.after (hostOps1_2 (F := F)) (StableHlo.after (hostOps1_1 (F := F)) (StableHlo.after (hostOps1 (F := F)) V)) (Proc.devRef .tc main_v58)
      = paramRow0 (V (Proc.devRef .tc main_arg6) : (⟨S2x128, .f32⟩ : BufTy).Contents (Elt F)) := by
  after_results_simp
  rfl

set_option maxRecDepth 8192 in
set_option maxHeartbeats 4000000 in

theorem h1_v59 (V : Valuation τ sig (Elt F)) :
    StableHlo.after (hostOps1_2 (F := F)) (StableHlo.after (hostOps1_1 (F := F)) (StableHlo.after (hostOps1 (F := F)) V)) (Proc.devRef .tc main_v59)
      = paramRow0 (V (Proc.devRef .tc main_arg7) : (⟨S2x128, .f32⟩ : BufTy).Contents (Elt F)) := by
  after_results_simp
  rfl

set_option maxRecDepth 8192 in
set_option maxHeartbeats 4000000 in

theorem h1_v60 (V : Valuation τ sig (Elt F)) :
    StableHlo.after (hostOps1_2 (F := F)) (StableHlo.after (hostOps1_1 (F := F)) (StableHlo.after (hostOps1 (F := F)) V)) (Proc.devRef .tc main_v60)
      = paramRow0 (V (Proc.devRef .tc main_arg8) : (⟨S2x128, .f32⟩ : BufTy).Contents (Elt F)) := by
  after_results_simp
  rfl

end Cert.KernelIdeal.Host

end
-- ==== Proof.KernelIdeal.Carry.lean ====
import proofs.«169164_j46703474376898_1_alg».proof.Proof.KernelIdeal.Regions

set_option maxRecDepth 16384

noncomputable section

namespace Cert.KernelIdeal.Val

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (outs : Outs (F := F)) (c : Dev nD)

abbrev launchRefs : List (Ref sig .tc) :=
  [main_arg0, main_arg1, main_arg2, main_arg3, main_arg4, main_arg5, main_arg6, main_arg7, main_arg8, main_arg9, main_arg10, main_arg11, main_arg12, main_arg13, main_arg14]

abbrev edgeRefs : List (Ref sig .tc) := [main_v1, main_v3, main_v5, main_v7]

theorem V1_launch (r : Ref sig .tc) (h : r ∈ launchRefs) : V1 m c r = V0 m c r :=
  V1_of m c r ((by decide : ∀ r ∈ launchRefs, r ∉ hostOps0_W) r h)
theorem V2_launch (r : Ref sig .tc) (h : r ∈ launchRefs) : V2 m outs c r = V0 m c r :=
  (V2_of m outs c r ((by decide : ∀ r ∈ launchRefs, r ∉ ([main_v10] : List (Ref sig .tc))) r h)).trans (V1_launch m c r h)
theorem V3_launch (r : Ref sig .tc) (h : r ∈ launchRefs) : V3 m outs c r = V0 m c r :=
  (V3_of m outs c r ((by decide : ∀ r ∈ launchRefs, r ∉ hostOps1_W) r h)).trans (V2_launch m outs c r h)
theorem V4_launch (r : Ref sig .tc) (h : r ∈ launchRefs) : V4 m outs c r = V0 m c r :=
  (V4_of m outs c r ((by decide : ∀ r ∈ launchRefs, r ∉ hostOps1_1_W) r h)).trans (V3_launch m outs c r h)
theorem V5_launch (r : Ref sig .tc) (h : r ∈ launchRefs) : V5 m outs c r = V0 m c r :=
  (V5_of m outs c r ((by decide : ∀ r ∈ launchRefs, r ∉ hostOps1_2_W) r h)).trans (V4_launch m outs c r h)
theorem V6_launch (r : Ref sig .tc) (h : r ∈ launchRefs) : V6 m outs c r = V0 m c r :=
  (V6_of m outs c r ((by decide : ∀ r ∈ launchRefs, r ∉ ([main_v61_0, main_v61_1] : List (Ref sig .tc))) r h)).trans (V5_launch m outs c r h)
theorem V7_launch (r : Ref sig .tc) (h : r ∈ launchRefs) : V7 m outs c r = V0 m c r :=
  (V7_of m outs c r ((by decide : ∀ r ∈ launchRefs, r ∉ hostOps2_W) r h)).trans (V6_launch m outs c r h)
theorem V8_launch (r : Ref sig .tc) (h : r ∈ launchRefs) : V8 m outs c r = V0 m c r :=
  (V8_of m outs c r ((by decide : ∀ r ∈ launchRefs, r ∉ ([main_v68] : List (Ref sig .tc))) r h)).trans (V7_launch m outs c r h)
theorem V9_launch (r : Ref sig .tc) (h : r ∈ launchRefs) : V9 m outs c r = V0 m c r :=
  (V9_of m outs c r ((by decide : ∀ r ∈ launchRefs, r ∉ hostOps3_W) r h)).trans (V8_launch m outs c r h)
theorem V10_launch (r : Ref sig .tc) (h : r ∈ launchRefs) : V10 m outs c r = V0 m c r :=
  (V10_of m outs c r ((by decide : ∀ r ∈ launchRefs, r ∉ ([main_v71] : List (Ref sig .tc))) r h)).trans (V9_launch m outs c r h)
theorem V11_launch (r : Ref sig .tc) (h : r ∈ launchRefs) : V11 m outs c r = V0 m c r :=
  (V11_of m outs c r ((by decide : ∀ r ∈ launchRefs, r ∉ hostOps4_W) r h)).trans (V10_launch m outs c r h)
theorem V12_launch (r : Ref sig .tc) (h : r ∈ launchRefs) : V12 m outs c r = V0 m c r :=
  (V12_of m outs c r ((by decide : ∀ r ∈ launchRefs, r ∉ hostOps4_1_W) r h)).trans (V11_launch m outs c r h)
theorem V13_launch (r : Ref sig .tc) (h : r ∈ launchRefs) : V13 m outs c r = V0 m c r :=
  (V13_of m outs c r ((by decide : ∀ r ∈ launchRefs, r ∉ hostOps4_2_W) r h)).trans (V12_launch m outs c r h)
theorem V14_launch (r : Ref sig .tc) (h : r ∈ launchRefs) : V14 m outs c r = V0 m c r :=
  (V14_of m outs c r ((by decide : ∀ r ∈ launchRefs, r ∉ ([main_v122_0, main_v122_1] : List (Ref sig .tc))) r h)).trans (V13_launch m outs c r h)
theorem V15_launch (r : Ref sig .tc) (h : r ∈ launchRefs) : V15 m outs c r = V0 m c r :=
  (V15_of m outs c r ((by decide : ∀ r ∈ launchRefs, r ∉ hostOps5_W) r h)).trans (V14_launch m outs c r h)
theorem V16_launch (r : Ref sig .tc) (h : r ∈ launchRefs) : V16 m outs c r = V0 m c r :=
  (V16_of m outs c r ((by decide : ∀ r ∈ launchRefs, r ∉ ([main_v129] : List (Ref sig .tc))) r h)).trans (V15_launch m outs c r h)
theorem V17_launch (r : Ref sig .tc) (h : r ∈ launchRefs) : V17 m outs c r = V0 m c r :=
  (V17_of m outs c r ((by decide : ∀ r ∈ launchRefs, r ∉ hostOps6_W) r h)).trans (V16_launch m outs c r h)
theorem V18_launch (r : Ref sig .tc) (h : r ∈ launchRefs) : V18 m outs c r = V0 m c r :=
  (V18_of m outs c r ((by decide : ∀ r ∈ launchRefs, r ∉ ([main_v132] : List (Ref sig .tc))) r h)).trans (V17_launch m outs c r h)
theorem V19_launch (r : Ref sig .tc) (h : r ∈ launchRefs) : V19 m outs c r = V0 m c r :=
  (V19_of m outs c r ((by decide : ∀ r ∈ launchRefs, r ∉ hostOps7_W) r h)).trans (V18_launch m outs c r h)
theorem V20_launch (r : Ref sig .tc) (h : r ∈ launchRefs) : V20 m outs c r = V0 m c r :=
  (V20_of m outs c r ((by decide : ∀ r ∈ launchRefs, r ∉ hostOps7_1_W) r h)).trans (V19_launch m outs c r h)
theorem V21_launch (r : Ref sig .tc) (h : r ∈ launchRefs) : V21 m outs c r = V0 m c r :=
  (V21_of m outs c r ((by decide : ∀ r ∈ launchRefs, r ∉ hostOps7_2_W) r h)).trans (V20_launch m outs c r h)
theorem V22_launch (r : Ref sig .tc) (h : r ∈ launchRefs) : V22 m outs c r = V0 m c r :=
  (V22_of m outs c r ((by decide : ∀ r ∈ launchRefs, r ∉ ([main_v183_0, main_v183_1] : List (Ref sig .tc))) r h)).trans (V21_launch m outs c r h)
theorem V23_launch (r : Ref sig .tc) (h : r ∈ launchRefs) : V23 m outs c r = V0 m c r :=
  (V23_of m outs c r ((by decide : ∀ r ∈ launchRefs, r ∉ hostOps8_W) r h)).trans (V22_launch m outs c r h)
theorem V24_launch (r : Ref sig .tc) (h : r ∈ launchRefs) : V24 m outs c r = V0 m c r :=
  (V24_of m outs c r ((by decide : ∀ r ∈ launchRefs, r ∉ ([main_v190] : List (Ref sig .tc))) r h)).trans (V23_launch m outs c r h)
theorem V25_launch (r : Ref sig .tc) (h : r ∈ launchRefs) : V25 m outs c r = V0 m c r :=
  (V25_of m outs c r ((by decide : ∀ r ∈ launchRefs, r ∉ hostOps9_W) r h)).trans (V24_launch m outs c r h)
theorem V26_launch (r : Ref sig .tc) (h : r ∈ launchRefs) : V26 m outs c r = V0 m c r :=
  (V26_of m outs c r ((by decide : ∀ r ∈ launchRefs, r ∉ ([main_v193] : List (Ref sig .tc))) r h)).trans (V25_launch m outs c r h)
theorem V27_launch (r : Ref sig .tc) (h : r ∈ launchRefs) : V27 m outs c r = V0 m c r :=
  (V27_of m outs c r ((by decide : ∀ r ∈ launchRefs, r ∉ hostOps10_W) r h)).trans (V26_launch m outs c r h)
theorem V28_launch (r : Ref sig .tc) (h : r ∈ launchRefs) : V28 m outs c r = V0 m c r :=
  (V28_of m outs c r ((by decide : ∀ r ∈ launchRefs, r ∉ hostOps10_1_W) r h)).trans (V27_launch m outs c r h)
theorem V29_launch (r : Ref sig .tc) (h : r ∈ launchRefs) : V29 m outs c r = V0 m c r :=
  (V29_of m outs c r ((by decide : ∀ r ∈ launchRefs, r ∉ hostOps10_2_W) r h)).trans (V28_launch m outs c r h)
theorem V30_launch (r : Ref sig .tc) (h : r ∈ launchRefs) : V30 m outs c r = V0 m c r :=
  (V30_of m outs c r ((by decide : ∀ r ∈ launchRefs, r ∉ ([main_v244_0, main_v244_1] : List (Ref sig .tc))) r h)).trans (V29_launch m outs c r h)
theorem V31_launch (r : Ref sig .tc) (h : r ∈ launchRefs) : V31 m outs c r = V0 m c r :=
  (V31_of m outs c r ((by decide : ∀ r ∈ launchRefs, r ∉ hostOps11_W) r h)).trans (V30_launch m outs c r h)
theorem V32_launch (r : Ref sig .tc) (h : r ∈ launchRefs) : V32 m outs c r = V0 m c r :=
  (V32_of m outs c r ((by decide : ∀ r ∈ launchRefs, r ∉ ([main_v251] : List (Ref sig .tc))) r h)).trans (V31_launch m outs c r h)
theorem V33_launch (r : Ref sig .tc) (h : r ∈ launchRefs) : V33 m outs c r = V0 m c r :=
  (V33_of m outs c r ((by decide : ∀ r ∈ launchRefs, r ∉ hostOps12_W) r h)).trans (V32_launch m outs c r h)
theorem V34_launch (r : Ref sig .tc) (h : r ∈ launchRefs) : V34 m outs c r = V0 m c r :=
  (V34_of m outs c r ((by decide : ∀ r ∈ launchRefs, r ∉ ([main_v255] : List (Ref sig .tc))) r h)).trans (V33_launch m outs c r h)

theorem V2_edge (r : Ref sig .tc) (h : r ∈ edgeRefs) : V2 m outs c r = V1 m c r :=
  V2_of m outs c r ((by decide : ∀ r ∈ edgeRefs, r ∉ ([main_v10] : List (Ref sig .tc))) r h)
theorem V3_edge (r : Ref sig .tc) (h : r ∈ edgeRefs) : V3 m outs c r = V1 m c r :=
  (V3_of m outs c r ((by decide : ∀ r ∈ edgeRefs, r ∉ hostOps1_W) r h)).trans (V2_edge m outs c r h)
theorem V4_edge (r : Ref sig .tc) (h : r ∈ edgeRefs) : V4 m outs c r = V1 m c r :=
  (V4_of m outs c r ((by decide : ∀ r ∈ edgeRefs, r ∉ hostOps1_1_W) r h)).trans (V3_edge m outs c r h)
theorem V5_edge (r : Ref sig .tc) (h : r ∈ edgeRefs) : V5 m outs c r = V1 m c r :=
  (V5_of m outs c r ((by decide : ∀ r ∈ edgeRefs, r ∉ hostOps1_2_W) r h)).trans (V4_edge m outs c r h)
theorem V6_edge (r : Ref sig .tc) (h : r ∈ edgeRefs) : V6 m outs c r = V1 m c r :=
  (V6_of m outs c r ((by decide : ∀ r ∈ edgeRefs, r ∉ ([main_v61_0, main_v61_1] : List (Ref sig .tc))) r h)).trans (V5_edge m outs c r h)
theorem V7_edge (r : Ref sig .tc) (h : r ∈ edgeRefs) : V7 m outs c r = V1 m c r :=
  (V7_of m outs c r ((by decide : ∀ r ∈ edgeRefs, r ∉ hostOps2_W) r h)).trans (V6_edge m outs c r h)
theorem V8_edge (r : Ref sig .tc) (h : r ∈ edgeRefs) : V8 m outs c r = V1 m c r :=
  (V8_of m outs c r ((by decide : ∀ r ∈ edgeRefs, r ∉ ([main_v68] : List (Ref sig .tc))) r h)).trans (V7_edge m outs c r h)
theorem V9_edge (r : Ref sig .tc) (h : r ∈ edgeRefs) : V9 m outs c r = V1 m c r :=
  (V9_of m outs c r ((by decide : ∀ r ∈ edgeRefs, r ∉ hostOps3_W) r h)).trans (V8_edge m outs c r h)
theorem V10_edge (r : Ref sig .tc) (h : r ∈ edgeRefs) : V10 m outs c r = V1 m c r :=
  (V10_of m outs c r ((by decide : ∀ r ∈ edgeRefs, r ∉ ([main_v71] : List (Ref sig .tc))) r h)).trans (V9_edge m outs c r h)
theorem V11_edge (r : Ref sig .tc) (h : r ∈ edgeRefs) : V11 m outs c r = V1 m c r :=
  (V11_of m outs c r ((by decide : ∀ r ∈ edgeRefs, r ∉ hostOps4_W) r h)).trans (V10_edge m outs c r h)
theorem V12_edge (r : Ref sig .tc) (h : r ∈ edgeRefs) : V12 m outs c r = V1 m c r :=
  (V12_of m outs c r ((by decide : ∀ r ∈ edgeRefs, r ∉ hostOps4_1_W) r h)).trans (V11_edge m outs c r h)
theorem V13_edge (r : Ref sig .tc) (h : r ∈ edgeRefs) : V13 m outs c r = V1 m c r :=
  (V13_of m outs c r ((by decide : ∀ r ∈ edgeRefs, r ∉ hostOps4_2_W) r h)).trans (V12_edge m outs c r h)
theorem V14_edge (r : Ref sig .tc) (h : r ∈ edgeRefs) : V14 m outs c r = V1 m c r :=
  (V14_of m outs c r ((by decide : ∀ r ∈ edgeRefs, r ∉ ([main_v122_0, main_v122_1] : List (Ref sig .tc))) r h)).trans (V13_edge m outs c r h)
theorem V15_edge (r : Ref sig .tc) (h : r ∈ edgeRefs) : V15 m outs c r = V1 m c r :=
  (V15_of m outs c r ((by decide : ∀ r ∈ edgeRefs, r ∉ hostOps5_W) r h)).trans (V14_edge m outs c r h)
theorem V16_edge (r : Ref sig .tc) (h : r ∈ edgeRefs) : V16 m outs c r = V1 m c r :=
  (V16_of m outs c r ((by decide : ∀ r ∈ edgeRefs, r ∉ ([main_v129] : List (Ref sig .tc))) r h)).trans (V15_edge m outs c r h)
theorem V17_edge (r : Ref sig .tc) (h : r ∈ edgeRefs) : V17 m outs c r = V1 m c r :=
  (V17_of m outs c r ((by decide : ∀ r ∈ edgeRefs, r ∉ hostOps6_W) r h)).trans (V16_edge m outs c r h)
theorem V18_edge (r : Ref sig .tc) (h : r ∈ edgeRefs) : V18 m outs c r = V1 m c r :=
  (V18_of m outs c r ((by decide : ∀ r ∈ edgeRefs, r ∉ ([main_v132] : List (Ref sig .tc))) r h)).trans (V17_edge m outs c r h)
theorem V19_edge (r : Ref sig .tc) (h : r ∈ edgeRefs) : V19 m outs c r = V1 m c r :=
  (V19_of m outs c r ((by decide : ∀ r ∈ edgeRefs, r ∉ hostOps7_W) r h)).trans (V18_edge m outs c r h)
theorem V20_edge (r : Ref sig .tc) (h : r ∈ edgeRefs) : V20 m outs c r = V1 m c r :=
  (V20_of m outs c r ((by decide : ∀ r ∈ edgeRefs, r ∉ hostOps7_1_W) r h)).trans (V19_edge m outs c r h)
theorem V21_edge (r : Ref sig .tc) (h : r ∈ edgeRefs) : V21 m outs c r = V1 m c r :=
  (V21_of m outs c r ((by decide : ∀ r ∈ edgeRefs, r ∉ hostOps7_2_W) r h)).trans (V20_edge m outs c r h)
theorem V22_edge (r : Ref sig .tc) (h : r ∈ edgeRefs) : V22 m outs c r = V1 m c r :=
  (V22_of m outs c r ((by decide : ∀ r ∈ edgeRefs, r ∉ ([main_v183_0, main_v183_1] : List (Ref sig .tc))) r h)).trans (V21_edge m outs c r h)
theorem V23_edge (r : Ref sig .tc) (h : r ∈ edgeRefs) : V23 m outs c r = V1 m c r :=
  (V23_of m outs c r ((by decide : ∀ r ∈ edgeRefs, r ∉ hostOps8_W) r h)).trans (V22_edge m outs c r h)
theorem V24_edge (r : Ref sig .tc) (h : r ∈ edgeRefs) : V24 m outs c r = V1 m c r :=
  (V24_of m outs c r ((by decide : ∀ r ∈ edgeRefs, r ∉ ([main_v190] : List (Ref sig .tc))) r h)).trans (V23_edge m outs c r h)
theorem V25_edge (r : Ref sig .tc) (h : r ∈ edgeRefs) : V25 m outs c r = V1 m c r :=
  (V25_of m outs c r ((by decide : ∀ r ∈ edgeRefs, r ∉ hostOps9_W) r h)).trans (V24_edge m outs c r h)
theorem V26_edge (r : Ref sig .tc) (h : r ∈ edgeRefs) : V26 m outs c r = V1 m c r :=
  (V26_of m outs c r ((by decide : ∀ r ∈ edgeRefs, r ∉ ([main_v193] : List (Ref sig .tc))) r h)).trans (V25_edge m outs c r h)
theorem V27_edge (r : Ref sig .tc) (h : r ∈ edgeRefs) : V27 m outs c r = V1 m c r :=
  (V27_of m outs c r ((by decide : ∀ r ∈ edgeRefs, r ∉ hostOps10_W) r h)).trans (V26_edge m outs c r h)
theorem V28_edge (r : Ref sig .tc) (h : r ∈ edgeRefs) : V28 m outs c r = V1 m c r :=
  (V28_of m outs c r ((by decide : ∀ r ∈ edgeRefs, r ∉ hostOps10_1_W) r h)).trans (V27_edge m outs c r h)
theorem V29_edge (r : Ref sig .tc) (h : r ∈ edgeRefs) : V29 m outs c r = V1 m c r :=
  (V29_of m outs c r ((by decide : ∀ r ∈ edgeRefs, r ∉ hostOps10_2_W) r h)).trans (V28_edge m outs c r h)
theorem V30_edge (r : Ref sig .tc) (h : r ∈ edgeRefs) : V30 m outs c r = V1 m c r :=
  (V30_of m outs c r ((by decide : ∀ r ∈ edgeRefs, r ∉ ([main_v244_0, main_v244_1] : List (Ref sig .tc))) r h)).trans (V29_edge m outs c r h)
theorem V31_edge (r : Ref sig .tc) (h : r ∈ edgeRefs) : V31 m outs c r = V1 m c r :=
  (V31_of m outs c r ((by decide : ∀ r ∈ edgeRefs, r ∉ hostOps11_W) r h)).trans (V30_edge m outs c r h)
theorem V32_edge (r : Ref sig .tc) (h : r ∈ edgeRefs) : V32 m outs c r = V1 m c r :=
  (V32_of m outs c r ((by decide : ∀ r ∈ edgeRefs, r ∉ ([main_v251] : List (Ref sig .tc))) r h)).trans (V31_edge m outs c r h)
theorem V33_edge (r : Ref sig .tc) (h : r ∈ edgeRefs) : V33 m outs c r = V1 m c r :=
  (V33_of m outs c r ((by decide : ∀ r ∈ edgeRefs, r ∉ hostOps12_W) r h)).trans (V32_edge m outs c r h)
theorem V34_edge (r : Ref sig .tc) (h : r ∈ edgeRefs) : V34 m outs c r = V1 m c r :=
  (V34_of m outs c r ((by decide : ∀ r ∈ edgeRefs, r ∉ ([main_v255] : List (Ref sig .tc))) r h)).trans (V33_edge m outs c r h)

abbrev U0 (m : (ℓ : Loc nD τ sig) → Buf (Elt F) ℓ) (_outs : Outs (F := F)) (c : Dev nD) : Valuation τ sig (Elt F) := V0 m c
abbrev U1 (m : (ℓ : Loc nD τ sig) → Buf (Elt F) ℓ) (_outs : Outs (F := F)) (c : Dev nD) : Valuation τ sig (Elt F) := V1 m c
theorem U0_launch (r : Ref sig .tc) (h : r ∈ launchRefs) : U0 m outs c r = V0 m c r := rfl
theorem U1_launch (r : Ref sig .tc) (h : r ∈ launchRefs) : U1 m outs c r = V0 m c r := V1_launch m c r h

end Cert.KernelIdeal.Val
-- ==== Proof.Ref.GcnTerm.lean ====
import proofs.«169164_j46703474376898_1_alg».proof.ReferenceIdeal

noncomputable section

namespace Cert.ReferenceIdeal.Hand

open Cert.ReferenceIdeal Idealize.ShloMosaic
open Cert.ReferenceIdeal.Facts₀

variable {F : FTy → Type} [FloatOps F] [Facts₀]

def gcnT (hw : FVec F S50000x128 .f32) (src dst : IVec S800000 32) (ew : FVec F S800000 .f32) :
    FVec F S50000x128 .f32 :=

  let nodes : IVec S50000 32 := iotaInDim S50000 32 0

  let src2 : IVec S850000 32 := concatenate S850000 0 [⟨S800000, src⟩, ⟨S50000, nodes⟩] concatenates_S800000_S50000_S850000_d0
  let dst2 : IVec S850000 32 := concatenate S850000 0 [⟨S800000, dst⟩, ⟨S50000, nodes⟩] concatenates_S800000_S50000_S850000_d0
  let ew2 : FVec F S850000 .f32 :=
    concatenate S850000 0 [⟨S800000, ew⟩, ⟨S50000, broadcastInDim S50000 ![] bcast_S_S50000 (constant S_ .f32 0x3F800000#32)⟩]
      concatenates_S800000_S50000_S850000_d0

  let deg : FVec F S50000 .f32 :=
    Host.scatterAdd scatter_S50000_S850000x1_S850000_n_0_0_1
      (broadcastInDim S50000 ![] bcast_S_S50000 (constant S_ .f32 0x00000000#32))
      (broadcastInDim S850000x1 ![0] bcast_S850000_S850000x1_0 dst2) ew2

  let dinv : FVec F S50000 .f32 :=
    select (cmpf .ogt deg (broadcastInDim S50000 ![] bcast_S_S50000 (constant S_ .f32 0x00000000#32))) (Host.rsqrt deg)
      (broadcastInDim S50000 ![] bcast_S_S50000 (id (constant S_ .f32 0x00000000#32)))

  let wrap (ix : IVec S850000 32) : IVec S850000 32 :=
    select (cmpi .slt ix (broadcastInDim S850000 ![] bcast_S_S850000 (constantI S_ 32 0#32)))
      (addi ix (broadcastInDim S850000 ![] bcast_S_S850000 (constantI S_ 32 50000#32))) ix

  let norm : FVec F S850000 .f32 :=
    mulf
      (mulf (Host.gather gather_S50000_S850000x1_S850000_n_0_n_n_0_1_1 dinv (broadcastInDim S850000x1 ![0] bcast_S850000_S850000x1_0 (wrap src2))) ew2)
      (Host.gather gather_S50000_S850000x1_S850000_n_0_n_n_0_1_1 dinv (broadcastInDim S850000x1 ![0] bcast_S850000_S850000x1_0 (wrap dst2)))

  let msg : FVec F S850000x128 .f32 :=
    mulf
      (Host.gather gather_S50000x128_S850000x1_S850000x128_1_0_n_n_0_1_1128 hw (broadcastInDim S850000x1 ![0] bcast_S850000_S850000x1_0 (wrap src2)))
      (broadcastInDim S850000x128 ![0, 1] bcast_S850000x1_S850000x128_0_1 (broadcastInDim S850000x1 ![0] bcast_S850000_S850000x1_0 norm))

  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst2) msg

end Cert.ReferenceIdeal.Hand

end
-- ==== Proof.GcnEq.lean ====
import proofs.«169164_j46703474376898_1_alg».proof.Proof.KernelIdeal.GcnReads
import proofs.«169164_j46703474376898_1_alg».proof.Proof.Ref.GcnTerm

namespace Cert.ReferenceIdeal.Hand

open Idealize.ShloMosaic

theorem gcn_eq {F : FTy → Type} [FloatOps F] [Cert.ReferenceIdeal.Facts₀]
    (hw : FVec F Cert.ReferenceIdeal.S50000x128 .f32) (src dst : IVec Cert.ReferenceIdeal.S800000 32)
    (ew : FVec F Cert.ReferenceIdeal.S800000 .f32) :
    Cert.KernelIdeal.Host.gcnK hw src dst ew = gcnT hw src dst ew := rfl

end Cert.ReferenceIdeal.Hand
-- ==== Proof.LibConsts.lean ====
import Idealize.ShloMosaic.PureOps.Ideal
import proofs.«169164_j46703474376898_1_alg».proof.Proof.LibReal

noncomputable section

namespace Cert.LibConsts

open Idealize.ShloMosaic Cert.LibReal

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : Ideal.ofBits .f32 0x3727C5AC#32 = ((10995116 / 2 ^ 40 : ℝ) : EReal) := by
  simp [Ideal.ofBits, Ideal.ieee, -EReal.coe_mul]; norm_num

theorem ofBits_nan : Ideal.ofBits .f32 0x7FC00000#32 = ⊥ := by
  simp [Ideal.ofBits, Ideal.ieee]

theorem eps_real : IsReal (Ideal.ofBits .f32 0x3727C5AC#32) := ⟨_, ofBits_eps⟩

theorem eps_pos : (0 : EReal) < Ideal.ofBits .f32 0x3727C5AC#32 := by
  rw [ofBits_eps]
  exact EReal.coe_pos.mpr (by positivity)

theorem c50000_real : IsReal (Ideal.ofBits .f32 0x47435000#32) := ⟨_, ofBits_50000⟩

theorem coe_50000_pos : (0 : EReal) < ((50000 : ℝ) : EReal) := EReal.coe_pos.mpr (by norm_num)

theorem coe_50000_ne_zero : ((50000 : ℝ) : EReal) ≠ 0 := coe_50000_pos.ne'

theorem real_50000_eq_card : (50000 : ℝ) = ((50000 : ℕ) : ℝ) := by norm_num

theorem zero_word_add (x : EReal) : Ideal.ofBits .f32 0x00000000#32 + x = x := by
  rw [ofBits_zero, zero_add]

theorem add_zero_word (x : EReal) : x + Ideal.ofBits .f32 0x00000000#32 = x := by
  rw [ofBits_zero, add_zero]

theorem sitofp_zero (w : ℕ) : (((0#w).toInt : ℝ) : EReal) = 0 := by
  simp

theorem uitofp_zero (w : ℕ) : (((0#w).toNat : ℝ) : EReal) = 0 := by
  simp

theorem ofBits_50000_sub_zero : Ideal.ofBits .f32 0x47435000#32 - 0 = ((50000 : ℝ) : EReal) := by
  rw [sub_zero, ofBits_50000]

theorem ofBits_50000_sub_sitofp_zero (w : ℕ) :
    Ideal.ofBits .f32 0x47435000#32 - (((0#w).toInt : ℝ) : EReal) = ((50000 : ℝ) : EReal) := by
  rw [sitofp_zero, ofBits_50000_sub_zero]

theorem cmp_ogt_of_lt {x y : EReal} (h : y < x) : Ideal.cmp .ogt x y = 1#1 := by
  simp [Ideal.cmp, h]

theorem cmp_ogt_of_not_lt {x y : EReal} (h : ¬ y < x) : Ideal.cmp .ogt x y = 0#1 := by
  simp [Ideal.cmp, h]

theorem cmp_ogt_divisor (w : ℕ) :
    Ideal.cmp .ogt (Ideal.ofBits .f32 0x47435000#32 - (((0#w).toInt : ℝ) : EReal))
      (Ideal.ofBits .f32 0x00000000#32) = 1#1 := by
  rw [ofBits_50000_sub_sitofp_zero, ofBits_zero]
  exact cmp_ogt_of_lt coe_50000_pos

end Cert.LibConsts

end
-- ==== Proof.GcnReal.lean ====
import proofs.«169164_j46703474376898_1_alg».proof.Proof.Ref.GcnTerm
import proofs.«169164_j46703474376898_1_alg».proof.Proof.LibReal
import proofs.«169164_j46703474376898_1_alg».proof.Proof.LibConsts

noncomputable section

open scoped BigOperators

namespace Cert.GcnReal

open Idealize.ShloMosaic Cert.LibReal Cert.LibConsts

section Kinds
variable {s t : Shape} {φ : FTy}

theorem allReal_broadcastInDim (dims : Fin s.rank → Fin t.rank) (h : s.BroadcastsInDim t dims) {x : s.Idx → EReal}
    (hx : AllReal x) : AllReal (broadcastInDim t dims h x) :=
  fun _ => hx _

theorem allReal_gather {si : Shape} {w : Nat} (d : GatherDims s si t) {x : s.Idx → EReal} (hx : AllReal x)
    (idx : IVec si w) : AllReal (Host.gather d x idx) :=
  fun _ => hx _

theorem allReal_concatenate (a : Fin t.rank) (xs : List ((s : Shape) × (s.Idx → EReal)))
    (h : Shape.Concatenates (xs.map (·.1)) t a) (hxs : ∀ p ∈ xs, AllReal p.2) : AllReal (concatenate t a xs h) := by
  intro j
  unfold concatenate
  exact hxs _ (List.getElem_mem _) _

theorem allReal_constant_zero (s : Shape) : AllReal (constant (F := Ideal) s .f32 0x00000000#32) :=
  fun _ => ⟨0, ofBits_zero⟩

theorem allReal_constant_one (s : Shape) : AllReal (constant (F := Ideal) s .f32 0x3F800000#32) :=
  fun _ => ⟨1, ofBits_one⟩

theorem allReal_mulf {x y : FVec Ideal s φ} (hx : AllReal x) (hy : AllReal y) : AllReal (mulf x y) :=
  fun i => (hx i).mul (hy i)

theorem allReal_scatterAdd {si u : Shape} {w : Nat} (d : ScatterDims s si u) {x : FVec Ideal s φ} (hx : AllReal x)
    (idx : IVec si w) {upd : FVec Ideal u φ} (hu : AllReal upd) : AllReal (Host.scatterAdd d x idx upd) :=
  fun i => (hx i).add (isReal_finset_sum _ _ fun j _ => hu j)

theorem lt_of_cmp_ogt_eq_one {x y : EReal} (h : Ideal.cmp .ogt x y = 1#1) : y < x := by
  by_contra hlt
  rw [cmp_ogt_of_not_lt hlt] at h
  exact absurd h (by decide)

theorem allReal_guarded_rsqrt {deg z e : FVec Ideal s φ} (hdeg : AllReal deg) (hz : ∀ i, z i = 0) (he : AllReal e) :
    AllReal (select (cmpf .ogt deg z) (Host.rsqrt deg) e) := by
  intro i
  show IsReal (if Ideal.cmp .ogt (deg i) (z i) = 1#1 then Ideal.rsqrt (deg i) else e i)
  refine isReal_dite (fun hc => ?_) (fun _ => he i)
  have hpos : (0 : EReal) < deg i := by
    have := lt_of_cmp_ogt_eq_one hc
    rwa [hz i] at this
  exact (hdeg i).rsqrt hpos

end Kinds

end Cert.GcnReal

namespace Cert.ReferenceIdeal.Hand

open Idealize.ShloMosaic Cert.LibReal Cert.LibConsts Cert.GcnReal
open Cert.ReferenceIdeal Cert.ReferenceIdeal.Facts₀

theorem gcnT_real [Cert.ReferenceIdeal.Facts₀] (hw : FVec Ideal S50000x128 .f32) (src dst : IVec S800000 32)
    (ew : FVec Ideal S800000 .f32) (hhw : AllReal hw) (hew : AllReal ew) :
    AllReal (gcnT (F := Ideal) hw src dst ew) := by
  unfold gcnT
  extract_lets nodes src2 dst2 ew2 deg dinv wrap norm msg

  have hz50000 : AllReal (broadcastInDim S50000 ![] bcast_S_S50000 (constant (F := Ideal) S_ .f32 0x00000000#32)) :=
    allReal_broadcastInDim _ _ (allReal_constant_zero _)
  have hone : AllReal (broadcastInDim S50000 ![] bcast_S_S50000 (constant (F := Ideal) S_ .f32 0x3F800000#32)) :=
    allReal_broadcastInDim _ _ (allReal_constant_one _)

  have hew2 : AllReal ew2 := by
    refine allReal_concatenate _ _ _ ?_
    intro p hp
    simp only [List.mem_cons, List.not_mem_nil, or_false] at hp
    rcases hp with rfl | rfl
    · exact hew
    · exact hone

  have hdeg : AllReal deg := allReal_scatterAdd _ hz50000 _ hew2

  have hdinv : AllReal dinv :=
    allReal_guarded_rsqrt hdeg (fun _ => ofBits_zero) (allReal_broadcastInDim _ _ (allReal_constant_zero _))

  have hnorm : AllReal norm := allReal_mulf (allReal_mulf (allReal_gather _ hdinv _) hew2) (allReal_gather _ hdinv _)

  have hmsg : AllReal msg :=
    allReal_mulf (allReal_gather _ hhw _) (allReal_broadcastInDim _ _ (allReal_broadcastInDim _ _ hnorm))

  exact allReal_scatterAdd _ (allReal_broadcastInDim _ _ (allReal_constant_zero _)) _ hmsg

end Cert.ReferenceIdeal.Hand

end
-- ==== Proof.Ref.BNTerms.lean ====
import proofs.«169164_j46703474376898_1_alg».proof.ReferenceIdeal

noncomputable section

namespace Cert.ReferenceIdeal.Hand

open Cert.ReferenceIdeal
open Idealize.ShloMosaic

variable [Facts₀]
open Facts₀

variable {F : FTy → Type} [FloatOps F]

def biasT (agg : FVec F S50000x128 .f32) (b : FVec F S128 .f32) : FVec F S50000x128 .f32 :=
  addf agg (broadcastInDim S50000x128 ![0, 1] bcast_S1x128_S50000x128_0_1 (broadcastInDim S1x128 ![1] bcast_S128_S1x128_1 b))

def meanT (a : FVec F S50000x128 .f32) : FVec F S128 .f32 :=
  Host.divf (Host.reduceAdd a (constant S_ .f32 0x00000000#32) reducesTo_S50000x128_S128_d0 h_S_)
    (broadcastInDim S128 ![] bcast_S_S128 (constant S_ .f32 0x47435000#32))

def varT (a : FVec F S50000x128 .f32) : FVec F S128 .f32 :=
  select
    (broadcastInDim S128 ![] bcast_S_S128
      (cmpf (F := F) .ogt (subf (constant S_ .f32 0x47435000#32) (sitofp .f32 (constantI S_ 32 0#32))) (constant S_ .f32 0x00000000#32)))
    (Host.divf
      (Host.reduceAdd
        (mulf
          (subf a (broadcastInDim S50000x128 ![0, 1] bcast_S1x128_S50000x128_0_1
            (Host.divf (broadcastInDim S1x128 ![1] bcast_S128_S1x128_1 (Host.reduceAdd a (constant S_ .f32 0x00000000#32) reducesTo_S50000x128_S128_d0 h_S_))
              (broadcastInDim S1x128 ![] bcast_S_S1x128 (constant S_ .f32 0x47435000#32)))))
          (subf a (broadcastInDim S50000x128 ![0, 1] bcast_S1x128_S50000x128_0_1
            (Host.divf (broadcastInDim S1x128 ![1] bcast_S128_S1x128_1 (Host.reduceAdd a (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128 (subf (constant S_ .f32 0x47435000#32) (sitofp .f32 (constantI S_ 32 0#32)))))
    (broadcastInDim S128 ![] bcast_S_S128 (id (constant S_ .f32 0x7FC00000#32)))

def normT (a : FVec F S50000x128 .f32) (mean var g be : FVec F S128 .f32) : FVec F S50000x128 .f32 :=
  maximumf
    (addf
      (mulf
        (mulf
          (subf a (broadcastInDim S50000x128 ![0, 1] bcast_S1x128_S50000x128_0_1 (broadcastInDim S1x128 ![1] bcast_S128_S1x128_1 mean)))
          (broadcastInDim S50000x128 ![0, 1] bcast_S1x128_S50000x128_0_1 (broadcastInDim S1x128 ![1] bcast_S128_S1x128_1
            (Host.rsqrt (addf var (broadcastInDim S128 ![] bcast_S_S128 (constant S_ .f32 0x3727C5AC#32)))))))
        (broadcastInDim S50000x128 ![0, 1] bcast_S1x128_S50000x128_0_1 (broadcastInDim S1x128 ![1] bcast_S128_S1x128_1 g)))
      (broadcastInDim S50000x128 ![0, 1] bcast_S1x128_S50000x128_0_1 (broadcastInDim S1x128 ![1] bcast_S128_S1x128_1 be)))
    (broadcastInDim S50000x128 ![] bcast_S_S50000x128 (constant S_ .f32 0x00000000#32))

end Cert.ReferenceIdeal.Hand
-- ==== Proof.Ref.BNReads.lean ====
import proofs.«169164_j46703474376898_1_alg».proof.Proof.Ref.BNTerms
import Idealize.ShloMosaic.Lib.IdealHost
import Idealize.ShloMosaic.Lib.Pipeline.Value

noncomputable section

namespace Cert.ReferenceIdeal.Hand

open Cert.ReferenceIdeal
open Idealize.ShloMosaic

variable [Facts₀]
open Facts₀

section AtIdeal

open Idealize.ShloMosaic.ValueIdx

theorem ofBits_50000 : Ideal.ofBits .f32 0x47435000#32 = ((50000 : ℝ) : EReal) := by
  simp [Ideal.ofBits, Ideal.ieee, -EReal.coe_mul]; norm_num

theorem rows_apply {α : Type} (x : S128.Idx → α) (r : Fin 50000) (q : Fin 128) :
    broadcastInDim S50000x128 ![0, 1] bcast_S1x128_S50000x128_0_1 (broadcastInDim S1x128 ![1] bcast_S128_S1x128_1 x) (ix2 r q)
      = x (ix1 q) := by
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

theorem colSum_apply (a : FVec Ideal S50000x128 .f32) (w : BitVec 32) (q : Fin 128) :
    Host.reduceAdd a (constant (F := Ideal) S_ .f32 w) reducesTo_S50000x128_S128_d0 h_S_ (ix1 q)
      = Ideal.ofBits .f32 w + ∑ r : Fin 50000, a (ix2 r q) := by
  have h : S50000x128.Reduces [0] S128 := ⟨reducesTo_S50000x128_S128_d0.1, Nat.one_pos, reducesTo_S50000x128_S128_d0.2⟩
  rw [hostReduceAdd_apply, Ideal.hostReduceAdd_single reducesTo_S50000x128_S128_d0 h, constant_apply]
  refine congrArg (_ + ·) (Finset.sum_congr rfl fun k _ => ?_)
  refine congrArg a (funext fun b => Fin.ext ?_)
  match b with
  | ⟨0, _⟩ => rfl
  | ⟨1, _⟩ => rfl

theorem biasT_apply (agg : FVec Ideal S50000x128 .f32) (b : FVec Ideal S128 .f32) (r : Fin 50000) (q : Fin 128) :
    biasT (F := Ideal) agg b (ix2 r q) = agg (ix2 r q) + b (ix1 q) := by
  unfold biasT
  rw [addf_apply, rows_apply]

theorem meanT_apply (a : FVec Ideal S50000x128 .f32) (q : Fin 128) :
    meanT (F := Ideal) a (ix1 q)
      = Ideal.div (Ideal.ofBits .f32 0x00000000#32 + ∑ r : Fin 50000, a (ix2 r q)) (Ideal.ofBits .f32 0x47435000#32) := by
  unfold meanT
  rw [hostDivf_apply, colSum_apply, broadcastInDim_scalar_apply, constant_apply]

theorem varN_eq :
    subf (constant (F := Ideal) S_ .f32 0x47435000#32) (sitofp .f32 (constantI S_ 32 0#32)) ix0 = ((50000 : ℝ) : EReal) := by
  rw [subf_apply, constant_apply, sitofp_apply, ofBits_50000]
  show ((50000 : ℝ) : EReal) - ((((0#32 : BitVec 32).toInt : ℤ) : ℝ) : EReal) = _
  simp

theorem varGuard_eq :
    cmpf (F := Ideal) .ogt (subf (constant S_ .f32 0x47435000#32) (sitofp .f32 (constantI S_ 32 0#32))) (constant S_ .f32 0x00000000#32) ix0
      = 1#1 := by
  rw [cmpf_apply, varN_eq, constant_apply, Ideal.ofBits_zero_f32, Ideal.cmpf_def]
  unfold Ideal.cmp
  have h : (0 : EReal) < ((50000 : ℝ) : EReal) := by exact_mod_cast (by norm_num : (0 : ℝ) < 50000)
  simp [h]

theorem varT_apply (a : FVec Ideal S50000x128 .f32) (q : Fin 128) :
    varT (F := Ideal) a (ix1 q)
      = Ideal.div (Ideal.ofBits .f32 0x00000000#32
          + ∑ r : Fin 50000, (a (ix2 r q) - meanT (F := Ideal) a (ix1 q)) * (a (ix2 r q) - meanT (F := Ideal) a (ix1 q)))
        ((50000 : ℝ) : EReal) := by
  unfold varT
  rw [select_apply, broadcastInDim_scalar_apply, varGuard_eq, select_one, hostDivf_apply, colSum_apply,
    broadcastInDim_scalar_apply, varN_eq]
  have hμ : ∀ r : Fin 50000, broadcastInDim S50000x128 ![0, 1] bcast_S1x128_S50000x128_0_1
        (Host.divf (broadcastInDim S1x128 ![1] bcast_S128_S1x128_1 (Host.reduceAdd a (constant (F := Ideal) S_ .f32 0x00000000#32) reducesTo_S50000x128_S128_d0 h_S_))
          (broadcastInDim S1x128 ![] bcast_S_S1x128 (constant (F := Ideal) S_ .f32 0x47435000#32))) (ix2 r q)
      = meanT (F := Ideal) a (ix1 q) := by
    intro r
    refine (broadcastInDim_apply _ _ _ (ix2 r q) (ix2 (0 : Fin 1) q) fun b => ?_).trans ?_
    · match b with
      | ⟨0, _⟩ => rfl
      | ⟨1, _⟩ => rfl
    · rw [hostDivf_apply, broadcastInDim_scalar_apply, constant_apply, meanT_apply]
      refine congrArg (fun s => Ideal.div s (Ideal.ofBits .f32 0x47435000#32)) ?_
      refine (broadcastInDim_apply _ _ _ (ix2 (0 : Fin 1) q) (ix1 q) fun b => ?_).trans (colSum_apply a _ q)
      match b with
      | ⟨0, _⟩ => rfl
  simp only [mulf_apply, subf_apply, hμ]

theorem normT_apply (a : FVec Ideal S50000x128 .f32) (mean var g be : FVec Ideal S128 .f32) (r : Fin 50000) (q : Fin 128) :
    normT (F := Ideal) a mean var g be (ix2 r q)
      = max ((((a (ix2 r q) - mean (ix1 q)) * Ideal.rsqrt (var (ix1 q) + Ideal.ofBits .f32 0x3727C5AC#32)) * g (ix1 q)) + be (ix1 q))
          (Ideal.ofBits .f32 0x00000000#32) := by
  unfold normT
  rw [maximumf_apply, addf_apply, mulf_apply, mulf_apply, subf_apply, rows_apply, rows_apply, rows_apply, rows_apply,
    broadcastInDim_scalar_apply, constant_apply]
  show max ((((a (ix2 r q) - mean (ix1 q)) * Ideal.rsqrt (addf var (broadcastInDim S128 ![] bcast_S_S128 (constant (F := Ideal) S_ .f32 0x3727C5AC#32)) (ix1 q)))
      * g (ix1 q)) + be (ix1 q)) _ = _
  rw [addf_apply, broadcastInDim_scalar_apply, constant_apply]

end AtIdeal

end Cert.ReferenceIdeal.Hand
-- ==== Proof.Ref.Slices.lean ====
import proofs.«169164_j46703474376898_1_alg».proof.ReferenceIdeal

noncomputable section

namespace Cert.ReferenceIdeal.Hand

open Cert.ReferenceIdeal
open Idealize.ShloMosaic

variable [Facts₀]
open Facts₀

variable {F : FTy → Type} [FloatOps F]

def rowT (k : Fin 2) (p : FVec F S2x128 .f32) : FVec F S128 .f32 :=
  match k with
  | 0 => shapeCast S128 (extractStridedSlice S1x128 ![0, 0] p slices_S2x128_S1x128_0_0) shapeCasts_S1x128_S128
  | 1 => shapeCast S128 (extractStridedSlice S1x128 ![1, 0] p slices_S2x128_S1x128_1_0) shapeCasts_S1x128_S128

def matT (k : Fin 2) (W : FVec F S2x128x128 .f32) : FVec F S128x128 .f32 :=
  match k with
  | 0 => shapeCast S128x128 (extractStridedSlice S1x128x128 ![0, 0, 0] W slices_S2x128x128_S1x128x128_0_0_0) shapeCasts_S1x128x128_S128x128
  | 1 => shapeCast S128x128 (extractStridedSlice S1x128x128 ![1, 0, 0] W slices_S2x128x128_S1x128x128_1_0_0) shapeCasts_S1x128x128_S128x128

def edgeRowT (k : Fin 2) (ei : IVec S2x800000 32) : IVec S800000 32 :=
  match k with
  | 0 => shapeCast S800000 (extractStridedSlice S1x800000 ![0, 0] ei slices_S2x800000_S1x800000_0_0) shapeCasts_S1x800000_S800000
  | 1 => shapeCast S800000 (extractStridedSlice S1x800000 ![1, 0] ei slices_S2x800000_S1x800000_1_0) shapeCasts_S1x800000_S800000

theorem rowT_zero (p : FVec F S2x128 .f32) :
    rowT 0 p = shapeCast S128 (extractStridedSlice S1x128 ![0, 0] p slices_S2x128_S1x128_0_0) shapeCasts_S1x128_S128 := rfl
theorem rowT_one (p : FVec F S2x128 .f32) :
    rowT 1 p = shapeCast S128 (extractStridedSlice S1x128 ![1, 0] p slices_S2x128_S1x128_1_0) shapeCasts_S1x128_S128 := rfl
theorem matT_zero (W : FVec F S2x128x128 .f32) :
    matT 0 W = shapeCast S128x128 (extractStridedSlice S1x128x128 ![0, 0, 0] W slices_S2x128x128_S1x128x128_0_0_0) shapeCasts_S1x128x128_S128x128 := rfl
theorem matT_one (W : FVec F S2x128x128 .f32) :
    matT 1 W = shapeCast S128x128 (extractStridedSlice S1x128x128 ![1, 0, 0] W slices_S2x128x128_S1x128x128_1_0_0) shapeCasts_S1x128x128_S128x128 := rfl
theorem edgeRowT_zero (ei : IVec S2x800000 32) :
    edgeRowT 0 ei = shapeCast S800000 (extractStridedSlice S1x800000 ![0, 0] ei slices_S2x800000_S1x800000_0_0) shapeCasts_S1x800000_S800000 := rfl
theorem edgeRowT_one (ei : IVec S2x800000 32) :
    edgeRowT 1 ei = shapeCast S800000 (extractStridedSlice S1x800000 ![1, 0] ei slices_S2x800000_S1x800000_1_0) shapeCasts_S1x800000_S800000 := rfl

end Cert.ReferenceIdeal.Hand
-- ==== Proof.Ref.DotRead.lean ====
import proofs.«169164_j46703474376898_1_alg».proof.Proof.Gen.ReferenceIdeal
import Idealize.ShloMosaic.PureOps.Ideal.Laws
import Idealize.ShloMosaic.Lib.ValueIdx

noncomputable section

namespace Cert.ReferenceIdeal.Hand

open Cert.ReferenceIdeal
open Idealize.ShloMosaic Idealize.ShloMosaic.ValueIdx
open scoped BigOperators

theorem lhs_dot_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem lhs_dot_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_dot_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_dot_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

theorem dot_apply (h : FVec Ideal S50000x128 .f32) (W : FVec Ideal S128x128 .f32) (r : Fin 50000) (q : Fin 128) :
    Host.dotGeneral dot_S50000x128_S128x128_S50000x128_1_0_0_1_n_n none h W (ix2 r q) = ∑ k : Fin 128, h (ix2 r k) * W (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

end Cert.ReferenceIdeal.Hand
-- ==== Proof.LibLayer.lean ====
import proofs.«169164_j46703474376898_1_alg».proof.Proof.LibReal
import proofs.«169164_j46703474376898_1_alg».proof.Proof.LibBatchNorm
import proofs.«169164_j46703474376898_1_alg».proof.Proof.LibConsts

noncomputable section

open scoped BigOperators

namespace Cert.LibLayer

open Idealize.ShloMosaic Cert.LibReal Cert.LibBatchNorm Cert.LibConsts

abbrev mean {n : ℕ} (c : ℝ) (a : Fin n → EReal) : EReal := Ideal.div (∑ i, a i) (c : EReal)

abbrev varK {n : ℕ} (c : ℝ) (a : Fin n → EReal) : EReal :=
  Ideal.div (∑ i, a i * a i) (c : EReal) - mean c a * mean c a

abbrev varR {n : ℕ} (c : ℝ) (a : Fin n → EReal) : EReal :=
  Ideal.div (∑ i, (a i - mean c a) * (a i - mean c a)) (c : EReal)

abbrev bnRelu (x μ v ε g be : EReal) : EReal := max ((((x - μ) * Ideal.rsqrt (v + ε)) * g) + be) 0

theorem card_eq {n : ℕ} {c : ℝ} (hc : c = (n : ℝ)) : c = ((Finset.univ : Finset (Fin n)).card : ℝ) := by
  rw [Finset.card_univ, Fintype.card_fin, hc]

theorem pos_of {n : ℕ} {c : ℝ} (hc : c = (n : ℝ)) (hn : 0 < n) : 0 < c := by
  rw [hc]; exact Nat.cast_pos.mpr hn

theorem varK_eq_varR {n : ℕ} (a : Fin n → EReal) (ha : AllReal a) (c : ℝ) (hc : c = (n : ℝ)) (hn : 0 < n) :
    varK c a = varR c a :=
  (var_two_forms Finset.univ a ha c (card_eq hc) (pos_of hc hn)).symm

theorem mean_isReal {n : ℕ} (a : Fin n → EReal) (ha : AllReal a) (c : ℝ) (hc : c = (n : ℝ)) (hn : 0 < n) :
    IsReal (mean c a) :=
  isReal_mean Finset.univ a ha (pos_of hc hn).ne'

theorem varR_isReal {n : ℕ} (a : Fin n → EReal) (ha : AllReal a) (c : ℝ) (hc : c = (n : ℝ)) (hn : 0 < n) :
    IsReal (varR c a) :=
  isReal_var_centered Finset.univ a ha c (card_eq hc) (pos_of hc hn)

theorem varR_nonneg {n : ℕ} (a : Fin n → EReal) (ha : AllReal a) (c : ℝ) (hc : c = (n : ℝ)) (hn : 0 < n) :
    0 ≤ varR c a :=
  var_centered_nonneg Finset.univ a ha c (card_eq hc) (pos_of hc hn)

theorem varK_isReal {n : ℕ} (a : Fin n → EReal) (ha : AllReal a) (c : ℝ) (hc : c = (n : ℝ)) (hn : 0 < n) :
    IsReal (varK c a) :=
  isReal_var_moment Finset.univ a ha c (card_eq hc) (pos_of hc hn)

theorem varK_nonneg {n : ℕ} (a : Fin n → EReal) (ha : AllReal a) (c : ℝ) (hc : c = (n : ℝ)) (hn : 0 < n) :
    0 ≤ varK c a :=
  var_moment_nonneg Finset.univ a ha c (card_eq hc) (pos_of hc hn)

theorem varR_add_pos {n : ℕ} (a : Fin n → EReal) (ha : AllReal a) (c : ℝ) (hc : c = (n : ℝ)) (hn : 0 < n)
    {ε : EReal} (hε : IsReal ε) (hε0 : 0 < ε) : 0 < varR c a + ε :=
  (varR_isReal a ha c hc hn).nonneg_add_pos hε (varR_nonneg a ha c hc hn) hε0

theorem varK_add_pos {n : ℕ} (a : Fin n → EReal) (ha : AllReal a) (c : ℝ) (hc : c = (n : ℝ)) (hn : 0 < n)
    {ε : EReal} (hε : IsReal ε) (hε0 : 0 < ε) : 0 < varK c a + ε := by
  rw [varK_eq_varR a ha c hc hn]; exact varR_add_pos a ha c hc hn hε hε0

theorem rsqrt_varR_isReal {n : ℕ} (a : Fin n → EReal) (ha : AllReal a) (c : ℝ) (hc : c = (n : ℝ)) (hn : 0 < n)
    {ε : EReal} (hε : IsReal ε) (hε0 : 0 < ε) : IsReal (Ideal.rsqrt (varR c a + ε)) :=
  ((varR_isReal a ha c hc hn).add hε).rsqrt (varR_add_pos a ha c hc hn hε hε0)

theorem rsqrt_varK_isReal {n : ℕ} (a : Fin n → EReal) (ha : AllReal a) (c : ℝ) (hc : c = (n : ℝ)) (hn : 0 < n)
    {ε : EReal} (hε : IsReal ε) (hε0 : 0 < ε) : IsReal (Ideal.rsqrt (varK c a + ε)) := by
  rw [varK_eq_varR a ha c hc hn]; exact rsqrt_varR_isReal a ha c hc hn hε hε0

theorem rsqrt_varR_pos {n : ℕ} (a : Fin n → EReal) (ha : AllReal a) (c : ℝ) (hc : c = (n : ℝ)) (hn : 0 < n)
    {ε : EReal} (hε : IsReal ε) (hε0 : 0 < ε) : 0 < Ideal.rsqrt (varR c a + ε) := by
  have hpos := varR_add_pos a ha c hc hn hε hε0
  obtain ⟨v, hv⟩ := (varR_isReal a ha c hc hn).add hε
  rw [hv] at hpos ⊢
  exact rsqrt_coe_pos_pos (EReal.coe_pos.mp hpos)

theorem bnRelu_varK_eq_varR {n : ℕ} (a : Fin n → EReal) (ha : AllReal a) (c : ℝ) (hc : c = (n : ℝ)) (hn : 0 < n)
    (ε g be : EReal) (r : Fin n) :
    bnRelu (a r) (mean c a) (varK c a) ε g be = bnRelu (a r) (mean c a) (varR c a) ε g be := by
  rw [varK_eq_varR a ha c hc hn]

theorem bnRelu_bridge {n : ℕ} (a : Fin n → EReal) (ha : AllReal a) (c : ℝ) (hc : c = (n : ℝ)) (hn : 0 < n)
    (ε g be : EReal) (r : Fin n) :
    max ((((a r - Ideal.div (∑ i, a i) (c : EReal))
          * Ideal.rsqrt (Ideal.div (∑ i, a i * a i) (c : EReal)
              - Ideal.div (∑ i, a i) (c : EReal) * Ideal.div (∑ i, a i) (c : EReal) + ε)) * g) + be) 0
      = max ((((a r - Ideal.div (∑ i, a i) (c : EReal))
          * Ideal.rsqrt (Ideal.div (∑ i, (a i - Ideal.div (∑ j, a j) (c : EReal))
              * (a i - Ideal.div (∑ j, a j) (c : EReal))) (c : EReal) + ε)) * g) + be) 0 :=
  bnRelu_varK_eq_varR a ha c hc hn ε g be r

theorem bnRelu_isReal {n : ℕ} (a : Fin n → EReal) (ha : AllReal a) (c : ℝ) (hc : c = (n : ℝ)) (hn : 0 < n)
    {ε g be : EReal} (hε : IsReal ε) (hε0 : 0 < ε) (hg : IsReal g) (hbe : IsReal be) (r : Fin n) :
    IsReal (bnRelu (a r) (mean c a) (varR c a) ε g be) :=
  isReal_max_zero (((((ha r).sub (mean_isReal a ha c hc hn)).mul (rsqrt_varR_isReal a ha c hc hn hε hε0)).mul hg).add
    hbe)

theorem bnRelu_varK_isReal {n : ℕ} (a : Fin n → EReal) (ha : AllReal a) (c : ℝ) (hc : c = (n : ℝ)) (hn : 0 < n)
    {ε g be : EReal} (hε : IsReal ε) (hε0 : 0 < ε) (hg : IsReal g) (hbe : IsReal be) (r : Fin n) :
    IsReal (bnRelu (a r) (mean c a) (varK c a) ε g be) := by
  rw [bnRelu_varK_eq_varR a ha c hc hn]; exact bnRelu_isReal a ha c hc hn hε hε0 hg hbe r

theorem bnRelu_nonneg (x μ v ε g be : EReal) : 0 ≤ bnRelu x μ v ε g be := max_zero_nonneg _

theorem ref_form_eq (a : Fin 50000 → EReal) (ε g be : EReal) (r : Fin 50000) :
    max ((((a r - Ideal.div (Ideal.ofBits .f32 0x00000000#32 + ∑ i, a i) (Ideal.ofBits .f32 0x47435000#32))
          * Ideal.rsqrt (Ideal.div (Ideal.ofBits .f32 0x00000000#32
                + ∑ i, (a i - Ideal.div (Ideal.ofBits .f32 0x00000000#32 + ∑ j, a j) (Ideal.ofBits .f32 0x47435000#32))
                    * (a i - Ideal.div (Ideal.ofBits .f32 0x00000000#32 + ∑ j, a j) (Ideal.ofBits .f32 0x47435000#32)))
              (Ideal.ofBits .f32 0x47435000#32 - (((0#32).toInt : ℝ) : EReal)) + ε)) * g) + be)
        (Ideal.ofBits .f32 0x00000000#32)
      = bnRelu (a r) (mean 50000 a) (varR 50000 a) ε g be := by
  simp only [ofBits_zero, ofBits_50000, zero_add, BitVec.toInt_zero, Int.cast_zero, EReal.coe_zero, sub_zero]

theorem kernel_form_eq_ref_form (a : Fin 50000 → EReal) (ha : AllReal a) (ε g be : EReal) (r : Fin 50000) :
    bnRelu (a r) (mean 50000 a) (varK 50000 a) ε g be
      = max ((((a r - Ideal.div (Ideal.ofBits .f32 0x00000000#32 + ∑ i, a i) (Ideal.ofBits .f32 0x47435000#32))
          * Ideal.rsqrt (Ideal.div (Ideal.ofBits .f32 0x00000000#32
                + ∑ i, (a i - Ideal.div (Ideal.ofBits .f32 0x00000000#32 + ∑ j, a j) (Ideal.ofBits .f32 0x47435000#32))
                    * (a i - Ideal.div (Ideal.ofBits .f32 0x00000000#32 + ∑ j, a j) (Ideal.ofBits .f32 0x47435000#32)))
              (Ideal.ofBits .f32 0x47435000#32 - (((0#32).toInt : ℝ) : EReal)) + ε)) * g) + be)
        (Ideal.ofBits .f32 0x00000000#32) := by
  rw [ref_form_eq, bnRelu_varK_eq_varR a ha 50000 real_50000_eq_card (by norm_num)]

theorem isReal_sum_mul {ι : Type*} [Fintype ι] (h w : ι → EReal) (hh : AllReal h) (hw : AllReal w) :
    IsReal (∑ i, h i * w i) :=
  isReal_finset_sum _ _ fun i _ => (hh i).mul (hw i)

theorem isReal_finset_sum_mul {ι : Type*} (s : Finset ι) (h w : ι → EReal) (hh : ∀ i ∈ s, IsReal (h i))
    (hw : ∀ i ∈ s, IsReal (w i)) : IsReal (∑ i ∈ s, h i * w i) :=
  isReal_finset_sum _ _ fun i hi => (hh i hi).mul (hw i hi)

theorem isReal_acc_add_sum_mul {ι : Type*} [Fintype ι] {acc : EReal} (hacc : IsReal acc) (h w : ι → EReal)
    (hh : AllReal h) (hw : AllReal w) : IsReal (acc + ∑ i, h i * w i) :=
  hacc.add (isReal_sum_mul h w hh hw)

end Cert.LibLayer

end
-- ==== Proof.LayerLib.lean ====
import proofs.«169164_j46703474376898_1_alg».proof.Proof.Ref.BNReads
import proofs.«169164_j46703474376898_1_alg».proof.Proof.Ref.Slices
import proofs.«169164_j46703474376898_1_alg».proof.Proof.Ref.DotRead
import proofs.«169164_j46703474376898_1_alg».proof.Proof.LibLayer
import Idealize.ShloMosaic.Lib.Pipeline.Value
import Idealize.ShloMosaic.Lib.ValueLayout

noncomputable section

namespace Cert.ReferenceIdeal.Hand

open Cert.ReferenceIdeal
open Idealize.ShloMosaic Idealize.ShloMosaic.ValueIdx
open Cert.LibReal Cert.LibLayer
open scoped BigOperators

theorem rowT_zero_apply {F : FTy → Type} [FloatOps F] (p : FVec F S2x128 .f32) (q : Fin 128) :
    rowT 0 p (ix1 q) = p (ix2 (0 : Fin 2) q) := by
  rw [rowT_zero]
  exact (shapeCast_1a_a_apply _ _ q).trans
    (extractStridedSlice_apply _ _ _ _ _ fun a => match a with
      | ⟨0, _⟩ => rfl
      | ⟨1, _⟩ => by show q.val = 0 + q.val; omega)

theorem rowT_one_apply {F : FTy → Type} [FloatOps F] (p : FVec F S2x128 .f32) (q : Fin 128) :
    rowT 1 p (ix1 q) = p (ix2 (1 : Fin 2) q) := by
  rw [rowT_one]
  exact (shapeCast_1a_a_apply _ _ q).trans
    (extractStridedSlice_apply _ _ _ _ _ fun a => match a with
      | ⟨0, _⟩ => rfl
      | ⟨1, _⟩ => by show q.val = 0 + q.val; omega)

theorem rowT_real (k : Fin 2) (p : FVec Ideal S2x128 .f32) (hp : AllReal p) : AllReal (rowT k p) := by
  intro j
  obtain ⟨q, rfl⟩ : ∃ q : Fin 128, j = ix1 q := ⟨j 0, eq_ix1 j⟩
  match k with
  | 0 => rw [rowT_zero_apply]; exact hp _
  | 1 => rw [rowT_one_apply]; exact hp _

theorem matT_zero_apply {F : FTy → Type} [FloatOps F] (W : FVec F S2x128x128 .f32) (k q : Fin 128) :
    matT 0 W (ix2 k q) = W (ix3 (0 : Fin 2) k q) := by
  rw [matT_zero]
  exact (shapeCast_1ab_ab_apply _ _ k q).trans
    (extractStridedSlice_apply _ _ _ _ _ fun a => match a with
      | ⟨0, _⟩ => rfl
      | ⟨1, _⟩ => by show k.val = 0 + k.val; omega
      | ⟨2, _⟩ => by show q.val = 0 + q.val; omega)

theorem matT_one_apply {F : FTy → Type} [FloatOps F] (W : FVec F S2x128x128 .f32) (k q : Fin 128) :
    matT 1 W (ix2 k q) = W (ix3 (1 : Fin 2) k q) := by
  rw [matT_one]
  exact (shapeCast_1ab_ab_apply _ _ k q).trans
    (extractStridedSlice_apply _ _ _ _ _ fun a => match a with
      | ⟨0, _⟩ => rfl
      | ⟨1, _⟩ => by show k.val = 0 + k.val; omega
      | ⟨2, _⟩ => by show q.val = 0 + q.val; omega)

theorem matT_real (k : Fin 2) (W : FVec Ideal S2x128x128 .f32) (hW : AllReal W) : AllReal (matT k W) := by
  intro j
  obtain ⟨a, b, rfl⟩ : ∃ (a b : Fin 128), j = ix2 a b := ⟨j 0, j 1, eq_ix2 j⟩
  match k with
  | 0 => rw [matT_zero_apply]; exact hW _
  | 1 => rw [matT_one_apply]; exact hW _

theorem dot_real (h : FVec Ideal S50000x128 .f32) (W : FVec Ideal S128x128 .f32) (hh : AllReal h) (hW : AllReal W) :
    AllReal (Host.dotGeneral dot_S50000x128_S128x128_S50000x128_1_0_0_1_n_n none h W) := by
  intro i
  obtain ⟨r, q, rfl⟩ : ∃ (r : Fin 50000) (q : Fin 128), i = ix2 r q := ⟨i 0, i 1, eq_ix2 i⟩
  rw [dot_apply]
  exact isReal_sum_mul _ _ (fun k => hh _) (fun k => hW _)

theorem biasT_real (agg : FVec Ideal S50000x128 .f32) (b : FVec Ideal S128 .f32) (ha : AllReal agg) (hb : AllReal b) :
    AllReal (biasT agg b) := by
  intro i
  obtain ⟨r, q, rfl⟩ : ∃ (r : Fin 50000) (q : Fin 128), i = ix2 r q := ⟨i 0, i 1, eq_ix2 i⟩
  rw [biasT_apply]
  exact (ha _).add (hb _)

abbrev col (A : FVec Ideal S50000x128 .f32) (q : Fin 128) : Fin 50000 → EReal := fun r => A (ix2 r q)

theorem ref_entry (A : FVec Ideal S50000x128 .f32) (g be : FVec Ideal S128 .f32) (r : Fin 50000) (q : Fin 128) :
    normT A (meanT A) (varT A) g be (ix2 r q)
      = bnRelu (A (ix2 r q)) (mean 50000 (col A q)) (varR 50000 (col A q)) (Ideal.ofBits .f32 0x3727C5AC#32) (g (ix1 q)) (be (ix1 q)) := by
  rw [normT_apply, varT_apply, meanT_apply]
  simp only [Ideal.ofBits_zero_f32, ofBits_50000, zero_add]

theorem kernel_entry (a : Fin 50000 → EReal) (g be : EReal) (r : Fin 50000) :
    max ((((a r - Ideal.div (∑ i, a i) (Ideal.ofBits .f32 0x47435000#32))
          * Ideal.rsqrt (Ideal.div (∑ i, a i * a i) (Ideal.ofBits .f32 0x47435000#32)
              - Ideal.div (∑ i, a i) (Ideal.ofBits .f32 0x47435000#32) * Ideal.div (∑ i, a i) (Ideal.ofBits .f32 0x47435000#32)
              + Ideal.ofBits .f32 0x3727C5AC#32)) * g) + be) (Ideal.ofBits .f32 0x00000000#32)
      = bnRelu (a r) (mean 50000 a) (varK 50000 a) (Ideal.ofBits .f32 0x3727C5AC#32) g be := by
  simp only [Ideal.ofBits_zero_f32, ofBits_50000]

theorem kernel_eq_ref (A : FVec Ideal S50000x128 .f32) (hA : AllReal A) (g be : FVec Ideal S128 .f32) (r : Fin 50000) (q : Fin 128) :
    max ((((A (ix2 r q) - Ideal.div (∑ i : Fin 50000, A (ix2 i q)) (Ideal.ofBits .f32 0x47435000#32))
          * Ideal.rsqrt (Ideal.div (∑ i : Fin 50000, A (ix2 i q) * A (ix2 i q)) (Ideal.ofBits .f32 0x47435000#32)
              - Ideal.div (∑ i : Fin 50000, A (ix2 i q)) (Ideal.ofBits .f32 0x47435000#32) * Ideal.div (∑ i : Fin 50000, A (ix2 i q)) (Ideal.ofBits .f32 0x47435000#32)
              + Ideal.ofBits .f32 0x3727C5AC#32)) * g (ix1 q)) + be (ix1 q)) (Ideal.ofBits .f32 0x00000000#32)
      = normT A (meanT A) (varT A) g be (ix2 r q) :=
  (kernel_entry (col A q) (g (ix1 q)) (be (ix1 q)) r).trans
    ((bnRelu_varK_eq_varR (col A q) (fun i => hA _) 50000 Cert.LibConsts.real_50000_eq_card (by norm_num) _ _ _ r).trans
      (ref_entry A g be r q).symm)

theorem normT_real (A : FVec Ideal S50000x128 .f32) (hA : AllReal A) (g be : FVec Ideal S128 .f32) (hg : AllReal g) (hbe : AllReal be) :
    AllReal (normT A (meanT A) (varT A) g be) := by
  intro i
  obtain ⟨r, q, rfl⟩ : ∃ (r : Fin 50000) (q : Fin 128), i = ix2 r q := ⟨i 0, i 1, eq_ix2 i⟩
  rw [ref_entry]
  exact bnRelu_isReal (col A q) (fun i => hA _) 50000 Cert.LibConsts.real_50000_eq_card (by norm_num)
    Cert.LibConsts.eps_real Cert.LibConsts.eps_pos (hg _) (hbe _) r

end Cert.ReferenceIdeal.Hand
-- ==== Proof.KernelIdeal.Layer1.lean ====
import proofs.«169164_j46703474376898_1_alg».proof.Proof.KernelIdeal.Seg0
import proofs.«169164_j46703474376898_1_alg».proof.Proof.KernelIdeal.Seg1
import proofs.«169164_j46703474376898_1_alg».proof.Proof.KernelIdeal.Seg2
import proofs.«169164_j46703474376898_1_alg».proof.Proof.KernelIdeal.ValA0
import proofs.«169164_j46703474376898_1_alg».proof.Proof.KernelIdeal.ValS1
import proofs.«169164_j46703474376898_1_alg».proof.Proof.KernelIdeal.ValN2
import proofs.«169164_j46703474376898_1_alg».proof.Proof.KernelIdeal.HostReads
import proofs.«169164_j46703474376898_1_alg».proof.Proof.KernelIdeal.GcnReads
import proofs.«169164_j46703474376898_1_alg».proof.Proof.KernelIdeal.Carry
import proofs.«169164_j46703474376898_1_alg».proof.Proof.GcnEq
import proofs.«169164_j46703474376898_1_alg».proof.Proof.GcnReal
import proofs.«169164_j46703474376898_1_alg».proof.Proof.LayerLib
import Idealize.ShloMosaic.Lib.Pipeline.Value

set_option maxRecDepth 16384

noncomputable section

namespace Cert.KernelIdeal.Val

open Cert.KernelIdeal Cert.KernelIdeal.Gen Cert.KernelIdeal.Reg Cert.KernelIdeal.Run Cert.KernelIdeal.Host
open Cert.ReferenceIdeal.Hand Cert.LibReal
open Idealize.ShloMosaic Idealize.ShloMosaic.TcCoe Idealize.SL.Sem Idealize.ShloMosaic.ValueIdx
open scoped BigOperators

variable (m : (ℓ : Loc nD τ sig) → Buf (Elt Ideal) ℓ) (c : Dev nD)

abbrev eiL1 : IVec S2x800000 32 := m ((c : Thread nD τ).loc main_arg1)
abbrev ewL1 : FVec Ideal S800000 .f32 := m ((c : Thread nD τ).loc main_arg2)
abbrev wsL1 : FVec Ideal S2x128x128 .f32 := m ((c : Thread nD τ).loc main_arg5)
abbrev bsL1 : FVec Ideal S2x128 .f32 := m ((c : Thread nD τ).loc main_arg6)
abbrev gsL1 : FVec Ideal S2x128 .f32 := m ((c : Thread nD τ).loc main_arg7)
abbrev besL1 : FVec Ideal S2x128 .f32 := m ((c : Thread nD τ).loc main_arg8)

abbrev in1 : S50000x128.Idx → EReal := U1 m (outs m) c main_arg0
abbrev hw1 : S50000x128.Idx → EReal := V2 m (outs m) c main_v10
abbrev agg1 : S50000x128.Idx → EReal := V5 m (outs m) c main_v51
abbrev brow1 : S1x128.Idx → EReal := V5 m (outs m) c main_v58
abbrev grow1 : S1x128.Idx → EReal := V5 m (outs m) c main_v59
abbrev berow1 : S1x128.Idx → EReal := V5 m (outs m) c main_v60
abbrev sum1 : S1x128.Idx → EReal := V6 m (outs m) c main_v61_0
abbrev sq1 : S1x128.Idx → EReal := V6 m (outs m) c main_v61_1
abbrev mrow1 : S1x128.Idx → EReal := V7 m (outs m) c main_v63
abbrev vrow1 : S1x128.Idx → EReal := V7 m (outs m) c main_v67
abbrev out1 : S50000x128.Idx → EReal := V8 m (outs m) c main_v68

theorem act1_eq : act0 (rd (U1 m (o0 m))) c = in1 m c :=
  congrFun (entry0 m c).symm (Proc.devRef .tc main_arg0)

theorem wgt1_apply (k q : Fin 128) : wgt0 (rd (U1 m (o0 m))) c (ix2 k q) = matT 0 (wsL1 m c) (ix2 k q) := by
  refine (h0_v9_apply (U0 m (o0 m) c) k q).trans ?_
  refine (congrFun (U0_launch m (o0 m) c main_arg5 (by decide)) (ix3 (0 : Fin 2) k q)).trans ?_
  exact (matT_zero_apply (wsL1 m c) k q).symm

theorem hw1_eq (H : FVec Ideal S50000x128 .f32) (hin : in1 m c = H) :
    hw1 m c = Host.dotGeneral Cert.ReferenceIdeal.dot_S50000x128_S128x128_S50000x128_1_0_0_1_n_n none H (matT 0 (wsL1 m c)) := by
  show rd (V2 m (outs m)) c main_v10 = _
  rw [outval0_2, final0]
  funext i
  obtain ⟨r, q, rfl⟩ : ∃ (r : Fin 50000) (q : Fin 128), i = ix2 r q := ⟨i 0, i 1, eq_ix2 i⟩
  rw [rowProd_apply]
  refine Eq.trans ?_ (dot_apply H (matT 0 (wsL1 m c)) r q).symm
  refine Finset.sum_congr rfl fun k _ => ?_
  exact congrArg₂ (· * ·) ((congrFun (act1_eq m c) (ix2 r k)).trans (congrFun hin (ix2 r k))) (wgt1_apply m c k q)

theorem src1_eq : (V2 m (outs m) c main_v1 : S800000.Idx → BitVec 32) = edgeRowT 0 (eiL1 m c) :=
  (V2_edge m (outs m) c main_v1 (by decide)).trans (h0_v1 (V0 m c))
theorem dst1_eq : (V2 m (outs m) c main_v3 : S800000.Idx → BitVec 32) = edgeRowT 1 (eiL1 m c) :=
  (V2_edge m (outs m) c main_v3 (by decide)).trans (h0_v3 (V0 m c))
theorem ew1_eq : (V2 m (outs m) c main_arg2 : FVec Ideal S800000 .f32) = ewL1 m c :=
  V2_launch m (outs m) c main_arg2 (by decide)

theorem agg1_carry : (V7 m (outs m) c main_v51 : S50000x128.Idx → EReal) = agg1 m c :=
  (V7_of m (outs m) c main_v51 (by decide)).trans (V6_of m (outs m) c main_v51 (by decide))
theorem brow1_carry : (V7 m (outs m) c main_v58 : S1x128.Idx → EReal) = brow1 m c :=
  (V7_of m (outs m) c main_v58 (by decide)).trans (V6_of m (outs m) c main_v58 (by decide))
theorem grow1_carry : (V7 m (outs m) c main_v59 : S1x128.Idx → EReal) = grow1 m c :=
  (V7_of m (outs m) c main_v59 (by decide)).trans (V6_of m (outs m) c main_v59 (by decide))
theorem berow1_carry : (V7 m (outs m) c main_v60 : S1x128.Idx → EReal) = berow1 m c :=
  (V7_of m (outs m) c main_v60 (by decide)).trans (V6_of m (outs m) c main_v60 (by decide))

theorem mrow1_apply (j : S1x128.Idx) : mrow1 m c j = Ideal.div (sum1 m c j) (Ideal.ofBits .f32 0x47435000#32) :=
  h2_v63_apply (V6 m (outs m) c) j
theorem vrow1_apply (j : S1x128.Idx) : vrow1 m c j
    = Ideal.div (sq1 m c j) (Ideal.ofBits .f32 0x47435000#32)
      - Ideal.div (sum1 m c j) (Ideal.ofBits .f32 0x47435000#32) * Ideal.div (sum1 m c j) (Ideal.ofBits .f32 0x47435000#32) :=
  h2_v67_apply (V6 m (outs m) c) j

theorem agg1_eq : agg1 m c = gcnT (hw1 m c) (edgeRowT 0 (eiL1 m c)) (edgeRowT 1 (eiL1 m c)) (ewL1 m c) := by
  refine (h1_v51 (V2 m (outs m) c)).trans ?_
  rw [gcn_eq, src1_eq, dst1_eq, ew1_eq]

theorem prow1_apply (p : FVec Ideal S2x128 .f32) (q : Fin 128) : paramRow0 p (ix2 (0 : Fin 1) q) = rowT 0 p (ix1 q) := by
  unfold paramRow0
  rw [asRow_apply, rowT_zero]

theorem brow1_apply (q : Fin 128) : brow1 m c (ix2 (0 : Fin 1) q) = rowT 0 (bsL1 m c) (ix1 q) := by
  refine (congrFun (h1_v58 (V2 m (outs m) c)) (ix2 (0 : Fin 1) q)).trans ?_
  rw [show (V2 m (outs m) c main_arg6 : FVec Ideal S2x128 .f32) = bsL1 m c from
    V2_launch m (outs m) c main_arg6 (by decide)]
  exact prow1_apply _ q
theorem grow1_apply (q : Fin 128) : grow1 m c (ix2 (0 : Fin 1) q) = rowT 0 (gsL1 m c) (ix1 q) := by
  refine (congrFun (h1_v59 (V2 m (outs m) c)) (ix2 (0 : Fin 1) q)).trans ?_
  rw [show (V2 m (outs m) c main_arg7 : FVec Ideal S2x128 .f32) = gsL1 m c from
    V2_launch m (outs m) c main_arg7 (by decide)]
  exact prow1_apply _ q
theorem berow1_apply (q : Fin 128) : berow1 m c (ix2 (0 : Fin 1) q) = rowT 0 (besL1 m c) (ix1 q) := by
  refine (congrFun (h1_v60 (V2 m (outs m) c)) (ix2 (0 : Fin 1) q)).trans ?_
  rw [show (V2 m (outs m) c main_arg8 : FVec Ideal S2x128 .f32) = besL1 m c from
    V2_launch m (outs m) c main_arg8 (by decide)]
  exact prow1_apply _ q

theorem sum1_apply (q : Fin 128) : sum1 m c (ix2 (0 : Fin 1) q) = ∑ r : Fin 50000, (agg1 m c (ix2 r q) + brow1 m c (ix2 (0 : Fin 1) q)) := by
  show rd (V6 m (outs m)) c main_v61_0 (ix2 (0 : Fin 1) q) = _
  rw [outval1_2]
  exact final1_sum (rd (V5 m (o1 m))) c q
theorem sq1_apply (q : Fin 128) : sq1 m c (ix2 (0 : Fin 1) q)
    = ∑ r : Fin 50000, (agg1 m c (ix2 r q) + brow1 m c (ix2 (0 : Fin 1) q)) * (agg1 m c (ix2 r q) + brow1 m c (ix2 (0 : Fin 1) q)) := by
  show rd (V6 m (outs m)) c main_v61_1 (ix2 (0 : Fin 1) q) = _
  rw [outval1_3]
  exact final1_sq (rd (V5 m (o1 m))) c q

abbrev aggN1 : S50000x128.Idx → EReal := V7 m (outs m) c main_v51
abbrev browN1 : S1x128.Idx → EReal := V7 m (outs m) c main_v58
abbrev growN1 : S1x128.Idx → EReal := V7 m (outs m) c main_v59
abbrev berowN1 : S1x128.Idx → EReal := V7 m (outs m) c main_v60

theorem out1_apply (r : Fin 50000) (q : Fin 128) : out1 m c (ix2 r q)
    = max ((((agg1 m c (ix2 r q) + brow1 m c (ix2 (0 : Fin 1) q)) - mrow1 m c (ix2 (0 : Fin 1) q))
          * Ideal.rsqrt (vrow1 m c (ix2 (0 : Fin 1) q) + Ideal.ofBits .f32 0x3727C5AC#32)) * grow1 m c (ix2 (0 : Fin 1) q) + berow1 m c (ix2 (0 : Fin 1) q))
        (Ideal.ofBits .f32 0x00000000#32) := by
  show rd (V8 m (outs m)) c main_v68 (ix2 r q) = _
  rw [outval2_6]
  refine (final2_apply (rd (V7 m (o2 m))) c r q).trans ?_
  show max ((((aggN1 m c (ix2 r q) + browN1 m c (ix2 (0 : Fin 1) q)) - mrow1 m c (ix2 (0 : Fin 1) q))
      * Ideal.rsqrt (vrow1 m c (ix2 (0 : Fin 1) q) + Ideal.ofBits .f32 0x3727C5AC#32)) * growN1 m c (ix2 (0 : Fin 1) q) + berowN1 m c (ix2 (0 : Fin 1) q))
      (Ideal.ofBits .f32 0x00000000#32) = _
  rw [show aggN1 m c = agg1 m c from agg1_carry m c, show browN1 m c = brow1 m c from brow1_carry m c,
    show growN1 m c = grow1 m c from grow1_carry m c, show berowN1 m c = berow1 m c from berow1_carry m c]

abbrev preT1 (H : FVec Ideal S50000x128 .f32) : FVec Ideal S50000x128 .f32 :=
  biasT (gcnT (Host.dotGeneral Cert.ReferenceIdeal.dot_S50000x128_S128x128_S50000x128_1_0_0_1_n_n none H (matT 0 (wsL1 m c)))
    (edgeRowT 0 (eiL1 m c)) (edgeRowT 1 (eiL1 m c)) (ewL1 m c)) (rowT 0 (bsL1 m c))

theorem pre1_apply (H : FVec Ideal S50000x128 .f32) (hin : in1 m c = H) (r : Fin 50000) (q : Fin 128) :
    agg1 m c (ix2 r q) + brow1 m c (ix2 (0 : Fin 1) q) = preT1 m c H (ix2 r q) := by
  unfold preT1
  rw [biasT_apply, agg1_eq, hw1_eq m c H hin, brow1_apply]

theorem pre1_real (H : FVec Ideal S50000x128 .f32) (hH : AllReal H) (hEW : AllReal (ewL1 m c)) (hWS : AllReal (wsL1 m c))
    (hBS : AllReal (bsL1 m c)) : AllReal (preT1 m c H) :=
  biasT_real _ _ (gcnT_real _ _ _ _ (dot_real _ _ hH (matT_real 0 _ hWS)) hEW) (rowT_real 0 _ hBS)

theorem layer1 (H : FVec Ideal S50000x128 .f32) (hin : in1 m c = H) (hH : AllReal H) (hEW : AllReal (ewL1 m c))
    (hWS : AllReal (wsL1 m c)) (hBS : AllReal (bsL1 m c)) :
    out1 m c = normT (preT1 m c H) (meanT (preT1 m c H)) (varT (preT1 m c H)) (rowT 0 (gsL1 m c)) (rowT 0 (besL1 m c)) := by
  funext i
  obtain ⟨r, q, rfl⟩ : ∃ (r : Fin 50000) (q : Fin 128), i = ix2 r q := ⟨i 0, i 1, eq_ix2 i⟩
  rw [out1_apply, mrow1_apply, vrow1_apply, sum1_apply, sq1_apply, grow1_apply, berow1_apply]
  simp only [pre1_apply m c H hin]
  exact kernel_eq_ref (preT1 m c H) (pre1_real m c H hH hEW hWS hBS) _ _ r q

theorem layer1_real (H : FVec Ideal S50000x128 .f32) (hin : in1 m c = H) (hH : AllReal H) (hEW : AllReal (ewL1 m c))
    (hWS : AllReal (wsL1 m c)) (hBS : AllReal (bsL1 m c)) (hGS : AllReal (gsL1 m c)) (hBES : AllReal (besL1 m c)) :
    AllReal (out1 m c) := by
  rw [layer1 m c H hin hH hEW hWS hBS]
  exact normT_real _ (pre1_real m c H hH hEW hWS hBS) _ _ (rowT_real 0 _ hGS) (rowT_real 0 _ hBES)

end Cert.KernelIdeal.Val
-- ==== Proof.KernelIdeal.ValA3.lean ====
import proofs.«169164_j46703474376898_1_alg».proof.Proof.KernelIdeal.RegA3
import proofs.«169164_j46703474376898_1_alg».proof.Proof.KernelIdeal.ValAMat
import Idealize.ShloMosaic.Lib.Pipeline.Value

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

section Body

theorem pay3_apply (x0 : Vec Ideal S2000x128 .f32) (x1 : Vec Ideal S128x128 .f32) (p : Fin 2000) (q : Fin 128) :
    out3_2 x0 x1 (ix2 p q) = ∑ k : Fin 128, x0 (ix2 p k) * x1 (ix2 k q) := by
  unfold out3_2
  rw [View.canon_unit_zero hz2]
  simp only [View.ld_unit_zero (S := S2000x128) hz2, View.ld_unit_zero (S := S128x128) hz2]
  unfold k3_pay1
  refine (matmul_zero_apply _ _ p q).trans (Finset.sum_congr rfl fun k _ => ?_)
  simp only [truncf_apply, shapeCast_self]

end Body

section Point
variable (V : (c : Dev nD) → (b : Ref sig .tc) → Buf (Elt Ideal) ((c : Thread nD τ).loc b)) (c : Dev nD)

abbrev act3 : S50000x128.Idx → EReal := V c (Pipeline.arrRef spec3 0)
abbrev wgt3 : S128x128.Idx → EReal := V c (Pipeline.arrRef spec3 1)

theorem idx3_facts : ∀ t : Fin cfg3.N, win3_0.index t (0 : Fin 2) = t.val ∧ win3_0.index t (1 : Fin 2) = 0
    ∧ win3_2.index t (0 : Fin 2) = t.val ∧ win3_2.index t (1 : Fin 2) = 0 ∧ ∀ a : Fin 2, win3_1.index t a = 0 :=
  (by decide +kernel : ∀ t : Fin grid3.N, _)

-- A block's element sits in its array, on each axis, at block index times block size plus its own coordinate.
theorem iblk3_0_apply (t : Fin cfg3.N) (x : S2000x128.Idx) (i : S50000x128.Idx)
    (h0 : (i 0).val = 2000 * t.val + (x 0).val) (h1 : (i 1).val = (x 1).val) :
    (iblk3 V c 0 t : Vec Ideal S2000x128 .f32) x = act3 V c i := by
  obtain ⟨e0, e1, -⟩ := idx3_facts t
  show act3 V c (((cfg3.win 0).blk t).view.emb x) = _
  refine congrArg _ (Shape.idx_ext₂ ?_ ?_)
  · show win3_0.index t (0 : Fin 2) * 2000 + 1 * (x 0).val = (i 0).val; omega
  · show win3_0.index t (1 : Fin 2) * 128 + 1 * (x 1).val = (i 1).val; omega

theorem iblk3_1_apply (t : Fin cfg3.N) : (iblk3 V c 1 t : Vec Ideal S128x128 .f32) = wgt3 V c :=
  funext fun x => congrArg (wgt3 V c) (funext fun a => Fin.ext (win3_1.rect_emb_val_of_index_zero t a ((idx3_facts t).2.2.2.2 a) x))

-- Block t of the result is block t of the row-by-row product of the two arrays.
theorem flushed3_eq (t : Fin cfg3.N) :
    (dat3 V c).flushed 2 t = ((cfg3.win 2).blk t).view.read (Elt Ideal) (rowProd (act3 V c) (wgt3 V c)) := by
  show (cfg3.win 2).cut (grid3.coords t) ((dat3 V c).after 2 t) = _
  rw [after3_2]
  obtain ⟨-, -, e4, e5, -⟩ := idx3_facts t
  funext j
  obtain ⟨p, q, rfl⟩ : ∃ (p : Fin 2000) (q : Fin 128), j = ix2 p q := ⟨j 0, j 1, eq_ix2 j⟩
  refine (pay3_apply _ _ p q).trans ?_
  show _ = rowProd (act3 V c) (wgt3 V c) (((cfg3.win 2).blk t).view.emb (ix2 p q))
  rw [iblk3_1_apply]
  have hE0 : ((((cfg3.win 2).blk t).view.emb (ix2 p q) : S50000x128.Idx) 0).val = 2000 * t.val + p.val := by
    show win3_2.index t (0 : Fin 2) * 2000 + 1 * p.val = _; omega
  have hE1 : ((((cfg3.win 2).blk t).view.emb (ix2 p q) : S50000x128.Idx) 1).val = q.val := by
    show win3_2.index t (1 : Fin 2) * 128 + 1 * q.val = _; omega
  unfold rowProd
  exact Finset.sum_congr rfl fun k _ => congrArg₂ (· * ·) (iblk3_0_apply V c t (ix2 p k) _ hE0 rfl) (congrArg (wgt3 V c) (Shape.idx_ext₂ rfl hE1.symm))

-- Row r lies in the block of point r / 2000.
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, e4, e5, -⟩ := idx3_facts t
  refine ⟨t, flush3_2 t, ?_⟩
  show i ∈ ((View.whole (Pipeline.arrRef spec3 2)).slice (win3_2.rect t)).set
  rw [View.set_slice_whole, Rect.mem_set_unit]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

theorem final3 : (dat3 V c).arrAt 2 cfg3.N = rowProd (act3 V c) (wgt3 V c) :=
  (dat3 V c).arrAt_eq_of_cover 2 _ (fun t _ => flushed3_eq V c t) cover3

end Point

end Cert.KernelIdeal.Reg
-- ==== Proof.KernelIdeal.ValS4.lean ====
import proofs.«169164_j46703474376898_1_alg».proof.Proof.KernelIdeal.ValS1
import proofs.«169164_j46703474376898_1_alg».proof.Proof.KernelIdeal.RegS4

noncomputable section

open scoped BigOperators

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Point
variable (V : (c : Dev nD) → (b : Ref sig .tc) → Buf (Elt Ideal) ((c : Thread nD τ).loc b)) (c : Dev nD) (q : Fin 128)

abbrev xarr_r4 : Vec Ideal S50000x128 .f32 := V c (Pipeline.arrRef spec4 0)
abbrev brow_r4 : Vec Ideal S1x128 .f32 := V c (Pipeline.arrRef spec4 1)
abbrev xblk_r4 (t : Fin cfg4.N) : Vec Ideal S2000x128 .f32 := iblk4 V c 0 t
abbrev bblk_r4 (t : Fin cfg4.N) : Vec Ideal S1x128 .f32 := iblk4 V c 1 t

theorem pos_r4 : 0 < cfg4.N := by rw [show cfg4.N = 25 from N_4]; decide
abbrev tLast_r4 : Fin cfg4.N := ⟨cfg4.N - 1, Nat.sub_lt pos_r4 Nat.one_pos⟩

theorem idx_facts_r4 : ∀ t : Fin cfg4.N, win4_0.index t (0 : Fin 2) = t.val ∧ win4_0.index t (1 : Fin 2) = 0 ∧ ∀ a : Fin 2, win4_1.index t a = 0 :=
  (by decide +kernel : ∀ t : Fin grid4.N, _)

theorem blockRow_lt_r4 (t : Fin cfg4.N) (r : Fin 2000) : t.val * 2000 + r.val < 50000 := by
  have := lt_of_lt_of_eq t.isLt (show cfg4.N = 25 from N_4); have := r.isLt; omega

-- A block's element sits in its array at block index times block size plus its own coordinate.
theorem xblk_at_r4 (t : Fin cfg4.N) (r : Fin 2000) :
    xblk_r4 V c t (ix2 r q) = xarr_r4 V c (ix2 ⟨t.val * 2000 + r.val, blockRow_lt_r4 t r⟩ q) := by
  obtain ⟨e0, e1, -⟩ := idx_facts_r4 t
  show xarr_r4 V c (((cfg4.win 0).blk t).view.emb (ix2 r q)) = _
  refine congrArg _ (Shape.idx_ext₂ ?_ ?_)
  · show win4_0.index t (0 : Fin 2) * 2000 + 1 * r.val = t.val * 2000 + r.val; omega
  · show win4_0.index t (1 : Fin 2) * 128 + 1 * q.val = q.val; omega

theorem bblk_at_r4 (t : Fin cfg4.N) : bblk_r4 V c t (ix2 0 q) = brow_r4 V c (ix2 0 q) :=
  congrArg (brow_r4 V c) (funext fun a => Fin.ext (win4_1.rect_emb_val_of_index_zero t a ((idx_facts_r4 t).2.2 a) (ix2 0 q)))

theorem first_r4 (t : Fin cfg4.N) (h0 : t.val % 25 = 0) :
    (outsAt4 V c t.val t.isLt).1 (ix2 0 q) = colSum (xblk_r4 V c t) (bblk_r4 V c t) q (fun z => z)
    ∧ (outsAt4 V c t.val t.isLt).2 (ix2 0 q) = colSum (xblk_r4 V c t) (bblk_r4 V c t) q (fun z => z * z) := by
  rw [outsAt4_A V c t h0]; dsimp only
  exact ⟨(congrFun statsOut_A_eq.1 _).trans (statsBlock_at _ _ q).1, (congrFun statsOut_A_eq.2 _).trans (statsBlock_at _ _ q).2⟩

theorem next_r4 (t : Fin cfg4.N) (h0 : ¬t.val % 25 = 0) :
    (outsAt4 V c t.val t.isLt).1 (ix2 0 q)
      = (outsAt4 V c (t.val - 1) (Nat.lt_of_le_of_lt (Nat.sub_le _ _) t.isLt)).1 (ix2 0 q) + colSum (xblk_r4 V c t) (bblk_r4 V c t) q (fun z => z)
    ∧ (outsAt4 V c t.val t.isLt).2 (ix2 0 q)
      = (outsAt4 V c (t.val - 1) (Nat.lt_of_le_of_lt (Nat.sub_le _ _) t.isLt)).2 (ix2 0 q) + colSum (xblk_r4 V c t) (bblk_r4 V c t) q (fun z => z * z) := by
  rw [outsAt4_B V c t h0]; dsimp only
  exact ⟨(congrFun statsOut_B_eq.1 _).trans (statsAcc_at _ _ _ q).1, (congrFun statsOut_B_eq.2 _).trans (statsAcc_at _ _ _ q).2⟩

theorem step_r4 (t : Nat) (h : t + 1 < cfg4.N) : ¬(t + 1) % 25 = 0 := by
  have := lt_of_lt_of_eq h (show cfg4.N = 25 from N_4); omega

-- A row that starts at the first block's column sums and gains each later block's ends at the sum over all 50000 rows: 25 blocks of 2000.
theorem last_r4 (g : EReal → EReal) (o : Fin cfg4.N → EReal)
    (h0 : o ⟨0, pos_r4⟩ = colSum (xblk_r4 V c ⟨0, pos_r4⟩) (bblk_r4 V c ⟨0, pos_r4⟩) q g)
    (hs : ∀ (t : Nat) (h : t + 1 < cfg4.N), o ⟨t + 1, h⟩ = o ⟨t, Nat.lt_of_succ_lt h⟩ + colSum (xblk_r4 V c ⟨t + 1, h⟩) (bblk_r4 V c ⟨t + 1, h⟩) q g) :
    o tLast_r4 = ∑ i : Fin 50000, g (xarr_r4 V c (ix2 i q) + brow_r4 V c (ix2 0 q)) := by
  refine (Cert.LibBatchNorm.acc_fin_last_eq_sum (a := cfg4.N) (fun t => colSum (xblk_r4 V c t) (bblk_r4 V c t) q g) o pos_r4 h0 hs).trans ?_
  rw [Cert.LibBatchNorm.sum_fin_eq_blocks (show 50000 = cfg4.N * 2000 from by rw [show cfg4.N = 25 from N_4]) (fun i : Fin 50000 => g (xarr_r4 V c (ix2 i q) + brow_r4 V c (ix2 0 q)))]
  refine Finset.sum_congr rfl fun t _ => Finset.sum_congr rfl fun r _ => ?_
  rw [xblk_at_r4, bblk_at_r4]

-- An array that is one block, left once at the last point, ends as that point's contents.
theorem final_row_r4 (w : Fin cfg4.W) (R : Buf (Elt Ideal) ((cfg4.win w).arr.view.loc (c.tc : Thread nD τ)))
    (hfl : ∀ t : Fin cfg4.N, (cfg4.win w).flush t = true ↔ t.val % 25 = 24)
    (hR : (dat4 V c).flushed w tLast_r4 = ((cfg4.win w).blk tLast_r4).view.read (Elt Ideal) R)
    (hm : ∀ i, i ∈ ((cfg4.win w).blk tLast_r4).view.set) : (dat4 V c).arrAt w cfg4.N = R := by
  have hN : cfg4.N = 25 := N_4
  refine (dat4 V c).arrAt_eq_of_cover w R (fun t hf => ?_) fun i => ⟨tLast_r4, (hfl _).mpr (by show (cfg4.N - 1) % 25 = 24; rw [hN]), hm i⟩
  obtain rfl : t = tLast_r4 := Fin.ext (by have := (hfl t).mp hf; have := t.isLt; show t.val = cfg4.N - 1; omega)
  exact hR

abbrev sumsRow_r4 : Buf (Elt Ideal) ((c : Thread nD τ).loc (Pipeline.arrRef spec4 2)) := (outsAt4 V c tLast_r4.val tLast_r4.isLt).1

theorem final_2_row_r4 : (dat4 V c).arrAt 2 cfg4.N = sumsRow_r4 V c :=
  final_row_r4 V c 2 _ flush4_2 (by
    show (cfg4.win 2).cut (grid4.coords tLast_r4) ((dat4 V c).after 2 tLast_r4) = _
    rw [after4_2]
    have hz' : (fun a => win4_2.index tLast_r4 a * (Pipeline.arrRef spec4 2).ty.shape.size a) = fun _ => 0 := funext fun a => by fin_cases a <;> decide +kernel
    exact (Memref.read_access_unit_zero (Elt Ideal) (Pipeline.arrRef spec4 2) hz' (fun a => by rw [congrFun hz' a]; simp) (sumsRow_r4 V c)).symm) fun i => by
      show i ∈ ((View.whole (Pipeline.arrRef spec4 2)).slice (win4_2.rect tLast_r4)).set
      rw [View.set_slice_whole]
      exact mem_unit_whole (S := S1x128) (by decide +kernel) i

abbrev sqsRow_r4 : Buf (Elt Ideal) ((c : Thread nD τ).loc (Pipeline.arrRef spec4 3)) := (outsAt4 V c tLast_r4.val tLast_r4.isLt).2

theorem final_3_row_r4 : (dat4 V c).arrAt 3 cfg4.N = sqsRow_r4 V c :=
  final_row_r4 V c 3 _ flush4_3 (by
    show (cfg4.win 3).cut (grid4.coords tLast_r4) ((dat4 V c).after 3 tLast_r4) = _
    rw [after4_3]
    have hz' : (fun a => win4_3.index tLast_r4 a * (Pipeline.arrRef spec4 3).ty.shape.size a) = fun _ => 0 := funext fun a => by fin_cases a <;> decide +kernel
    exact (Memref.read_access_unit_zero (Elt Ideal) (Pipeline.arrRef spec4 3) hz' (fun a => by rw [congrFun hz' a]; simp) (sqsRow_r4 V c)).symm) fun i => by
      show i ∈ ((View.whole (Pipeline.arrRef spec4 3)).slice (win4_3.rect tLast_r4)).set
      rw [View.set_slice_whole]
      exact mem_unit_whole (S := S1x128) (by decide +kernel) i

theorem final4_sum :
    (dat4 (F := Ideal) V c).arrAt 2 cfg4.N (ix2 0 q) = ∑ i : Fin 50000, (xarr_r4 V c (ix2 i q) + brow_r4 V c (ix2 0 q)) :=
  (congrFun (final_2_row_r4 V c) (ix2 0 q)).trans
    (last_r4 V c q (fun z => z) (fun t => (outsAt4 V c t.val t.isLt).1 (ix2 0 q)) (first_r4 V c q ⟨0, pos_r4⟩ (Nat.zero_mod _)).1
      fun t h => (next_r4 V c q ⟨t + 1, h⟩ (step_r4 t h)).1)

theorem final4_sq :
    (dat4 (F := Ideal) V c).arrAt 3 cfg4.N (ix2 0 q) = ∑ i : Fin 50000, (xarr_r4 V c (ix2 i q) + brow_r4 V c (ix2 0 q)) * (xarr_r4 V c (ix2 i q) + brow_r4 V c (ix2 0 q)) :=
  (congrFun (final_3_row_r4 V c) (ix2 0 q)).trans
    (last_r4 V c q (fun z => z * z) (fun t => (outsAt4 V c t.val t.isLt).2 (ix2 0 q)) (first_r4 V c q ⟨0, pos_r4⟩ (Nat.zero_mod _)).2
      fun t h => (next_r4 V c q ⟨t + 1, h⟩ (step_r4 t h)).2)

end Point

end Cert.KernelIdeal.Reg

end
-- ==== Proof.KernelIdeal.ValN5.lean ====
import proofs.«169164_j46703474376898_1_alg».proof.Proof.KernelIdeal.ValN2
import proofs.«169164_j46703474376898_1_alg».proof.Proof.KernelIdeal.RegN5

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx

section Point
variable (V : (c : Dev nD) → (b : Ref sig .tc) → Buf (Elt Ideal) ((c : Thread nD τ).loc b)) (c : Dev nD)

abbrev rows5 : Vec Ideal S50000x128 .f32 := V c (Pipeline.arrRef spec5 0)
abbrev bias5 : Vec Ideal S1x128 .f32 := V c (Pipeline.arrRef spec5 1)
abbrev mean5 : Vec Ideal S1x128 .f32 := V c (Pipeline.arrRef spec5 2)
abbrev var5 : Vec Ideal S1x128 .f32 := V c (Pipeline.arrRef spec5 3)
abbrev gamma5 : Vec Ideal S1x128 .f32 := V c (Pipeline.arrRef spec5 4)
abbrev beta5 : Vec Ideal S1x128 .f32 := V c (Pipeline.arrRef spec5 5)

theorem blockIndex5 : ∀ t : Fin cfg5.N,
    win5_0.index t (0 : Fin 2) = t.val ∧ win5_0.index t (1 : Fin 2) = 0
    ∧ win5_6.index t (0 : Fin 2) = t.val ∧ win5_6.index t (1 : Fin 2) = 0 :=
  (by decide +kernel : ∀ t : Fin grid5.N, _)

theorem zeroOffsets5 : ∀ (t : Fin cfg5.N) (a : Fin 2),
    win5_1.index t a = 0 ∧ win5_2.index t a = 0 ∧ win5_3.index t a = 0 ∧ win5_4.index t a = 0 ∧ win5_5.index t a = 0 :=
  (by decide +kernel : ∀ (t : Fin grid5.N) (a : Fin 2), _)

-- A block's element sits in its array, on each axis, at block index times block size plus its own coordinate.
theorem rowsBlock5 (t : Fin cfg5.N) (p : Fin 2000) (q : Fin 128) (hb : t.val * 2000 + p.val < 50000) :
    iblk5 V c 0 t (ix2 p q) = rows5 V c (ix2 (⟨t.val * 2000 + p.val, hb⟩ : Fin 50000) q) := by
  obtain ⟨e00, e01, -, -⟩ := blockIndex5 t
  show rows5 V c (((cfg5.win 0).blk t).view.emb (ix2 p q)) = _
  refine congrArg _ (Shape.idx_ext₂ ?_ ?_)
  · show win5_0.index t (0 : Fin 2) * 2000 + 1 * p.val = t.val * 2000 + p.val; omega
  · show win5_0.index t (1 : Fin 2) * 128 + 1 * q.val = q.val; omega

theorem outIndex5 (t : Fin cfg5.N) (p : Fin 2000) (q : Fin 128) (hb : t.val * 2000 + p.val < 50000) :
    ((cfg5.win 6).blk t).view.emb (ix2 p q) = (ix2 (⟨t.val * 2000 + p.val, hb⟩ : Fin 50000) q : S50000x128.Idx) := by
  obtain ⟨-, -, e60, e61⟩ := blockIndex5 t
  refine Shape.idx_ext₂ ?_ ?_
  · show win5_6.index t (0 : Fin 2) * 2000 + 1 * p.val = t.val * 2000 + p.val; omega
  · show win5_6.index t (1 : Fin 2) * 128 + 1 * q.val = q.val; omega

theorem biasBlock5 (t : Fin cfg5.N) (q : Fin 128) : iblk5 V c 1 t (ix2 (0 : Fin 1) q) = bias5 V c (ix2 0 q) :=
  congrArg (bias5 V c) (funext fun a => Fin.ext (win5_1.rect_emb_val_of_index_zero t a (zeroOffsets5 t a).1 (ix2 0 q)))

theorem meanBlock5 (t : Fin cfg5.N) (q : Fin 128) : iblk5 V c 2 t (ix2 (0 : Fin 1) q) = mean5 V c (ix2 0 q) :=
  congrArg (mean5 V c) (funext fun a => Fin.ext (win5_2.rect_emb_val_of_index_zero t a (zeroOffsets5 t a).2.1 (ix2 0 q)))

theorem varBlock5 (t : Fin cfg5.N) (q : Fin 128) : iblk5 V c 3 t (ix2 (0 : Fin 1) q) = var5 V c (ix2 0 q) :=
  congrArg (var5 V c) (funext fun a => Fin.ext (win5_3.rect_emb_val_of_index_zero t a (zeroOffsets5 t a).2.2.1 (ix2 0 q)))

theorem gammaBlock5 (t : Fin cfg5.N) (q : Fin 128) : iblk5 V c 4 t (ix2 (0 : Fin 1) q) = gamma5 V c (ix2 0 q) :=
  congrArg (gamma5 V c) (funext fun a => Fin.ext (win5_4.rect_emb_val_of_index_zero t a (zeroOffsets5 t a).2.2.2.1 (ix2 0 q)))

theorem betaBlock5 (t : Fin cfg5.N) (q : Fin 128) : iblk5 V c 5 t (ix2 (0 : Fin 1) q) = beta5 V c (ix2 0 q) :=
  congrArg (beta5 V c) (funext fun a => Fin.ext (win5_5.rect_emb_val_of_index_zero t a (zeroOffsets5 t a).2.2.2.2 (ix2 0 q)))

-- Block t of the result is block t of one function of the six arrays.
theorem flushed5_eq (t : Fin cfg5.N) :
    (dat5 (F := Ideal) V c).flushed 6 t = ((cfg5.win 6).blk t).view.read (Elt Ideal) (normRelu (rows5 V c) (bias5 V c) (mean5 V c) (var5 V c) (gamma5 V c) (beta5 V c)) := by
  show (cfg5.win 6).cut (grid5.coords t) ((dat5 (F := Ideal) V c).after 6 t) = _
  rw [after5_6]
  have ht : t.val < 25 := t.isLt
  refine funext fun (j : S2000x128.Idx) => ?_
  obtain ⟨p, q, rfl⟩ : ∃ (p : Fin 2000) (q : Fin 128), j = ix2 p q := ⟨j 0, j 1, eq_ix2 j⟩
  have hb : t.val * 2000 + p.val < 50000 := by have hp : p.val < 2000 := p.isLt; omega
  refine (pay2_apply _ _ _ _ _ _ p q).trans ?_
  show _ = normRelu (rows5 V c) (bias5 V c) (mean5 V c) (var5 V c) (gamma5 V c) (beta5 V c) (((cfg5.win 6).blk t).view.emb (ix2 p q))
  rw [rowsBlock5 V c t p q hb, biasBlock5, meanBlock5, varBlock5, gammaBlock5, betaBlock5, outIndex5 t p q hb]
  rfl

-- Row r lies in the block of point r / 2000.
theorem cover5 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ : ∃ t : Fin cfg5.N, t.val = (i 0).val / 2000 := ⟨⟨(i 0).val / 2000, by show (i 0).val / 2000 < 25; omega⟩, rfl⟩
  obtain ⟨-, -, e60, e61⟩ := blockIndex5 t
  refine ⟨t, flush5_6 t, ?_⟩
  show i ∈ ((View.whole (Pipeline.arrRef spec5 6)).slice (win5_6.rect t)).set
  rw [View.set_slice_whole, Rect.mem_set_unit]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 128 ≤ (i 1).val ∧ (i 1).val < win5_6.index t (1 : Fin 2) * 128 + 128; omega

theorem final5 : (dat5 (F := Ideal) V c).arrAt 6 cfg5.N = normRelu (rows5 V c) (bias5 V c) (mean5 V c) (var5 V c) (gamma5 V c) (beta5 V c) :=
  (dat5 (F := Ideal) V c).arrAt_eq_of_cover 6 _ (fun t _ => flushed5_eq V c t) cover5

theorem final5_apply (r : Fin 50000) (q : Fin 128) :
    (dat5 (F := Ideal) V c).arrAt 6 cfg5.N (ix2 r q)
      = max ((((rows5 V c (ix2 r q) + bias5 V c (ix2 0 q)) - mean5 V c (ix2 0 q)) * Ideal.rsqrt (var5 V c (ix2 0 q) + Ideal.ofBits .f32 0x3727C5AC#32)) * gamma5 V c (ix2 0 q) + beta5 V c (ix2 0 q))
          (Ideal.ofBits .f32 0x00000000#32) :=
  congrFun (final5 V c) (ix2 r q)

end Point

end Cert.KernelIdeal.Reg
-- ==== Proof.KernelIdeal.GcnReads4.lean ====
/- What the kernel program's buffers hold after the host stretch before layer 2's statistics kernel: the layer's
   graph aggregation (the term gcnK of the projected features, the two edge rows and the edge weights) and the layer's
   bias, scale and shift rows (row 1 of each two-row parameter). The stretch is the first layer's operations over
   other buffers, and the operations' results are folded over the buffers' contents in the same way. -/
import proofs.«169164_j46703474376898_1_alg».proof.Proof.KernelIdeal.GcnReads

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## Layer 2 (the stretch before the layer's statistics kernel) -/

set_option maxRecDepth 8192 in
set_option maxHeartbeats 4000000 in
/-- After the stretch the aggregation's buffer holds `gcnK` of the projected features, the two edge rows and the edge
    weights: each operation's result is its function of its operands' contents and the other buffers keep theirs,
    along the three lists; the node indices and the unit weights, which sit inside the operand lists of the
    concatenations, are read the same way, operation by operation. -/
theorem h4_v112 (V : Valuation τ sig (Elt F)) :
    StableHlo.after (hostOps4_2 (F := F)) (StableHlo.after (hostOps4_1 (F := F)) (StableHlo.after (hostOps4 (F := F)) V)) (Proc.devRef .tc main_v112)
      = gcnK (V (Proc.devRef .tc main_v71) : (⟨S50000x128, .f32⟩ : BufTy).Contents (Elt F)) (V (Proc.devRef .tc main_v1) : (⟨S800000, .i32⟩ : BufTy).Contents (Elt F))
          (V (Proc.devRef .tc main_v3) : (⟨S800000, .i32⟩ : BufTy).Contents (Elt F)) (V (Proc.devRef .tc main_arg2) : (⟨S800000, .f32⟩ : BufTy).Contents (Elt F)) := by
  unfold gcnK
  after_results_simp
  (try simp only [TRef.ofBuf, TRef.toBuf, cast_eq])
  repeat (first
    | rw [nullary_result] | rw [unary_result] | rw [binary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

set_option maxRecDepth 8192 in
set_option maxHeartbeats 4000000 in
/-- After the stretch the layer's bias row holds row 1 of its two-row parameter, laid as a [1 × 128] row: the cut, the
    flattening and the re-laying are the stretch's last operations, and nothing before them writes the parameter. -/
theorem h4_v119 (V : Valuation τ sig (Elt F)) :
    StableHlo.after (hostOps4_2 (F := F)) (StableHlo.after (hostOps4_1 (F := F)) (StableHlo.after (hostOps4 (F := F)) V)) (Proc.devRef .tc main_v119)
      = paramRow1 (V (Proc.devRef .tc main_arg6) : (⟨S2x128, .f32⟩ : BufTy).Contents (Elt F)) := by
  after_results_simp
  rfl

set_option maxRecDepth 8192 in
set_option maxHeartbeats 4000000 in
/-- After the stretch the layer's scale row holds row 1 of its two-row parameter, laid as a [1 × 128] row: the cut, the
    flattening and the re-laying are the stretch's last operations, and nothing before them writes the parameter. -/
theorem h4_v120 (V : Valuation τ sig (Elt F)) :
    StableHlo.after (hostOps4_2 (F := F)) (StableHlo.after (hostOps4_1 (F := F)) (StableHlo.after (hostOps4 (F := F)) V)) (Proc.devRef .tc main_v120)
      = paramRow1 (V (Proc.devRef .tc main_arg7) : (⟨S2x128, .f32⟩ : BufTy).Contents (Elt F)) := by
  after_results_simp
  rfl

set_option maxRecDepth 8192 in
set_option maxHeartbeats 4000000 in
/-- After the stretch the layer's shift row holds row 1 of its two-row parameter, laid as a [1 × 128] row: the cut, the
    flattening and the re-laying are the stretch's last operations, and nothing before them writes the parameter. -/
theorem h4_v121 (V : Valuation τ sig (Elt F)) :
    StableHlo.after (hostOps4_2 (F := F)) (StableHlo.after (hostOps4_1 (F := F)) (StableHlo.after (hostOps4 (F := F)) V)) (Proc.devRef .tc main_v121)
      = paramRow1 (V (Proc.devRef .tc main_arg8) : (⟨S2x128, .f32⟩ : BufTy).Contents (Elt F)) := by
  after_results_simp
  rfl

end Cert.KernelIdeal.Host

end
-- ==== Proof.KernelIdeal.Layer2.lean ====
import proofs.«169164_j46703474376898_1_alg».proof.Proof.KernelIdeal.Seg3
import proofs.«169164_j46703474376898_1_alg».proof.Proof.KernelIdeal.Seg4
import proofs.«169164_j46703474376898_1_alg».proof.Proof.KernelIdeal.Seg5
import proofs.«169164_j46703474376898_1_alg».proof.Proof.KernelIdeal.ValA3
import proofs.«169164_j46703474376898_1_alg».proof.Proof.KernelIdeal.ValS4
import proofs.«169164_j46703474376898_1_alg».proof.Proof.KernelIdeal.ValN5
import proofs.«169164_j46703474376898_1_alg».proof.Proof.KernelIdeal.HostReads
import proofs.«169164_j46703474376898_1_alg».proof.Proof.KernelIdeal.GcnReads4
import proofs.«169164_j46703474376898_1_alg».proof.Proof.KernelIdeal.Carry
import proofs.«169164_j46703474376898_1_alg».proof.Proof.GcnEq
import proofs.«169164_j46703474376898_1_alg».proof.Proof.GcnReal
import proofs.«169164_j46703474376898_1_alg».proof.Proof.LayerLib
import Idealize.ShloMosaic.Lib.Pipeline.Value

set_option maxRecDepth 16384

noncomputable section

namespace Cert.KernelIdeal.Val

open Cert.KernelIdeal Cert.KernelIdeal.Gen Cert.KernelIdeal.Reg Cert.KernelIdeal.Run Cert.KernelIdeal.Host
open Cert.ReferenceIdeal.Hand Cert.LibReal
open Idealize.ShloMosaic Idealize.ShloMosaic.TcCoe Idealize.SL.Sem Idealize.ShloMosaic.ValueIdx
open scoped BigOperators

variable (m : (ℓ : Loc nD τ sig) → Buf (Elt Ideal) ℓ) (c : Dev nD)

abbrev eiL2 : IVec S2x800000 32 := m ((c : Thread nD τ).loc main_arg1)
abbrev ewL2 : FVec Ideal S800000 .f32 := m ((c : Thread nD τ).loc main_arg2)
abbrev wsL2 : FVec Ideal S2x128x128 .f32 := m ((c : Thread nD τ).loc main_arg5)
abbrev bsL2 : FVec Ideal S2x128 .f32 := m ((c : Thread nD τ).loc main_arg6)
abbrev gsL2 : FVec Ideal S2x128 .f32 := m ((c : Thread nD τ).loc main_arg7)
abbrev besL2 : FVec Ideal S2x128 .f32 := m ((c : Thread nD τ).loc main_arg8)

abbrev in2 : S50000x128.Idx → EReal := V9 m (outs m) c main_v68
abbrev hw2 : S50000x128.Idx → EReal := V10 m (outs m) c main_v71
abbrev agg2 : S50000x128.Idx → EReal := V13 m (outs m) c main_v112
abbrev brow2 : S1x128.Idx → EReal := V13 m (outs m) c main_v119
abbrev grow2 : S1x128.Idx → EReal := V13 m (outs m) c main_v120
abbrev berow2 : S1x128.Idx → EReal := V13 m (outs m) c main_v121
abbrev sum2 : S1x128.Idx → EReal := V14 m (outs m) c main_v122_0
abbrev sq2 : S1x128.Idx → EReal := V14 m (outs m) c main_v122_1
abbrev mrow2 : S1x128.Idx → EReal := V15 m (outs m) c main_v124
abbrev vrow2 : S1x128.Idx → EReal := V15 m (outs m) c main_v128
abbrev out2 : S50000x128.Idx → EReal := V16 m (outs m) c main_v129

theorem act2_eq : act3 (rd (V9 m (o3 m))) c = in2 m c :=
  congrFun (entry3 m c).symm (Proc.devRef .tc main_v68)

theorem wgt2_apply (k q : Fin 128) : wgt3 (rd (V9 m (o3 m))) c (ix2 k q) = matT 1 (wsL2 m c) (ix2 k q) := by
  refine (h3_v70_apply (V8 m (o3 m) c) k q).trans ?_
  refine (congrFun (V8_launch m (o3 m) c main_arg5 (by decide)) (ix3 (1 : Fin 2) k q)).trans ?_
  exact (matT_one_apply (wsL2 m c) k q).symm

theorem hw2_eq (H : FVec Ideal S50000x128 .f32) (hin : in2 m c = H) :
    hw2 m c = Host.dotGeneral Cert.ReferenceIdeal.dot_S50000x128_S128x128_S50000x128_1_0_0_1_n_n none H (matT 1 (wsL2 m c)) := by
  show rd (V10 m (outs m)) c main_v71 = _
  rw [outval3_2, final3]
  funext i
  obtain ⟨r, q, rfl⟩ : ∃ (r : Fin 50000) (q : Fin 128), i = ix2 r q := ⟨i 0, i 1, eq_ix2 i⟩
  rw [rowProd_apply]
  refine Eq.trans ?_ (dot_apply H (matT 1 (wsL2 m c)) r q).symm
  refine Finset.sum_congr rfl fun k _ => ?_
  exact congrArg₂ (· * ·) ((congrFun (act2_eq m c) (ix2 r k)).trans (congrFun hin (ix2 r k))) (wgt2_apply m c k q)

theorem src2_eq : (V10 m (outs m) c main_v1 : S800000.Idx → BitVec 32) = edgeRowT 0 (eiL2 m c) :=
  (V10_edge m (outs m) c main_v1 (by decide)).trans (h0_v1 (V0 m c))
theorem dst2_eq : (V10 m (outs m) c main_v3 : S800000.Idx → BitVec 32) = edgeRowT 1 (eiL2 m c) :=
  (V10_edge m (outs m) c main_v3 (by decide)).trans (h0_v3 (V0 m c))
theorem ew2_eq : (V10 m (outs m) c main_arg2 : FVec Ideal S800000 .f32) = ewL2 m c :=
  V10_launch m (outs m) c main_arg2 (by decide)

theorem agg2_carry : (V15 m (outs m) c main_v112 : S50000x128.Idx → EReal) = agg2 m c :=
  (V15_of m (outs m) c main_v112 (by decide)).trans (V14_of m (outs m) c main_v112 (by decide))
theorem brow2_carry : (V15 m (outs m) c main_v119 : S1x128.Idx → EReal) = brow2 m c :=
  (V15_of m (outs m) c main_v119 (by decide)).trans (V14_of m (outs m) c main_v119 (by decide))
theorem grow2_carry : (V15 m (outs m) c main_v120 : S1x128.Idx → EReal) = grow2 m c :=
  (V15_of m (outs m) c main_v120 (by decide)).trans (V14_of m (outs m) c main_v120 (by decide))
theorem berow2_carry : (V15 m (outs m) c main_v121 : S1x128.Idx → EReal) = berow2 m c :=
  (V15_of m (outs m) c main_v121 (by decide)).trans (V14_of m (outs m) c main_v121 (by decide))

theorem mrow2_apply (j : S1x128.Idx) : mrow2 m c j = Ideal.div (sum2 m c j) (Ideal.ofBits .f32 0x47435000#32) :=
  h5_v124_apply (V14 m (outs m) c) j
theorem vrow2_apply (j : S1x128.Idx) : vrow2 m c j
    = Ideal.div (sq2 m c j) (Ideal.ofBits .f32 0x47435000#32)
      - Ideal.div (sum2 m c j) (Ideal.ofBits .f32 0x47435000#32) * Ideal.div (sum2 m c j) (Ideal.ofBits .f32 0x47435000#32) :=
  h5_v128_apply (V14 m (outs m) c) j

theorem agg2_eq : agg2 m c = gcnT (hw2 m c) (edgeRowT 0 (eiL2 m c)) (edgeRowT 1 (eiL2 m c)) (ewL2 m c) := by
  refine (h4_v112 (V10 m (outs m) c)).trans ?_
  rw [gcn_eq, src2_eq, dst2_eq, ew2_eq]

theorem prow2_apply (p : FVec Ideal S2x128 .f32) (q : Fin 128) : paramRow1 p (ix2 (0 : Fin 1) q) = rowT 1 p (ix1 q) := by
  unfold paramRow1
  rw [asRow_apply, rowT_one]

theorem brow2_apply (q : Fin 128) : brow2 m c (ix2 (0 : Fin 1) q) = rowT 1 (bsL2 m c) (ix1 q) := by
  refine (congrFun (h4_v119 (V10 m (outs m) c)) (ix2 (0 : Fin 1) q)).trans ?_
  rw [show (V10 m (outs m) c main_arg6 : FVec Ideal S2x128 .f32) = bsL2 m c from
    V10_launch m (outs m) c main_arg6 (by decide)]
  exact prow2_apply _ q
theorem grow2_apply (q : Fin 128) : grow2 m c (ix2 (0 : Fin 1) q) = rowT 1 (gsL2 m c) (ix1 q) := by
  refine (congrFun (h4_v120 (V10 m (outs m) c)) (ix2 (0 : Fin 1) q)).trans ?_
  rw [show (V10 m (outs m) c main_arg7 : FVec Ideal S2x128 .f32) = gsL2 m c from
    V10_launch m (outs m) c main_arg7 (by decide)]
  exact prow2_apply _ q
theorem berow2_apply (q : Fin 128) : berow2 m c (ix2 (0 : Fin 1) q) = rowT 1 (besL2 m c) (ix1 q) := by
  refine (congrFun (h4_v121 (V10 m (outs m) c)) (ix2 (0 : Fin 1) q)).trans ?_
  rw [show (V10 m (outs m) c main_arg8 : FVec Ideal S2x128 .f32) = besL2 m c from
    V10_launch m (outs m) c main_arg8 (by decide)]
  exact prow2_apply _ q

theorem sum2_apply (q : Fin 128) : sum2 m c (ix2 (0 : Fin 1) q) = ∑ r : Fin 50000, (agg2 m c (ix2 r q) + brow2 m c (ix2 (0 : Fin 1) q)) := by
  show rd (V14 m (outs m)) c main_v122_0 (ix2 (0 : Fin 1) q) = _
  rw [outval4_2]
  exact final4_sum (rd (V13 m (o4 m))) c q
theorem sq2_apply (q : Fin 128) : sq2 m c (ix2 (0 : Fin 1) q)
    = ∑ r : Fin 50000, (agg2 m c (ix2 r q) + brow2 m c (ix2 (0 : Fin 1) q)) * (agg2 m c (ix2 r q) + brow2 m c (ix2 (0 : Fin 1) q)) := by
  show rd (V14 m (outs m)) c main_v122_1 (ix2 (0 : Fin 1) q) = _
  rw [outval4_3]
  exact final4_sq (rd (V13 m (o4 m))) c q

abbrev aggN2 : S50000x128.Idx → EReal := V15 m (outs m) c main_v112
abbrev browN2 : S1x128.Idx → EReal := V15 m (outs m) c main_v119
abbrev growN2 : S1x128.Idx → EReal := V15 m (outs m) c main_v120
abbrev berowN2 : S1x128.Idx → EReal := V15 m (outs m) c main_v121

theorem out2_apply (r : Fin 50000) (q : Fin 128) : out2 m c (ix2 r q)
    = max ((((agg2 m c (ix2 r q) + brow2 m c (ix2 (0 : Fin 1) q)) - mrow2 m c (ix2 (0 : Fin 1) q))
          * Ideal.rsqrt (vrow2 m c (ix2 (0 : Fin 1) q) + Ideal.ofBits .f32 0x3727C5AC#32)) * grow2 m c (ix2 (0 : Fin 1) q) + berow2 m c (ix2 (0 : Fin 1) q))
        (Ideal.ofBits .f32 0x00000000#32) := by
  show rd (V16 m (outs m)) c main_v129 (ix2 r q) = _
  rw [outval5_6]
  refine (final5_apply (rd (V15 m (o5 m))) c r q).trans ?_
  show max ((((aggN2 m c (ix2 r q) + browN2 m c (ix2 (0 : Fin 1) q)) - mrow2 m c (ix2 (0 : Fin 1) q))
      * Ideal.rsqrt (vrow2 m c (ix2 (0 : Fin 1) q) + Ideal.ofBits .f32 0x3727C5AC#32)) * growN2 m c (ix2 (0 : Fin 1) q) + berowN2 m c (ix2 (0 : Fin 1) q))
      (Ideal.ofBits .f32 0x00000000#32) = _
  rw [show aggN2 m c = agg2 m c from agg2_carry m c, show browN2 m c = brow2 m c from brow2_carry m c,
    show growN2 m c = grow2 m c from grow2_carry m c, show berowN2 m c = berow2 m c from berow2_carry m c]

abbrev preT2 (H : FVec Ideal S50000x128 .f32) : FVec Ideal S50000x128 .f32 :=
  biasT (gcnT (Host.dotGeneral Cert.ReferenceIdeal.dot_S50000x128_S128x128_S50000x128_1_0_0_1_n_n none H (matT 1 (wsL2 m c)))
    (edgeRowT 0 (eiL2 m c)) (edgeRowT 1 (eiL2 m c)) (ewL2 m c)) (rowT 1 (bsL2 m c))

theorem pre2_apply (H : FVec Ideal S50000x128 .f32) (hin : in2 m c = H) (r : Fin 50000) (q : Fin 128) :
    agg2 m c (ix2 r q) + brow2 m c (ix2 (0 : Fin 1) q) = preT2 m c H (ix2 r q) := by
  unfold preT2
  rw [biasT_apply, agg2_eq, hw2_eq m c H hin, brow2_apply]

theorem pre2_real (H : FVec Ideal S50000x128 .f32) (hH : AllReal H) (hEW : AllReal (ewL2 m c)) (hWS : AllReal (wsL2 m c))
    (hBS : AllReal (bsL2 m c)) : AllReal (preT2 m c H) :=
  biasT_real _ _ (gcnT_real _ _ _ _ (dot_real _ _ hH (matT_real 1 _ hWS)) hEW) (rowT_real 1 _ hBS)

theorem layer2 (H : FVec Ideal S50000x128 .f32) (hin : in2 m c = H) (hH : AllReal H) (hEW : AllReal (ewL2 m c))
    (hWS : AllReal (wsL2 m c)) (hBS : AllReal (bsL2 m c)) :
    out2 m c = normT (preT2 m c H) (meanT (preT2 m c H)) (varT (preT2 m c H)) (rowT 1 (gsL2 m c)) (rowT 1 (besL2 m c)) := by
  funext i
  obtain ⟨r, q, rfl⟩ : ∃ (r : Fin 50000) (q : Fin 128), i = ix2 r q := ⟨i 0, i 1, eq_ix2 i⟩
  rw [out2_apply, mrow2_apply, vrow2_apply, sum2_apply, sq2_apply, grow2_apply, berow2_apply]
  simp only [pre2_apply m c H hin]
  exact kernel_eq_ref (preT2 m c H) (pre2_real m c H hH hEW hWS hBS) _ _ r q

theorem layer2_real (H : FVec Ideal S50000x128 .f32) (hin : in2 m c = H) (hH : AllReal H) (hEW : AllReal (ewL2 m c))
    (hWS : AllReal (wsL2 m c)) (hBS : AllReal (bsL2 m c)) (hGS : AllReal (gsL2 m c)) (hBES : AllReal (besL2 m c)) :
    AllReal (out2 m c) := by
  rw [layer2 m c H hin hH hEW hWS hBS]
  exact normT_real _ (pre2_real m c H hH hEW hWS hBS) _ _ (rowT_real 1 _ hGS) (rowT_real 1 _ hBES)

end Cert.KernelIdeal.Val
-- ==== Proof.KernelIdeal.ValA6.lean ====
import proofs.«169164_j46703474376898_1_alg».proof.Proof.KernelIdeal.ValA0
import proofs.«169164_j46703474376898_1_alg».proof.Proof.KernelIdeal.RegA6

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

section Point
variable (V : (c : Dev nD) → (b : Ref sig .tc) → Buf (Elt Ideal) ((c : Thread nD τ).loc b)) (c : Dev nD)

abbrev act6 : S50000x128.Idx → EReal := V c (Pipeline.arrRef spec6 0)
abbrev wgt6 : S128x128.Idx → EReal := V c (Pipeline.arrRef spec6 1)

theorem idx6_facts : ∀ t : Fin cfg6.N, win6_0.index t (0 : Fin 2) = t.val ∧ win6_0.index t (1 : Fin 2) = 0
    ∧ win6_2.index t (0 : Fin 2) = t.val ∧ win6_2.index t (1 : Fin 2) = 0 ∧ ∀ a : Fin 2, win6_1.index t a = 0 :=
  (by decide +kernel : ∀ t : Fin grid6.N, _)

-- A block's element sits in its array, on each axis, at block index times block size plus its own coordinate.
theorem iblk6_0_apply (t : Fin cfg6.N) (x : S2000x128.Idx) (i : S50000x128.Idx)
    (h0 : (i 0).val = 2000 * t.val + (x 0).val) (h1 : (i 1).val = (x 1).val) :
    (iblk6 V c 0 t : Vec Ideal S2000x128 .f32) x = act6 V c i := by
  obtain ⟨e0, e1, -⟩ := idx6_facts t
  show act6 V c (((cfg6.win 0).blk t).view.emb x) = _
  refine congrArg _ (Shape.idx_ext₂ ?_ ?_)
  · show win6_0.index t (0 : Fin 2) * 2000 + 1 * (x 0).val = (i 0).val; omega
  · show win6_0.index t (1 : Fin 2) * 128 + 1 * (x 1).val = (i 1).val; omega

theorem iblk6_1_apply (t : Fin cfg6.N) : (iblk6 V c 1 t : Vec Ideal S128x128 .f32) = wgt6 V c :=
  funext fun x => congrArg (wgt6 V c) (funext fun a => Fin.ext (win6_1.rect_emb_val_of_index_zero t a ((idx6_facts t).2.2.2.2 a) x))

-- Block t of the result is block t of the row-by-row product of the two arrays.
theorem flushed6_eq (t : Fin cfg6.N) :
    (dat6 V c).flushed 2 t = ((cfg6.win 2).blk t).view.read (Elt Ideal) (rowProd (act6 V c) (wgt6 V c)) := by
  show (cfg6.win 2).cut (grid6.coords t) ((dat6 V c).after 2 t) = _
  rw [after6_2]
  obtain ⟨-, -, e4, e5, -⟩ := idx6_facts t
  funext j
  obtain ⟨p, q, rfl⟩ : ∃ (p : Fin 2000) (q : Fin 128), j = ix2 p q := ⟨j 0, j 1, eq_ix2 j⟩
  refine (pay0_apply _ _ p q).trans ?_
  show _ = rowProd (act6 V c) (wgt6 V c) (((cfg6.win 2).blk t).view.emb (ix2 p q))
  rw [iblk6_1_apply]
  have hE0 : ((((cfg6.win 2).blk t).view.emb (ix2 p q) : S50000x128.Idx) 0).val = 2000 * t.val + p.val := by
    show win6_2.index t (0 : Fin 2) * 2000 + 1 * p.val = _; omega
  have hE1 : ((((cfg6.win 2).blk t).view.emb (ix2 p q) : S50000x128.Idx) 1).val = q.val := by
    show win6_2.index t (1 : Fin 2) * 128 + 1 * q.val = _; omega
  unfold rowProd
  exact Finset.sum_congr rfl fun k _ => congrArg₂ (· * ·) (iblk6_0_apply V c t (ix2 p k) _ hE0 rfl) (congrArg (wgt6 V c) (Shape.idx_ext₂ rfl hE1.symm))

-- Row r lies in the block of point r / 2000.
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ : ∃ t : Fin cfg6.N, t.val = (i 0).val / 2000 :=
    ⟨⟨(i 0).val / 2000, by rw [show cfg6.N = 25 from N_6]; omega⟩, rfl⟩
  obtain ⟨-, -, e4, e5, -⟩ := idx6_facts t
  refine ⟨t, flush6_2 t, ?_⟩
  show i ∈ ((View.whole (Pipeline.arrRef spec6 2)).slice (win6_2.rect t)).set
  rw [View.set_slice_whole, Rect.mem_set_unit]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

theorem final6 : (dat6 V c).arrAt 2 cfg6.N = rowProd (act6 V c) (wgt6 V c) :=
  (dat6 V c).arrAt_eq_of_cover 2 _ (fun t _ => flushed6_eq V c t) cover6

end Point

end Cert.KernelIdeal.Reg
-- ==== Proof.KernelIdeal.ValS7.lean ====
import proofs.«169164_j46703474376898_1_alg».proof.Proof.KernelIdeal.ValS1
import proofs.«169164_j46703474376898_1_alg».proof.Proof.KernelIdeal.RegS7

noncomputable section

open scoped BigOperators

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Point
variable (V : (c : Dev nD) → (b : Ref sig .tc) → Buf (Elt Ideal) ((c : Thread nD τ).loc b)) (c : Dev nD) (q : Fin 128)

abbrev xarr_r7 : Vec Ideal S50000x128 .f32 := V c (Pipeline.arrRef spec7 0)
abbrev brow_r7 : Vec Ideal S1x128 .f32 := V c (Pipeline.arrRef spec7 1)
abbrev xblk_r7 (t : Fin cfg7.N) : Vec Ideal S2000x128 .f32 := iblk7 V c 0 t
abbrev bblk_r7 (t : Fin cfg7.N) : Vec Ideal S1x128 .f32 := iblk7 V c 1 t

theorem pos_r7 : 0 < cfg7.N := by rw [show cfg7.N = 25 from N_7]; decide
abbrev tLast_r7 : Fin cfg7.N := ⟨cfg7.N - 1, Nat.sub_lt pos_r7 Nat.one_pos⟩

theorem idx_facts_r7 : ∀ t : Fin cfg7.N, win7_0.index t (0 : Fin 2) = t.val ∧ win7_0.index t (1 : Fin 2) = 0 ∧ ∀ a : Fin 2, win7_1.index t a = 0 :=
  (by decide +kernel : ∀ t : Fin grid7.N, _)

theorem blockRow_lt_r7 (t : Fin cfg7.N) (r : Fin 2000) : t.val * 2000 + r.val < 50000 := by
  have := lt_of_lt_of_eq t.isLt (show cfg7.N = 25 from N_7); have := r.isLt; omega

-- A block's element sits in its array at block index times block size plus its own coordinate.
theorem xblk_at_r7 (t : Fin cfg7.N) (r : Fin 2000) :
    xblk_r7 V c t (ix2 r q) = xarr_r7 V c (ix2 ⟨t.val * 2000 + r.val, blockRow_lt_r7 t r⟩ q) := by
  obtain ⟨e0, e1, -⟩ := idx_facts_r7 t
  show xarr_r7 V c (((cfg7.win 0).blk t).view.emb (ix2 r q)) = _
  refine congrArg _ (Shape.idx_ext₂ ?_ ?_)
  · show win7_0.index t (0 : Fin 2) * 2000 + 1 * r.val = t.val * 2000 + r.val; omega
  · show win7_0.index t (1 : Fin 2) * 128 + 1 * q.val = q.val; omega

theorem bblk_at_r7 (t : Fin cfg7.N) : bblk_r7 V c t (ix2 0 q) = brow_r7 V c (ix2 0 q) :=
  congrArg (brow_r7 V c) (funext fun a => Fin.ext (win7_1.rect_emb_val_of_index_zero t a ((idx_facts_r7 t).2.2 a) (ix2 0 q)))

theorem first_r7 (t : Fin cfg7.N) (h0 : t.val % 25 = 0) :
    (outsAt7 V c t.val t.isLt).1 (ix2 0 q) = colSum (xblk_r7 V c t) (bblk_r7 V c t) q (fun z => z)
    ∧ (outsAt7 V c t.val t.isLt).2 (ix2 0 q) = colSum (xblk_r7 V c t) (bblk_r7 V c t) q (fun z => z * z) := by
  rw [outsAt7_A V c t h0]; dsimp only
  exact ⟨(congrFun statsOut_A_eq.1 _).trans (statsBlock_at _ _ q).1, (congrFun statsOut_A_eq.2 _).trans (statsBlock_at _ _ q).2⟩

theorem next_r7 (t : Fin cfg7.N) (h0 : ¬t.val % 25 = 0) :
    (outsAt7 V c t.val t.isLt).1 (ix2 0 q)
      = (outsAt7 V c (t.val - 1) (Nat.lt_of_le_of_lt (Nat.sub_le _ _) t.isLt)).1 (ix2 0 q) + colSum (xblk_r7 V c t) (bblk_r7 V c t) q (fun z => z)
    ∧ (outsAt7 V c t.val t.isLt).2 (ix2 0 q)
      = (outsAt7 V c (t.val - 1) (Nat.lt_of_le_of_lt (Nat.sub_le _ _) t.isLt)).2 (ix2 0 q) + colSum (xblk_r7 V c t) (bblk_r7 V c t) q (fun z => z * z) := by
  rw [outsAt7_B V c t h0]; dsimp only
  exact ⟨(congrFun statsOut_B_eq.1 _).trans (statsAcc_at _ _ _ q).1, (congrFun statsOut_B_eq.2 _).trans (statsAcc_at _ _ _ q).2⟩

theorem step_r7 (t : Nat) (h : t + 1 < cfg7.N) : ¬(t + 1) % 25 = 0 := by
  have := lt_of_lt_of_eq h (show cfg7.N = 25 from N_7); omega

-- A row that starts at the first block's column sums and gains each later block's ends at the sum over all 50000 rows: 25 blocks of 2000.
theorem last_r7 (g : EReal → EReal) (o : Fin cfg7.N → EReal)
    (h0 : o ⟨0, pos_r7⟩ = colSum (xblk_r7 V c ⟨0, pos_r7⟩) (bblk_r7 V c ⟨0, pos_r7⟩) q g)
    (hs : ∀ (t : Nat) (h : t + 1 < cfg7.N), o ⟨t + 1, h⟩ = o ⟨t, Nat.lt_of_succ_lt h⟩ + colSum (xblk_r7 V c ⟨t + 1, h⟩) (bblk_r7 V c ⟨t + 1, h⟩) q g) :
    o tLast_r7 = ∑ i : Fin 50000, g (xarr_r7 V c (ix2 i q) + brow_r7 V c (ix2 0 q)) := by
  refine (Cert.LibBatchNorm.acc_fin_last_eq_sum (a := cfg7.N) (fun t => colSum (xblk_r7 V c t) (bblk_r7 V c t) q g) o pos_r7 h0 hs).trans ?_
  rw [Cert.LibBatchNorm.sum_fin_eq_blocks (show 50000 = cfg7.N * 2000 from by rw [show cfg7.N = 25 from N_7]) (fun i : Fin 50000 => g (xarr_r7 V c (ix2 i q) + brow_r7 V c (ix2 0 q)))]
  refine Finset.sum_congr rfl fun t _ => Finset.sum_congr rfl fun r _ => ?_
  rw [xblk_at_r7, bblk_at_r7]

-- An array that is one block, left once at the last point, ends as that point's contents.
theorem final_row_r7 (w : Fin cfg7.W) (R : Buf (Elt Ideal) ((cfg7.win w).arr.view.loc (c.tc : Thread nD τ)))
    (hfl : ∀ t : Fin cfg7.N, (cfg7.win w).flush t = true ↔ t.val % 25 = 24)
    (hR : (dat7 V c).flushed w tLast_r7 = ((cfg7.win w).blk tLast_r7).view.read (Elt Ideal) R)
    (hm : ∀ i, i ∈ ((cfg7.win w).blk tLast_r7).view.set) : (dat7 V c).arrAt w cfg7.N = R := by
  have hN : cfg7.N = 25 := N_7
  refine (dat7 V c).arrAt_eq_of_cover w R (fun t hf => ?_) fun i => ⟨tLast_r7, (hfl _).mpr (by show (cfg7.N - 1) % 25 = 24; rw [hN]), hm i⟩
  obtain rfl : t = tLast_r7 := Fin.ext (by have := (hfl t).mp hf; have := t.isLt; show t.val = cfg7.N - 1; omega)
  exact hR

abbrev sumsRow_r7 : Buf (Elt Ideal) ((c : Thread nD τ).loc (Pipeline.arrRef spec7 2)) := (outsAt7 V c tLast_r7.val tLast_r7.isLt).1

theorem final_2_row_r7 : (dat7 V c).arrAt 2 cfg7.N = sumsRow_r7 V c :=
  final_row_r7 V c 2 _ flush7_2 (by
    show (cfg7.win 2).cut (grid7.coords tLast_r7) ((dat7 V c).after 2 tLast_r7) = _
    rw [after7_2]
    have hz' : (fun a => win7_2.index tLast_r7 a * (Pipeline.arrRef spec7 2).ty.shape.size a) = fun _ => 0 := funext fun a => by fin_cases a <;> decide +kernel
    exact (Memref.read_access_unit_zero (Elt Ideal) (Pipeline.arrRef spec7 2) hz' (fun a => by rw [congrFun hz' a]; simp) (sumsRow_r7 V c)).symm) fun i => by
      show i ∈ ((View.whole (Pipeline.arrRef spec7 2)).slice (win7_2.rect tLast_r7)).set
      rw [View.set_slice_whole]
      exact mem_unit_whole (S := S1x128) (by decide +kernel) i

abbrev sqsRow_r7 : Buf (Elt Ideal) ((c : Thread nD τ).loc (Pipeline.arrRef spec7 3)) := (outsAt7 V c tLast_r7.val tLast_r7.isLt).2

theorem final_3_row_r7 : (dat7 V c).arrAt 3 cfg7.N = sqsRow_r7 V c :=
  final_row_r7 V c 3 _ flush7_3 (by
    show (cfg7.win 3).cut (grid7.coords tLast_r7) ((dat7 V c).after 3 tLast_r7) = _
    rw [after7_3]
    have hz' : (fun a => win7_3.index tLast_r7 a * (Pipeline.arrRef spec7 3).ty.shape.size a) = fun _ => 0 := funext fun a => by fin_cases a <;> decide +kernel
    exact (Memref.read_access_unit_zero (Elt Ideal) (Pipeline.arrRef spec7 3) hz' (fun a => by rw [congrFun hz' a]; simp) (sqsRow_r7 V c)).symm) fun i => by
      show i ∈ ((View.whole (Pipeline.arrRef spec7 3)).slice (win7_3.rect tLast_r7)).set
      rw [View.set_slice_whole]
      exact mem_unit_whole (S := S1x128) (by decide +kernel) i

theorem final7_sum :
    (dat7 (F := Ideal) V c).arrAt 2 cfg7.N (ix2 0 q) = ∑ i : Fin 50000, (xarr_r7 V c (ix2 i q) + brow_r7 V c (ix2 0 q)) :=
  (congrFun (final_2_row_r7 V c) (ix2 0 q)).trans
    (last_r7 V c q (fun z => z) (fun t => (outsAt7 V c t.val t.isLt).1 (ix2 0 q)) (first_r7 V c q ⟨0, pos_r7⟩ (Nat.zero_mod _)).1
      fun t h => (next_r7 V c q ⟨t + 1, h⟩ (step_r7 t h)).1)

theorem final7_sq :
    (dat7 (F := Ideal) V c).arrAt 3 cfg7.N (ix2 0 q) = ∑ i : Fin 50000, (xarr_r7 V c (ix2 i q) + brow_r7 V c (ix2 0 q)) * (xarr_r7 V c (ix2 i q) + brow_r7 V c (ix2 0 q)) :=
  (congrFun (final_3_row_r7 V c) (ix2 0 q)).trans
    (last_r7 V c q (fun z => z * z) (fun t => (outsAt7 V c t.val t.isLt).2 (ix2 0 q)) (first_r7 V c q ⟨0, pos_r7⟩ (Nat.zero_mod _)).2
      fun t h => (next_r7 V c q ⟨t + 1, h⟩ (step_r7 t h)).2)

end Point

end Cert.KernelIdeal.Reg

end
-- ==== Proof.KernelIdeal.ValN8.lean ====
import proofs.«169164_j46703474376898_1_alg».proof.Proof.KernelIdeal.ValN2
import proofs.«169164_j46703474376898_1_alg».proof.Proof.KernelIdeal.RegN8

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx

section Point
variable (V : (c : Dev nD) → (b : Ref sig .tc) → Buf (Elt Ideal) ((c : Thread nD τ).loc b)) (c : Dev nD)

abbrev rows8 : Vec Ideal S50000x128 .f32 := V c (Pipeline.arrRef spec8 0)
abbrev bias8 : Vec Ideal S1x128 .f32 := V c (Pipeline.arrRef spec8 1)
abbrev mean8 : Vec Ideal S1x128 .f32 := V c (Pipeline.arrRef spec8 2)
abbrev var8 : Vec Ideal S1x128 .f32 := V c (Pipeline.arrRef spec8 3)
abbrev gamma8 : Vec Ideal S1x128 .f32 := V c (Pipeline.arrRef spec8 4)
abbrev beta8 : Vec Ideal S1x128 .f32 := V c (Pipeline.arrRef spec8 5)

theorem blockIndex8 : ∀ t : Fin cfg8.N,
    win8_0.index t (0 : Fin 2) = t.val ∧ win8_0.index t (1 : Fin 2) = 0
    ∧ win8_6.index t (0 : Fin 2) = t.val ∧ win8_6.index t (1 : Fin 2) = 0 :=
  (by decide +kernel : ∀ t : Fin grid8.N, _)

theorem zeroOffsets8 : ∀ (t : Fin cfg8.N) (a : Fin 2),
    win8_1.index t a = 0 ∧ win8_2.index t a = 0 ∧ win8_3.index t a = 0 ∧ win8_4.index t a = 0 ∧ win8_5.index t a = 0 :=
  (by decide +kernel : ∀ (t : Fin grid8.N) (a : Fin 2), _)

-- A block's element sits in its array, on each axis, at block index times block size plus its own coordinate.
theorem rowsBlock8 (t : Fin cfg8.N) (p : Fin 2000) (q : Fin 128) (hb : t.val * 2000 + p.val < 50000) :
    iblk8 V c 0 t (ix2 p q) = rows8 V c (ix2 (⟨t.val * 2000 + p.val, hb⟩ : Fin 50000) q) := by
  obtain ⟨e00, e01, -, -⟩ := blockIndex8 t
  show rows8 V c (((cfg8.win 0).blk t).view.emb (ix2 p q)) = _
  refine congrArg _ (Shape.idx_ext₂ ?_ ?_)
  · show win8_0.index t (0 : Fin 2) * 2000 + 1 * p.val = t.val * 2000 + p.val; omega
  · show win8_0.index t (1 : Fin 2) * 128 + 1 * q.val = q.val; omega

theorem outIndex8 (t : Fin cfg8.N) (p : Fin 2000) (q : Fin 128) (hb : t.val * 2000 + p.val < 50000) :
    ((cfg8.win 6).blk t).view.emb (ix2 p q) = (ix2 (⟨t.val * 2000 + p.val, hb⟩ : Fin 50000) q : S50000x128.Idx) := by
  obtain ⟨-, -, e60, e61⟩ := blockIndex8 t
  refine Shape.idx_ext₂ ?_ ?_
  · show win8_6.index t (0 : Fin 2) * 2000 + 1 * p.val = t.val * 2000 + p.val; omega
  · show win8_6.index t (1 : Fin 2) * 128 + 1 * q.val = q.val; omega

theorem biasBlock8 (t : Fin cfg8.N) (q : Fin 128) : iblk8 V c 1 t (ix2 (0 : Fin 1) q) = bias8 V c (ix2 0 q) :=
  congrArg (bias8 V c) (funext fun a => Fin.ext (win8_1.rect_emb_val_of_index_zero t a (zeroOffsets8 t a).1 (ix2 0 q)))

theorem meanBlock8 (t : Fin cfg8.N) (q : Fin 128) : iblk8 V c 2 t (ix2 (0 : Fin 1) q) = mean8 V c (ix2 0 q) :=
  congrArg (mean8 V c) (funext fun a => Fin.ext (win8_2.rect_emb_val_of_index_zero t a (zeroOffsets8 t a).2.1 (ix2 0 q)))

theorem varBlock8 (t : Fin cfg8.N) (q : Fin 128) : iblk8 V c 3 t (ix2 (0 : Fin 1) q) = var8 V c (ix2 0 q) :=
  congrArg (var8 V c) (funext fun a => Fin.ext (win8_3.rect_emb_val_of_index_zero t a (zeroOffsets8 t a).2.2.1 (ix2 0 q)))

theorem gammaBlock8 (t : Fin cfg8.N) (q : Fin 128) : iblk8 V c 4 t (ix2 (0 : Fin 1) q) = gamma8 V c (ix2 0 q) :=
  congrArg (gamma8 V c) (funext fun a => Fin.ext (win8_4.rect_emb_val_of_index_zero t a (zeroOffsets8 t a).2.2.2.1 (ix2 0 q)))

theorem betaBlock8 (t : Fin cfg8.N) (q : Fin 128) : iblk8 V c 5 t (ix2 (0 : Fin 1) q) = beta8 V c (ix2 0 q) :=
  congrArg (beta8 V c) (funext fun a => Fin.ext (win8_5.rect_emb_val_of_index_zero t a (zeroOffsets8 t a).2.2.2.2 (ix2 0 q)))

-- Block t of the result is block t of one function of the six arrays.
theorem flushed8_eq (t : Fin cfg8.N) :
    (dat8 (F := Ideal) V c).flushed 6 t = ((cfg8.win 6).blk t).view.read (Elt Ideal) (normRelu (rows8 V c) (bias8 V c) (mean8 V c) (var8 V c) (gamma8 V c) (beta8 V c)) := by
  show (cfg8.win 6).cut (grid8.coords t) ((dat8 (F := Ideal) V c).after 6 t) = _
  rw [after8_6]
  have ht : t.val < 25 := t.isLt
  refine funext fun (j : S2000x128.Idx) => ?_
  obtain ⟨p, q, rfl⟩ : ∃ (p : Fin 2000) (q : Fin 128), j = ix2 p q := ⟨j 0, j 1, eq_ix2 j⟩
  have hb : t.val * 2000 + p.val < 50000 := by have hp : p.val < 2000 := p.isLt; omega
  refine (pay2_apply _ _ _ _ _ _ p q).trans ?_
  show _ = normRelu (rows8 V c) (bias8 V c) (mean8 V c) (var8 V c) (gamma8 V c) (beta8 V c) (((cfg8.win 6).blk t).view.emb (ix2 p q))
  rw [rowsBlock8 V c t p q hb, biasBlock8, meanBlock8, varBlock8, gammaBlock8, betaBlock8, outIndex8 t p q hb]
  rfl

-- Row r lies in the block of point r / 2000.
theorem cover8 (i : S50000x128.Idx) : ∃ t : Fin cfg8.N, (cfg8.win 6).flush t = true ∧ i ∈ ((cfg8.win 6).blk t).view.set := by
  have hi0 : (i 0).val < 50000 := (i 0).isLt
  have hi1 : (i 1).val < 128 := (i 1).isLt
  obtain ⟨t, ht⟩ : ∃ t : Fin cfg8.N, t.val = (i 0).val / 2000 := ⟨⟨(i 0).val / 2000, by show (i 0).val / 2000 < 25; omega⟩, rfl⟩
  obtain ⟨-, -, e60, e61⟩ := blockIndex8 t
  refine ⟨t, flush8_6 t, ?_⟩
  show i ∈ ((View.whole (Pipeline.arrRef spec8 6)).slice (win8_6.rect t)).set
  rw [View.set_slice_whole, Rect.mem_set_unit]
  intro a
  match a with
  | ⟨0, _⟩ => show win8_6.index t (0 : Fin 2) * 2000 ≤ (i 0).val ∧ (i 0).val < win8_6.index t (0 : Fin 2) * 2000 + 2000; omega
  | ⟨1, _⟩ => show win8_6.index t (1 : Fin 2) * 128 ≤ (i 1).val ∧ (i 1).val < win8_6.index t (1 : Fin 2) * 128 + 128; omega

theorem final8 : (dat8 (F := Ideal) V c).arrAt 6 cfg8.N = normRelu (rows8 V c) (bias8 V c) (mean8 V c) (var8 V c) (gamma8 V c) (beta8 V c) :=
  (dat8 (F := Ideal) V c).arrAt_eq_of_cover 6 _ (fun t _ => flushed8_eq V c t) cover8

theorem final8_apply (r : Fin 50000) (q : Fin 128) :
    (dat8 (F := Ideal) V c).arrAt 6 cfg8.N (ix2 r q)
      = max ((((rows8 V c (ix2 r q) + bias8 V c (ix2 0 q)) - mean8 V c (ix2 0 q)) * Ideal.rsqrt (var8 V c (ix2 0 q) + Ideal.ofBits .f32 0x3727C5AC#32)) * gamma8 V c (ix2 0 q) + beta8 V c (ix2 0 q))
          (Ideal.ofBits .f32 0x00000000#32) :=
  congrFun (final8 V c) (ix2 r q)

end Point

end Cert.KernelIdeal.Reg
-- ==== Proof.KernelIdeal.GcnReads7.lean ====
/- What the kernel program's buffers hold after the host stretch before layer 3's statistics kernel: the layer's
   graph aggregation (the term gcnK of the projected features, the two edge rows and the edge weights) and the layer's
   bias, scale and shift rows (row 0 of each two-row parameter). The stretch is the first layer's operations over
   other buffers, and the operations' results are folded over the buffers' contents in the same way. -/
import proofs.«169164_j46703474376898_1_alg».proof.Proof.KernelIdeal.GcnReads

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## Layer 3 (the stretch before the layer's statistics kernel) -/

set_option maxRecDepth 8192 in
set_option maxHeartbeats 4000000 in
/-- After the stretch the aggregation's buffer holds `gcnK` of the projected features, the two edge rows and the edge
    weights: each operation's result is its function of its operands' contents and the other buffers keep theirs,
    along the three lists; the node indices and the unit weights, which sit inside the operand lists of the
    concatenations, are read the same way, operation by operation. -/
theorem h7_v173 (V : Valuation τ sig (Elt F)) :
    StableHlo.after (hostOps7_2 (F := F)) (StableHlo.after (hostOps7_1 (F := F)) (StableHlo.after (hostOps7 (F := F)) V)) (Proc.devRef .tc main_v173)
      = gcnK (V (Proc.devRef .tc main_v132) : (⟨S50000x128, .f32⟩ : BufTy).Contents (Elt F)) (V (Proc.devRef .tc main_v5) : (⟨S800000, .i32⟩ : BufTy).Contents (Elt F))
          (V (Proc.devRef .tc main_v7) : (⟨S800000, .i32⟩ : BufTy).Contents (Elt F)) (V (Proc.devRef .tc main_arg4) : (⟨S800000, .f32⟩ : BufTy).Contents (Elt F)) := by
  unfold gcnK
  after_results_simp
  (try simp only [TRef.ofBuf, TRef.toBuf, cast_eq])
  repeat (first
    | rw [nullary_result] | rw [unary_result] | rw [binary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

set_option maxRecDepth 8192 in
set_option maxHeartbeats 4000000 in
/-- After the stretch the layer's bias row holds row 0 of its two-row parameter, laid as a [1 × 128] row: the cut, the
    flattening and the re-laying are the stretch's last operations, and nothing before them writes the parameter. -/
theorem h7_v180 (V : Valuation τ sig (Elt F)) :
    StableHlo.after (hostOps7_2 (F := F)) (StableHlo.after (hostOps7_1 (F := F)) (StableHlo.after (hostOps7 (F := F)) V)) (Proc.devRef .tc main_v180)
      = paramRow0 (V (Proc.devRef .tc main_arg10) : (⟨S2x128, .f32⟩ : BufTy).Contents (Elt F)) := by
  after_results_simp
  rfl

set_option maxRecDepth 8192 in
set_option maxHeartbeats 4000000 in
/-- After the stretch the layer's scale row holds row 0 of its two-row parameter, laid as a [1 × 128] row: the cut, the
    flattening and the re-laying are the stretch's last operations, and nothing before them writes the parameter. -/
theorem h7_v181 (V : Valuation τ sig (Elt F)) :
    StableHlo.after (hostOps7_2 (F := F)) (StableHlo.after (hostOps7_1 (F := F)) (StableHlo.after (hostOps7 (F := F)) V)) (Proc.devRef .tc main_v181)
      = paramRow0 (V (Proc.devRef .tc main_arg11) : (⟨S2x128, .f32⟩ : BufTy).Contents (Elt F)) := by
  after_results_simp
  rfl

set_option maxRecDepth 8192 in
set_option maxHeartbeats 4000000 in
/-- After the stretch the layer's shift row holds row 0 of its two-row parameter, laid as a [1 × 128] row: the cut, the
    flattening and the re-laying are the stretch's last operations, and nothing before them writes the parameter. -/
theorem h7_v182 (V : Valuation τ sig (Elt F)) :
    StableHlo.after (hostOps7_2 (F := F)) (StableHlo.after (hostOps7_1 (F := F)) (StableHlo.after (hostOps7 (F := F)) V)) (Proc.devRef .tc main_v182)
      = paramRow0 (V (Proc.devRef .tc main_arg12) : (⟨S2x128, .f32⟩ : BufTy).Contents (Elt F)) := by
  after_results_simp
  rfl

end Cert.KernelIdeal.Host

end
-- ==== Proof.KernelIdeal.Layer3.lean ====
import proofs.«169164_j46703474376898_1_alg».proof.Proof.KernelIdeal.Seg6
import proofs.«169164_j46703474376898_1_alg».proof.Proof.KernelIdeal.Seg7
import proofs.«169164_j46703474376898_1_alg».proof.Proof.KernelIdeal.Seg8
import proofs.«169164_j46703474376898_1_alg».proof.Proof.KernelIdeal.ValA6
import proofs.«169164_j46703474376898_1_alg».proof.Proof.KernelIdeal.ValS7
import proofs.«169164_j46703474376898_1_alg».proof.Proof.KernelIdeal.ValN8
import proofs.«169164_j46703474376898_1_alg».proof.Proof.KernelIdeal.HostReads
import proofs.«169164_j46703474376898_1_alg».proof.Proof.KernelIdeal.GcnReads7
import proofs.«169164_j46703474376898_1_alg».proof.Proof.KernelIdeal.Carry
import proofs.«169164_j46703474376898_1_alg».proof.Proof.GcnEq
import proofs.«169164_j46703474376898_1_alg».proof.Proof.GcnReal
import proofs.«169164_j46703474376898_1_alg».proof.Proof.LayerLib
import Idealize.ShloMosaic.Lib.Pipeline.Value

set_option maxRecDepth 16384

noncomputable section

namespace Cert.KernelIdeal.Val

open Cert.KernelIdeal Cert.KernelIdeal.Gen Cert.KernelIdeal.Reg Cert.KernelIdeal.Run Cert.KernelIdeal.Host
open Cert.ReferenceIdeal.Hand Cert.LibReal
open Idealize.ShloMosaic Idealize.ShloMosaic.TcCoe Idealize.SL.Sem Idealize.ShloMosaic.ValueIdx
open scoped BigOperators

variable (m : (ℓ : Loc nD τ sig) → Buf (Elt Ideal) ℓ) (c : Dev nD)

abbrev eiL3 : IVec S2x800000 32 := m ((c : Thread nD τ).loc main_arg3)
abbrev ewL3 : FVec Ideal S800000 .f32 := m ((c : Thread nD τ).loc main_arg4)
abbrev wsL3 : FVec Ideal S2x128x128 .f32 := m ((c : Thread nD τ).loc main_arg9)
abbrev bsL3 : FVec Ideal S2x128 .f32 := m ((c : Thread nD τ).loc main_arg10)
abbrev gsL3 : FVec Ideal S2x128 .f32 := m ((c : Thread nD τ).loc main_arg11)
abbrev besL3 : FVec Ideal S2x128 .f32 := m ((c : Thread nD τ).loc main_arg12)

abbrev in3 : S50000x128.Idx → EReal := V17 m (outs m) c main_arg0
abbrev hw3 : S50000x128.Idx → EReal := V18 m (outs m) c main_v132
abbrev agg3 : S50000x128.Idx → EReal := V21 m (outs m) c main_v173
abbrev brow3 : S1x128.Idx → EReal := V21 m (outs m) c main_v180
abbrev grow3 : S1x128.Idx → EReal := V21 m (outs m) c main_v181
abbrev berow3 : S1x128.Idx → EReal := V21 m (outs m) c main_v182
abbrev sum3 : S1x128.Idx → EReal := V22 m (outs m) c main_v183_0
abbrev sq3 : S1x128.Idx → EReal := V22 m (outs m) c main_v183_1
abbrev mrow3 : S1x128.Idx → EReal := V23 m (outs m) c main_v185
abbrev vrow3 : S1x128.Idx → EReal := V23 m (outs m) c main_v189
abbrev out3 : S50000x128.Idx → EReal := V24 m (outs m) c main_v190

theorem act3_eq : act6 (rd (V17 m (o6 m))) c = in3 m c :=
  congrFun (entry6 m c).symm (Proc.devRef .tc main_arg0)

theorem wgt3_apply (k q : Fin 128) : wgt6 (rd (V17 m (o6 m))) c (ix2 k q) = matT 0 (wsL3 m c) (ix2 k q) := by
  refine (h6_v131_apply (V16 m (o6 m) c) k q).trans ?_
  refine (congrFun (V16_launch m (o6 m) c main_arg9 (by decide)) (ix3 (0 : Fin 2) k q)).trans ?_
  exact (matT_zero_apply (wsL3 m c) k q).symm

theorem hw3_eq (H : FVec Ideal S50000x128 .f32) (hin : in3 m c = H) :
    hw3 m c = Host.dotGeneral Cert.ReferenceIdeal.dot_S50000x128_S128x128_S50000x128_1_0_0_1_n_n none H (matT 0 (wsL3 m c)) := by
  show rd (V18 m (outs m)) c main_v132 = _
  rw [outval6_2, final6]
  funext i
  obtain ⟨r, q, rfl⟩ : ∃ (r : Fin 50000) (q : Fin 128), i = ix2 r q := ⟨i 0, i 1, eq_ix2 i⟩
  rw [rowProd_apply]
  refine Eq.trans ?_ (dot_apply H (matT 0 (wsL3 m c)) r q).symm
  refine Finset.sum_congr rfl fun k _ => ?_
  exact congrArg₂ (· * ·) ((congrFun (act3_eq m c) (ix2 r k)).trans (congrFun hin (ix2 r k))) (wgt3_apply m c k q)

theorem src3_eq : (V18 m (outs m) c main_v5 : S800000.Idx → BitVec 32) = edgeRowT 0 (eiL3 m c) :=
  (V18_edge m (outs m) c main_v5 (by decide)).trans (h0_v5 (V0 m c))
theorem dst3_eq : (V18 m (outs m) c main_v7 : S800000.Idx → BitVec 32) = edgeRowT 1 (eiL3 m c) :=
  (V18_edge m (outs m) c main_v7 (by decide)).trans (h0_v7 (V0 m c))
theorem ew3_eq : (V18 m (outs m) c main_arg4 : FVec Ideal S800000 .f32) = ewL3 m c :=
  V18_launch m (outs m) c main_arg4 (by decide)

theorem agg3_carry : (V23 m (outs m) c main_v173 : S50000x128.Idx → EReal) = agg3 m c :=
  (V23_of m (outs m) c main_v173 (by decide)).trans (V22_of m (outs m) c main_v173 (by decide))
theorem brow3_carry : (V23 m (outs m) c main_v180 : S1x128.Idx → EReal) = brow3 m c :=
  (V23_of m (outs m) c main_v180 (by decide)).trans (V22_of m (outs m) c main_v180 (by decide))
theorem grow3_carry : (V23 m (outs m) c main_v181 : S1x128.Idx → EReal) = grow3 m c :=
  (V23_of m (outs m) c main_v181 (by decide)).trans (V22_of m (outs m) c main_v181 (by decide))
theorem berow3_carry : (V23 m (outs m) c main_v182 : S1x128.Idx → EReal) = berow3 m c :=
  (V23_of m (outs m) c main_v182 (by decide)).trans (V22_of m (outs m) c main_v182 (by decide))

theorem mrow3_apply (j : S1x128.Idx) : mrow3 m c j = Ideal.div (sum3 m c j) (Ideal.ofBits .f32 0x47435000#32) :=
  h8_v185_apply (V22 m (outs m) c) j
theorem vrow3_apply (j : S1x128.Idx) : vrow3 m c j
    = Ideal.div (sq3 m c j) (Ideal.ofBits .f32 0x47435000#32)
      - Ideal.div (sum3 m c j) (Ideal.ofBits .f32 0x47435000#32) * Ideal.div (sum3 m c j) (Ideal.ofBits .f32 0x47435000#32) :=
  h8_v189_apply (V22 m (outs m) c) j

theorem agg3_eq : agg3 m c = gcnT (hw3 m c) (edgeRowT 0 (eiL3 m c)) (edgeRowT 1 (eiL3 m c)) (ewL3 m c) := by
  refine (h7_v173 (V18 m (outs m) c)).trans ?_
  rw [gcn_eq, src3_eq, dst3_eq, ew3_eq]

theorem prow3_apply (p : FVec Ideal S2x128 .f32) (q : Fin 128) : paramRow0 p (ix2 (0 : Fin 1) q) = rowT 0 p (ix1 q) := by
  unfold paramRow0
  rw [asRow_apply, rowT_zero]

theorem brow3_apply (q : Fin 128) : brow3 m c (ix2 (0 : Fin 1) q) = rowT 0 (bsL3 m c) (ix1 q) := by
  refine (congrFun (h7_v180 (V18 m (outs m) c)) (ix2 (0 : Fin 1) q)).trans ?_
  rw [show (V18 m (outs m) c main_arg10 : FVec Ideal S2x128 .f32) = bsL3 m c from
    V18_launch m (outs m) c main_arg10 (by decide)]
  exact prow3_apply _ q
theorem grow3_apply (q : Fin 128) : grow3 m c (ix2 (0 : Fin 1) q) = rowT 0 (gsL3 m c) (ix1 q) := by
  refine (congrFun (h7_v181 (V18 m (outs m) c)) (ix2 (0 : Fin 1) q)).trans ?_
  rw [show (V18 m (outs m) c main_arg11 : FVec Ideal S2x128 .f32) = gsL3 m c from
    V18_launch m (outs m) c main_arg11 (by decide)]
  exact prow3_apply _ q
theorem berow3_apply (q : Fin 128) : berow3 m c (ix2 (0 : Fin 1) q) = rowT 0 (besL3 m c) (ix1 q) := by
  refine (congrFun (h7_v182 (V18 m (outs m) c)) (ix2 (0 : Fin 1) q)).trans ?_
  rw [show (V18 m (outs m) c main_arg12 : FVec Ideal S2x128 .f32) = besL3 m c from
    V18_launch m (outs m) c main_arg12 (by decide)]
  exact prow3_apply _ q

theorem sum3_apply (q : Fin 128) : sum3 m c (ix2 (0 : Fin 1) q) = ∑ r : Fin 50000, (agg3 m c (ix2 r q) + brow3 m c (ix2 (0 : Fin 1) q)) := by
  show rd (V22 m (outs m)) c main_v183_0 (ix2 (0 : Fin 1) q) = _
  rw [outval7_2]
  exact final7_sum (rd (V21 m (o7 m))) c q
theorem sq3_apply (q : Fin 128) : sq3 m c (ix2 (0 : Fin 1) q)
    = ∑ r : Fin 50000, (agg3 m c (ix2 r q) + brow3 m c (ix2 (0 : Fin 1) q)) * (agg3 m c (ix2 r q) + brow3 m c (ix2 (0 : Fin 1) q)) := by
  show rd (V22 m (outs m)) c main_v183_1 (ix2 (0 : Fin 1) q) = _
  rw [outval7_3]
  exact final7_sq (rd (V21 m (o7 m))) c q

abbrev aggN3 : S50000x128.Idx → EReal := V23 m (outs m) c main_v173
abbrev browN3 : S1x128.Idx → EReal := V23 m (outs m) c main_v180
abbrev growN3 : S1x128.Idx → EReal := V23 m (outs m) c main_v181
abbrev berowN3 : S1x128.Idx → EReal := V23 m (outs m) c main_v182

theorem out3_apply (r : Fin 50000) (q : Fin 128) : out3 m c (ix2 r q)
    = max ((((agg3 m c (ix2 r q) + brow3 m c (ix2 (0 : Fin 1) q)) - mrow3 m c (ix2 (0 : Fin 1) q))
          * Ideal.rsqrt (vrow3 m c (ix2 (0 : Fin 1) q) + Ideal.ofBits .f32 0x3727C5AC#32)) * grow3 m c (ix2 (0 : Fin 1) q) + berow3 m c (ix2 (0 : Fin 1) q))
        (Ideal.ofBits .f32 0x00000000#32) := by
  show rd (V24 m (outs m)) c main_v190 (ix2 r q) = _
  rw [outval8_6]
  refine (final8_apply (rd (V23 m (o8 m))) c r q).trans ?_
  show max ((((aggN3 m c (ix2 r q) + browN3 m c (ix2 (0 : Fin 1) q)) - mrow3 m c (ix2 (0 : Fin 1) q))
      * Ideal.rsqrt (vrow3 m c (ix2 (0 : Fin 1) q) + Ideal.ofBits .f32 0x3727C5AC#32)) * growN3 m c (ix2 (0 : Fin 1) q) + berowN3 m c (ix2 (0 : Fin 1) q))
      (Ideal.ofBits .f32 0x00000000#32) = _
  rw [show aggN3 m c = agg3 m c from agg3_carry m c, show browN3 m c = brow3 m c from brow3_carry m c,
    show growN3 m c = grow3 m c from grow3_carry m c, show berowN3 m c = berow3 m c from berow3_carry m c]

abbrev preT3 (H : FVec Ideal S50000x128 .f32) : FVec Ideal S50000x128 .f32 :=
  biasT (gcnT (Host.dotGeneral Cert.ReferenceIdeal.dot_S50000x128_S128x128_S50000x128_1_0_0_1_n_n none H (matT 0 (wsL3 m c)))
    (edgeRowT 0 (eiL3 m c)) (edgeRowT 1 (eiL3 m c)) (ewL3 m c)) (rowT 0 (bsL3 m c))

theorem pre3_apply (H : FVec Ideal S50000x128 .f32) (hin : in3 m c = H) (r : Fin 50000) (q : Fin 128) :
    agg3 m c (ix2 r q) + brow3 m c (ix2 (0 : Fin 1) q) = preT3 m c H (ix2 r q) := by
  unfold preT3
  rw [biasT_apply, agg3_eq, hw3_eq m c H hin, brow3_apply]

theorem pre3_real (H : FVec Ideal S50000x128 .f32) (hH : AllReal H) (hEW : AllReal (ewL3 m c)) (hWS : AllReal (wsL3 m c))
    (hBS : AllReal (bsL3 m c)) : AllReal (preT3 m c H) :=
  biasT_real _ _ (gcnT_real _ _ _ _ (dot_real _ _ hH (matT_real 0 _ hWS)) hEW) (rowT_real 0 _ hBS)

theorem layer3 (H : FVec Ideal S50000x128 .f32) (hin : in3 m c = H) (hH : AllReal H) (hEW : AllReal (ewL3 m c))
    (hWS : AllReal (wsL3 m c)) (hBS : AllReal (bsL3 m c)) :
    out3 m c = normT (preT3 m c H) (meanT (preT3 m c H)) (varT (preT3 m c H)) (rowT 0 (gsL3 m c)) (rowT 0 (besL3 m c)) := by
  funext i
  obtain ⟨r, q, rfl⟩ : ∃ (r : Fin 50000) (q : Fin 128), i = ix2 r q := ⟨i 0, i 1, eq_ix2 i⟩
  rw [out3_apply, mrow3_apply, vrow3_apply, sum3_apply, sq3_apply, grow3_apply, berow3_apply]
  simp only [pre3_apply m c H hin]
  exact kernel_eq_ref (preT3 m c H) (pre3_real m c H hH hEW hWS hBS) _ _ r q

theorem layer3_real (H : FVec Ideal S50000x128 .f32) (hin : in3 m c = H) (hH : AllReal H) (hEW : AllReal (ewL3 m c))
    (hWS : AllReal (wsL3 m c)) (hBS : AllReal (bsL3 m c)) (hGS : AllReal (gsL3 m c)) (hBES : AllReal (besL3 m c)) :
    AllReal (out3 m c) := by
  rw [layer3 m c H hin hH hEW hWS hBS]
  exact normT_real _ (pre3_real m c H hH hEW hWS hBS) _ _ (rowT_real 0 _ hGS) (rowT_real 0 _ hBES)

end Cert.KernelIdeal.Val
-- ==== Proof.KernelIdeal.ValA9.lean ====
import proofs.«169164_j46703474376898_1_alg».proof.Proof.KernelIdeal.ValA3
import proofs.«169164_j46703474376898_1_alg».proof.Proof.KernelIdeal.RegA9

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

section Point
variable (V : (c : Dev nD) → (b : Ref sig .tc) → Buf (Elt Ideal) ((c : Thread nD τ).loc b)) (c : Dev nD)

abbrev act9 : S50000x128.Idx → EReal := V c (Pipeline.arrRef spec9 0)
abbrev wgt9 : S128x128.Idx → EReal := V c (Pipeline.arrRef spec9 1)

theorem idx9_facts : ∀ t : Fin cfg9.N, win9_0.index t (0 : Fin 2) = t.val ∧ win9_0.index t (1 : Fin 2) = 0
    ∧ win9_2.index t (0 : Fin 2) = t.val ∧ win9_2.index t (1 : Fin 2) = 0 ∧ ∀ a : Fin 2, win9_1.index t a = 0 :=
  (by decide +kernel : ∀ t : Fin grid9.N, _)

-- A block's element sits in its array, on each axis, at block index times block size plus its own coordinate.
theorem iblk9_0_apply (t : Fin cfg9.N) (x : S2000x128.Idx) (i : S50000x128.Idx)
    (h0 : (i 0).val = 2000 * t.val + (x 0).val) (h1 : (i 1).val = (x 1).val) :
    (iblk9 V c 0 t : Vec Ideal S2000x128 .f32) x = act9 V c i := by
  obtain ⟨e0, e1, -⟩ := idx9_facts t
  show act9 V c (((cfg9.win 0).blk t).view.emb x) = _
  refine congrArg _ (Shape.idx_ext₂ ?_ ?_)
  · show win9_0.index t (0 : Fin 2) * 2000 + 1 * (x 0).val = (i 0).val; omega
  · show win9_0.index t (1 : Fin 2) * 128 + 1 * (x 1).val = (i 1).val; omega

theorem iblk9_1_apply (t : Fin cfg9.N) : (iblk9 V c 1 t : Vec Ideal S128x128 .f32) = wgt9 V c :=
  funext fun x => congrArg (wgt9 V c) (funext fun a => Fin.ext (win9_1.rect_emb_val_of_index_zero t a ((idx9_facts t).2.2.2.2 a) x))

-- Block t of the result is block t of the row-by-row product of the two arrays.
theorem flushed9_eq (t : Fin cfg9.N) :
    (dat9 V c).flushed 2 t = ((cfg9.win 2).blk t).view.read (Elt Ideal) (rowProd (act9 V c) (wgt9 V c)) := by
  show (cfg9.win 2).cut (grid9.coords t) ((dat9 V c).after 2 t) = _
  rw [after9_2]
  obtain ⟨-, -, e4, e5, -⟩ := idx9_facts t
  funext j
  obtain ⟨p, q, rfl⟩ : ∃ (p : Fin 2000) (q : Fin 128), j = ix2 p q := ⟨j 0, j 1, eq_ix2 j⟩
  refine (pay3_apply _ _ p q).trans ?_
  show _ = rowProd (act9 V c) (wgt9 V c) (((cfg9.win 2).blk t).view.emb (ix2 p q))
  rw [iblk9_1_apply]
  have hE0 : ((((cfg9.win 2).blk t).view.emb (ix2 p q) : S50000x128.Idx) 0).val = 2000 * t.val + p.val := by
    show win9_2.index t (0 : Fin 2) * 2000 + 1 * p.val = _; omega
  have hE1 : ((((cfg9.win 2).blk t).view.emb (ix2 p q) : S50000x128.Idx) 1).val = q.val := by
    show win9_2.index t (1 : Fin 2) * 128 + 1 * q.val = _; omega
  unfold rowProd
  exact Finset.sum_congr rfl fun k _ => congrArg₂ (· * ·) (iblk9_0_apply V c t (ix2 p k) _ hE0 rfl) (congrArg (wgt9 V c) (Shape.idx_ext₂ rfl hE1.symm))

-- Row r lies in the block of point r / 2000.
theorem cover9 (i : S50000x128.Idx) : ∃ t : Fin cfg9.N, (cfg9.win 2).flush t = true ∧ i ∈ ((cfg9.win 2).blk t).view.set := by
  have hi0 : (i 0).val < 50000 := (i 0).isLt
  have hi1 : (i 1).val < 128 := (i 1).isLt
  obtain ⟨t, ht⟩ : ∃ t : Fin cfg9.N, t.val = (i 0).val / 2000 :=
    ⟨⟨(i 0).val / 2000, by rw [show cfg9.N = 25 from N_9]; omega⟩, rfl⟩
  obtain ⟨-, -, e4, e5, -⟩ := idx9_facts t
  refine ⟨t, flush9_2 t, ?_⟩
  show i ∈ ((View.whole (Pipeline.arrRef spec9 2)).slice (win9_2.rect t)).set
  rw [View.set_slice_whole, Rect.mem_set_unit]
  intro a
  match a with
  | ⟨0, _⟩ => show win9_2.index t (0 : Fin 2) * 2000 ≤ (i 0).val ∧ (i 0).val < win9_2.index t (0 : Fin 2) * 2000 + 2000; omega
  | ⟨1, _⟩ => show win9_2.index t (1 : Fin 2) * 128 ≤ (i 1).val ∧ (i 1).val < win9_2.index t (1 : Fin 2) * 128 + 128; omega

theorem final9 : (dat9 V c).arrAt 2 cfg9.N = rowProd (act9 V c) (wgt9 V c) :=
  (dat9 V c).arrAt_eq_of_cover 2 _ (fun t _ => flushed9_eq V c t) cover9

end Point

end Cert.KernelIdeal.Reg
-- ==== Proof.KernelIdeal.ValS10.lean ====
import proofs.«169164_j46703474376898_1_alg».proof.Proof.KernelIdeal.ValS1
import proofs.«169164_j46703474376898_1_alg».proof.Proof.KernelIdeal.RegS10

noncomputable section

open scoped BigOperators

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Point
variable (V : (c : Dev nD) → (b : Ref sig .tc) → Buf (Elt Ideal) ((c : Thread nD τ).loc b)) (c : Dev nD) (q : Fin 128)

abbrev xarr_r10 : Vec Ideal S50000x128 .f32 := V c (Pipeline.arrRef spec10 0)
abbrev brow_r10 : Vec Ideal S1x128 .f32 := V c (Pipeline.arrRef spec10 1)
abbrev xblk_r10 (t : Fin cfg10.N) : Vec Ideal S2000x128 .f32 := iblk10 V c 0 t
abbrev bblk_r10 (t : Fin cfg10.N) : Vec Ideal S1x128 .f32 := iblk10 V c 1 t

theorem pos_r10 : 0 < cfg10.N := by rw [show cfg10.N = 25 from N_10]; decide
abbrev tLast_r10 : Fin cfg10.N := ⟨cfg10.N - 1, Nat.sub_lt pos_r10 Nat.one_pos⟩

theorem idx_facts_r10 : ∀ t : Fin cfg10.N, win10_0.index t (0 : Fin 2) = t.val ∧ win10_0.index t (1 : Fin 2) = 0 ∧ ∀ a : Fin 2, win10_1.index t a = 0 :=
  (by decide +kernel : ∀ t : Fin grid10.N, _)

theorem blockRow_lt_r10 (t : Fin cfg10.N) (r : Fin 2000) : t.val * 2000 + r.val < 50000 := by
  have := lt_of_lt_of_eq t.isLt (show cfg10.N = 25 from N_10); have := r.isLt; omega

-- A block's element sits in its array at block index times block size plus its own coordinate.
theorem xblk_at_r10 (t : Fin cfg10.N) (r : Fin 2000) :
    xblk_r10 V c t (ix2 r q) = xarr_r10 V c (ix2 ⟨t.val * 2000 + r.val, blockRow_lt_r10 t r⟩ q) := by
  obtain ⟨e0, e1, -⟩ := idx_facts_r10 t
  show xarr_r10 V c (((cfg10.win 0).blk t).view.emb (ix2 r q)) = _
  refine congrArg _ (Shape.idx_ext₂ ?_ ?_)
  · show win10_0.index t (0 : Fin 2) * 2000 + 1 * r.val = t.val * 2000 + r.val; omega
  · show win10_0.index t (1 : Fin 2) * 128 + 1 * q.val = q.val; omega

theorem bblk_at_r10 (t : Fin cfg10.N) : bblk_r10 V c t (ix2 0 q) = brow_r10 V c (ix2 0 q) :=
  congrArg (brow_r10 V c) (funext fun a => Fin.ext (win10_1.rect_emb_val_of_index_zero t a ((idx_facts_r10 t).2.2 a) (ix2 0 q)))

theorem first_r10 (t : Fin cfg10.N) (h0 : t.val % 25 = 0) :
    (outsAt10 V c t.val t.isLt).1 (ix2 0 q) = colSum (xblk_r10 V c t) (bblk_r10 V c t) q (fun z => z)
    ∧ (outsAt10 V c t.val t.isLt).2 (ix2 0 q) = colSum (xblk_r10 V c t) (bblk_r10 V c t) q (fun z => z * z) := by
  rw [outsAt10_A V c t h0]; dsimp only
  exact ⟨(congrFun statsOut_A_eq.1 _).trans (statsBlock_at _ _ q).1, (congrFun statsOut_A_eq.2 _).trans (statsBlock_at _ _ q).2⟩

theorem next_r10 (t : Fin cfg10.N) (h0 : ¬t.val % 25 = 0) :
    (outsAt10 V c t.val t.isLt).1 (ix2 0 q)
      = (outsAt10 V c (t.val - 1) (Nat.lt_of_le_of_lt (Nat.sub_le _ _) t.isLt)).1 (ix2 0 q) + colSum (xblk_r10 V c t) (bblk_r10 V c t) q (fun z => z)
    ∧ (outsAt10 V c t.val t.isLt).2 (ix2 0 q)
      = (outsAt10 V c (t.val - 1) (Nat.lt_of_le_of_lt (Nat.sub_le _ _) t.isLt)).2 (ix2 0 q) + colSum (xblk_r10 V c t) (bblk_r10 V c t) q (fun z => z * z) := by
  rw [outsAt10_B V c t h0]; dsimp only
  exact ⟨(congrFun statsOut_B_eq.1 _).trans (statsAcc_at _ _ _ q).1, (congrFun statsOut_B_eq.2 _).trans (statsAcc_at _ _ _ q).2⟩

theorem step_r10 (t : Nat) (h : t + 1 < cfg10.N) : ¬(t + 1) % 25 = 0 := by
  have := lt_of_lt_of_eq h (show cfg10.N = 25 from N_10); omega

-- A row that starts at the first block's column sums and gains each later block's ends at the sum over all 50000 rows: 25 blocks of 2000.
theorem last_r10 (g : EReal → EReal) (o : Fin cfg10.N → EReal)
    (h0 : o ⟨0, pos_r10⟩ = colSum (xblk_r10 V c ⟨0, pos_r10⟩) (bblk_r10 V c ⟨0, pos_r10⟩) q g)
    (hs : ∀ (t : Nat) (h : t + 1 < cfg10.N), o ⟨t + 1, h⟩ = o ⟨t, Nat.lt_of_succ_lt h⟩ + colSum (xblk_r10 V c ⟨t + 1, h⟩) (bblk_r10 V c ⟨t + 1, h⟩) q g) :
    o tLast_r10 = ∑ i : Fin 50000, g (xarr_r10 V c (ix2 i q) + brow_r10 V c (ix2 0 q)) := by
  refine (Cert.LibBatchNorm.acc_fin_last_eq_sum (a := cfg10.N) (fun t => colSum (xblk_r10 V c t) (bblk_r10 V c t) q g) o pos_r10 h0 hs).trans ?_
  rw [Cert.LibBatchNorm.sum_fin_eq_blocks (show 50000 = cfg10.N * 2000 from by rw [show cfg10.N = 25 from N_10]) (fun i : Fin 50000 => g (xarr_r10 V c (ix2 i q) + brow_r10 V c (ix2 0 q)))]
  refine Finset.sum_congr rfl fun t _ => Finset.sum_congr rfl fun r _ => ?_
  rw [xblk_at_r10, bblk_at_r10]

-- An array that is one block, left once at the last point, ends as that point's contents.
theorem final_row_r10 (w : Fin cfg10.W) (R : Buf (Elt Ideal) ((cfg10.win w).arr.view.loc (c.tc : Thread nD τ)))
    (hfl : ∀ t : Fin cfg10.N, (cfg10.win w).flush t = true ↔ t.val % 25 = 24)
    (hR : (dat10 V c).flushed w tLast_r10 = ((cfg10.win w).blk tLast_r10).view.read (Elt Ideal) R)
    (hm : ∀ i, i ∈ ((cfg10.win w).blk tLast_r10).view.set) : (dat10 V c).arrAt w cfg10.N = R := by
  have hN : cfg10.N = 25 := N_10
  refine (dat10 V c).arrAt_eq_of_cover w R (fun t hf => ?_) fun i => ⟨tLast_r10, (hfl _).mpr (by show (cfg10.N - 1) % 25 = 24; rw [hN]), hm i⟩
  obtain rfl : t = tLast_r10 := Fin.ext (by have := (hfl t).mp hf; have := t.isLt; show t.val = cfg10.N - 1; omega)
  exact hR

abbrev sumsRow_r10 : Buf (Elt Ideal) ((c : Thread nD τ).loc (Pipeline.arrRef spec10 2)) := (outsAt10 V c tLast_r10.val tLast_r10.isLt).1

theorem final_2_row_r10 : (dat10 V c).arrAt 2 cfg10.N = sumsRow_r10 V c :=
  final_row_r10 V c 2 _ flush10_2 (by
    show (cfg10.win 2).cut (grid10.coords tLast_r10) ((dat10 V c).after 2 tLast_r10) = _
    rw [after10_2]
    have hz' : (fun a => win10_2.index tLast_r10 a * (Pipeline.arrRef spec10 2).ty.shape.size a) = fun _ => 0 := funext fun a => by fin_cases a <;> decide +kernel
    exact (Memref.read_access_unit_zero (Elt Ideal) (Pipeline.arrRef spec10 2) hz' (fun a => by rw [congrFun hz' a]; simp) (sumsRow_r10 V c)).symm) fun i => by
      show i ∈ ((View.whole (Pipeline.arrRef spec10 2)).slice (win10_2.rect tLast_r10)).set
      rw [View.set_slice_whole]
      exact mem_unit_whole (S := S1x128) (by decide +kernel) i

abbrev sqsRow_r10 : Buf (Elt Ideal) ((c : Thread nD τ).loc (Pipeline.arrRef spec10 3)) := (outsAt10 V c tLast_r10.val tLast_r10.isLt).2

theorem final_3_row_r10 : (dat10 V c).arrAt 3 cfg10.N = sqsRow_r10 V c :=
  final_row_r10 V c 3 _ flush10_3 (by
    show (cfg10.win 3).cut (grid10.coords tLast_r10) ((dat10 V c).after 3 tLast_r10) = _
    rw [after10_3]
    have hz' : (fun a => win10_3.index tLast_r10 a * (Pipeline.arrRef spec10 3).ty.shape.size a) = fun _ => 0 := funext fun a => by fin_cases a <;> decide +kernel
    exact (Memref.read_access_unit_zero (Elt Ideal) (Pipeline.arrRef spec10 3) hz' (fun a => by rw [congrFun hz' a]; simp) (sqsRow_r10 V c)).symm) fun i => by
      show i ∈ ((View.whole (Pipeline.arrRef spec10 3)).slice (win10_3.rect tLast_r10)).set
      rw [View.set_slice_whole]
      exact mem_unit_whole (S := S1x128) (by decide +kernel) i

theorem final10_sum :
    (dat10 (F := Ideal) V c).arrAt 2 cfg10.N (ix2 0 q) = ∑ i : Fin 50000, (xarr_r10 V c (ix2 i q) + brow_r10 V c (ix2 0 q)) :=
  (congrFun (final_2_row_r10 V c) (ix2 0 q)).trans
    (last_r10 V c q (fun z => z) (fun t => (outsAt10 V c t.val t.isLt).1 (ix2 0 q)) (first_r10 V c q ⟨0, pos_r10⟩ (Nat.zero_mod _)).1
      fun t h => (next_r10 V c q ⟨t + 1, h⟩ (step_r10 t h)).1)

theorem final10_sq :
    (dat10 (F := Ideal) V c).arrAt 3 cfg10.N (ix2 0 q) = ∑ i : Fin 50000, (xarr_r10 V c (ix2 i q) + brow_r10 V c (ix2 0 q)) * (xarr_r10 V c (ix2 i q) + brow_r10 V c (ix2 0 q)) :=
  (congrFun (final_3_row_r10 V c) (ix2 0 q)).trans
    (last_r10 V c q (fun z => z * z) (fun t => (outsAt10 V c t.val t.isLt).2 (ix2 0 q)) (first_r10 V c q ⟨0, pos_r10⟩ (Nat.zero_mod _)).2
      fun t h => (next_r10 V c q ⟨t + 1, h⟩ (step_r10 t h)).2)

end Point

end Cert.KernelIdeal.Reg

end
-- ==== Proof.KernelIdeal.ValN11.lean ====
import proofs.«169164_j46703474376898_1_alg».proof.Proof.KernelIdeal.ValN2
import proofs.«169164_j46703474376898_1_alg».proof.Proof.KernelIdeal.RegN11

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx

section Point
variable (V : (c : Dev nD) → (b : Ref sig .tc) → Buf (Elt Ideal) ((c : Thread nD τ).loc b)) (c : Dev nD)

abbrev rows11 : Vec Ideal S50000x128 .f32 := V c (Pipeline.arrRef spec11 0)
abbrev bias11 : Vec Ideal S1x128 .f32 := V c (Pipeline.arrRef spec11 1)
abbrev mean11 : Vec Ideal S1x128 .f32 := V c (Pipeline.arrRef spec11 2)
abbrev var11 : Vec Ideal S1x128 .f32 := V c (Pipeline.arrRef spec11 3)
abbrev gamma11 : Vec Ideal S1x128 .f32 := V c (Pipeline.arrRef spec11 4)
abbrev beta11 : Vec Ideal S1x128 .f32 := V c (Pipeline.arrRef spec11 5)

theorem blockIndex11 : ∀ t : Fin cfg11.N,
    win11_0.index t (0 : Fin 2) = t.val ∧ win11_0.index t (1 : Fin 2) = 0
    ∧ win11_6.index t (0 : Fin 2) = t.val ∧ win11_6.index t (1 : Fin 2) = 0 :=
  (by decide +kernel : ∀ t : Fin grid11.N, _)

theorem zeroOffsets11 : ∀ (t : Fin cfg11.N) (a : Fin 2),
    win11_1.index t a = 0 ∧ win11_2.index t a = 0 ∧ win11_3.index t a = 0 ∧ win11_4.index t a = 0 ∧ win11_5.index t a = 0 :=
  (by decide +kernel : ∀ (t : Fin grid11.N) (a : Fin 2), _)

-- A block's element sits in its array, on each axis, at block index times block size plus its own coordinate.
theorem rowsBlock11 (t : Fin cfg11.N) (p : Fin 2000) (q : Fin 128) (hb : t.val * 2000 + p.val < 50000) :
    iblk11 V c 0 t (ix2 p q) = rows11 V c (ix2 (⟨t.val * 2000 + p.val, hb⟩ : Fin 50000) q) := by
  obtain ⟨e00, e01, -, -⟩ := blockIndex11 t
  show rows11 V c (((cfg11.win 0).blk t).view.emb (ix2 p q)) = _
  refine congrArg _ (Shape.idx_ext₂ ?_ ?_)
  · show win11_0.index t (0 : Fin 2) * 2000 + 1 * p.val = t.val * 2000 + p.val; omega
  · show win11_0.index t (1 : Fin 2) * 128 + 1 * q.val = q.val; omega

theorem outIndex11 (t : Fin cfg11.N) (p : Fin 2000) (q : Fin 128) (hb : t.val * 2000 + p.val < 50000) :
    ((cfg11.win 6).blk t).view.emb (ix2 p q) = (ix2 (⟨t.val * 2000 + p.val, hb⟩ : Fin 50000) q : S50000x128.Idx) := by
  obtain ⟨-, -, e60, e61⟩ := blockIndex11 t
  refine Shape.idx_ext₂ ?_ ?_
  · show win11_6.index t (0 : Fin 2) * 2000 + 1 * p.val = t.val * 2000 + p.val; omega
  · show win11_6.index t (1 : Fin 2) * 128 + 1 * q.val = q.val; omega

theorem biasBlock11 (t : Fin cfg11.N) (q : Fin 128) : iblk11 V c 1 t (ix2 (0 : Fin 1) q) = bias11 V c (ix2 0 q) :=
  congrArg (bias11 V c) (funext fun a => Fin.ext (win11_1.rect_emb_val_of_index_zero t a (zeroOffsets11 t a).1 (ix2 0 q)))

theorem meanBlock11 (t : Fin cfg11.N) (q : Fin 128) : iblk11 V c 2 t (ix2 (0 : Fin 1) q) = mean11 V c (ix2 0 q) :=
  congrArg (mean11 V c) (funext fun a => Fin.ext (win11_2.rect_emb_val_of_index_zero t a (zeroOffsets11 t a).2.1 (ix2 0 q)))

theorem varBlock11 (t : Fin cfg11.N) (q : Fin 128) : iblk11 V c 3 t (ix2 (0 : Fin 1) q) = var11 V c (ix2 0 q) :=
  congrArg (var11 V c) (funext fun a => Fin.ext (win11_3.rect_emb_val_of_index_zero t a (zeroOffsets11 t a).2.2.1 (ix2 0 q)))

theorem gammaBlock11 (t : Fin cfg11.N) (q : Fin 128) : iblk11 V c 4 t (ix2 (0 : Fin 1) q) = gamma11 V c (ix2 0 q) :=
  congrArg (gamma11 V c) (funext fun a => Fin.ext (win11_4.rect_emb_val_of_index_zero t a (zeroOffsets11 t a).2.2.2.1 (ix2 0 q)))

theorem betaBlock11 (t : Fin cfg11.N) (q : Fin 128) : iblk11 V c 5 t (ix2 (0 : Fin 1) q) = beta11 V c (ix2 0 q) :=
  congrArg (beta11 V c) (funext fun a => Fin.ext (win11_5.rect_emb_val_of_index_zero t a (zeroOffsets11 t a).2.2.2.2 (ix2 0 q)))

-- Block t of the result is block t of one function of the six arrays.
theorem flushed11_eq (t : Fin cfg11.N) :
    (dat11 (F := Ideal) V c).flushed 6 t = ((cfg11.win 6).blk t).view.read (Elt Ideal) (normRelu (rows11 V c) (bias11 V c) (mean11 V c) (var11 V c) (gamma11 V c) (beta11 V c)) := by
  show (cfg11.win 6).cut (grid11.coords t) ((dat11 (F := Ideal) V c).after 6 t) = _
  rw [after11_6]
  have ht : t.val < 25 := t.isLt
  refine funext fun (j : S2000x128.Idx) => ?_
  obtain ⟨p, q, rfl⟩ : ∃ (p : Fin 2000) (q : Fin 128), j = ix2 p q := ⟨j 0, j 1, eq_ix2 j⟩
  have hb : t.val * 2000 + p.val < 50000 := by have hp : p.val < 2000 := p.isLt; omega
  refine (pay2_apply _ _ _ _ _ _ p q).trans ?_
  show _ = normRelu (rows11 V c) (bias11 V c) (mean11 V c) (var11 V c) (gamma11 V c) (beta11 V c) (((cfg11.win 6).blk t).view.emb (ix2 p q))
  rw [rowsBlock11 V c t p q hb, biasBlock11, meanBlock11, varBlock11, gammaBlock11, betaBlock11, outIndex11 t p q hb]
  rfl

-- Row r lies in the block of point r / 2000.
theorem cover11 (i : S50000x128.Idx) : ∃ t : Fin cfg11.N, (cfg11.win 6).flush t = true ∧ i ∈ ((cfg11.win 6).blk t).view.set := by
  have hi0 : (i 0).val < 50000 := (i 0).isLt
  have hi1 : (i 1).val < 128 := (i 1).isLt
  obtain ⟨t, ht⟩ : ∃ t : Fin cfg11.N, t.val = (i 0).val / 2000 := ⟨⟨(i 0).val / 2000, by show (i 0).val / 2000 < 25; omega⟩, rfl⟩
  obtain ⟨-, -, e60, e61⟩ := blockIndex11 t
  refine ⟨t, flush11_6 t, ?_⟩
  show i ∈ ((View.whole (Pipeline.arrRef spec11 6)).slice (win11_6.rect t)).set
  rw [View.set_slice_whole, Rect.mem_set_unit]
  intro a
  match a with
  | ⟨0, _⟩ => show win11_6.index t (0 : Fin 2) * 2000 ≤ (i 0).val ∧ (i 0).val < win11_6.index t (0 : Fin 2) * 2000 + 2000; omega
  | ⟨1, _⟩ => show win11_6.index t (1 : Fin 2) * 128 ≤ (i 1).val ∧ (i 1).val < win11_6.index t (1 : Fin 2) * 128 + 128; omega

theorem final11 : (dat11 (F := Ideal) V c).arrAt 6 cfg11.N = normRelu (rows11 V c) (bias11 V c) (mean11 V c) (var11 V c) (gamma11 V c) (beta11 V c) :=
  (dat11 (F := Ideal) V c).arrAt_eq_of_cover 6 _ (fun t _ => flushed11_eq V c t) cover11

theorem final11_apply (r : Fin 50000) (q : Fin 128) :
    (dat11 (F := Ideal) V c).arrAt 6 cfg11.N (ix2 r q)
      = max ((((rows11 V c (ix2 r q) + bias11 V c (ix2 0 q)) - mean11 V c (ix2 0 q)) * Ideal.rsqrt (var11 V c (ix2 0 q) + Ideal.ofBits .f32 0x3727C5AC#32)) * gamma11 V c (ix2 0 q) + beta11 V c (ix2 0 q))
          (Ideal.ofBits .f32 0x00000000#32) :=
  congrFun (final11 V c) (ix2 r q)

end Point

end Cert.KernelIdeal.Reg
-- ==== Proof.KernelIdeal.GcnReads10.lean ====
/- What the kernel program's buffers hold after the host stretch before layer 4's statistics kernel: the layer's
   graph aggregation (the term gcnK of the projected features, the two edge rows and the edge weights) and the layer's
   bias, scale and shift rows (row 1 of each two-row parameter). The stretch is the first layer's operations over
   other buffers, and the operations' results are folded over the buffers' contents in the same way. -/
import proofs.«169164_j46703474376898_1_alg».proof.Proof.KernelIdeal.GcnReads

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## Layer 4 (the stretch before the layer's statistics kernel) -/

set_option maxRecDepth 8192 in
set_option maxHeartbeats 4000000 in
/-- After the stretch the aggregation's buffer holds `gcnK` of the projected features, the two edge rows and the edge
    weights: each operation's result is its function of its operands' contents and the other buffers keep theirs,
    along the three lists; the node indices and the unit weights, which sit inside the operand lists of the
    concatenations, are read the same way, operation by operation. -/
theorem h10_v234 (V : Valuation τ sig (Elt F)) :
    StableHlo.after (hostOps10_2 (F := F)) (StableHlo.after (hostOps10_1 (F := F)) (StableHlo.after (hostOps10 (F := F)) V)) (Proc.devRef .tc main_v234)
      = gcnK (V (Proc.devRef .tc main_v193) : (⟨S50000x128, .f32⟩ : BufTy).Contents (Elt F)) (V (Proc.devRef .tc main_v5) : (⟨S800000, .i32⟩ : BufTy).Contents (Elt F))
          (V (Proc.devRef .tc main_v7) : (⟨S800000, .i32⟩ : BufTy).Contents (Elt F)) (V (Proc.devRef .tc main_arg4) : (⟨S800000, .f32⟩ : BufTy).Contents (Elt F)) := by
  unfold gcnK
  after_results_simp
  (try simp only [TRef.ofBuf, TRef.toBuf, cast_eq])
  repeat (first
    | rw [nullary_result] | rw [unary_result] | rw [binary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  first | done | rfl

set_option maxRecDepth 8192 in
set_option maxHeartbeats 4000000 in
/-- After the stretch the layer's bias row holds row 1 of its two-row parameter, laid as a [1 × 128] row: the cut, the
    flattening and the re-laying are the stretch's last operations, and nothing before them writes the parameter. -/
theorem h10_v241 (V : Valuation τ sig (Elt F)) :
    StableHlo.after (hostOps10_2 (F := F)) (StableHlo.after (hostOps10_1 (F := F)) (StableHlo.after (hostOps10 (F := F)) V)) (Proc.devRef .tc main_v241)
      = paramRow1 (V (Proc.devRef .tc main_arg10) : (⟨S2x128, .f32⟩ : BufTy).Contents (Elt F)) := by
  after_results_simp
  rfl

set_option maxRecDepth 8192 in
set_option maxHeartbeats 4000000 in
/-- After the stretch the layer's scale row holds row 1 of its two-row parameter, laid as a [1 × 128] row: the cut, the
    flattening and the re-laying are the stretch's last operations, and nothing before them writes the parameter. -/
theorem h10_v242 (V : Valuation τ sig (Elt F)) :
    StableHlo.after (hostOps10_2 (F := F)) (StableHlo.after (hostOps10_1 (F := F)) (StableHlo.after (hostOps10 (F := F)) V)) (Proc.devRef .tc main_v242)
      = paramRow1 (V (Proc.devRef .tc main_arg11) : (⟨S2x128, .f32⟩ : BufTy).Contents (Elt F)) := by
  after_results_simp
  rfl

set_option maxRecDepth 8192 in
set_option maxHeartbeats 4000000 in
/-- After the stretch the layer's shift row holds row 1 of its two-row parameter, laid as a [1 × 128] row: the cut, the
    flattening and the re-laying are the stretch's last operations, and nothing before them writes the parameter. -/
theorem h10_v243 (V : Valuation τ sig (Elt F)) :
    StableHlo.after (hostOps10_2 (F := F)) (StableHlo.after (hostOps10_1 (F := F)) (StableHlo.after (hostOps10 (F := F)) V)) (Proc.devRef .tc main_v243)
      = paramRow1 (V (Proc.devRef .tc main_arg12) : (⟨S2x128, .f32⟩ : BufTy).Contents (Elt F)) := by
  after_results_simp
  rfl

end Cert.KernelIdeal.Host

end
-- ==== Proof.KernelIdeal.Layer4.lean ====
import proofs.«169164_j46703474376898_1_alg».proof.Proof.KernelIdeal.Seg9
import proofs.«169164_j46703474376898_1_alg».proof.Proof.KernelIdeal.Seg10
import proofs.«169164_j46703474376898_1_alg».proof.Proof.KernelIdeal.Seg11
import proofs.«169164_j46703474376898_1_alg».proof.Proof.KernelIdeal.ValA9
import proofs.«169164_j46703474376898_1_alg».proof.Proof.KernelIdeal.ValS10
import proofs.«169164_j46703474376898_1_alg».proof.Proof.KernelIdeal.ValN11
import proofs.«169164_j46703474376898_1_alg».proof.Proof.KernelIdeal.HostReads
import proofs.«169164_j46703474376898_1_alg».proof.Proof.KernelIdeal.GcnReads10
import proofs.«169164_j46703474376898_1_alg».proof.Proof.KernelIdeal.Carry
import proofs.«169164_j46703474376898_1_alg».proof.Proof.GcnEq
import proofs.«169164_j46703474376898_1_alg».proof.Proof.GcnReal
import proofs.«169164_j46703474376898_1_alg».proof.Proof.LayerLib
import Idealize.ShloMosaic.Lib.Pipeline.Value

set_option maxRecDepth 16384

noncomputable section

namespace Cert.KernelIdeal.Val

open Cert.KernelIdeal Cert.KernelIdeal.Gen Cert.KernelIdeal.Reg Cert.KernelIdeal.Run Cert.KernelIdeal.Host
open Cert.ReferenceIdeal.Hand Cert.LibReal
open Idealize.ShloMosaic Idealize.ShloMosaic.TcCoe Idealize.SL.Sem Idealize.ShloMosaic.ValueIdx
open scoped BigOperators

variable (m : (ℓ : Loc nD τ sig) → Buf (Elt Ideal) ℓ) (c : Dev nD)

abbrev eiL4 : IVec S2x800000 32 := m ((c : Thread nD τ).loc main_arg3)
abbrev ewL4 : FVec Ideal S800000 .f32 := m ((c : Thread nD τ).loc main_arg4)
abbrev wsL4 : FVec Ideal S2x128x128 .f32 := m ((c : Thread nD τ).loc main_arg9)
abbrev bsL4 : FVec Ideal S2x128 .f32 := m ((c : Thread nD τ).loc main_arg10)
abbrev gsL4 : FVec Ideal S2x128 .f32 := m ((c : Thread nD τ).loc main_arg11)
abbrev besL4 : FVec Ideal S2x128 .f32 := m ((c : Thread nD τ).loc main_arg12)

abbrev in4 : S50000x128.Idx → EReal := V25 m (outs m) c main_v190
abbrev hw4 : S50000x128.Idx → EReal := V26 m (outs m) c main_v193
abbrev agg4 : S50000x128.Idx → EReal := V29 m (outs m) c main_v234
abbrev brow4 : S1x128.Idx → EReal := V29 m (outs m) c main_v241
abbrev grow4 : S1x128.Idx → EReal := V29 m (outs m) c main_v242
abbrev berow4 : S1x128.Idx → EReal := V29 m (outs m) c main_v243
abbrev sum4 : S1x128.Idx → EReal := V30 m (outs m) c main_v244_0
abbrev sq4 : S1x128.Idx → EReal := V30 m (outs m) c main_v244_1
abbrev mrow4 : S1x128.Idx → EReal := V31 m (outs m) c main_v246
abbrev vrow4 : S1x128.Idx → EReal := V31 m (outs m) c main_v250
abbrev out4 : S50000x128.Idx → EReal := V32 m (outs m) c main_v251

theorem act4_eq : act9 (rd (V25 m (o9 m))) c = in4 m c :=
  congrFun (entry9 m c).symm (Proc.devRef .tc main_v190)

theorem wgt4_apply (k q : Fin 128) : wgt9 (rd (V25 m (o9 m))) c (ix2 k q) = matT 1 (wsL4 m c) (ix2 k q) := by
  refine (h9_v192_apply (V24 m (o9 m) c) k q).trans ?_
  refine (congrFun (V24_launch m (o9 m) c main_arg9 (by decide)) (ix3 (1 : Fin 2) k q)).trans ?_
  exact (matT_one_apply (wsL4 m c) k q).symm

theorem hw4_eq (H : FVec Ideal S50000x128 .f32) (hin : in4 m c = H) :
    hw4 m c = Host.dotGeneral Cert.ReferenceIdeal.dot_S50000x128_S128x128_S50000x128_1_0_0_1_n_n none H (matT 1 (wsL4 m c)) := by
  show rd (V26 m (outs m)) c main_v193 = _
  rw [outval9_2, final9]
  funext i
  obtain ⟨r, q, rfl⟩ : ∃ (r : Fin 50000) (q : Fin 128), i = ix2 r q := ⟨i 0, i 1, eq_ix2 i⟩
  rw [rowProd_apply]
  refine Eq.trans ?_ (dot_apply H (matT 1 (wsL4 m c)) r q).symm
  refine Finset.sum_congr rfl fun k _ => ?_
  exact congrArg₂ (· * ·) ((congrFun (act4_eq m c) (ix2 r k)).trans (congrFun hin (ix2 r k))) (wgt4_apply m c k q)

theorem src4_eq : (V26 m (outs m) c main_v5 : S800000.Idx → BitVec 32) = edgeRowT 0 (eiL4 m c) :=
  (V26_edge m (outs m) c main_v5 (by decide)).trans (h0_v5 (V0 m c))
theorem dst4_eq : (V26 m (outs m) c main_v7 : S800000.Idx → BitVec 32) = edgeRowT 1 (eiL4 m c) :=
  (V26_edge m (outs m) c main_v7 (by decide)).trans (h0_v7 (V0 m c))
theorem ew4_eq : (V26 m (outs m) c main_arg4 : FVec Ideal S800000 .f32) = ewL4 m c :=
  V26_launch m (outs m) c main_arg4 (by decide)

theorem agg4_carry : (V31 m (outs m) c main_v234 : S50000x128.Idx → EReal) = agg4 m c :=
  (V31_of m (outs m) c main_v234 (by decide)).trans (V30_of m (outs m) c main_v234 (by decide))
theorem brow4_carry : (V31 m (outs m) c main_v241 : S1x128.Idx → EReal) = brow4 m c :=
  (V31_of m (outs m) c main_v241 (by decide)).trans (V30_of m (outs m) c main_v241 (by decide))
theorem grow4_carry : (V31 m (outs m) c main_v242 : S1x128.Idx → EReal) = grow4 m c :=
  (V31_of m (outs m) c main_v242 (by decide)).trans (V30_of m (outs m) c main_v242 (by decide))
theorem berow4_carry : (V31 m (outs m) c main_v243 : S1x128.Idx → EReal) = berow4 m c :=
  (V31_of m (outs m) c main_v243 (by decide)).trans (V30_of m (outs m) c main_v243 (by decide))

theorem mrow4_apply (j : S1x128.Idx) : mrow4 m c j = Ideal.div (sum4 m c j) (Ideal.ofBits .f32 0x47435000#32) :=
  h11_v246_apply (V30 m (outs m) c) j
theorem vrow4_apply (j : S1x128.Idx) : vrow4 m c j
    = Ideal.div (sq4 m c j) (Ideal.ofBits .f32 0x47435000#32)
      - Ideal.div (sum4 m c j) (Ideal.ofBits .f32 0x47435000#32) * Ideal.div (sum4 m c j) (Ideal.ofBits .f32 0x47435000#32) :=
  h11_v250_apply (V30 m (outs m) c) j

theorem agg4_eq : agg4 m c = gcnT (hw4 m c) (edgeRowT 0 (eiL4 m c)) (edgeRowT 1 (eiL4 m c)) (ewL4 m c) := by
  refine (h10_v234 (V26 m (outs m) c)).trans ?_
  rw [gcn_eq, src4_eq, dst4_eq, ew4_eq]

theorem prow4_apply (p : FVec Ideal S2x128 .f32) (q : Fin 128) : paramRow1 p (ix2 (0 : Fin 1) q) = rowT 1 p (ix1 q) := by
  unfold paramRow1
  rw [asRow_apply, rowT_one]

theorem brow4_apply (q : Fin 128) : brow4 m c (ix2 (0 : Fin 1) q) = rowT 1 (bsL4 m c) (ix1 q) := by
  refine (congrFun (h10_v241 (V26 m (outs m) c)) (ix2 (0 : Fin 1) q)).trans ?_
  rw [show (V26 m (outs m) c main_arg10 : FVec Ideal S2x128 .f32) = bsL4 m c from
    V26_launch m (outs m) c main_arg10 (by decide)]
  exact prow4_apply _ q
theorem grow4_apply (q : Fin 128) : grow4 m c (ix2 (0 : Fin 1) q) = rowT 1 (gsL4 m c) (ix1 q) := by
  refine (congrFun (h10_v242 (V26 m (outs m) c)) (ix2 (0 : Fin 1) q)).trans ?_
  rw [show (V26 m (outs m) c main_arg11 : FVec Ideal S2x128 .f32) = gsL4 m c from
    V26_launch m (outs m) c main_arg11 (by decide)]
  exact prow4_apply _ q
theorem berow4_apply (q : Fin 128) : berow4 m c (ix2 (0 : Fin 1) q) = rowT 1 (besL4 m c) (ix1 q) := by
  refine (congrFun (h10_v243 (V26 m (outs m) c)) (ix2 (0 : Fin 1) q)).trans ?_
  rw [show (V26 m (outs m) c main_arg12 : FVec Ideal S2x128 .f32) = besL4 m c from
    V26_launch m (outs m) c main_arg12 (by decide)]
  exact prow4_apply _ q

theorem sum4_apply (q : Fin 128) : sum4 m c (ix2 (0 : Fin 1) q) = ∑ r : Fin 50000, (agg4 m c (ix2 r q) + brow4 m c (ix2 (0 : Fin 1) q)) := by
  show rd (V30 m (outs m)) c main_v244_0 (ix2 (0 : Fin 1) q) = _
  rw [outval10_2]
  exact final10_sum (rd (V29 m (o10 m))) c q
theorem sq4_apply (q : Fin 128) : sq4 m c (ix2 (0 : Fin 1) q)
    = ∑ r : Fin 50000, (agg4 m c (ix2 r q) + brow4 m c (ix2 (0 : Fin 1) q)) * (agg4 m c (ix2 r q) + brow4 m c (ix2 (0 : Fin 1) q)) := by
  show rd (V30 m (outs m)) c main_v244_1 (ix2 (0 : Fin 1) q) = _
  rw [outval10_3]
  exact final10_sq (rd (V29 m (o10 m))) c q

abbrev aggN4 : S50000x128.Idx → EReal := V31 m (outs m) c main_v234
abbrev browN4 : S1x128.Idx → EReal := V31 m (outs m) c main_v241
abbrev growN4 : S1x128.Idx → EReal := V31 m (outs m) c main_v242
abbrev berowN4 : S1x128.Idx → EReal := V31 m (outs m) c main_v243

theorem out4_apply (r : Fin 50000) (q : Fin 128) : out4 m c (ix2 r q)
    = max ((((agg4 m c (ix2 r q) + brow4 m c (ix2 (0 : Fin 1) q)) - mrow4 m c (ix2 (0 : Fin 1) q))
          * Ideal.rsqrt (vrow4 m c (ix2 (0 : Fin 1) q) + Ideal.ofBits .f32 0x3727C5AC#32)) * grow4 m c (ix2 (0 : Fin 1) q) + berow4 m c (ix2 (0 : Fin 1) q))
        (Ideal.ofBits .f32 0x00000000#32) := by
  show rd (V32 m (outs m)) c main_v251 (ix2 r q) = _
  rw [outval11_6]
  refine (final11_apply (rd (V31 m (o11 m))) c r q).trans ?_
  show max ((((aggN4 m c (ix2 r q) + browN4 m c (ix2 (0 : Fin 1) q)) - mrow4 m c (ix2 (0 : Fin 1) q))
      * Ideal.rsqrt (vrow4 m c (ix2 (0 : Fin 1) q) + Ideal.ofBits .f32 0x3727C5AC#32)) * growN4 m c (ix2 (0 : Fin 1) q) + berowN4 m c (ix2 (0 : Fin 1) q))
      (Ideal.ofBits .f32 0x00000000#32) = _
  rw [show aggN4 m c = agg4 m c from agg4_carry m c, show browN4 m c = brow4 m c from brow4_carry m c,
    show growN4 m c = grow4 m c from grow4_carry m c, show berowN4 m c = berow4 m c from berow4_carry m c]

abbrev preT4 (H : FVec Ideal S50000x128 .f32) : FVec Ideal S50000x128 .f32 :=
  biasT (gcnT (Host.dotGeneral Cert.ReferenceIdeal.dot_S50000x128_S128x128_S50000x128_1_0_0_1_n_n none H (matT 1 (wsL4 m c)))
    (edgeRowT 0 (eiL4 m c)) (edgeRowT 1 (eiL4 m c)) (ewL4 m c)) (rowT 1 (bsL4 m c))

theorem pre4_apply (H : FVec Ideal S50000x128 .f32) (hin : in4 m c = H) (r : Fin 50000) (q : Fin 128) :
    agg4 m c (ix2 r q) + brow4 m c (ix2 (0 : Fin 1) q) = preT4 m c H (ix2 r q) := by
  unfold preT4
  rw [biasT_apply, agg4_eq, hw4_eq m c H hin, brow4_apply]

theorem pre4_real (H : FVec Ideal S50000x128 .f32) (hH : AllReal H) (hEW : AllReal (ewL4 m c)) (hWS : AllReal (wsL4 m c))
    (hBS : AllReal (bsL4 m c)) : AllReal (preT4 m c H) :=
  biasT_real _ _ (gcnT_real _ _ _ _ (dot_real _ _ hH (matT_real 1 _ hWS)) hEW) (rowT_real 1 _ hBS)

theorem layer4 (H : FVec Ideal S50000x128 .f32) (hin : in4 m c = H) (hH : AllReal H) (hEW : AllReal (ewL4 m c))
    (hWS : AllReal (wsL4 m c)) (hBS : AllReal (bsL4 m c)) :
    out4 m c = normT (preT4 m c H) (meanT (preT4 m c H)) (varT (preT4 m c H)) (rowT 1 (gsL4 m c)) (rowT 1 (besL4 m c)) := by
  funext i
  obtain ⟨r, q, rfl⟩ : ∃ (r : Fin 50000) (q : Fin 128), i = ix2 r q := ⟨i 0, i 1, eq_ix2 i⟩
  rw [out4_apply, mrow4_apply, vrow4_apply, sum4_apply, sq4_apply, grow4_apply, berow4_apply]
  simp only [pre4_apply m c H hin]
  exact kernel_eq_ref (preT4 m c H) (pre4_real m c H hH hEW hWS hBS) _ _ r q

theorem layer4_real (H : FVec Ideal S50000x128 .f32) (hin : in4 m c = H) (hH : AllReal H) (hEW : AllReal (ewL4 m c))
    (hWS : AllReal (wsL4 m c)) (hBS : AllReal (bsL4 m c)) (hGS : AllReal (gsL4 m c)) (hBES : AllReal (besL4 m c)) :
    AllReal (out4 m c) := by
  rw [layer4 m c H hin hH hEW hWS hBS]
  exact normT_real _ (pre4_real m c H hH hEW hWS hBS) _ _ (rowT_real 1 _ hGS) (rowT_real 1 _ hBES)

end Cert.KernelIdeal.Val
-- ==== Proof.KernelIdeal.ValG12.lean ====
import proofs.«169164_j46703474376898_1_alg».proof.Proof.KernelIdeal.RegG12
import proofs.«169164_j46703474376898_1_alg».proof.Proof.KernelIdeal.ValAMat
import Idealize.ShloMosaic.Lib.Pipeline.Value

noncomputable section

namespace Cert.KernelIdeal.Reg

open Cert.KernelIdeal Cert.KernelIdeal.Gen
open Idealize.ShloMosaic Idealize.ShloMosaic.TcCoe Idealize.SL.Sem
open Idealize.ShloMosaic.ValueIdx
open Idealize.ShloMosaic.Pipeline (Dat)

-- The gated mix g · A + (1 - g) · B at a row and a column, g the logistic of A·W₁ + B·W₂ + bias there.
def gateAt (A B : S50000x128.Idx → EReal) (W1 W2 : S128x128.Idx → EReal) (bias : S1x128.Idx → EReal)
    (r : Fin 50000) (q : Fin 128) : EReal :=
  let lg := (∑ k : Fin 128, A (ix2 r k) * W1 (ix2 k q)) + (∑ k : Fin 128, B (ix2 r k) * W2 (ix2 k q)) + bias (ix2 (0 : Fin 1) q)
  Ideal.logistic lg * A (ix2 r q) + (1 - Ideal.logistic lg) * B (ix2 r q)

theorem one_f32 : Ideal.ofBits .f32 0x3F800000#32 = 1 := by
  simp [Ideal.ofBits, Ideal.ieee, -EReal.coe_mul]; norm_num

theorem gateTail_apply (M1 M2 Bv a b : FVec Ideal S2000x128 .f32) (j : S2000x128.Idx) :
    addf (mulf (logistic (addf (addf M1 M2) Bv)) a)
        (mulf (subf (broadcast S2000x128 (Scalar.ofBits (F := Ideal) .f32 0x3F800000#32)) (logistic (addf (addf M1 M2) Bv))) b) j
      = Ideal.logistic (M1 j + M2 j + Bv j) * a j + (Ideal.ofBits .f32 0x3F800000#32 - Ideal.logistic (M1 j + M2 j + Bv j)) * b j := rfl

theorem gatePay_apply (a b : Vec Ideal S2000x128 .f32) (w1 w2 : Vec Ideal S128x128 .f32) (bias : Vec Ideal S1x128 .f32)
    (p : Fin 2000) (q : Fin 128) :
    k12_pay1 a b w1 w2 bias (ix2 p q)
      = (let lg := (∑ k : Fin 128, a (ix2 p k) * w1 (ix2 k q)) + (∑ k : Fin 128, b (ix2 p k) * w2 (ix2 k q)) + bias (ix2 (0 : Fin 1) q)
         Ideal.logistic lg * a (ix2 p q) + (1 - Ideal.logistic lg) * b (ix2 p q)) := by
  unfold k12_pay1
  simp only [shapeCast_self]
  refine (gateTail_apply _ _ _ _ _ _).trans ?_
  rw [matmul_zero_apply, matmul_zero_apply, broadcastTo_1b_ab_apply, one_f32]
  rfl

-- For blocks that are rows 2000·T … of two arrays and the whole of the other three, the payload is the gated mix of the arrays at row 2000·T + p.
theorem gatePay_block (a b : Vec Ideal S2000x128 .f32) (w1 w2 : Vec Ideal S128x128 .f32) (bias : Vec Ideal S1x128 .f32)
    (A B : S50000x128.Idx → EReal) (W1 W2 : S128x128.Idx → EReal) (Bias : S1x128.Idx → EReal) (T : Nat) (hT : T < 25)
    (ha : ∀ (p : Fin 2000) (k : Fin 128), a (ix2 p k) = A (ix2 (⟨2000 * T + p.val, by omega⟩ : Fin 50000) k))
    (hb : ∀ (p : Fin 2000) (k : Fin 128), b (ix2 p k) = B (ix2 (⟨2000 * T + p.val, by omega⟩ : Fin 50000) k))
    (hw1 : w1 = W1) (hw2 : w2 = W2) (hbias : bias = Bias) (p : Fin 2000) (q : Fin 128) :
    k12_pay1 a b w1 w2 bias (ix2 p q) = gateAt A B W1 W2 Bias (⟨2000 * T + p.val, by omega⟩ : Fin 50000) q := by
  subst hw1 hw2 hbias
  rw [gatePay_apply]
  unfold gateAt
  simp only [ha, hb]

variable (V : (c : Dev nD) → (b : Ref sig .tc) → Buf (Elt Ideal) ((c : Thread nD τ).loc b))

abbrev hs12 (c : Dev nD) : S50000x128.Idx → EReal := V c (Pipeline.arrRef spec12 0)
abbrev hf12 (c : Dev nD) : S50000x128.Idx → EReal := V c (Pipeline.arrRef spec12 1)
abbrev w1_12 (c : Dev nD) : S128x128.Idx → EReal := V c (Pipeline.arrRef spec12 2)
abbrev w2_12 (c : Dev nD) : S128x128.Idx → EReal := V c (Pipeline.arrRef spec12 3)
abbrev b2_12 (c : Dev nD) : S1x128.Idx → EReal := V c (Pipeline.arrRef spec12 4)

def gateArr (c : Dev nD) : S50000x128.Idx → EReal := fun i =>
  gateAt (hs12 V c) (hf12 V c) (w1_12 V c) (w2_12 V c) (b2_12 V c) (i 0) (i 1)

theorem gate_idx : ∀ t : Fin cfg12.N,
    win12_0.index t (0 : Fin 2) = t.val ∧ win12_0.index t (1 : Fin 2) = 0
    ∧ win12_1.index t (0 : Fin 2) = t.val ∧ win12_1.index t (1 : Fin 2) = 0
    ∧ win12_5.index t (0 : Fin 2) = t.val ∧ win12_5.index t (1 : Fin 2) = 0
    ∧ ∀ a : Fin 2, win12_2.index t a = 0 ∧ win12_3.index t a = 0 ∧ win12_4.index t a = 0 :=
  (by decide +kernel : ∀ t : Fin grid12.N, _)

-- A block's element sits in its array, on each axis, at block index times block size plus its own coordinate.
theorem actA_block (c : Dev nD) (t : Fin cfg12.N) (x : S2000x128.Idx) (k : S50000x128.Idx)
    (hk0 : (k 0).val = 2000 * t.val + (x 0).val) (hk1 : (k 1).val = (x 1).val) :
    (iblk12 V c 0 t : Vec Ideal S2000x128 .f32) x = hs12 V c k := by
  obtain ⟨e0, e1, -⟩ := gate_idx t
  show hs12 V c (((cfg12.win 0).blk t).view.emb x) = _
  refine congrArg _ (Shape.idx_ext₂ ?_ ?_)
  · show win12_0.index t (0 : Fin 2) * 2000 + 1 * (x 0).val = (k 0).val; omega
  · show win12_0.index t (1 : Fin 2) * 128 + 1 * (x 1).val = (k 1).val; omega

theorem actB_block (c : Dev nD) (t : Fin cfg12.N) (x : S2000x128.Idx) (k : S50000x128.Idx)
    (hk0 : (k 0).val = 2000 * t.val + (x 0).val) (hk1 : (k 1).val = (x 1).val) :
    (iblk12 V c 1 t : Vec Ideal S2000x128 .f32) x = hf12 V c k := by
  obtain ⟨-, -, e0, e1, -⟩ := gate_idx t
  show hf12 V c (((cfg12.win 1).blk t).view.emb x) = _
  refine congrArg _ (Shape.idx_ext₂ ?_ ?_)
  · show win12_1.index t (0 : Fin 2) * 2000 + 1 * (x 0).val = (k 0).val; omega
  · show win12_1.index t (1 : Fin 2) * 128 + 1 * (x 1).val = (k 1).val; omega

theorem w1_block (c : Dev nD) (t : Fin cfg12.N) : (iblk12 V c 2 t : Vec Ideal S128x128 .f32) = w1_12 V c :=
  funext fun x => congrArg (w1_12 V c) (funext fun a => Fin.ext (win12_2.rect_emb_val_of_index_zero t a ((gate_idx t).2.2.2.2.2.2 a).1 x))

theorem w2_block (c : Dev nD) (t : Fin cfg12.N) : (iblk12 V c 3 t : Vec Ideal S128x128 .f32) = w2_12 V c :=
  funext fun x => congrArg (w2_12 V c) (funext fun a => Fin.ext (win12_3.rect_emb_val_of_index_zero t a ((gate_idx t).2.2.2.2.2.2 a).2.1 x))

theorem b2_block (c : Dev nD) (t : Fin cfg12.N) : (iblk12 V c 4 t : Vec Ideal S1x128 .f32) = b2_12 V c :=
  funext fun x => congrArg (b2_12 V c) (funext fun a => Fin.ext (win12_4.rect_emb_val_of_index_zero t a ((gate_idx t).2.2.2.2.2.2 a).2.2 x))

-- Block t of the result is block t of the gated mix of the five arrays.
theorem gate_flushed_eq (c : Dev nD) (t : Fin cfg12.N) :
    (dat12 V c).flushed 5 t = ((cfg12.win 5).blk t).view.read (Elt Ideal) (gateArr V c) := by
  show (cfg12.win 5).cut (grid12.coords t) ((dat12 V c).after 5 t) = _
  rw [after12_5]
  unfold out12_5
  rw [View.canon_unit_zero hz2]
  simp only [View.ld_unit_zero (S := S2000x128) hz2, View.ld_unit_zero (S := S128x128) hz2, View.ld_unit_zero (S := S1x128) hz2]
  have ht : t.val < 25 := t.isLt
  obtain ⟨-, -, -, -, e0, e1, -⟩ := gate_idx t
  funext y
  obtain ⟨p, q, rfl⟩ : ∃ (p : Fin 2000) (q : Fin 128), y = ix2 p q := ⟨y 0, y 1, eq_ix2 y⟩
  show k12_pay1 (iblk12 V c 0 t) (iblk12 V c 1 t) (iblk12 V c 2 t) (iblk12 V c 3 t) (iblk12 V c 4 t) (ix2 p q)
    = gateArr V c (((cfg12.win 5).blk t).view.emb (ix2 p q))
  rw [show ((cfg12.win 5).blk t).view.emb (ix2 p q) = ix2 (⟨2000 * t.val + p.val, by omega⟩ : Fin 50000) q from Shape.idx_ext₂
    (show win12_5.index t (0 : Fin 2) * 2000 + 1 * p.val = 2000 * t.val + p.val by omega)
    (show win12_5.index t (1 : Fin 2) * 128 + 1 * q.val = q.val by omega)]
  exact gatePay_block _ _ _ _ _ (hs12 V c) (hf12 V c) (w1_12 V c) (w2_12 V c) (b2_12 V c) t.val ht
    (fun p' k => actA_block V c t (ix2 p' k) _ rfl rfl) (fun p' k => actB_block V c t (ix2 p' k) _ rfl rfl)
    (w1_block V c t) (w2_block V c t) (b2_block V c t) p q

-- Row r lies in the block of point r / 2000.
theorem gate_cover (i : S50000x128.Idx) : ∃ t : Fin cfg12.N, (cfg12.win 5).flush t = true ∧ i ∈ ((cfg12.win 5).blk t).view.set := by
  have hi0 : (i 0).val < 50000 := (i 0).isLt
  have hi1 : (i 1).val < 128 := (i 1).isLt
  obtain ⟨t, ht⟩ : ∃ t : Fin cfg12.N, t.val = (i 0).val / 2000 := ⟨⟨(i 0).val / 2000, by show (i 0).val / 2000 < 25; omega⟩, rfl⟩
  obtain ⟨-, -, -, -, e0, e1, -⟩ := gate_idx t
  refine ⟨t, flush12_5 t, ?_⟩
  show i ∈ ((View.whole main_v255).slice (win12_5.rect t)).set
  rw [View.set_slice_whole, Rect.mem_set_unit]
  intro a
  match a with
  | ⟨0, _⟩ => show win12_5.index t (0 : Fin 2) * 2000 ≤ (i 0).val ∧ (i 0).val < win12_5.index t (0 : Fin 2) * 2000 + 2000; omega
  | ⟨1, _⟩ => show win12_5.index t (1 : Fin 2) * 128 ≤ (i 1).val ∧ (i 1).val < win12_5.index t (1 : Fin 2) * 128 + 128; omega

theorem final12 (c : Dev nD) : (dat12 (F := Ideal) V c).arrAt 5 cfg12.N = gateArr V c :=
  (dat12 V c).arrAt_eq_of_cover 5 _ (fun t _ => gate_flushed_eq V c t) gate_cover

theorem final12_apply (c : Dev nD) (r : Fin 50000) (q : Fin 128) :
    (dat12 (F := Ideal) V c).arrAt 5 cfg12.N (ix2 r q)
      = (let lg := (∑ k : Fin 128, hs12 V c (ix2 r k) * w1_12 V c (ix2 k q)) + (∑ k : Fin 128, hf12 V c (ix2 r k) * w2_12 V c (ix2 k q)) + b2_12 V c (ix2 (0 : Fin 1) q)
         Ideal.logistic lg * hs12 V c (ix2 r q) + (1 - Ideal.logistic lg) * hf12 V c (ix2 r q)) :=
  congrFun (final12 V c) (ix2 r q)

end Cert.KernelIdeal.Reg

end
-- ==== Proof.Ref.GateRead.lean ====
import proofs.«169164_j46703474376898_1_alg».proof.ReferenceIdeal
import Idealize.ShloMosaic.Lib.Pipeline.Value
import Idealize.ShloMosaic.Lib.ValueIdx
import Idealize.ShloMosaic.PureOps.Ideal.Laws

noncomputable section

namespace Cert.ReferenceIdeal.Hand

open Cert.ReferenceIdeal
open Idealize.ShloMosaic Idealize.ShloMosaic.ValueIdx

variable [Facts]
open Cert.ReferenceIdeal.Facts₀ Cert.ReferenceIdeal.Facts

section Term
variable {F : FTy → Type} [FloatOps F]

def gateCat (hs hf : FVec F S50000x128 .f32) : FVec F S50000x256 .f32 :=
  concatenate S50000x256 1 [⟨S50000x128, hs⟩, ⟨S50000x128, hf⟩] concatenates_S50000x128_S50000x128_S50000x256_d1

def gateT (hs hf : FVec F S50000x128 .f32) (gW : FVec F S256x128 .f32) (gb : FVec F S128 .f32) : FVec F S50000x128 .f32 :=
  let v300 : FVec F S50000x256 .f32 := gateCat hs hf
  let v301 : FVec F S50000x128 .f32 := Host.dotGeneral dot_S50000x256_S256x128_S50000x128_1_0_0_1_n_n none v300 gW
  let v302 : FVec F S1x128 .f32 := broadcastInDim S1x128 ![1] bcast_S128_S1x128_1 gb
  let v303 : FVec F S50000x128 .f32 := broadcastInDim S50000x128 ![0, 1] bcast_S1x128_S50000x128_0_1 v302
  let v304 : FVec F S50000x128 .f32 := addf v301 v303
  let v305 : FVec F S50000x128 .f32 := Host.negf v304
  let v306 : FVec F S50000x128 .f32 := Host.exp v305
  let cst_58 : FVec F S_ .f32 := constant S_ .f32 0x3F800000#32
  let v307 : FVec F S50000x128 .f32 := broadcastInDim S50000x128 ![] bcast_S_S50000x128 cst_58
  let v308 : FVec F S50000x128 .f32 := addf v307 v306
  let cst_59 : FVec F S_ .f32 := constant S_ .f32 0x3F800000#32
  let v309 : FVec F S50000x128 .f32 := broadcastInDim S50000x128 ![] bcast_S_S50000x128 cst_59
  let v310 : FVec F S50000x128 .f32 := Host.divf v309 v308
  let v311 : FVec F S50000x128 .f32 := mulf v310 hs
  let cst_60 : FVec F S_ .f32 := constant S_ .f32 0x3F800000#32
  let v312 : FVec F S50000x128 .f32 := broadcastInDim S50000x128 ![] bcast_S_S50000x128 cst_60
  let v313 : FVec F S50000x128 .f32 := subf v312 v310
  let v314 : FVec F S50000x128 .f32 := mulf v313 hf
  addf v311 v314

end Term

theorem one_f32 : Ideal.ofBits .f32 0x3F800000#32 = 1 := by
  simp [Ideal.ofBits, Ideal.ieee, -EReal.coe_mul]; norm_num

theorem gateCat_left (hs hf : FVec Ideal S50000x128 .f32) (r : Fin 50000) (k : Fin 128) :
    gateCat hs hf (ix2 r (⟨k.val, by omega⟩ : Fin 256)) = hs (ix2 r k) := by
  unfold gateCat
  refine concatenate_pair_apply_left (1 : Fin S50000x256.rank) hs hf _ _ rfl (ix2 r k) fun b => ?_
  match b with
  | ⟨0, _⟩ => rfl
  | ⟨1, _⟩ => rfl

theorem gateCat_right (hs hf : FVec Ideal S50000x128 .f32) (r : Fin 50000) (k : Fin 128) :
    gateCat hs hf (ix2 r (⟨128 + k.val, by omega⟩ : Fin 256)) = hf (ix2 r k) := by
  unfold gateCat
  refine concatenate_pair_apply_right (1 : Fin S50000x256.rank) hs hf _ _ rfl rfl (ix2 r k) (fun b hb => ?_) ?_
  · match b with
    | ⟨0, _⟩ => rfl
    | ⟨1, _⟩ => exact absurd rfl hb
  · show k.val + 128 = 128 + k.val
    omega

theorem refL_row (j : S50000x128.Idx) (k : dot_S50000x256_S256x128_S50000x128_1_0_0_1_n_n.contr.Idx) :
    (dot_S50000x256_S256x128_S50000x128_1_0_0_1_n_n.lhsIdx j k (0 : Fin S50000x256.rank)).val = (j 0).val := by
  unfold DotDims.lhsIdx
  rw [dif_neg (show ¬(0 : Fin S50000x256.rank) ∈ dot_S50000x256_S256x128_S50000x128_1_0_0_1_n_n.lhsBatch from List.not_mem_nil),
    dif_pos (show (0 : Fin S50000x256.rank) ∈ dot_S50000x256_S256x128_S50000x128_1_0_0_1_n_n.lhsNonContracting from List.mem_singleton.mpr rfl)]
  rfl

theorem refL_contr (j : S50000x128.Idx) (k : dot_S50000x256_S256x128_S50000x128_1_0_0_1_n_n.contr.Idx) :
    (dot_S50000x256_S256x128_S50000x128_1_0_0_1_n_n.lhsIdx j k (1 : Fin S50000x256.rank)).val = (k ⟨0, (Nat.one_pos : 0 < 1)⟩).val :=
  dot_S50000x256_S256x128_S50000x128_1_0_0_1_n_n.lhsIdx_val_of_single rfl j k

theorem refR_contr (j : S50000x128.Idx) (k : dot_S50000x256_S256x128_S50000x128_1_0_0_1_n_n.contr.Idx) :
    (dot_S50000x256_S256x128_S50000x128_1_0_0_1_n_n.rhsIdx j k (0 : Fin S256x128.rank)).val = (k ⟨0, (Nat.one_pos : 0 < 1)⟩).val :=
  dot_S50000x256_S256x128_S50000x128_1_0_0_1_n_n.rhsIdx_val_of_single rfl j k

theorem refR_col (j : S50000x128.Idx) (k : dot_S50000x256_S256x128_S50000x128_1_0_0_1_n_n.contr.Idx) :
    (dot_S50000x256_S256x128_S50000x128_1_0_0_1_n_n.rhsIdx j k (1 : Fin S256x128.rank)).val = (j 1).val := by
  unfold DotDims.rhsIdx
  rw [dif_neg (show ¬(1 : Fin S256x128.rank) ∈ dot_S50000x256_S256x128_S50000x128_1_0_0_1_n_n.rhsBatch from List.not_mem_nil),
    dif_pos (show (1 : Fin S256x128.rank) ∈ dot_S50000x256_S256x128_S50000x128_1_0_0_1_n_n.rhsNonContracting from List.mem_singleton.mpr rfl)]
  rfl

theorem refProd_apply (x : FVec Ideal S50000x256 .f32) (w : FVec Ideal S256x128 .f32) (r : Fin 50000) (q : Fin 128) :
    Host.dotGeneral dot_S50000x256_S256x128_S50000x128_1_0_0_1_n_n none x w (ix2 r q) = ∑ k : Fin 256, x (ix2 r k) * w (ix2 k q) := by
  show FloatOps.dotGeneral dot_S50000x256_S256x128_S50000x128_1_0_0_1_n_n none _ x w (ix2 r q) = _
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have hl : dot_S50000x256_S256x128_S50000x128_1_0_0_1_n_n.lhsIdx (ix2 r q) ((contrEquiv1 dot_S50000x256_S256x128_S50000x128_1_0_0_1_n_n 256 rfl rfl).symm k) = ix2 r k := by
    funext a; apply Fin.ext
    match a with
    | ⟨0, _⟩ => exact refL_row _ _
    | ⟨1, _⟩ => exact (refL_contr _ _).trans hk
  have hr : dot_S50000x256_S256x128_S50000x128_1_0_0_1_n_n.rhsIdx (ix2 r q) ((contrEquiv1 dot_S50000x256_S256x128_S50000x128_1_0_0_1_n_n 256 rfl rfl).symm k) = ix2 k q := by
    funext a; apply Fin.ext
    match a with
    | ⟨0, _⟩ => exact (refR_contr _ _).trans hk
    | ⟨1, _⟩ => exact refR_col _ _
  rw [hl, hr]

theorem gateCat_sum (hs hf : FVec Ideal S50000x128 .f32) (gW : FVec Ideal S256x128 .f32) (r : Fin 50000) (q : Fin 128) :
    (∑ k : Fin 256, gateCat hs hf (ix2 r k) * gW (ix2 k q))
      = (∑ k : Fin 128, hs (ix2 r k) * gW (ix2 (⟨k.val, by omega⟩ : Fin 256) q))
        + (∑ k : Fin 128, hf (ix2 r k) * gW (ix2 (⟨128 + k.val, by omega⟩ : Fin 256) q)) := by
  refine (Fin.sum_univ_add (a := 128) (b := 128) fun k : Fin (128 + 128) => gateCat hs hf (ix2 r k) * gW (ix2 k q)).trans ?_
  congr 1
  · refine Finset.sum_congr rfl fun k _ => ?_
    exact congrArg (· * gW (ix2 (⟨k.val, by omega⟩ : Fin 256) q)) (gateCat_left hs hf r k)
  · refine Finset.sum_congr rfl fun k _ => ?_
    exact congrArg (· * gW (ix2 (⟨128 + k.val, by omega⟩ : Fin 256) q)) (gateCat_right hs hf r k)

theorem gateBias_apply (gb : FVec Ideal S128 .f32) (r : Fin 50000) (q : Fin 128) :
    broadcastInDim S50000x128 ![0, 1] bcast_S1x128_S50000x128_0_1 (broadcastInDim S1x128 ![1] bcast_S128_S1x128_1 gb) (ix2 r q)
      = gb (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ gb (ix2 (0 : Fin 1) q) (ix1 q) fun a => ?_
    match a with
    | ⟨0, _⟩ => rfl

theorem gateMix_apply (L hs hf : FVec Ideal S50000x128 .f32) (j : S50000x128.Idx) :
    addf
        (mulf (Host.divf (broadcastInDim S50000x128 ![] bcast_S_S50000x128 (constant (F := Ideal) S_ .f32 0x3F800000#32))
          (addf (broadcastInDim S50000x128 ![] bcast_S_S50000x128 (constant (F := Ideal) S_ .f32 0x3F800000#32)) (Host.exp (Host.negf L)))) hs)
        (mulf (subf (broadcastInDim S50000x128 ![] bcast_S_S50000x128 (constant (F := Ideal) S_ .f32 0x3F800000#32))
          (Host.divf (broadcastInDim S50000x128 ![] bcast_S_S50000x128 (constant (F := Ideal) S_ .f32 0x3F800000#32))
            (addf (broadcastInDim S50000x128 ![] bcast_S_S50000x128 (constant (F := Ideal) S_ .f32 0x3F800000#32)) (Host.exp (Host.negf L))))) hf) j
      = Ideal.logistic (L j) * hs j + (1 - Ideal.logistic (L j)) * hf j := by
  show Ideal.div (Ideal.ofBits .f32 0x3F800000#32) (Ideal.ofBits .f32 0x3F800000#32 + Ideal.exp (-(L j))) * hs j
      + (Ideal.ofBits .f32 0x3F800000#32 - Ideal.div (Ideal.ofBits .f32 0x3F800000#32) (Ideal.ofBits .f32 0x3F800000#32 + Ideal.exp (-(L j)))) * hf j = _
  rw [one_f32]
  rfl

theorem gateT_apply_cat (hs hf : FVec Ideal S50000x128 .f32) (gW : FVec Ideal S256x128 .f32) (gb : FVec Ideal S128 .f32)
    (r : Fin 50000) (q : Fin 128) :
    gateT (F := Ideal) hs hf gW gb (ix2 r q)
      = (let lg := (∑ k : Fin 256, gateCat hs hf (ix2 r k) * gW (ix2 k q)) + gb (ix1 q)
         Ideal.logistic lg * hs (ix2 r q) + (1 - Ideal.logistic lg) * hf (ix2 r q)) := by
  unfold gateT
  refine (gateMix_apply _ hs hf (ix2 r q)).trans ?_
  show Ideal.logistic (Host.dotGeneral dot_S50000x256_S256x128_S50000x128_1_0_0_1_n_n none (gateCat hs hf) gW (ix2 r q) + _) * hs (ix2 r q)
      + (1 - Ideal.logistic (Host.dotGeneral dot_S50000x256_S256x128_S50000x128_1_0_0_1_n_n none (gateCat hs hf) gW (ix2 r q) + _)) * hf (ix2 r q) = _
  rw [refProd_apply, gateBias_apply]

theorem gateT_apply (hs hf : FVec Ideal S50000x128 .f32) (gW : FVec Ideal S256x128 .f32) (gb : FVec Ideal S128 .f32)
    (r : Fin 50000) (q : Fin 128) :
    gateT (F := Ideal) hs hf gW gb (ix2 r q)
      = (let lg := (∑ k : Fin 128, hs (ix2 r k) * gW (ix2 (⟨k.val, by omega⟩ : Fin 256) q))
            + (∑ k : Fin 128, hf (ix2 r k) * gW (ix2 (⟨128 + k.val, by omega⟩ : Fin 256) q)) + gb (ix1 q)
         Ideal.logistic lg * hs (ix2 r q) + (1 - Ideal.logistic lg) * hf (ix2 r q)) := by
  rw [gateT_apply_cat, gateCat_sum]

end Cert.ReferenceIdeal.Hand

end
-- ==== Proof.KernelIdeal.GateVal.lean ====
import proofs.«169164_j46703474376898_1_alg».proof.Proof.KernelIdeal.Seg12
import proofs.«169164_j46703474376898_1_alg».proof.Proof.KernelIdeal.ValG12
import proofs.«169164_j46703474376898_1_alg».proof.Proof.KernelIdeal.HostReads
import proofs.«169164_j46703474376898_1_alg».proof.Proof.Ref.GateRead

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx

variable [Cert.ReferenceIdeal.Facts]

theorem gate_of_entry (V : (c : Dev nD) → (b : Ref sig .tc) → Buf (Elt Ideal) ((c : Thread nD τ).loc b)) (c : Dev nD)
    (HS HF : S50000x128.Idx → EReal) (GW : S256x128.Idx → EReal) (GB : S128.Idx → EReal)
    (h0 : hs12 V c = HS) (h1 : hf12 V c = HF)
    (h2 : ∀ k q : Fin 128, w1_12 V c (ix2 k q) = GW (ix2 (⟨k.val, by omega⟩ : Fin 256) q))
    (h3 : ∀ k q : Fin 128, w2_12 V c (ix2 k q) = GW (ix2 (⟨128 + k.val, by omega⟩ : Fin 256) q))
    (h4 : ∀ q : Fin 128, b2_12 V c (ix2 (0 : Fin 1) q) = GB (ix1 q)) :
    ((dat12 (F := Ideal) V c).arrAt 5 cfg12.N : S50000x128.Idx → EReal)
      = Cert.ReferenceIdeal.Hand.gateT (F := Ideal) HS HF GW GB := by
  funext i
  obtain ⟨r, q, rfl⟩ : ∃ (r : Fin 50000) (q : Fin 128), i = ix2 r q := ⟨i 0, i 1, eq_ix2 i⟩
  refine (final12_apply V c r q).trans ((Cert.ReferenceIdeal.Hand.gateT_apply HS HF GW GB r q).trans ?_).symm
  simp only [h0, h1, h2, h3, h4]

section Carry
variable (m : (ℓ : Loc nD τ sig) → Buf (Elt Ideal) ℓ) (outs : Outs (F := Ideal))

theorem carry_v129 (c : Dev nD) : V33 m outs c main_v129 = V16 m outs c main_v129 :=
  (V33_of m outs c main_v129 (by decide)).trans <|
    (V32_of m outs c main_v129 (by decide)).trans <|
    (V31_of m outs c main_v129 (by decide)).trans <|
    (V30_of m outs c main_v129 (by decide)).trans <|
    (V29_of m outs c main_v129 (by decide)).trans <|
    (V28_of m outs c main_v129 (by decide)).trans <|
    (V27_of m outs c main_v129 (by decide)).trans <|
    (V26_of m outs c main_v129 (by decide)).trans <|
    (V25_of m outs c main_v129 (by decide)).trans <|
    (V24_of m outs c main_v129 (by decide)).trans <|
    (V23_of m outs c main_v129 (by decide)).trans <|
    (V22_of m outs c main_v129 (by decide)).trans <|
    (V21_of m outs c main_v129 (by decide)).trans <|
    (V20_of m outs c main_v129 (by decide)).trans <|
    (V19_of m outs c main_v129 (by decide)).trans <|
    (V18_of m outs c main_v129 (by decide)).trans <|
    (V17_of m outs c main_v129 (by decide))

theorem carry_v251 (c : Dev nD) : V33 m outs c main_v251 = V32 m outs c main_v251 :=
  V33_of m outs c main_v251 (by decide)

theorem carry_arg13 (c : Dev nD) : V32 m outs c main_arg13 = m ((c : Thread nD τ).loc main_arg13) :=
  ((V33_of m outs c main_arg13 (by decide)).symm.trans (V34_of m outs c main_arg13 (by decide)).symm).trans (V34_main_arg13 m outs c)

theorem carry_arg14 (c : Dev nD) : V32 m outs c main_arg14 = m ((c : Thread nD τ).loc main_arg14) :=
  ((V33_of m outs c main_arg14 (by decide)).symm.trans (V34_of m outs c main_arg14 (by decide)).symm).trans (V34_main_arg14 m outs c)

theorem entry_w1 (c : Dev nD) (k q : Fin 128) :
    (V33 m outs c main_v252 : S128x128.Idx → EReal) (ix2 k q)
      = (m ((c : Thread nD τ).loc main_arg13) : S256x128.Idx → EReal) (ix2 (⟨k.val, by omega⟩ : Fin 256) q) :=
  (Cert.KernelIdeal.Host.h12_v252_apply (V32 m outs c) k q).trans
    (congrFun (carry_arg13 m outs c) (ix2 (⟨k.val, by omega⟩ : Fin 256) q))

theorem entry_w2 (c : Dev nD) (k q : Fin 128) :
    (V33 m outs c main_v253 : S128x128.Idx → EReal) (ix2 k q)
      = (m ((c : Thread nD τ).loc main_arg13) : S256x128.Idx → EReal) (ix2 (⟨128 + k.val, by omega⟩ : Fin 256) q) :=
  (Cert.KernelIdeal.Host.h12_v253_apply (V32 m outs c) k q).trans
    (congrFun (carry_arg13 m outs c) (ix2 (⟨128 + k.val, by omega⟩ : Fin 256) q))

theorem entry_b2 (c : Dev nD) (q : Fin 128) :
    (V33 m outs c main_v254 : S1x128.Idx → EReal) (ix2 (0 : Fin 1) q)
      = (m ((c : Thread nD τ).loc main_arg14) : S128.Idx → EReal) (ix1 q) :=
  (Cert.KernelIdeal.Host.h12_v254_apply (V32 m outs c) 0 q).trans
    (congrFun (carry_arg14 m outs c) (ix1 q))

theorem gate_value_of (o : Outs (F := Ideal)) (c : Dev nD)
    (hentry : V33 m outs c = V33 m o c)
    (hout : (fun (c : Dev nD) (b : Ref sig .tc) => V34 m outs c b) c main_v255
      = (dat12 (F := Ideal) (fun (c : Dev nD) (b : Ref sig .tc) => V33 m o c b) c).arrAt 5 cfg12.N)
    (HS HF : S50000x128.Idx → EReal)
    (hs : (V16 m outs c main_v129 : S50000x128.Idx → EReal) = HS)
    (hf : (V32 m outs c main_v251 : S50000x128.Idx → EReal) = HF) :
    (V34 m outs c main_v255 : S50000x128.Idx → EReal)
      = Cert.ReferenceIdeal.Hand.gateT (F := Ideal) HS HF
          (m ((c : Thread nD τ).loc main_arg13)) (m ((c : Thread nD τ).loc main_arg14)) := by
  refine hout.trans ?_
  refine gate_of_entry (fun (c : Dev nD) (b : Ref sig .tc) => V33 m o c b) c HS HF _ _ ?_ ?_ ?_ ?_ ?_
  · exact ((congrFun hentry (Proc.devRef .tc main_v129)).symm.trans (carry_v129 m outs c)).trans hs
  · exact ((congrFun hentry (Proc.devRef .tc main_v251)).symm.trans (carry_v251 m outs c)).trans hf
  · intro k q
    exact (congrFun (congrFun hentry (Proc.devRef .tc main_v252)).symm (ix2 k q)).trans (entry_w1 m outs c k q)
  · intro k q
    exact (congrFun (congrFun hentry (Proc.devRef .tc main_v253)).symm (ix2 k q)).trans (entry_w2 m outs c k q)
  · intro q
    exact (congrFun (congrFun hentry (Proc.devRef .tc main_v254)).symm (ix2 (0 : Fin 1) q)).trans (entry_b2 m outs c q)

end Carry

theorem gate_value (m : (ℓ : Loc nD τ sig) → Buf (Elt Ideal) ℓ) (c : Dev nD) (HS HF : S50000x128.Idx → EReal)
    (hs : (V16 m (Cert.KernelIdeal.Run.outs m) c main_v129 : S50000x128.Idx → EReal) = HS)
    (hf : (V32 m (Cert.KernelIdeal.Run.outs m) c main_v251 : S50000x128.Idx → EReal) = HF) :
    (V34 m (Cert.KernelIdeal.Run.outs m) c main_v255 : S50000x128.Idx → EReal)
      = Cert.ReferenceIdeal.Hand.gateT (F := Ideal) HS HF
          (m ((c : Thread nD τ).loc main_arg13)) (m ((c : Thread nD τ).loc main_arg14)) :=
  gate_value_of m (Cert.KernelIdeal.Run.outs m) (Cert.KernelIdeal.Run.o12 m) c
    (Cert.KernelIdeal.Run.entry12 m c) (Cert.KernelIdeal.Run.outval12_5 m c) HS HF hs hf

end Cert.KernelIdeal.Val

end
-- ==== Proof.PreReal.lean ====
import proofs.«169164_j46703474376898_1_alg».proof.Defs
import proofs.«169164_j46703474376898_1_alg».proof.Proof.Gen.Pre_finite_inputs
import proofs.«169164_j46703474376898_1_alg».proof.Proof.Gen.KernelIdeal
import Idealize.ShloMosaic.Lib.ReduceAll
import Idealize.ShloMosaic.Lib.ValueIdx

noncomputable section

namespace Cert.PreReal

open Idealize.ShloMosaic Idealize.SL.Sem

instance subsingleton_S_ : Subsingleton Cert.Pre_finite_inputs.S_.Idx := ⟨fun a b => funext fun d => d.elim0⟩

theorem inf_bits : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem ofBool_eq_one {b : Bool} (h : BitVec.ofBool b = 1#1) : b = true := by
  cases b
  · exact absurd h (by decide)
  · rfl

theorem real_of_cmp (x : EReal)
    (h : Ideal.cmp .olt (max x (-x)) (Ideal.ofBits .f32 0x7F800000#32) = 1#1) : ∃ r : ℝ, x = (r : EReal) := by
  rw [inf_bits] at h
  exact real_of_abs_lt_top x (of_decide_eq_true (ofBool_eq_one (b := decide (max x (-x) < (⊤ : EReal))) h))

theorem real_of_all {s : Shape} {axes : List (Fin s.rank)}
    (hb : Cert.Pre_finite_inputs.S_.BroadcastsInDim s (![] : Fin 0 → Fin s.rank))
    (hr : s.ReducesTo axes Cert.Pre_finite_inputs.S_) (hS : 0 < Cert.Pre_finite_inputs.S_.numel)
    (x : FVec Ideal s .f32)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hS ValueIdx.ix0 = 1#1) :
    ∀ i, ∃ r : ℝ, x i = (r : EReal) := fun i =>
  real_of_cmp (x i) (Host.reduce_andi_all _ _ hr hS ValueIdx.ix0 e i)

section Predicate

open Cert.Pre_finite_inputs

theorem reals_of_pre [Cert.Pre_finite_inputs.Facts] (a0 : FVec Ideal S50000x128 .f32) (a1 : IVec S2x800000 32) (a2 : FVec Ideal S800000 .f32) (a3 : IVec S2x800000 32) (a4 : FVec Ideal S800000 .f32) (a5 : FVec Ideal S2x128x128 .f32) (a6 : FVec Ideal S2x128 .f32) (a7 : FVec Ideal S2x128 .f32) (a8 : FVec Ideal S2x128 .f32) (a9 : FVec Ideal S2x128x128 .f32) (a10 : FVec Ideal S2x128 .f32) (a11 : FVec Ideal S2x128 .f32) (a12 : FVec Ideal S2x128 .f32) (a13 : FVec Ideal S256x128 .f32) (a14 : FVec Ideal S128 .f32)
    (h : fn (F := Ideal) a0 a1 a2 a3 a4 a5 a6 a7 a8 a9 a10 a11 a12 a13 a14 = fun _ => 1#1) :
    (∀ i, ∃ r : ℝ, a0 i = (r : EReal))
      ∧ (∀ i, ∃ r : ℝ, a2 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal)) := by
  have h0 := congrFun h ValueIdx.ix0
  dsimp only [fn, fn_part1, fn_part2, fn_part3, Idealize.ShloMosaic.andi] at h0
  simp only [IntOp.andi_eq_one] at h0
  obtain ⟨⟨⟨⟨⟨⟨⟨⟨⟨⟨⟨⟨e0, e2⟩, e4⟩, e5⟩, e6⟩, e7⟩, e8⟩, e9⟩, e10⟩, e11⟩, e12⟩, e13⟩, e14⟩ := h0
  exact ⟨real_of_all _ _ _ a0 e0,
    real_of_all _ _ _ a2 e2,
    real_of_all _ _ _ a4 e4,
    real_of_all _ _ _ a5 e5,
    real_of_all _ _ _ a6 e6,
    real_of_all _ _ _ a7 e7,
    real_of_all _ _ _ a8 e8,
    real_of_all _ _ _ a9 e9,
    real_of_all _ _ _ a10 e10,
    real_of_all _ _ _ a11 e11,
    real_of_all _ _ _ a12 e12,
    real_of_all _ _ _ a13 e13,
    real_of_all _ _ _ a14 e14⟩

end Predicate

theorem real_arg0 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (reals_of_pre _ _ _ _ _ _ _ _ _ _ _ _ _ _ _ (h c)).1

theorem real_arg2 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (reals_of_pre _ _ _ _ _ _ _ _ _ _ _ _ _ _ _ (h c)).2.1

theorem real_arg4 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (reals_of_pre _ _ _ _ _ _ _ _ _ _ _ _ _ _ _ (h c)).2.2.1

theorem real_arg5 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (reals_of_pre _ _ _ _ _ _ _ _ _ _ _ _ _ _ _ (h c)).2.2.2.1

theorem real_arg6 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (reals_of_pre _ _ _ _ _ _ _ _ _ _ _ _ _ _ _ (h c)).2.2.2.2.1

theorem real_arg7 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (reals_of_pre _ _ _ _ _ _ _ _ _ _ _ _ _ _ _ (h c)).2.2.2.2.2.1

theorem real_arg8 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (reals_of_pre _ _ _ _ _ _ _ _ _ _ _ _ _ _ _ (h c)).2.2.2.2.2.2.1

theorem real_arg9 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (reals_of_pre _ _ _ _ _ _ _ _ _ _ _ _ _ _ _ (h c)).2.2.2.2.2.2.2.1

theorem real_arg10 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (reals_of_pre _ _ _ _ _ _ _ _ _ _ _ _ _ _ _ (h c)).2.2.2.2.2.2.2.2.1

theorem real_arg11 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (reals_of_pre _ _ _ _ _ _ _ _ _ _ _ _ _ _ _ (h c)).2.2.2.2.2.2.2.2.2.1

theorem real_arg12 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) :=
  (reals_of_pre _ _ _ _ _ _ _ _ _ _ _ _ _ _ _ (h c)).2.2.2.2.2.2.2.2.2.2.1

theorem real_arg13 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg13) i = (r : EReal) :=
  (reals_of_pre _ _ _ _ _ _ _ _ _ _ _ _ _ _ _ (h c)).2.2.2.2.2.2.2.2.2.2.2.1

theorem real_arg14 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg14) i = (r : EReal) :=
  (reals_of_pre _ _ _ _ _ _ _ _ _ _ _ _ _ _ _ (h c)).2.2.2.2.2.2.2.2.2.2.2.2

end Cert.PreReal
-- ==== Proof.Ref.RefOut.lean ====
import proofs.«169164_j46703474376898_1_alg».proof.Proof.Ref.Slices
import proofs.«169164_j46703474376898_1_alg».proof.Proof.Ref.BNTerms
import proofs.«169164_j46703474376898_1_alg».proof.Proof.Ref.GcnTerm
import proofs.«169164_j46703474376898_1_alg».proof.Proof.Ref.GateRead

noncomputable section

namespace Cert.ReferenceIdeal.Hand

open Cert.ReferenceIdeal
open Idealize.ShloMosaic

variable [Facts]

variable {F : FTy → Type} [FloatOps F]

def layerT (h : FVec F S50000x128 .f32) (W : FVec F S128x128 .f32) (b g be : FVec F S128 .f32)
    (src dst : IVec S800000 32) (ew : FVec F S800000 .f32) : FVec F S50000x128 .f32 :=
  let a := biasT (gcnT (Host.dotGeneral dot_S50000x128_S128x128_S50000x128_1_0_0_1_n_n none h W) src dst ew) b
  normT a (meanT a) (varT a) g be

def refOut (x : FVec F S50000x128 .f32)
    (ei_sc : IVec S2x800000 32) (ew_sc : FVec F S800000 .f32) (ei_fc : IVec S2x800000 32) (ew_fc : FVec F S800000 .f32)
    (W_sc : FVec F S2x128x128 .f32) (b_sc g_sc be_sc : FVec F S2x128 .f32)
    (W_fc : FVec F S2x128x128 .f32) (b_fc g_fc be_fc : FVec F S2x128 .f32)
    (gW : FVec F S256x128 .f32) (gb : FVec F S128 .f32) : FVec F S50000x128 .f32 :=
  gateT
    (layerT
      (layerT x (matT 0 W_sc) (rowT 0 b_sc) (rowT 0 g_sc) (rowT 0 be_sc) (edgeRowT 0 ei_sc) (edgeRowT 1 ei_sc) ew_sc)
      (matT 1 W_sc) (rowT 1 b_sc) (rowT 1 g_sc) (rowT 1 be_sc) (edgeRowT 0 ei_sc) (edgeRowT 1 ei_sc) ew_sc)
    (layerT
      (layerT x (matT 0 W_fc) (rowT 0 b_fc) (rowT 0 g_fc) (rowT 0 be_fc) (edgeRowT 0 ei_fc) (edgeRowT 1 ei_fc) ew_fc)
      (matT 1 W_fc) (rowT 1 b_fc) (rowT 1 g_fc) (rowT 1 be_fc) (edgeRowT 0 ei_fc) (edgeRowT 1 ei_fc) ew_fc)
    gW gb

end Cert.ReferenceIdeal.Hand
-- ==== Proof.KernelIdeal.Value.lean ====
import proofs.«169164_j46703474376898_1_alg».proof.Proof.KernelIdeal.Layer1
import proofs.«169164_j46703474376898_1_alg».proof.Proof.KernelIdeal.Layer2
import proofs.«169164_j46703474376898_1_alg».proof.Proof.KernelIdeal.Layer3
import proofs.«169164_j46703474376898_1_alg».proof.Proof.KernelIdeal.Layer4
import proofs.«169164_j46703474376898_1_alg».proof.Proof.KernelIdeal.GateVal
import proofs.«169164_j46703474376898_1_alg».proof.Proof.PreReal
import proofs.«169164_j46703474376898_1_alg».proof.Proof.LibReal
import proofs.«169164_j46703474376898_1_alg».proof.Proof.Ref.RefOut

set_option maxRecDepth 16384

noncomputable section

namespace Cert.KernelIdeal.Val

open Cert.KernelIdeal Cert.KernelIdeal.Gen
open Cert.ReferenceIdeal.Hand Cert.LibReal
open Idealize.ShloMosaic Idealize.ShloMosaic.TcCoe Idealize.SL.Sem

variable [Cert.ReferenceIdeal.Facts]

abbrev preOf (H : FVec Ideal S50000x128 .f32) (k : Fin 2) (W : FVec Ideal S2x128x128 .f32) (B : FVec Ideal S2x128 .f32)
    (EI : IVec S2x800000 32) (EW : FVec Ideal S800000 .f32) : FVec Ideal S50000x128 .f32 :=
  biasT (gcnT (Host.dotGeneral Cert.ReferenceIdeal.dot_S50000x128_S128x128_S50000x128_1_0_0_1_n_n none H (matT k W))
    (edgeRowT 0 EI) (edgeRowT 1 EI) EW) (rowT k B)

abbrev layerOf (H : FVec Ideal S50000x128 .f32) (k : Fin 2) (W : FVec Ideal S2x128x128 .f32) (B G BE : FVec Ideal S2x128 .f32)
    (EI : IVec S2x800000 32) (EW : FVec Ideal S800000 .f32) : FVec Ideal S50000x128 .f32 :=
  normT (preOf H k W B EI EW) (meanT (preOf H k W B EI EW)) (varT (preOf H k W B EI EW)) (rowT k G) (rowT k BE)

theorem layerOf_eq (H : FVec Ideal S50000x128 .f32) (k : Fin 2) (W : FVec Ideal S2x128x128 .f32) (B G BE : FVec Ideal S2x128 .f32)
    (EI : IVec S2x800000 32) (EW : FVec Ideal S800000 .f32) :
    layerOf H k W B G BE EI EW
      = layerT H (matT k W) (rowT k B) (rowT k G) (rowT k BE) (edgeRowT 0 EI) (edgeRowT 1 EI) EW := rfl

section Compose
variable (m : (ℓ : Loc nD τ sig) → Buf (Elt Ideal) ℓ) (outs : Outs (F := Ideal)) (c : Dev nD)

abbrev argX : FVec Ideal S50000x128 .f32 := m ((c : Thread nD τ).loc main_arg0)

abbrev argEIsc : IVec S2x800000 32 := m ((c : Thread nD τ).loc main_arg1)
abbrev argEWsc : FVec Ideal S800000 .f32 := m ((c : Thread nD τ).loc main_arg2)
abbrev argEIfc : IVec S2x800000 32 := m ((c : Thread nD τ).loc main_arg3)
abbrev argEWfc : FVec Ideal S800000 .f32 := m ((c : Thread nD τ).loc main_arg4)

abbrev argWsc : FVec Ideal S2x128x128 .f32 := m ((c : Thread nD τ).loc main_arg5)
abbrev argBsc : FVec Ideal S2x128 .f32 := m ((c : Thread nD τ).loc main_arg6)
abbrev argGsc : FVec Ideal S2x128 .f32 := m ((c : Thread nD τ).loc main_arg7)
abbrev argBEsc : FVec Ideal S2x128 .f32 := m ((c : Thread nD τ).loc main_arg8)
abbrev argWfc : FVec Ideal S2x128x128 .f32 := m ((c : Thread nD τ).loc main_arg9)
abbrev argBfc : FVec Ideal S2x128 .f32 := m ((c : Thread nD τ).loc main_arg10)
abbrev argGfc : FVec Ideal S2x128 .f32 := m ((c : Thread nD τ).loc main_arg11)
abbrev argBEfc : FVec Ideal S2x128 .f32 := m ((c : Thread nD τ).loc main_arg12)

abbrev argGW : FVec Ideal S256x128 .f32 := m ((c : Thread nD τ).loc main_arg13)
abbrev argGB : FVec Ideal S128 .f32 := m ((c : Thread nD τ).loc main_arg14)

theorem carry_x1 : (V1 m c main_arg0 : S50000x128.Idx → EReal) = argX m c :=
  (V1_of m c main_arg0 (by decide)).trans rfl

theorem carry_x17 : (V17 m outs c main_arg0 : S50000x128.Idx → EReal) = argX m c :=
  (V17_of m outs c main_arg0 (by decide)).trans <|
    (V16_of m outs c main_arg0 (by decide)).trans <|
    (V15_of m outs c main_arg0 (by decide)).trans <|
    (V14_of m outs c main_arg0 (by decide)).trans <|
    (V13_of m outs c main_arg0 (by decide)).trans <|
    (V12_of m outs c main_arg0 (by decide)).trans <|
    (V11_of m outs c main_arg0 (by decide)).trans <|
    (V10_of m outs c main_arg0 (by decide)).trans <|
    (V9_of m outs c main_arg0 (by decide)).trans <|
    (V8_of m outs c main_arg0 (by decide)).trans <|
    (V7_of m outs c main_arg0 (by decide)).trans <|
    (V6_of m outs c main_arg0 (by decide)).trans <|
    (V5_of m outs c main_arg0 (by decide)).trans <|
    (V4_of m outs c main_arg0 (by decide)).trans <|
    (V3_of m outs c main_arg0 (by decide)).trans <|
    (V2_of m outs c main_arg0 (by decide)).trans <|
    (V1_of m c main_arg0 (by decide)).trans rfl

theorem kernel_value_of (hX : AllReal (argX m c))
    (L1 : ∀ H : FVec Ideal S50000x128 .f32, (V1 m c main_arg0 : S50000x128.Idx → EReal) = H → AllReal H →
      (V8 m outs c main_v68 : S50000x128.Idx → EReal)
        = layerOf H 0 (argWsc m c) (argBsc m c) (argGsc m c) (argBEsc m c) (argEIsc m c) (argEWsc m c))
    (R1 : ∀ H : FVec Ideal S50000x128 .f32, (V1 m c main_arg0 : S50000x128.Idx → EReal) = H → AllReal H →
      AllReal (V8 m outs c main_v68 : S50000x128.Idx → EReal))
    (L2 : ∀ H : FVec Ideal S50000x128 .f32, (V9 m outs c main_v68 : S50000x128.Idx → EReal) = H → AllReal H →
      (V16 m outs c main_v129 : S50000x128.Idx → EReal)
        = layerOf H 1 (argWsc m c) (argBsc m c) (argGsc m c) (argBEsc m c) (argEIsc m c) (argEWsc m c))
    (L3 : ∀ H : FVec Ideal S50000x128 .f32, (V17 m outs c main_arg0 : S50000x128.Idx → EReal) = H → AllReal H →
      (V24 m outs c main_v190 : S50000x128.Idx → EReal)
        = layerOf H 0 (argWfc m c) (argBfc m c) (argGfc m c) (argBEfc m c) (argEIfc m c) (argEWfc m c))
    (R3 : ∀ H : FVec Ideal S50000x128 .f32, (V17 m outs c main_arg0 : S50000x128.Idx → EReal) = H → AllReal H →
      AllReal (V24 m outs c main_v190 : S50000x128.Idx → EReal))
    (L4 : ∀ H : FVec Ideal S50000x128 .f32, (V25 m outs c main_v190 : S50000x128.Idx → EReal) = H → AllReal H →
      (V32 m outs c main_v251 : S50000x128.Idx → EReal)
        = layerOf H 1 (argWfc m c) (argBfc m c) (argGfc m c) (argBEfc m c) (argEIfc m c) (argEWfc m c))
    (G : ∀ HS HF : S50000x128.Idx → EReal, (V16 m outs c main_v129 : S50000x128.Idx → EReal) = HS →
      (V32 m outs c main_v251 : S50000x128.Idx → EReal) = HF →
      (V34 m outs c main_v255 : S50000x128.Idx → EReal) = gateT (F := Ideal) HS HF (argGW m c) (argGB m c)) :
    (V34 m outs c main_v255 : S50000x128.Idx → EReal)
      = refOut (F := Ideal) (argX m c) (argEIsc m c) (argEWsc m c) (argEIfc m c) (argEWfc m c)
          (argWsc m c) (argBsc m c) (argGsc m c) (argBEsc m c) (argWfc m c) (argBfc m c) (argGfc m c) (argBEfc m c)
          (argGW m c) (argGB m c) := by

  have e1 := L1 _ (carry_x1 m c) hX
  have r1 : AllReal (layerOf (argX m c) 0 (argWsc m c) (argBsc m c) (argGsc m c) (argBEsc m c) (argEIsc m c) (argEWsc m c)) :=
    e1 ▸ R1 _ (carry_x1 m c) hX
  have e2 := L2 _ ((V9_of m outs c main_v68 (by decide)).trans e1) r1

  have e3 := L3 _ (carry_x17 m outs c) hX
  have r3 : AllReal (layerOf (argX m c) 0 (argWfc m c) (argBfc m c) (argGfc m c) (argBEfc m c) (argEIfc m c) (argEWfc m c)) :=
    e3 ▸ R3 _ (carry_x17 m outs c) hX
  have e4 := L4 _ ((V25_of m outs c main_v190 (by decide)).trans e3) r3

  exact (G _ _ e2 e4).trans rfl

end Compose

theorem kernel_value [Cert.Pre_finite_inputs.Facts] (m : (ℓ : Loc nD τ sig) → Buf (Elt Ideal) ℓ) (hpre : Cert.Pre_KernelIdeal m)
    (c : Dev nD) :
    (V34 m (Cert.KernelIdeal.Run.outs m) c main_v255 : S50000x128.Idx → EReal)
      = refOut (F := Ideal) (argX m c) (argEIsc m c) (argEWsc m c) (argEIfc m c) (argEWfc m c)
          (argWsc m c) (argBsc m c) (argGsc m c) (argBEsc m c) (argWfc m c) (argBfc m c) (argGfc m c) (argBEfc m c)
          (argGW m c) (argGB m c) :=
  kernel_value_of m (Cert.KernelIdeal.Run.outs m) c (Cert.PreReal.real_arg0 m hpre c)
    (fun H hin hH => layer1 m c H hin hH (Cert.PreReal.real_arg2 m hpre c) (Cert.PreReal.real_arg5 m hpre c) (Cert.PreReal.real_arg6 m hpre c))
    (fun H hin hH => layer1_real m c H hin hH (Cert.PreReal.real_arg2 m hpre c) (Cert.PreReal.real_arg5 m hpre c) (Cert.PreReal.real_arg6 m hpre c)
      (Cert.PreReal.real_arg7 m hpre c) (Cert.PreReal.real_arg8 m hpre c))
    (fun H hin hH => layer2 m c H hin hH (Cert.PreReal.real_arg2 m hpre c) (Cert.PreReal.real_arg5 m hpre c) (Cert.PreReal.real_arg6 m hpre c))
    (fun H hin hH => layer3 m c H hin hH (Cert.PreReal.real_arg4 m hpre c) (Cert.PreReal.real_arg9 m hpre c) (Cert.PreReal.real_arg10 m hpre c))
    (fun H hin hH => layer3_real m c H hin hH (Cert.PreReal.real_arg4 m hpre c) (Cert.PreReal.real_arg9 m hpre c) (Cert.PreReal.real_arg10 m hpre c)
      (Cert.PreReal.real_arg11 m hpre c) (Cert.PreReal.real_arg12 m hpre c))
    (fun H hin hH => layer4 m c H hin hH (Cert.PreReal.real_arg4 m hpre c) (Cert.PreReal.real_arg9 m hpre c) (Cert.PreReal.real_arg10 m hpre c))
    (fun HS HF hs hf => gate_value m c HS HF hs hf)

end Cert.KernelIdeal.Val

end
-- ==== Proof.Ref.Ops0.lean ====
/- The reference program's host operations %0 … %11, in program order, as list of operations: each entry is
   the printed operation of one line of @main, and where @main calls a module-local function the callee's operations stand in the
   call's place, over the call's operands and the call's own buffers (inlining is substitution). Running the entries in order is
   running that stretch of @main; folding their results over the buffers' contents gives the contents after it. -/
import proofs.«169164_j46703474376898_1_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 … 12 of 479 (%0 … %11): the prelude: the two edge lists' rows and the first layer's weight and bias rows, sliced and reshaped. -/
abbrev chunk0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),  -- %0 = stablehlo.slice %arg1 [0:1, 0:800000] : (tensor<2x800000xi32>) -> tensor<1x800000xi32>  @ reference:66
    StableHlo.reshape main_v0 main_v1 rfl shapeCasts_S1x800000_S800000,  -- %1 = stablehlo.reshape %0 : (tensor<1x800000xi32>) -> tensor<800000xi32>  @ reference:66
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),  -- %2 = stablehlo.slice %arg1 [1:2, 0:800000] : (tensor<2x800000xi32>) -> tensor<1x800000xi32>  @ reference:66
    StableHlo.reshape main_v2 main_v3 rfl shapeCasts_S1x800000_S800000,  -- %3 = stablehlo.reshape %2 : (tensor<1x800000xi32>) -> tensor<800000xi32>  @ reference:66
    StableHlo.unary main_arg3 main_v4 ((extractStridedSlice S1x800000 ![0, 0] · slices_S2x800000_S1x800000_0_0) : (⟨S2x800000, .i32⟩ : BufTy).Contents (Elt F) → (⟨S1x800000, .i32⟩ : BufTy).Contents (Elt F)),  -- %4 = stablehlo.slice %arg3 [0:1, 0:800000] : (tensor<2x800000xi32>) -> tensor<1x800000xi32>  @ reference:67
    StableHlo.reshape main_v4 main_v5 rfl shapeCasts_S1x800000_S800000,  -- %5 = stablehlo.reshape %4 : (tensor<1x800000xi32>) -> tensor<800000xi32>  @ reference:67
    StableHlo.unary main_arg3 main_v6 ((extractStridedSlice S1x800000 ![1, 0] · slices_S2x800000_S1x800000_1_0) : (⟨S2x800000, .i32⟩ : BufTy).Contents (Elt F) → (⟨S1x800000, .i32⟩ : BufTy).Contents (Elt F)),  -- %6 = stablehlo.slice %arg3 [1:2, 0:800000] : (tensor<2x800000xi32>) -> tensor<1x800000xi32>  @ reference:67
    StableHlo.reshape main_v6 main_v7 rfl shapeCasts_S1x800000_S800000,  -- %7 = stablehlo.reshape %6 : (tensor<1x800000xi32>) -> tensor<800000xi32>  @ reference:67
    StableHlo.unary main_arg5 main_v8 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %8 = stablehlo.slice %arg5 [0:1, 0:128, 0:128] : (tensor<2x128x128xf32>) -> tensor<1x128x128xf32>  @ reference:70
    StableHlo.reshape main_v8 main_v9 rfl shapeCasts_S1x128x128_S128x128,  -- %9 = stablehlo.reshape %8 : (tensor<1x128x128xf32>) -> tensor<128x128xf32>  @ reference:70
    StableHlo.unary main_arg6 main_v10 ((extractStridedSlice S1x128 ![0, 0] · slices_S2x128_S1x128_0_0) : (⟨S2x128, .f32⟩ : BufTy).Contents (Elt F) → (⟨S1x128, .f32⟩ : BufTy).Contents (Elt F)),  -- %10 = stablehlo.slice %arg6 [0:1, 0:128] : (tensor<2x128xf32>) -> tensor<1x128xf32>  @ reference:70
    StableHlo.reshape main_v10 main_v11 rfl shapeCasts_S1x128_S128 ]  -- %11 = stablehlo.reshape %10 : (tensor<1x128xf32>) -> tensor<128xf32>  @ reference:70

set_option maxRecDepth 8192 in
/-- Every entry of `chunk0` touches TensorCore buffers only: entry by entry, its builder's inclusion. -/
theorem chunk0_sub : (chunk0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

set_option maxRecDepth 8192 in
/-- Every entry of `chunk0` determines what it writes: entry by entry, by computation. -/
theorem chunk0_fresh : (chunk0 : List (HloOp τ sig (Elt F))).Forall fun op => op.fresh = ∅ :=
  ⟨rfl, rfl, rfl, rfl, rfl, rfl, rfl, rfl, rfl, rfl, rfl, rfl⟩

end Cert.ReferenceIdeal.Hand

end
-- ==== Proof.Ref.Ops1.lean ====
/- The reference program's host operations %12 … %80, in program order, as lists of operations: each entry is
   the printed operation of one line of @main, and where @main calls a module-local function the callee's operations stand in the
   call's place, over the call's operands and the call's own buffers (inlining is substitution). Running the entries in order is
   running that stretch of @main; folding their results over the buffers' contents gives the contents after it. -/
import proofs.«169164_j46703474376898_1_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 13 … 14 of 479 (%12 … %13): layer 1's head: the product of the layer's input with its weight, and the node indices. -/
abbrev chunk1a : List (HloOp τ sig (Elt F)) :=
  [ StableHlo.binary main_arg0 main_v9 main_v12 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %12 = stablehlo.dot_general %arg0, %9, contracting_dims = [1] x [0], precision = [DEFAULT, DEFAULT] : (tensor<50000x128xf32>, tensor<128x128xf32>) -> tensor<50000x128xf32>  @ reference:13
    StableHlo.nullary main_v13 (iotaInDim S50000 32 0) ]  -- %13 = stablehlo.iota dim = 0 : tensor<50000xi32>  @ reference:14

set_option maxRecDepth 8192 in
/-- Every entry of `chunk1a` touches TensorCore buffers only: entry by entry, its builder's inclusion. -/
theorem chunk1a_sub : (chunk1a : List (HloOp τ sig (Elt F))).Forall fun op => op.bufs ⊆ tcRefs τ sig :=
  ⟨binary_bufs_sub .., nullary_bufs_sub ..⟩

set_option maxRecDepth 8192 in
/-- Every entry of `chunk1a` determines what it writes: entry by entry, by computation. -/
theorem chunk1a_fresh : (chunk1a : List (HloOp τ sig (Elt F))).Forall fun op => op.fresh = ∅ :=
  ⟨rfl, rfl⟩

set_option maxHeartbeats 4000000 in
/-- Operations 15 … 70 of 479 (%14 … %56): layer 1's graph convolution: the edge lists with self-loops appended, the degrees and the symmetric normalisation, the gathered and weighted messages summed per node, the bias added. -/
abbrev chunk1b : List (HloOp τ sig (Elt F)) :=
  [ StableHlo.binary main_v1 main_v13 main_v14 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %14 = stablehlo.concatenate %1, %13, dim = 0 : (tensor<800000xi32>, tensor<50000xi32>) -> tensor<850000xi32>  @ reference:15
    StableHlo.binary main_v3 main_v13 main_v15 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %15 = stablehlo.concatenate %3, %13, dim = 0 : (tensor<800000xi32>, tensor<50000xi32>) -> tensor<850000xi32>  @ reference:16
    StableHlo.nullary main_cst (constant S_ .f32 0x3F800000#32),  -- %cst = stablehlo.constant dense<1.000000e+00> : tensor<f32>
    StableHlo.unary main_cst main_v16 (broadcastInDim S50000 ![] bcast_S_S50000 : (⟨S_, .f32⟩ : BufTy).Contents (Elt F) → (⟨S50000, .f32⟩ : BufTy).Contents (Elt F)),  -- %16 = stablehlo.broadcast_in_dim %cst, dims = [] : (tensor<f32>) -> tensor<50000xf32>  @ reference:17
    StableHlo.binary main_arg2 main_v16 main_v17 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),  -- %17 = stablehlo.concatenate %arg2, %16, dim = 0 : (tensor<800000xf32>, tensor<50000xf32>) -> tensor<850000xf32>  @ reference:17
    StableHlo.nullary main_cst_0 (constant S_ .f32 0x00000000#32),  -- %cst_0 = stablehlo.constant dense<0.000000e+00> : tensor<f32>
    StableHlo.unary main_cst_0 main_v18 (broadcastInDim S50000 ![] bcast_S_S50000 : (⟨S_, .f32⟩ : BufTy).Contents (Elt F) → (⟨S50000, .f32⟩ : BufTy).Contents (Elt F)),  -- %18 = stablehlo.broadcast_in_dim %cst_0, dims = [] : (tensor<f32>) -> tensor<50000xf32>  @ reference:18
    StableHlo.unary main_v15 main_v19 (broadcastInDim S850000x1 ![0] bcast_S850000_S850000x1_0 : (⟨S850000, .i32⟩ : BufTy).Contents (Elt F) → (⟨S850000x1, .i32⟩ : BufTy).Contents (Elt F)),  -- %19 = stablehlo.broadcast_in_dim %15, dims = [0] : (tensor<850000xi32>) -> tensor<850000x1xi32>  @ reference:18
    StableHlo.ternary main_v18 main_v19 main_v17 main_v20 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),  -- %20 = "stablehlo.scatter"(%18, %19, %17) <{indices_are_sorted = false, scatter_dimension_numbers = #stablehlo.scatter<inserted_window_dims = [0], scatter_dims_to_operand_dims = [0], index_vector_dim = 1>, unique_indices = false}> ( {  @ reference:18
    StableHlo.nullary main_cst_1 (constant S_ .f32 0x00000000#32),  -- %cst_1 = stablehlo.constant dense<0.000000e+00> : tensor<f32>
    StableHlo.unary main_cst_1 main_v21 (broadcastInDim S50000 ![] bcast_S_S50000 : (⟨S_, .f32⟩ : BufTy).Contents (Elt F) → (⟨S50000, .f32⟩ : BufTy).Contents (Elt F)),  -- %21 = stablehlo.broadcast_in_dim %cst_1, dims = [] : (tensor<f32>) -> tensor<50000xf32>  @ reference:19
    StableHlo.binary main_v20 main_v21 main_v22 (cmpf .ogt : (⟨S50000, .f32⟩ : BufTy).Contents (Elt F) → (⟨S50000, .f32⟩ : BufTy).Contents (Elt F) → (⟨S50000, .i1⟩ : BufTy).Contents (Elt F)),  -- %22 = stablehlo.compare GT, %20, %21, FLOAT : (tensor<50000xf32>, tensor<50000xf32>) -> tensor<50000xi1>  @ reference:19
    StableHlo.unary main_v20 main_v23 (Host.rsqrt : (⟨S50000, .f32⟩ : BufTy).Contents (Elt F) → (⟨S50000, .f32⟩ : BufTy).Contents (Elt F)),  -- %23 = stablehlo.rsqrt %20 : tensor<50000xf32>  @ reference:19
    StableHlo.nullary main_cst_2 (constant S_ .f32 0x00000000#32),  -- %cst_2 = stablehlo.constant dense<0.000000e+00> : tensor<f32>
    StableHlo.TRef.unary (.of main_cst_2 : StableHlo.TRef sig ⟨S_, .f32⟩) main_call0.v0 id,  -- @where's %0 = stablehlo.convert %arg2 : tensor<f32>, in %24 = func.call @where(…) (record main_call0)
    StableHlo.TRef.unary main_call0.v0 main_call0.v1 (broadcastInDim S50000 ![] bcast_S_S50000),  -- @where's %1 = stablehlo.broadcast_in_dim %0, dims = [] : (tensor<f32>) -> tensor<50000xf32>, in %24 = func.call @where(…) (record main_call0)
    StableHlo.TRef.ternary (.of main_v22 : StableHlo.TRef sig ⟨S50000, .i1⟩) (.of main_v23 : StableHlo.TRef sig ⟨S50000, .f32⟩) main_call0.v1 main_call0.v2 select,  -- @where's %2 = stablehlo.select %arg0, %arg1, %1 : tensor<50000xi1>, tensor<50000xf32>, in %24 = func.call @where(…) (record main_call0)
    StableHlo.nullary main_c (constantI S_ 32 0#32),  -- %c = stablehlo.constant dense<0> : tensor<i32>
    StableHlo.unary main_c main_v25 (broadcastInDim S850000 ![] bcast_S_S850000 : (⟨S_, .i32⟩ : BufTy).Contents (Elt F) → (⟨S850000, .i32⟩ : BufTy).Contents (Elt F)),  -- %25 = stablehlo.broadcast_in_dim %c, dims = [] : (tensor<i32>) -> tensor<850000xi32>  @ reference:20
    StableHlo.binary main_v14 main_v25 main_v26 (cmpi .slt : (⟨S850000, .i32⟩ : BufTy).Contents (Elt F) → (⟨S850000, .i32⟩ : BufTy).Contents (Elt F) → (⟨S850000, .i1⟩ : BufTy).Contents (Elt F)),  -- %26 = stablehlo.compare LT, %14, %25, SIGNED : (tensor<850000xi32>, tensor<850000xi32>) -> tensor<850000xi1>  @ reference:20
    StableHlo.nullary main_c_3 (constantI S_ 32 50000#32),  -- %c_3 = stablehlo.constant dense<50000> : tensor<i32>
    StableHlo.unary main_c_3 main_v27 (broadcastInDim S850000 ![] bcast_S_S850000 : (⟨S_, .i32⟩ : BufTy).Contents (Elt F) → (⟨S850000, .i32⟩ : BufTy).Contents (Elt F)),  -- %27 = stablehlo.broadcast_in_dim %c_3, dims = [] : (tensor<i32>) -> tensor<850000xi32>  @ reference:20
    StableHlo.binary main_v14 main_v27 main_v28 (addi : (⟨S850000, .i32⟩ : BufTy).Contents (Elt F) → (⟨S850000, .i32⟩ : BufTy).Contents (Elt F) → (⟨S850000, .i32⟩ : BufTy).Contents (Elt F)),  -- %28 = stablehlo.add %14, %27 : tensor<850000xi32>  @ reference:20
    StableHlo.ternary main_v26 main_v28 main_v14 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %29 = stablehlo.select %26, %28, %14 : tensor<850000xi1>, tensor<850000xi32>  @ reference:20
    StableHlo.unary main_v29 main_v30 (broadcastInDim S850000x1 ![0] bcast_S850000_S850000x1_0 : (⟨S850000, .i32⟩ : BufTy).Contents (Elt F) → (⟨S850000x1, .i32⟩ : BufTy).Contents (Elt F)),  -- %30 = stablehlo.broadcast_in_dim %29, dims = [0] : (tensor<850000xi32>) -> tensor<850000x1xi32>  @ reference:20
    StableHlo.binary main_v24 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %31 = "stablehlo.gather"(%24, %30) <{dimension_numbers = #stablehlo.gather<collapsed_slice_dims = [0], start_index_map = [0], index_vector_dim = 1>, indices_are_sorted = false, slice_sizes = array<i64: 1>}> : (tensor<50000xf32>, tensor<850000x1xi32>) -> tensor<850000xf32>  @ reference:20
    StableHlo.binary main_v31 main_v17 main_v32 (mulf : (⟨S850000, .f32⟩ : BufTy).Contents (Elt F) → (⟨S850000, .f32⟩ : BufTy).Contents (Elt F) → (⟨S850000, .f32⟩ : BufTy).Contents (Elt F)),  -- %32 = stablehlo.multiply %31, %17 : tensor<850000xf32>  @ reference:20
    StableHlo.nullary main_c_4 (constantI S_ 32 0#32),  -- %c_4 = stablehlo.constant dense<0> : tensor<i32>
    StableHlo.unary main_c_4 main_v33 (broadcastInDim S850000 ![] bcast_S_S850000 : (⟨S_, .i32⟩ : BufTy).Contents (Elt F) → (⟨S850000, .i32⟩ : BufTy).Contents (Elt F)),  -- %33 = stablehlo.broadcast_in_dim %c_4, dims = [] : (tensor<i32>) -> tensor<850000xi32>  @ reference:20
    StableHlo.binary main_v15 main_v33 main_v34 (cmpi .slt : (⟨S850000, .i32⟩ : BufTy).Contents (Elt F) → (⟨S850000, .i32⟩ : BufTy).Contents (Elt F) → (⟨S850000, .i1⟩ : BufTy).Contents (Elt F)),  -- %34 = stablehlo.compare LT, %15, %33, SIGNED : (tensor<850000xi32>, tensor<850000xi32>) -> tensor<850000xi1>  @ reference:20
    StableHlo.nullary main_c_5 (constantI S_ 32 50000#32),  -- %c_5 = stablehlo.constant dense<50000> : tensor<i32>
    StableHlo.unary main_c_5 main_v35 (broadcastInDim S850000 ![] bcast_S_S850000 : (⟨S_, .i32⟩ : BufTy).Contents (Elt F) → (⟨S850000, .i32⟩ : BufTy).Contents (Elt F)),  -- %35 = stablehlo.broadcast_in_dim %c_5, dims = [] : (tensor<i32>) -> tensor<850000xi32>  @ reference:20
    StableHlo.binary main_v15 main_v35 main_v36 (addi : (⟨S850000, .i32⟩ : BufTy).Contents (Elt F) → (⟨S850000, .i32⟩ : BufTy).Contents (Elt F) → (⟨S850000, .i32⟩ : BufTy).Contents (Elt F)),  -- %36 = stablehlo.add %15, %35 : tensor<850000xi32>  @ reference:20
    StableHlo.ternary main_v34 main_v36 main_v15 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %37 = stablehlo.select %34, %36, %15 : tensor<850000xi1>, tensor<850000xi32>  @ reference:20
    StableHlo.unary main_v37 main_v38 (broadcastInDim S850000x1 ![0] bcast_S850000_S850000x1_0 : (⟨S850000, .i32⟩ : BufTy).Contents (Elt F) → (⟨S850000x1, .i32⟩ : BufTy).Contents (Elt F)),  -- %38 = stablehlo.broadcast_in_dim %37, dims = [0] : (tensor<850000xi32>) -> tensor<850000x1xi32>  @ reference:20
    StableHlo.binary main_v24 main_v38 main_v39 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %39 = "stablehlo.gather"(%24, %38) <{dimension_numbers = #stablehlo.gather<collapsed_slice_dims = [0], start_index_map = [0], index_vector_dim = 1>, indices_are_sorted = false, slice_sizes = array<i64: 1>}> : (tensor<50000xf32>, tensor<850000x1xi32>) -> tensor<850000xf32>  @ reference:20
    StableHlo.binary main_v32 main_v39 main_v40 (mulf : (⟨S850000, .f32⟩ : BufTy).Contents (Elt F) → (⟨S850000, .f32⟩ : BufTy).Contents (Elt F) → (⟨S850000, .f32⟩ : BufTy).Contents (Elt F)),  -- %40 = stablehlo.multiply %32, %39 : tensor<850000xf32>  @ reference:20
    StableHlo.nullary main_c_6 (constantI S_ 32 0#32),  -- %c_6 = stablehlo.constant dense<0> : tensor<i32>
    StableHlo.unary main_c_6 main_v41 (broadcastInDim S850000 ![] bcast_S_S850000 : (⟨S_, .i32⟩ : BufTy).Contents (Elt F) → (⟨S850000, .i32⟩ : BufTy).Contents (Elt F)),  -- %41 = stablehlo.broadcast_in_dim %c_6, dims = [] : (tensor<i32>) -> tensor<850000xi32>  @ reference:21
    StableHlo.binary main_v14 main_v41 main_v42 (cmpi .slt : (⟨S850000, .i32⟩ : BufTy).Contents (Elt F) → (⟨S850000, .i32⟩ : BufTy).Contents (Elt F) → (⟨S850000, .i1⟩ : BufTy).Contents (Elt F)),  -- %42 = stablehlo.compare LT, %14, %41, SIGNED : (tensor<850000xi32>, tensor<850000xi32>) -> tensor<850000xi1>  @ reference:21
    StableHlo.nullary main_c_7 (constantI S_ 32 50000#32),  -- %c_7 = stablehlo.constant dense<50000> : tensor<i32>
    StableHlo.unary main_c_7 main_v43 (broadcastInDim S850000 ![] bcast_S_S850000 : (⟨S_, .i32⟩ : BufTy).Contents (Elt F) → (⟨S850000, .i32⟩ : BufTy).Contents (Elt F)),  -- %43 = stablehlo.broadcast_in_dim %c_7, dims = [] : (tensor<i32>) -> tensor<850000xi32>  @ reference:21
    StableHlo.binary main_v14 main_v43 main_v44 (addi : (⟨S850000, .i32⟩ : BufTy).Contents (Elt F) → (⟨S850000, .i32⟩ : BufTy).Contents (Elt F) → (⟨S850000, .i32⟩ : BufTy).Contents (Elt F)),  -- %44 = stablehlo.add %14, %43 : tensor<850000xi32>  @ reference:21
    StableHlo.ternary main_v42 main_v44 main_v14 main_v45 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %45 = stablehlo.select %42, %44, %14 : tensor<850000xi1>, tensor<850000xi32>  @ reference:21
    StableHlo.unary main_v45 main_v46 (broadcastInDim S850000x1 ![0] bcast_S850000_S850000x1_0 : (⟨S850000, .i32⟩ : BufTy).Contents (Elt F) → (⟨S850000x1, .i32⟩ : BufTy).Contents (Elt F)),  -- %46 = stablehlo.broadcast_in_dim %45, dims = [0] : (tensor<850000xi32>) -> tensor<850000x1xi32>  @ reference:21
    StableHlo.binary main_v12 main_v46 main_v47 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %47 = "stablehlo.gather"(%12, %46) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>  @ reference:21
    StableHlo.unary main_v40 main_v48 (broadcastInDim S850000x1 ![0] bcast_S850000_S850000x1_0 : (⟨S850000, .f32⟩ : BufTy).Contents (Elt F) → (⟨S850000x1, .f32⟩ : BufTy).Contents (Elt F)),  -- %48 = stablehlo.broadcast_in_dim %40, dims = [0] : (tensor<850000xf32>) -> tensor<850000x1xf32>  @ reference:21
    StableHlo.unary main_v48 main_v49 (broadcastInDim S850000x128 ![0, 1] bcast_S850000x1_S850000x128_0_1 : (⟨S850000x1, .f32⟩ : BufTy).Contents (Elt F) → (⟨S850000x128, .f32⟩ : BufTy).Contents (Elt F)),  -- %49 = stablehlo.broadcast_in_dim %48, dims = [0, 1] : (tensor<850000x1xf32>) -> tensor<850000x128xf32>  @ reference:21
    StableHlo.binary main_v47 main_v49 main_v50 (mulf : (⟨S850000x128, .f32⟩ : BufTy).Contents (Elt F) → (⟨S850000x128, .f32⟩ : BufTy).Contents (Elt F) → (⟨S850000x128, .f32⟩ : BufTy).Contents (Elt F)),  -- %50 = stablehlo.multiply %47, %49 : tensor<850000x128xf32>  @ reference:21
    StableHlo.nullary main_cst_8 (constant S_ .f32 0x00000000#32),  -- %cst_8 = stablehlo.constant dense<0.000000e+00> : tensor<f32>
    StableHlo.unary main_cst_8 main_v51 (broadcastInDim S50000x128 ![] bcast_S_S50000x128 : (⟨S_, .f32⟩ : BufTy).Contents (Elt F) → (⟨S50000x128, .f32⟩ : BufTy).Contents (Elt F)),  -- %51 = stablehlo.broadcast_in_dim %cst_8, dims = [] : (tensor<f32>) -> tensor<50000x128xf32>  @ reference:22
    StableHlo.unary main_v15 main_v52 (broadcastInDim S850000x1 ![0] bcast_S850000_S850000x1_0 : (⟨S850000, .i32⟩ : BufTy).Contents (Elt F) → (⟨S850000x1, .i32⟩ : BufTy).Contents (Elt F)),  -- %52 = stablehlo.broadcast_in_dim %15, dims = [0] : (tensor<850000xi32>) -> tensor<850000x1xi32>  @ reference:22
    StableHlo.ternary main_v51 main_v52 main_v50 main_v53 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),  -- %53 = "stablehlo.scatter"(%51, %52, %50) <{indices_are_sorted = false, scatter_dimension_numbers = #stablehlo.scatter<update_window_dims = [1], inserted_window_dims = [0], scatter_dims_to_operand_dims = [0], index_vector_dim = 1>, unique_indices = false}> ( {  @ reference:22
    StableHlo.unary main_v11 main_v54 (broadcastInDim S1x128 ![1] bcast_S128_S1x128_1 : (⟨S128, .f32⟩ : BufTy).Contents (Elt F) → (⟨S1x128, .f32⟩ : BufTy).Contents (Elt F)),  -- %54 = stablehlo.broadcast_in_dim %11, dims = [1] : (tensor<128xf32>) -> tensor<1x128xf32>  @ reference:23
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),  -- %55 = stablehlo.broadcast_in_dim %54, dims = [0, 1] : (tensor<1x128xf32>) -> tensor<50000x128xf32>  @ reference:23
    StableHlo.binary main_v53 main_v55 main_v56 (addf : (⟨S50000x128, .f32⟩ : BufTy).Contents (Elt F) → (⟨S50000x128, .f32⟩ : BufTy).Contents (Elt F) → (⟨S50000x128, .f32⟩ : BufTy).Contents (Elt F)) ]  -- %56 = stablehlo.add %53, %55 : tensor<50000x128xf32>  @ reference:23

set_option maxRecDepth 8192 in
/-- Every entry of `chunk1b` touches TensorCore buffers only: entry by entry, its builder's inclusion. -/
theorem chunk1b_sub : (chunk1b : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- Every entry of `chunk1b` determines what it writes: entry by entry, by computation. -/
theorem chunk1b_fresh : (chunk1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
/-- Operations 71 … 121 of 479 (%57 … %80): layer 1's batch normalisation (mean, variance, scale and shift) and its rectifier. -/
abbrev chunk1c : List (HloOp τ sig (Elt F)) :=
  [ StableHlo.unary main_arg7 main_v57 ((extractStridedSlice S1x128 ![0, 0] · slices_S2x128_S1x128_0_0) : (⟨S2x128, .f32⟩ : BufTy).Contents (Elt F) → (⟨S1x128, .f32⟩ : BufTy).Contents (Elt F)),  -- %57 = stablehlo.slice %arg7 [0:1, 0:128] : (tensor<2x128xf32>) -> tensor<1x128xf32>  @ reference:71
    StableHlo.reshape main_v57 main_v58 rfl shapeCasts_S1x128_S128,  -- %58 = stablehlo.reshape %57 : (tensor<1x128xf32>) -> tensor<128xf32>  @ reference:71
    StableHlo.unary main_arg8 main_v59 ((extractStridedSlice S1x128 ![0, 0] · slices_S2x128_S1x128_0_0) : (⟨S2x128, .f32⟩ : BufTy).Contents (Elt F) → (⟨S1x128, .f32⟩ : BufTy).Contents (Elt F)),  -- %59 = stablehlo.slice %arg8 [0:1, 0:128] : (tensor<2x128xf32>) -> tensor<1x128xf32>  @ reference:71
    StableHlo.reshape main_v59 main_v60 rfl shapeCasts_S1x128_S128,  -- %60 = stablehlo.reshape %59 : (tensor<1x128xf32>) -> tensor<128xf32>  @ reference:71
    StableHlo.nullary main_cst_9 (constant S_ .f32 0x00000000#32),  -- %cst_9 = stablehlo.constant dense<0.000000e+00> : tensor<f32>
    StableHlo.binary main_v56 main_cst_9 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),  -- %61 = stablehlo.reduce(%56 init: %cst_9) applies stablehlo.add across dimensions = [0] : (tensor<50000x128xf32>, tensor<f32>) -> tensor<128xf32> {  @ reference:28
    StableHlo.nullary main_cst_10 (constant S_ .f32 0x47435000#32),  -- %cst_10 = stablehlo.constant dense<5.000000e+04> : tensor<f32>
    StableHlo.unary main_cst_10 main_v62 (broadcastInDim S128 ![] bcast_S_S128 : (⟨S_, .f32⟩ : BufTy).Contents (Elt F) → (⟨S128, .f32⟩ : BufTy).Contents (Elt F)),  -- %62 = stablehlo.broadcast_in_dim %cst_10, dims = [] : (tensor<f32>) -> tensor<128xf32>  @ reference:28
    StableHlo.binary main_v61 main_v62 main_v63 (Host.divf : (⟨S128, .f32⟩ : BufTy).Contents (Elt F) → (⟨S128, .f32⟩ : BufTy).Contents (Elt F) → (⟨S128, .f32⟩ : BufTy).Contents (Elt F)),  -- %63 = stablehlo.divide %61, %62 : tensor<128xf32>  @ reference:28
    StableHlo.nullary main_c_11 (constantI S_ 32 0#32),  -- %c_11 = stablehlo.constant dense<0> : tensor<i32>
    StableHlo.TRef.nullary main_call1.cst (constant S_ .f32 0x00000000#32),  -- @var's %cst = stablehlo.constant dense<0.000000e+00> : tensor<f32>, in %64 = func.call @var(…) (record main_call1)
    StableHlo.TRef.binary (.of main_v56 : StableHlo.TRef sig ⟨S50000x128, .f32⟩) main_call1.cst main_call1.v0 (fun x v => Host.reduceAdd x v reducesTo_S50000x128_S128_d0 h_S_),  -- @var's %0 = stablehlo.reduce(%arg0 init: %cst) applies stablehlo.add across dimensions = [0] : (tensor<50000x128xf32>, tensor<f32>) -> tensor<128xf32> {, in %64 = func.call @var(…) (record main_call1)
    StableHlo.TRef.unary main_call1.v0 main_call1.v1 (broadcastInDim S1x128 ![1] bcast_S128_S1x128_1),  -- @var's %1 = stablehlo.broadcast_in_dim %0, dims = [1] : (tensor<128xf32>) -> tensor<1x128xf32>, in %64 = func.call @var(…) (record main_call1)
    StableHlo.TRef.nullary main_call1.cst_0 (constant S_ .f32 0x47435000#32),  -- @var's %cst_0 = stablehlo.constant dense<5.000000e+04> : tensor<f32>, in %64 = func.call @var(…) (record main_call1)
    StableHlo.TRef.unary main_call1.cst_0 main_call1.v2 (broadcastInDim S1x128 ![] bcast_S_S1x128),  -- @var's %2 = stablehlo.broadcast_in_dim %cst_0, dims = [] : (tensor<f32>) -> tensor<1x128xf32>, in %64 = func.call @var(…) (record main_call1)
    StableHlo.TRef.binary main_call1.v1 main_call1.v2 main_call1.v3 Host.divf,  -- @var's %3 = stablehlo.divide %1, %2 : tensor<1x128xf32>, in %64 = func.call @var(…) (record main_call1)
    StableHlo.TRef.unary main_call1.v3 main_call1.v4 (broadcastInDim S50000x128 ![0, 1] bcast_S1x128_S50000x128_0_1),  -- @var's %4 = stablehlo.broadcast_in_dim %3, dims = [0, 1] : (tensor<1x128xf32>) -> tensor<50000x128xf32>, in %64 = func.call @var(…) (record main_call1)
    StableHlo.TRef.binary (.of main_v56 : StableHlo.TRef sig ⟨S50000x128, .f32⟩) main_call1.v4 main_call1.v5 subf,  -- @var's %5 = stablehlo.subtract %arg0, %4 : tensor<50000x128xf32>, in %64 = func.call @var(…) (record main_call1)
    StableHlo.TRef.binary main_call1.v5 main_call1.v5 main_call1.v6 mulf,  -- @var's %6 = chlo.square %5 : tensor<50000x128xf32> -> tensor<50000x128xf32>, in %64 = func.call @var(…) (record main_call1)
    StableHlo.TRef.unary (.of main_c_11 : StableHlo.TRef sig ⟨S_, .i32⟩) main_call1.v7 (sitofp .f32),  -- @var's %7 = stablehlo.convert %arg1 : (tensor<i32>) -> tensor<f32>, in %64 = func.call @var(…) (record main_call1)
    StableHlo.TRef.nullary main_call1.cst_1 (constant S_ .f32 0x47435000#32),  -- @var's %cst_1 = stablehlo.constant dense<5.000000e+04> : tensor<f32>, in %64 = func.call @var(…) (record main_call1)
    StableHlo.TRef.binary main_call1.cst_1 main_call1.v7 main_call1.v8 subf,  -- @var's %8 = stablehlo.subtract %cst_1, %7 : tensor<f32>, in %64 = func.call @var(…) (record main_call1)
    StableHlo.TRef.nullary main_call1.cst_2 (constant S_ .f32 0x00000000#32),  -- @var's %cst_2 = stablehlo.constant dense<0.000000e+00> : tensor<f32>, in %64 = func.call @var(…) (record main_call1)
    StableHlo.TRef.binary main_call1.v6 main_call1.cst_2 main_call1.v9 (fun x v => Host.reduceAdd x v reducesTo_S50000x128_S128_d0 h_S_),  -- @var's %9 = stablehlo.reduce(%6 init: %cst_2) applies stablehlo.add across dimensions = [0] : (tensor<50000x128xf32>, tensor<f32>) -> tensor<128xf32> {, in %64 = func.call @var(…) (record main_call1)
    StableHlo.TRef.unary main_call1.v8 main_call1.v10 (broadcastInDim S128 ![] bcast_S_S128),  -- @var's %10 = stablehlo.broadcast_in_dim %8, dims = [] : (tensor<f32>) -> tensor<128xf32>, in %64 = func.call @var(…) (record main_call1)
    StableHlo.TRef.binary main_call1.v9 main_call1.v10 main_call1.v11 Host.divf,  -- @var's %11 = stablehlo.divide %9, %10 : tensor<128xf32>, in %64 = func.call @var(…) (record main_call1)
    StableHlo.TRef.nullary main_call1.cst_3 (constant S_ .f32 0x00000000#32),  -- @var's %cst_3 = stablehlo.constant dense<0.000000e+00> : tensor<f32>, in %64 = func.call @var(…) (record main_call1)
    StableHlo.TRef.binary main_call1.v8 main_call1.cst_3 main_call1.v12 (cmpf .ogt),  -- @var's %12 = stablehlo.compare GT, %8, %cst_3, FLOAT : (tensor<f32>, tensor<f32>) -> tensor<i1>, in %64 = func.call @var(…) (record main_call1)
    StableHlo.TRef.nullary main_call1.cst_4 (constant S_ .f32 0x7FC00000#32),  -- @var's %cst_4 = stablehlo.constant dense<0x7FC00000> : tensor<f32>, in %64 = func.call @var(…) (record main_call1)
    StableHlo.TRef.unary main_call1.cst_4 main_call1.call0.v0 id,  -- @where_0's %0 = stablehlo.convert %arg2 : tensor<f32>, in %64 = func.call @var(…) (record main_call1)
    StableHlo.TRef.unary main_call1.call0.v0 main_call1.call0.v1 (broadcastInDim S128 ![] bcast_S_S128),  -- @where_0's %1 = stablehlo.broadcast_in_dim %0, dims = [] : (tensor<f32>) -> tensor<128xf32>, in %64 = func.call @var(…) (record main_call1)
    StableHlo.TRef.ternary main_call1.v12 main_call1.v11 main_call1.call0.v1 main_call1.call0.v2 (fun p a b => select (broadcastInDim S128 ![] bcast_S_S128 p) a b),  -- @where_0's %2 = stablehlo.select %arg0, %arg1, %1 : tensor<i1>, tensor<128xf32>, in %64 = func.call @var(…) (record main_call1)
    StableHlo.unary main_v63 main_v65 (broadcastInDim S1x128 ![1] bcast_S128_S1x128_1 : (⟨S128, .f32⟩ : BufTy).Contents (Elt F) → (⟨S1x128, .f32⟩ : BufTy).Contents (Elt F)),  -- %65 = stablehlo.broadcast_in_dim %63, dims = [1] : (tensor<128xf32>) -> tensor<1x128xf32>  @ reference:30
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),  -- %66 = stablehlo.broadcast_in_dim %65, dims = [0, 1] : (tensor<1x128xf32>) -> tensor<50000x128xf32>  @ reference:30
    StableHlo.binary main_v56 main_v66 main_v67 (subf : (⟨S50000x128, .f32⟩ : BufTy).Contents (Elt F) → (⟨S50000x128, .f32⟩ : BufTy).Contents (Elt F) → (⟨S50000x128, .f32⟩ : BufTy).Contents (Elt F)),  -- %67 = stablehlo.subtract %56, %66 : tensor<50000x128xf32>  @ reference:30
    StableHlo.nullary main_cst_12 (constant S_ .f32 0x3727C5AC#32),  -- %cst_12 = stablehlo.constant dense<9.99999974E-6> : tensor<f32>
    StableHlo.unary main_cst_12 main_v68 (broadcastInDim S128 ![] bcast_S_S128 : (⟨S_, .f32⟩ : BufTy).Contents (Elt F) → (⟨S128, .f32⟩ : BufTy).Contents (Elt F)),  -- %68 = stablehlo.broadcast_in_dim %cst_12, dims = [] : (tensor<f32>) -> tensor<128xf32>  @ reference:30
    StableHlo.binary main_v64 main_v68 main_v69 (addf : (⟨S128, .f32⟩ : BufTy).Contents (Elt F) → (⟨S128, .f32⟩ : BufTy).Contents (Elt F) → (⟨S128, .f32⟩ : BufTy).Contents (Elt F)),  -- %69 = stablehlo.add %64, %68 : tensor<128xf32>  @ reference:30
    StableHlo.unary main_v69 main_v70 (Host.rsqrt : (⟨S128, .f32⟩ : BufTy).Contents (Elt F) → (⟨S128, .f32⟩ : BufTy).Contents (Elt F)),  -- %70 = stablehlo.rsqrt %69 : tensor<128xf32>  @ reference:30
    StableHlo.unary main_v70 main_v71 (broadcastInDim S1x128 ![1] bcast_S128_S1x128_1 : (⟨S128, .f32⟩ : BufTy).Contents (Elt F) → (⟨S1x128, .f32⟩ : BufTy).Contents (Elt F)),  -- %71 = stablehlo.broadcast_in_dim %70, dims = [1] : (tensor<128xf32>) -> tensor<1x128xf32>  @ reference:30
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),  -- %72 = stablehlo.broadcast_in_dim %71, dims = [0, 1] : (tensor<1x128xf32>) -> tensor<50000x128xf32>  @ reference:30
    StableHlo.binary main_v67 main_v72 main_v73 (mulf : (⟨S50000x128, .f32⟩ : BufTy).Contents (Elt F) → (⟨S50000x128, .f32⟩ : BufTy).Contents (Elt F) → (⟨S50000x128, .f32⟩ : BufTy).Contents (Elt F)),  -- %73 = stablehlo.multiply %67, %72 : tensor<50000x128xf32>  @ reference:30
    StableHlo.unary main_v58 main_v74 (broadcastInDim S1x128 ![1] bcast_S128_S1x128_1 : (⟨S128, .f32⟩ : BufTy).Contents (Elt F) → (⟨S1x128, .f32⟩ : BufTy).Contents (Elt F)),  -- %74 = stablehlo.broadcast_in_dim %58, dims = [1] : (tensor<128xf32>) -> tensor<1x128xf32>  @ reference:31
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),  -- %75 = stablehlo.broadcast_in_dim %74, dims = [0, 1] : (tensor<1x128xf32>) -> tensor<50000x128xf32>  @ reference:31
    StableHlo.binary main_v73 main_v75 main_v76 (mulf : (⟨S50000x128, .f32⟩ : BufTy).Contents (Elt F) → (⟨S50000x128, .f32⟩ : BufTy).Contents (Elt F) → (⟨S50000x128, .f32⟩ : BufTy).Contents (Elt F)),  -- %76 = stablehlo.multiply %73, %75 : tensor<50000x128xf32>  @ reference:31
    StableHlo.unary main_v60 main_v77 (broadcastInDim S1x128 ![1] bcast_S128_S1x128_1 : (⟨S128, .f32⟩ : BufTy).Contents (Elt F) → (⟨S1x128, .f32⟩ : BufTy).Contents (Elt F)),  -- %77 = stablehlo.broadcast_in_dim %60, dims = [1] : (tensor<128xf32>) -> tensor<1x128xf32>  @ reference:31
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),  -- %78 = stablehlo.broadcast_in_dim %77, dims = [0, 1] : (tensor<1x128xf32>) -> tensor<50000x128xf32>  @ reference:31
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),  -- %79 = stablehlo.add %76, %78 : tensor<50000x128xf32>  @ reference:31
    StableHlo.TRef.nullary main_call2.cst (constant S_ .f32 0x00000000#32),  -- @relu's %cst = stablehlo.constant dense<0.000000e+00> : tensor<f32>, in %80 = func.call @relu(…) (record main_call2)
    StableHlo.TRef.unary main_call2.cst main_call2.v0 (broadcastInDim S50000x128 ![] bcast_S_S50000x128),  -- @relu's %0 = stablehlo.broadcast_in_dim %cst, dims = [] : (tensor<f32>) -> tensor<50000x128xf32>, in %80 = func.call @relu(…) (record main_call2)
    StableHlo.TRef.binary (.of main_v79 : StableHlo.TRef sig ⟨S50000x128, .f32⟩) main_call2.v0 main_call2.v1 maximumf ]  -- @relu's %1 = stablehlo.maximum %arg0, %0 : tensor<50000x128xf32>, in %80 = func.call @relu(…) (record main_call2)

set_option maxRecDepth 8192 in
/-- Every entry of `chunk1c` touches TensorCore buffers only: entry by entry, its builder's inclusion. -/
theorem chunk1c_sub : (chunk1c : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every entry of `chunk1c` determines what it writes: entry by entry, by computation. -/
theorem chunk1c_fresh : (chunk1c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.Ref.Ops2.lean ====
/- The reference program's host operations %81 … %153, in program order, as lists of operations: each entry is
   the printed operation of one line of @main, and where @main calls a module-local function the callee's operations stand in the
   call's place, over the call's operands and the call's own buffers (inlining is substitution). Running the entries in order is
   running that stretch of @main; folding their results over the buffers' contents gives the contents after it. -/
import proofs.«169164_j46703474376898_1_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 122 … 127 of 479 (%81 … %86): layer 2's head: its weight and bias rows, the product of the layer's input with its weight, and the node indices. -/
abbrev chunk2a : List (HloOp τ sig (Elt F)) :=
  [ StableHlo.unary main_arg5 main_v81 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %81 = stablehlo.slice %arg5 [1:2, 0:128, 0:128] : (tensor<2x128x128xf32>) -> tensor<1x128x128xf32>  @ reference:70
    StableHlo.reshape main_v81 main_v82 rfl shapeCasts_S1x128x128_S128x128,  -- %82 = stablehlo.reshape %81 : (tensor<1x128x128xf32>) -> tensor<128x128xf32>  @ reference:70
    StableHlo.unary main_arg6 main_v83 ((extractStridedSlice S1x128 ![1, 0] · slices_S2x128_S1x128_1_0) : (⟨S2x128, .f32⟩ : BufTy).Contents (Elt F) → (⟨S1x128, .f32⟩ : BufTy).Contents (Elt F)),  -- %83 = stablehlo.slice %arg6 [1:2, 0:128] : (tensor<2x128xf32>) -> tensor<1x128xf32>  @ reference:70
    StableHlo.reshape main_v83 main_v84 rfl shapeCasts_S1x128_S128,  -- %84 = stablehlo.reshape %83 : (tensor<1x128xf32>) -> tensor<128xf32>  @ reference:70
    StableHlo.binary main_v80 main_v82 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %85 = stablehlo.dot_general %80, %82, contracting_dims = [1] x [0], precision = [DEFAULT, DEFAULT] : (tensor<50000x128xf32>, tensor<128x128xf32>) -> tensor<50000x128xf32>  @ reference:13
    StableHlo.nullary main_v86 (iotaInDim S50000 32 0) ]  -- %86 = stablehlo.iota dim = 0 : tensor<50000xi32>  @ reference:14

set_option maxRecDepth 8192 in
/-- Every entry of `chunk2a` touches TensorCore buffers only: entry by entry, its builder's inclusion. -/
theorem chunk2a_sub : (chunk2a : List (HloOp τ sig (Elt F))).Forall fun op => op.bufs ⊆ tcRefs τ sig :=
  ⟨unary_bufs_sub .., reshape_bufs_sub .., unary_bufs_sub .., reshape_bufs_sub .., binary_bufs_sub .., nullary_bufs_sub ..⟩

set_option maxRecDepth 8192 in
/-- Every entry of `chunk2a` determines what it writes: entry by entry, by computation. -/
theorem chunk2a_fresh : (chunk2a : List (HloOp τ sig (Elt F))).Forall fun op => op.fresh = ∅ :=
  ⟨rfl, rfl, rfl, rfl, rfl, rfl⟩

set_option maxHeartbeats 4000000 in
/-- Operations 128 … 183 of 479 (%87 … %129): layer 2's graph convolution: the edge lists with self-loops appended, the degrees and the symmetric normalisation, the gathered and weighted messages summed per node, the bias added. -/
abbrev chunk2b : List (HloOp τ sig (Elt F)) :=
  [ StableHlo.binary main_v1 main_v86 main_v87 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %87 = stablehlo.concatenate %1, %86, dim = 0 : (tensor<800000xi32>, tensor<50000xi32>) -> tensor<850000xi32>  @ reference:15
    StableHlo.binary main_v3 main_v86 main_v88 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %88 = stablehlo.concatenate %3, %86, dim = 0 : (tensor<800000xi32>, tensor<50000xi32>) -> tensor<850000xi32>  @ reference:16
    StableHlo.nullary main_cst_13 (constant S_ .f32 0x3F800000#32),  -- %cst_13 = stablehlo.constant dense<1.000000e+00> : tensor<f32>
    StableHlo.unary main_cst_13 main_v89 (broadcastInDim S50000 ![] bcast_S_S50000 : (⟨S_, .f32⟩ : BufTy).Contents (Elt F) → (⟨S50000, .f32⟩ : BufTy).Contents (Elt F)),  -- %89 = stablehlo.broadcast_in_dim %cst_13, dims = [] : (tensor<f32>) -> tensor<50000xf32>  @ reference:17
    StableHlo.binary main_arg2 main_v89 main_v90 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),  -- %90 = stablehlo.concatenate %arg2, %89, dim = 0 : (tensor<800000xf32>, tensor<50000xf32>) -> tensor<850000xf32>  @ reference:17
    StableHlo.nullary main_cst_14 (constant S_ .f32 0x00000000#32),  -- %cst_14 = stablehlo.constant dense<0.000000e+00> : tensor<f32>
    StableHlo.unary main_cst_14 main_v91 (broadcastInDim S50000 ![] bcast_S_S50000 : (⟨S_, .f32⟩ : BufTy).Contents (Elt F) → (⟨S50000, .f32⟩ : BufTy).Contents (Elt F)),  -- %91 = stablehlo.broadcast_in_dim %cst_14, dims = [] : (tensor<f32>) -> tensor<50000xf32>  @ reference:18
    StableHlo.unary main_v88 main_v92 (broadcastInDim S850000x1 ![0] bcast_S850000_S850000x1_0 : (⟨S850000, .i32⟩ : BufTy).Contents (Elt F) → (⟨S850000x1, .i32⟩ : BufTy).Contents (Elt F)),  -- %92 = stablehlo.broadcast_in_dim %88, dims = [0] : (tensor<850000xi32>) -> tensor<850000x1xi32>  @ reference:18
    StableHlo.ternary main_v91 main_v92 main_v90 main_v93 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),  -- %93 = "stablehlo.scatter"(%91, %92, %90) <{indices_are_sorted = false, scatter_dimension_numbers = #stablehlo.scatter<inserted_window_dims = [0], scatter_dims_to_operand_dims = [0], index_vector_dim = 1>, unique_indices = false}> ( {  @ reference:18
    StableHlo.nullary main_cst_15 (constant S_ .f32 0x00000000#32),  -- %cst_15 = stablehlo.constant dense<0.000000e+00> : tensor<f32>
    StableHlo.unary main_cst_15 main_v94 (broadcastInDim S50000 ![] bcast_S_S50000 : (⟨S_, .f32⟩ : BufTy).Contents (Elt F) → (⟨S50000, .f32⟩ : BufTy).Contents (Elt F)),  -- %94 = stablehlo.broadcast_in_dim %cst_15, dims = [] : (tensor<f32>) -> tensor<50000xf32>  @ reference:19
    StableHlo.binary main_v93 main_v94 main_v95 (cmpf .ogt : (⟨S50000, .f32⟩ : BufTy).Contents (Elt F) → (⟨S50000, .f32⟩ : BufTy).Contents (Elt F) → (⟨S50000, .i1⟩ : BufTy).Contents (Elt F)),  -- %95 = stablehlo.compare GT, %93, %94, FLOAT : (tensor<50000xf32>, tensor<50000xf32>) -> tensor<50000xi1>  @ reference:19
    StableHlo.unary main_v93 main_v96 (Host.rsqrt : (⟨S50000, .f32⟩ : BufTy).Contents (Elt F) → (⟨S50000, .f32⟩ : BufTy).Contents (Elt F)),  -- %96 = stablehlo.rsqrt %93 : tensor<50000xf32>  @ reference:19
    StableHlo.nullary main_cst_16 (constant S_ .f32 0x00000000#32),  -- %cst_16 = stablehlo.constant dense<0.000000e+00> : tensor<f32>
    StableHlo.TRef.unary (.of main_cst_16 : StableHlo.TRef sig ⟨S_, .f32⟩) main_call3.v0 id,  -- @where's %0 = stablehlo.convert %arg2 : tensor<f32>, in %97 = func.call @where(…) (record main_call3)
    StableHlo.TRef.unary main_call3.v0 main_call3.v1 (broadcastInDim S50000 ![] bcast_S_S50000),  -- @where's %1 = stablehlo.broadcast_in_dim %0, dims = [] : (tensor<f32>) -> tensor<50000xf32>, in %97 = func.call @where(…) (record main_call3)
    StableHlo.TRef.ternary (.of main_v95 : StableHlo.TRef sig ⟨S50000, .i1⟩) (.of main_v96 : StableHlo.TRef sig ⟨S50000, .f32⟩) main_call3.v1 main_call3.v2 select,  -- @where's %2 = stablehlo.select %arg0, %arg1, %1 : tensor<50000xi1>, tensor<50000xf32>, in %97 = func.call @where(…) (record main_call3)
    StableHlo.nullary main_c_17 (constantI S_ 32 0#32),  -- %c_17 = stablehlo.constant dense<0> : tensor<i32>
    StableHlo.unary main_c_17 main_v98 (broadcastInDim S850000 ![] bcast_S_S850000 : (⟨S_, .i32⟩ : BufTy).Contents (Elt F) → (⟨S850000, .i32⟩ : BufTy).Contents (Elt F)),  -- %98 = stablehlo.broadcast_in_dim %c_17, dims = [] : (tensor<i32>) -> tensor<850000xi32>  @ reference:20
    StableHlo.binary main_v87 main_v98 main_v99 (cmpi .slt : (⟨S850000, .i32⟩ : BufTy).Contents (Elt F) → (⟨S850000, .i32⟩ : BufTy).Contents (Elt F) → (⟨S850000, .i1⟩ : BufTy).Contents (Elt F)),  -- %99 = stablehlo.compare LT, %87, %98, SIGNED : (tensor<850000xi32>, tensor<850000xi32>) -> tensor<850000xi1>  @ reference:20
    StableHlo.nullary main_c_18 (constantI S_ 32 50000#32),  -- %c_18 = stablehlo.constant dense<50000> : tensor<i32>
    StableHlo.unary main_c_18 main_v100 (broadcastInDim S850000 ![] bcast_S_S850000 : (⟨S_, .i32⟩ : BufTy).Contents (Elt F) → (⟨S850000, .i32⟩ : BufTy).Contents (Elt F)),  -- %100 = stablehlo.broadcast_in_dim %c_18, dims = [] : (tensor<i32>) -> tensor<850000xi32>  @ reference:20
    StableHlo.binary main_v87 main_v100 main_v101 (addi : (⟨S850000, .i32⟩ : BufTy).Contents (Elt F) → (⟨S850000, .i32⟩ : BufTy).Contents (Elt F) → (⟨S850000, .i32⟩ : BufTy).Contents (Elt F)),  -- %101 = stablehlo.add %87, %100 : tensor<850000xi32>  @ reference:20
    StableHlo.ternary main_v99 main_v101 main_v87 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %102 = stablehlo.select %99, %101, %87 : tensor<850000xi1>, tensor<850000xi32>  @ reference:20
    StableHlo.unary main_v102 main_v103 (broadcastInDim S850000x1 ![0] bcast_S850000_S850000x1_0 : (⟨S850000, .i32⟩ : BufTy).Contents (Elt F) → (⟨S850000x1, .i32⟩ : BufTy).Contents (Elt F)),  -- %103 = stablehlo.broadcast_in_dim %102, dims = [0] : (tensor<850000xi32>) -> tensor<850000x1xi32>  @ reference:20
    StableHlo.binary main_v97 main_v103 main_v104 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %104 = "stablehlo.gather"(%97, %103) <{dimension_numbers = #stablehlo.gather<collapsed_slice_dims = [0], start_index_map = [0], index_vector_dim = 1>, indices_are_sorted = false, slice_sizes = array<i64: 1>}> : (tensor<50000xf32>, tensor<850000x1xi32>) -> tensor<850000xf32>  @ reference:20
    StableHlo.binary main_v104 main_v90 main_v105 (mulf : (⟨S850000, .f32⟩ : BufTy).Contents (Elt F) → (⟨S850000, .f32⟩ : BufTy).Contents (Elt F) → (⟨S850000, .f32⟩ : BufTy).Contents (Elt F)),  -- %105 = stablehlo.multiply %104, %90 : tensor<850000xf32>  @ reference:20
    StableHlo.nullary main_c_19 (constantI S_ 32 0#32),  -- %c_19 = stablehlo.constant dense<0> : tensor<i32>
    StableHlo.unary main_c_19 main_v106 (broadcastInDim S850000 ![] bcast_S_S850000 : (⟨S_, .i32⟩ : BufTy).Contents (Elt F) → (⟨S850000, .i32⟩ : BufTy).Contents (Elt F)),  -- %106 = stablehlo.broadcast_in_dim %c_19, dims = [] : (tensor<i32>) -> tensor<850000xi32>  @ reference:20
    StableHlo.binary main_v88 main_v106 main_v107 (cmpi .slt : (⟨S850000, .i32⟩ : BufTy).Contents (Elt F) → (⟨S850000, .i32⟩ : BufTy).Contents (Elt F) → (⟨S850000, .i1⟩ : BufTy).Contents (Elt F)),  -- %107 = stablehlo.compare LT, %88, %106, SIGNED : (tensor<850000xi32>, tensor<850000xi32>) -> tensor<850000xi1>  @ reference:20
    StableHlo.nullary main_c_20 (constantI S_ 32 50000#32),  -- %c_20 = stablehlo.constant dense<50000> : tensor<i32>
    StableHlo.unary main_c_20 main_v108 (broadcastInDim S850000 ![] bcast_S_S850000 : (⟨S_, .i32⟩ : BufTy).Contents (Elt F) → (⟨S850000, .i32⟩ : BufTy).Contents (Elt F)),  -- %108 = stablehlo.broadcast_in_dim %c_20, dims = [] : (tensor<i32>) -> tensor<850000xi32>  @ reference:20
    StableHlo.binary main_v88 main_v108 main_v109 (addi : (⟨S850000, .i32⟩ : BufTy).Contents (Elt F) → (⟨S850000, .i32⟩ : BufTy).Contents (Elt F) → (⟨S850000, .i32⟩ : BufTy).Contents (Elt F)),  -- %109 = stablehlo.add %88, %108 : tensor<850000xi32>  @ reference:20
    StableHlo.ternary main_v107 main_v109 main_v88 main_v110 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %110 = stablehlo.select %107, %109, %88 : tensor<850000xi1>, tensor<850000xi32>  @ reference:20
    StableHlo.unary main_v110 main_v111 (broadcastInDim S850000x1 ![0] bcast_S850000_S850000x1_0 : (⟨S850000, .i32⟩ : BufTy).Contents (Elt F) → (⟨S850000x1, .i32⟩ : BufTy).Contents (Elt F)),  -- %111 = stablehlo.broadcast_in_dim %110, dims = [0] : (tensor<850000xi32>) -> tensor<850000x1xi32>  @ reference:20
    StableHlo.binary main_v97 main_v111 main_v112 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %112 = "stablehlo.gather"(%97, %111) <{dimension_numbers = #stablehlo.gather<collapsed_slice_dims = [0], start_index_map = [0], index_vector_dim = 1>, indices_are_sorted = false, slice_sizes = array<i64: 1>}> : (tensor<50000xf32>, tensor<850000x1xi32>) -> tensor<850000xf32>  @ reference:20
    StableHlo.binary main_v105 main_v112 main_v113 (mulf : (⟨S850000, .f32⟩ : BufTy).Contents (Elt F) → (⟨S850000, .f32⟩ : BufTy).Contents (Elt F) → (⟨S850000, .f32⟩ : BufTy).Contents (Elt F)),  -- %113 = stablehlo.multiply %105, %112 : tensor<850000xf32>  @ reference:20
    StableHlo.nullary main_c_21 (constantI S_ 32 0#32),  -- %c_21 = stablehlo.constant dense<0> : tensor<i32>
    StableHlo.unary main_c_21 main_v114 (broadcastInDim S850000 ![] bcast_S_S850000 : (⟨S_, .i32⟩ : BufTy).Contents (Elt F) → (⟨S850000, .i32⟩ : BufTy).Contents (Elt F)),  -- %114 = stablehlo.broadcast_in_dim %c_21, dims = [] : (tensor<i32>) -> tensor<850000xi32>  @ reference:21
    StableHlo.binary main_v87 main_v114 main_v115 (cmpi .slt : (⟨S850000, .i32⟩ : BufTy).Contents (Elt F) → (⟨S850000, .i32⟩ : BufTy).Contents (Elt F) → (⟨S850000, .i1⟩ : BufTy).Contents (Elt F)),  -- %115 = stablehlo.compare LT, %87, %114, SIGNED : (tensor<850000xi32>, tensor<850000xi32>) -> tensor<850000xi1>  @ reference:21
    StableHlo.nullary main_c_22 (constantI S_ 32 50000#32),  -- %c_22 = stablehlo.constant dense<50000> : tensor<i32>
    StableHlo.unary main_c_22 main_v116 (broadcastInDim S850000 ![] bcast_S_S850000 : (⟨S_, .i32⟩ : BufTy).Contents (Elt F) → (⟨S850000, .i32⟩ : BufTy).Contents (Elt F)),  -- %116 = stablehlo.broadcast_in_dim %c_22, dims = [] : (tensor<i32>) -> tensor<850000xi32>  @ reference:21
    StableHlo.binary main_v87 main_v116 main_v117 (addi : (⟨S850000, .i32⟩ : BufTy).Contents (Elt F) → (⟨S850000, .i32⟩ : BufTy).Contents (Elt F) → (⟨S850000, .i32⟩ : BufTy).Contents (Elt F)),  -- %117 = stablehlo.add %87, %116 : tensor<850000xi32>  @ reference:21
    StableHlo.ternary main_v115 main_v117 main_v87 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %118 = stablehlo.select %115, %117, %87 : tensor<850000xi1>, tensor<850000xi32>  @ reference:21
    StableHlo.unary main_v118 main_v119 (broadcastInDim S850000x1 ![0] bcast_S850000_S850000x1_0 : (⟨S850000, .i32⟩ : BufTy).Contents (Elt F) → (⟨S850000x1, .i32⟩ : BufTy).Contents (Elt F)),  -- %119 = stablehlo.broadcast_in_dim %118, dims = [0] : (tensor<850000xi32>) -> tensor<850000x1xi32>  @ reference:21
    StableHlo.binary main_v85 main_v119 main_v120 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %120 = "stablehlo.gather"(%85, %119) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>  @ reference:21
    StableHlo.unary main_v113 main_v121 (broadcastInDim S850000x1 ![0] bcast_S850000_S850000x1_0 : (⟨S850000, .f32⟩ : BufTy).Contents (Elt F) → (⟨S850000x1, .f32⟩ : BufTy).Contents (Elt F)),  -- %121 = stablehlo.broadcast_in_dim %113, dims = [0] : (tensor<850000xf32>) -> tensor<850000x1xf32>  @ reference:21
    StableHlo.unary main_v121 main_v122 (broadcastInDim S850000x128 ![0, 1] bcast_S850000x1_S850000x128_0_1 : (⟨S850000x1, .f32⟩ : BufTy).Contents (Elt F) → (⟨S850000x128, .f32⟩ : BufTy).Contents (Elt F)),  -- %122 = stablehlo.broadcast_in_dim %121, dims = [0, 1] : (tensor<850000x1xf32>) -> tensor<850000x128xf32>  @ reference:21
    StableHlo.binary main_v120 main_v122 main_v123 (mulf : (⟨S850000x128, .f32⟩ : BufTy).Contents (Elt F) → (⟨S850000x128, .f32⟩ : BufTy).Contents (Elt F) → (⟨S850000x128, .f32⟩ : BufTy).Contents (Elt F)),  -- %123 = stablehlo.multiply %120, %122 : tensor<850000x128xf32>  @ reference:21
    StableHlo.nullary main_cst_23 (constant S_ .f32 0x00000000#32),  -- %cst_23 = stablehlo.constant dense<0.000000e+00> : tensor<f32>
    StableHlo.unary main_cst_23 main_v124 (broadcastInDim S50000x128 ![] bcast_S_S50000x128 : (⟨S_, .f32⟩ : BufTy).Contents (Elt F) → (⟨S50000x128, .f32⟩ : BufTy).Contents (Elt F)),  -- %124 = stablehlo.broadcast_in_dim %cst_23, dims = [] : (tensor<f32>) -> tensor<50000x128xf32>  @ reference:22
    StableHlo.unary main_v88 main_v125 (broadcastInDim S850000x1 ![0] bcast_S850000_S850000x1_0 : (⟨S850000, .i32⟩ : BufTy).Contents (Elt F) → (⟨S850000x1, .i32⟩ : BufTy).Contents (Elt F)),  -- %125 = stablehlo.broadcast_in_dim %88, dims = [0] : (tensor<850000xi32>) -> tensor<850000x1xi32>  @ reference:22
    StableHlo.ternary main_v124 main_v125 main_v123 main_v126 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),  -- %126 = "stablehlo.scatter"(%124, %125, %123) <{indices_are_sorted = false, scatter_dimension_numbers = #stablehlo.scatter<update_window_dims = [1], inserted_window_dims = [0], scatter_dims_to_operand_dims = [0], index_vector_dim = 1>, unique_indices = false}> ( {  @ reference:22
    StableHlo.unary main_v84 main_v127 (broadcastInDim S1x128 ![1] bcast_S128_S1x128_1 : (⟨S128, .f32⟩ : BufTy).Contents (Elt F) → (⟨S1x128, .f32⟩ : BufTy).Contents (Elt F)),  -- %127 = stablehlo.broadcast_in_dim %84, dims = [1] : (tensor<128xf32>) -> tensor<1x128xf32>  @ reference:23
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),  -- %128 = stablehlo.broadcast_in_dim %127, dims = [0, 1] : (tensor<1x128xf32>) -> tensor<50000x128xf32>  @ reference:23
    StableHlo.binary main_v126 main_v128 main_v129 (addf : (⟨S50000x128, .f32⟩ : BufTy).Contents (Elt F) → (⟨S50000x128, .f32⟩ : BufTy).Contents (Elt F) → (⟨S50000x128, .f32⟩ : BufTy).Contents (Elt F)) ]  -- %129 = stablehlo.add %126, %128 : tensor<50000x128xf32>  @ reference:23

set_option maxRecDepth 8192 in
/-- Every entry of `chunk2b` touches TensorCore buffers only: entry by entry, its builder's inclusion. -/
theorem chunk2b_sub : (chunk2b : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- Every entry of `chunk2b` determines what it writes: entry by entry, by computation. -/
theorem chunk2b_fresh : (chunk2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
/-- Operations 184 … 234 of 479 (%130 … %153): layer 2's batch normalisation (mean, variance, scale and shift) and its rectifier. -/
abbrev chunk2c : List (HloOp τ sig (Elt F)) :=
  [ StableHlo.unary main_arg7 main_v130 ((extractStridedSlice S1x128 ![1, 0] · slices_S2x128_S1x128_1_0) : (⟨S2x128, .f32⟩ : BufTy).Contents (Elt F) → (⟨S1x128, .f32⟩ : BufTy).Contents (Elt F)),  -- %130 = stablehlo.slice %arg7 [1:2, 0:128] : (tensor<2x128xf32>) -> tensor<1x128xf32>  @ reference:71
    StableHlo.reshape main_v130 main_v131 rfl shapeCasts_S1x128_S128,  -- %131 = stablehlo.reshape %130 : (tensor<1x128xf32>) -> tensor<128xf32>  @ reference:71
    StableHlo.unary main_arg8 main_v132 ((extractStridedSlice S1x128 ![1, 0] · slices_S2x128_S1x128_1_0) : (⟨S2x128, .f32⟩ : BufTy).Contents (Elt F) → (⟨S1x128, .f32⟩ : BufTy).Contents (Elt F)),  -- %132 = stablehlo.slice %arg8 [1:2, 0:128] : (tensor<2x128xf32>) -> tensor<1x128xf32>  @ reference:71
    StableHlo.reshape main_v132 main_v133 rfl shapeCasts_S1x128_S128,  -- %133 = stablehlo.reshape %132 : (tensor<1x128xf32>) -> tensor<128xf32>  @ reference:71
    StableHlo.nullary main_cst_24 (constant S_ .f32 0x00000000#32),  -- %cst_24 = stablehlo.constant dense<0.000000e+00> : tensor<f32>
    StableHlo.binary main_v129 main_cst_24 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),  -- %134 = stablehlo.reduce(%129 init: %cst_24) applies stablehlo.add across dimensions = [0] : (tensor<50000x128xf32>, tensor<f32>) -> tensor<128xf32> {  @ reference:28
    StableHlo.nullary main_cst_25 (constant S_ .f32 0x47435000#32),  -- %cst_25 = stablehlo.constant dense<5.000000e+04> : tensor<f32>
    StableHlo.unary main_cst_25 main_v135 (broadcastInDim S128 ![] bcast_S_S128 : (⟨S_, .f32⟩ : BufTy).Contents (Elt F) → (⟨S128, .f32⟩ : BufTy).Contents (Elt F)),  -- %135 = stablehlo.broadcast_in_dim %cst_25, dims = [] : (tensor<f32>) -> tensor<128xf32>  @ reference:28
    StableHlo.binary main_v134 main_v135 main_v136 (Host.divf : (⟨S128, .f32⟩ : BufTy).Contents (Elt F) → (⟨S128, .f32⟩ : BufTy).Contents (Elt F) → (⟨S128, .f32⟩ : BufTy).Contents (Elt F)),  -- %136 = stablehlo.divide %134, %135 : tensor<128xf32>  @ reference:28
    StableHlo.nullary main_c_26 (constantI S_ 32 0#32),  -- %c_26 = stablehlo.constant dense<0> : tensor<i32>
    StableHlo.TRef.nullary main_call4.cst (constant S_ .f32 0x00000000#32),  -- @var's %cst = stablehlo.constant dense<0.000000e+00> : tensor<f32>, in %137 = func.call @var(…) (record main_call4)
    StableHlo.TRef.binary (.of main_v129 : StableHlo.TRef sig ⟨S50000x128, .f32⟩) main_call4.cst main_call4.v0 (fun x v => Host.reduceAdd x v reducesTo_S50000x128_S128_d0 h_S_),  -- @var's %0 = stablehlo.reduce(%arg0 init: %cst) applies stablehlo.add across dimensions = [0] : (tensor<50000x128xf32>, tensor<f32>) -> tensor<128xf32> {, in %137 = func.call @var(…) (record main_call4)
    StableHlo.TRef.unary main_call4.v0 main_call4.v1 (broadcastInDim S1x128 ![1] bcast_S128_S1x128_1),  -- @var's %1 = stablehlo.broadcast_in_dim %0, dims = [1] : (tensor<128xf32>) -> tensor<1x128xf32>, in %137 = func.call @var(…) (record main_call4)
    StableHlo.TRef.nullary main_call4.cst_0 (constant S_ .f32 0x47435000#32),  -- @var's %cst_0 = stablehlo.constant dense<5.000000e+04> : tensor<f32>, in %137 = func.call @var(…) (record main_call4)
    StableHlo.TRef.unary main_call4.cst_0 main_call4.v2 (broadcastInDim S1x128 ![] bcast_S_S1x128),  -- @var's %2 = stablehlo.broadcast_in_dim %cst_0, dims = [] : (tensor<f32>) -> tensor<1x128xf32>, in %137 = func.call @var(…) (record main_call4)
    StableHlo.TRef.binary main_call4.v1 main_call4.v2 main_call4.v3 Host.divf,  -- @var's %3 = stablehlo.divide %1, %2 : tensor<1x128xf32>, in %137 = func.call @var(…) (record main_call4)
    StableHlo.TRef.unary main_call4.v3 main_call4.v4 (broadcastInDim S50000x128 ![0, 1] bcast_S1x128_S50000x128_0_1),  -- @var's %4 = stablehlo.broadcast_in_dim %3, dims = [0, 1] : (tensor<1x128xf32>) -> tensor<50000x128xf32>, in %137 = func.call @var(…) (record main_call4)
    StableHlo.TRef.binary (.of main_v129 : StableHlo.TRef sig ⟨S50000x128, .f32⟩) main_call4.v4 main_call4.v5 subf,  -- @var's %5 = stablehlo.subtract %arg0, %4 : tensor<50000x128xf32>, in %137 = func.call @var(…) (record main_call4)
    StableHlo.TRef.binary main_call4.v5 main_call4.v5 main_call4.v6 mulf,  -- @var's %6 = chlo.square %5 : tensor<50000x128xf32> -> tensor<50000x128xf32>, in %137 = func.call @var(…) (record main_call4)
    StableHlo.TRef.unary (.of main_c_26 : StableHlo.TRef sig ⟨S_, .i32⟩) main_call4.v7 (sitofp .f32),  -- @var's %7 = stablehlo.convert %arg1 : (tensor<i32>) -> tensor<f32>, in %137 = func.call @var(…) (record main_call4)
    StableHlo.TRef.nullary main_call4.cst_1 (constant S_ .f32 0x47435000#32),  -- @var's %cst_1 = stablehlo.constant dense<5.000000e+04> : tensor<f32>, in %137 = func.call @var(…) (record main_call4)
    StableHlo.TRef.binary main_call4.cst_1 main_call4.v7 main_call4.v8 subf,  -- @var's %8 = stablehlo.subtract %cst_1, %7 : tensor<f32>, in %137 = func.call @var(…) (record main_call4)
    StableHlo.TRef.nullary main_call4.cst_2 (constant S_ .f32 0x00000000#32),  -- @var's %cst_2 = stablehlo.constant dense<0.000000e+00> : tensor<f32>, in %137 = func.call @var(…) (record main_call4)
    StableHlo.TRef.binary main_call4.v6 main_call4.cst_2 main_call4.v9 (fun x v => Host.reduceAdd x v reducesTo_S50000x128_S128_d0 h_S_),  -- @var's %9 = stablehlo.reduce(%6 init: %cst_2) applies stablehlo.add across dimensions = [0] : (tensor<50000x128xf32>, tensor<f32>) -> tensor<128xf32> {, in %137 = func.call @var(…) (record main_call4)
    StableHlo.TRef.unary main_call4.v8 main_call4.v10 (broadcastInDim S128 ![] bcast_S_S128),  -- @var's %10 = stablehlo.broadcast_in_dim %8, dims = [] : (tensor<f32>) -> tensor<128xf32>, in %137 = func.call @var(…) (record main_call4)
    StableHlo.TRef.binary main_call4.v9 main_call4.v10 main_call4.v11 Host.divf,  -- @var's %11 = stablehlo.divide %9, %10 : tensor<128xf32>, in %137 = func.call @var(…) (record main_call4)
    StableHlo.TRef.nullary main_call4.cst_3 (constant S_ .f32 0x00000000#32),  -- @var's %cst_3 = stablehlo.constant dense<0.000000e+00> : tensor<f32>, in %137 = func.call @var(…) (record main_call4)
    StableHlo.TRef.binary main_call4.v8 main_call4.cst_3 main_call4.v12 (cmpf .ogt),  -- @var's %12 = stablehlo.compare GT, %8, %cst_3, FLOAT : (tensor<f32>, tensor<f32>) -> tensor<i1>, in %137 = func.call @var(…) (record main_call4)
    StableHlo.TRef.nullary main_call4.cst_4 (constant S_ .f32 0x7FC00000#32),  -- @var's %cst_4 = stablehlo.constant dense<0x7FC00000> : tensor<f32>, in %137 = func.call @var(…) (record main_call4)
    StableHlo.TRef.unary main_call4.cst_4 main_call4.call0.v0 id,  -- @where_0's %0 = stablehlo.convert %arg2 : tensor<f32>, in %137 = func.call @var(…) (record main_call4)
    StableHlo.TRef.unary main_call4.call0.v0 main_call4.call0.v1 (broadcastInDim S128 ![] bcast_S_S128),  -- @where_0's %1 = stablehlo.broadcast_in_dim %0, dims = [] : (tensor<f32>) -> tensor<128xf32>, in %137 = func.call @var(…) (record main_call4)
    StableHlo.TRef.ternary main_call4.v12 main_call4.v11 main_call4.call0.v1 main_call4.call0.v2 (fun p a b => select (broadcastInDim S128 ![] bcast_S_S128 p) a b),  -- @where_0's %2 = stablehlo.select %arg0, %arg1, %1 : tensor<i1>, tensor<128xf32>, in %137 = func.call @var(…) (record main_call4)
    StableHlo.unary main_v136 main_v138 (broadcastInDim S1x128 ![1] bcast_S128_S1x128_1 : (⟨S128, .f32⟩ : BufTy).Contents (Elt F) → (⟨S1x128, .f32⟩ : BufTy).Contents (Elt F)),  -- %138 = stablehlo.broadcast_in_dim %136, dims = [1] : (tensor<128xf32>) -> tensor<1x128xf32>  @ reference:30
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),  -- %139 = stablehlo.broadcast_in_dim %138, dims = [0, 1] : (tensor<1x128xf32>) -> tensor<50000x128xf32>  @ reference:30
    StableHlo.binary main_v129 main_v139 main_v140 (subf : (⟨S50000x128, .f32⟩ : BufTy).Contents (Elt F) → (⟨S50000x128, .f32⟩ : BufTy).Contents (Elt F) → (⟨S50000x128, .f32⟩ : BufTy).Contents (Elt F)),  -- %140 = stablehlo.subtract %129, %139 : tensor<50000x128xf32>  @ reference:30
    StableHlo.nullary main_cst_27 (constant S_ .f32 0x3727C5AC#32),  -- %cst_27 = stablehlo.constant dense<9.99999974E-6> : tensor<f32>
    StableHlo.unary main_cst_27 main_v141 (broadcastInDim S128 ![] bcast_S_S128 : (⟨S_, .f32⟩ : BufTy).Contents (Elt F) → (⟨S128, .f32⟩ : BufTy).Contents (Elt F)),  -- %141 = stablehlo.broadcast_in_dim %cst_27, dims = [] : (tensor<f32>) -> tensor<128xf32>  @ reference:30
    StableHlo.binary main_v137 main_v141 main_v142 (addf : (⟨S128, .f32⟩ : BufTy).Contents (Elt F) → (⟨S128, .f32⟩ : BufTy).Contents (Elt F) → (⟨S128, .f32⟩ : BufTy).Contents (Elt F)),  -- %142 = stablehlo.add %137, %141 : tensor<128xf32>  @ reference:30
    StableHlo.unary main_v142 main_v143 (Host.rsqrt : (⟨S128, .f32⟩ : BufTy).Contents (Elt F) → (⟨S128, .f32⟩ : BufTy).Contents (Elt F)),  -- %143 = stablehlo.rsqrt %142 : tensor<128xf32>  @ reference:30
    StableHlo.unary main_v143 main_v144 (broadcastInDim S1x128 ![1] bcast_S128_S1x128_1 : (⟨S128, .f32⟩ : BufTy).Contents (Elt F) → (⟨S1x128, .f32⟩ : BufTy).Contents (Elt F)),  -- %144 = stablehlo.broadcast_in_dim %143, dims = [1] : (tensor<128xf32>) -> tensor<1x128xf32>  @ reference:30
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),  -- %145 = stablehlo.broadcast_in_dim %144, dims = [0, 1] : (tensor<1x128xf32>) -> tensor<50000x128xf32>  @ reference:30
    StableHlo.binary main_v140 main_v145 main_v146 (mulf : (⟨S50000x128, .f32⟩ : BufTy).Contents (Elt F) → (⟨S50000x128, .f32⟩ : BufTy).Contents (Elt F) → (⟨S50000x128, .f32⟩ : BufTy).Contents (Elt F)),  -- %146 = stablehlo.multiply %140, %145 : tensor<50000x128xf32>  @ reference:30
    StableHlo.unary main_v131 main_v147 (broadcastInDim S1x128 ![1] bcast_S128_S1x128_1 : (⟨S128, .f32⟩ : BufTy).Contents (Elt F) → (⟨S1x128, .f32⟩ : BufTy).Contents (Elt F)),  -- %147 = stablehlo.broadcast_in_dim %131, dims = [1] : (tensor<128xf32>) -> tensor<1x128xf32>  @ reference:31
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),  -- %148 = stablehlo.broadcast_in_dim %147, dims = [0, 1] : (tensor<1x128xf32>) -> tensor<50000x128xf32>  @ reference:31
    StableHlo.binary main_v146 main_v148 main_v149 (mulf : (⟨S50000x128, .f32⟩ : BufTy).Contents (Elt F) → (⟨S50000x128, .f32⟩ : BufTy).Contents (Elt F) → (⟨S50000x128, .f32⟩ : BufTy).Contents (Elt F)),  -- %149 = stablehlo.multiply %146, %148 : tensor<50000x128xf32>  @ reference:31
    StableHlo.unary main_v133 main_v150 (broadcastInDim S1x128 ![1] bcast_S128_S1x128_1 : (⟨S128, .f32⟩ : BufTy).Contents (Elt F) → (⟨S1x128, .f32⟩ : BufTy).Contents (Elt F)),  -- %150 = stablehlo.broadcast_in_dim %133, dims = [1] : (tensor<128xf32>) -> tensor<1x128xf32>  @ reference:31
    StableHlo.unary main_v150 main_v151 (broadcastInDim S50000x128 ![0, 1] bcast_S1x128_S50000x128_0_1 : (⟨S1x128, .f32⟩ : BufTy).Contents (Elt F) → (⟨S50000x128, .f32⟩ : BufTy).Contents (Elt F)),  -- %151 = stablehlo.broadcast_in_dim %150, dims = [0, 1] : (tensor<1x128xf32>) -> tensor<50000x128xf32>  @ reference:31
    StableHlo.binary main_v149 main_v151 main_v152 (addf : (⟨S50000x128, .f32⟩ : BufTy).Contents (Elt F) → (⟨S50000x128, .f32⟩ : BufTy).Contents (Elt F) → (⟨S50000x128, .f32⟩ : BufTy).Contents (Elt F)),  -- %152 = stablehlo.add %149, %151 : tensor<50000x128xf32>  @ reference:31
    StableHlo.TRef.nullary main_call5.cst (constant S_ .f32 0x00000000#32),  -- @relu's %cst = stablehlo.constant dense<0.000000e+00> : tensor<f32>, in %153 = func.call @relu(…) (record main_call5)
    StableHlo.TRef.unary main_call5.cst main_call5.v0 (broadcastInDim S50000x128 ![] bcast_S_S50000x128),  -- @relu's %0 = stablehlo.broadcast_in_dim %cst, dims = [] : (tensor<f32>) -> tensor<50000x128xf32>, in %153 = func.call @relu(…) (record main_call5)
    StableHlo.TRef.binary (.of main_v152 : StableHlo.TRef sig ⟨S50000x128, .f32⟩) main_call5.v0 main_call5.v1 maximumf ]  -- @relu's %1 = stablehlo.maximum %arg0, %0 : tensor<50000x128xf32>, in %153 = func.call @relu(…) (record main_call5)

set_option maxRecDepth 8192 in
/-- Every entry of `chunk2c` touches TensorCore buffers only: entry by entry, its builder's inclusion. -/
theorem chunk2c_sub : (chunk2c : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every entry of `chunk2c` determines what it writes: entry by entry, by computation. -/
theorem chunk2c_fresh : (chunk2c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.Ref.Ops3.lean ====
/- The reference program's host operations %154 … %226, in program order, as lists of operations: each entry is
   the printed operation of one line of @main, and where @main calls a module-local function the callee's operations stand in the
   call's place, over the call's operands and the call's own buffers (inlining is substitution). Running the entries in order is
   running that stretch of @main; folding their results over the buffers' contents gives the contents after it. -/
import proofs.«169164_j46703474376898_1_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 235 … 240 of 479 (%154 … %159): layer 3's head: its weight and bias rows, the product of the layer's input with its weight, and the node indices. -/
abbrev chunk3a : List (HloOp τ sig (Elt F)) :=
  [ StableHlo.unary main_arg9 main_v154 ((extractStridedSlice S1x128x128 ![0, 0, 0] · slices_S2x128x128_S1x128x128_0_0_0) : (⟨S2x128x128, .f32⟩ : BufTy).Contents (Elt F) → (⟨S1x128x128, .f32⟩ : BufTy).Contents (Elt F)),  -- %154 = stablehlo.slice %arg9 [0:1, 0:128, 0:128] : (tensor<2x128x128xf32>) -> tensor<1x128x128xf32>  @ reference:74
    StableHlo.reshape main_v154 main_v155 rfl shapeCasts_S1x128x128_S128x128,  -- %155 = stablehlo.reshape %154 : (tensor<1x128x128xf32>) -> tensor<128x128xf32>  @ reference:74
    StableHlo.unary main_arg10 main_v156 ((extractStridedSlice S1x128 ![0, 0] · slices_S2x128_S1x128_0_0) : (⟨S2x128, .f32⟩ : BufTy).Contents (Elt F) → (⟨S1x128, .f32⟩ : BufTy).Contents (Elt F)),  -- %156 = stablehlo.slice %arg10 [0:1, 0:128] : (tensor<2x128xf32>) -> tensor<1x128xf32>  @ reference:74
    StableHlo.reshape main_v156 main_v157 rfl shapeCasts_S1x128_S128,  -- %157 = stablehlo.reshape %156 : (tensor<1x128xf32>) -> tensor<128xf32>  @ reference:74
    StableHlo.binary main_arg0 main_v155 main_v158 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %158 = stablehlo.dot_general %arg0, %155, contracting_dims = [1] x [0], precision = [DEFAULT, DEFAULT] : (tensor<50000x128xf32>, tensor<128x128xf32>) -> tensor<50000x128xf32>  @ reference:13
    StableHlo.nullary main_v159 (iotaInDim S50000 32 0) ]  -- %159 = stablehlo.iota dim = 0 : tensor<50000xi32>  @ reference:14

set_option maxRecDepth 8192 in
/-- Every entry of `chunk3a` touches TensorCore buffers only: entry by entry, its builder's inclusion. -/
theorem chunk3a_sub : (chunk3a : List (HloOp τ sig (Elt F))).Forall fun op => op.bufs ⊆ tcRefs τ sig :=
  ⟨unary_bufs_sub .., reshape_bufs_sub .., unary_bufs_sub .., reshape_bufs_sub .., binary_bufs_sub .., nullary_bufs_sub ..⟩

set_option maxRecDepth 8192 in
/-- Every entry of `chunk3a` determines what it writes: entry by entry, by computation. -/
theorem chunk3a_fresh : (chunk3a : List (HloOp τ sig (Elt F))).Forall fun op => op.fresh = ∅ :=
  ⟨rfl, rfl, rfl, rfl, rfl, rfl⟩

set_option maxHeartbeats 4000000 in
/-- Operations 241 … 296 of 479 (%160 … %202): layer 3's graph convolution: the edge lists with self-loops appended, the degrees and the symmetric normalisation, the gathered and weighted messages summed per node, the bias added. -/
abbrev chunk3b : List (HloOp τ sig (Elt F)) :=
  [ StableHlo.binary main_v5 main_v159 main_v160 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %160 = stablehlo.concatenate %5, %159, dim = 0 : (tensor<800000xi32>, tensor<50000xi32>) -> tensor<850000xi32>  @ reference:15
    StableHlo.binary main_v7 main_v159 main_v161 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %161 = stablehlo.concatenate %7, %159, dim = 0 : (tensor<800000xi32>, tensor<50000xi32>) -> tensor<850000xi32>  @ reference:16
    StableHlo.nullary main_cst_28 (constant S_ .f32 0x3F800000#32),  -- %cst_28 = stablehlo.constant dense<1.000000e+00> : tensor<f32>
    StableHlo.unary main_cst_28 main_v162 (broadcastInDim S50000 ![] bcast_S_S50000 : (⟨S_, .f32⟩ : BufTy).Contents (Elt F) → (⟨S50000, .f32⟩ : BufTy).Contents (Elt F)),  -- %162 = stablehlo.broadcast_in_dim %cst_28, dims = [] : (tensor<f32>) -> tensor<50000xf32>  @ reference:17
    StableHlo.binary main_arg4 main_v162 main_v163 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),  -- %163 = stablehlo.concatenate %arg4, %162, dim = 0 : (tensor<800000xf32>, tensor<50000xf32>) -> tensor<850000xf32>  @ reference:17
    StableHlo.nullary main_cst_29 (constant S_ .f32 0x00000000#32),  -- %cst_29 = stablehlo.constant dense<0.000000e+00> : tensor<f32>
    StableHlo.unary main_cst_29 main_v164 (broadcastInDim S50000 ![] bcast_S_S50000 : (⟨S_, .f32⟩ : BufTy).Contents (Elt F) → (⟨S50000, .f32⟩ : BufTy).Contents (Elt F)),  -- %164 = stablehlo.broadcast_in_dim %cst_29, dims = [] : (tensor<f32>) -> tensor<50000xf32>  @ reference:18
    StableHlo.unary main_v161 main_v165 (broadcastInDim S850000x1 ![0] bcast_S850000_S850000x1_0 : (⟨S850000, .i32⟩ : BufTy).Contents (Elt F) → (⟨S850000x1, .i32⟩ : BufTy).Contents (Elt F)),  -- %165 = stablehlo.broadcast_in_dim %161, dims = [0] : (tensor<850000xi32>) -> tensor<850000x1xi32>  @ reference:18
    StableHlo.ternary main_v164 main_v165 main_v163 main_v166 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),  -- %166 = "stablehlo.scatter"(%164, %165, %163) <{indices_are_sorted = false, scatter_dimension_numbers = #stablehlo.scatter<inserted_window_dims = [0], scatter_dims_to_operand_dims = [0], index_vector_dim = 1>, unique_indices = false}> ( {  @ reference:18
    StableHlo.nullary main_cst_30 (constant S_ .f32 0x00000000#32),  -- %cst_30 = stablehlo.constant dense<0.000000e+00> : tensor<f32>
    StableHlo.unary main_cst_30 main_v167 (broadcastInDim S50000 ![] bcast_S_S50000 : (⟨S_, .f32⟩ : BufTy).Contents (Elt F) → (⟨S50000, .f32⟩ : BufTy).Contents (Elt F)),  -- %167 = stablehlo.broadcast_in_dim %cst_30, dims = [] : (tensor<f32>) -> tensor<50000xf32>  @ reference:19
    StableHlo.binary main_v166 main_v167 main_v168 (cmpf .ogt : (⟨S50000, .f32⟩ : BufTy).Contents (Elt F) → (⟨S50000, .f32⟩ : BufTy).Contents (Elt F) → (⟨S50000, .i1⟩ : BufTy).Contents (Elt F)),  -- %168 = stablehlo.compare GT, %166, %167, FLOAT : (tensor<50000xf32>, tensor<50000xf32>) -> tensor<50000xi1>  @ reference:19
    StableHlo.unary main_v166 main_v169 (Host.rsqrt : (⟨S50000, .f32⟩ : BufTy).Contents (Elt F) → (⟨S50000, .f32⟩ : BufTy).Contents (Elt F)),  -- %169 = stablehlo.rsqrt %166 : tensor<50000xf32>  @ reference:19
    StableHlo.nullary main_cst_31 (constant S_ .f32 0x00000000#32),  -- %cst_31 = stablehlo.constant dense<0.000000e+00> : tensor<f32>
    StableHlo.TRef.unary (.of main_cst_31 : StableHlo.TRef sig ⟨S_, .f32⟩) main_call6.v0 id,  -- @where's %0 = stablehlo.convert %arg2 : tensor<f32>, in %170 = func.call @where(…) (record main_call6)
    StableHlo.TRef.unary main_call6.v0 main_call6.v1 (broadcastInDim S50000 ![] bcast_S_S50000),  -- @where's %1 = stablehlo.broadcast_in_dim %0, dims = [] : (tensor<f32>) -> tensor<50000xf32>, in %170 = func.call @where(…) (record main_call6)
    StableHlo.TRef.ternary (.of main_v168 : StableHlo.TRef sig ⟨S50000, .i1⟩) (.of main_v169 : StableHlo.TRef sig ⟨S50000, .f32⟩) main_call6.v1 main_call6.v2 select,  -- @where's %2 = stablehlo.select %arg0, %arg1, %1 : tensor<50000xi1>, tensor<50000xf32>, in %170 = func.call @where(…) (record main_call6)
    StableHlo.nullary main_c_32 (constantI S_ 32 0#32),  -- %c_32 = stablehlo.constant dense<0> : tensor<i32>
    StableHlo.unary main_c_32 main_v171 (broadcastInDim S850000 ![] bcast_S_S850000 : (⟨S_, .i32⟩ : BufTy).Contents (Elt F) → (⟨S850000, .i32⟩ : BufTy).Contents (Elt F)),  -- %171 = stablehlo.broadcast_in_dim %c_32, dims = [] : (tensor<i32>) -> tensor<850000xi32>  @ reference:20
    StableHlo.binary main_v160 main_v171 main_v172 (cmpi .slt : (⟨S850000, .i32⟩ : BufTy).Contents (Elt F) → (⟨S850000, .i32⟩ : BufTy).Contents (Elt F) → (⟨S850000, .i1⟩ : BufTy).Contents (Elt F)),  -- %172 = stablehlo.compare LT, %160, %171, SIGNED : (tensor<850000xi32>, tensor<850000xi32>) -> tensor<850000xi1>  @ reference:20
    StableHlo.nullary main_c_33 (constantI S_ 32 50000#32),  -- %c_33 = stablehlo.constant dense<50000> : tensor<i32>
    StableHlo.unary main_c_33 main_v173 (broadcastInDim S850000 ![] bcast_S_S850000 : (⟨S_, .i32⟩ : BufTy).Contents (Elt F) → (⟨S850000, .i32⟩ : BufTy).Contents (Elt F)),  -- %173 = stablehlo.broadcast_in_dim %c_33, dims = [] : (tensor<i32>) -> tensor<850000xi32>  @ reference:20
    StableHlo.binary main_v160 main_v173 main_v174 (addi : (⟨S850000, .i32⟩ : BufTy).Contents (Elt F) → (⟨S850000, .i32⟩ : BufTy).Contents (Elt F) → (⟨S850000, .i32⟩ : BufTy).Contents (Elt F)),  -- %174 = stablehlo.add %160, %173 : tensor<850000xi32>  @ reference:20
    StableHlo.ternary main_v172 main_v174 main_v160 main_v175 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %175 = stablehlo.select %172, %174, %160 : tensor<850000xi1>, tensor<850000xi32>  @ reference:20
    StableHlo.unary main_v175 main_v176 (broadcastInDim S850000x1 ![0] bcast_S850000_S850000x1_0 : (⟨S850000, .i32⟩ : BufTy).Contents (Elt F) → (⟨S850000x1, .i32⟩ : BufTy).Contents (Elt F)),  -- %176 = stablehlo.broadcast_in_dim %175, dims = [0] : (tensor<850000xi32>) -> tensor<850000x1xi32>  @ reference:20
    StableHlo.binary main_v170 main_v176 main_v177 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %177 = "stablehlo.gather"(%170, %176) <{dimension_numbers = #stablehlo.gather<collapsed_slice_dims = [0], start_index_map = [0], index_vector_dim = 1>, indices_are_sorted = false, slice_sizes = array<i64: 1>}> : (tensor<50000xf32>, tensor<850000x1xi32>) -> tensor<850000xf32>  @ reference:20
    StableHlo.binary main_v177 main_v163 main_v178 (mulf : (⟨S850000, .f32⟩ : BufTy).Contents (Elt F) → (⟨S850000, .f32⟩ : BufTy).Contents (Elt F) → (⟨S850000, .f32⟩ : BufTy).Contents (Elt F)),  -- %178 = stablehlo.multiply %177, %163 : tensor<850000xf32>  @ reference:20
    StableHlo.nullary main_c_34 (constantI S_ 32 0#32),  -- %c_34 = stablehlo.constant dense<0> : tensor<i32>
    StableHlo.unary main_c_34 main_v179 (broadcastInDim S850000 ![] bcast_S_S850000 : (⟨S_, .i32⟩ : BufTy).Contents (Elt F) → (⟨S850000, .i32⟩ : BufTy).Contents (Elt F)),  -- %179 = stablehlo.broadcast_in_dim %c_34, dims = [] : (tensor<i32>) -> tensor<850000xi32>  @ reference:20
    StableHlo.binary main_v161 main_v179 main_v180 (cmpi .slt : (⟨S850000, .i32⟩ : BufTy).Contents (Elt F) → (⟨S850000, .i32⟩ : BufTy).Contents (Elt F) → (⟨S850000, .i1⟩ : BufTy).Contents (Elt F)),  -- %180 = stablehlo.compare LT, %161, %179, SIGNED : (tensor<850000xi32>, tensor<850000xi32>) -> tensor<850000xi1>  @ reference:20
    StableHlo.nullary main_c_35 (constantI S_ 32 50000#32),  -- %c_35 = stablehlo.constant dense<50000> : tensor<i32>
    StableHlo.unary main_c_35 main_v181 (broadcastInDim S850000 ![] bcast_S_S850000 : (⟨S_, .i32⟩ : BufTy).Contents (Elt F) → (⟨S850000, .i32⟩ : BufTy).Contents (Elt F)),  -- %181 = stablehlo.broadcast_in_dim %c_35, dims = [] : (tensor<i32>) -> tensor<850000xi32>  @ reference:20
    StableHlo.binary main_v161 main_v181 main_v182 (addi : (⟨S850000, .i32⟩ : BufTy).Contents (Elt F) → (⟨S850000, .i32⟩ : BufTy).Contents (Elt F) → (⟨S850000, .i32⟩ : BufTy).Contents (Elt F)),  -- %182 = stablehlo.add %161, %181 : tensor<850000xi32>  @ reference:20
    StableHlo.ternary main_v180 main_v182 main_v161 main_v183 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %183 = stablehlo.select %180, %182, %161 : tensor<850000xi1>, tensor<850000xi32>  @ reference:20
    StableHlo.unary main_v183 main_v184 (broadcastInDim S850000x1 ![0] bcast_S850000_S850000x1_0 : (⟨S850000, .i32⟩ : BufTy).Contents (Elt F) → (⟨S850000x1, .i32⟩ : BufTy).Contents (Elt F)),  -- %184 = stablehlo.broadcast_in_dim %183, dims = [0] : (tensor<850000xi32>) -> tensor<850000x1xi32>  @ reference:20
    StableHlo.binary main_v170 main_v184 main_v185 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %185 = "stablehlo.gather"(%170, %184) <{dimension_numbers = #stablehlo.gather<collapsed_slice_dims = [0], start_index_map = [0], index_vector_dim = 1>, indices_are_sorted = false, slice_sizes = array<i64: 1>}> : (tensor<50000xf32>, tensor<850000x1xi32>) -> tensor<850000xf32>  @ reference:20
    StableHlo.binary main_v178 main_v185 main_v186 (mulf : (⟨S850000, .f32⟩ : BufTy).Contents (Elt F) → (⟨S850000, .f32⟩ : BufTy).Contents (Elt F) → (⟨S850000, .f32⟩ : BufTy).Contents (Elt F)),  -- %186 = stablehlo.multiply %178, %185 : tensor<850000xf32>  @ reference:20
    StableHlo.nullary main_c_36 (constantI S_ 32 0#32),  -- %c_36 = stablehlo.constant dense<0> : tensor<i32>
    StableHlo.unary main_c_36 main_v187 (broadcastInDim S850000 ![] bcast_S_S850000 : (⟨S_, .i32⟩ : BufTy).Contents (Elt F) → (⟨S850000, .i32⟩ : BufTy).Contents (Elt F)),  -- %187 = stablehlo.broadcast_in_dim %c_36, dims = [] : (tensor<i32>) -> tensor<850000xi32>  @ reference:21
    StableHlo.binary main_v160 main_v187 main_v188 (cmpi .slt : (⟨S850000, .i32⟩ : BufTy).Contents (Elt F) → (⟨S850000, .i32⟩ : BufTy).Contents (Elt F) → (⟨S850000, .i1⟩ : BufTy).Contents (Elt F)),  -- %188 = stablehlo.compare LT, %160, %187, SIGNED : (tensor<850000xi32>, tensor<850000xi32>) -> tensor<850000xi1>  @ reference:21
    StableHlo.nullary main_c_37 (constantI S_ 32 50000#32),  -- %c_37 = stablehlo.constant dense<50000> : tensor<i32>
    StableHlo.unary main_c_37 main_v189 (broadcastInDim S850000 ![] bcast_S_S850000 : (⟨S_, .i32⟩ : BufTy).Contents (Elt F) → (⟨S850000, .i32⟩ : BufTy).Contents (Elt F)),  -- %189 = stablehlo.broadcast_in_dim %c_37, dims = [] : (tensor<i32>) -> tensor<850000xi32>  @ reference:21
    StableHlo.binary main_v160 main_v189 main_v190 (addi : (⟨S850000, .i32⟩ : BufTy).Contents (Elt F) → (⟨S850000, .i32⟩ : BufTy).Contents (Elt F) → (⟨S850000, .i32⟩ : BufTy).Contents (Elt F)),  -- %190 = stablehlo.add %160, %189 : tensor<850000xi32>  @ reference:21
    StableHlo.ternary main_v188 main_v190 main_v160 main_v191 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %191 = stablehlo.select %188, %190, %160 : tensor<850000xi1>, tensor<850000xi32>  @ reference:21
    StableHlo.unary main_v191 main_v192 (broadcastInDim S850000x1 ![0] bcast_S850000_S850000x1_0 : (⟨S850000, .i32⟩ : BufTy).Contents (Elt F) → (⟨S850000x1, .i32⟩ : BufTy).Contents (Elt F)),  -- %192 = stablehlo.broadcast_in_dim %191, dims = [0] : (tensor<850000xi32>) -> tensor<850000x1xi32>  @ reference:21
    StableHlo.binary main_v158 main_v192 main_v193 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %193 = "stablehlo.gather"(%158, %192) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>  @ reference:21
    StableHlo.unary main_v186 main_v194 (broadcastInDim S850000x1 ![0] bcast_S850000_S850000x1_0 : (⟨S850000, .f32⟩ : BufTy).Contents (Elt F) → (⟨S850000x1, .f32⟩ : BufTy).Contents (Elt F)),  -- %194 = stablehlo.broadcast_in_dim %186, dims = [0] : (tensor<850000xf32>) -> tensor<850000x1xf32>  @ reference:21
    StableHlo.unary main_v194 main_v195 (broadcastInDim S850000x128 ![0, 1] bcast_S850000x1_S850000x128_0_1 : (⟨S850000x1, .f32⟩ : BufTy).Contents (Elt F) → (⟨S850000x128, .f32⟩ : BufTy).Contents (Elt F)),  -- %195 = stablehlo.broadcast_in_dim %194, dims = [0, 1] : (tensor<850000x1xf32>) -> tensor<850000x128xf32>  @ reference:21
    StableHlo.binary main_v193 main_v195 main_v196 (mulf : (⟨S850000x128, .f32⟩ : BufTy).Contents (Elt F) → (⟨S850000x128, .f32⟩ : BufTy).Contents (Elt F) → (⟨S850000x128, .f32⟩ : BufTy).Contents (Elt F)),  -- %196 = stablehlo.multiply %193, %195 : tensor<850000x128xf32>  @ reference:21
    StableHlo.nullary main_cst_38 (constant S_ .f32 0x00000000#32),  -- %cst_38 = stablehlo.constant dense<0.000000e+00> : tensor<f32>
    StableHlo.unary main_cst_38 main_v197 (broadcastInDim S50000x128 ![] bcast_S_S50000x128 : (⟨S_, .f32⟩ : BufTy).Contents (Elt F) → (⟨S50000x128, .f32⟩ : BufTy).Contents (Elt F)),  -- %197 = stablehlo.broadcast_in_dim %cst_38, dims = [] : (tensor<f32>) -> tensor<50000x128xf32>  @ reference:22
    StableHlo.unary main_v161 main_v198 (broadcastInDim S850000x1 ![0] bcast_S850000_S850000x1_0 : (⟨S850000, .i32⟩ : BufTy).Contents (Elt F) → (⟨S850000x1, .i32⟩ : BufTy).Contents (Elt F)),  -- %198 = stablehlo.broadcast_in_dim %161, dims = [0] : (tensor<850000xi32>) -> tensor<850000x1xi32>  @ reference:22
    StableHlo.ternary main_v197 main_v198 main_v196 main_v199 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),  -- %199 = "stablehlo.scatter"(%197, %198, %196) <{indices_are_sorted = false, scatter_dimension_numbers = #stablehlo.scatter<update_window_dims = [1], inserted_window_dims = [0], scatter_dims_to_operand_dims = [0], index_vector_dim = 1>, unique_indices = false}> ( {  @ reference:22
    StableHlo.unary main_v157 main_v200 (broadcastInDim S1x128 ![1] bcast_S128_S1x128_1 : (⟨S128, .f32⟩ : BufTy).Contents (Elt F) → (⟨S1x128, .f32⟩ : BufTy).Contents (Elt F)),  -- %200 = stablehlo.broadcast_in_dim %157, dims = [1] : (tensor<128xf32>) -> tensor<1x128xf32>  @ reference:23
    StableHlo.unary main_v200 main_v201 (broadcastInDim S50000x128 ![0, 1] bcast_S1x128_S50000x128_0_1 : (⟨S1x128, .f32⟩ : BufTy).Contents (Elt F) → (⟨S50000x128, .f32⟩ : BufTy).Contents (Elt F)),  -- %201 = stablehlo.broadcast_in_dim %200, dims = [0, 1] : (tensor<1x128xf32>) -> tensor<50000x128xf32>  @ reference:23
    StableHlo.binary main_v199 main_v201 main_v202 (addf : (⟨S50000x128, .f32⟩ : BufTy).Contents (Elt F) → (⟨S50000x128, .f32⟩ : BufTy).Contents (Elt F) → (⟨S50000x128, .f32⟩ : BufTy).Contents (Elt F)) ]  -- %202 = stablehlo.add %199, %201 : tensor<50000x128xf32>  @ reference:23

set_option maxRecDepth 8192 in
/-- Every entry of `chunk3b` touches TensorCore buffers only: entry by entry, its builder's inclusion. -/
theorem chunk3b_sub : (chunk3b : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- Every entry of `chunk3b` determines what it writes: entry by entry, by computation. -/
theorem chunk3b_fresh : (chunk3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
/-- Operations 297 … 347 of 479 (%203 … %226): layer 3's batch normalisation (mean, variance, scale and shift) and its rectifier. -/
abbrev chunk3c : List (HloOp τ sig (Elt F)) :=
  [ StableHlo.unary main_arg11 main_v203 ((extractStridedSlice S1x128 ![0, 0] · slices_S2x128_S1x128_0_0) : (⟨S2x128, .f32⟩ : BufTy).Contents (Elt F) → (⟨S1x128, .f32⟩ : BufTy).Contents (Elt F)),  -- %203 = stablehlo.slice %arg11 [0:1, 0:128] : (tensor<2x128xf32>) -> tensor<1x128xf32>  @ reference:75
    StableHlo.reshape main_v203 main_v204 rfl shapeCasts_S1x128_S128,  -- %204 = stablehlo.reshape %203 : (tensor<1x128xf32>) -> tensor<128xf32>  @ reference:75
    StableHlo.unary main_arg12 main_v205 ((extractStridedSlice S1x128 ![0, 0] · slices_S2x128_S1x128_0_0) : (⟨S2x128, .f32⟩ : BufTy).Contents (Elt F) → (⟨S1x128, .f32⟩ : BufTy).Contents (Elt F)),  -- %205 = stablehlo.slice %arg12 [0:1, 0:128] : (tensor<2x128xf32>) -> tensor<1x128xf32>  @ reference:75
    StableHlo.reshape main_v205 main_v206 rfl shapeCasts_S1x128_S128,  -- %206 = stablehlo.reshape %205 : (tensor<1x128xf32>) -> tensor<128xf32>  @ reference:75
    StableHlo.nullary main_cst_39 (constant S_ .f32 0x00000000#32),  -- %cst_39 = stablehlo.constant dense<0.000000e+00> : tensor<f32>
    StableHlo.binary main_v202 main_cst_39 main_v207 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),  -- %207 = stablehlo.reduce(%202 init: %cst_39) applies stablehlo.add across dimensions = [0] : (tensor<50000x128xf32>, tensor<f32>) -> tensor<128xf32> {  @ reference:28
    StableHlo.nullary main_cst_40 (constant S_ .f32 0x47435000#32),  -- %cst_40 = stablehlo.constant dense<5.000000e+04> : tensor<f32>
    StableHlo.unary main_cst_40 main_v208 (broadcastInDim S128 ![] bcast_S_S128 : (⟨S_, .f32⟩ : BufTy).Contents (Elt F) → (⟨S128, .f32⟩ : BufTy).Contents (Elt F)),  -- %208 = stablehlo.broadcast_in_dim %cst_40, dims = [] : (tensor<f32>) -> tensor<128xf32>  @ reference:28
    StableHlo.binary main_v207 main_v208 main_v209 (Host.divf : (⟨S128, .f32⟩ : BufTy).Contents (Elt F) → (⟨S128, .f32⟩ : BufTy).Contents (Elt F) → (⟨S128, .f32⟩ : BufTy).Contents (Elt F)),  -- %209 = stablehlo.divide %207, %208 : tensor<128xf32>  @ reference:28
    StableHlo.nullary main_c_41 (constantI S_ 32 0#32),  -- %c_41 = stablehlo.constant dense<0> : tensor<i32>
    StableHlo.TRef.nullary main_call7.cst (constant S_ .f32 0x00000000#32),  -- @var's %cst = stablehlo.constant dense<0.000000e+00> : tensor<f32>, in %210 = func.call @var(…) (record main_call7)
    StableHlo.TRef.binary (.of main_v202 : StableHlo.TRef sig ⟨S50000x128, .f32⟩) main_call7.cst main_call7.v0 (fun x v => Host.reduceAdd x v reducesTo_S50000x128_S128_d0 h_S_),  -- @var's %0 = stablehlo.reduce(%arg0 init: %cst) applies stablehlo.add across dimensions = [0] : (tensor<50000x128xf32>, tensor<f32>) -> tensor<128xf32> {, in %210 = func.call @var(…) (record main_call7)
    StableHlo.TRef.unary main_call7.v0 main_call7.v1 (broadcastInDim S1x128 ![1] bcast_S128_S1x128_1),  -- @var's %1 = stablehlo.broadcast_in_dim %0, dims = [1] : (tensor<128xf32>) -> tensor<1x128xf32>, in %210 = func.call @var(…) (record main_call7)
    StableHlo.TRef.nullary main_call7.cst_0 (constant S_ .f32 0x47435000#32),  -- @var's %cst_0 = stablehlo.constant dense<5.000000e+04> : tensor<f32>, in %210 = func.call @var(…) (record main_call7)
    StableHlo.TRef.unary main_call7.cst_0 main_call7.v2 (broadcastInDim S1x128 ![] bcast_S_S1x128),  -- @var's %2 = stablehlo.broadcast_in_dim %cst_0, dims = [] : (tensor<f32>) -> tensor<1x128xf32>, in %210 = func.call @var(…) (record main_call7)
    StableHlo.TRef.binary main_call7.v1 main_call7.v2 main_call7.v3 Host.divf,  -- @var's %3 = stablehlo.divide %1, %2 : tensor<1x128xf32>, in %210 = func.call @var(…) (record main_call7)
    StableHlo.TRef.unary main_call7.v3 main_call7.v4 (broadcastInDim S50000x128 ![0, 1] bcast_S1x128_S50000x128_0_1),  -- @var's %4 = stablehlo.broadcast_in_dim %3, dims = [0, 1] : (tensor<1x128xf32>) -> tensor<50000x128xf32>, in %210 = func.call @var(…) (record main_call7)
    StableHlo.TRef.binary (.of main_v202 : StableHlo.TRef sig ⟨S50000x128, .f32⟩) main_call7.v4 main_call7.v5 subf,  -- @var's %5 = stablehlo.subtract %arg0, %4 : tensor<50000x128xf32>, in %210 = func.call @var(…) (record main_call7)
    StableHlo.TRef.binary main_call7.v5 main_call7.v5 main_call7.v6 mulf,  -- @var's %6 = chlo.square %5 : tensor<50000x128xf32> -> tensor<50000x128xf32>, in %210 = func.call @var(…) (record main_call7)
    StableHlo.TRef.unary (.of main_c_41 : StableHlo.TRef sig ⟨S_, .i32⟩) main_call7.v7 (sitofp .f32),  -- @var's %7 = stablehlo.convert %arg1 : (tensor<i32>) -> tensor<f32>, in %210 = func.call @var(…) (record main_call7)
    StableHlo.TRef.nullary main_call7.cst_1 (constant S_ .f32 0x47435000#32),  -- @var's %cst_1 = stablehlo.constant dense<5.000000e+04> : tensor<f32>, in %210 = func.call @var(…) (record main_call7)
    StableHlo.TRef.binary main_call7.cst_1 main_call7.v7 main_call7.v8 subf,  -- @var's %8 = stablehlo.subtract %cst_1, %7 : tensor<f32>, in %210 = func.call @var(…) (record main_call7)
    StableHlo.TRef.nullary main_call7.cst_2 (constant S_ .f32 0x00000000#32),  -- @var's %cst_2 = stablehlo.constant dense<0.000000e+00> : tensor<f32>, in %210 = func.call @var(…) (record main_call7)
    StableHlo.TRef.binary main_call7.v6 main_call7.cst_2 main_call7.v9 (fun x v => Host.reduceAdd x v reducesTo_S50000x128_S128_d0 h_S_),  -- @var's %9 = stablehlo.reduce(%6 init: %cst_2) applies stablehlo.add across dimensions = [0] : (tensor<50000x128xf32>, tensor<f32>) -> tensor<128xf32> {, in %210 = func.call @var(…) (record main_call7)
    StableHlo.TRef.unary main_call7.v8 main_call7.v10 (broadcastInDim S128 ![] bcast_S_S128),  -- @var's %10 = stablehlo.broadcast_in_dim %8, dims = [] : (tensor<f32>) -> tensor<128xf32>, in %210 = func.call @var(…) (record main_call7)
    StableHlo.TRef.binary main_call7.v9 main_call7.v10 main_call7.v11 Host.divf,  -- @var's %11 = stablehlo.divide %9, %10 : tensor<128xf32>, in %210 = func.call @var(…) (record main_call7)
    StableHlo.TRef.nullary main_call7.cst_3 (constant S_ .f32 0x00000000#32),  -- @var's %cst_3 = stablehlo.constant dense<0.000000e+00> : tensor<f32>, in %210 = func.call @var(…) (record main_call7)
    StableHlo.TRef.binary main_call7.v8 main_call7.cst_3 main_call7.v12 (cmpf .ogt),  -- @var's %12 = stablehlo.compare GT, %8, %cst_3, FLOAT : (tensor<f32>, tensor<f32>) -> tensor<i1>, in %210 = func.call @var(…) (record main_call7)
    StableHlo.TRef.nullary main_call7.cst_4 (constant S_ .f32 0x7FC00000#32),  -- @var's %cst_4 = stablehlo.constant dense<0x7FC00000> : tensor<f32>, in %210 = func.call @var(…) (record main_call7)
    StableHlo.TRef.unary main_call7.cst_4 main_call7.call0.v0 id,  -- @where_0's %0 = stablehlo.convert %arg2 : tensor<f32>, in %210 = func.call @var(…) (record main_call7)
    StableHlo.TRef.unary main_call7.call0.v0 main_call7.call0.v1 (broadcastInDim S128 ![] bcast_S_S128),  -- @where_0's %1 = stablehlo.broadcast_in_dim %0, dims = [] : (tensor<f32>) -> tensor<128xf32>, in %210 = func.call @var(…) (record main_call7)
    StableHlo.TRef.ternary main_call7.v12 main_call7.v11 main_call7.call0.v1 main_call7.call0.v2 (fun p a b => select (broadcastInDim S128 ![] bcast_S_S128 p) a b),  -- @where_0's %2 = stablehlo.select %arg0, %arg1, %1 : tensor<i1>, tensor<128xf32>, in %210 = func.call @var(…) (record main_call7)
    StableHlo.unary main_v209 main_v211 (broadcastInDim S1x128 ![1] bcast_S128_S1x128_1 : (⟨S128, .f32⟩ : BufTy).Contents (Elt F) → (⟨S1x128, .f32⟩ : BufTy).Contents (Elt F)),  -- %211 = stablehlo.broadcast_in_dim %209, dims = [1] : (tensor<128xf32>) -> tensor<1x128xf32>  @ reference:30
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),  -- %212 = stablehlo.broadcast_in_dim %211, dims = [0, 1] : (tensor<1x128xf32>) -> tensor<50000x128xf32>  @ reference:30
    StableHlo.binary main_v202 main_v212 main_v213 (subf : (⟨S50000x128, .f32⟩ : BufTy).Contents (Elt F) → (⟨S50000x128, .f32⟩ : BufTy).Contents (Elt F) → (⟨S50000x128, .f32⟩ : BufTy).Contents (Elt F)),  -- %213 = stablehlo.subtract %202, %212 : tensor<50000x128xf32>  @ reference:30
    StableHlo.nullary main_cst_42 (constant S_ .f32 0x3727C5AC#32),  -- %cst_42 = stablehlo.constant dense<9.99999974E-6> : tensor<f32>
    StableHlo.unary main_cst_42 main_v214 (broadcastInDim S128 ![] bcast_S_S128 : (⟨S_, .f32⟩ : BufTy).Contents (Elt F) → (⟨S128, .f32⟩ : BufTy).Contents (Elt F)),  -- %214 = stablehlo.broadcast_in_dim %cst_42, dims = [] : (tensor<f32>) -> tensor<128xf32>  @ reference:30
    StableHlo.binary main_v210 main_v214 main_v215 (addf : (⟨S128, .f32⟩ : BufTy).Contents (Elt F) → (⟨S128, .f32⟩ : BufTy).Contents (Elt F) → (⟨S128, .f32⟩ : BufTy).Contents (Elt F)),  -- %215 = stablehlo.add %210, %214 : tensor<128xf32>  @ reference:30
    StableHlo.unary main_v215 main_v216 (Host.rsqrt : (⟨S128, .f32⟩ : BufTy).Contents (Elt F) → (⟨S128, .f32⟩ : BufTy).Contents (Elt F)),  -- %216 = stablehlo.rsqrt %215 : tensor<128xf32>  @ reference:30
    StableHlo.unary main_v216 main_v217 (broadcastInDim S1x128 ![1] bcast_S128_S1x128_1 : (⟨S128, .f32⟩ : BufTy).Contents (Elt F) → (⟨S1x128, .f32⟩ : BufTy).Contents (Elt F)),  -- %217 = stablehlo.broadcast_in_dim %216, dims = [1] : (tensor<128xf32>) -> tensor<1x128xf32>  @ reference:30
    StableHlo.unary main_v217 main_v218 (broadcastInDim S50000x128 ![0, 1] bcast_S1x128_S50000x128_0_1 : (⟨S1x128, .f32⟩ : BufTy).Contents (Elt F) → (⟨S50000x128, .f32⟩ : BufTy).Contents (Elt F)),  -- %218 = stablehlo.broadcast_in_dim %217, dims = [0, 1] : (tensor<1x128xf32>) -> tensor<50000x128xf32>  @ reference:30
    StableHlo.binary main_v213 main_v218 main_v219 (mulf : (⟨S50000x128, .f32⟩ : BufTy).Contents (Elt F) → (⟨S50000x128, .f32⟩ : BufTy).Contents (Elt F) → (⟨S50000x128, .f32⟩ : BufTy).Contents (Elt F)),  -- %219 = stablehlo.multiply %213, %218 : tensor<50000x128xf32>  @ reference:30
    StableHlo.unary main_v204 main_v220 (broadcastInDim S1x128 ![1] bcast_S128_S1x128_1 : (⟨S128, .f32⟩ : BufTy).Contents (Elt F) → (⟨S1x128, .f32⟩ : BufTy).Contents (Elt F)),  -- %220 = stablehlo.broadcast_in_dim %204, dims = [1] : (tensor<128xf32>) -> tensor<1x128xf32>  @ reference:31
    StableHlo.unary main_v220 main_v221 (broadcastInDim S50000x128 ![0, 1] bcast_S1x128_S50000x128_0_1 : (⟨S1x128, .f32⟩ : BufTy).Contents (Elt F) → (⟨S50000x128, .f32⟩ : BufTy).Contents (Elt F)),  -- %221 = stablehlo.broadcast_in_dim %220, dims = [0, 1] : (tensor<1x128xf32>) -> tensor<50000x128xf32>  @ reference:31
    StableHlo.binary main_v219 main_v221 main_v222 (mulf : (⟨S50000x128, .f32⟩ : BufTy).Contents (Elt F) → (⟨S50000x128, .f32⟩ : BufTy).Contents (Elt F) → (⟨S50000x128, .f32⟩ : BufTy).Contents (Elt F)),  -- %222 = stablehlo.multiply %219, %221 : tensor<50000x128xf32>  @ reference:31
    StableHlo.unary main_v206 main_v223 (broadcastInDim S1x128 ![1] bcast_S128_S1x128_1 : (⟨S128, .f32⟩ : BufTy).Contents (Elt F) → (⟨S1x128, .f32⟩ : BufTy).Contents (Elt F)),  -- %223 = stablehlo.broadcast_in_dim %206, dims = [1] : (tensor<128xf32>) -> tensor<1x128xf32>  @ reference:31
    StableHlo.unary main_v223 main_v224 (broadcastInDim S50000x128 ![0, 1] bcast_S1x128_S50000x128_0_1 : (⟨S1x128, .f32⟩ : BufTy).Contents (Elt F) → (⟨S50000x128, .f32⟩ : BufTy).Contents (Elt F)),  -- %224 = stablehlo.broadcast_in_dim %223, dims = [0, 1] : (tensor<1x128xf32>) -> tensor<50000x128xf32>  @ reference:31
    StableHlo.binary main_v222 main_v224 main_v225 (addf : (⟨S50000x128, .f32⟩ : BufTy).Contents (Elt F) → (⟨S50000x128, .f32⟩ : BufTy).Contents (Elt F) → (⟨S50000x128, .f32⟩ : BufTy).Contents (Elt F)),  -- %225 = stablehlo.add %222, %224 : tensor<50000x128xf32>  @ reference:31
    StableHlo.TRef.nullary main_call8.cst (constant S_ .f32 0x00000000#32),  -- @relu's %cst = stablehlo.constant dense<0.000000e+00> : tensor<f32>, in %226 = func.call @relu(…) (record main_call8)
    StableHlo.TRef.unary main_call8.cst main_call8.v0 (broadcastInDim S50000x128 ![] bcast_S_S50000x128),  -- @relu's %0 = stablehlo.broadcast_in_dim %cst, dims = [] : (tensor<f32>) -> tensor<50000x128xf32>, in %226 = func.call @relu(…) (record main_call8)
    StableHlo.TRef.binary (.of main_v225 : StableHlo.TRef sig ⟨S50000x128, .f32⟩) main_call8.v0 main_call8.v1 maximumf ]  -- @relu's %1 = stablehlo.maximum %arg0, %0 : tensor<50000x128xf32>, in %226 = func.call @relu(…) (record main_call8)

set_option maxRecDepth 8192 in
/-- Every entry of `chunk3c` touches TensorCore buffers only: entry by entry, its builder's inclusion. -/
theorem chunk3c_sub : (chunk3c : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every entry of `chunk3c` determines what it writes: entry by entry, by computation. -/
theorem chunk3c_fresh : (chunk3c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.Ref.Ops4.lean ====
/- The reference program's host operations %227 … %299, in program order, as lists of operations: each entry is
   the printed operation of one line of @main, and where @main calls a module-local function the callee's operations stand in the
   call's place, over the call's operands and the call's own buffers (inlining is substitution). Running the entries in order is
   running that stretch of @main; folding their results over the buffers' contents gives the contents after it. -/
import proofs.«169164_j46703474376898_1_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 348 … 353 of 479 (%227 … %232): layer 4's head: its weight and bias rows, the product of the layer's input with its weight, and the node indices. -/
abbrev chunk4a : List (HloOp τ sig (Elt F)) :=
  [ StableHlo.unary main_arg9 main_v227 ((extractStridedSlice S1x128x128 ![1, 0, 0] · slices_S2x128x128_S1x128x128_1_0_0) : (⟨S2x128x128, .f32⟩ : BufTy).Contents (Elt F) → (⟨S1x128x128, .f32⟩ : BufTy).Contents (Elt F)),  -- %227 = stablehlo.slice %arg9 [1:2, 0:128, 0:128] : (tensor<2x128x128xf32>) -> tensor<1x128x128xf32>  @ reference:74
    StableHlo.reshape main_v227 main_v228 rfl shapeCasts_S1x128x128_S128x128,  -- %228 = stablehlo.reshape %227 : (tensor<1x128x128xf32>) -> tensor<128x128xf32>  @ reference:74
    StableHlo.unary main_arg10 main_v229 ((extractStridedSlice S1x128 ![1, 0] · slices_S2x128_S1x128_1_0) : (⟨S2x128, .f32⟩ : BufTy).Contents (Elt F) → (⟨S1x128, .f32⟩ : BufTy).Contents (Elt F)),  -- %229 = stablehlo.slice %arg10 [1:2, 0:128] : (tensor<2x128xf32>) -> tensor<1x128xf32>  @ reference:74
    StableHlo.reshape main_v229 main_v230 rfl shapeCasts_S1x128_S128,  -- %230 = stablehlo.reshape %229 : (tensor<1x128xf32>) -> tensor<128xf32>  @ reference:74
    StableHlo.binary main_v226 main_v228 main_v231 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %231 = stablehlo.dot_general %226, %228, contracting_dims = [1] x [0], precision = [DEFAULT, DEFAULT] : (tensor<50000x128xf32>, tensor<128x128xf32>) -> tensor<50000x128xf32>  @ reference:13
    StableHlo.nullary main_v232 (iotaInDim S50000 32 0) ]  -- %232 = stablehlo.iota dim = 0 : tensor<50000xi32>  @ reference:14

set_option maxRecDepth 8192 in
/-- Every entry of `chunk4a` touches TensorCore buffers only: entry by entry, its builder's inclusion. -/
theorem chunk4a_sub : (chunk4a : List (HloOp τ sig (Elt F))).Forall fun op => op.bufs ⊆ tcRefs τ sig :=
  ⟨unary_bufs_sub .., reshape_bufs_sub .., unary_bufs_sub .., reshape_bufs_sub .., binary_bufs_sub .., nullary_bufs_sub ..⟩

set_option maxRecDepth 8192 in
/-- Every entry of `chunk4a` determines what it writes: entry by entry, by computation. -/
theorem chunk4a_fresh : (chunk4a : List (HloOp τ sig (Elt F))).Forall fun op => op.fresh = ∅ :=
  ⟨rfl, rfl, rfl, rfl, rfl, rfl⟩

set_option maxHeartbeats 4000000 in
/-- Operations 354 … 409 of 479 (%233 … %275): layer 4's graph convolution: the edge lists with self-loops appended, the degrees and the symmetric normalisation, the gathered and weighted messages summed per node, the bias added. -/
abbrev chunk4b : List (HloOp τ sig (Elt F)) :=
  [ StableHlo.binary main_v5 main_v232 main_v233 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %233 = stablehlo.concatenate %5, %232, dim = 0 : (tensor<800000xi32>, tensor<50000xi32>) -> tensor<850000xi32>  @ reference:15
    StableHlo.binary main_v7 main_v232 main_v234 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %234 = stablehlo.concatenate %7, %232, dim = 0 : (tensor<800000xi32>, tensor<50000xi32>) -> tensor<850000xi32>  @ reference:16
    StableHlo.nullary main_cst_43 (constant S_ .f32 0x3F800000#32),  -- %cst_43 = stablehlo.constant dense<1.000000e+00> : tensor<f32>
    StableHlo.unary main_cst_43 main_v235 (broadcastInDim S50000 ![] bcast_S_S50000 : (⟨S_, .f32⟩ : BufTy).Contents (Elt F) → (⟨S50000, .f32⟩ : BufTy).Contents (Elt F)),  -- %235 = stablehlo.broadcast_in_dim %cst_43, dims = [] : (tensor<f32>) -> tensor<50000xf32>  @ reference:17
    StableHlo.binary main_arg4 main_v235 main_v236 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),  -- %236 = stablehlo.concatenate %arg4, %235, dim = 0 : (tensor<800000xf32>, tensor<50000xf32>) -> tensor<850000xf32>  @ reference:17
    StableHlo.nullary main_cst_44 (constant S_ .f32 0x00000000#32),  -- %cst_44 = stablehlo.constant dense<0.000000e+00> : tensor<f32>
    StableHlo.unary main_cst_44 main_v237 (broadcastInDim S50000 ![] bcast_S_S50000 : (⟨S_, .f32⟩ : BufTy).Contents (Elt F) → (⟨S50000, .f32⟩ : BufTy).Contents (Elt F)),  -- %237 = stablehlo.broadcast_in_dim %cst_44, dims = [] : (tensor<f32>) -> tensor<50000xf32>  @ reference:18
    StableHlo.unary main_v234 main_v238 (broadcastInDim S850000x1 ![0] bcast_S850000_S850000x1_0 : (⟨S850000, .i32⟩ : BufTy).Contents (Elt F) → (⟨S850000x1, .i32⟩ : BufTy).Contents (Elt F)),  -- %238 = stablehlo.broadcast_in_dim %234, dims = [0] : (tensor<850000xi32>) -> tensor<850000x1xi32>  @ reference:18
    StableHlo.ternary main_v237 main_v238 main_v236 main_v239 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),  -- %239 = "stablehlo.scatter"(%237, %238, %236) <{indices_are_sorted = false, scatter_dimension_numbers = #stablehlo.scatter<inserted_window_dims = [0], scatter_dims_to_operand_dims = [0], index_vector_dim = 1>, unique_indices = false}> ( {  @ reference:18
    StableHlo.nullary main_cst_45 (constant S_ .f32 0x00000000#32),  -- %cst_45 = stablehlo.constant dense<0.000000e+00> : tensor<f32>
    StableHlo.unary main_cst_45 main_v240 (broadcastInDim S50000 ![] bcast_S_S50000 : (⟨S_, .f32⟩ : BufTy).Contents (Elt F) → (⟨S50000, .f32⟩ : BufTy).Contents (Elt F)),  -- %240 = stablehlo.broadcast_in_dim %cst_45, dims = [] : (tensor<f32>) -> tensor<50000xf32>  @ reference:19
    StableHlo.binary main_v239 main_v240 main_v241 (cmpf .ogt : (⟨S50000, .f32⟩ : BufTy).Contents (Elt F) → (⟨S50000, .f32⟩ : BufTy).Contents (Elt F) → (⟨S50000, .i1⟩ : BufTy).Contents (Elt F)),  -- %241 = stablehlo.compare GT, %239, %240, FLOAT : (tensor<50000xf32>, tensor<50000xf32>) -> tensor<50000xi1>  @ reference:19
    StableHlo.unary main_v239 main_v242 (Host.rsqrt : (⟨S50000, .f32⟩ : BufTy).Contents (Elt F) → (⟨S50000, .f32⟩ : BufTy).Contents (Elt F)),  -- %242 = stablehlo.rsqrt %239 : tensor<50000xf32>  @ reference:19
    StableHlo.nullary main_cst_46 (constant S_ .f32 0x00000000#32),  -- %cst_46 = stablehlo.constant dense<0.000000e+00> : tensor<f32>
    StableHlo.TRef.unary (.of main_cst_46 : StableHlo.TRef sig ⟨S_, .f32⟩) main_call9.v0 id,  -- @where's %0 = stablehlo.convert %arg2 : tensor<f32>, in %243 = func.call @where(…) (record main_call9)
    StableHlo.TRef.unary main_call9.v0 main_call9.v1 (broadcastInDim S50000 ![] bcast_S_S50000),  -- @where's %1 = stablehlo.broadcast_in_dim %0, dims = [] : (tensor<f32>) -> tensor<50000xf32>, in %243 = func.call @where(…) (record main_call9)
    StableHlo.TRef.ternary (.of main_v241 : StableHlo.TRef sig ⟨S50000, .i1⟩) (.of main_v242 : StableHlo.TRef sig ⟨S50000, .f32⟩) main_call9.v1 main_call9.v2 select,  -- @where's %2 = stablehlo.select %arg0, %arg1, %1 : tensor<50000xi1>, tensor<50000xf32>, in %243 = func.call @where(…) (record main_call9)
    StableHlo.nullary main_c_47 (constantI S_ 32 0#32),  -- %c_47 = stablehlo.constant dense<0> : tensor<i32>
    StableHlo.unary main_c_47 main_v244 (broadcastInDim S850000 ![] bcast_S_S850000 : (⟨S_, .i32⟩ : BufTy).Contents (Elt F) → (⟨S850000, .i32⟩ : BufTy).Contents (Elt F)),  -- %244 = stablehlo.broadcast_in_dim %c_47, dims = [] : (tensor<i32>) -> tensor<850000xi32>  @ reference:20
    StableHlo.binary main_v233 main_v244 main_v245 (cmpi .slt : (⟨S850000, .i32⟩ : BufTy).Contents (Elt F) → (⟨S850000, .i32⟩ : BufTy).Contents (Elt F) → (⟨S850000, .i1⟩ : BufTy).Contents (Elt F)),  -- %245 = stablehlo.compare LT, %233, %244, SIGNED : (tensor<850000xi32>, tensor<850000xi32>) -> tensor<850000xi1>  @ reference:20
    StableHlo.nullary main_c_48 (constantI S_ 32 50000#32),  -- %c_48 = stablehlo.constant dense<50000> : tensor<i32>
    StableHlo.unary main_c_48 main_v246 (broadcastInDim S850000 ![] bcast_S_S850000 : (⟨S_, .i32⟩ : BufTy).Contents (Elt F) → (⟨S850000, .i32⟩ : BufTy).Contents (Elt F)),  -- %246 = stablehlo.broadcast_in_dim %c_48, dims = [] : (tensor<i32>) -> tensor<850000xi32>  @ reference:20
    StableHlo.binary main_v233 main_v246 main_v247 (addi : (⟨S850000, .i32⟩ : BufTy).Contents (Elt F) → (⟨S850000, .i32⟩ : BufTy).Contents (Elt F) → (⟨S850000, .i32⟩ : BufTy).Contents (Elt F)),  -- %247 = stablehlo.add %233, %246 : tensor<850000xi32>  @ reference:20
    StableHlo.ternary main_v245 main_v247 main_v233 main_v248 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %248 = stablehlo.select %245, %247, %233 : tensor<850000xi1>, tensor<850000xi32>  @ reference:20
    StableHlo.unary main_v248 main_v249 (broadcastInDim S850000x1 ![0] bcast_S850000_S850000x1_0 : (⟨S850000, .i32⟩ : BufTy).Contents (Elt F) → (⟨S850000x1, .i32⟩ : BufTy).Contents (Elt F)),  -- %249 = stablehlo.broadcast_in_dim %248, dims = [0] : (tensor<850000xi32>) -> tensor<850000x1xi32>  @ reference:20
    StableHlo.binary main_v243 main_v249 main_v250 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %250 = "stablehlo.gather"(%243, %249) <{dimension_numbers = #stablehlo.gather<collapsed_slice_dims = [0], start_index_map = [0], index_vector_dim = 1>, indices_are_sorted = false, slice_sizes = array<i64: 1>}> : (tensor<50000xf32>, tensor<850000x1xi32>) -> tensor<850000xf32>  @ reference:20
    StableHlo.binary main_v250 main_v236 main_v251 (mulf : (⟨S850000, .f32⟩ : BufTy).Contents (Elt F) → (⟨S850000, .f32⟩ : BufTy).Contents (Elt F) → (⟨S850000, .f32⟩ : BufTy).Contents (Elt F)),  -- %251 = stablehlo.multiply %250, %236 : tensor<850000xf32>  @ reference:20
    StableHlo.nullary main_c_49 (constantI S_ 32 0#32),  -- %c_49 = stablehlo.constant dense<0> : tensor<i32>
    StableHlo.unary main_c_49 main_v252 (broadcastInDim S850000 ![] bcast_S_S850000 : (⟨S_, .i32⟩ : BufTy).Contents (Elt F) → (⟨S850000, .i32⟩ : BufTy).Contents (Elt F)),  -- %252 = stablehlo.broadcast_in_dim %c_49, dims = [] : (tensor<i32>) -> tensor<850000xi32>  @ reference:20
    StableHlo.binary main_v234 main_v252 main_v253 (cmpi .slt : (⟨S850000, .i32⟩ : BufTy).Contents (Elt F) → (⟨S850000, .i32⟩ : BufTy).Contents (Elt F) → (⟨S850000, .i1⟩ : BufTy).Contents (Elt F)),  -- %253 = stablehlo.compare LT, %234, %252, SIGNED : (tensor<850000xi32>, tensor<850000xi32>) -> tensor<850000xi1>  @ reference:20
    StableHlo.nullary main_c_50 (constantI S_ 32 50000#32),  -- %c_50 = stablehlo.constant dense<50000> : tensor<i32>
    StableHlo.unary main_c_50 main_v254 (broadcastInDim S850000 ![] bcast_S_S850000 : (⟨S_, .i32⟩ : BufTy).Contents (Elt F) → (⟨S850000, .i32⟩ : BufTy).Contents (Elt F)),  -- %254 = stablehlo.broadcast_in_dim %c_50, dims = [] : (tensor<i32>) -> tensor<850000xi32>  @ reference:20
    StableHlo.binary main_v234 main_v254 main_v255 (addi : (⟨S850000, .i32⟩ : BufTy).Contents (Elt F) → (⟨S850000, .i32⟩ : BufTy).Contents (Elt F) → (⟨S850000, .i32⟩ : BufTy).Contents (Elt F)),  -- %255 = stablehlo.add %234, %254 : tensor<850000xi32>  @ reference:20
    StableHlo.ternary main_v253 main_v255 main_v234 main_v256 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %256 = stablehlo.select %253, %255, %234 : tensor<850000xi1>, tensor<850000xi32>  @ reference:20
    StableHlo.unary main_v256 main_v257 (broadcastInDim S850000x1 ![0] bcast_S850000_S850000x1_0 : (⟨S850000, .i32⟩ : BufTy).Contents (Elt F) → (⟨S850000x1, .i32⟩ : BufTy).Contents (Elt F)),  -- %257 = stablehlo.broadcast_in_dim %256, dims = [0] : (tensor<850000xi32>) -> tensor<850000x1xi32>  @ reference:20
    StableHlo.binary main_v243 main_v257 main_v258 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %258 = "stablehlo.gather"(%243, %257) <{dimension_numbers = #stablehlo.gather<collapsed_slice_dims = [0], start_index_map = [0], index_vector_dim = 1>, indices_are_sorted = false, slice_sizes = array<i64: 1>}> : (tensor<50000xf32>, tensor<850000x1xi32>) -> tensor<850000xf32>  @ reference:20
    StableHlo.binary main_v251 main_v258 main_v259 (mulf : (⟨S850000, .f32⟩ : BufTy).Contents (Elt F) → (⟨S850000, .f32⟩ : BufTy).Contents (Elt F) → (⟨S850000, .f32⟩ : BufTy).Contents (Elt F)),  -- %259 = stablehlo.multiply %251, %258 : tensor<850000xf32>  @ reference:20
    StableHlo.nullary main_c_51 (constantI S_ 32 0#32),  -- %c_51 = stablehlo.constant dense<0> : tensor<i32>
    StableHlo.unary main_c_51 main_v260 (broadcastInDim S850000 ![] bcast_S_S850000 : (⟨S_, .i32⟩ : BufTy).Contents (Elt F) → (⟨S850000, .i32⟩ : BufTy).Contents (Elt F)),  -- %260 = stablehlo.broadcast_in_dim %c_51, dims = [] : (tensor<i32>) -> tensor<850000xi32>  @ reference:21
    StableHlo.binary main_v233 main_v260 main_v261 (cmpi .slt : (⟨S850000, .i32⟩ : BufTy).Contents (Elt F) → (⟨S850000, .i32⟩ : BufTy).Contents (Elt F) → (⟨S850000, .i1⟩ : BufTy).Contents (Elt F)),  -- %261 = stablehlo.compare LT, %233, %260, SIGNED : (tensor<850000xi32>, tensor<850000xi32>) -> tensor<850000xi1>  @ reference:21
    StableHlo.nullary main_c_52 (constantI S_ 32 50000#32),  -- %c_52 = stablehlo.constant dense<50000> : tensor<i32>
    StableHlo.unary main_c_52 main_v262 (broadcastInDim S850000 ![] bcast_S_S850000 : (⟨S_, .i32⟩ : BufTy).Contents (Elt F) → (⟨S850000, .i32⟩ : BufTy).Contents (Elt F)),  -- %262 = stablehlo.broadcast_in_dim %c_52, dims = [] : (tensor<i32>) -> tensor<850000xi32>  @ reference:21
    StableHlo.binary main_v233 main_v262 main_v263 (addi : (⟨S850000, .i32⟩ : BufTy).Contents (Elt F) → (⟨S850000, .i32⟩ : BufTy).Contents (Elt F) → (⟨S850000, .i32⟩ : BufTy).Contents (Elt F)),  -- %263 = stablehlo.add %233, %262 : tensor<850000xi32>  @ reference:21
    StableHlo.ternary main_v261 main_v263 main_v233 main_v264 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %264 = stablehlo.select %261, %263, %233 : tensor<850000xi1>, tensor<850000xi32>  @ reference:21
    StableHlo.unary main_v264 main_v265 (broadcastInDim S850000x1 ![0] bcast_S850000_S850000x1_0 : (⟨S850000, .i32⟩ : BufTy).Contents (Elt F) → (⟨S850000x1, .i32⟩ : BufTy).Contents (Elt F)),  -- %265 = stablehlo.broadcast_in_dim %264, dims = [0] : (tensor<850000xi32>) -> tensor<850000x1xi32>  @ reference:21
    StableHlo.binary main_v231 main_v265 main_v266 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %266 = "stablehlo.gather"(%231, %265) <{dimension_numbers = #stablehlo.gather<offset_dims = [1], collapsed_slice_dims = [0], start_index_map = [0], index_vector_dim = 1>, indices_are_sorted = false, slice_sizes = array<i64: 1, 128>}> : (tensor<50000x128xf32>, tensor<850000x1xi32>) -> tensor<850000x128xf32>  @ reference:21
    StableHlo.unary main_v259 main_v267 (broadcastInDim S850000x1 ![0] bcast_S850000_S850000x1_0 : (⟨S850000, .f32⟩ : BufTy).Contents (Elt F) → (⟨S850000x1, .f32⟩ : BufTy).Contents (Elt F)),  -- %267 = stablehlo.broadcast_in_dim %259, dims = [0] : (tensor<850000xf32>) -> tensor<850000x1xf32>  @ reference:21
    StableHlo.unary main_v267 main_v268 (broadcastInDim S850000x128 ![0, 1] bcast_S850000x1_S850000x128_0_1 : (⟨S850000x1, .f32⟩ : BufTy).Contents (Elt F) → (⟨S850000x128, .f32⟩ : BufTy).Contents (Elt F)),  -- %268 = stablehlo.broadcast_in_dim %267, dims = [0, 1] : (tensor<850000x1xf32>) -> tensor<850000x128xf32>  @ reference:21
    StableHlo.binary main_v266 main_v268 main_v269 (mulf : (⟨S850000x128, .f32⟩ : BufTy).Contents (Elt F) → (⟨S850000x128, .f32⟩ : BufTy).Contents (Elt F) → (⟨S850000x128, .f32⟩ : BufTy).Contents (Elt F)),  -- %269 = stablehlo.multiply %266, %268 : tensor<850000x128xf32>  @ reference:21
    StableHlo.nullary main_cst_53 (constant S_ .f32 0x00000000#32),  -- %cst_53 = stablehlo.constant dense<0.000000e+00> : tensor<f32>
    StableHlo.unary main_cst_53 main_v270 (broadcastInDim S50000x128 ![] bcast_S_S50000x128 : (⟨S_, .f32⟩ : BufTy).Contents (Elt F) → (⟨S50000x128, .f32⟩ : BufTy).Contents (Elt F)),  -- %270 = stablehlo.broadcast_in_dim %cst_53, dims = [] : (tensor<f32>) -> tensor<50000x128xf32>  @ reference:22
    StableHlo.unary main_v234 main_v271 (broadcastInDim S850000x1 ![0] bcast_S850000_S850000x1_0 : (⟨S850000, .i32⟩ : BufTy).Contents (Elt F) → (⟨S850000x1, .i32⟩ : BufTy).Contents (Elt F)),  -- %271 = stablehlo.broadcast_in_dim %234, dims = [0] : (tensor<850000xi32>) -> tensor<850000x1xi32>  @ reference:22
    StableHlo.ternary main_v270 main_v271 main_v269 main_v272 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),  -- %272 = "stablehlo.scatter"(%270, %271, %269) <{indices_are_sorted = false, scatter_dimension_numbers = #stablehlo.scatter<update_window_dims = [1], inserted_window_dims = [0], scatter_dims_to_operand_dims = [0], index_vector_dim = 1>, unique_indices = false}> ( {  @ reference:22
    StableHlo.unary main_v230 main_v273 (broadcastInDim S1x128 ![1] bcast_S128_S1x128_1 : (⟨S128, .f32⟩ : BufTy).Contents (Elt F) → (⟨S1x128, .f32⟩ : BufTy).Contents (Elt F)),  -- %273 = stablehlo.broadcast_in_dim %230, dims = [1] : (tensor<128xf32>) -> tensor<1x128xf32>  @ reference:23
    StableHlo.unary main_v273 main_v274 (broadcastInDim S50000x128 ![0, 1] bcast_S1x128_S50000x128_0_1 : (⟨S1x128, .f32⟩ : BufTy).Contents (Elt F) → (⟨S50000x128, .f32⟩ : BufTy).Contents (Elt F)),  -- %274 = stablehlo.broadcast_in_dim %273, dims = [0, 1] : (tensor<1x128xf32>) -> tensor<50000x128xf32>  @ reference:23
    StableHlo.binary main_v272 main_v274 main_v275 (addf : (⟨S50000x128, .f32⟩ : BufTy).Contents (Elt F) → (⟨S50000x128, .f32⟩ : BufTy).Contents (Elt F) → (⟨S50000x128, .f32⟩ : BufTy).Contents (Elt F)) ]  -- %275 = stablehlo.add %272, %274 : tensor<50000x128xf32>  @ reference:23

set_option maxRecDepth 8192 in
/-- Every entry of `chunk4b` touches TensorCore buffers only: entry by entry, its builder's inclusion. -/
theorem chunk4b_sub : (chunk4b : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- Every entry of `chunk4b` determines what it writes: entry by entry, by computation. -/
theorem chunk4b_fresh : (chunk4b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
/-- Operations 410 … 460 of 479 (%276 … %299): layer 4's batch normalisation (mean, variance, scale and shift) and its rectifier. -/
abbrev chunk4c : List (HloOp τ sig (Elt F)) :=
  [ StableHlo.unary main_arg11 main_v276 ((extractStridedSlice S1x128 ![1, 0] · slices_S2x128_S1x128_1_0) : (⟨S2x128, .f32⟩ : BufTy).Contents (Elt F) → (⟨S1x128, .f32⟩ : BufTy).Contents (Elt F)),  -- %276 = stablehlo.slice %arg11 [1:2, 0:128] : (tensor<2x128xf32>) -> tensor<1x128xf32>  @ reference:75
    StableHlo.reshape main_v276 main_v277 rfl shapeCasts_S1x128_S128,  -- %277 = stablehlo.reshape %276 : (tensor<1x128xf32>) -> tensor<128xf32>  @ reference:75
    StableHlo.unary main_arg12 main_v278 ((extractStridedSlice S1x128 ![1, 0] · slices_S2x128_S1x128_1_0) : (⟨S2x128, .f32⟩ : BufTy).Contents (Elt F) → (⟨S1x128, .f32⟩ : BufTy).Contents (Elt F)),  -- %278 = stablehlo.slice %arg12 [1:2, 0:128] : (tensor<2x128xf32>) -> tensor<1x128xf32>  @ reference:75
    StableHlo.reshape main_v278 main_v279 rfl shapeCasts_S1x128_S128,  -- %279 = stablehlo.reshape %278 : (tensor<1x128xf32>) -> tensor<128xf32>  @ reference:75
    StableHlo.nullary main_cst_54 (constant S_ .f32 0x00000000#32),  -- %cst_54 = stablehlo.constant dense<0.000000e+00> : tensor<f32>
    StableHlo.binary main_v275 main_cst_54 main_v280 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),  -- %280 = stablehlo.reduce(%275 init: %cst_54) applies stablehlo.add across dimensions = [0] : (tensor<50000x128xf32>, tensor<f32>) -> tensor<128xf32> {  @ reference:28
    StableHlo.nullary main_cst_55 (constant S_ .f32 0x47435000#32),  -- %cst_55 = stablehlo.constant dense<5.000000e+04> : tensor<f32>
    StableHlo.unary main_cst_55 main_v281 (broadcastInDim S128 ![] bcast_S_S128 : (⟨S_, .f32⟩ : BufTy).Contents (Elt F) → (⟨S128, .f32⟩ : BufTy).Contents (Elt F)),  -- %281 = stablehlo.broadcast_in_dim %cst_55, dims = [] : (tensor<f32>) -> tensor<128xf32>  @ reference:28
    StableHlo.binary main_v280 main_v281 main_v282 (Host.divf : (⟨S128, .f32⟩ : BufTy).Contents (Elt F) → (⟨S128, .f32⟩ : BufTy).Contents (Elt F) → (⟨S128, .f32⟩ : BufTy).Contents (Elt F)),  -- %282 = stablehlo.divide %280, %281 : tensor<128xf32>  @ reference:28
    StableHlo.nullary main_c_56 (constantI S_ 32 0#32),  -- %c_56 = stablehlo.constant dense<0> : tensor<i32>
    StableHlo.TRef.nullary main_call10.cst (constant S_ .f32 0x00000000#32),  -- @var's %cst = stablehlo.constant dense<0.000000e+00> : tensor<f32>, in %283 = func.call @var(…) (record main_call10)
    StableHlo.TRef.binary (.of main_v275 : StableHlo.TRef sig ⟨S50000x128, .f32⟩) main_call10.cst main_call10.v0 (fun x v => Host.reduceAdd x v reducesTo_S50000x128_S128_d0 h_S_),  -- @var's %0 = stablehlo.reduce(%arg0 init: %cst) applies stablehlo.add across dimensions = [0] : (tensor<50000x128xf32>, tensor<f32>) -> tensor<128xf32> {, in %283 = func.call @var(…) (record main_call10)
    StableHlo.TRef.unary main_call10.v0 main_call10.v1 (broadcastInDim S1x128 ![1] bcast_S128_S1x128_1),  -- @var's %1 = stablehlo.broadcast_in_dim %0, dims = [1] : (tensor<128xf32>) -> tensor<1x128xf32>, in %283 = func.call @var(…) (record main_call10)
    StableHlo.TRef.nullary main_call10.cst_0 (constant S_ .f32 0x47435000#32),  -- @var's %cst_0 = stablehlo.constant dense<5.000000e+04> : tensor<f32>, in %283 = func.call @var(…) (record main_call10)
    StableHlo.TRef.unary main_call10.cst_0 main_call10.v2 (broadcastInDim S1x128 ![] bcast_S_S1x128),  -- @var's %2 = stablehlo.broadcast_in_dim %cst_0, dims = [] : (tensor<f32>) -> tensor<1x128xf32>, in %283 = func.call @var(…) (record main_call10)
    StableHlo.TRef.binary main_call10.v1 main_call10.v2 main_call10.v3 Host.divf,  -- @var's %3 = stablehlo.divide %1, %2 : tensor<1x128xf32>, in %283 = func.call @var(…) (record main_call10)
    StableHlo.TRef.unary main_call10.v3 main_call10.v4 (broadcastInDim S50000x128 ![0, 1] bcast_S1x128_S50000x128_0_1),  -- @var's %4 = stablehlo.broadcast_in_dim %3, dims = [0, 1] : (tensor<1x128xf32>) -> tensor<50000x128xf32>, in %283 = func.call @var(…) (record main_call10)
    StableHlo.TRef.binary (.of main_v275 : StableHlo.TRef sig ⟨S50000x128, .f32⟩) main_call10.v4 main_call10.v5 subf,  -- @var's %5 = stablehlo.subtract %arg0, %4 : tensor<50000x128xf32>, in %283 = func.call @var(…) (record main_call10)
    StableHlo.TRef.binary main_call10.v5 main_call10.v5 main_call10.v6 mulf,  -- @var's %6 = chlo.square %5 : tensor<50000x128xf32> -> tensor<50000x128xf32>, in %283 = func.call @var(…) (record main_call10)
    StableHlo.TRef.unary (.of main_c_56 : StableHlo.TRef sig ⟨S_, .i32⟩) main_call10.v7 (sitofp .f32),  -- @var's %7 = stablehlo.convert %arg1 : (tensor<i32>) -> tensor<f32>, in %283 = func.call @var(…) (record main_call10)
    StableHlo.TRef.nullary main_call10.cst_1 (constant S_ .f32 0x47435000#32),  -- @var's %cst_1 = stablehlo.constant dense<5.000000e+04> : tensor<f32>, in %283 = func.call @var(…) (record main_call10)
    StableHlo.TRef.binary main_call10.cst_1 main_call10.v7 main_call10.v8 subf,  -- @var's %8 = stablehlo.subtract %cst_1, %7 : tensor<f32>, in %283 = func.call @var(…) (record main_call10)
    StableHlo.TRef.nullary main_call10.cst_2 (constant S_ .f32 0x00000000#32),  -- @var's %cst_2 = stablehlo.constant dense<0.000000e+00> : tensor<f32>, in %283 = func.call @var(…) (record main_call10)
    StableHlo.TRef.binary main_call10.v6 main_call10.cst_2 main_call10.v9 (fun x v => Host.reduceAdd x v reducesTo_S50000x128_S128_d0 h_S_),  -- @var's %9 = stablehlo.reduce(%6 init: %cst_2) applies stablehlo.add across dimensions = [0] : (tensor<50000x128xf32>, tensor<f32>) -> tensor<128xf32> {, in %283 = func.call @var(…) (record main_call10)
    StableHlo.TRef.unary main_call10.v8 main_call10.v10 (broadcastInDim S128 ![] bcast_S_S128),  -- @var's %10 = stablehlo.broadcast_in_dim %8, dims = [] : (tensor<f32>) -> tensor<128xf32>, in %283 = func.call @var(…) (record main_call10)
    StableHlo.TRef.binary main_call10.v9 main_call10.v10 main_call10.v11 Host.divf,  -- @var's %11 = stablehlo.divide %9, %10 : tensor<128xf32>, in %283 = func.call @var(…) (record main_call10)
    StableHlo.TRef.nullary main_call10.cst_3 (constant S_ .f32 0x00000000#32),  -- @var's %cst_3 = stablehlo.constant dense<0.000000e+00> : tensor<f32>, in %283 = func.call @var(…) (record main_call10)
    StableHlo.TRef.binary main_call10.v8 main_call10.cst_3 main_call10.v12 (cmpf .ogt),  -- @var's %12 = stablehlo.compare GT, %8, %cst_3, FLOAT : (tensor<f32>, tensor<f32>) -> tensor<i1>, in %283 = func.call @var(…) (record main_call10)
    StableHlo.TRef.nullary main_call10.cst_4 (constant S_ .f32 0x7FC00000#32),  -- @var's %cst_4 = stablehlo.constant dense<0x7FC00000> : tensor<f32>, in %283 = func.call @var(…) (record main_call10)
    StableHlo.TRef.unary main_call10.cst_4 main_call10.call0.v0 id,  -- @where_0's %0 = stablehlo.convert %arg2 : tensor<f32>, in %283 = func.call @var(…) (record main_call10)
    StableHlo.TRef.unary main_call10.call0.v0 main_call10.call0.v1 (broadcastInDim S128 ![] bcast_S_S128),  -- @where_0's %1 = stablehlo.broadcast_in_dim %0, dims = [] : (tensor<f32>) -> tensor<128xf32>, in %283 = func.call @var(…) (record main_call10)
    StableHlo.TRef.ternary main_call10.v12 main_call10.v11 main_call10.call0.v1 main_call10.call0.v2 (fun p a b => select (broadcastInDim S128 ![] bcast_S_S128 p) a b),  -- @where_0's %2 = stablehlo.select %arg0, %arg1, %1 : tensor<i1>, tensor<128xf32>, in %283 = func.call @var(…) (record main_call10)
    StableHlo.unary main_v282 main_v284 (broadcastInDim S1x128 ![1] bcast_S128_S1x128_1 : (⟨S128, .f32⟩ : BufTy).Contents (Elt F) → (⟨S1x128, .f32⟩ : BufTy).Contents (Elt F)),  -- %284 = stablehlo.broadcast_in_dim %282, dims = [1] : (tensor<128xf32>) -> tensor<1x128xf32>  @ reference:30
    StableHlo.unary main_v284 main_v285 (broadcastInDim S50000x128 ![0, 1] bcast_S1x128_S50000x128_0_1 : (⟨S1x128, .f32⟩ : BufTy).Contents (Elt F) → (⟨S50000x128, .f32⟩ : BufTy).Contents (Elt F)),  -- %285 = stablehlo.broadcast_in_dim %284, dims = [0, 1] : (tensor<1x128xf32>) -> tensor<50000x128xf32>  @ reference:30
    StableHlo.binary main_v275 main_v285 main_v286 (subf : (⟨S50000x128, .f32⟩ : BufTy).Contents (Elt F) → (⟨S50000x128, .f32⟩ : BufTy).Contents (Elt F) → (⟨S50000x128, .f32⟩ : BufTy).Contents (Elt F)),  -- %286 = stablehlo.subtract %275, %285 : tensor<50000x128xf32>  @ reference:30
    StableHlo.nullary main_cst_57 (constant S_ .f32 0x3727C5AC#32),  -- %cst_57 = stablehlo.constant dense<9.99999974E-6> : tensor<f32>
    StableHlo.unary main_cst_57 main_v287 (broadcastInDim S128 ![] bcast_S_S128 : (⟨S_, .f32⟩ : BufTy).Contents (Elt F) → (⟨S128, .f32⟩ : BufTy).Contents (Elt F)),  -- %287 = stablehlo.broadcast_in_dim %cst_57, dims = [] : (tensor<f32>) -> tensor<128xf32>  @ reference:30
    StableHlo.binary main_v283 main_v287 main_v288 (addf : (⟨S128, .f32⟩ : BufTy).Contents (Elt F) → (⟨S128, .f32⟩ : BufTy).Contents (Elt F) → (⟨S128, .f32⟩ : BufTy).Contents (Elt F)),  -- %288 = stablehlo.add %283, %287 : tensor<128xf32>  @ reference:30
    StableHlo.unary main_v288 main_v289 (Host.rsqrt : (⟨S128, .f32⟩ : BufTy).Contents (Elt F) → (⟨S128, .f32⟩ : BufTy).Contents (Elt F)),  -- %289 = stablehlo.rsqrt %288 : tensor<128xf32>  @ reference:30
    StableHlo.unary main_v289 main_v290 (broadcastInDim S1x128 ![1] bcast_S128_S1x128_1 : (⟨S128, .f32⟩ : BufTy).Contents (Elt F) → (⟨S1x128, .f32⟩ : BufTy).Contents (Elt F)),  -- %290 = stablehlo.broadcast_in_dim %289, dims = [1] : (tensor<128xf32>) -> tensor<1x128xf32>  @ reference:30
    StableHlo.unary main_v290 main_v291 (broadcastInDim S50000x128 ![0, 1] bcast_S1x128_S50000x128_0_1 : (⟨S1x128, .f32⟩ : BufTy).Contents (Elt F) → (⟨S50000x128, .f32⟩ : BufTy).Contents (Elt F)),  -- %291 = stablehlo.broadcast_in_dim %290, dims = [0, 1] : (tensor<1x128xf32>) -> tensor<50000x128xf32>  @ reference:30
    StableHlo.binary main_v286 main_v291 main_v292 (mulf : (⟨S50000x128, .f32⟩ : BufTy).Contents (Elt F) → (⟨S50000x128, .f32⟩ : BufTy).Contents (Elt F) → (⟨S50000x128, .f32⟩ : BufTy).Contents (Elt F)),  -- %292 = stablehlo.multiply %286, %291 : tensor<50000x128xf32>  @ reference:30
    StableHlo.unary main_v277 main_v293 (broadcastInDim S1x128 ![1] bcast_S128_S1x128_1 : (⟨S128, .f32⟩ : BufTy).Contents (Elt F) → (⟨S1x128, .f32⟩ : BufTy).Contents (Elt F)),  -- %293 = stablehlo.broadcast_in_dim %277, dims = [1] : (tensor<128xf32>) -> tensor<1x128xf32>  @ reference:31
    StableHlo.unary main_v293 main_v294 (broadcastInDim S50000x128 ![0, 1] bcast_S1x128_S50000x128_0_1 : (⟨S1x128, .f32⟩ : BufTy).Contents (Elt F) → (⟨S50000x128, .f32⟩ : BufTy).Contents (Elt F)),  -- %294 = stablehlo.broadcast_in_dim %293, dims = [0, 1] : (tensor<1x128xf32>) -> tensor<50000x128xf32>  @ reference:31
    StableHlo.binary main_v292 main_v294 main_v295 (mulf : (⟨S50000x128, .f32⟩ : BufTy).Contents (Elt F) → (⟨S50000x128, .f32⟩ : BufTy).Contents (Elt F) → (⟨S50000x128, .f32⟩ : BufTy).Contents (Elt F)),  -- %295 = stablehlo.multiply %292, %294 : tensor<50000x128xf32>  @ reference:31
    StableHlo.unary main_v279 main_v296 (broadcastInDim S1x128 ![1] bcast_S128_S1x128_1 : (⟨S128, .f32⟩ : BufTy).Contents (Elt F) → (⟨S1x128, .f32⟩ : BufTy).Contents (Elt F)),  -- %296 = stablehlo.broadcast_in_dim %279, dims = [1] : (tensor<128xf32>) -> tensor<1x128xf32>  @ reference:31
    StableHlo.unary main_v296 main_v297 (broadcastInDim S50000x128 ![0, 1] bcast_S1x128_S50000x128_0_1 : (⟨S1x128, .f32⟩ : BufTy).Contents (Elt F) → (⟨S50000x128, .f32⟩ : BufTy).Contents (Elt F)),  -- %297 = stablehlo.broadcast_in_dim %296, dims = [0, 1] : (tensor<1x128xf32>) -> tensor<50000x128xf32>  @ reference:31
    StableHlo.binary main_v295 main_v297 main_v298 (addf : (⟨S50000x128, .f32⟩ : BufTy).Contents (Elt F) → (⟨S50000x128, .f32⟩ : BufTy).Contents (Elt F) → (⟨S50000x128, .f32⟩ : BufTy).Contents (Elt F)),  -- %298 = stablehlo.add %295, %297 : tensor<50000x128xf32>  @ reference:31
    StableHlo.TRef.nullary main_call11.cst (constant S_ .f32 0x00000000#32),  -- @relu's %cst = stablehlo.constant dense<0.000000e+00> : tensor<f32>, in %299 = func.call @relu(…) (record main_call11)
    StableHlo.TRef.unary main_call11.cst main_call11.v0 (broadcastInDim S50000x128 ![] bcast_S_S50000x128),  -- @relu's %0 = stablehlo.broadcast_in_dim %cst, dims = [] : (tensor<f32>) -> tensor<50000x128xf32>, in %299 = func.call @relu(…) (record main_call11)
    StableHlo.TRef.binary (.of main_v298 : StableHlo.TRef sig ⟨S50000x128, .f32⟩) main_call11.v0 main_call11.v1 maximumf ]  -- @relu's %1 = stablehlo.maximum %arg0, %0 : tensor<50000x128xf32>, in %299 = func.call @relu(…) (record main_call11)

set_option maxRecDepth 8192 in
/-- Every entry of `chunk4c` touches TensorCore buffers only: entry by entry, its builder's inclusion. -/
theorem chunk4c_sub : (chunk4c : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every entry of `chunk4c` determines what it writes: entry by entry, by computation. -/
theorem chunk4c_fresh : (chunk4c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.Ref.Ops5.lean ====
/- The reference program's host operations %300 … %315, in program order, as list of operations: each entry is
   the printed operation of one line of @main, and where @main calls a module-local function the callee's operations stand in the
   call's place, over the call's operands and the call's own buffers (inlining is substitution). Running the entries in order is
   running that stretch of @main; folding their results over the buffers' contents gives the contents after it. -/
import proofs.«169164_j46703474376898_1_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 461 … 479 of 479 (%300 … %315): the gate: the two branches' outputs concatenated, the dense layer, the logistic function and the blend. -/
abbrev chunk5 : List (HloOp τ sig (Elt F)) :=
  [ StableHlo.binary main_v153 main_v299 main_v300 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),  -- %300 = stablehlo.concatenate %153, %299, dim = 1 : (tensor<50000x128xf32>, tensor<50000x128xf32>) -> tensor<50000x256xf32>  @ reference:76
    StableHlo.binary main_v300 main_arg13 main_v301 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),  -- %301 = stablehlo.dot_general %300, %arg13, contracting_dims = [1] x [0], precision = [DEFAULT, DEFAULT] : (tensor<50000x256xf32>, tensor<256x128xf32>) -> tensor<50000x128xf32>  @ reference:76
    StableHlo.unary main_arg14 main_v302 (broadcastInDim S1x128 ![1] bcast_S128_S1x128_1 : (⟨S128, .f32⟩ : BufTy).Contents (Elt F) → (⟨S1x128, .f32⟩ : BufTy).Contents (Elt F)),  -- %302 = stablehlo.broadcast_in_dim %arg14, dims = [1] : (tensor<128xf32>) -> tensor<1x128xf32>  @ reference:76
    StableHlo.unary main_v302 main_v303 (broadcastInDim S50000x128 ![0, 1] bcast_S1x128_S50000x128_0_1 : (⟨S1x128, .f32⟩ : BufTy).Contents (Elt F) → (⟨S50000x128, .f32⟩ : BufTy).Contents (Elt F)),  -- %303 = stablehlo.broadcast_in_dim %302, dims = [0, 1] : (tensor<1x128xf32>) -> tensor<50000x128xf32>  @ reference:76
    StableHlo.binary main_v301 main_v303 main_v304 (addf : (⟨S50000x128, .f32⟩ : BufTy).Contents (Elt F) → (⟨S50000x128, .f32⟩ : BufTy).Contents (Elt F) → (⟨S50000x128, .f32⟩ : BufTy).Contents (Elt F)),  -- %304 = stablehlo.add %301, %303 : tensor<50000x128xf32>  @ reference:76
    StableHlo.unary main_v304 main_v305 (Host.negf : (⟨S50000x128, .f32⟩ : BufTy).Contents (Elt F) → (⟨S50000x128, .f32⟩ : BufTy).Contents (Elt F)),  -- %305 = stablehlo.negate %304 : tensor<50000x128xf32>  @ reference:76
    StableHlo.unary main_v305 main_v306 (Host.exp : (⟨S50000x128, .f32⟩ : BufTy).Contents (Elt F) → (⟨S50000x128, .f32⟩ : BufTy).Contents (Elt F)),  -- %306 = stablehlo.exponential %305 : tensor<50000x128xf32>  @ reference:76
    StableHlo.nullary main_cst_58 (constant S_ .f32 0x3F800000#32),  -- %cst_58 = stablehlo.constant dense<1.000000e+00> : tensor<f32>
    StableHlo.unary main_cst_58 main_v307 (broadcastInDim S50000x128 ![] bcast_S_S50000x128 : (⟨S_, .f32⟩ : BufTy).Contents (Elt F) → (⟨S50000x128, .f32⟩ : BufTy).Contents (Elt F)),  -- %307 = stablehlo.broadcast_in_dim %cst_58, dims = [] : (tensor<f32>) -> tensor<50000x128xf32>  @ reference:76
    StableHlo.binary main_v307 main_v306 main_v308 (addf : (⟨S50000x128, .f32⟩ : BufTy).Contents (Elt F) → (⟨S50000x128, .f32⟩ : BufTy).Contents (Elt F) → (⟨S50000x128, .f32⟩ : BufTy).Contents (Elt F)),  -- %308 = stablehlo.add %307, %306 : tensor<50000x128xf32>  @ reference:76
    StableHlo.nullary main_cst_59 (constant S_ .f32 0x3F800000#32),  -- %cst_59 = stablehlo.constant dense<1.000000e+00> : tensor<f32>
    StableHlo.unary main_cst_59 main_v309 (broadcastInDim S50000x128 ![] bcast_S_S50000x128 : (⟨S_, .f32⟩ : BufTy).Contents (Elt F) → (⟨S50000x128, .f32⟩ : BufTy).Contents (Elt F)),  -- %309 = stablehlo.broadcast_in_dim %cst_59, dims = [] : (tensor<f32>) -> tensor<50000x128xf32>  @ reference:76
    StableHlo.binary main_v309 main_v308 main_v310 (Host.divf : (⟨S50000x128, .f32⟩ : BufTy).Contents (Elt F) → (⟨S50000x128, .f32⟩ : BufTy).Contents (Elt F) → (⟨S50000x128, .f32⟩ : BufTy).Contents (Elt F)),  -- %310 = stablehlo.divide %309, %308 : tensor<50000x128xf32>  @ reference:76
    StableHlo.binary main_v310 main_v153 main_v311 (mulf : (⟨S50000x128, .f32⟩ : BufTy).Contents (Elt F) → (⟨S50000x128, .f32⟩ : BufTy).Contents (Elt F) → (⟨S50000x128, .f32⟩ : BufTy).Contents (Elt F)),  -- %311 = stablehlo.multiply %310, %153 : tensor<50000x128xf32>  @ reference:77
    StableHlo.nullary main_cst_60 (constant S_ .f32 0x3F800000#32),  -- %cst_60 = stablehlo.constant dense<1.000000e+00> : tensor<f32>
    StableHlo.unary main_cst_60 main_v312 (broadcastInDim S50000x128 ![] bcast_S_S50000x128 : (⟨S_, .f32⟩ : BufTy).Contents (Elt F) → (⟨S50000x128, .f32⟩ : BufTy).Contents (Elt F)),  -- %312 = stablehlo.broadcast_in_dim %cst_60, dims = [] : (tensor<f32>) -> tensor<50000x128xf32>  @ reference:77
    StableHlo.binary main_v312 main_v310 main_v313 (subf : (⟨S50000x128, .f32⟩ : BufTy).Contents (Elt F) → (⟨S50000x128, .f32⟩ : BufTy).Contents (Elt F) → (⟨S50000x128, .f32⟩ : BufTy).Contents (Elt F)),  -- %313 = stablehlo.subtract %312, %310 : tensor<50000x128xf32>  @ reference:77
    StableHlo.binary main_v313 main_v299 main_v314 (mulf : (⟨S50000x128, .f32⟩ : BufTy).Contents (Elt F) → (⟨S50000x128, .f32⟩ : BufTy).Contents (Elt F) → (⟨S50000x128, .f32⟩ : BufTy).Contents (Elt F)),  -- %314 = stablehlo.multiply %313, %299 : tensor<50000x128xf32>  @ reference:77
    StableHlo.binary main_v311 main_v314 main_v315 (addf : (⟨S50000x128, .f32⟩ : BufTy).Contents (Elt F) → (⟨S50000x128, .f32⟩ : BufTy).Contents (Elt F) → (⟨S50000x128, .f32⟩ : BufTy).Contents (Elt F)) ]  -- %315 = stablehlo.add %311, %314 : tensor<50000x128xf32>  @ reference:77

set_option maxRecDepth 8192 in
/-- Every entry of `chunk5` touches TensorCore buffers only: entry by entry, its builder's inclusion. -/
theorem chunk5_sub : (chunk5 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub ..⟩

set_option maxRecDepth 8192 in
/-- Every entry of `chunk5` determines what it writes: entry by entry, by computation. -/
theorem chunk5_fresh : (chunk5 : List (HloOp τ sig (Elt F))).Forall fun op => op.fresh = ∅ :=
  ⟨rfl, rfl, rfl, rfl, rfl, rfl, rfl, rfl, rfl, rfl, rfl, rfl, rfl, rfl, rfl, rfl, rfl, rfl, rfl⟩

end Cert.ReferenceIdeal.Hand

end
-- ==== Proof.Ref.Run.lean ====
import proofs.«169164_j46703474376898_1_alg».proof.Proof.Ref.Ops0
import proofs.«169164_j46703474376898_1_alg».proof.Proof.Ref.Ops1
import proofs.«169164_j46703474376898_1_alg».proof.Proof.Ref.Ops2
import proofs.«169164_j46703474376898_1_alg».proof.Proof.Ref.Ops3
import proofs.«169164_j46703474376898_1_alg».proof.Proof.Ref.Ops4
import proofs.«169164_j46703474376898_1_alg».proof.Proof.Ref.Ops5
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  chunk0 ++ (chunk1a ++ (chunk1b ++ (chunk1c ++ (chunk2a ++ (chunk2b ++ (chunk2c ++ (chunk3a ++ (chunk3b ++ (chunk3c ++ (chunk4a ++ (chunk4b ++ (chunk4c ++ (chunk5)))))))))))))

-- @main runs the operation list in seven consecutive stretches: the first 62 entries, then 85, 81, 64, 85, 83, and the rest.
abbrev r1 : List (HloOp τ sig (Elt F)) := ops.drop 62
abbrev r2 : List (HloOp τ sig (Elt F)) := r1.drop 85
abbrev r3 : List (HloOp τ sig (Elt F)) := r2.drop 81
abbrev r4 : List (HloOp τ sig (Elt F)) := r3.drop 64
abbrev r5 : List (HloOp τ sig (Elt F)) := r4.drop 85
abbrev r6 : List (HloOp τ sig (Elt F)) := r5.drop 83

theorem ops_cut : (ops : List (HloOp τ sig (Elt F))) = ops.take 62 ++ (r1.take 85 ++ (r2.take 81 ++ (r3.take 64 ++ (r4.take 85 ++ (r5.take 83 ++ r6))))) := by
  simp only [r6, r5, r4, r3, r2, r1, List.take_append_drop]

set_option maxRecDepth 8192 in
set_option maxHeartbeats 4000000 in
theorem main_part0_eq (c : Dev nD) : main_part0 (F := F) c = seq (ops.take 62) := by
  simp only [main_part0, fn_where.body, fn_where_0.body, fn_var.body, fn_relu.body, seq, bind_assoc, pure_bind]
  rfl

set_option maxRecDepth 8192 in
set_option maxHeartbeats 4000000 in
theorem main_part1_eq (c : Dev nD) : main_part1 (F := F) c = seq (r1.take 85) := by
  simp only [main_part1, fn_where.body, fn_where_0.body, fn_var.body, fn_relu.body, seq, bind_assoc, pure_bind]
  rfl

set_option maxRecDepth 8192 in
set_option maxHeartbeats 4000000 in
theorem main_part2_eq (c : Dev nD) : main_part2 (F := F) c = seq (r2.take 81) := by
  simp only [main_part2, fn_where.body, fn_where_0.body, fn_var.body, fn_relu.body, seq, bind_assoc, pure_bind]
  rfl

set_option maxRecDepth 8192 in
set_option maxHeartbeats 4000000 in
theorem main_part3_eq (c : Dev nD) : main_part3 (F := F) c = seq (r3.take 64) := by
  simp only [main_part3, fn_where.body, fn_where_0.body, fn_var.body, fn_relu.body, seq, bind_assoc, pure_bind]
  rfl

set_option maxRecDepth 8192 in
set_option maxHeartbeats 4000000 in
theorem main_part4_eq (c : Dev nD) : main_part4 (F := F) c = seq (r4.take 85) := by
  simp only [main_part4, fn_where.body, fn_where_0.body, fn_var.body, fn_relu.body, seq, bind_assoc, pure_bind]
  rfl

set_option maxRecDepth 8192 in
set_option maxHeartbeats 4000000 in
theorem main_part5_eq (c : Dev nD) : main_part5 (F := F) c = seq (r5.take 83) := by
  simp only [main_part5, fn_where.body, fn_where_0.body, fn_var.body, fn_relu.body, seq, bind_assoc, pure_bind]
  rfl

set_option maxRecDepth 8192 in
set_option maxHeartbeats 4000000 in
theorem main_part6_eq (c : Dev nD) : main_part6 (F := F) c = seq (r6) := by
  simp only [main_part6, fn_where.body, fn_where_0.body, fn_var.body, fn_relu.body, seq, bind_assoc, pure_bind]
  rfl

theorem main_eq (c : Dev nD) : main (F := F) c = seq ops := by
  rw [ops_cut]
  simp only [seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp chunk0_sub op h,
      List.forall_iff_forall_mem.mp chunk1a_sub op h,
      List.forall_iff_forall_mem.mp chunk1b_sub op h,
      List.forall_iff_forall_mem.mp chunk1c_sub op h,
      List.forall_iff_forall_mem.mp chunk2a_sub op h,
      List.forall_iff_forall_mem.mp chunk2b_sub op h,
      List.forall_iff_forall_mem.mp chunk2c_sub op h,
      List.forall_iff_forall_mem.mp chunk3a_sub op h,
      List.forall_iff_forall_mem.mp chunk3b_sub op h,
      List.forall_iff_forall_mem.mp chunk3c_sub op h,
      List.forall_iff_forall_mem.mp chunk4a_sub op h,
      List.forall_iff_forall_mem.mp chunk4b_sub op h,
      List.forall_iff_forall_mem.mp chunk4c_sub op h,
      List.forall_iff_forall_mem.mp chunk5_sub op h]

theorem ops_fresh : ∀ op ∈ (ops : List (HloOp τ sig (Elt F))), op.fresh = ∅ := fun op h => by
  simp only [ops, List.mem_append] at h
  rcases h with h | h | h | h | h | h | h | h | h | h | h | h | h | h
  exacts [List.forall_iff_forall_mem.mp chunk0_fresh op h,
    List.forall_iff_forall_mem.mp chunk1a_fresh op h,
    List.forall_iff_forall_mem.mp chunk1b_fresh op h,
    List.forall_iff_forall_mem.mp chunk1c_fresh op h,
    List.forall_iff_forall_mem.mp chunk2a_fresh op h,
    List.forall_iff_forall_mem.mp chunk2b_fresh op h,
    List.forall_iff_forall_mem.mp chunk2c_fresh op h,
    List.forall_iff_forall_mem.mp chunk3a_fresh op h,
    List.forall_iff_forall_mem.mp chunk3b_fresh op h,
    List.forall_iff_forall_mem.mp chunk3c_fresh op h,
    List.forall_iff_forall_mem.mp chunk4a_fresh op h,
    List.forall_iff_forall_mem.mp chunk4b_fresh op h,
    List.forall_iff_forall_mem.mp chunk4c_fresh op h,
    List.forall_iff_forall_mem.mp chunk5_fresh op h]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ (fun _ => ops_fresh)

end Cert.ReferenceIdeal.Hand

end
-- ==== Proof.Ref.WriteList.lean ====
import Idealize.ShloMosaic.Lib.StableHlo.Run

namespace Idealize.ShloMosaic.StableHlo

open Idealize.SL.Sem

variable {τ : Topo} {sig : RefSig} {Val : EltTy → Type}

theorem writes_sub_of_mem {op : HloOp τ sig Val} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Idealize.ShloMosaic.StableHlo
-- ==== Proof.Ref.Writes.lean ====
/- What each chunk of the reference program's operation list writes. An entry of a chunk writes exactly one buffer, its
   result; the list chunkK_W names those buffers in the entries' order, chunkK_writes says entry by entry that the
   entry's written set is inside the list, and chunkK_frame (chunkK_frame' for simp) concludes that a buffer NOT in the list holds after the
   chunk what it held before: a fold of updates leaves alone every place none of them updates. -/
import proofs.«169164_j46703474376898_1_alg».proof.Proof.Ref.Ops0
import proofs.«169164_j46703474376898_1_alg».proof.Proof.Ref.Ops1
import proofs.«169164_j46703474376898_1_alg».proof.Proof.Ref.Ops2
import proofs.«169164_j46703474376898_1_alg».proof.Proof.Ref.Ops3
import proofs.«169164_j46703474376898_1_alg».proof.Proof.Ref.Ops4
import proofs.«169164_j46703474376898_1_alg».proof.Proof.Ref.Ops5
import proofs.«169164_j46703474376898_1_alg».proof.Proof.Ref.WriteList

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references `chunk0`'s 12 entries write, in the entries' order. -/
abbrev chunk0_W : List (Ref sig .tc) :=
  [main_v0, main_v1, main_v2, main_v3, main_v4, main_v5, main_v6, main_v7, main_v8, main_v9, main_v10, main_v11]
set_option maxRecDepth 8192 in
/-- Every entry of `chunk0` writes one reference of `chunk0_W`: entry by entry, its builder's written set is that singleton. -/
theorem chunk0_writes : (chunk0 : List (HloOp τ sig (Elt F))).Forall fun op => op.writes ⊆ (chunk0_W.map (Proc.devRef (τ := τ) .tc)).toFinset :=
  ⟨writes_sub_of_mem (y := main_v0) rfl (by decide), writes_sub_of_mem (y := main_v1) rfl (by decide), writes_sub_of_mem (y := main_v2) rfl (by decide), writes_sub_of_mem (y := main_v3) rfl (by decide), writes_sub_of_mem (y := main_v4) rfl (by decide), writes_sub_of_mem (y := main_v5) rfl (by decide), writes_sub_of_mem (y := main_v6) rfl (by decide), writes_sub_of_mem (y := main_v7) rfl (by decide), writes_sub_of_mem (y := main_v8) rfl (by decide), writes_sub_of_mem (y := main_v9) rfl (by decide), writes_sub_of_mem (y := main_v10) rfl (by decide), writes_sub_of_mem (y := main_v11) rfl (by decide)⟩
/-- A reference `chunk0` does not write holds after it what it held before. -/
theorem chunk0_frame {r : Ref sig .tc} (h : r ∉ chunk0_W) (V : Valuation τ sig (Elt F)) :
    StableHlo.after chunk0 V (Proc.devRef .tc r) = V (Proc.devRef .tc r) :=
  StableHlo.after_of_writes_sub chunk0 V chunk0_writes h
/-- The same for rewriting by simplification: the chunk and the buffer stay out of the pattern's index, so that the statement is found at any reference. -/
theorem chunk0_frame' {r : Ref sig .tc} (h : r ∉ chunk0_W) (V : Valuation τ sig (Elt F)) :
    StableHlo.after (no_index chunk0) V (no_index (Proc.devRef .tc r)) = V (Proc.devRef .tc r) :=
  chunk0_frame h V

/-- The references `chunk1a`'s 2 entries write, in the entries' order. -/
abbrev chunk1a_W : List (Ref sig .tc) :=
  [main_v12, main_v13]
set_option maxRecDepth 8192 in
/-- Every entry of `chunk1a` writes one reference of `chunk1a_W`: entry by entry, its builder's written set is that singleton. -/
theorem chunk1a_writes : (chunk1a : List (HloOp τ sig (Elt F))).Forall fun op => op.writes ⊆ (chunk1a_W.map (Proc.devRef (τ := τ) .tc)).toFinset :=
  ⟨writes_sub_of_mem (y := main_v12) rfl (by decide), writes_sub_of_mem (y := main_v13) rfl (by decide)⟩
/-- A reference `chunk1a` does not write holds after it what it held before. -/
theorem chunk1a_frame {r : Ref sig .tc} (h : r ∉ chunk1a_W) (V : Valuation τ sig (Elt F)) :
    StableHlo.after chunk1a V (Proc.devRef .tc r) = V (Proc.devRef .tc r) :=
  StableHlo.after_of_writes_sub chunk1a V chunk1a_writes h
/-- The same for rewriting by simplification: the chunk and the buffer stay out of the pattern's index, so that the statement is found at any reference. -/
theorem chunk1a_frame' {r : Ref sig .tc} (h : r ∉ chunk1a_W) (V : Valuation τ sig (Elt F)) :
    StableHlo.after (no_index chunk1a) V (no_index (Proc.devRef .tc r)) = V (Proc.devRef .tc r) :=
  chunk1a_frame h V

/-- The references `chunk1b`'s 56 entries write, in the entries' order. -/
abbrev chunk1b_W : List (Ref sig .tc) :=
  [main_v14, main_v15, main_cst, main_v16, main_v17, main_cst_0, main_v18, main_v19, main_v20, main_cst_1, main_v21, main_v22, main_v23, main_cst_2, main_call0.v0.ref, main_call0.v1.ref, main_call0.v2.ref, main_c, main_v25, main_v26, main_c_3, main_v27, main_v28, main_v29, main_v30, main_v31, main_v32, main_c_4, main_v33, main_v34, main_c_5, main_v35, main_v36, main_v37, main_v38, main_v39, main_v40, main_c_6, main_v41, main_v42, main_c_7, main_v43, main_v44, main_v45, main_v46, main_v47, main_v48, main_v49, main_v50, main_cst_8, main_v51, main_v52, main_v53, main_v54, main_v55, main_v56]
set_option maxRecDepth 8192 in
/-- Every entry of `chunk1b` writes one reference of `chunk1b_W`: entry by entry, its builder's written set is that singleton. -/
theorem chunk1b_writes : (chunk1b : List (HloOp τ sig (Elt F))).Forall fun op => op.writes ⊆ (chunk1b_W.map (Proc.devRef (τ := τ) .tc)).toFinset :=
  ⟨writes_sub_of_mem (y := main_v14) rfl (by decide), writes_sub_of_mem (y := main_v15) rfl (by decide), writes_sub_of_mem (y := main_cst) rfl (by decide), writes_sub_of_mem (y := main_v16) rfl (by decide), writes_sub_of_mem (y := main_v17) rfl (by decide), writes_sub_of_mem (y := main_cst_0) rfl (by decide), writes_sub_of_mem (y := main_v18) rfl (by decide), writes_sub_of_mem (y := main_v19) rfl (by decide), writes_sub_of_mem (y := main_v20) rfl (by decide), writes_sub_of_mem (y := main_cst_1) rfl (by decide), writes_sub_of_mem (y := main_v21) rfl (by decide), writes_sub_of_mem (y := main_v22) rfl (by decide), writes_sub_of_mem (y := main_v23) rfl (by decide), writes_sub_of_mem (y := main_cst_2) rfl (by decide), writes_sub_of_mem (y := main_call0.v0.ref) rfl (by decide), writes_sub_of_mem (y := main_call0.v1.ref) rfl (by decide), writes_sub_of_mem (y := main_call0.v2.ref) rfl (by decide), writes_sub_of_mem (y := main_c) rfl (by decide), writes_sub_of_mem (y := main_v25) rfl (by decide), writes_sub_of_mem (y := main_v26) rfl (by decide), writes_sub_of_mem (y := main_c_3) rfl (by decide), writes_sub_of_mem (y := main_v27) rfl (by decide), writes_sub_of_mem (y := main_v28) rfl (by decide), writes_sub_of_mem (y := main_v29) rfl (by decide), writes_sub_of_mem (y := main_v30) rfl (by decide), writes_sub_of_mem (y := main_v31) rfl (by decide), writes_sub_of_mem (y := main_v32) rfl (by decide), writes_sub_of_mem (y := main_c_4) rfl (by decide), writes_sub_of_mem (y := main_v33) rfl (by decide), writes_sub_of_mem (y := main_v34) rfl (by decide), writes_sub_of_mem (y := main_c_5) rfl (by decide), writes_sub_of_mem (y := main_v35) rfl (by decide), writes_sub_of_mem (y := main_v36) rfl (by decide), writes_sub_of_mem (y := main_v37) rfl (by decide), writes_sub_of_mem (y := main_v38) rfl (by decide), writes_sub_of_mem (y := main_v39) rfl (by decide), writes_sub_of_mem (y := main_v40) rfl (by decide), writes_sub_of_mem (y := main_c_6) rfl (by decide), writes_sub_of_mem (y := main_v41) rfl (by decide), writes_sub_of_mem (y := main_v42) rfl (by decide), writes_sub_of_mem (y := main_c_7) rfl (by decide), writes_sub_of_mem (y := main_v43) rfl (by decide), writes_sub_of_mem (y := main_v44) rfl (by decide), writes_sub_of_mem (y := main_v45) rfl (by decide), writes_sub_of_mem (y := main_v46) rfl (by decide), writes_sub_of_mem (y := main_v47) rfl (by decide), writes_sub_of_mem (y := main_v48) rfl (by decide), writes_sub_of_mem (y := main_v49) rfl (by decide), writes_sub_of_mem (y := main_v50) rfl (by decide), writes_sub_of_mem (y := main_cst_8) rfl (by decide), writes_sub_of_mem (y := main_v51) rfl (by decide), writes_sub_of_mem (y := main_v52) rfl (by decide), writes_sub_of_mem (y := main_v53) rfl (by decide), writes_sub_of_mem (y := main_v54) rfl (by decide), writes_sub_of_mem (y := main_v55) rfl (by decide), writes_sub_of_mem (y := main_v56) rfl (by decide)⟩
/-- A reference `chunk1b` does not write holds after it what it held before. -/
theorem chunk1b_frame {r : Ref sig .tc} (h : r ∉ chunk1b_W) (V : Valuation τ sig (Elt F)) :
    StableHlo.after chunk1b V (Proc.devRef .tc r) = V (Proc.devRef .tc r) :=
  StableHlo.after_of_writes_sub chunk1b V chunk1b_writes h
/-- The same for rewriting by simplification: the chunk and the buffer stay out of the pattern's index, so that the statement is found at any reference. -/
theorem chunk1b_frame' {r : Ref sig .tc} (h : r ∉ chunk1b_W) (V : Valuation τ sig (Elt F)) :
    StableHlo.after (no_index chunk1b) V (no_index (Proc.devRef .tc r)) = V (Proc.devRef .tc r) :=
  chunk1b_frame h V

/-- The references `chunk1c`'s 51 entries write, in the entries' order. -/
abbrev chunk1c_W : List (Ref sig .tc) :=
  [main_v57, main_v58, main_v59, main_v60, main_cst_9, main_v61, main_cst_10, main_v62, main_v63, main_c_11, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v65, main_v66, main_v67, main_cst_12, main_v68, main_v69, main_v70, main_v71, main_v72, main_v73, main_v74, main_v75, main_v76, main_v77, main_v78, main_v79, main_call2.cst.ref, main_call2.v0.ref, main_call2.v1.ref]
set_option maxRecDepth 8192 in
/-- Every entry of `chunk1c` writes one reference of `chunk1c_W`: entry by entry, its builder's written set is that singleton. -/
theorem chunk1c_writes : (chunk1c : List (HloOp τ sig (Elt F))).Forall fun op => op.writes ⊆ (chunk1c_W.map (Proc.devRef (τ := τ) .tc)).toFinset :=
  ⟨writes_sub_of_mem (y := main_v57) rfl (by decide), writes_sub_of_mem (y := main_v58) rfl (by decide), writes_sub_of_mem (y := main_v59) rfl (by decide), writes_sub_of_mem (y := main_v60) rfl (by decide), writes_sub_of_mem (y := main_cst_9) rfl (by decide), writes_sub_of_mem (y := main_v61) rfl (by decide), writes_sub_of_mem (y := main_cst_10) rfl (by decide), writes_sub_of_mem (y := main_v62) rfl (by decide), writes_sub_of_mem (y := main_v63) rfl (by decide), writes_sub_of_mem (y := main_c_11) rfl (by decide), writes_sub_of_mem (y := main_call1.cst.ref) rfl (by decide), writes_sub_of_mem (y := main_call1.v0.ref) rfl (by decide), writes_sub_of_mem (y := main_call1.v1.ref) rfl (by decide), writes_sub_of_mem (y := main_call1.cst_0.ref) rfl (by decide), writes_sub_of_mem (y := main_call1.v2.ref) rfl (by decide), writes_sub_of_mem (y := main_call1.v3.ref) rfl (by decide), writes_sub_of_mem (y := main_call1.v4.ref) rfl (by decide), writes_sub_of_mem (y := main_call1.v5.ref) rfl (by decide), writes_sub_of_mem (y := main_call1.v6.ref) rfl (by decide), writes_sub_of_mem (y := main_call1.v7.ref) rfl (by decide), writes_sub_of_mem (y := main_call1.cst_1.ref) rfl (by decide), writes_sub_of_mem (y := main_call1.v8.ref) rfl (by decide), writes_sub_of_mem (y := main_call1.cst_2.ref) rfl (by decide), writes_sub_of_mem (y := main_call1.v9.ref) rfl (by decide), writes_sub_of_mem (y := main_call1.v10.ref) rfl (by decide), writes_sub_of_mem (y := main_call1.v11.ref) rfl (by decide), writes_sub_of_mem (y := main_call1.cst_3.ref) rfl (by decide), writes_sub_of_mem (y := main_call1.v12.ref) rfl (by decide), writes_sub_of_mem (y := main_call1.cst_4.ref) rfl (by decide), writes_sub_of_mem (y := main_call1.call0.v0.ref) rfl (by decide), writes_sub_of_mem (y := main_call1.call0.v1.ref) rfl (by decide), writes_sub_of_mem (y := main_call1.call0.v2.ref) rfl (by decide), writes_sub_of_mem (y := main_v65) rfl (by decide), writes_sub_of_mem (y := main_v66) rfl (by decide), writes_sub_of_mem (y := main_v67) rfl (by decide), writes_sub_of_mem (y := main_cst_12) rfl (by decide), writes_sub_of_mem (y := main_v68) rfl (by decide), writes_sub_of_mem (y := main_v69) rfl (by decide), writes_sub_of_mem (y := main_v70) rfl (by decide), writes_sub_of_mem (y := main_v71) rfl (by decide), writes_sub_of_mem (y := main_v72) rfl (by decide), writes_sub_of_mem (y := main_v73) rfl (by decide), writes_sub_of_mem (y := main_v74) rfl (by decide), writes_sub_of_mem (y := main_v75) rfl (by decide), writes_sub_of_mem (y := main_v76) rfl (by decide), writes_sub_of_mem (y := main_v77) rfl (by decide), writes_sub_of_mem (y := main_v78) rfl (by decide), writes_sub_of_mem (y := main_v79) rfl (by decide), writes_sub_of_mem (y := main_call2.cst.ref) rfl (by decide), writes_sub_of_mem (y := main_call2.v0.ref) rfl (by decide), writes_sub_of_mem (y := main_call2.v1.ref) rfl (by decide)⟩
/-- A reference `chunk1c` does not write holds after it what it held before. -/
theorem chunk1c_frame {r : Ref sig .tc} (h : r ∉ chunk1c_W) (V : Valuation τ sig (Elt F)) :
    StableHlo.after chunk1c V (Proc.devRef .tc r) = V (Proc.devRef .tc r) :=
  StableHlo.after_of_writes_sub chunk1c V chunk1c_writes h
/-- The same for rewriting by simplification: the chunk and the buffer stay out of the pattern's index, so that the statement is found at any reference. -/
theorem chunk1c_frame' {r : Ref sig .tc} (h : r ∉ chunk1c_W) (V : Valuation τ sig (Elt F)) :
    StableHlo.after (no_index chunk1c) V (no_index (Proc.devRef .tc r)) = V (Proc.devRef .tc r) :=
  chunk1c_frame h V

/-- The references `chunk2a`'s 6 entries write, in the entries' order. -/
abbrev chunk2a_W : List (Ref sig .tc) :=
  [main_v81, main_v82, main_v83, main_v84, main_v85, main_v86]
set_option maxRecDepth 8192 in
/-- Every entry of `chunk2a` writes one reference of `chunk2a_W`: entry by entry, its builder's written set is that singleton. -/
theorem chunk2a_writes : (chunk2a : List (HloOp τ sig (Elt F))).Forall fun op => op.writes ⊆ (chunk2a_W.map (Proc.devRef (τ := τ) .tc)).toFinset :=
  ⟨writes_sub_of_mem (y := main_v81) rfl (by decide), writes_sub_of_mem (y := main_v82) rfl (by decide), writes_sub_of_mem (y := main_v83) rfl (by decide), writes_sub_of_mem (y := main_v84) rfl (by decide), writes_sub_of_mem (y := main_v85) rfl (by decide), writes_sub_of_mem (y := main_v86) rfl (by decide)⟩
/-- A reference `chunk2a` does not write holds after it what it held before. -/
theorem chunk2a_frame {r : Ref sig .tc} (h : r ∉ chunk2a_W) (V : Valuation τ sig (Elt F)) :
    StableHlo.after chunk2a V (Proc.devRef .tc r) = V (Proc.devRef .tc r) :=
  StableHlo.after_of_writes_sub chunk2a V chunk2a_writes h
/-- The same for rewriting by simplification: the chunk and the buffer stay out of the pattern's index, so that the statement is found at any reference. -/
theorem chunk2a_frame' {r : Ref sig .tc} (h : r ∉ chunk2a_W) (V : Valuation τ sig (Elt F)) :
    StableHlo.after (no_index chunk2a) V (no_index (Proc.devRef .tc r)) = V (Proc.devRef .tc r) :=
  chunk2a_frame h V

/-- The references `chunk2b`'s 56 entries write, in the entries' order. -/
abbrev chunk2b_W : List (Ref sig .tc) :=
  [main_v87, main_v88, main_cst_13, main_v89, main_v90, main_cst_14, main_v91, main_v92, main_v93, main_cst_15, main_v94, main_v95, main_v96, main_cst_16, main_call3.v0.ref, main_call3.v1.ref, main_call3.v2.ref, main_c_17, main_v98, main_v99, main_c_18, main_v100, main_v101, main_v102, main_v103, main_v104, main_v105, main_c_19, main_v106, main_v107, main_c_20, main_v108, main_v109, main_v110, main_v111, main_v112, main_v113, main_c_21, main_v114, main_v115, main_c_22, main_v116, main_v117, main_v118, main_v119, main_v120, main_v121, main_v122, main_v123, main_cst_23, main_v124, main_v125, main_v126, main_v127, main_v128, main_v129]
set_option maxRecDepth 8192 in
/-- Every entry of `chunk2b` writes one reference of `chunk2b_W`: entry by entry, its builder's written set is that singleton. -/
theorem chunk2b_writes : (chunk2b : List (HloOp τ sig (Elt F))).Forall fun op => op.writes ⊆ (chunk2b_W.map (Proc.devRef (τ := τ) .tc)).toFinset :=
  ⟨writes_sub_of_mem (y := main_v87) rfl (by decide), writes_sub_of_mem (y := main_v88) rfl (by decide), writes_sub_of_mem (y := main_cst_13) rfl (by decide), writes_sub_of_mem (y := main_v89) rfl (by decide), writes_sub_of_mem (y := main_v90) rfl (by decide), writes_sub_of_mem (y := main_cst_14) rfl (by decide), writes_sub_of_mem (y := main_v91) rfl (by decide), writes_sub_of_mem (y := main_v92) rfl (by decide), writes_sub_of_mem (y := main_v93) rfl (by decide), writes_sub_of_mem (y := main_cst_15) rfl (by decide), writes_sub_of_mem (y := main_v94) rfl (by decide), writes_sub_of_mem (y := main_v95) rfl (by decide), writes_sub_of_mem (y := main_v96) rfl (by decide), writes_sub_of_mem (y := main_cst_16) rfl (by decide), writes_sub_of_mem (y := main_call3.v0.ref) rfl (by decide), writes_sub_of_mem (y := main_call3.v1.ref) rfl (by decide), writes_sub_of_mem (y := main_call3.v2.ref) rfl (by decide), writes_sub_of_mem (y := main_c_17) rfl (by decide), writes_sub_of_mem (y := main_v98) rfl (by decide), writes_sub_of_mem (y := main_v99) rfl (by decide), writes_sub_of_mem (y := main_c_18) rfl (by decide), writes_sub_of_mem (y := main_v100) rfl (by decide), writes_sub_of_mem (y := main_v101) rfl (by decide), writes_sub_of_mem (y := main_v102) rfl (by decide), writes_sub_of_mem (y := main_v103) rfl (by decide), writes_sub_of_mem (y := main_v104) rfl (by decide), writes_sub_of_mem (y := main_v105) rfl (by decide), writes_sub_of_mem (y := main_c_19) rfl (by decide), writes_sub_of_mem (y := main_v106) rfl (by decide), writes_sub_of_mem (y := main_v107) rfl (by decide), writes_sub_of_mem (y := main_c_20) rfl (by decide), writes_sub_of_mem (y := main_v108) rfl (by decide), writes_sub_of_mem (y := main_v109) rfl (by decide), writes_sub_of_mem (y := main_v110) rfl (by decide), writes_sub_of_mem (y := main_v111) rfl (by decide), writes_sub_of_mem (y := main_v112) rfl (by decide), writes_sub_of_mem (y := main_v113) rfl (by decide), writes_sub_of_mem (y := main_c_21) rfl (by decide), writes_sub_of_mem (y := main_v114) rfl (by decide), writes_sub_of_mem (y := main_v115) rfl (by decide), writes_sub_of_mem (y := main_c_22) rfl (by decide), writes_sub_of_mem (y := main_v116) rfl (by decide), writes_sub_of_mem (y := main_v117) rfl (by decide), writes_sub_of_mem (y := main_v118) rfl (by decide), writes_sub_of_mem (y := main_v119) rfl (by decide), writes_sub_of_mem (y := main_v120) rfl (by decide), writes_sub_of_mem (y := main_v121) rfl (by decide), writes_sub_of_mem (y := main_v122) rfl (by decide), writes_sub_of_mem (y := main_v123) rfl (by decide), writes_sub_of_mem (y := main_cst_23) rfl (by decide), writes_sub_of_mem (y := main_v124) rfl (by decide), writes_sub_of_mem (y := main_v125) rfl (by decide), writes_sub_of_mem (y := main_v126) rfl (by decide), writes_sub_of_mem (y := main_v127) rfl (by decide), writes_sub_of_mem (y := main_v128) rfl (by decide), writes_sub_of_mem (y := main_v129) rfl (by decide)⟩
/-- A reference `chunk2b` does not write holds after it what it held before. -/
theorem chunk2b_frame {r : Ref sig .tc} (h : r ∉ chunk2b_W) (V : Valuation τ sig (Elt F)) :
    StableHlo.after chunk2b V (Proc.devRef .tc r) = V (Proc.devRef .tc r) :=
  StableHlo.after_of_writes_sub chunk2b V chunk2b_writes h
/-- The same for rewriting by simplification: the chunk and the buffer stay out of the pattern's index, so that the statement is found at any reference. -/
theorem chunk2b_frame' {r : Ref sig .tc} (h : r ∉ chunk2b_W) (V : Valuation τ sig (Elt F)) :
    StableHlo.after (no_index chunk2b) V (no_index (Proc.devRef .tc r)) = V (Proc.devRef .tc r) :=
  chunk2b_frame h V

/-- The references `chunk2c`'s 51 entries write, in the entries' order. -/
abbrev chunk2c_W : List (Ref sig .tc) :=
  [main_v130, main_v131, main_v132, main_v133, main_cst_24, main_v134, main_cst_25, main_v135, main_v136, main_c_26, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v138, main_v139, main_v140, main_cst_27, main_v141, main_v142, main_v143, main_v144, main_v145, main_v146, main_v147, main_v148, main_v149, main_v150, main_v151, main_v152, main_call5.cst.ref, main_call5.v0.ref, main_call5.v1.ref]
set_option maxRecDepth 8192 in
/-- Every entry of `chunk2c` writes one reference of `chunk2c_W`: entry by entry, its builder's written set is that singleton. -/
theorem chunk2c_writes : (chunk2c : List (HloOp τ sig (Elt F))).Forall fun op => op.writes ⊆ (chunk2c_W.map (Proc.devRef (τ := τ) .tc)).toFinset :=
  ⟨writes_sub_of_mem (y := main_v130) rfl (by decide), writes_sub_of_mem (y := main_v131) rfl (by decide), writes_sub_of_mem (y := main_v132) rfl (by decide), writes_sub_of_mem (y := main_v133) rfl (by decide), writes_sub_of_mem (y := main_cst_24) rfl (by decide), writes_sub_of_mem (y := main_v134) rfl (by decide), writes_sub_of_mem (y := main_cst_25) rfl (by decide), writes_sub_of_mem (y := main_v135) rfl (by decide), writes_sub_of_mem (y := main_v136) rfl (by decide), writes_sub_of_mem (y := main_c_26) rfl (by decide), writes_sub_of_mem (y := main_call4.cst.ref) rfl (by decide), writes_sub_of_mem (y := main_call4.v0.ref) rfl (by decide), writes_sub_of_mem (y := main_call4.v1.ref) rfl (by decide), writes_sub_of_mem (y := main_call4.cst_0.ref) rfl (by decide), writes_sub_of_mem (y := main_call4.v2.ref) rfl (by decide), writes_sub_of_mem (y := main_call4.v3.ref) rfl (by decide), writes_sub_of_mem (y := main_call4.v4.ref) rfl (by decide), writes_sub_of_mem (y := main_call4.v5.ref) rfl (by decide), writes_sub_of_mem (y := main_call4.v6.ref) rfl (by decide), writes_sub_of_mem (y := main_call4.v7.ref) rfl (by decide), writes_sub_of_mem (y := main_call4.cst_1.ref) rfl (by decide), writes_sub_of_mem (y := main_call4.v8.ref) rfl (by decide), writes_sub_of_mem (y := main_call4.cst_2.ref) rfl (by decide), writes_sub_of_mem (y := main_call4.v9.ref) rfl (by decide), writes_sub_of_mem (y := main_call4.v10.ref) rfl (by decide), writes_sub_of_mem (y := main_call4.v11.ref) rfl (by decide), writes_sub_of_mem (y := main_call4.cst_3.ref) rfl (by decide), writes_sub_of_mem (y := main_call4.v12.ref) rfl (by decide), writes_sub_of_mem (y := main_call4.cst_4.ref) rfl (by decide), writes_sub_of_mem (y := main_call4.call0.v0.ref) rfl (by decide), writes_sub_of_mem (y := main_call4.call0.v1.ref) rfl (by decide), writes_sub_of_mem (y := main_call4.call0.v2.ref) rfl (by decide), writes_sub_of_mem (y := main_v138) rfl (by decide), writes_sub_of_mem (y := main_v139) rfl (by decide), writes_sub_of_mem (y := main_v140) rfl (by decide), writes_sub_of_mem (y := main_cst_27) rfl (by decide), writes_sub_of_mem (y := main_v141) rfl (by decide), writes_sub_of_mem (y := main_v142) rfl (by decide), writes_sub_of_mem (y := main_v143) rfl (by decide), writes_sub_of_mem (y := main_v144) rfl (by decide), writes_sub_of_mem (y := main_v145) rfl (by decide), writes_sub_of_mem (y := main_v146) rfl (by decide), writes_sub_of_mem (y := main_v147) rfl (by decide), writes_sub_of_mem (y := main_v148) rfl (by decide), writes_sub_of_mem (y := main_v149) rfl (by decide), writes_sub_of_mem (y := main_v150) rfl (by decide), writes_sub_of_mem (y := main_v151) rfl (by decide), writes_sub_of_mem (y := main_v152) rfl (by decide), writes_sub_of_mem (y := main_call5.cst.ref) rfl (by decide), writes_sub_of_mem (y := main_call5.v0.ref) rfl (by decide), writes_sub_of_mem (y := main_call5.v1.ref) rfl (by decide)⟩
/-- A reference `chunk2c` does not write holds after it what it held before. -/
theorem chunk2c_frame {r : Ref sig .tc} (h : r ∉ chunk2c_W) (V : Valuation τ sig (Elt F)) :
    StableHlo.after chunk2c V (Proc.devRef .tc r) = V (Proc.devRef .tc r) :=
  StableHlo.after_of_writes_sub chunk2c V chunk2c_writes h
/-- The same for rewriting by simplification: the chunk and the buffer stay out of the pattern's index, so that the statement is found at any reference. -/
theorem chunk2c_frame' {r : Ref sig .tc} (h : r ∉ chunk2c_W) (V : Valuation τ sig (Elt F)) :
    StableHlo.after (no_index chunk2c) V (no_index (Proc.devRef .tc r)) = V (Proc.devRef .tc r) :=
  chunk2c_frame h V

/-- The references `chunk3a`'s 6 entries write, in the entries' order. -/
abbrev chunk3a_W : List (Ref sig .tc) :=
  [main_v154, main_v155, main_v156, main_v157, main_v158, main_v159]
set_option maxRecDepth 8192 in
/-- Every entry of `chunk3a` writes one reference of `chunk3a_W`: entry by entry, its builder's written set is that singleton. -/
theorem chunk3a_writes : (chunk3a : List (HloOp τ sig (Elt F))).Forall fun op => op.writes ⊆ (chunk3a_W.map (Proc.devRef (τ := τ) .tc)).toFinset :=
  ⟨writes_sub_of_mem (y := main_v154) rfl (by decide), writes_sub_of_mem (y := main_v155) rfl (by decide), writes_sub_of_mem (y := main_v156) rfl (by decide), writes_sub_of_mem (y := main_v157) rfl (by decide), writes_sub_of_mem (y := main_v158) rfl (by decide), writes_sub_of_mem (y := main_v159) rfl (by decide)⟩
/-- A reference `chunk3a` does not write holds after it what it held before. -/
theorem chunk3a_frame {r : Ref sig .tc} (h : r ∉ chunk3a_W) (V : Valuation τ sig (Elt F)) :
    StableHlo.after chunk3a V (Proc.devRef .tc r) = V (Proc.devRef .tc r) :=
  StableHlo.after_of_writes_sub chunk3a V chunk3a_writes h
/-- The same for rewriting by simplification: the chunk and the buffer stay out of the pattern's index, so that the statement is found at any reference. -/
theorem chunk3a_frame' {r : Ref sig .tc} (h : r ∉ chunk3a_W) (V : Valuation τ sig (Elt F)) :
    StableHlo.after (no_index chunk3a) V (no_index (Proc.devRef .tc r)) = V (Proc.devRef .tc r) :=
  chunk3a_frame h V

/-- The references `chunk3b`'s 56 entries write, in the entries' order. -/
abbrev chunk3b_W : List (Ref sig .tc) :=
  [main_v160, main_v161, main_cst_28, main_v162, main_v163, main_cst_29, main_v164, main_v165, main_v166, main_cst_30, main_v167, main_v168, main_v169, main_cst_31, main_call6.v0.ref, main_call6.v1.ref, main_call6.v2.ref, main_c_32, main_v171, main_v172, main_c_33, main_v173, main_v174, main_v175, main_v176, main_v177, main_v178, main_c_34, main_v179, main_v180, main_c_35, main_v181, main_v182, main_v183, main_v184, main_v185, main_v186, main_c_36, main_v187, main_v188, main_c_37, main_v189, main_v190, main_v191, main_v192, main_v193, main_v194, main_v195, main_v196, main_cst_38, main_v197, main_v198, main_v199, main_v200, main_v201, main_v202]
set_option maxRecDepth 8192 in
/-- Every entry of `chunk3b` writes one reference of `chunk3b_W`: entry by entry, its builder's written set is that singleton. -/
theorem chunk3b_writes : (chunk3b : List (HloOp τ sig (Elt F))).Forall fun op => op.writes ⊆ (chunk3b_W.map (Proc.devRef (τ := τ) .tc)).toFinset :=
  ⟨writes_sub_of_mem (y := main_v160) rfl (by decide), writes_sub_of_mem (y := main_v161) rfl (by decide), writes_sub_of_mem (y := main_cst_28) rfl (by decide), writes_sub_of_mem (y := main_v162) rfl (by decide), writes_sub_of_mem (y := main_v163) rfl (by decide), writes_sub_of_mem (y := main_cst_29) rfl (by decide), writes_sub_of_mem (y := main_v164) rfl (by decide), writes_sub_of_mem (y := main_v165) rfl (by decide), writes_sub_of_mem (y := main_v166) rfl (by decide), writes_sub_of_mem (y := main_cst_30) rfl (by decide), writes_sub_of_mem (y := main_v167) rfl (by decide), writes_sub_of_mem (y := main_v168) rfl (by decide), writes_sub_of_mem (y := main_v169) rfl (by decide), writes_sub_of_mem (y := main_cst_31) rfl (by decide), writes_sub_of_mem (y := main_call6.v0.ref) rfl (by decide), writes_sub_of_mem (y := main_call6.v1.ref) rfl (by decide), writes_sub_of_mem (y := main_call6.v2.ref) rfl (by decide), writes_sub_of_mem (y := main_c_32) rfl (by decide), writes_sub_of_mem (y := main_v171) rfl (by decide), writes_sub_of_mem (y := main_v172) rfl (by decide), writes_sub_of_mem (y := main_c_33) rfl (by decide), writes_sub_of_mem (y := main_v173) rfl (by decide), writes_sub_of_mem (y := main_v174) rfl (by decide), writes_sub_of_mem (y := main_v175) rfl (by decide), writes_sub_of_mem (y := main_v176) rfl (by decide), writes_sub_of_mem (y := main_v177) rfl (by decide), writes_sub_of_mem (y := main_v178) rfl (by decide), writes_sub_of_mem (y := main_c_34) rfl (by decide), writes_sub_of_mem (y := main_v179) rfl (by decide), writes_sub_of_mem (y := main_v180) rfl (by decide), writes_sub_of_mem (y := main_c_35) rfl (by decide), writes_sub_of_mem (y := main_v181) rfl (by decide), writes_sub_of_mem (y := main_v182) rfl (by decide), writes_sub_of_mem (y := main_v183) rfl (by decide), writes_sub_of_mem (y := main_v184) rfl (by decide), writes_sub_of_mem (y := main_v185) rfl (by decide), writes_sub_of_mem (y := main_v186) rfl (by decide), writes_sub_of_mem (y := main_c_36) rfl (by decide), writes_sub_of_mem (y := main_v187) rfl (by decide), writes_sub_of_mem (y := main_v188) rfl (by decide), writes_sub_of_mem (y := main_c_37) rfl (by decide), writes_sub_of_mem (y := main_v189) rfl (by decide), writes_sub_of_mem (y := main_v190) rfl (by decide), writes_sub_of_mem (y := main_v191) rfl (by decide), writes_sub_of_mem (y := main_v192) rfl (by decide), writes_sub_of_mem (y := main_v193) rfl (by decide), writes_sub_of_mem (y := main_v194) rfl (by decide), writes_sub_of_mem (y := main_v195) rfl (by decide), writes_sub_of_mem (y := main_v196) rfl (by decide), writes_sub_of_mem (y := main_cst_38) rfl (by decide), writes_sub_of_mem (y := main_v197) rfl (by decide), writes_sub_of_mem (y := main_v198) rfl (by decide), writes_sub_of_mem (y := main_v199) rfl (by decide), writes_sub_of_mem (y := main_v200) rfl (by decide), writes_sub_of_mem (y := main_v201) rfl (by decide), writes_sub_of_mem (y := main_v202) rfl (by decide)⟩
/-- A reference `chunk3b` does not write holds after it what it held before. -/
theorem chunk3b_frame {r : Ref sig .tc} (h : r ∉ chunk3b_W) (V : Valuation τ sig (Elt F)) :
    StableHlo.after chunk3b V (Proc.devRef .tc r) = V (Proc.devRef .tc r) :=
  StableHlo.after_of_writes_sub chunk3b V chunk3b_writes h
/-- The same for rewriting by simplification: the chunk and the buffer stay out of the pattern's index, so that the statement is found at any reference. -/
theorem chunk3b_frame' {r : Ref sig .tc} (h : r ∉ chunk3b_W) (V : Valuation τ sig (Elt F)) :
    StableHlo.after (no_index chunk3b) V (no_index (Proc.devRef .tc r)) = V (Proc.devRef .tc r) :=
  chunk3b_frame h V

/-- The references `chunk3c`'s 51 entries write, in the entries' order. -/
abbrev chunk3c_W : List (Ref sig .tc) :=
  [main_v203, main_v204, main_v205, main_v206, main_cst_39, main_v207, main_cst_40, main_v208, main_v209, main_c_41, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref, main_v211, main_v212, main_v213, main_cst_42, main_v214, main_v215, main_v216, main_v217, main_v218, main_v219, main_v220, main_v221, main_v222, main_v223, main_v224, main_v225, main_call8.cst.ref, main_call8.v0.ref, main_call8.v1.ref]
set_option maxRecDepth 8192 in
/-- Every entry of `chunk3c` writes one reference of `chunk3c_W`: entry by entry, its builder's written set is that singleton. -/
theorem chunk3c_writes : (chunk3c : List (HloOp τ sig (Elt F))).Forall fun op => op.writes ⊆ (chunk3c_W.map (Proc.devRef (τ := τ) .tc)).toFinset :=
  ⟨writes_sub_of_mem (y := main_v203) rfl (by decide), writes_sub_of_mem (y := main_v204) rfl (by decide), writes_sub_of_mem (y := main_v205) rfl (by decide), writes_sub_of_mem (y := main_v206) rfl (by decide), writes_sub_of_mem (y := main_cst_39) rfl (by decide), writes_sub_of_mem (y := main_v207) rfl (by decide), writes_sub_of_mem (y := main_cst_40) rfl (by decide), writes_sub_of_mem (y := main_v208) rfl (by decide), writes_sub_of_mem (y := main_v209) rfl (by decide), writes_sub_of_mem (y := main_c_41) rfl (by decide), writes_sub_of_mem (y := main_call7.cst.ref) rfl (by decide), writes_sub_of_mem (y := main_call7.v0.ref) rfl (by decide), writes_sub_of_mem (y := main_call7.v1.ref) rfl (by decide), writes_sub_of_mem (y := main_call7.cst_0.ref) rfl (by decide), writes_sub_of_mem (y := main_call7.v2.ref) rfl (by decide), writes_sub_of_mem (y := main_call7.v3.ref) rfl (by decide), writes_sub_of_mem (y := main_call7.v4.ref) rfl (by decide), writes_sub_of_mem (y := main_call7.v5.ref) rfl (by decide), writes_sub_of_mem (y := main_call7.v6.ref) rfl (by decide), writes_sub_of_mem (y := main_call7.v7.ref) rfl (by decide), writes_sub_of_mem (y := main_call7.cst_1.ref) rfl (by decide), writes_sub_of_mem (y := main_call7.v8.ref) rfl (by decide), writes_sub_of_mem (y := main_call7.cst_2.ref) rfl (by decide), writes_sub_of_mem (y := main_call7.v9.ref) rfl (by decide), writes_sub_of_mem (y := main_call7.v10.ref) rfl (by decide), writes_sub_of_mem (y := main_call7.v11.ref) rfl (by decide), writes_sub_of_mem (y := main_call7.cst_3.ref) rfl (by decide), writes_sub_of_mem (y := main_call7.v12.ref) rfl (by decide), writes_sub_of_mem (y := main_call7.cst_4.ref) rfl (by decide), writes_sub_of_mem (y := main_call7.call0.v0.ref) rfl (by decide), writes_sub_of_mem (y := main_call7.call0.v1.ref) rfl (by decide), writes_sub_of_mem (y := main_call7.call0.v2.ref) rfl (by decide), writes_sub_of_mem (y := main_v211) rfl (by decide), writes_sub_of_mem (y := main_v212) rfl (by decide), writes_sub_of_mem (y := main_v213) rfl (by decide), writes_sub_of_mem (y := main_cst_42) rfl (by decide), writes_sub_of_mem (y := main_v214) rfl (by decide), writes_sub_of_mem (y := main_v215) rfl (by decide), writes_sub_of_mem (y := main_v216) rfl (by decide), writes_sub_of_mem (y := main_v217) rfl (by decide), writes_sub_of_mem (y := main_v218) rfl (by decide), writes_sub_of_mem (y := main_v219) rfl (by decide), writes_sub_of_mem (y := main_v220) rfl (by decide), writes_sub_of_mem (y := main_v221) rfl (by decide), writes_sub_of_mem (y := main_v222) rfl (by decide), writes_sub_of_mem (y := main_v223) rfl (by decide), writes_sub_of_mem (y := main_v224) rfl (by decide), writes_sub_of_mem (y := main_v225) rfl (by decide), writes_sub_of_mem (y := main_call8.cst.ref) rfl (by decide), writes_sub_of_mem (y := main_call8.v0.ref) rfl (by decide), writes_sub_of_mem (y := main_call8.v1.ref) rfl (by decide)⟩
/-- A reference `chunk3c` does not write holds after it what it held before. -/
theorem chunk3c_frame {r : Ref sig .tc} (h : r ∉ chunk3c_W) (V : Valuation τ sig (Elt F)) :
    StableHlo.after chunk3c V (Proc.devRef .tc r) = V (Proc.devRef .tc r) :=
  StableHlo.after_of_writes_sub chunk3c V chunk3c_writes h
/-- The same for rewriting by simplification: the chunk and the buffer stay out of the pattern's index, so that the statement is found at any reference. -/
theorem chunk3c_frame' {r : Ref sig .tc} (h : r ∉ chunk3c_W) (V : Valuation τ sig (Elt F)) :
    StableHlo.after (no_index chunk3c) V (no_index (Proc.devRef .tc r)) = V (Proc.devRef .tc r) :=
  chunk3c_frame h V

/-- The references `chunk4a`'s 6 entries write, in the entries' order. -/
abbrev chunk4a_W : List (Ref sig .tc) :=
  [main_v227, main_v228, main_v229, main_v230, main_v231, main_v232]
set_option maxRecDepth 8192 in
/-- Every entry of `chunk4a` writes one reference of `chunk4a_W`: entry by entry, its builder's written set is that singleton. -/
theorem chunk4a_writes : (chunk4a : List (HloOp τ sig (Elt F))).Forall fun op => op.writes ⊆ (chunk4a_W.map (Proc.devRef (τ := τ) .tc)).toFinset :=
  ⟨writes_sub_of_mem (y := main_v227) rfl (by decide), writes_sub_of_mem (y := main_v228) rfl (by decide), writes_sub_of_mem (y := main_v229) rfl (by decide), writes_sub_of_mem (y := main_v230) rfl (by decide), writes_sub_of_mem (y := main_v231) rfl (by decide), writes_sub_of_mem (y := main_v232) rfl (by decide)⟩
/-- A reference `chunk4a` does not write holds after it what it held before. -/
theorem chunk4a_frame {r : Ref sig .tc} (h : r ∉ chunk4a_W) (V : Valuation τ sig (Elt F)) :
    StableHlo.after chunk4a V (Proc.devRef .tc r) = V (Proc.devRef .tc r) :=
  StableHlo.after_of_writes_sub chunk4a V chunk4a_writes h
/-- The same for rewriting by simplification: the chunk and the buffer stay out of the pattern's index, so that the statement is found at any reference. -/
theorem chunk4a_frame' {r : Ref sig .tc} (h : r ∉ chunk4a_W) (V : Valuation τ sig (Elt F)) :
    StableHlo.after (no_index chunk4a) V (no_index (Proc.devRef .tc r)) = V (Proc.devRef .tc r) :=
  chunk4a_frame h V

/-- The references `chunk4b`'s 56 entries write, in the entries' order. -/
abbrev chunk4b_W : List (Ref sig .tc) :=
  [main_v233, main_v234, main_cst_43, main_v235, main_v236, main_cst_44, main_v237, main_v238, main_v239, main_cst_45, main_v240, main_v241, main_v242, main_cst_46, main_call9.v0.ref, main_call9.v1.ref, main_call9.v2.ref, main_c_47, main_v244, main_v245, main_c_48, main_v246, main_v247, main_v248, main_v249, main_v250, main_v251, main_c_49, main_v252, main_v253, main_c_50, main_v254, main_v255, main_v256, main_v257, main_v258, main_v259, main_c_51, main_v260, main_v261, main_c_52, main_v262, main_v263, main_v264, main_v265, main_v266, main_v267, main_v268, main_v269, main_cst_53, main_v270, main_v271, main_v272, main_v273, main_v274, main_v275]
set_option maxRecDepth 8192 in
/-- Every entry of `chunk4b` writes one reference of `chunk4b_W`: entry by entry, its builder's written set is that singleton. -/
theorem chunk4b_writes : (chunk4b : List (HloOp τ sig (Elt F))).Forall fun op => op.writes ⊆ (chunk4b_W.map (Proc.devRef (τ := τ) .tc)).toFinset :=
  ⟨writes_sub_of_mem (y := main_v233) rfl (by decide), writes_sub_of_mem (y := main_v234) rfl (by decide), writes_sub_of_mem (y := main_cst_43) rfl (by decide), writes_sub_of_mem (y := main_v235) rfl (by decide), writes_sub_of_mem (y := main_v236) rfl (by decide), writes_sub_of_mem (y := main_cst_44) rfl (by decide), writes_sub_of_mem (y := main_v237) rfl (by decide), writes_sub_of_mem (y := main_v238) rfl (by decide), writes_sub_of_mem (y := main_v239) rfl (by decide), writes_sub_of_mem (y := main_cst_45) rfl (by decide), writes_sub_of_mem (y := main_v240) rfl (by decide), writes_sub_of_mem (y := main_v241) rfl (by decide), writes_sub_of_mem (y := main_v242) rfl (by decide), writes_sub_of_mem (y := main_cst_46) rfl (by decide), writes_sub_of_mem (y := main_call9.v0.ref) rfl (by decide), writes_sub_of_mem (y := main_call9.v1.ref) rfl (by decide), writes_sub_of_mem (y := main_call9.v2.ref) rfl (by decide), writes_sub_of_mem (y := main_c_47) rfl (by decide), writes_sub_of_mem (y := main_v244) rfl (by decide), writes_sub_of_mem (y := main_v245) rfl (by decide), writes_sub_of_mem (y := main_c_48) rfl (by decide), writes_sub_of_mem (y := main_v246) rfl (by decide), writes_sub_of_mem (y := main_v247) rfl (by decide), writes_sub_of_mem (y := main_v248) rfl (by decide), writes_sub_of_mem (y := main_v249) rfl (by decide), writes_sub_of_mem (y := main_v250) rfl (by decide), writes_sub_of_mem (y := main_v251) rfl (by decide), writes_sub_of_mem (y := main_c_49) rfl (by decide), writes_sub_of_mem (y := main_v252) rfl (by decide), writes_sub_of_mem (y := main_v253) rfl (by decide), writes_sub_of_mem (y := main_c_50) rfl (by decide), writes_sub_of_mem (y := main_v254) rfl (by decide), writes_sub_of_mem (y := main_v255) rfl (by decide), writes_sub_of_mem (y := main_v256) rfl (by decide), writes_sub_of_mem (y := main_v257) rfl (by decide), writes_sub_of_mem (y := main_v258) rfl (by decide), writes_sub_of_mem (y := main_v259) rfl (by decide), writes_sub_of_mem (y := main_c_51) rfl (by decide), writes_sub_of_mem (y := main_v260) rfl (by decide), writes_sub_of_mem (y := main_v261) rfl (by decide), writes_sub_of_mem (y := main_c_52) rfl (by decide), writes_sub_of_mem (y := main_v262) rfl (by decide), writes_sub_of_mem (y := main_v263) rfl (by decide), writes_sub_of_mem (y := main_v264) rfl (by decide), writes_sub_of_mem (y := main_v265) rfl (by decide), writes_sub_of_mem (y := main_v266) rfl (by decide), writes_sub_of_mem (y := main_v267) rfl (by decide), writes_sub_of_mem (y := main_v268) rfl (by decide), writes_sub_of_mem (y := main_v269) rfl (by decide), writes_sub_of_mem (y := main_cst_53) rfl (by decide), writes_sub_of_mem (y := main_v270) rfl (by decide), writes_sub_of_mem (y := main_v271) rfl (by decide), writes_sub_of_mem (y := main_v272) rfl (by decide), writes_sub_of_mem (y := main_v273) rfl (by decide), writes_sub_of_mem (y := main_v274) rfl (by decide), writes_sub_of_mem (y := main_v275) rfl (by decide)⟩
/-- A reference `chunk4b` does not write holds after it what it held before. -/
theorem chunk4b_frame {r : Ref sig .tc} (h : r ∉ chunk4b_W) (V : Valuation τ sig (Elt F)) :
    StableHlo.after chunk4b V (Proc.devRef .tc r) = V (Proc.devRef .tc r) :=
  StableHlo.after_of_writes_sub chunk4b V chunk4b_writes h
/-- The same for rewriting by simplification: the chunk and the buffer stay out of the pattern's index, so that the statement is found at any reference. -/
theorem chunk4b_frame' {r : Ref sig .tc} (h : r ∉ chunk4b_W) (V : Valuation τ sig (Elt F)) :
    StableHlo.after (no_index chunk4b) V (no_index (Proc.devRef .tc r)) = V (Proc.devRef .tc r) :=
  chunk4b_frame h V

/-- The references `chunk4c`'s 51 entries write, in the entries' order. -/
abbrev chunk4c_W : List (Ref sig .tc) :=
  [main_v276, main_v277, main_v278, main_v279, main_cst_54, main_v280, main_cst_55, main_v281, main_v282, main_c_56, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v284, main_v285, main_v286, main_cst_57, main_v287, main_v288, main_v289, main_v290, main_v291, main_v292, main_v293, main_v294, main_v295, main_v296, main_v297, main_v298, main_call11.cst.ref, main_call11.v0.ref, main_call11.v1.ref]
set_option maxRecDepth 8192 in
/-- Every entry of `chunk4c` writes one reference of `chunk4c_W`: entry by entry, its builder's written set is that singleton. -/
theorem chunk4c_writes : (chunk4c : List (HloOp τ sig (Elt F))).Forall fun op => op.writes ⊆ (chunk4c_W.map (Proc.devRef (τ := τ) .tc)).toFinset :=
  ⟨writes_sub_of_mem (y := main_v276) rfl (by decide), writes_sub_of_mem (y := main_v277) rfl (by decide), writes_sub_of_mem (y := main_v278) rfl (by decide), writes_sub_of_mem (y := main_v279) rfl (by decide), writes_sub_of_mem (y := main_cst_54) rfl (by decide), writes_sub_of_mem (y := main_v280) rfl (by decide), writes_sub_of_mem (y := main_cst_55) rfl (by decide), writes_sub_of_mem (y := main_v281) rfl (by decide), writes_sub_of_mem (y := main_v282) rfl (by decide), writes_sub_of_mem (y := main_c_56) rfl (by decide), writes_sub_of_mem (y := main_call10.cst.ref) rfl (by decide), writes_sub_of_mem (y := main_call10.v0.ref) rfl (by decide), writes_sub_of_mem (y := main_call10.v1.ref) rfl (by decide), writes_sub_of_mem (y := main_call10.cst_0.ref) rfl (by decide), writes_sub_of_mem (y := main_call10.v2.ref) rfl (by decide), writes_sub_of_mem (y := main_call10.v3.ref) rfl (by decide), writes_sub_of_mem (y := main_call10.v4.ref) rfl (by decide), writes_sub_of_mem (y := main_call10.v5.ref) rfl (by decide), writes_sub_of_mem (y := main_call10.v6.ref) rfl (by decide), writes_sub_of_mem (y := main_call10.v7.ref) rfl (by decide), writes_sub_of_mem (y := main_call10.cst_1.ref) rfl (by decide), writes_sub_of_mem (y := main_call10.v8.ref) rfl (by decide), writes_sub_of_mem (y := main_call10.cst_2.ref) rfl (by decide), writes_sub_of_mem (y := main_call10.v9.ref) rfl (by decide), writes_sub_of_mem (y := main_call10.v10.ref) rfl (by decide), writes_sub_of_mem (y := main_call10.v11.ref) rfl (by decide), writes_sub_of_mem (y := main_call10.cst_3.ref) rfl (by decide), writes_sub_of_mem (y := main_call10.v12.ref) rfl (by decide), writes_sub_of_mem (y := main_call10.cst_4.ref) rfl (by decide), writes_sub_of_mem (y := main_call10.call0.v0.ref) rfl (by decide), writes_sub_of_mem (y := main_call10.call0.v1.ref) rfl (by decide), writes_sub_of_mem (y := main_call10.call0.v2.ref) rfl (by decide), writes_sub_of_mem (y := main_v284) rfl (by decide), writes_sub_of_mem (y := main_v285) rfl (by decide), writes_sub_of_mem (y := main_v286) rfl (by decide), writes_sub_of_mem (y := main_cst_57) rfl (by decide), writes_sub_of_mem (y := main_v287) rfl (by decide), writes_sub_of_mem (y := main_v288) rfl (by decide), writes_sub_of_mem (y := main_v289) rfl (by decide), writes_sub_of_mem (y := main_v290) rfl (by decide), writes_sub_of_mem (y := main_v291) rfl (by decide), writes_sub_of_mem (y := main_v292) rfl (by decide), writes_sub_of_mem (y := main_v293) rfl (by decide), writes_sub_of_mem (y := main_v294) rfl (by decide), writes_sub_of_mem (y := main_v295) rfl (by decide), writes_sub_of_mem (y := main_v296) rfl (by decide), writes_sub_of_mem (y := main_v297) rfl (by decide), writes_sub_of_mem (y := main_v298) rfl (by decide), writes_sub_of_mem (y := main_call11.cst.ref) rfl (by decide), writes_sub_of_mem (y := main_call11.v0.ref) rfl (by decide), writes_sub_of_mem (y := main_call11.v1.ref) rfl (by decide)⟩
/-- A reference `chunk4c` does not write holds after it what it held before. -/
theorem chunk4c_frame {r : Ref sig .tc} (h : r ∉ chunk4c_W) (V : Valuation τ sig (Elt F)) :
    StableHlo.after chunk4c V (Proc.devRef .tc r) = V (Proc.devRef .tc r) :=
  StableHlo.after_of_writes_sub chunk4c V chunk4c_writes h
/-- The same for rewriting by simplification: the chunk and the buffer stay out of the pattern's index, so that the statement is found at any reference. -/
theorem chunk4c_frame' {r : Ref sig .tc} (h : r ∉ chunk4c_W) (V : Valuation τ sig (Elt F)) :
    StableHlo.after (no_index chunk4c) V (no_index (Proc.devRef .tc r)) = V (Proc.devRef .tc r) :=
  chunk4c_frame h V

/-- The references `chunk5`'s 19 entries write, in the entries' order. -/
abbrev chunk5_W : List (Ref sig .tc) :=
  [main_v300, main_v301, main_v302, main_v303, main_v304, main_v305, main_v306, main_cst_58, main_v307, main_v308, main_cst_59, main_v309, main_v310, main_v311, main_cst_60, main_v312, main_v313, main_v314, main_v315]
set_option maxRecDepth 8192 in
/-- Every entry of `chunk5` writes one reference of `chunk5_W`: entry by entry, its builder's written set is that singleton. -/
theorem chunk5_writes : (chunk5 : List (HloOp τ sig (Elt F))).Forall fun op => op.writes ⊆ (chunk5_W.map (Proc.devRef (τ := τ) .tc)).toFinset :=
  ⟨writes_sub_of_mem (y := main_v300) rfl (by decide), writes_sub_of_mem (y := main_v301) rfl (by decide), writes_sub_of_mem (y := main_v302) rfl (by decide), writes_sub_of_mem (y := main_v303) rfl (by decide), writes_sub_of_mem (y := main_v304) rfl (by decide), writes_sub_of_mem (y := main_v305) rfl (by decide), writes_sub_of_mem (y := main_v306) rfl (by decide), writes_sub_of_mem (y := main_cst_58) rfl (by decide), writes_sub_of_mem (y := main_v307) rfl (by decide), writes_sub_of_mem (y := main_v308) rfl (by decide), writes_sub_of_mem (y := main_cst_59) rfl (by decide), writes_sub_of_mem (y := main_v309) rfl (by decide), writes_sub_of_mem (y := main_v310) rfl (by decide), writes_sub_of_mem (y := main_v311) rfl (by decide), writes_sub_of_mem (y := main_cst_60) rfl (by decide), writes_sub_of_mem (y := main_v312) rfl (by decide), writes_sub_of_mem (y := main_v313) rfl (by decide), writes_sub_of_mem (y := main_v314) rfl (by decide), writes_sub_of_mem (y := main_v315) rfl (by decide)⟩
/-- A reference `chunk5` does not write holds after it what it held before. -/
theorem chunk5_frame {r : Ref sig .tc} (h : r ∉ chunk5_W) (V : Valuation τ sig (Elt F)) :
    StableHlo.after chunk5 V (Proc.devRef .tc r) = V (Proc.devRef .tc r) :=
  StableHlo.after_of_writes_sub chunk5 V chunk5_writes h
/-- The same for rewriting by simplification: the chunk and the buffer stay out of the pattern's index, so that the statement is found at any reference. -/
theorem chunk5_frame' {r : Ref sig .tc} (h : r ∉ chunk5_W) (V : Valuation τ sig (Elt F)) :
    StableHlo.after (no_index chunk5) V (no_index (Proc.devRef .tc r)) = V (Proc.devRef .tc r) :=
  chunk5_frame h V

end Cert.ReferenceIdeal.Hand

end
-- ==== Proof.Ref.Frame.lean ====
import proofs.«169164_j46703474376898_1_alg».proof.Proof.Ref.Run
import proofs.«169164_j46703474376898_1_alg».proof.Proof.Ref.Writes
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops_frame {r : Ref sig .tc}
    (h0 : r ∉ chunk0_W) (h1a : r ∉ chunk1a_W) (h1b : r ∉ chunk1b_W) (h1c : r ∉ chunk1c_W) (h2a : r ∉ chunk2a_W) (h2b : r ∉ chunk2b_W) (h2c : r ∉ chunk2c_W) (h3a : r ∉ chunk3a_W) (h3b : r ∉ chunk3b_W) (h3c : r ∉ chunk3c_W) (h4a : r ∉ chunk4a_W) (h4b : r ∉ chunk4b_W) (h4c : r ∉ chunk4c_W) (h5 : r ∉ chunk5_W)
    (V : Valuation τ sig (Elt F)) :
    StableHlo.after ops V (Proc.devRef .tc r) = V (Proc.devRef .tc r) := by
  simp only [ops, StableHlo.after_append]
  rw [chunk5_frame h5, chunk4c_frame h4c, chunk4b_frame h4b, chunk4a_frame h4a, chunk3c_frame h3c, chunk3b_frame h3b, chunk3a_frame h3a, chunk2c_frame h2c, chunk2b_frame h2b, chunk2a_frame h2a, chunk1c_frame h1c, chunk1b_frame h1b, chunk1a_frame h1a, chunk0_frame h0]

theorem ops_arg0 (V : Valuation τ sig (Elt F)) :
    StableHlo.after ops V (Proc.devRef .tc main_arg0) = V (Proc.devRef .tc main_arg0) :=
  ops_frame (by decide) (by decide) (by decide) (by decide) (by decide) (by decide) (by decide) (by decide) (by decide) (by decide) (by decide) (by decide) (by decide) (by decide) V

theorem ops_arg1 (V : Valuation τ sig (Elt F)) :
    StableHlo.after ops V (Proc.devRef .tc main_arg1) = V (Proc.devRef .tc main_arg1) :=
  ops_frame (by decide) (by decide) (by decide) (by decide) (by decide) (by decide) (by decide) (by decide) (by decide) (by decide) (by decide) (by decide) (by decide) (by decide) V

theorem ops_arg2 (V : Valuation τ sig (Elt F)) :
    StableHlo.after ops V (Proc.devRef .tc main_arg2) = V (Proc.devRef .tc main_arg2) :=
  ops_frame (by decide) (by decide) (by decide) (by decide) (by decide) (by decide) (by decide) (by decide) (by decide) (by decide) (by decide) (by decide) (by decide) (by decide) V

theorem ops_arg3 (V : Valuation τ sig (Elt F)) :
    StableHlo.after ops V (Proc.devRef .tc main_arg3) = V (Proc.devRef .tc main_arg3) :=
  ops_frame (by decide) (by decide) (by decide) (by decide) (by decide) (by decide) (by decide) (by decide) (by decide) (by decide) (by decide) (by decide) (by decide) (by decide) V

theorem ops_arg4 (V : Valuation τ sig (Elt F)) :
    StableHlo.after ops V (Proc.devRef .tc main_arg4) = V (Proc.devRef .tc main_arg4) :=
  ops_frame (by decide) (by decide) (by decide) (by decide) (by decide) (by decide) (by decide) (by decide) (by decide) (by decide) (by decide) (by decide) (by decide) (by decide) V

theorem ops_arg5 (V : Valuation τ sig (Elt F)) :
    StableHlo.after ops V (Proc.devRef .tc main_arg5) = V (Proc.devRef .tc main_arg5) :=
  ops_frame (by decide) (by decide) (by decide) (by decide) (by decide) (by decide) (by decide) (by decide) (by decide) (by decide) (by decide) (by decide) (by decide) (by decide) V

theorem ops_arg6 (V : Valuation τ sig (Elt F)) :
    StableHlo.after ops V (Proc.devRef .tc main_arg6) = V (Proc.devRef .tc main_arg6) :=
  ops_frame (by decide) (by decide) (by decide) (by decide) (by decide) (by decide) (by decide) (by decide) (by decide) (by decide) (by decide) (by decide) (by decide) (by decide) V

theorem ops_arg7 (V : Valuation τ sig (Elt F)) :
    StableHlo.after ops V (Proc.devRef .tc main_arg7) = V (Proc.devRef .tc main_arg7) :=
  ops_frame (by decide) (by decide) (by decide) (by decide) (by decide) (by decide) (by decide) (by decide) (by decide) (by decide) (by decide) (by decide) (by decide) (by decide) V

theorem ops_arg8 (V : Valuation τ sig (Elt F)) :
    StableHlo.after ops V (Proc.devRef .tc main_arg8) = V (Proc.devRef .tc main_arg8) :=
  ops_frame (by decide) (by decide) (by decide) (by decide) (by decide) (by decide) (by decide) (by decide) (by decide) (by decide) (by decide) (by decide) (by decide) (by decide) V

theorem ops_arg9 (V : Valuation τ sig (Elt F)) :
    StableHlo.after ops V (Proc.devRef .tc main_arg9) = V (Proc.devRef .tc main_arg9) :=
  ops_frame (by decide) (by decide) (by decide) (by decide) (by decide) (by decide) (by decide) (by decide) (by decide) (by decide) (by decide) (by decide) (by decide) (by decide) V

theorem ops_arg10 (V : Valuation τ sig (Elt F)) :
    StableHlo.after ops V (Proc.devRef .tc main_arg10) = V (Proc.devRef .tc main_arg10) :=
  ops_frame (by decide) (by decide) (by decide) (by decide) (by decide) (by decide) (by decide) (by decide) (by decide) (by decide) (by decide) (by decide) (by decide) (by decide) V

theorem ops_arg11 (V : Valuation τ sig (Elt F)) :
    StableHlo.after ops V (Proc.devRef .tc main_arg11) = V (Proc.devRef .tc main_arg11) :=
  ops_frame (by decide) (by decide) (by decide) (by decide) (by decide) (by decide) (by decide) (by decide) (by decide) (by decide) (by decide) (by decide) (by decide) (by decide) V

theorem ops_arg12 (V : Valuation τ sig (Elt F)) :
    StableHlo.after ops V (Proc.devRef .tc main_arg12) = V (Proc.devRef .tc main_arg12) :=
  ops_frame (by decide) (by decide) (by decide) (by decide) (by decide) (by decide) (by decide) (by decide) (by decide) (by decide) (by decide) (by decide) (by decide) (by decide) V

theorem ops_arg13 (V : Valuation τ sig (Elt F)) :
    StableHlo.after ops V (Proc.devRef .tc main_arg13) = V (Proc.devRef .tc main_arg13) :=
  ops_frame (by decide) (by decide) (by decide) (by decide) (by decide) (by decide) (by decide) (by decide) (by decide) (by decide) (by decide) (by decide) (by decide) (by decide) V

theorem ops_arg14 (V : Valuation τ sig (Elt F)) :
    StableHlo.after ops V (Proc.devRef .tc main_arg14) = V (Proc.devRef .tc main_arg14) :=
  ops_frame (by decide) (by decide) (by decide) (by decide) (by decide) (by decide) (by decide) (by decide) (by decide) (by decide) (by decide) (by decide) (by decide) (by decide) V

theorem valued (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v315) = StableHlo.after ops (launchContents m c) (Proc.devRef .tc main_v315)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨h c main_v315,
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _),
      (h c main_arg10).trans (ops_arg10 _),
      (h c main_arg11).trans (ops_arg11 _),
      (h c main_arg12).trans (ops_arg12 _),
      (h c main_arg13).trans (ops_arg13 _),
      (h c main_arg14).trans (ops_arg14 _)⟩)
    (run_main m ρ)

end Cert.ReferenceIdeal.Hand

end
-- ==== Proof.Ref.ReadsA.lean ====
import proofs.«169164_j46703474376898_1_alg».proof.Proof.Ref.Ops0
import proofs.«169164_j46703474376898_1_alg».proof.Proof.Ref.Ops1
import proofs.«169164_j46703474376898_1_alg».proof.Proof.Ref.Ops2
import proofs.«169164_j46703474376898_1_alg».proof.Proof.Ref.Ops3
import proofs.«169164_j46703474376898_1_alg».proof.Proof.Ref.Ops4
import proofs.«169164_j46703474376898_1_alg».proof.Proof.Ref.Slices

set_option Elab.async false

noncomputable section

namespace Cert.ReferenceIdeal.Hand

open Cert.ReferenceIdeal Idealize.ShloMosaic Idealize.ShloMosaic.TcCoe Idealize.SL.Sem Idealize.ShloMosaic.StableHlo

variable {F : FTy → Type} [FloatOps F]

theorem chunk0_v1 (V : Valuation τ sig (Elt F)) :
    StableHlo.after chunk0 V (Proc.devRef .tc main_v1) = edgeRowT 0 (V (Proc.devRef .tc main_arg1)) := by
  after_results_simp
  rfl

theorem chunk0_v3 (V : Valuation τ sig (Elt F)) :
    StableHlo.after chunk0 V (Proc.devRef .tc main_v3) = edgeRowT 1 (V (Proc.devRef .tc main_arg1)) := by
  after_results_simp
  rfl

theorem chunk0_v5 (V : Valuation τ sig (Elt F)) :
    StableHlo.after chunk0 V (Proc.devRef .tc main_v5) = edgeRowT 0 (V (Proc.devRef .tc main_arg3)) := by
  after_results_simp
  rfl

theorem chunk0_v7 (V : Valuation τ sig (Elt F)) :
    StableHlo.after chunk0 V (Proc.devRef .tc main_v7) = edgeRowT 1 (V (Proc.devRef .tc main_arg3)) := by
  after_results_simp
  rfl

theorem chunk0_v9 (V : Valuation τ sig (Elt F)) :
    StableHlo.after chunk0 V (Proc.devRef .tc main_v9) = matT 0 (V (Proc.devRef .tc main_arg5)) := by
  after_results_simp
  rfl

theorem chunk0_v11 (V : Valuation τ sig (Elt F)) :
    StableHlo.after chunk0 V (Proc.devRef .tc main_v11) = rowT 0 (V (Proc.devRef .tc main_arg6)) := by
  after_results_simp
  rfl

theorem chunk1a_v12 (V : Valuation τ sig (Elt F)) :
    StableHlo.after chunk1a V (Proc.devRef .tc main_v12) = Host.dotGeneral dot_S50000x128_S128x128_S50000x128_1_0_0_1_n_n none (V (Proc.devRef .tc main_arg0)) (V (Proc.devRef .tc main_v9)) := by
  after_results_simp

theorem chunk1a_v13 (V : Valuation τ sig (Elt F)) :
    StableHlo.after chunk1a V (Proc.devRef .tc main_v13) = iotaInDim S50000 32 0 := by
  after_results_simp

theorem chunk2a_v84 (V : Valuation τ sig (Elt F)) :
    StableHlo.after chunk2a V (Proc.devRef .tc main_v84) = rowT 1 (V (Proc.devRef .tc main_arg6)) := by
  after_results_simp
  rfl

theorem chunk2a_v85 (V : Valuation τ sig (Elt F)) :
    StableHlo.after chunk2a V (Proc.devRef .tc main_v85) = Host.dotGeneral dot_S50000x128_S128x128_S50000x128_1_0_0_1_n_n none (V (Proc.devRef .tc main_v80)) (matT 1 (V (Proc.devRef .tc main_arg5))) := by
  after_results_simp
  rfl

theorem chunk2a_v86 (V : Valuation τ sig (Elt F)) :
    StableHlo.after chunk2a V (Proc.devRef .tc main_v86) = iotaInDim S50000 32 0 := by
  after_results_simp

theorem chunk3a_v157 (V : Valuation τ sig (Elt F)) :
    StableHlo.after chunk3a V (Proc.devRef .tc main_v157) = rowT 0 (V (Proc.devRef .tc main_arg10)) := by
  after_results_simp
  rfl

theorem chunk3a_v158 (V : Valuation τ sig (Elt F)) :
    StableHlo.after chunk3a V (Proc.devRef .tc main_v158) = Host.dotGeneral dot_S50000x128_S128x128_S50000x128_1_0_0_1_n_n none (V (Proc.devRef .tc main_arg0)) (matT 0 (V (Proc.devRef .tc main_arg9))) := by
  after_results_simp
  rfl

theorem chunk3a_v159 (V : Valuation τ sig (Elt F)) :
    StableHlo.after chunk3a V (Proc.devRef .tc main_v159) = iotaInDim S50000 32 0 := by
  after_results_simp

theorem chunk4a_v230 (V : Valuation τ sig (Elt F)) :
    StableHlo.after chunk4a V (Proc.devRef .tc main_v230) = rowT 1 (V (Proc.devRef .tc main_arg10)) := by
  after_results_simp
  rfl

theorem chunk4a_v231 (V : Valuation τ sig (Elt F)) :
    StableHlo.after chunk4a V (Proc.devRef .tc main_v231) = Host.dotGeneral dot_S50000x128_S128x128_S50000x128_1_0_0_1_n_n none (V (Proc.devRef .tc main_v226)) (matT 1 (V (Proc.devRef .tc main_arg9))) := by
  after_results_simp
  rfl

theorem chunk4a_v232 (V : Valuation τ sig (Elt F)) :
    StableHlo.after chunk4a V (Proc.devRef .tc main_v232) = iotaInDim S50000 32 0 := by
  after_results_simp

end Cert.ReferenceIdeal.Hand
-- ==== Proof.Ref.ReadsB.lean ====
import proofs.«169164_j46703474376898_1_alg».proof.Proof.Ref.Ops1
import proofs.«169164_j46703474376898_1_alg».proof.Proof.Ref.Ops2
import proofs.«169164_j46703474376898_1_alg».proof.Proof.Ref.Ops3
import proofs.«169164_j46703474376898_1_alg».proof.Proof.Ref.Ops4
import proofs.«169164_j46703474376898_1_alg».proof.Proof.Ref.GcnTerm
import proofs.«169164_j46703474376898_1_alg».proof.Proof.Ref.BNTerms
import proofs.«169164_j46703474376898_1_alg».proof.Proof.Ref.Slices
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.rsqrt concatenate broadcastInDim iotaInDim

theorem chunk1b_split : (chunk1b : List (HloOp τ sig (Elt F))) = chunk1b.take 5 ++ chunk1b.drop 5 :=
  (List.take_append_drop 5 _).symm

theorem head1_src (V : Valuation τ sig (Elt F)) :
    StableHlo.after (chunk1b.take 5) (StableHlo.after chunk1a V) (Proc.devRef .tc main_v14)
      = concatenate S850000 0 [⟨S800000, (V (Proc.devRef .tc main_v1) : IVec S800000 32)⟩, ⟨S50000, iotaInDim S50000 32 0⟩] concatenates_S800000_S50000_S850000_d0 := by
  simp only [chunk1a, chunk1b, List.take_succ_cons, List.take_zero]
  after_results
  <;> rfl

theorem head1_dst (V : Valuation τ sig (Elt F)) :
    StableHlo.after (chunk1b.take 5) (StableHlo.after chunk1a V) (Proc.devRef .tc main_v15)
      = concatenate S850000 0 [⟨S800000, (V (Proc.devRef .tc main_v3) : IVec S800000 32)⟩, ⟨S50000, iotaInDim S50000 32 0⟩] concatenates_S800000_S50000_S850000_d0 := by
  simp only [chunk1a, chunk1b, List.take_succ_cons, List.take_zero]
  after_results
  <;> rfl

theorem head1_ew (V : Valuation τ sig (Elt F)) :
    StableHlo.after (chunk1b.take 5) (StableHlo.after chunk1a V) (Proc.devRef .tc main_v17)
      = concatenate S850000 0 [⟨S800000, (V (Proc.devRef .tc main_arg2) : FVec F S800000 .f32)⟩, ⟨S50000, broadcastInDim S50000 ![] bcast_S_S50000 (constant S_ .f32 0x3F800000#32)⟩] concatenates_S800000_S50000_S850000_d0 := by
  simp only [chunk1a, chunk1b, List.take_succ_cons, List.take_zero]
  after_results
  <;> rfl

theorem head1_hw (V : Valuation τ sig (Elt F)) :
    StableHlo.after (chunk1b.take 5) (StableHlo.after chunk1a V) (Proc.devRef .tc main_v12)
      = Host.dotGeneral dot_S50000x128_S128x128_S50000x128_1_0_0_1_n_n none (V (Proc.devRef .tc main_arg0) : FVec F S50000x128 .f32) (V (Proc.devRef .tc main_v9) : FVec F S128x128 .f32) := by
  simp only [chunk1a, chunk1b, List.take_succ_cons, List.take_zero]
  after_results
  <;> rfl

theorem head1_b (V : Valuation τ sig (Elt F)) :
    StableHlo.after (chunk1b.take 5) (StableHlo.after chunk1a V) (Proc.devRef .tc main_v11) = (V (Proc.devRef .tc main_v11) : FVec F S128 .f32) := by
  simp only [chunk1a, chunk1b, List.take_succ_cons, List.take_zero]
  after_results
  <;> rfl

set_option maxRecDepth 8192 in
set_option maxHeartbeats 4000000 in

theorem tail1_v56 (W : Valuation τ sig (Elt F)) (hw : FVec F S50000x128 .f32) (src dst : IVec S800000 32) (ew : FVec F S800000 .f32)
    (hhw : W (Proc.devRef .tc main_v12) = hw)
    (hsrc : W (Proc.devRef .tc main_v14) = concatenate S850000 0 [⟨S800000, src⟩, ⟨S50000, iotaInDim S50000 32 0⟩] concatenates_S800000_S50000_S850000_d0)
    (hdst : W (Proc.devRef .tc main_v15) = concatenate S850000 0 [⟨S800000, dst⟩, ⟨S50000, iotaInDim S50000 32 0⟩] concatenates_S800000_S50000_S850000_d0)
    (hew : W (Proc.devRef .tc main_v17) = concatenate S850000 0 [⟨S800000, ew⟩, ⟨S50000, broadcastInDim S50000 ![] bcast_S_S50000 (constant S_ .f32 0x3F800000#32)⟩] concatenates_S800000_S50000_S850000_d0) :
    StableHlo.after (chunk1b.drop 5) W (Proc.devRef .tc main_v56) = biasT (gcnT hw src dst ew) (W (Proc.devRef .tc main_v11)) := by
  simp only [chunk1b, List.drop_succ_cons, List.drop_zero]
  after_results_simp
  simp only [TRef.ofBuf, TRef.toBuf, cast_eq, hhw, hsrc, hdst, hew]
  rfl

theorem chunk1b_v56 (V : Valuation τ sig (Elt F)) :
    StableHlo.after chunk1b (StableHlo.after chunk1a V) (Proc.devRef .tc main_v56)
      = biasT (gcnT (Host.dotGeneral dot_S50000x128_S128x128_S50000x128_1_0_0_1_n_n none (V (Proc.devRef .tc main_arg0) : FVec F S50000x128 .f32) (V (Proc.devRef .tc main_v9) : FVec F S128x128 .f32))
          (V (Proc.devRef .tc main_v1)) (V (Proc.devRef .tc main_v3)) (V (Proc.devRef .tc main_arg2))) (V (Proc.devRef .tc main_v11) : FVec F S128 .f32) := by
  rw [chunk1b_split, StableHlo.after_append,
    tail1_v56 _ _ _ _ _ (head1_hw V) (head1_src V) (head1_dst V) (head1_ew V), head1_b]

theorem chunk2b_split : (chunk2b : List (HloOp τ sig (Elt F))) = chunk2b.take 5 ++ chunk2b.drop 5 :=
  (List.take_append_drop 5 _).symm

theorem head2_src (V : Valuation τ sig (Elt F)) :
    StableHlo.after (chunk2b.take 5) (StableHlo.after chunk2a V) (Proc.devRef .tc main_v87)
      = concatenate S850000 0 [⟨S800000, (V (Proc.devRef .tc main_v1) : IVec S800000 32)⟩, ⟨S50000, iotaInDim S50000 32 0⟩] concatenates_S800000_S50000_S850000_d0 := by
  simp only [chunk2a, chunk2b, List.take_succ_cons, List.take_zero]
  after_results
  <;> rfl

theorem head2_dst (V : Valuation τ sig (Elt F)) :
    StableHlo.after (chunk2b.take 5) (StableHlo.after chunk2a V) (Proc.devRef .tc main_v88)
      = concatenate S850000 0 [⟨S800000, (V (Proc.devRef .tc main_v3) : IVec S800000 32)⟩, ⟨S50000, iotaInDim S50000 32 0⟩] concatenates_S800000_S50000_S850000_d0 := by
  simp only [chunk2a, chunk2b, List.take_succ_cons, List.take_zero]
  after_results
  <;> rfl

theorem head2_ew (V : Valuation τ sig (Elt F)) :
    StableHlo.after (chunk2b.take 5) (StableHlo.after chunk2a V) (Proc.devRef .tc main_v90)
      = concatenate S850000 0 [⟨S800000, (V (Proc.devRef .tc main_arg2) : FVec F S800000 .f32)⟩, ⟨S50000, broadcastInDim S50000 ![] bcast_S_S50000 (constant S_ .f32 0x3F800000#32)⟩] concatenates_S800000_S50000_S850000_d0 := by
  simp only [chunk2a, chunk2b, List.take_succ_cons, List.take_zero]
  after_results
  <;> rfl

theorem head2_hw (V : Valuation τ sig (Elt F)) :
    StableHlo.after (chunk2b.take 5) (StableHlo.after chunk2a V) (Proc.devRef .tc main_v85)
      = Host.dotGeneral dot_S50000x128_S128x128_S50000x128_1_0_0_1_n_n none (V (Proc.devRef .tc main_v80) : FVec F S50000x128 .f32) (matT 1 (V (Proc.devRef .tc main_arg5))) := by
  simp only [chunk2a, chunk2b, List.take_succ_cons, List.take_zero]
  after_results
  <;> rfl

theorem head2_b (V : Valuation τ sig (Elt F)) :
    StableHlo.after (chunk2b.take 5) (StableHlo.after chunk2a V) (Proc.devRef .tc main_v84) = (rowT 1 (V (Proc.devRef .tc main_arg6))) := by
  simp only [chunk2a, chunk2b, List.take_succ_cons, List.take_zero]
  after_results
  <;> rfl

set_option maxRecDepth 8192 in
set_option maxHeartbeats 4000000 in

theorem tail2_v129 (W : Valuation τ sig (Elt F)) (hw : FVec F S50000x128 .f32) (src dst : IVec S800000 32) (ew : FVec F S800000 .f32)
    (hhw : W (Proc.devRef .tc main_v85) = hw)
    (hsrc : W (Proc.devRef .tc main_v87) = concatenate S850000 0 [⟨S800000, src⟩, ⟨S50000, iotaInDim S50000 32 0⟩] concatenates_S800000_S50000_S850000_d0)
    (hdst : W (Proc.devRef .tc main_v88) = concatenate S850000 0 [⟨S800000, dst⟩, ⟨S50000, iotaInDim S50000 32 0⟩] concatenates_S800000_S50000_S850000_d0)
    (hew : W (Proc.devRef .tc main_v90) = concatenate S850000 0 [⟨S800000, ew⟩, ⟨S50000, broadcastInDim S50000 ![] bcast_S_S50000 (constant S_ .f32 0x3F800000#32)⟩] concatenates_S800000_S50000_S850000_d0) :
    StableHlo.after (chunk2b.drop 5) W (Proc.devRef .tc main_v129) = biasT (gcnT hw src dst ew) (W (Proc.devRef .tc main_v84)) := by
  simp only [chunk2b, List.drop_succ_cons, List.drop_zero]
  after_results_simp
  simp only [TRef.ofBuf, TRef.toBuf, cast_eq, hhw, hsrc, hdst, hew]
  rfl

theorem chunk2b_v129 (V : Valuation τ sig (Elt F)) :
    StableHlo.after chunk2b (StableHlo.after chunk2a V) (Proc.devRef .tc main_v129)
      = biasT (gcnT (Host.dotGeneral dot_S50000x128_S128x128_S50000x128_1_0_0_1_n_n none (V (Proc.devRef .tc main_v80) : FVec F S50000x128 .f32) (matT 1 (V (Proc.devRef .tc main_arg5))))
          (V (Proc.devRef .tc main_v1)) (V (Proc.devRef .tc main_v3)) (V (Proc.devRef .tc main_arg2))) (rowT 1 (V (Proc.devRef .tc main_arg6))) := by
  rw [chunk2b_split, StableHlo.after_append,
    tail2_v129 _ _ _ _ _ (head2_hw V) (head2_src V) (head2_dst V) (head2_ew V), head2_b]

theorem chunk3b_split : (chunk3b : List (HloOp τ sig (Elt F))) = chunk3b.take 5 ++ chunk3b.drop 5 :=
  (List.take_append_drop 5 _).symm

theorem head3_src (V : Valuation τ sig (Elt F)) :
    StableHlo.after (chunk3b.take 5) (StableHlo.after chunk3a V) (Proc.devRef .tc main_v160)
      = concatenate S850000 0 [⟨S800000, (V (Proc.devRef .tc main_v5) : IVec S800000 32)⟩, ⟨S50000, iotaInDim S50000 32 0⟩] concatenates_S800000_S50000_S850000_d0 := by
  simp only [chunk3a, chunk3b, List.take_succ_cons, List.take_zero]
  after_results
  <;> rfl

theorem head3_dst (V : Valuation τ sig (Elt F)) :
    StableHlo.after (chunk3b.take 5) (StableHlo.after chunk3a V) (Proc.devRef .tc main_v161)
      = concatenate S850000 0 [⟨S800000, (V (Proc.devRef .tc main_v7) : IVec S800000 32)⟩, ⟨S50000, iotaInDim S50000 32 0⟩] concatenates_S800000_S50000_S850000_d0 := by
  simp only [chunk3a, chunk3b, List.take_succ_cons, List.take_zero]
  after_results
  <;> rfl

theorem head3_ew (V : Valuation τ sig (Elt F)) :
    StableHlo.after (chunk3b.take 5) (StableHlo.after chunk3a V) (Proc.devRef .tc main_v163)
      = concatenate S850000 0 [⟨S800000, (V (Proc.devRef .tc main_arg4) : FVec F S800000 .f32)⟩, ⟨S50000, broadcastInDim S50000 ![] bcast_S_S50000 (constant S_ .f32 0x3F800000#32)⟩] concatenates_S800000_S50000_S850000_d0 := by
  simp only [chunk3a, chunk3b, List.take_succ_cons, List.take_zero]
  after_results
  <;> rfl

theorem head3_hw (V : Valuation τ sig (Elt F)) :
    StableHlo.after (chunk3b.take 5) (StableHlo.after chunk3a V) (Proc.devRef .tc main_v158)
      = Host.dotGeneral dot_S50000x128_S128x128_S50000x128_1_0_0_1_n_n none (V (Proc.devRef .tc main_arg0) : FVec F S50000x128 .f32) (matT 0 (V (Proc.devRef .tc main_arg9))) := by
  simp only [chunk3a, chunk3b, List.take_succ_cons, List.take_zero]
  after_results
  <;> rfl

theorem head3_b (V : Valuation τ sig (Elt F)) :
    StableHlo.after (chunk3b.take 5) (StableHlo.after chunk3a V) (Proc.devRef .tc main_v157) = (rowT 0 (V (Proc.devRef .tc main_arg10))) := by
  simp only [chunk3a, chunk3b, List.take_succ_cons, List.take_zero]
  after_results
  <;> rfl

set_option maxRecDepth 8192 in
set_option maxHeartbeats 4000000 in

theorem tail3_v202 (W : Valuation τ sig (Elt F)) (hw : FVec F S50000x128 .f32) (src dst : IVec S800000 32) (ew : FVec F S800000 .f32)
    (hhw : W (Proc.devRef .tc main_v158) = hw)
    (hsrc : W (Proc.devRef .tc main_v160) = concatenate S850000 0 [⟨S800000, src⟩, ⟨S50000, iotaInDim S50000 32 0⟩] concatenates_S800000_S50000_S850000_d0)
    (hdst : W (Proc.devRef .tc main_v161) = concatenate S850000 0 [⟨S800000, dst⟩, ⟨S50000, iotaInDim S50000 32 0⟩] concatenates_S800000_S50000_S850000_d0)
    (hew : W (Proc.devRef .tc main_v163) = concatenate S850000 0 [⟨S800000, ew⟩, ⟨S50000, broadcastInDim S50000 ![] bcast_S_S50000 (constant S_ .f32 0x3F800000#32)⟩] concatenates_S800000_S50000_S850000_d0) :
    StableHlo.after (chunk3b.drop 5) W (Proc.devRef .tc main_v202) = biasT (gcnT hw src dst ew) (W (Proc.devRef .tc main_v157)) := by
  simp only [chunk3b, List.drop_succ_cons, List.drop_zero]
  after_results_simp
  simp only [TRef.ofBuf, TRef.toBuf, cast_eq, hhw, hsrc, hdst, hew]
  rfl

theorem chunk3b_v202 (V : Valuation τ sig (Elt F)) :
    StableHlo.after chunk3b (StableHlo.after chunk3a V) (Proc.devRef .tc main_v202)
      = biasT (gcnT (Host.dotGeneral dot_S50000x128_S128x128_S50000x128_1_0_0_1_n_n none (V (Proc.devRef .tc main_arg0) : FVec F S50000x128 .f32) (matT 0 (V (Proc.devRef .tc main_arg9))))
          (V (Proc.devRef .tc main_v5)) (V (Proc.devRef .tc main_v7)) (V (Proc.devRef .tc main_arg4))) (rowT 0 (V (Proc.devRef .tc main_arg10))) := by
  rw [chunk3b_split, StableHlo.after_append,
    tail3_v202 _ _ _ _ _ (head3_hw V) (head3_src V) (head3_dst V) (head3_ew V), head3_b]

theorem chunk4b_split : (chunk4b : List (HloOp τ sig (Elt F))) = chunk4b.take 5 ++ chunk4b.drop 5 :=
  (List.take_append_drop 5 _).symm

theorem head4_src (V : Valuation τ sig (Elt F)) :
    StableHlo.after (chunk4b.take 5) (StableHlo.after chunk4a V) (Proc.devRef .tc main_v233)
      = concatenate S850000 0 [⟨S800000, (V (Proc.devRef .tc main_v5) : IVec S800000 32)⟩, ⟨S50000, iotaInDim S50000 32 0⟩] concatenates_S800000_S50000_S850000_d0 := by
  simp only [chunk4a, chunk4b, List.take_succ_cons, List.take_zero]
  after_results
  <;> rfl

theorem head4_dst (V : Valuation τ sig (Elt F)) :
    StableHlo.after (chunk4b.take 5) (StableHlo.after chunk4a V) (Proc.devRef .tc main_v234)
      = concatenate S850000 0 [⟨S800000, (V (Proc.devRef .tc main_v7) : IVec S800000 32)⟩, ⟨S50000, iotaInDim S50000 32 0⟩] concatenates_S800000_S50000_S850000_d0 := by
  simp only [chunk4a, chunk4b, List.take_succ_cons, List.take_zero]
  after_results
  <;> rfl

theorem head4_ew (V : Valuation τ sig (Elt F)) :
    StableHlo.after (chunk4b.take 5) (StableHlo.after chunk4a V) (Proc.devRef .tc main_v236)
      = concatenate S850000 0 [⟨S800000, (V (Proc.devRef .tc main_arg4) : FVec F S800000 .f32)⟩, ⟨S50000, broadcastInDim S50000 ![] bcast_S_S50000 (constant S_ .f32 0x3F800000#32)⟩] concatenates_S800000_S50000_S850000_d0 := by
  simp only [chunk4a, chunk4b, List.take_succ_cons, List.take_zero]
  after_results
  <;> rfl

theorem head4_hw (V : Valuation τ sig (Elt F)) :
    StableHlo.after (chunk4b.take 5) (StableHlo.after chunk4a V) (Proc.devRef .tc main_v231)
      = Host.dotGeneral dot_S50000x128_S128x128_S50000x128_1_0_0_1_n_n none (V (Proc.devRef .tc main_v226) : FVec F S50000x128 .f32) (matT 1 (V (Proc.devRef .tc main_arg9))) := by
  simp only [chunk4a, chunk4b, List.take_succ_cons, List.take_zero]
  after_results
  <;> rfl

theorem head4_b (V : Valuation τ sig (Elt F)) :
    StableHlo.after (chunk4b.take 5) (StableHlo.after chunk4a V) (Proc.devRef .tc main_v230) = (rowT 1 (V (Proc.devRef .tc main_arg10))) := by
  simp only [chunk4a, chunk4b, List.take_succ_cons, List.take_zero]
  after_results
  <;> rfl

set_option maxRecDepth 8192 in
set_option maxHeartbeats 4000000 in

theorem tail4_v275 (W : Valuation τ sig (Elt F)) (hw : FVec F S50000x128 .f32) (src dst : IVec S800000 32) (ew : FVec F S800000 .f32)
    (hhw : W (Proc.devRef .tc main_v231) = hw)
    (hsrc : W (Proc.devRef .tc main_v233) = concatenate S850000 0 [⟨S800000, src⟩, ⟨S50000, iotaInDim S50000 32 0⟩] concatenates_S800000_S50000_S850000_d0)
    (hdst : W (Proc.devRef .tc main_v234) = concatenate S850000 0 [⟨S800000, dst⟩, ⟨S50000, iotaInDim S50000 32 0⟩] concatenates_S800000_S50000_S850000_d0)
    (hew : W (Proc.devRef .tc main_v236) = concatenate S850000 0 [⟨S800000, ew⟩, ⟨S50000, broadcastInDim S50000 ![] bcast_S_S50000 (constant S_ .f32 0x3F800000#32)⟩] concatenates_S800000_S50000_S850000_d0) :
    StableHlo.after (chunk4b.drop 5) W (Proc.devRef .tc main_v275) = biasT (gcnT hw src dst ew) (W (Proc.devRef .tc main_v230)) := by
  simp only [chunk4b, List.drop_succ_cons, List.drop_zero]
  after_results_simp
  simp only [TRef.ofBuf, TRef.toBuf, cast_eq, hhw, hsrc, hdst, hew]
  rfl

theorem chunk4b_v275 (V : Valuation τ sig (Elt F)) :
    StableHlo.after chunk4b (StableHlo.after chunk4a V) (Proc.devRef .tc main_v275)
      = biasT (gcnT (Host.dotGeneral dot_S50000x128_S128x128_S50000x128_1_0_0_1_n_n none (V (Proc.devRef .tc main_v226) : FVec F S50000x128 .f32) (matT 1 (V (Proc.devRef .tc main_arg9))))
          (V (Proc.devRef .tc main_v5)) (V (Proc.devRef .tc main_v7)) (V (Proc.devRef .tc main_arg4))) (rowT 1 (V (Proc.devRef .tc main_arg10))) := by
  rw [chunk4b_split, StableHlo.after_append,
    tail4_v275 _ _ _ _ _ (head4_hw V) (head4_src V) (head4_dst V) (head4_ew V), head4_b]

end Cert.ReferenceIdeal.Hand

end
-- ==== Proof.Ref.ReadsC.lean ====
import proofs.«169164_j46703474376898_1_alg».proof.Proof.Ref.Ops1
import proofs.«169164_j46703474376898_1_alg».proof.Proof.Ref.Ops2
import proofs.«169164_j46703474376898_1_alg».proof.Proof.Ref.Ops3
import proofs.«169164_j46703474376898_1_alg».proof.Proof.Ref.Ops4
import proofs.«169164_j46703474376898_1_alg».proof.Proof.Ref.BNTerms
import proofs.«169164_j46703474376898_1_alg».proof.Proof.Ref.Slices

set_option Elab.async false

noncomputable section

namespace Cert.ReferenceIdeal.Hand

open Cert.ReferenceIdeal Idealize.ShloMosaic Idealize.ShloMosaic.TcCoe Idealize.SL.Sem Idealize.ShloMosaic.StableHlo

variable {F : FTy → Type} [FloatOps F]

set_option maxHeartbeats 4000000 in
set_option maxRecDepth 8192 in

theorem chunk1c_v80 (V : Valuation τ sig (Elt F)) :
    StableHlo.after chunk1c V (Proc.devRef .tc main_v80)
      = normT (V (Proc.devRef .tc main_v56)) (meanT (V (Proc.devRef .tc main_v56))) (varT (V (Proc.devRef .tc main_v56)))
          (rowT 0 (V (Proc.devRef .tc main_arg7))) (rowT 0 (V (Proc.devRef .tc main_arg8))) := by
  unfold normT meanT varT
  after_results_simp
  (try simp only [TRef.ofBuf, TRef.toBuf, cast_eq])
  rfl

set_option maxHeartbeats 4000000 in
set_option maxRecDepth 8192 in

theorem chunk2c_v153 (V : Valuation τ sig (Elt F)) :
    StableHlo.after chunk2c V (Proc.devRef .tc main_v153)
      = normT (V (Proc.devRef .tc main_v129)) (meanT (V (Proc.devRef .tc main_v129))) (varT (V (Proc.devRef .tc main_v129)))
          (rowT 1 (V (Proc.devRef .tc main_arg7))) (rowT 1 (V (Proc.devRef .tc main_arg8))) := by
  unfold normT meanT varT
  after_results_simp
  (try simp only [TRef.ofBuf, TRef.toBuf, cast_eq])
  rfl

set_option maxHeartbeats 4000000 in
set_option maxRecDepth 8192 in

theorem chunk3c_v226 (V : Valuation τ sig (Elt F)) :
    StableHlo.after chunk3c V (Proc.devRef .tc main_v226)
      = normT (V (Proc.devRef .tc main_v202)) (meanT (V (Proc.devRef .tc main_v202))) (varT (V (Proc.devRef .tc main_v202)))
          (rowT 0 (V (Proc.devRef .tc main_arg11))) (rowT 0 (V (Proc.devRef .tc main_arg12))) := by
  unfold normT meanT varT
  after_results_simp
  (try simp only [TRef.ofBuf, TRef.toBuf, cast_eq])
  rfl

set_option maxHeartbeats 4000000 in
set_option maxRecDepth 8192 in

theorem chunk4c_v299 (V : Valuation τ sig (Elt F)) :
    StableHlo.after chunk4c V (Proc.devRef .tc main_v299)
      = normT (V (Proc.devRef .tc main_v275)) (meanT (V (Proc.devRef .tc main_v275))) (varT (V (Proc.devRef .tc main_v275)))
          (rowT 1 (V (Proc.devRef .tc main_arg11))) (rowT 1 (V (Proc.devRef .tc main_arg12))) := by
  unfold normT meanT varT
  after_results_simp
  (try simp only [TRef.ofBuf, TRef.toBuf, cast_eq])
  rfl

end Cert.ReferenceIdeal.Hand
-- ==== Proof.Ref.ReadsG.lean ====
import proofs.«169164_j46703474376898_1_alg».proof.Proof.Ref.Ops5
import proofs.«169164_j46703474376898_1_alg».proof.Proof.Ref.GateRead

set_option Elab.async false

noncomputable section

namespace Cert.ReferenceIdeal.Hand

open Cert.ReferenceIdeal Idealize.ShloMosaic Idealize.ShloMosaic.TcCoe Idealize.SL.Sem Idealize.ShloMosaic.StableHlo

variable {F : FTy → Type} [FloatOps F]

set_option maxHeartbeats 4000000 in
set_option maxRecDepth 8192 in

theorem chunk5_v315 (V : Valuation τ sig (Elt F)) :
    StableHlo.after chunk5 V (Proc.devRef .tc main_v315)
      = gateT (V (Proc.devRef .tc main_v153)) (V (Proc.devRef .tc main_v299)) (V (Proc.devRef .tc main_arg13)) (V (Proc.devRef .tc main_arg14)) := by
  unfold gateT gateCat
  after_results_simp <;> rfl

end Cert.ReferenceIdeal.Hand
-- ==== Proof.Ref.Reads.lean ====
import proofs.«169164_j46703474376898_1_alg».proof.Proof.Ref.Run
import proofs.«169164_j46703474376898_1_alg».proof.Proof.Ref.Writes
import proofs.«169164_j46703474376898_1_alg».proof.Proof.Ref.ReadsA
import proofs.«169164_j46703474376898_1_alg».proof.Proof.Ref.ReadsB
import proofs.«169164_j46703474376898_1_alg».proof.Proof.Ref.ReadsC
import proofs.«169164_j46703474376898_1_alg».proof.Proof.Ref.ReadsG
import proofs.«169164_j46703474376898_1_alg».proof.Proof.Ref.RefOut
import Idealize.ShloMosaic.Lib.Pipeline.Frame

set_option Elab.async false

noncomputable section

namespace Cert.ReferenceIdeal.Hand

open Cert.ReferenceIdeal Idealize.ShloMosaic Idealize.ShloMosaic.TcCoe Idealize.SL.Sem Idealize.ShloMosaic.StableHlo

variable {F : FTy → Type} [FloatOps F]

theorem layer1_v80 (V : Valuation τ sig (Elt F)) :
    StableHlo.after chunk1c (StableHlo.after chunk1b (StableHlo.after chunk1a V)) (Proc.devRef .tc main_v80)
      = layerT (V (Proc.devRef .tc main_arg0)) (V (Proc.devRef .tc main_v9)) (V (Proc.devRef .tc main_v11))
          (rowT 0 (V (Proc.devRef .tc main_arg7))) (rowT 0 (V (Proc.devRef .tc main_arg8)))
          (V (Proc.devRef .tc main_v1)) (V (Proc.devRef .tc main_v3)) (V (Proc.devRef .tc main_arg2)) := by
  rw [chunk1c_v80, chunk1b_v56]
  simp (disch := decide) only [chunk1a_frame', chunk1b_frame']
  rfl

theorem layer2_v153 (V : Valuation τ sig (Elt F)) :
    StableHlo.after chunk2c (StableHlo.after chunk2b (StableHlo.after chunk2a V)) (Proc.devRef .tc main_v153)
      = layerT (V (Proc.devRef .tc main_v80)) (matT 1 (V (Proc.devRef .tc main_arg5))) (rowT 1 (V (Proc.devRef .tc main_arg6)))
          (rowT 1 (V (Proc.devRef .tc main_arg7))) (rowT 1 (V (Proc.devRef .tc main_arg8)))
          (V (Proc.devRef .tc main_v1)) (V (Proc.devRef .tc main_v3)) (V (Proc.devRef .tc main_arg2)) := by
  rw [chunk2c_v153, chunk2b_v129]
  simp (disch := decide) only [chunk2a_frame', chunk2b_frame']
  rfl

theorem layer3_v226 (V : Valuation τ sig (Elt F)) :
    StableHlo.after chunk3c (StableHlo.after chunk3b (StableHlo.after chunk3a V)) (Proc.devRef .tc main_v226)
      = layerT (V (Proc.devRef .tc main_arg0)) (matT 0 (V (Proc.devRef .tc main_arg9))) (rowT 0 (V (Proc.devRef .tc main_arg10)))
          (rowT 0 (V (Proc.devRef .tc main_arg11))) (rowT 0 (V (Proc.devRef .tc main_arg12)))
          (V (Proc.devRef .tc main_v5)) (V (Proc.devRef .tc main_v7)) (V (Proc.devRef .tc main_arg4)) := by
  rw [chunk3c_v226, chunk3b_v202]
  simp (disch := decide) only [chunk3a_frame', chunk3b_frame']
  rfl

theorem layer4_v299 (V : Valuation τ sig (Elt F)) :
    StableHlo.after chunk4c (StableHlo.after chunk4b (StableHlo.after chunk4a V)) (Proc.devRef .tc main_v299)
      = layerT (V (Proc.devRef .tc main_v226)) (matT 1 (V (Proc.devRef .tc main_arg9))) (rowT 1 (V (Proc.devRef .tc main_arg10)))
          (rowT 1 (V (Proc.devRef .tc main_arg11))) (rowT 1 (V (Proc.devRef .tc main_arg12)))
          (V (Proc.devRef .tc main_v5)) (V (Proc.devRef .tc main_v7)) (V (Proc.devRef .tc main_arg4)) := by
  rw [chunk4c_v299, chunk4b_v275]
  simp (disch := decide) only [chunk4a_frame', chunk4b_frame']
  rfl

set_option maxHeartbeats 4000000 in

theorem ops_v315 (V : Valuation τ sig (Elt F)) :
    StableHlo.after ops V (Proc.devRef .tc main_v315)
      = refOut (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8))
          (V (Proc.devRef .tc main_arg9)) (V (Proc.devRef .tc main_arg10)) (V (Proc.devRef .tc main_arg11)) (V (Proc.devRef .tc main_arg12))
          (V (Proc.devRef .tc main_arg13)) (V (Proc.devRef .tc main_arg14)) := by

  simp only [ops, StableHlo.after_append]

  rw [chunk5_v315]
  simp (disch := decide) only [chunk0_frame', chunk1a_frame', chunk1b_frame', chunk1c_frame', chunk2a_frame', chunk2b_frame', chunk2c_frame', chunk3a_frame', chunk3b_frame', chunk3c_frame', chunk4a_frame', chunk4b_frame', chunk4c_frame', chunk5_frame']

  rw [layer4_v299, layer2_v153]
  simp (disch := decide) only [chunk0_frame', chunk1a_frame', chunk1b_frame', chunk1c_frame', chunk2a_frame', chunk2b_frame', chunk2c_frame', chunk3a_frame', chunk3b_frame', chunk3c_frame', chunk4a_frame', chunk4b_frame', chunk4c_frame', chunk5_frame']

  rw [layer3_v226, layer1_v80]
  simp (disch := decide) only [chunk0_frame', chunk1a_frame', chunk1b_frame', chunk1c_frame', chunk2a_frame', chunk2b_frame', chunk2c_frame', chunk3a_frame', chunk3b_frame', chunk3c_frame', chunk4a_frame', chunk4b_frame', chunk4c_frame', chunk5_frame']

  rw [chunk0_v1, chunk0_v3, chunk0_v5, chunk0_v7, chunk0_v9, chunk0_v11]
  rfl

end Cert.ReferenceIdeal.Hand
-- ==== Proof.Ref.Compose.lean ====
import proofs.«169164_j46703474376898_1_alg».proof.Proof.Ref.Reads

set_option Elab.async false

noncomputable section

namespace Cert.ReferenceIdeal.Hand

open Cert.ReferenceIdeal Idealize.ShloMosaic Idealize.ShloMosaic.TcCoe Idealize.SL.Sem Idealize.ShloMosaic.StableHlo

variable {F : FTy → Type} [FloatOps F]

theorem result_of_args (m : (ℓ : Loc nD τ sig) → Buf (Elt F) ℓ) (c : Dev nD) :
    StableHlo.after ops (launchContents m c) (Proc.devRef .tc main_v315)
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) :=
  ops_v315 (launchContents m c)

end Cert.ReferenceIdeal.Hand
-- ==== Proof.lean ====
import proofs.«169164_j46703474376898_1_alg».proof.Defs
import proofs.«169164_j46703474376898_1_alg».proof.Proof.Gen.Kernel
import proofs.«169164_j46703474376898_1_alg».proof.Proof.Gen.KernelIdeal
import proofs.«169164_j46703474376898_1_alg».proof.Proof.Gen.ReferenceIdeal
import proofs.«169164_j46703474376898_1_alg».proof.Proof.Gen.Pre_finite_inputs
import proofs.«169164_j46703474376898_1_alg».proof.Proof.Kernel.Frame
import proofs.«169164_j46703474376898_1_alg».proof.Proof.KernelIdeal.Frame
import proofs.«169164_j46703474376898_1_alg».proof.Proof.KernelIdeal.Value
import proofs.«169164_j46703474376898_1_alg».proof.Proof.Ref.Frame
import proofs.«169164_j46703474376898_1_alg».proof.Proof.Ref.Compose
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_reference : Cert.frame_ReferenceIdeal := fun m ρ _ =>
  (θ_run Cert.ReferenceIdeal.defs _ _).mono (fun _ h c => (h c).2) (Cert.ReferenceIdeal.Hand.valued (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.V34 m (Cert.KernelIdeal.Run.outs m) c Cert.KernelIdeal.main_v255,
    Cert.KernelIdeal.Run.valued m ρ, ?_⟩
  refine (θ_run (Cert.ReferenceIdeal.defs (F := Ideal)) _ _).mono (fun r h c => ⟨?_, (h c).2⟩)
    (Cert.ReferenceIdeal.Hand.valued m' ρ')
  obtain ⟨h0, h1, h2, h3, h4, h5, h6, h7, h8, h9, h10, h11, h12, h13, h14⟩ := hagree c
  rw [(h c).1, Cert.ReferenceIdeal.Hand.result_of_args m' c, h0, h1, h2, h3, h4, h5, h6, h7, h8, h9, h10, h11, h12, h13, h14]
  exact (Cert.KernelIdeal.Val.kernel_value m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
